-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S512x512 : Shape := ⟨2, ![512, 512]⟩
abbrev S3x128x128 : Shape := ⟨3, ![3, 128, 128]⟩
abbrev S128x128 : Shape := ⟨2, ![128, 128]⟩
abbrev S15x128x128 : Shape := ⟨3, ![15, 128, 128]⟩
abbrev S3x2 : Shape := ⟨2, ![3, 2]⟩
abbrev S15x2 : Shape := ⟨2, ![15, 2]⟩
abbrev S_ : Shape := ⟨0, ![]⟩
abbrev S1x1 : Shape := ⟨2, ![1, 1]⟩
abbrev S1x64x128 : Shape := ⟨3, ![1, 64, 128]⟩
abbrev S64x128 : Shape := ⟨2, ![64, 128]⟩

abbrev nBuf : Space → Nat
  | .hbm => 2
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S3x128x128, .f32⟩
  | .local _ .vmem, ⟨3, _⟩ => ⟨S128x128, .f32⟩
  | .local _ .vmem, ⟨4, _⟩ => ⟨S15x128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v23 : BitVec 32 := Scalar.muli v2 c8_i32_9
  let v24 : BitVec 32 := Scalar.addi c0_i32_10 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v25 : BitVec 32 := Scalar.muli v5 c4_i32_11
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_12 : BitVec 32 := 1#32
  let v27 : BitVec 32 := Scalar.muli v22 c1_i32_12
  let v28 : BitVec 32 := Scalar.addi v26 v27
  v28.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v40 : BitVec 32 := Scalar.muli v2 c8_i32_21
  let v41 : BitVec 32 := Scalar.addi c0_i32_22 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v42 : BitVec 32 := Scalar.muli v5 c4_i32_23
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v29 : BitVec 32 := Scalar.addi v8 c2_i32_13
  let c4_i32_14 : BitVec 32 := 4#32
  let c0_i32_15 : BitVec 32 := 0#32
  let v30 : BitVec 1 := Scalar.cmpi .eq c4_i32_14 c0_i32_15
  let c1_i32_16 : BitVec 32 := 1#32
  let v31 : BitVec 32 := Scalar.select v30 c1_i32_16 c4_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c1_i32_24 : BitVec 32 := 1#32
  let v44 : BitVec 32 := Scalar.muli v39 c1_i32_24
  let v45 : BitVec 32 := Scalar.addi v43 v44
  v45.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v57 : BitVec 32 := Scalar.muli v2 c8_i32_32
  let v58 : BitVec 32 := Scalar.addi c0_i32_33 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v59 : BitVec 32 := Scalar.muli v5 c4_i32_34
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v46 : BitVec 32 := Scalar.addi v8 c3_i32
  let c4_i32_25 : BitVec 32 := 4#32
  let c0_i32_26 : BitVec 32 := 0#32
  let v47 : BitVec 1 := Scalar.cmpi .eq c4_i32_25 c0_i32_26
  let c1_i32_27 : BitVec 32 := 1#32
  let v48 : BitVec 32 := Scalar.select v47 c1_i32_27 c4_i32_25
  let v49 : BitVec 32 := Scalar.remsi v46 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c1_i32_35 : BitVec 32 := 1#32
  let v61 : BitVec 32 := Scalar.muli v56 c1_i32_35
  let v62 : BitVec 32 := Scalar.addi v60 v61
  v62.toNat
def k0_dev4 (d0 : Dev nD) : Nat :=
  let c0_i32_52 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_36 : BitVec 32 := 0#32
  let v63 : BitVec 32 := Scalar.addi v2 c0_i32_36
  let c2_i32_37 : BitVec 32 := 2#32
  let c0_i32_38 : BitVec 32 := 0#32
  let v64 : BitVec 1 := Scalar.cmpi .eq c2_i32_37 c0_i32_38
  let c1_i32_39 : BitVec 32 := 1#32
  let v65 : BitVec 32 := Scalar.select v64 c1_i32_39 c2_i32_37
  let v66 : BitVec 32 := Scalar.remsi v63 v65
  let c0_i32_41 : BitVec 32 := 0#32
  let v68 : BitVec 1 := Scalar.cmpi .slt v66 c0_i32_41
  let c0_i32_42 : BitVec 32 := 0#32
  let v69 : BitVec 1 := Scalar.cmpi .slt v65 c0_i32_42
  let v70 : BitVec 1 := Scalar.xori v68 v69
  let c0_i32_40 : BitVec 32 := 0#32
  let v67 : BitVec 1 := Scalar.cmpi .ne v66 c0_i32_40
  let v71 : BitVec 1 := Scalar.andi v70 v67
  let v72 : BitVec 32 := Scalar.addi v66 v65
  let v73 : BitVec 32 := Scalar.select v71 v72 v66
  let c8_i32_51 : BitVec 32 := 8#32
  let v85 : BitVec 32 := Scalar.muli v73 c8_i32_51
  let v86 : BitVec 32 := Scalar.addi c0_i32_52 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_43 : BitVec 32 := 1#32
  let v74 : BitVec 32 := Scalar.addi v5 c1_i32_43
  let c2_i32_44 : BitVec 32 := 2#32
  let c0_i32_45 : BitVec 32 := 0#32
  let v75 : BitVec 1 := Scalar.cmpi .eq c2_i32_44 c0_i32_45
  let c1_i32_46 : BitVec 32 := 1#32
  let v76 : BitVec 32 := Scalar.select v75 c1_i32_46 c2_i32_44
  let v77 : BitVec 32 := Scalar.remsi v74 v76
  let c0_i32_48 : BitVec 32 := 0#32
  let v79 : BitVec 1 := Scalar.cmpi .slt v77 c0_i32_48
  let c0_i32_49 : BitVec 32 := 0#32
  let v80 : BitVec 1 := Scalar.cmpi .slt v76 c0_i32_49
  let v81 : BitVec 1 := Scalar.xori v79 v80
  let c0_i32_47 : BitVec 32 := 0#32
  let v78 : BitVec 1 := Scalar.cmpi .ne v77 c0_i32_47
  let v82 : BitVec 1 := Scalar.andi v81 v78
  let v83 : BitVec 32 := Scalar.addi v77 v76
  let v84 : BitVec 32 := Scalar.select v82 v83 v77
  let c4_i32_53 : BitVec 32 := 4#32
  let v87 : BitVec 32 := Scalar.muli v84 c4_i32_53
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v89 : BitVec 32 := Scalar.muli v8 c1_i32_54
  let v90 : BitVec 32 := Scalar.addi v88 v89
  v90.toNat
def k0_dev5 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_55 : BitVec 32 := 1#32
  let v91 : BitVec 32 := Scalar.addi v2 c1_i32_55
  let c2_i32_56 : BitVec 32 := 2#32
  let c0_i32_57 : BitVec 32 := 0#32
  let v92 : BitVec 1 := Scalar.cmpi .eq c2_i32_56 c0_i32_57
  let c1_i32_58 : BitVec 32 := 1#32
  let v93 : BitVec 32 := Scalar.select v92 c1_i32_58 c2_i32_56
  let v94 : BitVec 32 := Scalar.remsi v91 v93
  let c0_i32_60 : BitVec 32 := 0#32
  let v96 : BitVec 1 := Scalar.cmpi .slt v94 c0_i32_60
  let c0_i32_61 : BitVec 32 := 0#32
  let v97 : BitVec 1 := Scalar.cmpi .slt v93 c0_i32_61
  let v98 : BitVec 1 := Scalar.xori v96 v97
  let c0_i32_59 : BitVec 32 := 0#32
  let v95 : BitVec 1 := Scalar.cmpi .ne v94 c0_i32_59
  let v99 : BitVec 1 := Scalar.andi v98 v95
  let v100 : BitVec 32 := Scalar.addi v94 v93
  let v101 : BitVec 32 := Scalar.select v99 v100 v94
  let c8_i32_70 : BitVec 32 := 8#32
  let v113 : BitVec 32 := Scalar.muli v101 c8_i32_70
  let v114 : BitVec 32 := Scalar.addi c0_i32_71 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_62 : BitVec 32 := 0#32
  let v102 : BitVec 32 := Scalar.addi v5 c0_i32_62
  let c2_i32_63 : BitVec 32 := 2#32
  let c0_i32_64 : BitVec 32 := 0#32
  let v103 : BitVec 1 := Scalar.cmpi .eq c2_i32_63 c0_i32_64
  let c1_i32_65 : BitVec 32 := 1#32
  let v104 : BitVec 32 := Scalar.select v103 c1_i32_65 c2_i32_63
  let v105 : BitVec 32 := Scalar.remsi v102 v104
  let c0_i32_67 : BitVec 32 := 0#32
  let v107 : BitVec 1 := Scalar.cmpi .slt v105 c0_i32_67
  let c0_i32_68 : BitVec 32 := 0#32
  let v108 : BitVec 1 := Scalar.cmpi .slt v104 c0_i32_68
  let v109 : BitVec 1 := Scalar.xori v107 v108
  let c0_i32_66 : BitVec 32 := 0#32
  let v106 : BitVec 1 := Scalar.cmpi .ne v105 c0_i32_66
  let v110 : BitVec 1 := Scalar.andi v109 v106
  let v111 : BitVec 32 := Scalar.addi v105 v104
  let v112 : BitVec 32 := Scalar.select v110 v111 v105
  let c4_i32_72 : BitVec 32 := 4#32
  let v115 : BitVec 32 := Scalar.muli v112 c4_i32_72
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v117 : BitVec 32 := Scalar.muli v8 c1_i32_73
  let v118 : BitVec 32 := Scalar.addi v116 v117
  v118.toNat
def k0_dev6 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_74 : BitVec 32 := 1#32
  let v119 : BitVec 32 := Scalar.addi v2 c1_i32_74
  let c2_i32_75 : BitVec 32 := 2#32
  let c0_i32_76 : BitVec 32 := 0#32
  let v120 : BitVec 1 := Scalar.cmpi .eq c2_i32_75 c0_i32_76
  let c1_i32_77 : BitVec 32 := 1#32
  let v121 : BitVec 32 := Scalar.select v120 c1_i32_77 c2_i32_75
  let v122 : BitVec 32 := Scalar.remsi v119 v121
  let c0_i32_79 : BitVec 32 := 0#32
  let v124 : BitVec 1 := Scalar.cmpi .slt v122 c0_i32_79
  let c0_i32_80 : BitVec 32 := 0#32
  let v125 : BitVec 1 := Scalar.cmpi .slt v121 c0_i32_80
  let v126 : BitVec 1 := Scalar.xori v124 v125
  let c0_i32_78 : BitVec 32 := 0#32
  let v123 : BitVec 1 := Scalar.cmpi .ne v122 c0_i32_78
  let v127 : BitVec 1 := Scalar.andi v126 v123
  let v128 : BitVec 32 := Scalar.addi v122 v121
  let v129 : BitVec 32 := Scalar.select v127 v128 v122
  let c8_i32_89 : BitVec 32 := 8#32
  let v141 : BitVec 32 := Scalar.muli v129 c8_i32_89
  let v142 : BitVec 32 := Scalar.addi c0_i32_90 v141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_81 : BitVec 32 := 1#32
  let v130 : BitVec 32 := Scalar.addi v5 c1_i32_81
  let c2_i32_82 : BitVec 32 := 2#32
  let c0_i32_83 : BitVec 32 := 0#32
  let v131 : BitVec 1 := Scalar.cmpi .eq c2_i32_82 c0_i32_83
  let c1_i32_84 : BitVec 32 := 1#32
  let v132 : BitVec 32 := Scalar.select v131 c1_i32_84 c2_i32_82
  let v133 : BitVec 32 := Scalar.remsi v130 v132
  let c0_i32_86 : BitVec 32 := 0#32
  let v135 : BitVec 1 := Scalar.cmpi .slt v133 c0_i32_86
  let c0_i32_87 : BitVec 32 := 0#32
  let v136 : BitVec 1 := Scalar.cmpi .slt v132 c0_i32_87
  let v137 : BitVec 1 := Scalar.xori v135 v136
  let c0_i32_85 : BitVec 32 := 0#32
  let v134 : BitVec 1 := Scalar.cmpi .ne v133 c0_i32_85
  let v138 : BitVec 1 := Scalar.andi v137 v134
  let v139 : BitVec 32 := Scalar.addi v133 v132
  let v140 : BitVec 32 := Scalar.select v138 v139 v133
  let c4_i32_91 : BitVec 32 := 4#32
  let v143 : BitVec 32 := Scalar.muli v140 c4_i32_91
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v145 : BitVec 32 := Scalar.muli v8 c1_i32_92
  let v146 : BitVec 32 := Scalar.addi v144 v145
  v146.toNat
def k0_off1 (d0 : Dev nD) (c0_i32_100 : BitVec 32) (c1_i32_93 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v158 : BitVec 32 := Scalar.muli v10 c128_i32
  let v159 : BitVec 32 := Scalar.addi v158 c0_i32_100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v147 : BitVec 32 := Scalar.addi v8 c1_i32_93
  let c4_i32_94 : BitVec 32 := 4#32
  let c0_i32_95 : BitVec 32 := 0#32
  let v148 : BitVec 1 := Scalar.cmpi .eq c4_i32_94 c0_i32_95
  let c1_i32_96 : BitVec 32 := 1#32
  let v149 : BitVec 32 := Scalar.select v148 c1_i32_96 c4_i32_94
  let v150 : BitVec 32 := Scalar.remsi v147 v149
  let c0_i32_98 : BitVec 32 := 0#32
  let v152 : BitVec 1 := Scalar.cmpi .slt v150 c0_i32_98
  let c0_i32_99 : BitVec 32 := 0#32
  let v153 : BitVec 1 := Scalar.cmpi .slt v149 c0_i32_99
  let v154 : BitVec 1 := Scalar.xori v152 v153
  let c0_i32_97 : BitVec 32 := 0#32
  let v151 : BitVec 1 := Scalar.cmpi .ne v150 c0_i32_97
  let v155 : BitVec 1 := Scalar.andi v154 v151
  let v156 : BitVec 32 := Scalar.addi v150 v149
  let v157 : BitVec 32 := Scalar.select v155 v156 v150
  let c128_i32_101 : BitVec 32 := 128#32
  let v160 : BitVec 32 := Scalar.muli v157 c128_i32_101
  ![v159.toNat, v160.toNat]
def k0_dev7 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v161 : BitVec 32 := Scalar.muli v2 c8_i32_107
  let v162 : BitVec 32 := Scalar.addi c0_i32_108 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v163 : BitVec 32 := Scalar.muli v5 c4_i32_109
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v147 : BitVec 32 := Scalar.addi v8 c1_i32_93
  let c4_i32_94 : BitVec 32 := 4#32
  let c0_i32_95 : BitVec 32 := 0#32
  let v148 : BitVec 1 := Scalar.cmpi .eq c4_i32_94 c0_i32_95
  let c1_i32_96 : BitVec 32 := 1#32
  let v149 : BitVec 32 := Scalar.select v148 c1_i32_96 c4_i32_94
  let v150 : BitVec 32 := Scalar.remsi v147 v149
  let c0_i32_98 : BitVec 32 := 0#32
  let v152 : BitVec 1 := Scalar.cmpi .slt v150 c0_i32_98
  let c0_i32_99 : BitVec 32 := 0#32
  let v153 : BitVec 1 := Scalar.cmpi .slt v149 c0_i32_99
  let v154 : BitVec 1 := Scalar.xori v152 v153
  let c0_i32_97 : BitVec 32 := 0#32
  let v151 : BitVec 1 := Scalar.cmpi .ne v150 c0_i32_97
  let v155 : BitVec 1 := Scalar.andi v154 v151
  let v156 : BitVec 32 := Scalar.addi v150 v149
  let v157 : BitVec 32 := Scalar.select v155 v156 v150
  let c1_i32_110 : BitVec 32 := 1#32
  let v165 : BitVec 32 := Scalar.muli v157 c1_i32_110
  let v166 : BitVec 32 := Scalar.addi v164 v165
  v166.toNat
def k0_dev8 (d0 : Dev nD) : Nat :=
  let c0_i32_129 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_128 : BitVec 32 := 8#32
  let v188 : BitVec 32 := Scalar.muli v2 c8_i32_128
  let v189 : BitVec 32 := Scalar.addi c0_i32_129 v188
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_130 : BitVec 32 := 4#32
  let v190 : BitVec 32 := Scalar.muli v5 c4_i32_130
  let v191 : BitVec 32 := Scalar.addi v189 v190
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_113 : BitVec 32 := 2#32
  let v174 : BitVec 32 := Scalar.addi v8 c2_i32_113
  let c4_i32_114 : BitVec 32 := 4#32
  let c0_i32_115 : BitVec 32 := 0#32
  let v175 : BitVec 1 := Scalar.cmpi .eq c4_i32_114 c0_i32_115
  let c1_i32_116 : BitVec 32 := 1#32
  let v176 : BitVec 32 := Scalar.select v175 c1_i32_116 c4_i32_114
  let v177 : BitVec 32 := Scalar.remsi v174 v176
  let c0_i32_118 : BitVec 32 := 0#32
  let v179 : BitVec 1 := Scalar.cmpi .slt v177 c0_i32_118
  let c0_i32_119 : BitVec 32 := 0#32
  let v180 : BitVec 1 := Scalar.cmpi .slt v176 c0_i32_119
  let v181 : BitVec 1 := Scalar.xori v179 v180
  let c0_i32_117 : BitVec 32 := 0#32
  let v178 : BitVec 1 := Scalar.cmpi .ne v177 c0_i32_117
  let v182 : BitVec 1 := Scalar.andi v181 v178
  let v183 : BitVec 32 := Scalar.addi v177 v176
  let v184 : BitVec 32 := Scalar.select v182 v183 v177
  let c1_i32_131 : BitVec 32 := 1#32
  let v192 : BitVec 32 := Scalar.muli v184 c1_i32_131
  let v193 : BitVec 32 := Scalar.addi v191 v192
  v193.toNat
def k0_dev9 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v215 : BitVec 32 := Scalar.muli v2 c8_i32_149
  let v216 : BitVec 32 := Scalar.addi c0_i32_150 v215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v217 : BitVec 32 := Scalar.muli v5 c4_i32_151
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_134 : BitVec 32 := 3#32
  let v201 : BitVec 32 := Scalar.addi v8 c3_i32_134
  let c4_i32_135 : BitVec 32 := 4#32
  let c0_i32_136 : BitVec 32 := 0#32
  let v202 : BitVec 1 := Scalar.cmpi .eq c4_i32_135 c0_i32_136
  let c1_i32_137 : BitVec 32 := 1#32
  let v203 : BitVec 32 := Scalar.select v202 c1_i32_137 c4_i32_135
  let v204 : BitVec 32 := Scalar.remsi v201 v203
  let c0_i32_139 : BitVec 32 := 0#32
  let v206 : BitVec 1 := Scalar.cmpi .slt v204 c0_i32_139
  let c0_i32_140 : BitVec 32 := 0#32
  let v207 : BitVec 1 := Scalar.cmpi .slt v203 c0_i32_140
  let v208 : BitVec 1 := Scalar.xori v206 v207
  let c0_i32_138 : BitVec 32 := 0#32
  let v205 : BitVec 1 := Scalar.cmpi .ne v204 c0_i32_138
  let v209 : BitVec 1 := Scalar.andi v208 v205
  let v210 : BitVec 32 := Scalar.addi v204 v203
  let v211 : BitVec 32 := Scalar.select v209 v210 v204
  let c1_i32_152 : BitVec 32 := 1#32
  let v219 : BitVec 32 := Scalar.muli v211 c1_i32_152
  let v220 : BitVec 32 := Scalar.addi v218 v219
  v220.toNat
def k0_dev10 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v242 : BitVec 32 := Scalar.muli v2 c8_i32_169
  let v243 : BitVec 32 := Scalar.addi c0_i32_170 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v244 : BitVec 32 := Scalar.muli v5 c4_i32_171
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v228 : BitVec 32 := Scalar.addi v8 c1_i32_155
  let c4_i32_156 : BitVec 32 := 4#32
  let c0_i32_157 : BitVec 32 := 0#32
  let v229 : BitVec 1 := Scalar.cmpi .eq c4_i32_156 c0_i32_157
  let c1_i32_158 : BitVec 32 := 1#32
  let v230 : BitVec 32 := Scalar.select v229 c1_i32_158 c4_i32_156
  let v231 : BitVec 32 := Scalar.remsi v228 v230
  let c0_i32_160 : BitVec 32 := 0#32
  let v233 : BitVec 1 := Scalar.cmpi .slt v231 c0_i32_160
  let c0_i32_161 : BitVec 32 := 0#32
  let v234 : BitVec 1 := Scalar.cmpi .slt v230 c0_i32_161
  let v235 : BitVec 1 := Scalar.xori v233 v234
  let c0_i32_159 : BitVec 32 := 0#32
  let v232 : BitVec 1 := Scalar.cmpi .ne v231 c0_i32_159
  let v236 : BitVec 1 := Scalar.andi v235 v232
  let v237 : BitVec 32 := Scalar.addi v231 v230
  let v238 : BitVec 32 := Scalar.select v236 v237 v231
  let c1_i32_172 : BitVec 32 := 1#32
  let v246 : BitVec 32 := Scalar.muli v238 c1_i32_172
  let v247 : BitVec 32 := Scalar.addi v245 v246
  v247.toNat
def k0_dev11 (d0 : Dev nD) : Nat :=
  let c0_i32_191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_190 : BitVec 32 := 8#32
  let v269 : BitVec 32 := Scalar.muli v2 c8_i32_190
  let v270 : BitVec 32 := Scalar.addi c0_i32_191 v269
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_192 : BitVec 32 := 4#32
  let v271 : BitVec 32 := Scalar.muli v5 c4_i32_192
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_175 : BitVec 32 := 2#32
  let v255 : BitVec 32 := Scalar.addi v8 c2_i32_175
  let c4_i32_176 : BitVec 32 := 4#32
  let c0_i32_177 : BitVec 32 := 0#32
  let v256 : BitVec 1 := Scalar.cmpi .eq c4_i32_176 c0_i32_177
  let c1_i32_178 : BitVec 32 := 1#32
  let v257 : BitVec 32 := Scalar.select v256 c1_i32_178 c4_i32_176
  let v258 : BitVec 32 := Scalar.remsi v255 v257
  let c0_i32_180 : BitVec 32 := 0#32
  let v260 : BitVec 1 := Scalar.cmpi .slt v258 c0_i32_180
  let c0_i32_181 : BitVec 32 := 0#32
  let v261 : BitVec 1 := Scalar.cmpi .slt v257 c0_i32_181
  let v262 : BitVec 1 := Scalar.xori v260 v261
  let c0_i32_179 : BitVec 32 := 0#32
  let v259 : BitVec 1 := Scalar.cmpi .ne v258 c0_i32_179
  let v263 : BitVec 1 := Scalar.andi v262 v259
  let v264 : BitVec 32 := Scalar.addi v258 v257
  let v265 : BitVec 32 := Scalar.select v263 v264 v258
  let c1_i32_193 : BitVec 32 := 1#32
  let v273 : BitVec 32 := Scalar.muli v265 c1_i32_193
  let v274 : BitVec 32 := Scalar.addi v272 v273
  v274.toNat
def k0_dev12 (d0 : Dev nD) : Nat :=
  let c0_i32_212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_211 : BitVec 32 := 8#32
  let v296 : BitVec 32 := Scalar.muli v2 c8_i32_211
  let v297 : BitVec 32 := Scalar.addi c0_i32_212 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_213 : BitVec 32 := 4#32
  let v298 : BitVec 32 := Scalar.muli v5 c4_i32_213
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_196 : BitVec 32 := 3#32
  let v282 : BitVec 32 := Scalar.addi v8 c3_i32_196
  let c4_i32_197 : BitVec 32 := 4#32
  let c0_i32_198 : BitVec 32 := 0#32
  let v283 : BitVec 1 := Scalar.cmpi .eq c4_i32_197 c0_i32_198
  let c1_i32_199 : BitVec 32 := 1#32
  let v284 : BitVec 32 := Scalar.select v283 c1_i32_199 c4_i32_197
  let v285 : BitVec 32 := Scalar.remsi v282 v284
  let c0_i32_201 : BitVec 32 := 0#32
  let v287 : BitVec 1 := Scalar.cmpi .slt v285 c0_i32_201
  let c0_i32_202 : BitVec 32 := 0#32
  let v288 : BitVec 1 := Scalar.cmpi .slt v284 c0_i32_202
  let v289 : BitVec 1 := Scalar.xori v287 v288
  let c0_i32_200 : BitVec 32 := 0#32
  let v286 : BitVec 1 := Scalar.cmpi .ne v285 c0_i32_200
  let v290 : BitVec 1 := Scalar.andi v289 v286
  let v291 : BitVec 32 := Scalar.addi v285 v284
  let v292 : BitVec 32 := Scalar.select v290 v291 v285
  let c1_i32_214 : BitVec 32 := 1#32
  let v300 : BitVec 32 := Scalar.muli v292 c1_i32_214
  let v301 : BitVec 32 := Scalar.addi v299 v300
  v301.toNat
def k0_off2 (d0 : Dev nD) (c0_i32_251 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_250 : BitVec 32 := 128#32
  let v342 : BitVec 32 := Scalar.muli v10 c128_i32_250
  let v343 : BitVec 32 := Scalar.addi v342 c0_i32_251
  let v345 : Index := Scalar.indexCast v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_252 : BitVec 32 := 128#32
  let v344 : BitVec 32 := Scalar.muli v8 c128_i32_252
  let v346 : Index := Scalar.indexCast v344
  ![v345.toNat, v346.toNat]
def k0_dev13 (d0 : Dev nD) : Nat :=
  let c0_i32_296 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_268 : BitVec 32 := 0#32
  let v368 : BitVec 32 := Scalar.addi v2 c0_i32_268
  let c2_i32_269 : BitVec 32 := 2#32
  let c0_i32_270 : BitVec 32 := 0#32
  let v369 : BitVec 1 := Scalar.cmpi .eq c2_i32_269 c0_i32_270
  let c1_i32_271 : BitVec 32 := 1#32
  let v370 : BitVec 32 := Scalar.select v369 c1_i32_271 c2_i32_269
  let v371 : BitVec 32 := Scalar.remsi v368 v370
  let c0_i32_273 : BitVec 32 := 0#32
  let v373 : BitVec 1 := Scalar.cmpi .slt v371 c0_i32_273
  let c0_i32_274 : BitVec 32 := 0#32
  let v374 : BitVec 1 := Scalar.cmpi .slt v370 c0_i32_274
  let v375 : BitVec 1 := Scalar.xori v373 v374
  let c0_i32_272 : BitVec 32 := 0#32
  let v372 : BitVec 1 := Scalar.cmpi .ne v371 c0_i32_272
  let v376 : BitVec 1 := Scalar.andi v375 v372
  let v377 : BitVec 32 := Scalar.addi v371 v370
  let v378 : BitVec 32 := Scalar.select v376 v377 v371
  let c8_i32_295 : BitVec 32 := 8#32
  let v402 : BitVec 32 := Scalar.muli v378 c8_i32_295
  let v403 : BitVec 32 := Scalar.addi c0_i32_296 v402
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_275 : BitVec 32 := 0#32
  let v379 : BitVec 32 := Scalar.addi v5 c0_i32_275
  let c2_i32_276 : BitVec 32 := 2#32
  let c0_i32_277 : BitVec 32 := 0#32
  let v380 : BitVec 1 := Scalar.cmpi .eq c2_i32_276 c0_i32_277
  let c1_i32_278 : BitVec 32 := 1#32
  let v381 : BitVec 32 := Scalar.select v380 c1_i32_278 c2_i32_276
  let v382 : BitVec 32 := Scalar.remsi v379 v381
  let c0_i32_280 : BitVec 32 := 0#32
  let v384 : BitVec 1 := Scalar.cmpi .slt v382 c0_i32_280
  let c0_i32_281 : BitVec 32 := 0#32
  let v385 : BitVec 1 := Scalar.cmpi .slt v381 c0_i32_281
  let v386 : BitVec 1 := Scalar.xori v384 v385
  let c0_i32_279 : BitVec 32 := 0#32
  let v383 : BitVec 1 := Scalar.cmpi .ne v382 c0_i32_279
  let v387 : BitVec 1 := Scalar.andi v386 v383
  let v388 : BitVec 32 := Scalar.addi v382 v381
  let v389 : BitVec 32 := Scalar.select v387 v388 v382
  let c4_i32_297 : BitVec 32 := 4#32
  let v404 : BitVec 32 := Scalar.muli v389 c4_i32_297
  let v405 : BitVec 32 := Scalar.addi v403 v404
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_282 : BitVec 32 := 4#32
  let v390 : BitVec 32 := Scalar.addi v8 c4_i32_282
  let c1_i32_283 : BitVec 32 := 1#32
  let v391 : BitVec 32 := Scalar.subi v390 c1_i32_283
  let c4_i32_284 : BitVec 32 := 4#32
  let c0_i32_285 : BitVec 32 := 0#32
  let v392 : BitVec 1 := Scalar.cmpi .eq c4_i32_284 c0_i32_285
  let c1_i32_286 : BitVec 32 := 1#32
  let v393 : BitVec 32 := Scalar.select v392 c1_i32_286 c4_i32_284
  let v394 : BitVec 32 := Scalar.remsi v391 v393
  let c0_i32_288 : BitVec 32 := 0#32
  let v396 : BitVec 1 := Scalar.cmpi .slt v394 c0_i32_288
  let c0_i32_289 : BitVec 32 := 0#32
  let v397 : BitVec 1 := Scalar.cmpi .slt v393 c0_i32_289
  let v398 : BitVec 1 := Scalar.xori v396 v397
  let c0_i32_287 : BitVec 32 := 0#32
  let v395 : BitVec 1 := Scalar.cmpi .ne v394 c0_i32_287
  let v399 : BitVec 1 := Scalar.andi v398 v395
  let v400 : BitVec 32 := Scalar.addi v394 v393
  let v401 : BitVec 32 := Scalar.select v399 v400 v394
  let c1_i32_298 : BitVec 32 := 1#32
  let v406 : BitVec 32 := Scalar.muli v401 c1_i32_298
  let v407 : BitVec 32 := Scalar.addi v405 v406
  v407.toNat
def k0_dev14 (d0 : Dev nD) : Nat :=
  let c0_i32_331 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_303 : BitVec 32 := 0#32
  let v415 : BitVec 32 := Scalar.addi v2 c0_i32_303
  let c2_i32_304 : BitVec 32 := 2#32
  let c0_i32_305 : BitVec 32 := 0#32
  let v416 : BitVec 1 := Scalar.cmpi .eq c2_i32_304 c0_i32_305
  let c1_i32_306 : BitVec 32 := 1#32
  let v417 : BitVec 32 := Scalar.select v416 c1_i32_306 c2_i32_304
  let v418 : BitVec 32 := Scalar.remsi v415 v417
  let c0_i32_308 : BitVec 32 := 0#32
  let v420 : BitVec 1 := Scalar.cmpi .slt v418 c0_i32_308
  let c0_i32_309 : BitVec 32 := 0#32
  let v421 : BitVec 1 := Scalar.cmpi .slt v417 c0_i32_309
  let v422 : BitVec 1 := Scalar.xori v420 v421
  let c0_i32_307 : BitVec 32 := 0#32
  let v419 : BitVec 1 := Scalar.cmpi .ne v418 c0_i32_307
  let v423 : BitVec 1 := Scalar.andi v422 v419
  let v424 : BitVec 32 := Scalar.addi v418 v417
  let v425 : BitVec 32 := Scalar.select v423 v424 v418
  let c8_i32_330 : BitVec 32 := 8#32
  let v449 : BitVec 32 := Scalar.muli v425 c8_i32_330
  let v450 : BitVec 32 := Scalar.addi c0_i32_331 v449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_310 : BitVec 32 := 0#32
  let v426 : BitVec 32 := Scalar.addi v5 c0_i32_310
  let c2_i32_311 : BitVec 32 := 2#32
  let c0_i32_312 : BitVec 32 := 0#32
  let v427 : BitVec 1 := Scalar.cmpi .eq c2_i32_311 c0_i32_312
  let c1_i32_313 : BitVec 32 := 1#32
  let v428 : BitVec 32 := Scalar.select v427 c1_i32_313 c2_i32_311
  let v429 : BitVec 32 := Scalar.remsi v426 v428
  let c0_i32_315 : BitVec 32 := 0#32
  let v431 : BitVec 1 := Scalar.cmpi .slt v429 c0_i32_315
  let c0_i32_316 : BitVec 32 := 0#32
  let v432 : BitVec 1 := Scalar.cmpi .slt v428 c0_i32_316
  let v433 : BitVec 1 := Scalar.xori v431 v432
  let c0_i32_314 : BitVec 32 := 0#32
  let v430 : BitVec 1 := Scalar.cmpi .ne v429 c0_i32_314
  let v434 : BitVec 1 := Scalar.andi v433 v430
  let v435 : BitVec 32 := Scalar.addi v429 v428
  let v436 : BitVec 32 := Scalar.select v434 v435 v429
  let c4_i32_332 : BitVec 32 := 4#32
  let v451 : BitVec 32 := Scalar.muli v436 c4_i32_332
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_317 : BitVec 32 := 4#32
  let v437 : BitVec 32 := Scalar.addi v8 c4_i32_317
  let c2_i32_318 : BitVec 32 := 2#32
  let v438 : BitVec 32 := Scalar.subi v437 c2_i32_318
  let c4_i32_319 : BitVec 32 := 4#32
  let c0_i32_320 : BitVec 32 := 0#32
  let v439 : BitVec 1 := Scalar.cmpi .eq c4_i32_319 c0_i32_320
  let c1_i32_321 : BitVec 32 := 1#32
  let v440 : BitVec 32 := Scalar.select v439 c1_i32_321 c4_i32_319
  let v441 : BitVec 32 := Scalar.remsi v438 v440
  let c0_i32_323 : BitVec 32 := 0#32
  let v443 : BitVec 1 := Scalar.cmpi .slt v441 c0_i32_323
  let c0_i32_324 : BitVec 32 := 0#32
  let v444 : BitVec 1 := Scalar.cmpi .slt v440 c0_i32_324
  let v445 : BitVec 1 := Scalar.xori v443 v444
  let c0_i32_322 : BitVec 32 := 0#32
  let v442 : BitVec 1 := Scalar.cmpi .ne v441 c0_i32_322
  let v446 : BitVec 1 := Scalar.andi v445 v442
  let v447 : BitVec 32 := Scalar.addi v441 v440
  let v448 : BitVec 32 := Scalar.select v446 v447 v441
  let c1_i32_333 : BitVec 32 := 1#32
  let v453 : BitVec 32 := Scalar.muli v448 c1_i32_333
  let v454 : BitVec 32 := Scalar.addi v452 v453
  v454.toNat
def k0_dev15 (d0 : Dev nD) : Nat :=
  let c0_i32_366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_338 : BitVec 32 := 0#32
  let v462 : BitVec 32 := Scalar.addi v2 c0_i32_338
  let c2_i32_339 : BitVec 32 := 2#32
  let c0_i32_340 : BitVec 32 := 0#32
  let v463 : BitVec 1 := Scalar.cmpi .eq c2_i32_339 c0_i32_340
  let c1_i32_341 : BitVec 32 := 1#32
  let v464 : BitVec 32 := Scalar.select v463 c1_i32_341 c2_i32_339
  let v465 : BitVec 32 := Scalar.remsi v462 v464
  let c0_i32_343 : BitVec 32 := 0#32
  let v467 : BitVec 1 := Scalar.cmpi .slt v465 c0_i32_343
  let c0_i32_344 : BitVec 32 := 0#32
  let v468 : BitVec 1 := Scalar.cmpi .slt v464 c0_i32_344
  let v469 : BitVec 1 := Scalar.xori v467 v468
  let c0_i32_342 : BitVec 32 := 0#32
  let v466 : BitVec 1 := Scalar.cmpi .ne v465 c0_i32_342
  let v470 : BitVec 1 := Scalar.andi v469 v466
  let v471 : BitVec 32 := Scalar.addi v465 v464
  let v472 : BitVec 32 := Scalar.select v470 v471 v465
  let c8_i32_365 : BitVec 32 := 8#32
  let v496 : BitVec 32 := Scalar.muli v472 c8_i32_365
  let v497 : BitVec 32 := Scalar.addi c0_i32_366 v496
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_345 : BitVec 32 := 0#32
  let v473 : BitVec 32 := Scalar.addi v5 c0_i32_345
  let c2_i32_346 : BitVec 32 := 2#32
  let c0_i32_347 : BitVec 32 := 0#32
  let v474 : BitVec 1 := Scalar.cmpi .eq c2_i32_346 c0_i32_347
  let c1_i32_348 : BitVec 32 := 1#32
  let v475 : BitVec 32 := Scalar.select v474 c1_i32_348 c2_i32_346
  let v476 : BitVec 32 := Scalar.remsi v473 v475
  let c0_i32_350 : BitVec 32 := 0#32
  let v478 : BitVec 1 := Scalar.cmpi .slt v476 c0_i32_350
  let c0_i32_351 : BitVec 32 := 0#32
  let v479 : BitVec 1 := Scalar.cmpi .slt v475 c0_i32_351
  let v480 : BitVec 1 := Scalar.xori v478 v479
  let c0_i32_349 : BitVec 32 := 0#32
  let v477 : BitVec 1 := Scalar.cmpi .ne v476 c0_i32_349
  let v481 : BitVec 1 := Scalar.andi v480 v477
  let v482 : BitVec 32 := Scalar.addi v476 v475
  let v483 : BitVec 32 := Scalar.select v481 v482 v476
  let c4_i32_367 : BitVec 32 := 4#32
  let v498 : BitVec 32 := Scalar.muli v483 c4_i32_367
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_352 : BitVec 32 := 4#32
  let v484 : BitVec 32 := Scalar.addi v8 c4_i32_352
  let c3_i32_353 : BitVec 32 := 3#32
  let v485 : BitVec 32 := Scalar.subi v484 c3_i32_353
  let c4_i32_354 : BitVec 32 := 4#32
  let c0_i32_355 : BitVec 32 := 0#32
  let v486 : BitVec 1 := Scalar.cmpi .eq c4_i32_354 c0_i32_355
  let c1_i32_356 : BitVec 32 := 1#32
  let v487 : BitVec 32 := Scalar.select v486 c1_i32_356 c4_i32_354
  let v488 : BitVec 32 := Scalar.remsi v485 v487
  let c0_i32_358 : BitVec 32 := 0#32
  let v490 : BitVec 1 := Scalar.cmpi .slt v488 c0_i32_358
  let c0_i32_359 : BitVec 32 := 0#32
  let v491 : BitVec 1 := Scalar.cmpi .slt v487 c0_i32_359
  let v492 : BitVec 1 := Scalar.xori v490 v491
  let c0_i32_357 : BitVec 32 := 0#32
  let v489 : BitVec 1 := Scalar.cmpi .ne v488 c0_i32_357
  let v493 : BitVec 1 := Scalar.andi v492 v489
  let v494 : BitVec 32 := Scalar.addi v488 v487
  let v495 : BitVec 32 := Scalar.select v493 v494 v488
  let c1_i32_368 : BitVec 32 := 1#32
  let v500 : BitVec 32 := Scalar.muli v495 c1_i32_368
  let v501 : BitVec 32 := Scalar.addi v499 v500
  v501.toNat
def k0_dev16 (d0 : Dev nD) : Nat :=
  let c0_i32_401 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_373 : BitVec 32 := 0#32
  let v509 : BitVec 32 := Scalar.addi v2 c0_i32_373
  let c2_i32_374 : BitVec 32 := 2#32
  let c0_i32_375 : BitVec 32 := 0#32
  let v510 : BitVec 1 := Scalar.cmpi .eq c2_i32_374 c0_i32_375
  let c1_i32_376 : BitVec 32 := 1#32
  let v511 : BitVec 32 := Scalar.select v510 c1_i32_376 c2_i32_374
  let v512 : BitVec 32 := Scalar.remsi v509 v511
  let c0_i32_378 : BitVec 32 := 0#32
  let v514 : BitVec 1 := Scalar.cmpi .slt v512 c0_i32_378
  let c0_i32_379 : BitVec 32 := 0#32
  let v515 : BitVec 1 := Scalar.cmpi .slt v511 c0_i32_379
  let v516 : BitVec 1 := Scalar.xori v514 v515
  let c0_i32_377 : BitVec 32 := 0#32
  let v513 : BitVec 1 := Scalar.cmpi .ne v512 c0_i32_377
  let v517 : BitVec 1 := Scalar.andi v516 v513
  let v518 : BitVec 32 := Scalar.addi v512 v511
  let v519 : BitVec 32 := Scalar.select v517 v518 v512
  let c8_i32_400 : BitVec 32 := 8#32
  let v543 : BitVec 32 := Scalar.muli v519 c8_i32_400
  let v544 : BitVec 32 := Scalar.addi c0_i32_401 v543
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_380 : BitVec 32 := 1#32
  let v520 : BitVec 32 := Scalar.addi v5 c1_i32_380
  let c2_i32_381 : BitVec 32 := 2#32
  let c0_i32_382 : BitVec 32 := 0#32
  let v521 : BitVec 1 := Scalar.cmpi .eq c2_i32_381 c0_i32_382
  let c1_i32_383 : BitVec 32 := 1#32
  let v522 : BitVec 32 := Scalar.select v521 c1_i32_383 c2_i32_381
  let v523 : BitVec 32 := Scalar.remsi v520 v522
  let c0_i32_385 : BitVec 32 := 0#32
  let v525 : BitVec 1 := Scalar.cmpi .slt v523 c0_i32_385
  let c0_i32_386 : BitVec 32 := 0#32
  let v526 : BitVec 1 := Scalar.cmpi .slt v522 c0_i32_386
  let v527 : BitVec 1 := Scalar.xori v525 v526
  let c0_i32_384 : BitVec 32 := 0#32
  let v524 : BitVec 1 := Scalar.cmpi .ne v523 c0_i32_384
  let v528 : BitVec 1 := Scalar.andi v527 v524
  let v529 : BitVec 32 := Scalar.addi v523 v522
  let v530 : BitVec 32 := Scalar.select v528 v529 v523
  let c4_i32_402 : BitVec 32 := 4#32
  let v545 : BitVec 32 := Scalar.muli v530 c4_i32_402
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_387 : BitVec 32 := 4#32
  let v531 : BitVec 32 := Scalar.addi v8 c4_i32_387
  let c0_i32_388 : BitVec 32 := 0#32
  let v532 : BitVec 32 := Scalar.subi v531 c0_i32_388
  let c4_i32_389 : BitVec 32 := 4#32
  let c0_i32_390 : BitVec 32 := 0#32
  let v533 : BitVec 1 := Scalar.cmpi .eq c4_i32_389 c0_i32_390
  let c1_i32_391 : BitVec 32 := 1#32
  let v534 : BitVec 32 := Scalar.select v533 c1_i32_391 c4_i32_389
  let v535 : BitVec 32 := Scalar.remsi v532 v534
  let c0_i32_393 : BitVec 32 := 0#32
  let v537 : BitVec 1 := Scalar.cmpi .slt v535 c0_i32_393
  let c0_i32_394 : BitVec 32 := 0#32
  let v538 : BitVec 1 := Scalar.cmpi .slt v534 c0_i32_394
  let v539 : BitVec 1 := Scalar.xori v537 v538
  let c0_i32_392 : BitVec 32 := 0#32
  let v536 : BitVec 1 := Scalar.cmpi .ne v535 c0_i32_392
  let v540 : BitVec 1 := Scalar.andi v539 v536
  let v541 : BitVec 32 := Scalar.addi v535 v534
  let v542 : BitVec 32 := Scalar.select v540 v541 v535
  let c1_i32_403 : BitVec 32 := 1#32
  let v547 : BitVec 32 := Scalar.muli v542 c1_i32_403
  let v548 : BitVec 32 := Scalar.addi v546 v547
  v548.toNat
def k0_dev17 (d0 : Dev nD) : Nat :=
  let c0_i32_436 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_408 : BitVec 32 := 0#32
  let v556 : BitVec 32 := Scalar.addi v2 c0_i32_408
  let c2_i32_409 : BitVec 32 := 2#32
  let c0_i32_410 : BitVec 32 := 0#32
  let v557 : BitVec 1 := Scalar.cmpi .eq c2_i32_409 c0_i32_410
  let c1_i32_411 : BitVec 32 := 1#32
  let v558 : BitVec 32 := Scalar.select v557 c1_i32_411 c2_i32_409
  let v559 : BitVec 32 := Scalar.remsi v556 v558
  let c0_i32_413 : BitVec 32 := 0#32
  let v561 : BitVec 1 := Scalar.cmpi .slt v559 c0_i32_413
  let c0_i32_414 : BitVec 32 := 0#32
  let v562 : BitVec 1 := Scalar.cmpi .slt v558 c0_i32_414
  let v563 : BitVec 1 := Scalar.xori v561 v562
  let c0_i32_412 : BitVec 32 := 0#32
  let v560 : BitVec 1 := Scalar.cmpi .ne v559 c0_i32_412
  let v564 : BitVec 1 := Scalar.andi v563 v560
  let v565 : BitVec 32 := Scalar.addi v559 v558
  let v566 : BitVec 32 := Scalar.select v564 v565 v559
  let c8_i32_435 : BitVec 32 := 8#32
  let v590 : BitVec 32 := Scalar.muli v566 c8_i32_435
  let v591 : BitVec 32 := Scalar.addi c0_i32_436 v590
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_415 : BitVec 32 := 1#32
  let v567 : BitVec 32 := Scalar.addi v5 c1_i32_415
  let c2_i32_416 : BitVec 32 := 2#32
  let c0_i32_417 : BitVec 32 := 0#32
  let v568 : BitVec 1 := Scalar.cmpi .eq c2_i32_416 c0_i32_417
  let c1_i32_418 : BitVec 32 := 1#32
  let v569 : BitVec 32 := Scalar.select v568 c1_i32_418 c2_i32_416
  let v570 : BitVec 32 := Scalar.remsi v567 v569
  let c0_i32_420 : BitVec 32 := 0#32
  let v572 : BitVec 1 := Scalar.cmpi .slt v570 c0_i32_420
  let c0_i32_421 : BitVec 32 := 0#32
  let v573 : BitVec 1 := Scalar.cmpi .slt v569 c0_i32_421
  let v574 : BitVec 1 := Scalar.xori v572 v573
  let c0_i32_419 : BitVec 32 := 0#32
  let v571 : BitVec 1 := Scalar.cmpi .ne v570 c0_i32_419
  let v575 : BitVec 1 := Scalar.andi v574 v571
  let v576 : BitVec 32 := Scalar.addi v570 v569
  let v577 : BitVec 32 := Scalar.select v575 v576 v570
  let c4_i32_437 : BitVec 32 := 4#32
  let v592 : BitVec 32 := Scalar.muli v577 c4_i32_437
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_422 : BitVec 32 := 4#32
  let v578 : BitVec 32 := Scalar.addi v8 c4_i32_422
  let c1_i32_423 : BitVec 32 := 1#32
  let v579 : BitVec 32 := Scalar.subi v578 c1_i32_423
  let c4_i32_424 : BitVec 32 := 4#32
  let c0_i32_425 : BitVec 32 := 0#32
  let v580 : BitVec 1 := Scalar.cmpi .eq c4_i32_424 c0_i32_425
  let c1_i32_426 : BitVec 32 := 1#32
  let v581 : BitVec 32 := Scalar.select v580 c1_i32_426 c4_i32_424
  let v582 : BitVec 32 := Scalar.remsi v579 v581
  let c0_i32_428 : BitVec 32 := 0#32
  let v584 : BitVec 1 := Scalar.cmpi .slt v582 c0_i32_428
  let c0_i32_429 : BitVec 32 := 0#32
  let v585 : BitVec 1 := Scalar.cmpi .slt v581 c0_i32_429
  let v586 : BitVec 1 := Scalar.xori v584 v585
  let c0_i32_427 : BitVec 32 := 0#32
  let v583 : BitVec 1 := Scalar.cmpi .ne v582 c0_i32_427
  let v587 : BitVec 1 := Scalar.andi v586 v583
  let v588 : BitVec 32 := Scalar.addi v582 v581
  let v589 : BitVec 32 := Scalar.select v587 v588 v582
  let c1_i32_438 : BitVec 32 := 1#32
  let v594 : BitVec 32 := Scalar.muli v589 c1_i32_438
  let v595 : BitVec 32 := Scalar.addi v593 v594
  v595.toNat
def k0_dev18 (d0 : Dev nD) : Nat :=
  let c0_i32_470 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_443 : BitVec 32 := 0#32
  let v603 : BitVec 32 := Scalar.addi v2 c0_i32_443
  let c2_i32_444 : BitVec 32 := 2#32
  let c0_i32_445 : BitVec 32 := 0#32
  let v604 : BitVec 1 := Scalar.cmpi .eq c2_i32_444 c0_i32_445
  let c1_i32_446 : BitVec 32 := 1#32
  let v605 : BitVec 32 := Scalar.select v604 c1_i32_446 c2_i32_444
  let v606 : BitVec 32 := Scalar.remsi v603 v605
  let c0_i32_448 : BitVec 32 := 0#32
  let v608 : BitVec 1 := Scalar.cmpi .slt v606 c0_i32_448
  let c0_i32_449 : BitVec 32 := 0#32
  let v609 : BitVec 1 := Scalar.cmpi .slt v605 c0_i32_449
  let v610 : BitVec 1 := Scalar.xori v608 v609
  let c0_i32_447 : BitVec 32 := 0#32
  let v607 : BitVec 1 := Scalar.cmpi .ne v606 c0_i32_447
  let v611 : BitVec 1 := Scalar.andi v610 v607
  let v612 : BitVec 32 := Scalar.addi v606 v605
  let v613 : BitVec 32 := Scalar.select v611 v612 v606
  let c8_i32_469 : BitVec 32 := 8#32
  let v637 : BitVec 32 := Scalar.muli v613 c8_i32_469
  let v638 : BitVec 32 := Scalar.addi c0_i32_470 v637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_450 : BitVec 32 := 1#32
  let v614 : BitVec 32 := Scalar.addi v5 c1_i32_450
  let c2_i32_451 : BitVec 32 := 2#32
  let c0_i32_452 : BitVec 32 := 0#32
  let v615 : BitVec 1 := Scalar.cmpi .eq c2_i32_451 c0_i32_452
  let c1_i32_453 : BitVec 32 := 1#32
  let v616 : BitVec 32 := Scalar.select v615 c1_i32_453 c2_i32_451
  let v617 : BitVec 32 := Scalar.remsi v614 v616
  let c0_i32_455 : BitVec 32 := 0#32
  let v619 : BitVec 1 := Scalar.cmpi .slt v617 c0_i32_455
  let c0_i32_456 : BitVec 32 := 0#32
  let v620 : BitVec 1 := Scalar.cmpi .slt v616 c0_i32_456
  let v621 : BitVec 1 := Scalar.xori v619 v620
  let c0_i32_454 : BitVec 32 := 0#32
  let v618 : BitVec 1 := Scalar.cmpi .ne v617 c0_i32_454
  let v622 : BitVec 1 := Scalar.andi v621 v618
  let v623 : BitVec 32 := Scalar.addi v617 v616
  let v624 : BitVec 32 := Scalar.select v622 v623 v617
  let c4_i32_471 : BitVec 32 := 4#32
  let v639 : BitVec 32 := Scalar.muli v624 c4_i32_471
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_457 : BitVec 32 := 4#32
  let v625 : BitVec 32 := Scalar.addi v8 c4_i32_457
  let c2_i32_458 : BitVec 32 := 2#32
  let v626 : BitVec 32 := Scalar.subi v625 c2_i32_458
  let c4_i32_459 : BitVec 32 := 4#32
  let c0_i32_460 : BitVec 32 := 0#32
  let v627 : BitVec 1 := Scalar.cmpi .eq c4_i32_459 c0_i32_460
  let c1_i32_461 : BitVec 32 := 1#32
  let v628 : BitVec 32 := Scalar.select v627 c1_i32_461 c4_i32_459
  let v629 : BitVec 32 := Scalar.remsi v626 v628
  let c0_i32_463 : BitVec 32 := 0#32
  let v631 : BitVec 1 := Scalar.cmpi .slt v629 c0_i32_463
  let c0_i32_464 : BitVec 32 := 0#32
  let v632 : BitVec 1 := Scalar.cmpi .slt v628 c0_i32_464
  let v633 : BitVec 1 := Scalar.xori v631 v632
  let c0_i32_462 : BitVec 32 := 0#32
  let v630 : BitVec 1 := Scalar.cmpi .ne v629 c0_i32_462
  let v634 : BitVec 1 := Scalar.andi v633 v630
  let v635 : BitVec 32 := Scalar.addi v629 v628
  let v636 : BitVec 32 := Scalar.select v634 v635 v629
  let c1_i32_472 : BitVec 32 := 1#32
  let v641 : BitVec 32 := Scalar.muli v636 c1_i32_472
  let v642 : BitVec 32 := Scalar.addi v640 v641
  v642.toNat
def k0_dev19 (d0 : Dev nD) : Nat :=
  let c0_i32_504 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_477 : BitVec 32 := 0#32
  let v650 : BitVec 32 := Scalar.addi v2 c0_i32_477
  let c2_i32_478 : BitVec 32 := 2#32
  let c0_i32_479 : BitVec 32 := 0#32
  let v651 : BitVec 1 := Scalar.cmpi .eq c2_i32_478 c0_i32_479
  let c1_i32_480 : BitVec 32 := 1#32
  let v652 : BitVec 32 := Scalar.select v651 c1_i32_480 c2_i32_478
  let v653 : BitVec 32 := Scalar.remsi v650 v652
  let c0_i32_482 : BitVec 32 := 0#32
  let v655 : BitVec 1 := Scalar.cmpi .slt v653 c0_i32_482
  let c0_i32_483 : BitVec 32 := 0#32
  let v656 : BitVec 1 := Scalar.cmpi .slt v652 c0_i32_483
  let v657 : BitVec 1 := Scalar.xori v655 v656
  let c0_i32_481 : BitVec 32 := 0#32
  let v654 : BitVec 1 := Scalar.cmpi .ne v653 c0_i32_481
  let v658 : BitVec 1 := Scalar.andi v657 v654
  let v659 : BitVec 32 := Scalar.addi v653 v652
  let v660 : BitVec 32 := Scalar.select v658 v659 v653
  let c8_i32_503 : BitVec 32 := 8#32
  let v684 : BitVec 32 := Scalar.muli v660 c8_i32_503
  let v685 : BitVec 32 := Scalar.addi c0_i32_504 v684
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_484 : BitVec 32 := 1#32
  let v661 : BitVec 32 := Scalar.addi v5 c1_i32_484
  let c2_i32_485 : BitVec 32 := 2#32
  let c0_i32_486 : BitVec 32 := 0#32
  let v662 : BitVec 1 := Scalar.cmpi .eq c2_i32_485 c0_i32_486
  let c1_i32_487 : BitVec 32 := 1#32
  let v663 : BitVec 32 := Scalar.select v662 c1_i32_487 c2_i32_485
  let v664 : BitVec 32 := Scalar.remsi v661 v663
  let c0_i32_489 : BitVec 32 := 0#32
  let v666 : BitVec 1 := Scalar.cmpi .slt v664 c0_i32_489
  let c0_i32_490 : BitVec 32 := 0#32
  let v667 : BitVec 1 := Scalar.cmpi .slt v663 c0_i32_490
  let v668 : BitVec 1 := Scalar.xori v666 v667
  let c0_i32_488 : BitVec 32 := 0#32
  let v665 : BitVec 1 := Scalar.cmpi .ne v664 c0_i32_488
  let v669 : BitVec 1 := Scalar.andi v668 v665
  let v670 : BitVec 32 := Scalar.addi v664 v663
  let v671 : BitVec 32 := Scalar.select v669 v670 v664
  let c4_i32_505 : BitVec 32 := 4#32
  let v686 : BitVec 32 := Scalar.muli v671 c4_i32_505
  let v687 : BitVec 32 := Scalar.addi v685 v686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_491 : BitVec 32 := 4#32
  let v672 : BitVec 32 := Scalar.addi v8 c4_i32_491
  let c3_i32_492 : BitVec 32 := 3#32
  let v673 : BitVec 32 := Scalar.subi v672 c3_i32_492
  let c4_i32_493 : BitVec 32 := 4#32
  let c0_i32_494 : BitVec 32 := 0#32
  let v674 : BitVec 1 := Scalar.cmpi .eq c4_i32_493 c0_i32_494
  let c1_i32_495 : BitVec 32 := 1#32
  let v675 : BitVec 32 := Scalar.select v674 c1_i32_495 c4_i32_493
  let v676 : BitVec 32 := Scalar.remsi v673 v675
  let c0_i32_497 : BitVec 32 := 0#32
  let v678 : BitVec 1 := Scalar.cmpi .slt v676 c0_i32_497
  let c0_i32_498 : BitVec 32 := 0#32
  let v679 : BitVec 1 := Scalar.cmpi .slt v675 c0_i32_498
  let v680 : BitVec 1 := Scalar.xori v678 v679
  let c0_i32_496 : BitVec 32 := 0#32
  let v677 : BitVec 1 := Scalar.cmpi .ne v676 c0_i32_496
  let v681 : BitVec 1 := Scalar.andi v680 v677
  let v682 : BitVec 32 := Scalar.addi v676 v675
  let v683 : BitVec 32 := Scalar.select v681 v682 v676
  let c1_i32_506 : BitVec 32 := 1#32
  let v688 : BitVec 32 := Scalar.muli v683 c1_i32_506
  let v689 : BitVec 32 := Scalar.addi v687 v688
  v689.toNat
def k0_dev20 (d0 : Dev nD) : Nat :=
  let c0_i32_538 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_511 : BitVec 32 := 1#32
  let v697 : BitVec 32 := Scalar.addi v2 c1_i32_511
  let c2_i32_512 : BitVec 32 := 2#32
  let c0_i32_513 : BitVec 32 := 0#32
  let v698 : BitVec 1 := Scalar.cmpi .eq c2_i32_512 c0_i32_513
  let c1_i32_514 : BitVec 32 := 1#32
  let v699 : BitVec 32 := Scalar.select v698 c1_i32_514 c2_i32_512
  let v700 : BitVec 32 := Scalar.remsi v697 v699
  let c0_i32_516 : BitVec 32 := 0#32
  let v702 : BitVec 1 := Scalar.cmpi .slt v700 c0_i32_516
  let c0_i32_517 : BitVec 32 := 0#32
  let v703 : BitVec 1 := Scalar.cmpi .slt v699 c0_i32_517
  let v704 : BitVec 1 := Scalar.xori v702 v703
  let c0_i32_515 : BitVec 32 := 0#32
  let v701 : BitVec 1 := Scalar.cmpi .ne v700 c0_i32_515
  let v705 : BitVec 1 := Scalar.andi v704 v701
  let v706 : BitVec 32 := Scalar.addi v700 v699
  let v707 : BitVec 32 := Scalar.select v705 v706 v700
  let c8_i32_537 : BitVec 32 := 8#32
  let v731 : BitVec 32 := Scalar.muli v707 c8_i32_537
  let v732 : BitVec 32 := Scalar.addi c0_i32_538 v731
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_518 : BitVec 32 := 0#32
  let v708 : BitVec 32 := Scalar.addi v5 c0_i32_518
  let c2_i32_519 : BitVec 32 := 2#32
  let c0_i32_520 : BitVec 32 := 0#32
  let v709 : BitVec 1 := Scalar.cmpi .eq c2_i32_519 c0_i32_520
  let c1_i32_521 : BitVec 32 := 1#32
  let v710 : BitVec 32 := Scalar.select v709 c1_i32_521 c2_i32_519
  let v711 : BitVec 32 := Scalar.remsi v708 v710
  let c0_i32_523 : BitVec 32 := 0#32
  let v713 : BitVec 1 := Scalar.cmpi .slt v711 c0_i32_523
  let c0_i32_524 : BitVec 32 := 0#32
  let v714 : BitVec 1 := Scalar.cmpi .slt v710 c0_i32_524
  let v715 : BitVec 1 := Scalar.xori v713 v714
  let c0_i32_522 : BitVec 32 := 0#32
  let v712 : BitVec 1 := Scalar.cmpi .ne v711 c0_i32_522
  let v716 : BitVec 1 := Scalar.andi v715 v712
  let v717 : BitVec 32 := Scalar.addi v711 v710
  let v718 : BitVec 32 := Scalar.select v716 v717 v711
  let c4_i32_539 : BitVec 32 := 4#32
  let v733 : BitVec 32 := Scalar.muli v718 c4_i32_539
  let v734 : BitVec 32 := Scalar.addi v732 v733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_525 : BitVec 32 := 4#32
  let v719 : BitVec 32 := Scalar.addi v8 c4_i32_525
  let c0_i32_526 : BitVec 32 := 0#32
  let v720 : BitVec 32 := Scalar.subi v719 c0_i32_526
  let c4_i32_527 : BitVec 32 := 4#32
  let c0_i32_528 : BitVec 32 := 0#32
  let v721 : BitVec 1 := Scalar.cmpi .eq c4_i32_527 c0_i32_528
  let c1_i32_529 : BitVec 32 := 1#32
  let v722 : BitVec 32 := Scalar.select v721 c1_i32_529 c4_i32_527
  let v723 : BitVec 32 := Scalar.remsi v720 v722
  let c0_i32_531 : BitVec 32 := 0#32
  let v725 : BitVec 1 := Scalar.cmpi .slt v723 c0_i32_531
  let c0_i32_532 : BitVec 32 := 0#32
  let v726 : BitVec 1 := Scalar.cmpi .slt v722 c0_i32_532
  let v727 : BitVec 1 := Scalar.xori v725 v726
  let c0_i32_530 : BitVec 32 := 0#32
  let v724 : BitVec 1 := Scalar.cmpi .ne v723 c0_i32_530
  let v728 : BitVec 1 := Scalar.andi v727 v724
  let v729 : BitVec 32 := Scalar.addi v723 v722
  let v730 : BitVec 32 := Scalar.select v728 v729 v723
  let c1_i32_540 : BitVec 32 := 1#32
  let v735 : BitVec 32 := Scalar.muli v730 c1_i32_540
  let v736 : BitVec 32 := Scalar.addi v734 v735
  v736.toNat
def k0_dev21 (d0 : Dev nD) : Nat :=
  let c0_i32_573 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_545 : BitVec 32 := 1#32
  let v744 : BitVec 32 := Scalar.addi v2 c1_i32_545
  let c2_i32_546 : BitVec 32 := 2#32
  let c0_i32_547 : BitVec 32 := 0#32
  let v745 : BitVec 1 := Scalar.cmpi .eq c2_i32_546 c0_i32_547
  let c1_i32_548 : BitVec 32 := 1#32
  let v746 : BitVec 32 := Scalar.select v745 c1_i32_548 c2_i32_546
  let v747 : BitVec 32 := Scalar.remsi v744 v746
  let c0_i32_550 : BitVec 32 := 0#32
  let v749 : BitVec 1 := Scalar.cmpi .slt v747 c0_i32_550
  let c0_i32_551 : BitVec 32 := 0#32
  let v750 : BitVec 1 := Scalar.cmpi .slt v746 c0_i32_551
  let v751 : BitVec 1 := Scalar.xori v749 v750
  let c0_i32_549 : BitVec 32 := 0#32
  let v748 : BitVec 1 := Scalar.cmpi .ne v747 c0_i32_549
  let v752 : BitVec 1 := Scalar.andi v751 v748
  let v753 : BitVec 32 := Scalar.addi v747 v746
  let v754 : BitVec 32 := Scalar.select v752 v753 v747
  let c8_i32_572 : BitVec 32 := 8#32
  let v778 : BitVec 32 := Scalar.muli v754 c8_i32_572
  let v779 : BitVec 32 := Scalar.addi c0_i32_573 v778
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_552 : BitVec 32 := 0#32
  let v755 : BitVec 32 := Scalar.addi v5 c0_i32_552
  let c2_i32_553 : BitVec 32 := 2#32
  let c0_i32_554 : BitVec 32 := 0#32
  let v756 : BitVec 1 := Scalar.cmpi .eq c2_i32_553 c0_i32_554
  let c1_i32_555 : BitVec 32 := 1#32
  let v757 : BitVec 32 := Scalar.select v756 c1_i32_555 c2_i32_553
  let v758 : BitVec 32 := Scalar.remsi v755 v757
  let c0_i32_557 : BitVec 32 := 0#32
  let v760 : BitVec 1 := Scalar.cmpi .slt v758 c0_i32_557
  let c0_i32_558 : BitVec 32 := 0#32
  let v761 : BitVec 1 := Scalar.cmpi .slt v757 c0_i32_558
  let v762 : BitVec 1 := Scalar.xori v760 v761
  let c0_i32_556 : BitVec 32 := 0#32
  let v759 : BitVec 1 := Scalar.cmpi .ne v758 c0_i32_556
  let v763 : BitVec 1 := Scalar.andi v762 v759
  let v764 : BitVec 32 := Scalar.addi v758 v757
  let v765 : BitVec 32 := Scalar.select v763 v764 v758
  let c4_i32_574 : BitVec 32 := 4#32
  let v780 : BitVec 32 := Scalar.muli v765 c4_i32_574
  let v781 : BitVec 32 := Scalar.addi v779 v780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_559 : BitVec 32 := 4#32
  let v766 : BitVec 32 := Scalar.addi v8 c4_i32_559
  let c1_i32_560 : BitVec 32 := 1#32
  let v767 : BitVec 32 := Scalar.subi v766 c1_i32_560
  let c4_i32_561 : BitVec 32 := 4#32
  let c0_i32_562 : BitVec 32 := 0#32
  let v768 : BitVec 1 := Scalar.cmpi .eq c4_i32_561 c0_i32_562
  let c1_i32_563 : BitVec 32 := 1#32
  let v769 : BitVec 32 := Scalar.select v768 c1_i32_563 c4_i32_561
  let v770 : BitVec 32 := Scalar.remsi v767 v769
  let c0_i32_565 : BitVec 32 := 0#32
  let v772 : BitVec 1 := Scalar.cmpi .slt v770 c0_i32_565
  let c0_i32_566 : BitVec 32 := 0#32
  let v773 : BitVec 1 := Scalar.cmpi .slt v769 c0_i32_566
  let v774 : BitVec 1 := Scalar.xori v772 v773
  let c0_i32_564 : BitVec 32 := 0#32
  let v771 : BitVec 1 := Scalar.cmpi .ne v770 c0_i32_564
  let v775 : BitVec 1 := Scalar.andi v774 v771
  let v776 : BitVec 32 := Scalar.addi v770 v769
  let v777 : BitVec 32 := Scalar.select v775 v776 v770
  let c1_i32_575 : BitVec 32 := 1#32
  let v782 : BitVec 32 := Scalar.muli v777 c1_i32_575
  let v783 : BitVec 32 := Scalar.addi v781 v782
  v783.toNat
def k0_dev22 (d0 : Dev nD) : Nat :=
  let c0_i32_607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_580 : BitVec 32 := 1#32
  let v791 : BitVec 32 := Scalar.addi v2 c1_i32_580
  let c2_i32_581 : BitVec 32 := 2#32
  let c0_i32_582 : BitVec 32 := 0#32
  let v792 : BitVec 1 := Scalar.cmpi .eq c2_i32_581 c0_i32_582
  let c1_i32_583 : BitVec 32 := 1#32
  let v793 : BitVec 32 := Scalar.select v792 c1_i32_583 c2_i32_581
  let v794 : BitVec 32 := Scalar.remsi v791 v793
  let c0_i32_585 : BitVec 32 := 0#32
  let v796 : BitVec 1 := Scalar.cmpi .slt v794 c0_i32_585
  let c0_i32_586 : BitVec 32 := 0#32
  let v797 : BitVec 1 := Scalar.cmpi .slt v793 c0_i32_586
  let v798 : BitVec 1 := Scalar.xori v796 v797
  let c0_i32_584 : BitVec 32 := 0#32
  let v795 : BitVec 1 := Scalar.cmpi .ne v794 c0_i32_584
  let v799 : BitVec 1 := Scalar.andi v798 v795
  let v800 : BitVec 32 := Scalar.addi v794 v793
  let v801 : BitVec 32 := Scalar.select v799 v800 v794
  let c8_i32_606 : BitVec 32 := 8#32
  let v825 : BitVec 32 := Scalar.muli v801 c8_i32_606
  let v826 : BitVec 32 := Scalar.addi c0_i32_607 v825
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_587 : BitVec 32 := 0#32
  let v802 : BitVec 32 := Scalar.addi v5 c0_i32_587
  let c2_i32_588 : BitVec 32 := 2#32
  let c0_i32_589 : BitVec 32 := 0#32
  let v803 : BitVec 1 := Scalar.cmpi .eq c2_i32_588 c0_i32_589
  let c1_i32_590 : BitVec 32 := 1#32
  let v804 : BitVec 32 := Scalar.select v803 c1_i32_590 c2_i32_588
  let v805 : BitVec 32 := Scalar.remsi v802 v804
  let c0_i32_592 : BitVec 32 := 0#32
  let v807 : BitVec 1 := Scalar.cmpi .slt v805 c0_i32_592
  let c0_i32_593 : BitVec 32 := 0#32
  let v808 : BitVec 1 := Scalar.cmpi .slt v804 c0_i32_593
  let v809 : BitVec 1 := Scalar.xori v807 v808
  let c0_i32_591 : BitVec 32 := 0#32
  let v806 : BitVec 1 := Scalar.cmpi .ne v805 c0_i32_591
  let v810 : BitVec 1 := Scalar.andi v809 v806
  let v811 : BitVec 32 := Scalar.addi v805 v804
  let v812 : BitVec 32 := Scalar.select v810 v811 v805
  let c4_i32_608 : BitVec 32 := 4#32
  let v827 : BitVec 32 := Scalar.muli v812 c4_i32_608
  let v828 : BitVec 32 := Scalar.addi v826 v827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_594 : BitVec 32 := 4#32
  let v813 : BitVec 32 := Scalar.addi v8 c4_i32_594
  let c2_i32_595 : BitVec 32 := 2#32
  let v814 : BitVec 32 := Scalar.subi v813 c2_i32_595
  let c4_i32_596 : BitVec 32 := 4#32
  let c0_i32_597 : BitVec 32 := 0#32
  let v815 : BitVec 1 := Scalar.cmpi .eq c4_i32_596 c0_i32_597
  let c1_i32_598 : BitVec 32 := 1#32
  let v816 : BitVec 32 := Scalar.select v815 c1_i32_598 c4_i32_596
  let v817 : BitVec 32 := Scalar.remsi v814 v816
  let c0_i32_600 : BitVec 32 := 0#32
  let v819 : BitVec 1 := Scalar.cmpi .slt v817 c0_i32_600
  let c0_i32_601 : BitVec 32 := 0#32
  let v820 : BitVec 1 := Scalar.cmpi .slt v816 c0_i32_601
  let v821 : BitVec 1 := Scalar.xori v819 v820
  let c0_i32_599 : BitVec 32 := 0#32
  let v818 : BitVec 1 := Scalar.cmpi .ne v817 c0_i32_599
  let v822 : BitVec 1 := Scalar.andi v821 v818
  let v823 : BitVec 32 := Scalar.addi v817 v816
  let v824 : BitVec 32 := Scalar.select v822 v823 v817
  let c1_i32_609 : BitVec 32 := 1#32
  let v829 : BitVec 32 := Scalar.muli v824 c1_i32_609
  let v830 : BitVec 32 := Scalar.addi v828 v829
  v830.toNat
def k0_dev23 (d0 : Dev nD) : Nat :=
  let c0_i32_641 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_614 : BitVec 32 := 1#32
  let v838 : BitVec 32 := Scalar.addi v2 c1_i32_614
  let c2_i32_615 : BitVec 32 := 2#32
  let c0_i32_616 : BitVec 32 := 0#32
  let v839 : BitVec 1 := Scalar.cmpi .eq c2_i32_615 c0_i32_616
  let c1_i32_617 : BitVec 32 := 1#32
  let v840 : BitVec 32 := Scalar.select v839 c1_i32_617 c2_i32_615
  let v841 : BitVec 32 := Scalar.remsi v838 v840
  let c0_i32_619 : BitVec 32 := 0#32
  let v843 : BitVec 1 := Scalar.cmpi .slt v841 c0_i32_619
  let c0_i32_620 : BitVec 32 := 0#32
  let v844 : BitVec 1 := Scalar.cmpi .slt v840 c0_i32_620
  let v845 : BitVec 1 := Scalar.xori v843 v844
  let c0_i32_618 : BitVec 32 := 0#32
  let v842 : BitVec 1 := Scalar.cmpi .ne v841 c0_i32_618
  let v846 : BitVec 1 := Scalar.andi v845 v842
  let v847 : BitVec 32 := Scalar.addi v841 v840
  let v848 : BitVec 32 := Scalar.select v846 v847 v841
  let c8_i32_640 : BitVec 32 := 8#32
  let v872 : BitVec 32 := Scalar.muli v848 c8_i32_640
  let v873 : BitVec 32 := Scalar.addi c0_i32_641 v872
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_621 : BitVec 32 := 0#32
  let v849 : BitVec 32 := Scalar.addi v5 c0_i32_621
  let c2_i32_622 : BitVec 32 := 2#32
  let c0_i32_623 : BitVec 32 := 0#32
  let v850 : BitVec 1 := Scalar.cmpi .eq c2_i32_622 c0_i32_623
  let c1_i32_624 : BitVec 32 := 1#32
  let v851 : BitVec 32 := Scalar.select v850 c1_i32_624 c2_i32_622
  let v852 : BitVec 32 := Scalar.remsi v849 v851
  let c0_i32_626 : BitVec 32 := 0#32
  let v854 : BitVec 1 := Scalar.cmpi .slt v852 c0_i32_626
  let c0_i32_627 : BitVec 32 := 0#32
  let v855 : BitVec 1 := Scalar.cmpi .slt v851 c0_i32_627
  let v856 : BitVec 1 := Scalar.xori v854 v855
  let c0_i32_625 : BitVec 32 := 0#32
  let v853 : BitVec 1 := Scalar.cmpi .ne v852 c0_i32_625
  let v857 : BitVec 1 := Scalar.andi v856 v853
  let v858 : BitVec 32 := Scalar.addi v852 v851
  let v859 : BitVec 32 := Scalar.select v857 v858 v852
  let c4_i32_642 : BitVec 32 := 4#32
  let v874 : BitVec 32 := Scalar.muli v859 c4_i32_642
  let v875 : BitVec 32 := Scalar.addi v873 v874
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_628 : BitVec 32 := 4#32
  let v860 : BitVec 32 := Scalar.addi v8 c4_i32_628
  let c3_i32_629 : BitVec 32 := 3#32
  let v861 : BitVec 32 := Scalar.subi v860 c3_i32_629
  let c4_i32_630 : BitVec 32 := 4#32
  let c0_i32_631 : BitVec 32 := 0#32
  let v862 : BitVec 1 := Scalar.cmpi .eq c4_i32_630 c0_i32_631
  let c1_i32_632 : BitVec 32 := 1#32
  let v863 : BitVec 32 := Scalar.select v862 c1_i32_632 c4_i32_630
  let v864 : BitVec 32 := Scalar.remsi v861 v863
  let c0_i32_634 : BitVec 32 := 0#32
  let v866 : BitVec 1 := Scalar.cmpi .slt v864 c0_i32_634
  let c0_i32_635 : BitVec 32 := 0#32
  let v867 : BitVec 1 := Scalar.cmpi .slt v863 c0_i32_635
  let v868 : BitVec 1 := Scalar.xori v866 v867
  let c0_i32_633 : BitVec 32 := 0#32
  let v865 : BitVec 1 := Scalar.cmpi .ne v864 c0_i32_633
  let v869 : BitVec 1 := Scalar.andi v868 v865
  let v870 : BitVec 32 := Scalar.addi v864 v863
  let v871 : BitVec 32 := Scalar.select v869 v870 v864
  let c1_i32_643 : BitVec 32 := 1#32
  let v876 : BitVec 32 := Scalar.muli v871 c1_i32_643
  let v877 : BitVec 32 := Scalar.addi v875 v876
  v877.toNat
def k0_dev24 (d0 : Dev nD) : Nat :=
  let c0_i32_675 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_648 : BitVec 32 := 1#32
  let v885 : BitVec 32 := Scalar.addi v2 c1_i32_648
  let c2_i32_649 : BitVec 32 := 2#32
  let c0_i32_650 : BitVec 32 := 0#32
  let v886 : BitVec 1 := Scalar.cmpi .eq c2_i32_649 c0_i32_650
  let c1_i32_651 : BitVec 32 := 1#32
  let v887 : BitVec 32 := Scalar.select v886 c1_i32_651 c2_i32_649
  let v888 : BitVec 32 := Scalar.remsi v885 v887
  let c0_i32_653 : BitVec 32 := 0#32
  let v890 : BitVec 1 := Scalar.cmpi .slt v888 c0_i32_653
  let c0_i32_654 : BitVec 32 := 0#32
  let v891 : BitVec 1 := Scalar.cmpi .slt v887 c0_i32_654
  let v892 : BitVec 1 := Scalar.xori v890 v891
  let c0_i32_652 : BitVec 32 := 0#32
  let v889 : BitVec 1 := Scalar.cmpi .ne v888 c0_i32_652
  let v893 : BitVec 1 := Scalar.andi v892 v889
  let v894 : BitVec 32 := Scalar.addi v888 v887
  let v895 : BitVec 32 := Scalar.select v893 v894 v888
  let c8_i32_674 : BitVec 32 := 8#32
  let v919 : BitVec 32 := Scalar.muli v895 c8_i32_674
  let v920 : BitVec 32 := Scalar.addi c0_i32_675 v919
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_655 : BitVec 32 := 1#32
  let v896 : BitVec 32 := Scalar.addi v5 c1_i32_655
  let c2_i32_656 : BitVec 32 := 2#32
  let c0_i32_657 : BitVec 32 := 0#32
  let v897 : BitVec 1 := Scalar.cmpi .eq c2_i32_656 c0_i32_657
  let c1_i32_658 : BitVec 32 := 1#32
  let v898 : BitVec 32 := Scalar.select v897 c1_i32_658 c2_i32_656
  let v899 : BitVec 32 := Scalar.remsi v896 v898
  let c0_i32_660 : BitVec 32 := 0#32
  let v901 : BitVec 1 := Scalar.cmpi .slt v899 c0_i32_660
  let c0_i32_661 : BitVec 32 := 0#32
  let v902 : BitVec 1 := Scalar.cmpi .slt v898 c0_i32_661
  let v903 : BitVec 1 := Scalar.xori v901 v902
  let c0_i32_659 : BitVec 32 := 0#32
  let v900 : BitVec 1 := Scalar.cmpi .ne v899 c0_i32_659
  let v904 : BitVec 1 := Scalar.andi v903 v900
  let v905 : BitVec 32 := Scalar.addi v899 v898
  let v906 : BitVec 32 := Scalar.select v904 v905 v899
  let c4_i32_676 : BitVec 32 := 4#32
  let v921 : BitVec 32 := Scalar.muli v906 c4_i32_676
  let v922 : BitVec 32 := Scalar.addi v920 v921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_662 : BitVec 32 := 4#32
  let v907 : BitVec 32 := Scalar.addi v8 c4_i32_662
  let c0_i32_663 : BitVec 32 := 0#32
  let v908 : BitVec 32 := Scalar.subi v907 c0_i32_663
  let c4_i32_664 : BitVec 32 := 4#32
  let c0_i32_665 : BitVec 32 := 0#32
  let v909 : BitVec 1 := Scalar.cmpi .eq c4_i32_664 c0_i32_665
  let c1_i32_666 : BitVec 32 := 1#32
  let v910 : BitVec 32 := Scalar.select v909 c1_i32_666 c4_i32_664
  let v911 : BitVec 32 := Scalar.remsi v908 v910
  let c0_i32_668 : BitVec 32 := 0#32
  let v913 : BitVec 1 := Scalar.cmpi .slt v911 c0_i32_668
  let c0_i32_669 : BitVec 32 := 0#32
  let v914 : BitVec 1 := Scalar.cmpi .slt v910 c0_i32_669
  let v915 : BitVec 1 := Scalar.xori v913 v914
  let c0_i32_667 : BitVec 32 := 0#32
  let v912 : BitVec 1 := Scalar.cmpi .ne v911 c0_i32_667
  let v916 : BitVec 1 := Scalar.andi v915 v912
  let v917 : BitVec 32 := Scalar.addi v911 v910
  let v918 : BitVec 32 := Scalar.select v916 v917 v911
  let c1_i32_677 : BitVec 32 := 1#32
  let v923 : BitVec 32 := Scalar.muli v918 c1_i32_677
  let v924 : BitVec 32 := Scalar.addi v922 v923
  v924.toNat
def k0_dev25 (d0 : Dev nD) : Nat :=
  let c0_i32_709 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_682 : BitVec 32 := 1#32
  let v932 : BitVec 32 := Scalar.addi v2 c1_i32_682
  let c2_i32_683 : BitVec 32 := 2#32
  let c0_i32_684 : BitVec 32 := 0#32
  let v933 : BitVec 1 := Scalar.cmpi .eq c2_i32_683 c0_i32_684
  let c1_i32_685 : BitVec 32 := 1#32
  let v934 : BitVec 32 := Scalar.select v933 c1_i32_685 c2_i32_683
  let v935 : BitVec 32 := Scalar.remsi v932 v934
  let c0_i32_687 : BitVec 32 := 0#32
  let v937 : BitVec 1 := Scalar.cmpi .slt v935 c0_i32_687
  let c0_i32_688 : BitVec 32 := 0#32
  let v938 : BitVec 1 := Scalar.cmpi .slt v934 c0_i32_688
  let v939 : BitVec 1 := Scalar.xori v937 v938
  let c0_i32_686 : BitVec 32 := 0#32
  let v936 : BitVec 1 := Scalar.cmpi .ne v935 c0_i32_686
  let v940 : BitVec 1 := Scalar.andi v939 v936
  let v941 : BitVec 32 := Scalar.addi v935 v934
  let v942 : BitVec 32 := Scalar.select v940 v941 v935
  let c8_i32_708 : BitVec 32 := 8#32
  let v966 : BitVec 32 := Scalar.muli v942 c8_i32_708
  let v967 : BitVec 32 := Scalar.addi c0_i32_709 v966
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_689 : BitVec 32 := 1#32
  let v943 : BitVec 32 := Scalar.addi v5 c1_i32_689
  let c2_i32_690 : BitVec 32 := 2#32
  let c0_i32_691 : BitVec 32 := 0#32
  let v944 : BitVec 1 := Scalar.cmpi .eq c2_i32_690 c0_i32_691
  let c1_i32_692 : BitVec 32 := 1#32
  let v945 : BitVec 32 := Scalar.select v944 c1_i32_692 c2_i32_690
  let v946 : BitVec 32 := Scalar.remsi v943 v945
  let c0_i32_694 : BitVec 32 := 0#32
  let v948 : BitVec 1 := Scalar.cmpi .slt v946 c0_i32_694
  let c0_i32_695 : BitVec 32 := 0#32
  let v949 : BitVec 1 := Scalar.cmpi .slt v945 c0_i32_695
  let v950 : BitVec 1 := Scalar.xori v948 v949
  let c0_i32_693 : BitVec 32 := 0#32
  let v947 : BitVec 1 := Scalar.cmpi .ne v946 c0_i32_693
  let v951 : BitVec 1 := Scalar.andi v950 v947
  let v952 : BitVec 32 := Scalar.addi v946 v945
  let v953 : BitVec 32 := Scalar.select v951 v952 v946
  let c4_i32_710 : BitVec 32 := 4#32
  let v968 : BitVec 32 := Scalar.muli v953 c4_i32_710
  let v969 : BitVec 32 := Scalar.addi v967 v968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_696 : BitVec 32 := 4#32
  let v954 : BitVec 32 := Scalar.addi v8 c4_i32_696
  let c1_i32_697 : BitVec 32 := 1#32
  let v955 : BitVec 32 := Scalar.subi v954 c1_i32_697
  let c4_i32_698 : BitVec 32 := 4#32
  let c0_i32_699 : BitVec 32 := 0#32
  let v956 : BitVec 1 := Scalar.cmpi .eq c4_i32_698 c0_i32_699
  let c1_i32_700 : BitVec 32 := 1#32
  let v957 : BitVec 32 := Scalar.select v956 c1_i32_700 c4_i32_698
  let v958 : BitVec 32 := Scalar.remsi v955 v957
  let c0_i32_702 : BitVec 32 := 0#32
  let v960 : BitVec 1 := Scalar.cmpi .slt v958 c0_i32_702
  let c0_i32_703 : BitVec 32 := 0#32
  let v961 : BitVec 1 := Scalar.cmpi .slt v957 c0_i32_703
  let v962 : BitVec 1 := Scalar.xori v960 v961
  let c0_i32_701 : BitVec 32 := 0#32
  let v959 : BitVec 1 := Scalar.cmpi .ne v958 c0_i32_701
  let v963 : BitVec 1 := Scalar.andi v962 v959
  let v964 : BitVec 32 := Scalar.addi v958 v957
  let v965 : BitVec 32 := Scalar.select v963 v964 v958
  let c1_i32_711 : BitVec 32 := 1#32
  let v970 : BitVec 32 := Scalar.muli v965 c1_i32_711
  let v971 : BitVec 32 := Scalar.addi v969 v970
  v971.toNat
def k0_dev26 (d0 : Dev nD) : Nat :=
  let c0_i32_743 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_716 : BitVec 32 := 1#32
  let v979 : BitVec 32 := Scalar.addi v2 c1_i32_716
  let c2_i32_717 : BitVec 32 := 2#32
  let c0_i32_718 : BitVec 32 := 0#32
  let v980 : BitVec 1 := Scalar.cmpi .eq c2_i32_717 c0_i32_718
  let c1_i32_719 : BitVec 32 := 1#32
  let v981 : BitVec 32 := Scalar.select v980 c1_i32_719 c2_i32_717
  let v982 : BitVec 32 := Scalar.remsi v979 v981
  let c0_i32_721 : BitVec 32 := 0#32
  let v984 : BitVec 1 := Scalar.cmpi .slt v982 c0_i32_721
  let c0_i32_722 : BitVec 32 := 0#32
  let v985 : BitVec 1 := Scalar.cmpi .slt v981 c0_i32_722
  let v986 : BitVec 1 := Scalar.xori v984 v985
  let c0_i32_720 : BitVec 32 := 0#32
  let v983 : BitVec 1 := Scalar.cmpi .ne v982 c0_i32_720
  let v987 : BitVec 1 := Scalar.andi v986 v983
  let v988 : BitVec 32 := Scalar.addi v982 v981
  let v989 : BitVec 32 := Scalar.select v987 v988 v982
  let c8_i32_742 : BitVec 32 := 8#32
  let v1013 : BitVec 32 := Scalar.muli v989 c8_i32_742
  let v1014 : BitVec 32 := Scalar.addi c0_i32_743 v1013
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_723 : BitVec 32 := 1#32
  let v990 : BitVec 32 := Scalar.addi v5 c1_i32_723
  let c2_i32_724 : BitVec 32 := 2#32
  let c0_i32_725 : BitVec 32 := 0#32
  let v991 : BitVec 1 := Scalar.cmpi .eq c2_i32_724 c0_i32_725
  let c1_i32_726 : BitVec 32 := 1#32
  let v992 : BitVec 32 := Scalar.select v991 c1_i32_726 c2_i32_724
  let v993 : BitVec 32 := Scalar.remsi v990 v992
  let c0_i32_728 : BitVec 32 := 0#32
  let v995 : BitVec 1 := Scalar.cmpi .slt v993 c0_i32_728
  let c0_i32_729 : BitVec 32 := 0#32
  let v996 : BitVec 1 := Scalar.cmpi .slt v992 c0_i32_729
  let v997 : BitVec 1 := Scalar.xori v995 v996
  let c0_i32_727 : BitVec 32 := 0#32
  let v994 : BitVec 1 := Scalar.cmpi .ne v993 c0_i32_727
  let v998 : BitVec 1 := Scalar.andi v997 v994
  let v999 : BitVec 32 := Scalar.addi v993 v992
  let v1000 : BitVec 32 := Scalar.select v998 v999 v993
  let c4_i32_744 : BitVec 32 := 4#32
  let v1015 : BitVec 32 := Scalar.muli v1000 c4_i32_744
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_730 : BitVec 32 := 4#32
  let v1001 : BitVec 32 := Scalar.addi v8 c4_i32_730
  let c2_i32_731 : BitVec 32 := 2#32
  let v1002 : BitVec 32 := Scalar.subi v1001 c2_i32_731
  let c4_i32_732 : BitVec 32 := 4#32
  let c0_i32_733 : BitVec 32 := 0#32
  let v1003 : BitVec 1 := Scalar.cmpi .eq c4_i32_732 c0_i32_733
  let c1_i32_734 : BitVec 32 := 1#32
  let v1004 : BitVec 32 := Scalar.select v1003 c1_i32_734 c4_i32_732
  let v1005 : BitVec 32 := Scalar.remsi v1002 v1004
  let c0_i32_736 : BitVec 32 := 0#32
  let v1007 : BitVec 1 := Scalar.cmpi .slt v1005 c0_i32_736
  let c0_i32_737 : BitVec 32 := 0#32
  let v1008 : BitVec 1 := Scalar.cmpi .slt v1004 c0_i32_737
  let v1009 : BitVec 1 := Scalar.xori v1007 v1008
  let c0_i32_735 : BitVec 32 := 0#32
  let v1006 : BitVec 1 := Scalar.cmpi .ne v1005 c0_i32_735
  let v1010 : BitVec 1 := Scalar.andi v1009 v1006
  let v1011 : BitVec 32 := Scalar.addi v1005 v1004
  let v1012 : BitVec 32 := Scalar.select v1010 v1011 v1005
  let c1_i32_745 : BitVec 32 := 1#32
  let v1017 : BitVec 32 := Scalar.muli v1012 c1_i32_745
  let v1018 : BitVec 32 := Scalar.addi v1016 v1017
  v1018.toNat
def k0_dev27 (d0 : Dev nD) : Nat :=
  let c0_i32_777 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_750 : BitVec 32 := 1#32
  let v1026 : BitVec 32 := Scalar.addi v2 c1_i32_750
  let c2_i32_751 : BitVec 32 := 2#32
  let c0_i32_752 : BitVec 32 := 0#32
  let v1027 : BitVec 1 := Scalar.cmpi .eq c2_i32_751 c0_i32_752
  let c1_i32_753 : BitVec 32 := 1#32
  let v1028 : BitVec 32 := Scalar.select v1027 c1_i32_753 c2_i32_751
  let v1029 : BitVec 32 := Scalar.remsi v1026 v1028
  let c0_i32_755 : BitVec 32 := 0#32
  let v1031 : BitVec 1 := Scalar.cmpi .slt v1029 c0_i32_755
  let c0_i32_756 : BitVec 32 := 0#32
  let v1032 : BitVec 1 := Scalar.cmpi .slt v1028 c0_i32_756
  let v1033 : BitVec 1 := Scalar.xori v1031 v1032
  let c0_i32_754 : BitVec 32 := 0#32
  let v1030 : BitVec 1 := Scalar.cmpi .ne v1029 c0_i32_754
  let v1034 : BitVec 1 := Scalar.andi v1033 v1030
  let v1035 : BitVec 32 := Scalar.addi v1029 v1028
  let v1036 : BitVec 32 := Scalar.select v1034 v1035 v1029
  let c8_i32_776 : BitVec 32 := 8#32
  let v1060 : BitVec 32 := Scalar.muli v1036 c8_i32_776
  let v1061 : BitVec 32 := Scalar.addi c0_i32_777 v1060
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_757 : BitVec 32 := 1#32
  let v1037 : BitVec 32 := Scalar.addi v5 c1_i32_757
  let c2_i32_758 : BitVec 32 := 2#32
  let c0_i32_759 : BitVec 32 := 0#32
  let v1038 : BitVec 1 := Scalar.cmpi .eq c2_i32_758 c0_i32_759
  let c1_i32_760 : BitVec 32 := 1#32
  let v1039 : BitVec 32 := Scalar.select v1038 c1_i32_760 c2_i32_758
  let v1040 : BitVec 32 := Scalar.remsi v1037 v1039
  let c0_i32_762 : BitVec 32 := 0#32
  let v1042 : BitVec 1 := Scalar.cmpi .slt v1040 c0_i32_762
  let c0_i32_763 : BitVec 32 := 0#32
  let v1043 : BitVec 1 := Scalar.cmpi .slt v1039 c0_i32_763
  let v1044 : BitVec 1 := Scalar.xori v1042 v1043
  let c0_i32_761 : BitVec 32 := 0#32
  let v1041 : BitVec 1 := Scalar.cmpi .ne v1040 c0_i32_761
  let v1045 : BitVec 1 := Scalar.andi v1044 v1041
  let v1046 : BitVec 32 := Scalar.addi v1040 v1039
  let v1047 : BitVec 32 := Scalar.select v1045 v1046 v1040
  let c4_i32_778 : BitVec 32 := 4#32
  let v1062 : BitVec 32 := Scalar.muli v1047 c4_i32_778
  let v1063 : BitVec 32 := Scalar.addi v1061 v1062
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_764 : BitVec 32 := 4#32
  let v1048 : BitVec 32 := Scalar.addi v8 c4_i32_764
  let c3_i32_765 : BitVec 32 := 3#32
  let v1049 : BitVec 32 := Scalar.subi v1048 c3_i32_765
  let c4_i32_766 : BitVec 32 := 4#32
  let c0_i32_767 : BitVec 32 := 0#32
  let v1050 : BitVec 1 := Scalar.cmpi .eq c4_i32_766 c0_i32_767
  let c1_i32_768 : BitVec 32 := 1#32
  let v1051 : BitVec 32 := Scalar.select v1050 c1_i32_768 c4_i32_766
  let v1052 : BitVec 32 := Scalar.remsi v1049 v1051
  let c0_i32_770 : BitVec 32 := 0#32
  let v1054 : BitVec 1 := Scalar.cmpi .slt v1052 c0_i32_770
  let c0_i32_771 : BitVec 32 := 0#32
  let v1055 : BitVec 1 := Scalar.cmpi .slt v1051 c0_i32_771
  let v1056 : BitVec 1 := Scalar.xori v1054 v1055
  let c0_i32_769 : BitVec 32 := 0#32
  let v1053 : BitVec 1 := Scalar.cmpi .ne v1052 c0_i32_769
  let v1057 : BitVec 1 := Scalar.andi v1056 v1053
  let v1058 : BitVec 32 := Scalar.addi v1052 v1051
  let v1059 : BitVec 32 := Scalar.select v1057 v1058 v1052
  let c1_i32_779 : BitVec 32 := 1#32
  let v1064 : BitVec 32 := Scalar.muli v1059 c1_i32_779
  let v1065 : BitVec 32 := Scalar.addi v1063 v1064
  v1065.toNat
def k0_dev28 (d0 : Dev nD) : Nat :=
  let c0_i32_863 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_835 : BitVec 32 := 0#32
  let v1132 : BitVec 32 := Scalar.addi v2 c0_i32_835
  let c2_i32_836 : BitVec 32 := 2#32
  let c0_i32_837 : BitVec 32 := 0#32
  let v1133 : BitVec 1 := Scalar.cmpi .eq c2_i32_836 c0_i32_837
  let c1_i32_838 : BitVec 32 := 1#32
  let v1134 : BitVec 32 := Scalar.select v1133 c1_i32_838 c2_i32_836
  let v1135 : BitVec 32 := Scalar.remsi v1132 v1134
  let c0_i32_840 : BitVec 32 := 0#32
  let v1137 : BitVec 1 := Scalar.cmpi .slt v1135 c0_i32_840
  let c0_i32_841 : BitVec 32 := 0#32
  let v1138 : BitVec 1 := Scalar.cmpi .slt v1134 c0_i32_841
  let v1139 : BitVec 1 := Scalar.xori v1137 v1138
  let c0_i32_839 : BitVec 32 := 0#32
  let v1136 : BitVec 1 := Scalar.cmpi .ne v1135 c0_i32_839
  let v1140 : BitVec 1 := Scalar.andi v1139 v1136
  let v1141 : BitVec 32 := Scalar.addi v1135 v1134
  let v1142 : BitVec 32 := Scalar.select v1140 v1141 v1135
  let c8_i32_862 : BitVec 32 := 8#32
  let v1166 : BitVec 32 := Scalar.muli v1142 c8_i32_862
  let v1167 : BitVec 32 := Scalar.addi c0_i32_863 v1166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_842 : BitVec 32 := 0#32
  let v1143 : BitVec 32 := Scalar.addi v5 c0_i32_842
  let c2_i32_843 : BitVec 32 := 2#32
  let c0_i32_844 : BitVec 32 := 0#32
  let v1144 : BitVec 1 := Scalar.cmpi .eq c2_i32_843 c0_i32_844
  let c1_i32_845 : BitVec 32 := 1#32
  let v1145 : BitVec 32 := Scalar.select v1144 c1_i32_845 c2_i32_843
  let v1146 : BitVec 32 := Scalar.remsi v1143 v1145
  let c0_i32_847 : BitVec 32 := 0#32
  let v1148 : BitVec 1 := Scalar.cmpi .slt v1146 c0_i32_847
  let c0_i32_848 : BitVec 32 := 0#32
  let v1149 : BitVec 1 := Scalar.cmpi .slt v1145 c0_i32_848
  let v1150 : BitVec 1 := Scalar.xori v1148 v1149
  let c0_i32_846 : BitVec 32 := 0#32
  let v1147 : BitVec 1 := Scalar.cmpi .ne v1146 c0_i32_846
  let v1151 : BitVec 1 := Scalar.andi v1150 v1147
  let v1152 : BitVec 32 := Scalar.addi v1146 v1145
  let v1153 : BitVec 32 := Scalar.select v1151 v1152 v1146
  let c4_i32_864 : BitVec 32 := 4#32
  let v1168 : BitVec 32 := Scalar.muli v1153 c4_i32_864
  let v1169 : BitVec 32 := Scalar.addi v1167 v1168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_849 : BitVec 32 := 4#32
  let v1154 : BitVec 32 := Scalar.addi v8 c4_i32_849
  let c1_i32_850 : BitVec 32 := 1#32
  let v1155 : BitVec 32 := Scalar.subi v1154 c1_i32_850
  let c4_i32_851 : BitVec 32 := 4#32
  let c0_i32_852 : BitVec 32 := 0#32
  let v1156 : BitVec 1 := Scalar.cmpi .eq c4_i32_851 c0_i32_852
  let c1_i32_853 : BitVec 32 := 1#32
  let v1157 : BitVec 32 := Scalar.select v1156 c1_i32_853 c4_i32_851
  let v1158 : BitVec 32 := Scalar.remsi v1155 v1157
  let c0_i32_855 : BitVec 32 := 0#32
  let v1160 : BitVec 1 := Scalar.cmpi .slt v1158 c0_i32_855
  let c0_i32_856 : BitVec 32 := 0#32
  let v1161 : BitVec 1 := Scalar.cmpi .slt v1157 c0_i32_856
  let v1162 : BitVec 1 := Scalar.xori v1160 v1161
  let c0_i32_854 : BitVec 32 := 0#32
  let v1159 : BitVec 1 := Scalar.cmpi .ne v1158 c0_i32_854
  let v1163 : BitVec 1 := Scalar.andi v1162 v1159
  let v1164 : BitVec 32 := Scalar.addi v1158 v1157
  let v1165 : BitVec 32 := Scalar.select v1163 v1164 v1158
  let c1_i32_865 : BitVec 32 := 1#32
  let v1170 : BitVec 32 := Scalar.muli v1165 c1_i32_865
  let v1171 : BitVec 32 := Scalar.addi v1169 v1170
  v1171.toNat
def k0_dev29 (d0 : Dev nD) : Nat :=
  let c0_i32_898 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_870 : BitVec 32 := 0#32
  let v1179 : BitVec 32 := Scalar.addi v2 c0_i32_870
  let c2_i32_871 : BitVec 32 := 2#32
  let c0_i32_872 : BitVec 32 := 0#32
  let v1180 : BitVec 1 := Scalar.cmpi .eq c2_i32_871 c0_i32_872
  let c1_i32_873 : BitVec 32 := 1#32
  let v1181 : BitVec 32 := Scalar.select v1180 c1_i32_873 c2_i32_871
  let v1182 : BitVec 32 := Scalar.remsi v1179 v1181
  let c0_i32_875 : BitVec 32 := 0#32
  let v1184 : BitVec 1 := Scalar.cmpi .slt v1182 c0_i32_875
  let c0_i32_876 : BitVec 32 := 0#32
  let v1185 : BitVec 1 := Scalar.cmpi .slt v1181 c0_i32_876
  let v1186 : BitVec 1 := Scalar.xori v1184 v1185
  let c0_i32_874 : BitVec 32 := 0#32
  let v1183 : BitVec 1 := Scalar.cmpi .ne v1182 c0_i32_874
  let v1187 : BitVec 1 := Scalar.andi v1186 v1183
  let v1188 : BitVec 32 := Scalar.addi v1182 v1181
  let v1189 : BitVec 32 := Scalar.select v1187 v1188 v1182
  let c8_i32_897 : BitVec 32 := 8#32
  let v1213 : BitVec 32 := Scalar.muli v1189 c8_i32_897
  let v1214 : BitVec 32 := Scalar.addi c0_i32_898 v1213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_877 : BitVec 32 := 0#32
  let v1190 : BitVec 32 := Scalar.addi v5 c0_i32_877
  let c2_i32_878 : BitVec 32 := 2#32
  let c0_i32_879 : BitVec 32 := 0#32
  let v1191 : BitVec 1 := Scalar.cmpi .eq c2_i32_878 c0_i32_879
  let c1_i32_880 : BitVec 32 := 1#32
  let v1192 : BitVec 32 := Scalar.select v1191 c1_i32_880 c2_i32_878
  let v1193 : BitVec 32 := Scalar.remsi v1190 v1192
  let c0_i32_882 : BitVec 32 := 0#32
  let v1195 : BitVec 1 := Scalar.cmpi .slt v1193 c0_i32_882
  let c0_i32_883 : BitVec 32 := 0#32
  let v1196 : BitVec 1 := Scalar.cmpi .slt v1192 c0_i32_883
  let v1197 : BitVec 1 := Scalar.xori v1195 v1196
  let c0_i32_881 : BitVec 32 := 0#32
  let v1194 : BitVec 1 := Scalar.cmpi .ne v1193 c0_i32_881
  let v1198 : BitVec 1 := Scalar.andi v1197 v1194
  let v1199 : BitVec 32 := Scalar.addi v1193 v1192
  let v1200 : BitVec 32 := Scalar.select v1198 v1199 v1193
  let c4_i32_899 : BitVec 32 := 4#32
  let v1215 : BitVec 32 := Scalar.muli v1200 c4_i32_899
  let v1216 : BitVec 32 := Scalar.addi v1214 v1215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_884 : BitVec 32 := 4#32
  let v1201 : BitVec 32 := Scalar.addi v8 c4_i32_884
  let c2_i32_885 : BitVec 32 := 2#32
  let v1202 : BitVec 32 := Scalar.subi v1201 c2_i32_885
  let c4_i32_886 : BitVec 32 := 4#32
  let c0_i32_887 : BitVec 32 := 0#32
  let v1203 : BitVec 1 := Scalar.cmpi .eq c4_i32_886 c0_i32_887
  let c1_i32_888 : BitVec 32 := 1#32
  let v1204 : BitVec 32 := Scalar.select v1203 c1_i32_888 c4_i32_886
  let v1205 : BitVec 32 := Scalar.remsi v1202 v1204
  let c0_i32_890 : BitVec 32 := 0#32
  let v1207 : BitVec 1 := Scalar.cmpi .slt v1205 c0_i32_890
  let c0_i32_891 : BitVec 32 := 0#32
  let v1208 : BitVec 1 := Scalar.cmpi .slt v1204 c0_i32_891
  let v1209 : BitVec 1 := Scalar.xori v1207 v1208
  let c0_i32_889 : BitVec 32 := 0#32
  let v1206 : BitVec 1 := Scalar.cmpi .ne v1205 c0_i32_889
  let v1210 : BitVec 1 := Scalar.andi v1209 v1206
  let v1211 : BitVec 32 := Scalar.addi v1205 v1204
  let v1212 : BitVec 32 := Scalar.select v1210 v1211 v1205
  let c1_i32_900 : BitVec 32 := 1#32
  let v1217 : BitVec 32 := Scalar.muli v1212 c1_i32_900
  let v1218 : BitVec 32 := Scalar.addi v1216 v1217
  v1218.toNat
def k0_dev30 (d0 : Dev nD) : Nat :=
  let c0_i32_933 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_905 : BitVec 32 := 0#32
  let v1226 : BitVec 32 := Scalar.addi v2 c0_i32_905
  let c2_i32_906 : BitVec 32 := 2#32
  let c0_i32_907 : BitVec 32 := 0#32
  let v1227 : BitVec 1 := Scalar.cmpi .eq c2_i32_906 c0_i32_907
  let c1_i32_908 : BitVec 32 := 1#32
  let v1228 : BitVec 32 := Scalar.select v1227 c1_i32_908 c2_i32_906
  let v1229 : BitVec 32 := Scalar.remsi v1226 v1228
  let c0_i32_910 : BitVec 32 := 0#32
  let v1231 : BitVec 1 := Scalar.cmpi .slt v1229 c0_i32_910
  let c0_i32_911 : BitVec 32 := 0#32
  let v1232 : BitVec 1 := Scalar.cmpi .slt v1228 c0_i32_911
  let v1233 : BitVec 1 := Scalar.xori v1231 v1232
  let c0_i32_909 : BitVec 32 := 0#32
  let v1230 : BitVec 1 := Scalar.cmpi .ne v1229 c0_i32_909
  let v1234 : BitVec 1 := Scalar.andi v1233 v1230
  let v1235 : BitVec 32 := Scalar.addi v1229 v1228
  let v1236 : BitVec 32 := Scalar.select v1234 v1235 v1229
  let c8_i32_932 : BitVec 32 := 8#32
  let v1260 : BitVec 32 := Scalar.muli v1236 c8_i32_932
  let v1261 : BitVec 32 := Scalar.addi c0_i32_933 v1260
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_912 : BitVec 32 := 0#32
  let v1237 : BitVec 32 := Scalar.addi v5 c0_i32_912
  let c2_i32_913 : BitVec 32 := 2#32
  let c0_i32_914 : BitVec 32 := 0#32
  let v1238 : BitVec 1 := Scalar.cmpi .eq c2_i32_913 c0_i32_914
  let c1_i32_915 : BitVec 32 := 1#32
  let v1239 : BitVec 32 := Scalar.select v1238 c1_i32_915 c2_i32_913
  let v1240 : BitVec 32 := Scalar.remsi v1237 v1239
  let c0_i32_917 : BitVec 32 := 0#32
  let v1242 : BitVec 1 := Scalar.cmpi .slt v1240 c0_i32_917
  let c0_i32_918 : BitVec 32 := 0#32
  let v1243 : BitVec 1 := Scalar.cmpi .slt v1239 c0_i32_918
  let v1244 : BitVec 1 := Scalar.xori v1242 v1243
  let c0_i32_916 : BitVec 32 := 0#32
  let v1241 : BitVec 1 := Scalar.cmpi .ne v1240 c0_i32_916
  let v1245 : BitVec 1 := Scalar.andi v1244 v1241
  let v1246 : BitVec 32 := Scalar.addi v1240 v1239
  let v1247 : BitVec 32 := Scalar.select v1245 v1246 v1240
  let c4_i32_934 : BitVec 32 := 4#32
  let v1262 : BitVec 32 := Scalar.muli v1247 c4_i32_934
  let v1263 : BitVec 32 := Scalar.addi v1261 v1262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_919 : BitVec 32 := 4#32
  let v1248 : BitVec 32 := Scalar.addi v8 c4_i32_919
  let c3_i32_920 : BitVec 32 := 3#32
  let v1249 : BitVec 32 := Scalar.subi v1248 c3_i32_920
  let c4_i32_921 : BitVec 32 := 4#32
  let c0_i32_922 : BitVec 32 := 0#32
  let v1250 : BitVec 1 := Scalar.cmpi .eq c4_i32_921 c0_i32_922
  let c1_i32_923 : BitVec 32 := 1#32
  let v1251 : BitVec 32 := Scalar.select v1250 c1_i32_923 c4_i32_921
  let v1252 : BitVec 32 := Scalar.remsi v1249 v1251
  let c0_i32_925 : BitVec 32 := 0#32
  let v1254 : BitVec 1 := Scalar.cmpi .slt v1252 c0_i32_925
  let c0_i32_926 : BitVec 32 := 0#32
  let v1255 : BitVec 1 := Scalar.cmpi .slt v1251 c0_i32_926
  let v1256 : BitVec 1 := Scalar.xori v1254 v1255
  let c0_i32_924 : BitVec 32 := 0#32
  let v1253 : BitVec 1 := Scalar.cmpi .ne v1252 c0_i32_924
  let v1257 : BitVec 1 := Scalar.andi v1256 v1253
  let v1258 : BitVec 32 := Scalar.addi v1252 v1251
  let v1259 : BitVec 32 := Scalar.select v1257 v1258 v1252
  let c1_i32_935 : BitVec 32 := 1#32
  let v1264 : BitVec 32 := Scalar.muli v1259 c1_i32_935
  let v1265 : BitVec 32 := Scalar.addi v1263 v1264
  v1265.toNat
def k0_dev31 (d0 : Dev nD) : Nat :=
  let c0_i32_968 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_940 : BitVec 32 := 0#32
  let v1273 : BitVec 32 := Scalar.addi v2 c0_i32_940
  let c2_i32_941 : BitVec 32 := 2#32
  let c0_i32_942 : BitVec 32 := 0#32
  let v1274 : BitVec 1 := Scalar.cmpi .eq c2_i32_941 c0_i32_942
  let c1_i32_943 : BitVec 32 := 1#32
  let v1275 : BitVec 32 := Scalar.select v1274 c1_i32_943 c2_i32_941
  let v1276 : BitVec 32 := Scalar.remsi v1273 v1275
  let c0_i32_945 : BitVec 32 := 0#32
  let v1278 : BitVec 1 := Scalar.cmpi .slt v1276 c0_i32_945
  let c0_i32_946 : BitVec 32 := 0#32
  let v1279 : BitVec 1 := Scalar.cmpi .slt v1275 c0_i32_946
  let v1280 : BitVec 1 := Scalar.xori v1278 v1279
  let c0_i32_944 : BitVec 32 := 0#32
  let v1277 : BitVec 1 := Scalar.cmpi .ne v1276 c0_i32_944
  let v1281 : BitVec 1 := Scalar.andi v1280 v1277
  let v1282 : BitVec 32 := Scalar.addi v1276 v1275
  let v1283 : BitVec 32 := Scalar.select v1281 v1282 v1276
  let c8_i32_967 : BitVec 32 := 8#32
  let v1307 : BitVec 32 := Scalar.muli v1283 c8_i32_967
  let v1308 : BitVec 32 := Scalar.addi c0_i32_968 v1307
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_947 : BitVec 32 := 1#32
  let v1284 : BitVec 32 := Scalar.addi v5 c1_i32_947
  let c2_i32_948 : BitVec 32 := 2#32
  let c0_i32_949 : BitVec 32 := 0#32
  let v1285 : BitVec 1 := Scalar.cmpi .eq c2_i32_948 c0_i32_949
  let c1_i32_950 : BitVec 32 := 1#32
  let v1286 : BitVec 32 := Scalar.select v1285 c1_i32_950 c2_i32_948
  let v1287 : BitVec 32 := Scalar.remsi v1284 v1286
  let c0_i32_952 : BitVec 32 := 0#32
  let v1289 : BitVec 1 := Scalar.cmpi .slt v1287 c0_i32_952
  let c0_i32_953 : BitVec 32 := 0#32
  let v1290 : BitVec 1 := Scalar.cmpi .slt v1286 c0_i32_953
  let v1291 : BitVec 1 := Scalar.xori v1289 v1290
  let c0_i32_951 : BitVec 32 := 0#32
  let v1288 : BitVec 1 := Scalar.cmpi .ne v1287 c0_i32_951
  let v1292 : BitVec 1 := Scalar.andi v1291 v1288
  let v1293 : BitVec 32 := Scalar.addi v1287 v1286
  let v1294 : BitVec 32 := Scalar.select v1292 v1293 v1287
  let c4_i32_969 : BitVec 32 := 4#32
  let v1309 : BitVec 32 := Scalar.muli v1294 c4_i32_969
  let v1310 : BitVec 32 := Scalar.addi v1308 v1309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_954 : BitVec 32 := 4#32
  let v1295 : BitVec 32 := Scalar.addi v8 c4_i32_954
  let c0_i32_955 : BitVec 32 := 0#32
  let v1296 : BitVec 32 := Scalar.subi v1295 c0_i32_955
  let c4_i32_956 : BitVec 32 := 4#32
  let c0_i32_957 : BitVec 32 := 0#32
  let v1297 : BitVec 1 := Scalar.cmpi .eq c4_i32_956 c0_i32_957
  let c1_i32_958 : BitVec 32 := 1#32
  let v1298 : BitVec 32 := Scalar.select v1297 c1_i32_958 c4_i32_956
  let v1299 : BitVec 32 := Scalar.remsi v1296 v1298
  let c0_i32_960 : BitVec 32 := 0#32
  let v1301 : BitVec 1 := Scalar.cmpi .slt v1299 c0_i32_960
  let c0_i32_961 : BitVec 32 := 0#32
  let v1302 : BitVec 1 := Scalar.cmpi .slt v1298 c0_i32_961
  let v1303 : BitVec 1 := Scalar.xori v1301 v1302
  let c0_i32_959 : BitVec 32 := 0#32
  let v1300 : BitVec 1 := Scalar.cmpi .ne v1299 c0_i32_959
  let v1304 : BitVec 1 := Scalar.andi v1303 v1300
  let v1305 : BitVec 32 := Scalar.addi v1299 v1298
  let v1306 : BitVec 32 := Scalar.select v1304 v1305 v1299
  let c1_i32_970 : BitVec 32 := 1#32
  let v1311 : BitVec 32 := Scalar.muli v1306 c1_i32_970
  let v1312 : BitVec 32 := Scalar.addi v1310 v1311
  v1312.toNat
def k0_dev32 (d0 : Dev nD) : Nat :=
  let c0_i32_1003 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_975 : BitVec 32 := 0#32
  let v1320 : BitVec 32 := Scalar.addi v2 c0_i32_975
  let c2_i32_976 : BitVec 32 := 2#32
  let c0_i32_977 : BitVec 32 := 0#32
  let v1321 : BitVec 1 := Scalar.cmpi .eq c2_i32_976 c0_i32_977
  let c1_i32_978 : BitVec 32 := 1#32
  let v1322 : BitVec 32 := Scalar.select v1321 c1_i32_978 c2_i32_976
  let v1323 : BitVec 32 := Scalar.remsi v1320 v1322
  let c0_i32_980 : BitVec 32 := 0#32
  let v1325 : BitVec 1 := Scalar.cmpi .slt v1323 c0_i32_980
  let c0_i32_981 : BitVec 32 := 0#32
  let v1326 : BitVec 1 := Scalar.cmpi .slt v1322 c0_i32_981
  let v1327 : BitVec 1 := Scalar.xori v1325 v1326
  let c0_i32_979 : BitVec 32 := 0#32
  let v1324 : BitVec 1 := Scalar.cmpi .ne v1323 c0_i32_979
  let v1328 : BitVec 1 := Scalar.andi v1327 v1324
  let v1329 : BitVec 32 := Scalar.addi v1323 v1322
  let v1330 : BitVec 32 := Scalar.select v1328 v1329 v1323
  let c8_i32_1002 : BitVec 32 := 8#32
  let v1354 : BitVec 32 := Scalar.muli v1330 c8_i32_1002
  let v1355 : BitVec 32 := Scalar.addi c0_i32_1003 v1354
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_982 : BitVec 32 := 1#32
  let v1331 : BitVec 32 := Scalar.addi v5 c1_i32_982
  let c2_i32_983 : BitVec 32 := 2#32
  let c0_i32_984 : BitVec 32 := 0#32
  let v1332 : BitVec 1 := Scalar.cmpi .eq c2_i32_983 c0_i32_984
  let c1_i32_985 : BitVec 32 := 1#32
  let v1333 : BitVec 32 := Scalar.select v1332 c1_i32_985 c2_i32_983
  let v1334 : BitVec 32 := Scalar.remsi v1331 v1333
  let c0_i32_987 : BitVec 32 := 0#32
  let v1336 : BitVec 1 := Scalar.cmpi .slt v1334 c0_i32_987
  let c0_i32_988 : BitVec 32 := 0#32
  let v1337 : BitVec 1 := Scalar.cmpi .slt v1333 c0_i32_988
  let v1338 : BitVec 1 := Scalar.xori v1336 v1337
  let c0_i32_986 : BitVec 32 := 0#32
  let v1335 : BitVec 1 := Scalar.cmpi .ne v1334 c0_i32_986
  let v1339 : BitVec 1 := Scalar.andi v1338 v1335
  let v1340 : BitVec 32 := Scalar.addi v1334 v1333
  let v1341 : BitVec 32 := Scalar.select v1339 v1340 v1334
  let c4_i32_1004 : BitVec 32 := 4#32
  let v1356 : BitVec 32 := Scalar.muli v1341 c4_i32_1004
  let v1357 : BitVec 32 := Scalar.addi v1355 v1356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_989 : BitVec 32 := 4#32
  let v1342 : BitVec 32 := Scalar.addi v8 c4_i32_989
  let c1_i32_990 : BitVec 32 := 1#32
  let v1343 : BitVec 32 := Scalar.subi v1342 c1_i32_990
  let c4_i32_991 : BitVec 32 := 4#32
  let c0_i32_992 : BitVec 32 := 0#32
  let v1344 : BitVec 1 := Scalar.cmpi .eq c4_i32_991 c0_i32_992
  let c1_i32_993 : BitVec 32 := 1#32
  let v1345 : BitVec 32 := Scalar.select v1344 c1_i32_993 c4_i32_991
  let v1346 : BitVec 32 := Scalar.remsi v1343 v1345
  let c0_i32_995 : BitVec 32 := 0#32
  let v1348 : BitVec 1 := Scalar.cmpi .slt v1346 c0_i32_995
  let c0_i32_996 : BitVec 32 := 0#32
  let v1349 : BitVec 1 := Scalar.cmpi .slt v1345 c0_i32_996
  let v1350 : BitVec 1 := Scalar.xori v1348 v1349
  let c0_i32_994 : BitVec 32 := 0#32
  let v1347 : BitVec 1 := Scalar.cmpi .ne v1346 c0_i32_994
  let v1351 : BitVec 1 := Scalar.andi v1350 v1347
  let v1352 : BitVec 32 := Scalar.addi v1346 v1345
  let v1353 : BitVec 32 := Scalar.select v1351 v1352 v1346
  let c1_i32_1005 : BitVec 32 := 1#32
  let v1358 : BitVec 32 := Scalar.muli v1353 c1_i32_1005
  let v1359 : BitVec 32 := Scalar.addi v1357 v1358
  v1359.toNat
def k0_dev33 (d0 : Dev nD) : Nat :=
  let c0_i32_1038 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_1010 : BitVec 32 := 0#32
  let v1367 : BitVec 32 := Scalar.addi v2 c0_i32_1010
  let c2_i32_1011 : BitVec 32 := 2#32
  let c0_i32_1012 : BitVec 32 := 0#32
  let v1368 : BitVec 1 := Scalar.cmpi .eq c2_i32_1011 c0_i32_1012
  let c1_i32_1013 : BitVec 32 := 1#32
  let v1369 : BitVec 32 := Scalar.select v1368 c1_i32_1013 c2_i32_1011
  let v1370 : BitVec 32 := Scalar.remsi v1367 v1369
  let c0_i32_1015 : BitVec 32 := 0#32
  let v1372 : BitVec 1 := Scalar.cmpi .slt v1370 c0_i32_1015
  let c0_i32_1016 : BitVec 32 := 0#32
  let v1373 : BitVec 1 := Scalar.cmpi .slt v1369 c0_i32_1016
  let v1374 : BitVec 1 := Scalar.xori v1372 v1373
  let c0_i32_1014 : BitVec 32 := 0#32
  let v1371 : BitVec 1 := Scalar.cmpi .ne v1370 c0_i32_1014
  let v1375 : BitVec 1 := Scalar.andi v1374 v1371
  let v1376 : BitVec 32 := Scalar.addi v1370 v1369
  let v1377 : BitVec 32 := Scalar.select v1375 v1376 v1370
  let c8_i32_1037 : BitVec 32 := 8#32
  let v1401 : BitVec 32 := Scalar.muli v1377 c8_i32_1037
  let v1402 : BitVec 32 := Scalar.addi c0_i32_1038 v1401
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_1017 : BitVec 32 := 1#32
  let v1378 : BitVec 32 := Scalar.addi v5 c1_i32_1017
  let c2_i32_1018 : BitVec 32 := 2#32
  let c0_i32_1019 : BitVec 32 := 0#32
  let v1379 : BitVec 1 := Scalar.cmpi .eq c2_i32_1018 c0_i32_1019
  let c1_i32_1020 : BitVec 32 := 1#32
  let v1380 : BitVec 32 := Scalar.select v1379 c1_i32_1020 c2_i32_1018
  let v1381 : BitVec 32 := Scalar.remsi v1378 v1380
  let c0_i32_1022 : BitVec 32 := 0#32
  let v1383 : BitVec 1 := Scalar.cmpi .slt v1381 c0_i32_1022
  let c0_i32_1023 : BitVec 32 := 0#32
  let v1384 : BitVec 1 := Scalar.cmpi .slt v1380 c0_i32_1023
  let v1385 : BitVec 1 := Scalar.xori v1383 v1384
  let c0_i32_1021 : BitVec 32 := 0#32
  let v1382 : BitVec 1 := Scalar.cmpi .ne v1381 c0_i32_1021
  let v1386 : BitVec 1 := Scalar.andi v1385 v1382
  let v1387 : BitVec 32 := Scalar.addi v1381 v1380
  let v1388 : BitVec 32 := Scalar.select v1386 v1387 v1381
  let c4_i32_1039 : BitVec 32 := 4#32
  let v1403 : BitVec 32 := Scalar.muli v1388 c4_i32_1039
  let v1404 : BitVec 32 := Scalar.addi v1402 v1403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1024 : BitVec 32 := 4#32
  let v1389 : BitVec 32 := Scalar.addi v8 c4_i32_1024
  let c2_i32_1025 : BitVec 32 := 2#32
  let v1390 : BitVec 32 := Scalar.subi v1389 c2_i32_1025
  let c4_i32_1026 : BitVec 32 := 4#32
  let c0_i32_1027 : BitVec 32 := 0#32
  let v1391 : BitVec 1 := Scalar.cmpi .eq c4_i32_1026 c0_i32_1027
  let c1_i32_1028 : BitVec 32 := 1#32
  let v1392 : BitVec 32 := Scalar.select v1391 c1_i32_1028 c4_i32_1026
  let v1393 : BitVec 32 := Scalar.remsi v1390 v1392
  let c0_i32_1030 : BitVec 32 := 0#32
  let v1395 : BitVec 1 := Scalar.cmpi .slt v1393 c0_i32_1030
  let c0_i32_1031 : BitVec 32 := 0#32
  let v1396 : BitVec 1 := Scalar.cmpi .slt v1392 c0_i32_1031
  let v1397 : BitVec 1 := Scalar.xori v1395 v1396
  let c0_i32_1029 : BitVec 32 := 0#32
  let v1394 : BitVec 1 := Scalar.cmpi .ne v1393 c0_i32_1029
  let v1398 : BitVec 1 := Scalar.andi v1397 v1394
  let v1399 : BitVec 32 := Scalar.addi v1393 v1392
  let v1400 : BitVec 32 := Scalar.select v1398 v1399 v1393
  let c1_i32_1040 : BitVec 32 := 1#32
  let v1405 : BitVec 32 := Scalar.muli v1400 c1_i32_1040
  let v1406 : BitVec 32 := Scalar.addi v1404 v1405
  v1406.toNat
def k0_dev34 (d0 : Dev nD) : Nat :=
  let c0_i32_1073 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_1045 : BitVec 32 := 0#32
  let v1414 : BitVec 32 := Scalar.addi v2 c0_i32_1045
  let c2_i32_1046 : BitVec 32 := 2#32
  let c0_i32_1047 : BitVec 32 := 0#32
  let v1415 : BitVec 1 := Scalar.cmpi .eq c2_i32_1046 c0_i32_1047
  let c1_i32_1048 : BitVec 32 := 1#32
  let v1416 : BitVec 32 := Scalar.select v1415 c1_i32_1048 c2_i32_1046
  let v1417 : BitVec 32 := Scalar.remsi v1414 v1416
  let c0_i32_1050 : BitVec 32 := 0#32
  let v1419 : BitVec 1 := Scalar.cmpi .slt v1417 c0_i32_1050
  let c0_i32_1051 : BitVec 32 := 0#32
  let v1420 : BitVec 1 := Scalar.cmpi .slt v1416 c0_i32_1051
  let v1421 : BitVec 1 := Scalar.xori v1419 v1420
  let c0_i32_1049 : BitVec 32 := 0#32
  let v1418 : BitVec 1 := Scalar.cmpi .ne v1417 c0_i32_1049
  let v1422 : BitVec 1 := Scalar.andi v1421 v1418
  let v1423 : BitVec 32 := Scalar.addi v1417 v1416
  let v1424 : BitVec 32 := Scalar.select v1422 v1423 v1417
  let c8_i32_1072 : BitVec 32 := 8#32
  let v1448 : BitVec 32 := Scalar.muli v1424 c8_i32_1072
  let v1449 : BitVec 32 := Scalar.addi c0_i32_1073 v1448
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_1052 : BitVec 32 := 1#32
  let v1425 : BitVec 32 := Scalar.addi v5 c1_i32_1052
  let c2_i32_1053 : BitVec 32 := 2#32
  let c0_i32_1054 : BitVec 32 := 0#32
  let v1426 : BitVec 1 := Scalar.cmpi .eq c2_i32_1053 c0_i32_1054
  let c1_i32_1055 : BitVec 32 := 1#32
  let v1427 : BitVec 32 := Scalar.select v1426 c1_i32_1055 c2_i32_1053
  let v1428 : BitVec 32 := Scalar.remsi v1425 v1427
  let c0_i32_1057 : BitVec 32 := 0#32
  let v1430 : BitVec 1 := Scalar.cmpi .slt v1428 c0_i32_1057
  let c0_i32_1058 : BitVec 32 := 0#32
  let v1431 : BitVec 1 := Scalar.cmpi .slt v1427 c0_i32_1058
  let v1432 : BitVec 1 := Scalar.xori v1430 v1431
  let c0_i32_1056 : BitVec 32 := 0#32
  let v1429 : BitVec 1 := Scalar.cmpi .ne v1428 c0_i32_1056
  let v1433 : BitVec 1 := Scalar.andi v1432 v1429
  let v1434 : BitVec 32 := Scalar.addi v1428 v1427
  let v1435 : BitVec 32 := Scalar.select v1433 v1434 v1428
  let c4_i32_1074 : BitVec 32 := 4#32
  let v1450 : BitVec 32 := Scalar.muli v1435 c4_i32_1074
  let v1451 : BitVec 32 := Scalar.addi v1449 v1450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1059 : BitVec 32 := 4#32
  let v1436 : BitVec 32 := Scalar.addi v8 c4_i32_1059
  let c3_i32_1060 : BitVec 32 := 3#32
  let v1437 : BitVec 32 := Scalar.subi v1436 c3_i32_1060
  let c4_i32_1061 : BitVec 32 := 4#32
  let c0_i32_1062 : BitVec 32 := 0#32
  let v1438 : BitVec 1 := Scalar.cmpi .eq c4_i32_1061 c0_i32_1062
  let c1_i32_1063 : BitVec 32 := 1#32
  let v1439 : BitVec 32 := Scalar.select v1438 c1_i32_1063 c4_i32_1061
  let v1440 : BitVec 32 := Scalar.remsi v1437 v1439
  let c0_i32_1065 : BitVec 32 := 0#32
  let v1442 : BitVec 1 := Scalar.cmpi .slt v1440 c0_i32_1065
  let c0_i32_1066 : BitVec 32 := 0#32
  let v1443 : BitVec 1 := Scalar.cmpi .slt v1439 c0_i32_1066
  let v1444 : BitVec 1 := Scalar.xori v1442 v1443
  let c0_i32_1064 : BitVec 32 := 0#32
  let v1441 : BitVec 1 := Scalar.cmpi .ne v1440 c0_i32_1064
  let v1445 : BitVec 1 := Scalar.andi v1444 v1441
  let v1446 : BitVec 32 := Scalar.addi v1440 v1439
  let v1447 : BitVec 32 := Scalar.select v1445 v1446 v1440
  let c1_i32_1075 : BitVec 32 := 1#32
  let v1452 : BitVec 32 := Scalar.muli v1447 c1_i32_1075
  let v1453 : BitVec 32 := Scalar.addi v1451 v1452
  v1453.toNat
def k0_dev35 (d0 : Dev nD) : Nat :=
  let c0_i32_1108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1080 : BitVec 32 := 1#32
  let v1461 : BitVec 32 := Scalar.addi v2 c1_i32_1080
  let c2_i32_1081 : BitVec 32 := 2#32
  let c0_i32_1082 : BitVec 32 := 0#32
  let v1462 : BitVec 1 := Scalar.cmpi .eq c2_i32_1081 c0_i32_1082
  let c1_i32_1083 : BitVec 32 := 1#32
  let v1463 : BitVec 32 := Scalar.select v1462 c1_i32_1083 c2_i32_1081
  let v1464 : BitVec 32 := Scalar.remsi v1461 v1463
  let c0_i32_1085 : BitVec 32 := 0#32
  let v1466 : BitVec 1 := Scalar.cmpi .slt v1464 c0_i32_1085
  let c0_i32_1086 : BitVec 32 := 0#32
  let v1467 : BitVec 1 := Scalar.cmpi .slt v1463 c0_i32_1086
  let v1468 : BitVec 1 := Scalar.xori v1466 v1467
  let c0_i32_1084 : BitVec 32 := 0#32
  let v1465 : BitVec 1 := Scalar.cmpi .ne v1464 c0_i32_1084
  let v1469 : BitVec 1 := Scalar.andi v1468 v1465
  let v1470 : BitVec 32 := Scalar.addi v1464 v1463
  let v1471 : BitVec 32 := Scalar.select v1469 v1470 v1464
  let c8_i32_1107 : BitVec 32 := 8#32
  let v1495 : BitVec 32 := Scalar.muli v1471 c8_i32_1107
  let v1496 : BitVec 32 := Scalar.addi c0_i32_1108 v1495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_1087 : BitVec 32 := 0#32
  let v1472 : BitVec 32 := Scalar.addi v5 c0_i32_1087
  let c2_i32_1088 : BitVec 32 := 2#32
  let c0_i32_1089 : BitVec 32 := 0#32
  let v1473 : BitVec 1 := Scalar.cmpi .eq c2_i32_1088 c0_i32_1089
  let c1_i32_1090 : BitVec 32 := 1#32
  let v1474 : BitVec 32 := Scalar.select v1473 c1_i32_1090 c2_i32_1088
  let v1475 : BitVec 32 := Scalar.remsi v1472 v1474
  let c0_i32_1092 : BitVec 32 := 0#32
  let v1477 : BitVec 1 := Scalar.cmpi .slt v1475 c0_i32_1092
  let c0_i32_1093 : BitVec 32 := 0#32
  let v1478 : BitVec 1 := Scalar.cmpi .slt v1474 c0_i32_1093
  let v1479 : BitVec 1 := Scalar.xori v1477 v1478
  let c0_i32_1091 : BitVec 32 := 0#32
  let v1476 : BitVec 1 := Scalar.cmpi .ne v1475 c0_i32_1091
  let v1480 : BitVec 1 := Scalar.andi v1479 v1476
  let v1481 : BitVec 32 := Scalar.addi v1475 v1474
  let v1482 : BitVec 32 := Scalar.select v1480 v1481 v1475
  let c4_i32_1109 : BitVec 32 := 4#32
  let v1497 : BitVec 32 := Scalar.muli v1482 c4_i32_1109
  let v1498 : BitVec 32 := Scalar.addi v1496 v1497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1094 : BitVec 32 := 4#32
  let v1483 : BitVec 32 := Scalar.addi v8 c4_i32_1094
  let c0_i32_1095 : BitVec 32 := 0#32
  let v1484 : BitVec 32 := Scalar.subi v1483 c0_i32_1095
  let c4_i32_1096 : BitVec 32 := 4#32
  let c0_i32_1097 : BitVec 32 := 0#32
  let v1485 : BitVec 1 := Scalar.cmpi .eq c4_i32_1096 c0_i32_1097
  let c1_i32_1098 : BitVec 32 := 1#32
  let v1486 : BitVec 32 := Scalar.select v1485 c1_i32_1098 c4_i32_1096
  let v1487 : BitVec 32 := Scalar.remsi v1484 v1486
  let c0_i32_1100 : BitVec 32 := 0#32
  let v1489 : BitVec 1 := Scalar.cmpi .slt v1487 c0_i32_1100
  let c0_i32_1101 : BitVec 32 := 0#32
  let v1490 : BitVec 1 := Scalar.cmpi .slt v1486 c0_i32_1101
  let v1491 : BitVec 1 := Scalar.xori v1489 v1490
  let c0_i32_1099 : BitVec 32 := 0#32
  let v1488 : BitVec 1 := Scalar.cmpi .ne v1487 c0_i32_1099
  let v1492 : BitVec 1 := Scalar.andi v1491 v1488
  let v1493 : BitVec 32 := Scalar.addi v1487 v1486
  let v1494 : BitVec 32 := Scalar.select v1492 v1493 v1487
  let c1_i32_1110 : BitVec 32 := 1#32
  let v1499 : BitVec 32 := Scalar.muli v1494 c1_i32_1110
  let v1500 : BitVec 32 := Scalar.addi v1498 v1499
  v1500.toNat
def k0_dev36 (d0 : Dev nD) : Nat :=
  let c0_i32_1143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1115 : BitVec 32 := 1#32
  let v1508 : BitVec 32 := Scalar.addi v2 c1_i32_1115
  let c2_i32_1116 : BitVec 32 := 2#32
  let c0_i32_1117 : BitVec 32 := 0#32
  let v1509 : BitVec 1 := Scalar.cmpi .eq c2_i32_1116 c0_i32_1117
  let c1_i32_1118 : BitVec 32 := 1#32
  let v1510 : BitVec 32 := Scalar.select v1509 c1_i32_1118 c2_i32_1116
  let v1511 : BitVec 32 := Scalar.remsi v1508 v1510
  let c0_i32_1120 : BitVec 32 := 0#32
  let v1513 : BitVec 1 := Scalar.cmpi .slt v1511 c0_i32_1120
  let c0_i32_1121 : BitVec 32 := 0#32
  let v1514 : BitVec 1 := Scalar.cmpi .slt v1510 c0_i32_1121
  let v1515 : BitVec 1 := Scalar.xori v1513 v1514
  let c0_i32_1119 : BitVec 32 := 0#32
  let v1512 : BitVec 1 := Scalar.cmpi .ne v1511 c0_i32_1119
  let v1516 : BitVec 1 := Scalar.andi v1515 v1512
  let v1517 : BitVec 32 := Scalar.addi v1511 v1510
  let v1518 : BitVec 32 := Scalar.select v1516 v1517 v1511
  let c8_i32_1142 : BitVec 32 := 8#32
  let v1542 : BitVec 32 := Scalar.muli v1518 c8_i32_1142
  let v1543 : BitVec 32 := Scalar.addi c0_i32_1143 v1542
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_1122 : BitVec 32 := 0#32
  let v1519 : BitVec 32 := Scalar.addi v5 c0_i32_1122
  let c2_i32_1123 : BitVec 32 := 2#32
  let c0_i32_1124 : BitVec 32 := 0#32
  let v1520 : BitVec 1 := Scalar.cmpi .eq c2_i32_1123 c0_i32_1124
  let c1_i32_1125 : BitVec 32 := 1#32
  let v1521 : BitVec 32 := Scalar.select v1520 c1_i32_1125 c2_i32_1123
  let v1522 : BitVec 32 := Scalar.remsi v1519 v1521
  let c0_i32_1127 : BitVec 32 := 0#32
  let v1524 : BitVec 1 := Scalar.cmpi .slt v1522 c0_i32_1127
  let c0_i32_1128 : BitVec 32 := 0#32
  let v1525 : BitVec 1 := Scalar.cmpi .slt v1521 c0_i32_1128
  let v1526 : BitVec 1 := Scalar.xori v1524 v1525
  let c0_i32_1126 : BitVec 32 := 0#32
  let v1523 : BitVec 1 := Scalar.cmpi .ne v1522 c0_i32_1126
  let v1527 : BitVec 1 := Scalar.andi v1526 v1523
  let v1528 : BitVec 32 := Scalar.addi v1522 v1521
  let v1529 : BitVec 32 := Scalar.select v1527 v1528 v1522
  let c4_i32_1144 : BitVec 32 := 4#32
  let v1544 : BitVec 32 := Scalar.muli v1529 c4_i32_1144
  let v1545 : BitVec 32 := Scalar.addi v1543 v1544
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1129 : BitVec 32 := 4#32
  let v1530 : BitVec 32 := Scalar.addi v8 c4_i32_1129
  let c1_i32_1130 : BitVec 32 := 1#32
  let v1531 : BitVec 32 := Scalar.subi v1530 c1_i32_1130
  let c4_i32_1131 : BitVec 32 := 4#32
  let c0_i32_1132 : BitVec 32 := 0#32
  let v1532 : BitVec 1 := Scalar.cmpi .eq c4_i32_1131 c0_i32_1132
  let c1_i32_1133 : BitVec 32 := 1#32
  let v1533 : BitVec 32 := Scalar.select v1532 c1_i32_1133 c4_i32_1131
  let v1534 : BitVec 32 := Scalar.remsi v1531 v1533
  let c0_i32_1135 : BitVec 32 := 0#32
  let v1536 : BitVec 1 := Scalar.cmpi .slt v1534 c0_i32_1135
  let c0_i32_1136 : BitVec 32 := 0#32
  let v1537 : BitVec 1 := Scalar.cmpi .slt v1533 c0_i32_1136
  let v1538 : BitVec 1 := Scalar.xori v1536 v1537
  let c0_i32_1134 : BitVec 32 := 0#32
  let v1535 : BitVec 1 := Scalar.cmpi .ne v1534 c0_i32_1134
  let v1539 : BitVec 1 := Scalar.andi v1538 v1535
  let v1540 : BitVec 32 := Scalar.addi v1534 v1533
  let v1541 : BitVec 32 := Scalar.select v1539 v1540 v1534
  let c1_i32_1145 : BitVec 32 := 1#32
  let v1546 : BitVec 32 := Scalar.muli v1541 c1_i32_1145
  let v1547 : BitVec 32 := Scalar.addi v1545 v1546
  v1547.toNat
def k0_dev37 (d0 : Dev nD) : Nat :=
  let c0_i32_1178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1150 : BitVec 32 := 1#32
  let v1555 : BitVec 32 := Scalar.addi v2 c1_i32_1150
  let c2_i32_1151 : BitVec 32 := 2#32
  let c0_i32_1152 : BitVec 32 := 0#32
  let v1556 : BitVec 1 := Scalar.cmpi .eq c2_i32_1151 c0_i32_1152
  let c1_i32_1153 : BitVec 32 := 1#32
  let v1557 : BitVec 32 := Scalar.select v1556 c1_i32_1153 c2_i32_1151
  let v1558 : BitVec 32 := Scalar.remsi v1555 v1557
  let c0_i32_1155 : BitVec 32 := 0#32
  let v1560 : BitVec 1 := Scalar.cmpi .slt v1558 c0_i32_1155
  let c0_i32_1156 : BitVec 32 := 0#32
  let v1561 : BitVec 1 := Scalar.cmpi .slt v1557 c0_i32_1156
  let v1562 : BitVec 1 := Scalar.xori v1560 v1561
  let c0_i32_1154 : BitVec 32 := 0#32
  let v1559 : BitVec 1 := Scalar.cmpi .ne v1558 c0_i32_1154
  let v1563 : BitVec 1 := Scalar.andi v1562 v1559
  let v1564 : BitVec 32 := Scalar.addi v1558 v1557
  let v1565 : BitVec 32 := Scalar.select v1563 v1564 v1558
  let c8_i32_1177 : BitVec 32 := 8#32
  let v1589 : BitVec 32 := Scalar.muli v1565 c8_i32_1177
  let v1590 : BitVec 32 := Scalar.addi c0_i32_1178 v1589
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_1157 : BitVec 32 := 0#32
  let v1566 : BitVec 32 := Scalar.addi v5 c0_i32_1157
  let c2_i32_1158 : BitVec 32 := 2#32
  let c0_i32_1159 : BitVec 32 := 0#32
  let v1567 : BitVec 1 := Scalar.cmpi .eq c2_i32_1158 c0_i32_1159
  let c1_i32_1160 : BitVec 32 := 1#32
  let v1568 : BitVec 32 := Scalar.select v1567 c1_i32_1160 c2_i32_1158
  let v1569 : BitVec 32 := Scalar.remsi v1566 v1568
  let c0_i32_1162 : BitVec 32 := 0#32
  let v1571 : BitVec 1 := Scalar.cmpi .slt v1569 c0_i32_1162
  let c0_i32_1163 : BitVec 32 := 0#32
  let v1572 : BitVec 1 := Scalar.cmpi .slt v1568 c0_i32_1163
  let v1573 : BitVec 1 := Scalar.xori v1571 v1572
  let c0_i32_1161 : BitVec 32 := 0#32
  let v1570 : BitVec 1 := Scalar.cmpi .ne v1569 c0_i32_1161
  let v1574 : BitVec 1 := Scalar.andi v1573 v1570
  let v1575 : BitVec 32 := Scalar.addi v1569 v1568
  let v1576 : BitVec 32 := Scalar.select v1574 v1575 v1569
  let c4_i32_1179 : BitVec 32 := 4#32
  let v1591 : BitVec 32 := Scalar.muli v1576 c4_i32_1179
  let v1592 : BitVec 32 := Scalar.addi v1590 v1591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1164 : BitVec 32 := 4#32
  let v1577 : BitVec 32 := Scalar.addi v8 c4_i32_1164
  let c2_i32_1165 : BitVec 32 := 2#32
  let v1578 : BitVec 32 := Scalar.subi v1577 c2_i32_1165
  let c4_i32_1166 : BitVec 32 := 4#32
  let c0_i32_1167 : BitVec 32 := 0#32
  let v1579 : BitVec 1 := Scalar.cmpi .eq c4_i32_1166 c0_i32_1167
  let c1_i32_1168 : BitVec 32 := 1#32
  let v1580 : BitVec 32 := Scalar.select v1579 c1_i32_1168 c4_i32_1166
  let v1581 : BitVec 32 := Scalar.remsi v1578 v1580
  let c0_i32_1170 : BitVec 32 := 0#32
  let v1583 : BitVec 1 := Scalar.cmpi .slt v1581 c0_i32_1170
  let c0_i32_1171 : BitVec 32 := 0#32
  let v1584 : BitVec 1 := Scalar.cmpi .slt v1580 c0_i32_1171
  let v1585 : BitVec 1 := Scalar.xori v1583 v1584
  let c0_i32_1169 : BitVec 32 := 0#32
  let v1582 : BitVec 1 := Scalar.cmpi .ne v1581 c0_i32_1169
  let v1586 : BitVec 1 := Scalar.andi v1585 v1582
  let v1587 : BitVec 32 := Scalar.addi v1581 v1580
  let v1588 : BitVec 32 := Scalar.select v1586 v1587 v1581
  let c1_i32_1180 : BitVec 32 := 1#32
  let v1593 : BitVec 32 := Scalar.muli v1588 c1_i32_1180
  let v1594 : BitVec 32 := Scalar.addi v1592 v1593
  v1594.toNat
def k0_dev38 (d0 : Dev nD) : Nat :=
  let c0_i32_1213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1185 : BitVec 32 := 1#32
  let v1602 : BitVec 32 := Scalar.addi v2 c1_i32_1185
  let c2_i32_1186 : BitVec 32 := 2#32
  let c0_i32_1187 : BitVec 32 := 0#32
  let v1603 : BitVec 1 := Scalar.cmpi .eq c2_i32_1186 c0_i32_1187
  let c1_i32_1188 : BitVec 32 := 1#32
  let v1604 : BitVec 32 := Scalar.select v1603 c1_i32_1188 c2_i32_1186
  let v1605 : BitVec 32 := Scalar.remsi v1602 v1604
  let c0_i32_1190 : BitVec 32 := 0#32
  let v1607 : BitVec 1 := Scalar.cmpi .slt v1605 c0_i32_1190
  let c0_i32_1191 : BitVec 32 := 0#32
  let v1608 : BitVec 1 := Scalar.cmpi .slt v1604 c0_i32_1191
  let v1609 : BitVec 1 := Scalar.xori v1607 v1608
  let c0_i32_1189 : BitVec 32 := 0#32
  let v1606 : BitVec 1 := Scalar.cmpi .ne v1605 c0_i32_1189
  let v1610 : BitVec 1 := Scalar.andi v1609 v1606
  let v1611 : BitVec 32 := Scalar.addi v1605 v1604
  let v1612 : BitVec 32 := Scalar.select v1610 v1611 v1605
  let c8_i32_1212 : BitVec 32 := 8#32
  let v1636 : BitVec 32 := Scalar.muli v1612 c8_i32_1212
  let v1637 : BitVec 32 := Scalar.addi c0_i32_1213 v1636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_1192 : BitVec 32 := 0#32
  let v1613 : BitVec 32 := Scalar.addi v5 c0_i32_1192
  let c2_i32_1193 : BitVec 32 := 2#32
  let c0_i32_1194 : BitVec 32 := 0#32
  let v1614 : BitVec 1 := Scalar.cmpi .eq c2_i32_1193 c0_i32_1194
  let c1_i32_1195 : BitVec 32 := 1#32
  let v1615 : BitVec 32 := Scalar.select v1614 c1_i32_1195 c2_i32_1193
  let v1616 : BitVec 32 := Scalar.remsi v1613 v1615
  let c0_i32_1197 : BitVec 32 := 0#32
  let v1618 : BitVec 1 := Scalar.cmpi .slt v1616 c0_i32_1197
  let c0_i32_1198 : BitVec 32 := 0#32
  let v1619 : BitVec 1 := Scalar.cmpi .slt v1615 c0_i32_1198
  let v1620 : BitVec 1 := Scalar.xori v1618 v1619
  let c0_i32_1196 : BitVec 32 := 0#32
  let v1617 : BitVec 1 := Scalar.cmpi .ne v1616 c0_i32_1196
  let v1621 : BitVec 1 := Scalar.andi v1620 v1617
  let v1622 : BitVec 32 := Scalar.addi v1616 v1615
  let v1623 : BitVec 32 := Scalar.select v1621 v1622 v1616
  let c4_i32_1214 : BitVec 32 := 4#32
  let v1638 : BitVec 32 := Scalar.muli v1623 c4_i32_1214
  let v1639 : BitVec 32 := Scalar.addi v1637 v1638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1199 : BitVec 32 := 4#32
  let v1624 : BitVec 32 := Scalar.addi v8 c4_i32_1199
  let c3_i32_1200 : BitVec 32 := 3#32
  let v1625 : BitVec 32 := Scalar.subi v1624 c3_i32_1200
  let c4_i32_1201 : BitVec 32 := 4#32
  let c0_i32_1202 : BitVec 32 := 0#32
  let v1626 : BitVec 1 := Scalar.cmpi .eq c4_i32_1201 c0_i32_1202
  let c1_i32_1203 : BitVec 32 := 1#32
  let v1627 : BitVec 32 := Scalar.select v1626 c1_i32_1203 c4_i32_1201
  let v1628 : BitVec 32 := Scalar.remsi v1625 v1627
  let c0_i32_1205 : BitVec 32 := 0#32
  let v1630 : BitVec 1 := Scalar.cmpi .slt v1628 c0_i32_1205
  let c0_i32_1206 : BitVec 32 := 0#32
  let v1631 : BitVec 1 := Scalar.cmpi .slt v1627 c0_i32_1206
  let v1632 : BitVec 1 := Scalar.xori v1630 v1631
  let c0_i32_1204 : BitVec 32 := 0#32
  let v1629 : BitVec 1 := Scalar.cmpi .ne v1628 c0_i32_1204
  let v1633 : BitVec 1 := Scalar.andi v1632 v1629
  let v1634 : BitVec 32 := Scalar.addi v1628 v1627
  let v1635 : BitVec 32 := Scalar.select v1633 v1634 v1628
  let c1_i32_1215 : BitVec 32 := 1#32
  let v1640 : BitVec 32 := Scalar.muli v1635 c1_i32_1215
  let v1641 : BitVec 32 := Scalar.addi v1639 v1640
  v1641.toNat
def k0_dev39 (d0 : Dev nD) : Nat :=
  let c0_i32_1248 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1220 : BitVec 32 := 1#32
  let v1649 : BitVec 32 := Scalar.addi v2 c1_i32_1220
  let c2_i32_1221 : BitVec 32 := 2#32
  let c0_i32_1222 : BitVec 32 := 0#32
  let v1650 : BitVec 1 := Scalar.cmpi .eq c2_i32_1221 c0_i32_1222
  let c1_i32_1223 : BitVec 32 := 1#32
  let v1651 : BitVec 32 := Scalar.select v1650 c1_i32_1223 c2_i32_1221
  let v1652 : BitVec 32 := Scalar.remsi v1649 v1651
  let c0_i32_1225 : BitVec 32 := 0#32
  let v1654 : BitVec 1 := Scalar.cmpi .slt v1652 c0_i32_1225
  let c0_i32_1226 : BitVec 32 := 0#32
  let v1655 : BitVec 1 := Scalar.cmpi .slt v1651 c0_i32_1226
  let v1656 : BitVec 1 := Scalar.xori v1654 v1655
  let c0_i32_1224 : BitVec 32 := 0#32
  let v1653 : BitVec 1 := Scalar.cmpi .ne v1652 c0_i32_1224
  let v1657 : BitVec 1 := Scalar.andi v1656 v1653
  let v1658 : BitVec 32 := Scalar.addi v1652 v1651
  let v1659 : BitVec 32 := Scalar.select v1657 v1658 v1652
  let c8_i32_1247 : BitVec 32 := 8#32
  let v1683 : BitVec 32 := Scalar.muli v1659 c8_i32_1247
  let v1684 : BitVec 32 := Scalar.addi c0_i32_1248 v1683
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_1227 : BitVec 32 := 1#32
  let v1660 : BitVec 32 := Scalar.addi v5 c1_i32_1227
  let c2_i32_1228 : BitVec 32 := 2#32
  let c0_i32_1229 : BitVec 32 := 0#32
  let v1661 : BitVec 1 := Scalar.cmpi .eq c2_i32_1228 c0_i32_1229
  let c1_i32_1230 : BitVec 32 := 1#32
  let v1662 : BitVec 32 := Scalar.select v1661 c1_i32_1230 c2_i32_1228
  let v1663 : BitVec 32 := Scalar.remsi v1660 v1662
  let c0_i32_1232 : BitVec 32 := 0#32
  let v1665 : BitVec 1 := Scalar.cmpi .slt v1663 c0_i32_1232
  let c0_i32_1233 : BitVec 32 := 0#32
  let v1666 : BitVec 1 := Scalar.cmpi .slt v1662 c0_i32_1233
  let v1667 : BitVec 1 := Scalar.xori v1665 v1666
  let c0_i32_1231 : BitVec 32 := 0#32
  let v1664 : BitVec 1 := Scalar.cmpi .ne v1663 c0_i32_1231
  let v1668 : BitVec 1 := Scalar.andi v1667 v1664
  let v1669 : BitVec 32 := Scalar.addi v1663 v1662
  let v1670 : BitVec 32 := Scalar.select v1668 v1669 v1663
  let c4_i32_1249 : BitVec 32 := 4#32
  let v1685 : BitVec 32 := Scalar.muli v1670 c4_i32_1249
  let v1686 : BitVec 32 := Scalar.addi v1684 v1685
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1234 : BitVec 32 := 4#32
  let v1671 : BitVec 32 := Scalar.addi v8 c4_i32_1234
  let c0_i32_1235 : BitVec 32 := 0#32
  let v1672 : BitVec 32 := Scalar.subi v1671 c0_i32_1235
  let c4_i32_1236 : BitVec 32 := 4#32
  let c0_i32_1237 : BitVec 32 := 0#32
  let v1673 : BitVec 1 := Scalar.cmpi .eq c4_i32_1236 c0_i32_1237
  let c1_i32_1238 : BitVec 32 := 1#32
  let v1674 : BitVec 32 := Scalar.select v1673 c1_i32_1238 c4_i32_1236
  let v1675 : BitVec 32 := Scalar.remsi v1672 v1674
  let c0_i32_1240 : BitVec 32 := 0#32
  let v1677 : BitVec 1 := Scalar.cmpi .slt v1675 c0_i32_1240
  let c0_i32_1241 : BitVec 32 := 0#32
  let v1678 : BitVec 1 := Scalar.cmpi .slt v1674 c0_i32_1241
  let v1679 : BitVec 1 := Scalar.xori v1677 v1678
  let c0_i32_1239 : BitVec 32 := 0#32
  let v1676 : BitVec 1 := Scalar.cmpi .ne v1675 c0_i32_1239
  let v1680 : BitVec 1 := Scalar.andi v1679 v1676
  let v1681 : BitVec 32 := Scalar.addi v1675 v1674
  let v1682 : BitVec 32 := Scalar.select v1680 v1681 v1675
  let c1_i32_1250 : BitVec 32 := 1#32
  let v1687 : BitVec 32 := Scalar.muli v1682 c1_i32_1250
  let v1688 : BitVec 32 := Scalar.addi v1686 v1687
  v1688.toNat
def k0_dev40 (d0 : Dev nD) : Nat :=
  let c0_i32_1283 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1255 : BitVec 32 := 1#32
  let v1696 : BitVec 32 := Scalar.addi v2 c1_i32_1255
  let c2_i32_1256 : BitVec 32 := 2#32
  let c0_i32_1257 : BitVec 32 := 0#32
  let v1697 : BitVec 1 := Scalar.cmpi .eq c2_i32_1256 c0_i32_1257
  let c1_i32_1258 : BitVec 32 := 1#32
  let v1698 : BitVec 32 := Scalar.select v1697 c1_i32_1258 c2_i32_1256
  let v1699 : BitVec 32 := Scalar.remsi v1696 v1698
  let c0_i32_1260 : BitVec 32 := 0#32
  let v1701 : BitVec 1 := Scalar.cmpi .slt v1699 c0_i32_1260
  let c0_i32_1261 : BitVec 32 := 0#32
  let v1702 : BitVec 1 := Scalar.cmpi .slt v1698 c0_i32_1261
  let v1703 : BitVec 1 := Scalar.xori v1701 v1702
  let c0_i32_1259 : BitVec 32 := 0#32
  let v1700 : BitVec 1 := Scalar.cmpi .ne v1699 c0_i32_1259
  let v1704 : BitVec 1 := Scalar.andi v1703 v1700
  let v1705 : BitVec 32 := Scalar.addi v1699 v1698
  let v1706 : BitVec 32 := Scalar.select v1704 v1705 v1699
  let c8_i32_1282 : BitVec 32 := 8#32
  let v1730 : BitVec 32 := Scalar.muli v1706 c8_i32_1282
  let v1731 : BitVec 32 := Scalar.addi c0_i32_1283 v1730
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_1262 : BitVec 32 := 1#32
  let v1707 : BitVec 32 := Scalar.addi v5 c1_i32_1262
  let c2_i32_1263 : BitVec 32 := 2#32
  let c0_i32_1264 : BitVec 32 := 0#32
  let v1708 : BitVec 1 := Scalar.cmpi .eq c2_i32_1263 c0_i32_1264
  let c1_i32_1265 : BitVec 32 := 1#32
  let v1709 : BitVec 32 := Scalar.select v1708 c1_i32_1265 c2_i32_1263
  let v1710 : BitVec 32 := Scalar.remsi v1707 v1709
  let c0_i32_1267 : BitVec 32 := 0#32
  let v1712 : BitVec 1 := Scalar.cmpi .slt v1710 c0_i32_1267
  let c0_i32_1268 : BitVec 32 := 0#32
  let v1713 : BitVec 1 := Scalar.cmpi .slt v1709 c0_i32_1268
  let v1714 : BitVec 1 := Scalar.xori v1712 v1713
  let c0_i32_1266 : BitVec 32 := 0#32
  let v1711 : BitVec 1 := Scalar.cmpi .ne v1710 c0_i32_1266
  let v1715 : BitVec 1 := Scalar.andi v1714 v1711
  let v1716 : BitVec 32 := Scalar.addi v1710 v1709
  let v1717 : BitVec 32 := Scalar.select v1715 v1716 v1710
  let c4_i32_1284 : BitVec 32 := 4#32
  let v1732 : BitVec 32 := Scalar.muli v1717 c4_i32_1284
  let v1733 : BitVec 32 := Scalar.addi v1731 v1732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1269 : BitVec 32 := 4#32
  let v1718 : BitVec 32 := Scalar.addi v8 c4_i32_1269
  let c1_i32_1270 : BitVec 32 := 1#32
  let v1719 : BitVec 32 := Scalar.subi v1718 c1_i32_1270
  let c4_i32_1271 : BitVec 32 := 4#32
  let c0_i32_1272 : BitVec 32 := 0#32
  let v1720 : BitVec 1 := Scalar.cmpi .eq c4_i32_1271 c0_i32_1272
  let c1_i32_1273 : BitVec 32 := 1#32
  let v1721 : BitVec 32 := Scalar.select v1720 c1_i32_1273 c4_i32_1271
  let v1722 : BitVec 32 := Scalar.remsi v1719 v1721
  let c0_i32_1275 : BitVec 32 := 0#32
  let v1724 : BitVec 1 := Scalar.cmpi .slt v1722 c0_i32_1275
  let c0_i32_1276 : BitVec 32 := 0#32
  let v1725 : BitVec 1 := Scalar.cmpi .slt v1721 c0_i32_1276
  let v1726 : BitVec 1 := Scalar.xori v1724 v1725
  let c0_i32_1274 : BitVec 32 := 0#32
  let v1723 : BitVec 1 := Scalar.cmpi .ne v1722 c0_i32_1274
  let v1727 : BitVec 1 := Scalar.andi v1726 v1723
  let v1728 : BitVec 32 := Scalar.addi v1722 v1721
  let v1729 : BitVec 32 := Scalar.select v1727 v1728 v1722
  let c1_i32_1285 : BitVec 32 := 1#32
  let v1734 : BitVec 32 := Scalar.muli v1729 c1_i32_1285
  let v1735 : BitVec 32 := Scalar.addi v1733 v1734
  v1735.toNat
def k0_dev41 (d0 : Dev nD) : Nat :=
  let c0_i32_1318 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1290 : BitVec 32 := 1#32
  let v1743 : BitVec 32 := Scalar.addi v2 c1_i32_1290
  let c2_i32_1291 : BitVec 32 := 2#32
  let c0_i32_1292 : BitVec 32 := 0#32
  let v1744 : BitVec 1 := Scalar.cmpi .eq c2_i32_1291 c0_i32_1292
  let c1_i32_1293 : BitVec 32 := 1#32
  let v1745 : BitVec 32 := Scalar.select v1744 c1_i32_1293 c2_i32_1291
  let v1746 : BitVec 32 := Scalar.remsi v1743 v1745
  let c0_i32_1295 : BitVec 32 := 0#32
  let v1748 : BitVec 1 := Scalar.cmpi .slt v1746 c0_i32_1295
  let c0_i32_1296 : BitVec 32 := 0#32
  let v1749 : BitVec 1 := Scalar.cmpi .slt v1745 c0_i32_1296
  let v1750 : BitVec 1 := Scalar.xori v1748 v1749
  let c0_i32_1294 : BitVec 32 := 0#32
  let v1747 : BitVec 1 := Scalar.cmpi .ne v1746 c0_i32_1294
  let v1751 : BitVec 1 := Scalar.andi v1750 v1747
  let v1752 : BitVec 32 := Scalar.addi v1746 v1745
  let v1753 : BitVec 32 := Scalar.select v1751 v1752 v1746
  let c8_i32_1317 : BitVec 32 := 8#32
  let v1777 : BitVec 32 := Scalar.muli v1753 c8_i32_1317
  let v1778 : BitVec 32 := Scalar.addi c0_i32_1318 v1777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_1297 : BitVec 32 := 1#32
  let v1754 : BitVec 32 := Scalar.addi v5 c1_i32_1297
  let c2_i32_1298 : BitVec 32 := 2#32
  let c0_i32_1299 : BitVec 32 := 0#32
  let v1755 : BitVec 1 := Scalar.cmpi .eq c2_i32_1298 c0_i32_1299
  let c1_i32_1300 : BitVec 32 := 1#32
  let v1756 : BitVec 32 := Scalar.select v1755 c1_i32_1300 c2_i32_1298
  let v1757 : BitVec 32 := Scalar.remsi v1754 v1756
  let c0_i32_1302 : BitVec 32 := 0#32
  let v1759 : BitVec 1 := Scalar.cmpi .slt v1757 c0_i32_1302
  let c0_i32_1303 : BitVec 32 := 0#32
  let v1760 : BitVec 1 := Scalar.cmpi .slt v1756 c0_i32_1303
  let v1761 : BitVec 1 := Scalar.xori v1759 v1760
  let c0_i32_1301 : BitVec 32 := 0#32
  let v1758 : BitVec 1 := Scalar.cmpi .ne v1757 c0_i32_1301
  let v1762 : BitVec 1 := Scalar.andi v1761 v1758
  let v1763 : BitVec 32 := Scalar.addi v1757 v1756
  let v1764 : BitVec 32 := Scalar.select v1762 v1763 v1757
  let c4_i32_1319 : BitVec 32 := 4#32
  let v1779 : BitVec 32 := Scalar.muli v1764 c4_i32_1319
  let v1780 : BitVec 32 := Scalar.addi v1778 v1779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1304 : BitVec 32 := 4#32
  let v1765 : BitVec 32 := Scalar.addi v8 c4_i32_1304
  let c2_i32_1305 : BitVec 32 := 2#32
  let v1766 : BitVec 32 := Scalar.subi v1765 c2_i32_1305
  let c4_i32_1306 : BitVec 32 := 4#32
  let c0_i32_1307 : BitVec 32 := 0#32
  let v1767 : BitVec 1 := Scalar.cmpi .eq c4_i32_1306 c0_i32_1307
  let c1_i32_1308 : BitVec 32 := 1#32
  let v1768 : BitVec 32 := Scalar.select v1767 c1_i32_1308 c4_i32_1306
  let v1769 : BitVec 32 := Scalar.remsi v1766 v1768
  let c0_i32_1310 : BitVec 32 := 0#32
  let v1771 : BitVec 1 := Scalar.cmpi .slt v1769 c0_i32_1310
  let c0_i32_1311 : BitVec 32 := 0#32
  let v1772 : BitVec 1 := Scalar.cmpi .slt v1768 c0_i32_1311
  let v1773 : BitVec 1 := Scalar.xori v1771 v1772
  let c0_i32_1309 : BitVec 32 := 0#32
  let v1770 : BitVec 1 := Scalar.cmpi .ne v1769 c0_i32_1309
  let v1774 : BitVec 1 := Scalar.andi v1773 v1770
  let v1775 : BitVec 32 := Scalar.addi v1769 v1768
  let v1776 : BitVec 32 := Scalar.select v1774 v1775 v1769
  let c1_i32_1320 : BitVec 32 := 1#32
  let v1781 : BitVec 32 := Scalar.muli v1776 c1_i32_1320
  let v1782 : BitVec 32 := Scalar.addi v1780 v1781
  v1782.toNat
def k0_dev42 (d0 : Dev nD) : Nat :=
  let c0_i32_1353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_1325 : BitVec 32 := 1#32
  let v1790 : BitVec 32 := Scalar.addi v2 c1_i32_1325
  let c2_i32_1326 : BitVec 32 := 2#32
  let c0_i32_1327 : BitVec 32 := 0#32
  let v1791 : BitVec 1 := Scalar.cmpi .eq c2_i32_1326 c0_i32_1327
  let c1_i32_1328 : BitVec 32 := 1#32
  let v1792 : BitVec 32 := Scalar.select v1791 c1_i32_1328 c2_i32_1326
  let v1793 : BitVec 32 := Scalar.remsi v1790 v1792
  let c0_i32_1330 : BitVec 32 := 0#32
  let v1795 : BitVec 1 := Scalar.cmpi .slt v1793 c0_i32_1330
  let c0_i32_1331 : BitVec 32 := 0#32
  let v1796 : BitVec 1 := Scalar.cmpi .slt v1792 c0_i32_1331
  let v1797 : BitVec 1 := Scalar.xori v1795 v1796
  let c0_i32_1329 : BitVec 32 := 0#32
  let v1794 : BitVec 1 := Scalar.cmpi .ne v1793 c0_i32_1329
  let v1798 : BitVec 1 := Scalar.andi v1797 v1794
  let v1799 : BitVec 32 := Scalar.addi v1793 v1792
  let v1800 : BitVec 32 := Scalar.select v1798 v1799 v1793
  let c8_i32_1352 : BitVec 32 := 8#32
  let v1824 : BitVec 32 := Scalar.muli v1800 c8_i32_1352
  let v1825 : BitVec 32 := Scalar.addi c0_i32_1353 v1824
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_1332 : BitVec 32 := 1#32
  let v1801 : BitVec 32 := Scalar.addi v5 c1_i32_1332
  let c2_i32_1333 : BitVec 32 := 2#32
  let c0_i32_1334 : BitVec 32 := 0#32
  let v1802 : BitVec 1 := Scalar.cmpi .eq c2_i32_1333 c0_i32_1334
  let c1_i32_1335 : BitVec 32 := 1#32
  let v1803 : BitVec 32 := Scalar.select v1802 c1_i32_1335 c2_i32_1333
  let v1804 : BitVec 32 := Scalar.remsi v1801 v1803
  let c0_i32_1337 : BitVec 32 := 0#32
  let v1806 : BitVec 1 := Scalar.cmpi .slt v1804 c0_i32_1337
  let c0_i32_1338 : BitVec 32 := 0#32
  let v1807 : BitVec 1 := Scalar.cmpi .slt v1803 c0_i32_1338
  let v1808 : BitVec 1 := Scalar.xori v1806 v1807
  let c0_i32_1336 : BitVec 32 := 0#32
  let v1805 : BitVec 1 := Scalar.cmpi .ne v1804 c0_i32_1336
  let v1809 : BitVec 1 := Scalar.andi v1808 v1805
  let v1810 : BitVec 32 := Scalar.addi v1804 v1803
  let v1811 : BitVec 32 := Scalar.select v1809 v1810 v1804
  let c4_i32_1354 : BitVec 32 := 4#32
  let v1826 : BitVec 32 := Scalar.muli v1811 c4_i32_1354
  let v1827 : BitVec 32 := Scalar.addi v1825 v1826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1339 : BitVec 32 := 4#32
  let v1812 : BitVec 32 := Scalar.addi v8 c4_i32_1339
  let c3_i32_1340 : BitVec 32 := 3#32
  let v1813 : BitVec 32 := Scalar.subi v1812 c3_i32_1340
  let c4_i32_1341 : BitVec 32 := 4#32
  let c0_i32_1342 : BitVec 32 := 0#32
  let v1814 : BitVec 1 := Scalar.cmpi .eq c4_i32_1341 c0_i32_1342
  let c1_i32_1343 : BitVec 32 := 1#32
  let v1815 : BitVec 32 := Scalar.select v1814 c1_i32_1343 c4_i32_1341
  let v1816 : BitVec 32 := Scalar.remsi v1813 v1815
  let c0_i32_1345 : BitVec 32 := 0#32
  let v1818 : BitVec 1 := Scalar.cmpi .slt v1816 c0_i32_1345
  let c0_i32_1346 : BitVec 32 := 0#32
  let v1819 : BitVec 1 := Scalar.cmpi .slt v1815 c0_i32_1346
  let v1820 : BitVec 1 := Scalar.xori v1818 v1819
  let c0_i32_1344 : BitVec 32 := 0#32
  let v1817 : BitVec 1 := Scalar.cmpi .ne v1816 c0_i32_1344
  let v1821 : BitVec 1 := Scalar.andi v1820 v1817
  let v1822 : BitVec 32 := Scalar.addi v1816 v1815
  let v1823 : BitVec 32 := Scalar.select v1821 v1822 v1816
  let c1_i32_1355 : BitVec 32 := 1#32
  let v1828 : BitVec 32 := Scalar.muli v1823 c1_i32_1355
  let v1829 : BitVec 32 := Scalar.addi v1827 v1828
  v1829.toNat
def k0_off3 (d0 : Dev nD) (c0_i32_1373 : BitVec 32) (c0_i32_1380 : BitVec 32) (c0_i32_1399 : BitVec 32) (c1_i32_1387 : BitVec 32) : Fin 2 → Nat :=
  let c2_i32_1394 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1848 : BitVec 32 := Scalar.addi v2 c0_i32_1373
  let c2_i32_1374 : BitVec 32 := 2#32
  let c0_i32_1375 : BitVec 32 := 0#32
  let v1849 : BitVec 1 := Scalar.cmpi .eq c2_i32_1374 c0_i32_1375
  let c1_i32_1376 : BitVec 32 := 1#32
  let v1850 : BitVec 32 := Scalar.select v1849 c1_i32_1376 c2_i32_1374
  let v1851 : BitVec 32 := Scalar.remsi v1848 v1850
  let c0_i32_1378 : BitVec 32 := 0#32
  let v1853 : BitVec 1 := Scalar.cmpi .slt v1851 c0_i32_1378
  let c0_i32_1379 : BitVec 32 := 0#32
  let v1854 : BitVec 1 := Scalar.cmpi .slt v1850 c0_i32_1379
  let v1855 : BitVec 1 := Scalar.xori v1853 v1854
  let c0_i32_1377 : BitVec 32 := 0#32
  let v1852 : BitVec 1 := Scalar.cmpi .ne v1851 c0_i32_1377
  let v1856 : BitVec 1 := Scalar.andi v1855 v1852
  let v1857 : BitVec 32 := Scalar.addi v1851 v1850
  let v1858 : BitVec 32 := Scalar.select v1856 v1857 v1851
  let v1881 : BitVec 32 := Scalar.muli c2_i32_1394 v1858
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v1859 : BitVec 32 := Scalar.addi v5 c0_i32_1380
  let c2_i32_1381 : BitVec 32 := 2#32
  let c0_i32_1382 : BitVec 32 := 0#32
  let v1860 : BitVec 1 := Scalar.cmpi .eq c2_i32_1381 c0_i32_1382
  let c1_i32_1383 : BitVec 32 := 1#32
  let v1861 : BitVec 32 := Scalar.select v1860 c1_i32_1383 c2_i32_1381
  let v1862 : BitVec 32 := Scalar.remsi v1859 v1861
  let c0_i32_1385 : BitVec 32 := 0#32
  let v1864 : BitVec 1 := Scalar.cmpi .slt v1862 c0_i32_1385
  let c0_i32_1386 : BitVec 32 := 0#32
  let v1865 : BitVec 1 := Scalar.cmpi .slt v1861 c0_i32_1386
  let v1866 : BitVec 1 := Scalar.xori v1864 v1865
  let c0_i32_1384 : BitVec 32 := 0#32
  let v1863 : BitVec 1 := Scalar.cmpi .ne v1862 c0_i32_1384
  let v1867 : BitVec 1 := Scalar.andi v1866 v1863
  let v1868 : BitVec 32 := Scalar.addi v1862 v1861
  let v1869 : BitVec 32 := Scalar.select v1867 v1868 v1862
  let v1882 : BitVec 32 := Scalar.addi v1881 v1869
  let c128_i32_1398 : BitVec 32 := 128#32
  let v1885 : BitVec 32 := Scalar.muli v1882 c128_i32_1398
  let v1886 : BitVec 32 := Scalar.addi v1885 c0_i32_1399
  let v1888 : Index := Scalar.indexCast v1886
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1870 : BitVec 32 := Scalar.addi v8 c1_i32_1387
  let c4_i32_1388 : BitVec 32 := 4#32
  let c0_i32_1389 : BitVec 32 := 0#32
  let v1871 : BitVec 1 := Scalar.cmpi .eq c4_i32_1388 c0_i32_1389
  let c1_i32_1390 : BitVec 32 := 1#32
  let v1872 : BitVec 32 := Scalar.select v1871 c1_i32_1390 c4_i32_1388
  let v1873 : BitVec 32 := Scalar.remsi v1870 v1872
  let c0_i32_1392 : BitVec 32 := 0#32
  let v1875 : BitVec 1 := Scalar.cmpi .slt v1873 c0_i32_1392
  let c0_i32_1393 : BitVec 32 := 0#32
  let v1876 : BitVec 1 := Scalar.cmpi .slt v1872 c0_i32_1393
  let v1877 : BitVec 1 := Scalar.xori v1875 v1876
  let c0_i32_1391 : BitVec 32 := 0#32
  let v1874 : BitVec 1 := Scalar.cmpi .ne v1873 c0_i32_1391
  let v1878 : BitVec 1 := Scalar.andi v1877 v1874
  let v1879 : BitVec 32 := Scalar.addi v1873 v1872
  let v1880 : BitVec 32 := Scalar.select v1878 v1879 v1873
  let c128_i32_1400 : BitVec 32 := 128#32
  let v1887 : BitVec 32 := Scalar.muli v1880 c128_i32_1400
  let v1889 : Index := Scalar.indexCast v1887
  ![v1888.toNat, v1889.toNat]
def k0_off3_at (r : Fin 30) : BitVec 32 × BitVec 32 × BitVec 32 × BitVec 32 :=
  if r.val < 15 then
    if r.val < 7 then
      if r.val < 3 then
        if r.val < 1 then
          (0#32, 0#32, 0#32, 1#32)
        else
          if r.val < 2 then
            (0#32, 0#32, 0#32, 2#32)
          else
            (0#32, 0#32, 0#32, 3#32)
      else
        if r.val < 5 then
          if r.val < 4 then
            (0#32, 1#32, 0#32, 0#32)
          else
            (0#32, 1#32, 0#32, 1#32)
        else
          if r.val < 6 then
            (0#32, 1#32, 0#32, 2#32)
          else
            (0#32, 1#32, 0#32, 3#32)
    else
      if r.val < 11 then
        if r.val < 9 then
          if r.val < 8 then
            (1#32, 0#32, 0#32, 0#32)
          else
            (1#32, 0#32, 0#32, 1#32)
        else
          if r.val < 10 then
            (1#32, 0#32, 0#32, 2#32)
          else
            (1#32, 0#32, 0#32, 3#32)
      else
        if r.val < 13 then
          if r.val < 12 then
            (1#32, 1#32, 0#32, 0#32)
          else
            (1#32, 1#32, 0#32, 1#32)
        else
          if r.val < 14 then
            (1#32, 1#32, 0#32, 2#32)
          else
            (1#32, 1#32, 0#32, 3#32)
  else
    if r.val < 22 then
      if r.val < 18 then
        if r.val < 16 then
          (0#32, 0#32, 64#32, 1#32)
        else
          if r.val < 17 then
            (0#32, 0#32, 64#32, 2#32)
          else
            (0#32, 0#32, 64#32, 3#32)
      else
        if r.val < 20 then
          if r.val < 19 then
            (0#32, 1#32, 64#32, 0#32)
          else
            (0#32, 1#32, 64#32, 1#32)
        else
          if r.val < 21 then
            (0#32, 1#32, 64#32, 2#32)
          else
            (0#32, 1#32, 64#32, 3#32)
    else
      if r.val < 26 then
        if r.val < 24 then
          if r.val < 23 then
            (1#32, 0#32, 64#32, 0#32)
          else
            (1#32, 0#32, 64#32, 1#32)
        else
          if r.val < 25 then
            (1#32, 0#32, 64#32, 2#32)
          else
            (1#32, 0#32, 64#32, 3#32)
      else
        if r.val < 28 then
          if r.val < 27 then
            (1#32, 1#32, 64#32, 0#32)
          else
            (1#32, 1#32, 64#32, 1#32)
        else
          if r.val < 29 then
            (1#32, 1#32, 64#32, 2#32)
          else
            (1#32, 1#32, 64#32, 3#32)
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_16 : (16#32 : BitVec 32).msb = false
  hamt_48 : (48#32 : BitVec 32).msb = false
  hamt_1 : (1#32 : BitVec 32).msb = false
  inb_S3x2_S1x1_0_0 : ∀ a, (![0, 0] : Fin 2 → Nat) a + S1x1.size a ≤ S3x2.size a
  squeezes_S1x1_S_ : S1x1.Squeezes S_
  inb_S3x128x128_S1x64x128_0_0_0 : ∀ a, (![0, 0, 0] : Fin 3 → Nat) a + S1x64x128.size a ≤ S3x128x128.size a
  squeezes_S1x64x128_S64x128 : S1x64x128.Squeezes S64x128
  inb_S3x2_S1x1_1_0 : ∀ a, (![1, 0] : Fin 2 → Nat) a + S1x1.size a ≤ S3x2.size a
  inb_S3x128x128_S1x64x128_1_0_0 : ∀ a, (![1, 0, 0] : Fin 3 → Nat) a + S1x64x128.size a ≤ S3x128x128.size a
  inb_S3x2_S1x1_2_0 : ∀ a, (![2, 0] : Fin 2 → Nat) a + S1x1.size a ≤ S3x2.size a
  inb_S3x128x128_S1x64x128_2_0_0 : ∀ a, (![2, 0, 0] : Fin 3 → Nat) a + S1x64x128.size a ≤ S3x128x128.size a
  inb_S3x2_S1x1_0_1 : ∀ a, (![0, 1] : Fin 2 → Nat) a + S1x1.size a ≤ S3x2.size a
  inb_S3x128x128_S1x64x128_0_64_0 : ∀ a, (![0, 64, 0] : Fin 3 → Nat) a + S1x64x128.size a ≤ S3x128x128.size a
  inb_S3x2_S1x1_1_1 : ∀ a, (![1, 1] : Fin 2 → Nat) a + S1x1.size a ≤ S3x2.size a
  inb_S3x128x128_S1x64x128_1_64_0 : ∀ a, (![1, 64, 0] : Fin 3 → Nat) a + S1x64x128.size a ≤ S3x128x128.size a
  inb_S3x2_S1x1_2_1 : ∀ a, (![2, 1] : Fin 2 → Nat) a + S1x1.size a ≤ S3x2.size a
  inb_S3x128x128_S1x64x128_2_64_0 : ∀ a, (![2, 64, 0] : Fin 3 → Nat) a + S1x64x128.size a ≤ S3x128x128.size a
  h_S64x128 : 0 < S64x128.numel
  shapeCasts_S64x128_S64x128 : S64x128.ShapeCasts S64x128
  h_S1x64x128 : 0 < S1x64x128.numel
  shapeCasts_S1x64x128_S64x128 : S1x64x128.ShapeCasts S64x128
  inb_S128x128_S64x128_0_0 : ∀ a, (![0, 0] : Fin 2 → Nat) a + S64x128.size a ≤ S128x128.size a
  hamt_3 : (3#32 : BitVec 32).msb = false
  inb_S15x2_S1x1_0_0 : ∀ a, (![0, 0] : Fin 2 → Nat) a + S1x1.size a ≤ S15x2.size a
  inb_S15x128x128_S1x64x128_0_0_0 : ∀ a, (![0, 0, 0] : Fin 3 → Nat) a + S1x64x128.size a ≤ S15x128x128.size a
  inb_S15x2_S1x1_1_0 : ∀ a, (![1, 0] : Fin 2 → Nat) a + S1x1.size a ≤ S15x2.size a
  inb_S15x128x128_S1x64x128_1_0_0 : ∀ a, (![1, 0, 0] : Fin 3 → Nat) a + S1x64x128.size a ≤ S15x128x128.size a
  inb_S15x2_S1x1_2_0 : ∀ a, (![2, 0] : Fin 2 → Nat) a + S1x1.size a ≤ S15x2.size a
  inb_S15x128x128_S1x64x128_2_0_0 : ∀ a, (![2, 0, 0] : Fin 3 → Nat) a + S1x64x128.size a ≤ S15x128x128.size a
  inb_S15x2_S1x1_3_0 : ∀ a, (![3, 0] : Fin 2 → Nat) a + S1x1.size a ≤ S15x2.size a
  inb_S15x128x128_S1x64x128_3_0_0 : ∀ a, (![3, 0, 0] : Fin 3 → Nat) a + S1x64x128.size a ≤ S15x128x128.size a
  inb_S15x2_S1x1_4_0 : ∀ a, (![4, 0] : Fin 2 → Nat) a + S1x1.size a ≤ S15x2.size a
  inb_S15x128x128_S1x64x128_4_0_0 : ∀ a, (![4, 0, 0] : Fin 3 → Nat) a + S1x64x128.size a ≤ S15x128x128.size a
  inb_S15x2_S1x1_5_0 : ∀ a, (![5, 0] : Fin 2 → Nat) a + S1x1.size a ≤ S15x2.size a
  inb_S15x128x128_S1x64x128_5_0_0 : ∀ a, (![5, 0, 0] : Fin 3 → Nat) a + S1x64x128.size a ≤ S15x128x128.size a
  inb_S15x2_S1x1_6_0 : ∀ a, (![6, 0] : Fin 2 → Nat) a + S1x1.size a ≤ S15x2.size a
  inb_S15x128x128_S1x64x128_6_0_0 : ∀ a, (![6, 0, 0] : Fin 3 → Nat) a + S1x64x128.size a ≤ S15x128x128.size a
  inb_S15x2_S1x1_7_0 : ∀ a, (![7, 0] : Fin 2 → Nat) a + S1x1.size a ≤ S15x2.size a
  inb_S15x128x128_S1x64x128_7_0_0 : ∀ a, (![7, 0, 0] : Fin 3 → Nat) a + S1x64x128.size a ≤ S15x128x128.size a
  inb_S15x2_S1x1_8_0 : ∀ a, (![8, 0] : Fin 2 → Nat) a + S1x1.size a ≤ S15x2.size a
  inb_S15x128x128_S1x64x128_8_0_0 : ∀ a, (![8, 0, 0] : Fin 3 → Nat) a + S1x64x128.size a ≤ S15x128x128.size a
  inb_S15x2_S1x1_9_0 : ∀ a, (![9, 0] : Fin 2 → Nat) a + S1x1.size a ≤ S15x2.size a
  inb_S15x128x128_S1x64x128_9_0_0 : ∀ a, (![9, 0, 0] : Fin 3 → Nat) a + S1x64x128.size a ≤ S15x128x128.size a
  inb_S15x2_S1x1_10_0 : ∀ a, (![10, 0] : Fin 2 → Nat) a + S1x1.size a ≤ S15x2.size a
  inb_S15x128x128_S1x64x128_10_0_0 : ∀ a, (![10, 0, 0] : Fin 3 → Nat) a + S1x64x128.size a ≤ S15x128x128.size a
  inb_S15x2_S1x1_11_0 : ∀ a, (![11, 0] : Fin 2 → Nat) a + S1x1.size a ≤ S15x2.size a
  inb_S15x128x128_S1x64x128_11_0_0 : ∀ a, (![11, 0, 0] : Fin 3 → Nat) a + S1x64x128.size a ≤ S15x128x128.size a
  inb_S15x2_S1x1_12_0 : ∀ a, (![12, 0] : Fin 2 → Nat) a + S1x1.size a ≤ S15x2.size a
  inb_S15x128x128_S1x64x128_12_0_0 : ∀ a, (![12, 0, 0] : Fin 3 → Nat) a + S1x64x128.size a ≤ S15x128x128.size a
  inb_S15x2_S1x1_13_0 : ∀ a, (![13, 0] : Fin 2 → Nat) a + S1x1.size a ≤ S15x2.size a
  inb_S15x128x128_S1x64x128_13_0_0 : ∀ a, (![13, 0, 0] : Fin 3 → Nat) a + S1x64x128.size a ≤ S15x128x128.size a
  inb_S15x2_S1x1_14_0 : ∀ a, (![14, 0] : Fin 2 → Nat) a + S1x1.size a ≤ S15x2.size a
  inb_S15x128x128_S1x64x128_14_0_0 : ∀ a, (![14, 0, 0] : Fin 3 → Nat) a + S1x64x128.size a ≤ S15x128x128.size a
  inb_S128x128_S64x128_64_0 : ∀ a, (![64, 0] : Fin 2 → Nat) a + S64x128.size a ≤ S128x128.size a
  inb_S15x2_S1x1_0_1 : ∀ a, (![0, 1] : Fin 2 → Nat) a + S1x1.size a ≤ S15x2.size a
  inb_S15x128x128_S1x64x128_0_64_0 : ∀ a, (![0, 64, 0] : Fin 3 → Nat) a + S1x64x128.size a ≤ S15x128x128.size a
  inb_S15x2_S1x1_1_1 : ∀ a, (![1, 1] : Fin 2 → Nat) a + S1x1.size a ≤ S15x2.size a
  inb_S15x128x128_S1x64x128_1_64_0 : ∀ a, (![1, 64, 0] : Fin 3 → Nat) a + S1x64x128.size a ≤ S15x128x128.size a
  inb_S15x2_S1x1_2_1 : ∀ a, (![2, 1] : Fin 2 → Nat) a + S1x1.size a ≤ S15x2.size a
  inb_S15x128x128_S1x64x128_2_64_0 : ∀ a, (![2, 64, 0] : Fin 3 → Nat) a + S1x64x128.size a ≤ S15x128x128.size a
  inb_S15x2_S1x1_3_1 : ∀ a, (![3, 1] : Fin 2 → Nat) a + S1x1.size a ≤ S15x2.size a
  inb_S15x128x128_S1x64x128_3_64_0 : ∀ a, (![3, 64, 0] : Fin 3 → Nat) a + S1x64x128.size a ≤ S15x128x128.size a
  inb_S15x2_S1x1_4_1 : ∀ a, (![4, 1] : Fin 2 → Nat) a + S1x1.size a ≤ S15x2.size a
  inb_S15x128x128_S1x64x128_4_64_0 : ∀ a, (![4, 64, 0] : Fin 3 → Nat) a + S1x64x128.size a ≤ S15x128x128.size a
  inb_S15x2_S1x1_5_1 : ∀ a, (![5, 1] : Fin 2 → Nat) a + S1x1.size a ≤ S15x2.size a
  inb_S15x128x128_S1x64x128_5_64_0 : ∀ a, (![5, 64, 0] : Fin 3 → Nat) a + S1x64x128.size a ≤ S15x128x128.size a
  inb_S15x2_S1x1_6_1 : ∀ a, (![6, 1] : Fin 2 → Nat) a + S1x1.size a ≤ S15x2.size a
  inb_S15x128x128_S1x64x128_6_64_0 : ∀ a, (![6, 64, 0] : Fin 3 → Nat) a + S1x64x128.size a ≤ S15x128x128.size a
  inb_S15x2_S1x1_7_1 : ∀ a, (![7, 1] : Fin 2 → Nat) a + S1x1.size a ≤ S15x2.size a
  inb_S15x128x128_S1x64x128_7_64_0 : ∀ a, (![7, 64, 0] : Fin 3 → Nat) a + S1x64x128.size a ≤ S15x128x128.size a
  inb_S15x2_S1x1_8_1 : ∀ a, (![8, 1] : Fin 2 → Nat) a + S1x1.size a ≤ S15x2.size a
  inb_S15x128x128_S1x64x128_8_64_0 : ∀ a, (![8, 64, 0] : Fin 3 → Nat) a + S1x64x128.size a ≤ S15x128x128.size a
  inb_S15x2_S1x1_9_1 : ∀ a, (![9, 1] : Fin 2 → Nat) a + S1x1.size a ≤ S15x2.size a
  inb_S15x128x128_S1x64x128_9_64_0 : ∀ a, (![9, 64, 0] : Fin 3 → Nat) a + S1x64x128.size a ≤ S15x128x128.size a
  inb_S15x2_S1x1_10_1 : ∀ a, (![10, 1] : Fin 2 → Nat) a + S1x1.size a ≤ S15x2.size a
  inb_S15x128x128_S1x64x128_10_64_0 : ∀ a, (![10, 64, 0] : Fin 3 → Nat) a + S1x64x128.size a ≤ S15x128x128.size a
  inb_S15x2_S1x1_11_1 : ∀ a, (![11, 1] : Fin 2 → Nat) a + S1x1.size a ≤ S15x2.size a
  inb_S15x128x128_S1x64x128_11_64_0 : ∀ a, (![11, 64, 0] : Fin 3 → Nat) a + S1x64x128.size a ≤ S15x128x128.size a
  inb_S15x2_S1x1_12_1 : ∀ a, (![12, 1] : Fin 2 → Nat) a + S1x1.size a ≤ S15x2.size a
  inb_S15x128x128_S1x64x128_12_64_0 : ∀ a, (![12, 64, 0] : Fin 3 → Nat) a + S1x64x128.size a ≤ S15x128x128.size a
  inb_S15x2_S1x1_13_1 : ∀ a, (![13, 1] : Fin 2 → Nat) a + S1x1.size a ≤ S15x2.size a
  inb_S15x128x128_S1x64x128_13_64_0 : ∀ a, (![13, 64, 0] : Fin 3 → Nat) a + S1x64x128.size a ≤ S15x128x128.size a
  inb_S15x2_S1x1_14_1 : ∀ a, (![14, 1] : Fin 2 → Nat) a + S1x1.size a ≤ S15x2.size a
  inb_S15x128x128_S1x64x128_14_64_0 : ∀ a, (![14, 64, 0] : Fin 3 → Nat) a + S1x64x128.size a ≤ S15x128x128.size a
  hcc0_scratch3 : 2 + S3x2.numel ≤ 74
  hcc0_scratch4 : 8 + S3x2.numel ≤ 74
  hcc0_scratch5 : 14 + S15x2.numel ≤ 74
  hcc0_scratch6 : 44 + S15x2.numel ≤ 74
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ (r₁ : Fin 2) (r₂ : Fin 3), ∀ a, (k0_off1 d0 (BitVec.ofNat 32 (64 * r₁.val)) (BitVec.ofNat 32 (1 + r₂.val))) a + S64x128.size a ≤ S512x512.size a
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off2_inb : ∀ d0 : Dev nD, ∀ (r : Fin 2), ∀ a, (k0_off2 d0 (BitVec.ofNat 32 (64 * r.val))) a + S64x128.size a ≤ S512x512.size a
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_off3_inb : ∀ d0 : Dev nD, ∀ (r : Fin 30), ∀ a, (k0_off3 d0 (k0_off3_at r).1 (k0_off3_at r).2.1 (k0_off3_at r).2.2.1 (k0_off3_at r).2.2.2) a + S64x128.size a ≤ S512x512.size a
  hstage0_0 : ∀ j, (stage0_0 j).IsWhole
  hstage0_1 : ∀ j, (stage0_1 j).IsWhole

variable [Facts₀]

abbrev cc0_scratch3 : DmaSems sig S3x2 := SemArray.consecutive 2 S3x2 hcc0_scratch3
abbrev cc0_scratch4 : DmaSems sig S3x2 := SemArray.consecutive 8 S3x2 hcc0_scratch4
abbrev cc0_scratch5 : DmaSems sig S15x2 := SemArray.consecutive 14 S15x2 hcc0_scratch5
abbrev cc0_scratch6 : DmaSems sig S15x2 := SemArray.consecutive 44 S15x2 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512x512, .f32⟩
  | .hbm, ⟨2, _⟩ => ⟨S_, .f32⟩
  | .hbm, ⟨3, _⟩ => ⟨S512x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x512_S4x512x512 : S2048x512.ShapeCasts S4x512x512
  reducesTo_S4x512x512_S512x512_d0 : S4x512x512.ReducesTo [0] S512x512
  h_S_ : 0 < S_.numel

variable [Facts₀]

class Facts : Prop extends Facts₀ where

variable [Facts]
-- ==== Proof.HandKernelIdeal.Mesh.lean ====
import proofs.«900721_g7700000000000722_dist_ar_v7x_xyz2x2x4_z_m512_n512_f32_1_alg».proof.Proof.Gen.KernelIdeal
set_option Elab.async false
namespace Cert.KernelIdeal.Hand
open Idealize.ShloMosaic Idealize.SL.Sem Cert.KernelIdeal Cert.KernelIdeal.Gen
def mk (x y z : ℕ) : Dev nD := ⟨8 * (x % 2) + 4 * (y % 2) + z % 4, by show _ < 16; omega⟩
def cx (c : Dev nD) : ℕ := c.val / 8
def cy (c : Dev nD) : ℕ := (c.val / 4) % 2
def cz (c : Dev nD) : ℕ := c.val % 4
def zp (c : Dev nD) (d : ℕ) : Dev nD := mk (cx c) (cy c) (cz c + d)
def xyp (c : Dev nD) (dx dy : ℕ) : Dev nD := mk (cx c + dx) (cy c + dy) (cz c)
def odx (s : Fin 15) : ℕ := (s.val + 1) / 8
def ody (s : Fin 15) : ℕ := ((s.val + 1) / 4) % 2
def odz (s : Fin 15) : ℕ := (s.val + 1) % 4
def agT (c : Dev nD) (s : Fin 15) : Dev nD := mk (cx c + odx s) (cy c + ody s) (cz c + 4 - odz s)
def agS (c : Dev nD) (s : Fin 15) : Dev nD := mk (cx c + odx s) (cy c + ody s) (cz c + odz s)
variable (c : Dev nD)

theorem dev1_eq : (⟨k0_dev1 c, k0_dev1_lt c⟩ : Dev nD) = zp c 1 := by revert c; decide +kernel
theorem dev2_eq : (⟨k0_dev2 c, k0_dev2_lt c⟩ : Dev nD) = zp c 2 := by revert c; decide +kernel
theorem dev3_eq : (⟨k0_dev3 c, k0_dev3_lt c⟩ : Dev nD) = zp c 3 := by revert c; decide +kernel
theorem dev4_eq : (⟨k0_dev4 c, k0_dev4_lt c⟩ : Dev nD) = xyp c 0 1 := by revert c; decide +kernel
theorem dev5_eq : (⟨k0_dev5 c, k0_dev5_lt c⟩ : Dev nD) = xyp c 1 0 := by revert c; decide +kernel
theorem dev6_eq : (⟨k0_dev6 c, k0_dev6_lt c⟩ : Dev nD) = xyp c 1 1 := by revert c; decide +kernel
theorem dev7_eq : (⟨k0_dev7 c, k0_dev7_lt c⟩ : Dev nD) = zp c 1 := by revert c; decide +kernel
theorem dev8_eq : (⟨k0_dev8 c, k0_dev8_lt c⟩ : Dev nD) = zp c 2 := by revert c; decide +kernel
theorem dev9_eq : (⟨k0_dev9 c, k0_dev9_lt c⟩ : Dev nD) = zp c 3 := by revert c; decide +kernel
theorem dev10_eq : (⟨k0_dev10 c, k0_dev10_lt c⟩ : Dev nD) = zp c 1 := by revert c; decide +kernel
theorem dev11_eq : (⟨k0_dev11 c, k0_dev11_lt c⟩ : Dev nD) = zp c 2 := by revert c; decide +kernel
theorem dev12_eq : (⟨k0_dev12 c, k0_dev12_lt c⟩ : Dev nD) = zp c 3 := by revert c; decide +kernel
theorem dev13_eq : (⟨k0_dev13 c, k0_dev13_lt c⟩ : Dev nD) = agT c ⟨0, by decide⟩ := by revert c; decide +kernel
theorem dev14_eq : (⟨k0_dev14 c, k0_dev14_lt c⟩ : Dev nD) = agT c ⟨1, by decide⟩ := by revert c; decide +kernel
theorem dev15_eq : (⟨k0_dev15 c, k0_dev15_lt c⟩ : Dev nD) = agT c ⟨2, by decide⟩ := by revert c; decide +kernel
theorem dev16_eq : (⟨k0_dev16 c, k0_dev16_lt c⟩ : Dev nD) = agT c ⟨3, by decide⟩ := by revert c; decide +kernel
theorem dev17_eq : (⟨k0_dev17 c, k0_dev17_lt c⟩ : Dev nD) = agT c ⟨4, by decide⟩ := by revert c; decide +kernel
theorem dev18_eq : (⟨k0_dev18 c, k0_dev18_lt c⟩ : Dev nD) = agT c ⟨5, by decide⟩ := by revert c; decide +kernel
theorem dev19_eq : (⟨k0_dev19 c, k0_dev19_lt c⟩ : Dev nD) = agT c ⟨6, by decide⟩ := by revert c; decide +kernel
theorem dev20_eq : (⟨k0_dev20 c, k0_dev20_lt c⟩ : Dev nD) = agT c ⟨7, by decide⟩ := by revert c; decide +kernel
theorem dev21_eq : (⟨k0_dev21 c, k0_dev21_lt c⟩ : Dev nD) = agT c ⟨8, by decide⟩ := by revert c; decide +kernel
theorem dev22_eq : (⟨k0_dev22 c, k0_dev22_lt c⟩ : Dev nD) = agT c ⟨9, by decide⟩ := by revert c; decide +kernel
theorem dev23_eq : (⟨k0_dev23 c, k0_dev23_lt c⟩ : Dev nD) = agT c ⟨10, by decide⟩ := by revert c; decide +kernel
theorem dev24_eq : (⟨k0_dev24 c, k0_dev24_lt c⟩ : Dev nD) = agT c ⟨11, by decide⟩ := by revert c; decide +kernel
theorem dev25_eq : (⟨k0_dev25 c, k0_dev25_lt c⟩ : Dev nD) = agT c ⟨12, by decide⟩ := by revert c; decide +kernel
theorem dev26_eq : (⟨k0_dev26 c, k0_dev26_lt c⟩ : Dev nD) = agT c ⟨13, by decide⟩ := by revert c; decide +kernel
theorem dev27_eq : (⟨k0_dev27 c, k0_dev27_lt c⟩ : Dev nD) = agT c ⟨14, by decide⟩ := by revert c; decide +kernel
theorem dev28_eq : (⟨k0_dev28 c, k0_dev28_lt c⟩ : Dev nD) = agT c ⟨0, by decide⟩ := by revert c; decide +kernel
theorem dev29_eq : (⟨k0_dev29 c, k0_dev29_lt c⟩ : Dev nD) = agT c ⟨1, by decide⟩ := by revert c; decide +kernel
theorem dev30_eq : (⟨k0_dev30 c, k0_dev30_lt c⟩ : Dev nD) = agT c ⟨2, by decide⟩ := by revert c; decide +kernel
theorem dev31_eq : (⟨k0_dev31 c, k0_dev31_lt c⟩ : Dev nD) = agT c ⟨3, by decide⟩ := by revert c; decide +kernel
theorem dev32_eq : (⟨k0_dev32 c, k0_dev32_lt c⟩ : Dev nD) = agT c ⟨4, by decide⟩ := by revert c; decide +kernel
theorem dev33_eq : (⟨k0_dev33 c, k0_dev33_lt c⟩ : Dev nD) = agT c ⟨5, by decide⟩ := by revert c; decide +kernel
theorem dev34_eq : (⟨k0_dev34 c, k0_dev34_lt c⟩ : Dev nD) = agT c ⟨6, by decide⟩ := by revert c; decide +kernel
theorem dev35_eq : (⟨k0_dev35 c, k0_dev35_lt c⟩ : Dev nD) = agT c ⟨7, by decide⟩ := by revert c; decide +kernel
theorem dev36_eq : (⟨k0_dev36 c, k0_dev36_lt c⟩ : Dev nD) = agT c ⟨8, by decide⟩ := by revert c; decide +kernel
theorem dev37_eq : (⟨k0_dev37 c, k0_dev37_lt c⟩ : Dev nD) = agT c ⟨9, by decide⟩ := by revert c; decide +kernel
theorem dev38_eq : (⟨k0_dev38 c, k0_dev38_lt c⟩ : Dev nD) = agT c ⟨10, by decide⟩ := by revert c; decide +kernel
theorem dev39_eq : (⟨k0_dev39 c, k0_dev39_lt c⟩ : Dev nD) = agT c ⟨11, by decide⟩ := by revert c; decide +kernel
theorem dev40_eq : (⟨k0_dev40 c, k0_dev40_lt c⟩ : Dev nD) = agT c ⟨12, by decide⟩ := by revert c; decide +kernel
theorem dev41_eq : (⟨k0_dev41 c, k0_dev41_lt c⟩ : Dev nD) = agT c ⟨13, by decide⟩ := by revert c; decide +kernel
theorem dev42_eq : (⟨k0_dev42 c, k0_dev42_lt c⟩ : Dev nD) = agT c ⟨14, by decide⟩ := by revert c; decide +kernel
theorem zp_zp : zp (zp c 1) 3 = c ∧ zp (zp c 2) 2 = c ∧ zp (zp c 3) 1 = c := by
  revert c; decide +kernel
theorem xyp_xyp : xyp (xyp c 0 1) 0 1 = c ∧ xyp (xyp c 1 0) 1 0 = c ∧ xyp (xyp c 1 1) 1 1 = c := by
  revert c; decide +kernel
theorem agS_agT (s : Fin 15) : agS (agT c s) s = c := by
  revert c s; decide +kernel
theorem agT_agS (s : Fin 15) : agT (agS c s) s = c := by
  revert c s; decide +kernel
theorem cx_mk (x y z : ℕ) : cx (mk x y z) = x % 2 := by simp only [cx, mk]; omega
theorem cy_mk (x y z : ℕ) : cy (mk x y z) = y % 2 := by simp only [cy, mk]; omega
theorem cz_mk (x y z : ℕ) : cz (mk x y z) = z % 4 := by simp only [cz, mk]; omega
theorem cx_lt : cx c < 2 := by have : c.val < 16 := c.isLt; simp only [cx]; omega
theorem cy_lt : cy c < 2 := by simp only [cy]; omega
theorem cz_lt : cz c < 4 := by simp only [cz]; omega
theorem mk_coords : mk (cx c) (cy c) (cz c) = c := by
  apply Fin.ext; have : c.val < 16 := c.isLt; simp only [mk, cx, cy, cz]; omega
theorem ext_coords {c d : Dev nD} (hx : cx c = cx d) (hy : cy c = cy d) (hz : cz c = cz d) : c = d := by
  rw [← mk_coords c, ← mk_coords d, hx, hy, hz]
theorem cx_zp (d : ℕ) : cx (zp c d) = cx c := by
  rw [zp, cx_mk]; exact Nat.mod_eq_of_lt (cx_lt c)
theorem cy_zp (d : ℕ) : cy (zp c d) = cy c := by
  rw [zp, cy_mk]; exact Nat.mod_eq_of_lt (cy_lt c)
theorem cz_zp (d : ℕ) : cz (zp c d) = (cz c + d) % 4 := by rw [zp, cz_mk]
theorem k0_off1_eq : ∀ d0 : Dev nD, ∀ (r₁ : Fin 2) (r₂ : Fin 3),
    k0_off1 d0 (BitVec.ofNat 32 (64 * r₁.val)) (BitVec.ofNat 32 (1 + r₂.val))
      = ![128 * (2 * cx d0 + cy d0) + 64 * r₁.val, 128 * ((cz d0 + (1 + r₂.val)) % 4)] := by
  decide +kernel
theorem k0_off2_eq' : ∀ d0 : Dev nD, ∀ (r : Fin 2),
    k0_off2 d0 (BitVec.ofNat 32 (64 * r.val)) = ![128 * (2 * cx d0 + cy d0) + 64 * r.val, 128 * cz d0] := by
  decide +kernel
def slot (r : Fin 30) : Fin 15 := ⟨r.val % 15, Nat.mod_lt _ (by decide)⟩
def half (r : Fin 30) : ℕ := r.val / 15
def row (h : Fin 2) (s : Fin 15) : Fin 30 := ⟨15 * h.val + s.val, by omega⟩
theorem k0_off3_eq_agS : ∀ d0 : Dev nD, ∀ r : Fin 30,
    k0_off3 d0 (k0_off3_at r).1 (k0_off3_at r).2.1 (k0_off3_at r).2.2.1 (k0_off3_at r).2.2.2
      = ![128 * (2 * cx (agS d0 (slot r)) + cy (agS d0 (slot r))) + 64 * half r,
          128 * cz (agS d0 (slot r))] := by
  decide +kernel

end Cert.KernelIdeal.Hand
-- ==== Proof.HandKernelIdeal.Sched.lean ====
import proofs.«900721_g7700000000000722_dist_ar_v7x_xyz2x2x4_z_m512_n512_f32_1_alg».proof.Proof.HandKernelIdeal.Mesh
import proofs.«900721_g7700000000000722_dist_ar_v7x_xyz2x2x4_z_m512_n512_f32_1_alg».proof.Proof.Gen.KernelIdeal.Skeleton
import proofs.«900721_g7700000000000722_dist_ar_v7x_xyz2x2x4_z_m512_n512_f32_1_alg».proof.Proof.Gen.KernelIdeal.Launch
import proofs.«900721_g7700000000000722_dist_ar_v7x_xyz2x2x4_z_m512_n512_f32_1_alg».proof.Proof.Gen.KernelIdeal.Points
import proofs.«900721_g7700000000000722_dist_ar_v7x_xyz2x2x4_z_m512_n512_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.Sem
open Idealize.ShloMosaic.Rounds

variable {F : FTy → Type} [FloatOps F]

abbrev UB : Type := URounds (GSem nD τ sig) (Fin 6)
abbrev UU : Type := UR sig nD τ × UB

local notation "𝕄" => MT nD τ sig (Fin 2) (Elt F) ℕ UU ℕ

abbrev EP : Emb (UR sig nD τ) (MT nD τ sig (Fin 2) (Elt F) ℕ UU ℕ) := embL
abbrev ER : Emb UB (MT nD τ sig (Fin 2) (Elt F) ℕ UU ℕ) := embR

abbrev xM : Memref sig .tc .vmem S512x512 .f32 := Memref.whole cc0_stg0_0
abbrev oM : Memref sig .tc .vmem S512x512 .f32 := Memref.whole cc0_stg1_0
abbrev rsM : Memref sig .tc .vmem S3x128x128 .f32 := Memref.whole cc0_scratch0
abbrev redM : Memref sig .tc .vmem S128x128 .f32 := Memref.whole cc0_scratch1
abbrev agM : Memref sig .tc .vmem S15x128x128 .f32 := Memref.whole cc0_scratch2

theorem rs_inb (j : Fin 3) (h : Fin 2) : ∀ a, (![j.val, 64 * h.val, 0] : Fin 3 → Nat) a + S1x64x128.size a ≤ S3x128x128.size a := by
  revert j h; decide
theorem ag_inb (s : Fin 15) (h : Fin 2) : ∀ a, (![s.val, 64 * h.val, 0] : Fin 3 → Nat) a + S1x64x128.size a ≤ S15x128x128.size a := by
  revert s h; decide
theorem red_inb (h : Fin 2) : ∀ a, (![64 * h.val, 0] : Fin 2 → Nat) a + S64x128.size a ≤ S128x128.size a := by
  revert h; decide

abbrev rsSlot (j : Fin 3) (h : Fin 2) : Memref sig .tc .vmem S64x128 .f32 :=
  (rsM.slice (Rect.unit (s := S3x128x128) ![j.val, 64 * h.val, 0] S1x64x128.size (rs_inb j h)) (fun _ => rfl)).squeeze S64x128 squeezes_S1x64x128_S64x128

abbrev agSlot (s : Fin 15) (h : Fin 2) : Memref sig .tc .vmem S64x128 .f32 :=
  (agM.slice (Rect.unit (s := S15x128x128) ![s.val, 64 * h.val, 0] S1x64x128.size (ag_inb s h)) (fun _ => rfl)).squeeze S64x128 squeezes_S1x64x128_S64x128

abbrev redHalf (h : Fin 2) : Memref sig .tc .vmem S64x128 .f32 :=
  redM.slice (Rect.unit (s := S128x128) ![64 * h.val, 0] S64x128.size (red_inb h)) (fun _ => rfl)

abbrev barS : Sem sig := (SemArray.scalar (sig.barrier 0 rfl) : Sems sig S_).sem

theorem sem_inb3 (j : Fin 3) (h : Fin 2) : ∀ a, (![j.val, h.val] : Fin 2 → Nat) a + S1x1.size a ≤ S3x2.size a := by
  revert j h; decide
theorem sem_inb15 (s : Fin 15) (h : Fin 2) : ∀ a, (![s.val, h.val] : Fin 2 → Nat) a + S1x1.size a ≤ S15x2.size a := by
  revert s h; decide

abbrev rsSendS (j : Fin 3) (h : Fin 2) : DmaSem sig := ((cc0_scratch3.slice (Rect.unit (s := S3x2) ![j.val, h.val] S1x1.size (sem_inb3 j h))).squeeze S_ squeezes_S1x1_S_).sem
abbrev rsRecvS (j : Fin 3) (h : Fin 2) : DmaSem sig := ((cc0_scratch4.slice (Rect.unit (s := S3x2) ![j.val, h.val] S1x1.size (sem_inb3 j h))).squeeze S_ squeezes_S1x1_S_).sem
abbrev agSendS (s : Fin 15) (h : Fin 2) : DmaSem sig := ((cc0_scratch5.slice (Rect.unit (s := S15x2) ![s.val, h.val] S1x1.size (sem_inb15 s h))).squeeze S_ squeezes_S1x1_S_).sem
abbrev agRecvS (s : Fin 15) (h : Fin 2) : DmaSem sig := ((cc0_scratch6.slice (Rect.unit (s := S15x2) ![s.val, h.val] S1x1.size (sem_inb15 s h))).squeeze S_ squeezes_S1x1_S_).sem

abbrev barCell (c : Dev nD) : GSem nD τ sig := ((c : Thread nD τ), .reg barS)
abbrev rsSendCell (c : Dev nD) (j : Fin 3) (h : Fin 2) : GSem nD τ sig := ((c : Thread nD τ), .dma (rsSendS j h))
abbrev rsRecvCell (c : Dev nD) (j : Fin 3) (h : Fin 2) : GSem nD τ sig := ((c : Thread nD τ), .dma (rsRecvS j h))
abbrev agSendCell (c : Dev nD) (s : Fin 15) (h : Fin 2) : GSem nD τ sig := ((c : Thread nD τ), .dma (agSendS s h))
abbrev agRecvCell (c : Dev nD) (s : Fin 15) (h : Fin 2) : GSem nD τ sig := ((c : Thread nD τ), .dma (agRecvS s h))

inductive CellKind where
  | rsSend (j : Fin 3) (h : Fin 2)
  | rsRecv (j : Fin 3) (h : Fin 2)
  | agSend (s : Fin 15) (h : Fin 2)
  | agRecv (s : Fin 15) (h : Fin 2)
  | other
  deriving DecidableEq

def kindOf (q : DmaSem sig) : CellKind :=
  if h1 : 2 ≤ q.val ∧ q.val < 8 then .rsSend ⟨(q.val - 2) / 2, by omega⟩ ⟨(q.val - 2) % 2, by omega⟩
  else if h2 : 8 ≤ q.val ∧ q.val < 14 then .rsRecv ⟨(q.val - 8) / 2, by omega⟩ ⟨(q.val - 8) % 2, by omega⟩
  else if h3 : 14 ≤ q.val ∧ q.val < 44 then .agSend ⟨(q.val - 14) / 2, by omega⟩ ⟨(q.val - 14) % 2, by omega⟩
  else if h4 : 44 ≤ q.val ∧ q.val < 74 then .agRecv ⟨(q.val - 44) / 2, by omega⟩ ⟨(q.val - 44) % 2, by omega⟩
  else .other

theorem kindOf_rsSend (j : Fin 3) (h : Fin 2) : kindOf (rsSendS j h) = .rsSend j h := by revert j h; decide
theorem kindOf_rsRecv (j : Fin 3) (h : Fin 2) : kindOf (rsRecvS j h) = .rsRecv j h := by revert j h; decide
theorem kindOf_agSend (s : Fin 15) (h : Fin 2) : kindOf (agSendS s h) = .agSend s h := by revert s h; decide
theorem kindOf_agRecv (s : Fin 15) (h : Fin 2) : kindOf (agRecvS s h) = .agRecv s h := by revert s h; decide

abbrev Nrs : ℕ := (rsSlot 0 0).view.dmaCredit
abbrev Nag : ℕ := (agSlot 0 0).view.dmaCredit
theorem Nrs_pos : 0 < Nrs := View.dmaCredit_pos _ (by decide)
theorem Nag_pos : 0 < Nag := View.dmaCredit_pos _ (by decide)
theorem rsSlot_credit (j : Fin 3) (h : Fin 2) : (rsSlot j h).view.dmaCredit = Nrs := rfl
theorem agSlot_credit (s : Fin 15) (h : Fin 2) : (agSlot s h).view.dmaCredit = Nag := rfl

variable (m : (ℓ : Loc nD τ sig) → Buf (Elt F) ℓ)

def at2 (a b : ℕ) : S512x512.Idx := fun k => match k with
  | ⟨0, _⟩ => ⟨a % 512, Nat.mod_lt _ (by decide)⟩
  | ⟨1, _⟩ => ⟨b % 512, Nat.mod_lt _ (by decide)⟩

def at2t (a b : ℕ) : S128x128.Idx := fun k => match k with
  | ⟨0, _⟩ => ⟨a % 128, Nat.mod_lt _ (by decide)⟩
  | ⟨1, _⟩ => ⟨b % 128, Nat.mod_lt _ (by decide)⟩

def at2h (a b : ℕ) : S64x128.Idx := fun k => match k with
  | ⟨0, _⟩ => ⟨a % 64, Nat.mod_lt _ (by decide)⟩
  | ⟨1, _⟩ => ⟨b % 128, Nat.mod_lt _ (by decide)⟩

def xblk (c : Dev nD) : (cc0_stg0_0 : Ref sig .tc).ty.Contents (Elt F) :=
  (win0_0.blk (0 : Fin 1)).view.read (Elt F) (m ((c : Thread nD τ).loc main_arg0))

def trow (c : Dev nD) : ℕ := 2 * cx c + cy c

def rsVal (c : Dev nD) : (cc0_scratch0 : Ref sig .tc).ty.Contents (Elt F) := fun i =>
  xblk m (zp c (3 - (i 0).val)) (at2 (128 * trow c + (i 1).val) (128 * cz c + (i 2).val))

def xOwnVec (c : Dev nD) (h : Fin 2) : Vec F S64x128 .f32 := fun i =>
  xblk m c (at2 (128 * trow c + 64 * h.val + (i 0).val) (128 * cz c + (i 1).val))
def rsVec (c : Dev nD) (j : Fin 3) (h : Fin 2) : Vec F S1x64x128 .f32 := fun i =>
  rsVal m c (fun k => match k with
    | ⟨0, _⟩ => ⟨j.val, j.isLt⟩
    | ⟨1, _⟩ => ⟨(64 * h.val + (i 1).val) % 128, Nat.mod_lt _ (by decide)⟩
    | ⟨2, _⟩ => ⟨(i 2).val, (i 2).isLt⟩)

def redHalfVal (c : Dev nD) (h : Fin 2) : FVec F S64x128 .f32 :=
  if h = 0 then k0_pay1 (xOwnVec m c 0) (rsVec m c 0 0) (rsVec m c 1 0) (rsVec m c 2 0)
  else k0_pay2 (xOwnVec m c 1) (rsVec m c 0 1) (rsVec m c 1 1) (rsVec m c 2 1)

def redVal (c : Dev nD) : (cc0_scratch1 : Ref sig .tc).ty.Contents (Elt F) := fun i =>
  redHalfVal m c ⟨((i 0).val / 64) % 2, Nat.mod_lt _ (by decide)⟩ (at2h (i 0).val (i 1).val)

def agVal (c : Dev nD) : (cc0_scratch2 : Ref sig .tc).ty.Contents (Elt F) := fun i =>
  redVal m (agS c ⟨(i 0).val, (i 0).isLt⟩) (at2t (i 1).val (i 2).val)

def outVal : (cc0_stg1_0 : Ref sig .tc).ty.Contents (Elt F) := fun i =>
  redVal m (mk ((i 0).val / 256) ((i 0).val / 128) ((i 1).val / 128)) (at2t (i 0).val (i 1).val)

abbrev rsSrc (c : Dev nD) (j : Fin 3) (h : Fin 2) : Memref sig .tc .vmem S64x128 .f32 :=
  xM.slice (Rect.unit (s := S512x512) (k0_off1 c (BitVec.ofNat 32 (64 * h.val)) (BitVec.ofNat 32 (1 + j.val))) S64x128.size (k0_off1_inb c h j)) (fun _ => rfl)

def rightPow : ℕ → PosShare TreeShare
  | 0 => fullShare
  | n + 1 => (rightPow n).right
def agShare (s : Fin 15) : PosShare TreeShare := if s.val = 14 then rightPow 14 else (rightPow s.val).left

def rsSendPay (c : Dev nD) (j : Fin 3) (h : Fin 2) : sProp 𝕄 :=
  (rsSrc c j h).view.loc (c : Thread nD τ) ↦[(rsSrc c j h).view.set]{fullShare} xblk m c
def rsRecvPay (c : Dev nD) (j : Fin 3) (h : Fin 2) : sProp 𝕄 :=
  (rsSlot j h).view.loc (c : Thread nD τ) ↦[(rsSlot j h).view.set]{fullShare} rsVal m c
def agSendPay (c : Dev nD) (s : Fin 15) (h : Fin 2) : sProp 𝕄 :=
  (redHalf h).view.loc (c : Thread nD τ) ↦[(redHalf h).view.set]{agShare s} redVal m c
def agRecvPay (c : Dev nD) (s : Fin 15) (h : Fin 2) : sProp 𝕄 :=
  (agSlot s h).view.loc (c : Thread nD τ) ↦[(agSlot s h).view.set]{fullShare} agVal m c

def Rd : Rounds.Schedule (GSem nD τ sig) (Fin 6) 𝕄 where
  duties g r := match g.2 with
    | .dma q => if r = 0 ∧ g.1.2 = .tc ∧ kindOf q ≠ .other then {0} else ∅
    | .reg _ => ∅
  amount g _ _ := match g.2 with
    | .dma q => (match kindOf q with | .rsSend _ _ => Nrs | .rsRecv _ _ => Nrs | _ => Nag)
    | .reg _ => 1
  payload g _ _ := match g.2 with
    | .dma q => (match kindOf q with
        | .rsSend j h => rsSendPay m g.1.1 j h
        | .rsRecv j h => rsRecvPay m g.1.1 j h
        | .agSend s h => agSendPay m g.1.1 s h
        | .agRecv s h => agRecvPay m g.1.1 s h
        | .other => iprop(emp))
    | .reg _ => iprop(emp)
  amount_pos g _ _ _ := by
    rcases g with ⟨t, sm⟩
    cases sm with
    | dma q => dsimp only; split <;> first | exact Nrs_pos | exact Nag_pos
    | reg _ => exact Nat.one_pos

end Cert.KernelIdeal.Hand

end
-- ==== Proof.HandKernelIdeal.Value.lean ====
import proofs.«900721_g7700000000000722_dist_ar_v7x_xyz2x2x4_z_m512_n512_f32_1_alg».proof.Proof.HandKernelIdeal.Sched
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Hand

open Cert.KernelIdeal Cert.KernelIdeal.Gen
open Idealize.ShloMosaic
open Idealize.ShloMosaic.ValueIdx

variable (m : (ℓ : Loc nD τ sig) → Buf (Elt Ideal) ℓ)

def lift3 (i : S64x128.Idx) : S1x64x128.Idx := ix3 (0 : Fin 1) (i 0 : Fin 64) (i 1 : Fin 128)

theorem pay1_apply (v : Vec Ideal S64x128 .f32) (w0 w1 w2 : Vec Ideal S1x64x128 .f32) (i : S64x128.Idx) :
    k0_pay1 v w0 w1 w2 i = (v i + w0 (lift3 i) + w1 (lift3 i) + w2 (lift3 i) : EReal) := by
  obtain ⟨p, q, rfl⟩ : ∃ (p : Fin 64) (q : Fin 128), i = ix2 p q := ⟨i 0, i 1, eq_ix2 i⟩
  unfold k0_pay1
  rw [shapeCast_self, shapeCast_self, addf_apply, addf_apply, addf_apply,
    shapeCast_1ab_ab_apply, shapeCast_1ab_ab_apply, shapeCast_1ab_ab_apply]
  rfl

-- the two halves run one and the same payload
theorem redHalfVal_apply (c : Dev nD) (h : Fin 2) (i : S64x128.Idx) :
    redHalfVal (F := Ideal) m c h i
      = (xOwnVec m c h i + rsVec m c 0 h (lift3 i) + rsVec m c 1 h (lift3 i) + rsVec m c 2 h (lift3 i) : EReal) := by
  obtain rfl | rfl : h = 0 ∨ h = 1 := by omega
  all_goals exact pay1_apply _ _ _ _ i

theorem xOwnVec_eq (c : Dev nD) (h : Fin 2) (i : S64x128.Idx) (r s : ℕ)
    (hr : 64 * h.val + (i 0).val = r) (hs : (i 1).val = s) :
    xOwnVec m c h i = xblk m c (at2 (128 * trow c + r) (128 * cz c + s)) := by
  subst hr hs
  unfold xOwnVec
  rw [Nat.add_assoc]

theorem rsVec_eq (c : Dev nD) (j : Fin 3) (h : Fin 2) (i : S64x128.Idx) (r s : ℕ)
    (hr : 64 * h.val + (i 0).val = r) (hr' : r < 128) (hs : (i 1).val = s) :
    rsVec m c j h (lift3 i) = xblk m (zp c (3 - j.val)) (at2 (128 * trow c + r) (128 * cz c + s)) := by
  show xblk m (zp c (3 - j.val)) (at2 (128 * trow c + (64 * h.val + (i 0).val) % 128) (128 * cz c + (i 1).val)) = _
  rw [hr, Nat.mod_eq_of_lt hr', hs]

theorem zp_zero (c : Dev nD) : zp c 0 = c := mk_coords c

theorem four_sum (g : ℕ → EReal) : g 0 + g 3 + g 2 + g 1 = ∑ k : Fin 4, g k.val := by
  rw [Fin.sum_univ_four]
  show _ = g 0 + g 1 + g 2 + g 3
  ac_rfl

theorem redVal_apply (c : Dev nD) (a b : ℕ) (ha : a < 128) (hb : b < 128) :
    redVal (F := Ideal) m c (at2t a b)
      = (∑ k : Fin 4, xblk m (zp c k.val) (at2 (128 * trow c + a) (128 * cz c + b)) : EReal) := by
  have hr : 64 * (a % 128 / 64 % 2) + a % 128 % 64 = a := by omega
  have hs : b % 128 % 128 = b := by omega
  have key := four_sum fun k => xblk m (zp c k) (at2 (128 * trow c + a) (128 * cz c + b))
  rw [zp_zero] at key
  unfold redVal
  rw [redHalfVal_apply, xOwnVec_eq m c _ _ a b hr hs, rsVec_eq m c 0 _ _ a b hr ha hs, rsVec_eq m c 1 _ _ a b hr ha hs,
    rsVec_eq m c 2 _ _ a b hr ha hs]
  exact key

theorem at2t_mod (a b : ℕ) : at2t a b = at2t (a % 128) (b % 128) := by
  funext k
  match k with
  | ⟨0, _⟩ | ⟨1, _⟩ => exact Fin.ext (Nat.mod_mod _ _).symm

-- going round the ring from z is adding z in Fin 4, a bijection
theorem sum_ring (f : ℕ → EReal) (z : ℕ) (hz : z < 4) :
    ∑ k : Fin 4, f ((z + k.val) % 4) = ∑ k : Fin 4, f k.val :=
  Equiv.sum_comp (Equiv.addLeft (⟨z, hz⟩ : Fin 4)) fun k => f k.val

theorem outVal_apply (X : ℕ → ℕ → EReal)
    (hx : ∀ (c : Dev nD) (a b : ℕ), a < 512 → b < 512 → (xblk m c (at2 a b) : EReal) = X (512 * cz c + a) b)
    (i : S512x512.Idx) :
    outVal (F := Ideal) m i = ∑ k : Fin 4, X (512 * k.val + (i 0).val) (i 1).val := by
  have hi0 : (i 0).val < 512 := (i 0).isLt
  have hi1 : (i 1).val < 512 := (i 1).isLt
  unfold outVal
  show @Eq EReal _ _
  rw [at2t_mod, redVal_apply m _ _ _ (Nat.mod_lt _ (by decide)) (Nat.mod_lt _ (by decide))]
  have er : 128 * trow (mk ((i 0).val / 256) ((i 0).val / 128) ((i 1).val / 128)) + (i 0).val % 128 = (i 0).val := by
    unfold trow; rw [cx_mk, cy_mk]; omega
  have ec : 128 * cz (mk ((i 0).val / 256) ((i 0).val / 128) ((i 1).val / 128)) + (i 1).val % 128 = (i 1).val := by
    rw [cz_mk]; omega
  rw [er, ec, ← sum_ring (fun k => X (512 * k + (i 0).val) (i 1).val) _ (cz_lt _)]
  refine Finset.sum_congr rfl fun k _ => ?_
  rw [hx _ _ _ hi0 hi1, cz_zp]

end Cert.KernelIdeal.Hand

end
-- ==== Proof.LibBarrierCell.lean ====
import Idealize.ShloMosaic.Lib.Rounds
import Mathlib.Algebra.BigOperators.Fin

namespace Cert.Lib.BarrierCell

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Rounds

def amt : Fin 6 → ℕ := ![16, 16, 16, 1, 1, 1]

-- A signal without which the others cannot reach t has landed once the landed amounts reach t.
theorem landed_of_le {Ld : Finset (Fin 6)} {t : ℕ} (d : Fin 6) (h : t ≤ ∑ x ∈ Ld, amt x)
    (hd : ∑ x ∈ Finset.univ.erase d, amt x < t := by decide) : d ∈ Ld := by
  by_contra hn
  exact Nat.not_le_of_lt hd (h.trans (Finset.sum_le_sum_of_subset fun x hx =>
    Finset.mem_erase.2 ⟨fun e => hn (e ▸ hx), Finset.mem_univ x⟩))

noncomputable section

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

section Cell

variable (E : Emb (URounds (GSem nD τ sig) (Fin 6)) (MT nD τ sig Ix Val Name U Lvl))

abbrev payTok (g : GSem nD τ sig) (d : Fin 6) : sProp 𝕄 := dutyTok E g 0 d

abbrev ownTok (g : GSem nD τ sig) (d : Fin 6) : sProp 𝕄 := dutyTok E g 1 d

abbrev phA (g : GSem nD τ sig) (i : Fin 6) : sProp 𝕄 := dutyTok E g 2 i

abbrev phB (g : GSem nD τ sig) (i : Fin 6) : sProp 𝕄 := dutyTok E g 3 i

-- A landed signal: its contributor's token with its payload or, the payload taken, the owner's token.
abbrev slot (g : GSem nD τ sig) (pay : Fin 6 → sProp 𝕄) (d : Fin 6) : sProp 𝕄 :=
  iprop(payTok E g d ∗ (pay d ∨ ownTok E g d))

-- The owner's progress: k units consumed, with the one-shot tokens of the two waits on the matching sides.
def ph (g : GSem nD τ sig) (k : ℕ) : sProp 𝕄 :=
  iprop((⌜k = 0⌝ ∗ phB E g 0 ∗ phB E g 1) ∨ (⌜k = 48⌝ ∗ phA E g 0 ∗ phB E g 1) ∨ (⌜k = 51⌝ ∗ phA E g 0 ∗ phA E g 1))

def barRest (g : GSem nD τ sig) (pay : Fin 6 → sProp 𝕄) (v : ℕ) : sProp 𝕄 :=
  iprop(∃ (Ld : Finset (Fin 6)) (k : ℕ), ⌜v + k = ∑ d ∈ Ld, amt d⌝ ∗ ph E g k ∗ bigSep Ld (slot E g pay))

def barBody (g : GSem nD τ sig) (pay : Fin 6 → sProp 𝕄) : sProp 𝕄 := iprop(∃ v, semVal g v ∗ barRest E g pay v)

abbrev barInv (κ : Name) (g : GSem nD τ sig) (pay : Fin 6 → sProp 𝕄) : sProp 𝕄 := inv κ (barBody E g pay)

variable {g : GSem nD τ sig} {pay : Fin 6 → sProp (MT nD τ sig Ix Val Name U Lvl)}

theorem landed_unpick {Ld : Finset (Fin 6)} {d : Fin 6} (hd : d ∈ Ld) :
    iprop(slot E g pay d ∗ bigSep (Ld.erase d) (slot E g pay)) ⊢ bigSep Ld (slot E g pay) :=
  Entails.of_eq (bigSep_erase hd).symm

theorem barRest_land {v : ℕ} {d : Fin 6} :
    iprop((payTok E g d ∗ pay d) ∗ barRest E g pay v) ⊢ barRest E g pay (v + amt d) := by
  unfold barRest
  iintro ⟨⟨Htok, Hpay⟩, %Ld, %k, %h, Hph, Hbig⟩
  by_cases hd : d ∈ Ld
  · icases (bigSep_pick (Φ := slot E g pay) hd) $$ Hbig with ⟨⟨H', -⟩, -⟩
    iexfalso
    iapply (dutyTok_dutyTok_false E)
    iframe
  iexists insert d Ld, k
  isplitr
  · ipureintro; rw [Finset.sum_insert hd]; omega
  iframe Hph
  iapply (landed_unpick E (pay := pay) (Finset.mem_insert_self d Ld))
  rw [Finset.erase_insert hd]
  iframe Hbig
  isplitl [Htok]; · iexact Htok
  ileft; iexact Hpay

-- The payload is still there: the owner's token, which would otherwise be inside, is in its hand.
theorem take_pay {Ld : Finset (Fin 6)} {d : Fin 6} (hd : d ∈ Ld) :
    iprop(bigSep Ld (slot E g pay) ∗ ownTok E g d) ⊢ iprop(bigSep Ld (slot E g pay) ∗ pay d) := by
  iintro ⟨Hbig, Hown⟩
  icases (bigSep_pick (Φ := slot E g pay) hd) $$ Hbig with ⟨⟨Htok, (Hpay | Hown')⟩, Hrest⟩
  · iframe Hpay
    iapply (landed_unpick E (pay := pay) hd)
    iframe Hrest
    isplitl [Htok]; · iexact Htok
    iright; iexact Hown
  · iexfalso
    iapply (dutyTok_dutyTok_false E)
    iframe

theorem ph_wait48 (k : ℕ) : iprop(ph E g k ∗ phA E g 0) ⊢ iprop(⌜k + 48 = 48⌝ ∗ ph E g 48 ∗ phB E g 0) := by
  unfold ph
  iintro ⟨(⟨%hk, HB0, HB1⟩ | ⟨-, HA0, -⟩ | ⟨-, HA0, -⟩), HA⟩
  · isplitr; · ipureintro; omega
    iframe HB0
    iright; ileft
    isplitr; · ipureintro; rfl
    iframe
  all_goals
    iexfalso
    iapply (dutyTok_dutyTok_false E)
    iframe

theorem ph_wait3 (k : ℕ) :
    iprop(ph E g k ∗ phB E g 0 ∗ phA E g 1) ⊢ iprop(⌜k + 3 = 51⌝ ∗ ph E g 51 ∗ emp) := by
  unfold ph
  iintro ⟨(⟨-, HB0, -⟩ | ⟨%hk, HA0, -⟩ | ⟨-, -, HA1⟩), HB, HA⟩
  · iexfalso
    iapply (dutyTok_dutyTok_false E)
    iframe
  · isplitr; · ipureintro; omega
    isplitl
    · iright; iright
      isplitr; · ipureintro; rfl
      iframe
    iempintro
  · iexfalso
    iapply (dutyTok_dutyTok_false E)
    iframe

-- A wait for n units: the phase step tells the units consumed; the counter then shows a, b, c landed, and the owner takes their payloads.
theorem barRest_wait {v n k₁ : ℕ} {a b c : Fin 6} {X Y : sProp 𝕄} (hle : n ≤ v)
    (hph : ∀ k, iprop(ph E g k ∗ X) ⊢ iprop(⌜k + n = k₁⌝ ∗ ph E g k₁ ∗ Y))
    (ha : ∑ x ∈ Finset.univ.erase a, amt x < k₁ := by decide)
    (hb : ∑ x ∈ Finset.univ.erase b, amt x < k₁ := by decide)
    (hc : ∑ x ∈ Finset.univ.erase c, amt x < k₁ := by decide) :
    iprop(barRest E g pay v ∗ X ∗ ownTok E g a ∗ ownTok E g b ∗ ownTok E g c)
      ⊢ iprop(barRest E g pay (v - n) ∗ Y ∗ pay a ∗ pay b ∗ pay c) := by
  unfold barRest
  iintro ⟨⟨%Ld, %k, %h, Hph, Hbig⟩, HX, Ha, Hb, Hc⟩
  icases (hph k) $$ [Hph HX] with ⟨%hk, Hph, HY⟩
  · iframe
  have hs : k₁ ≤ ∑ d ∈ Ld, amt d := by omega
  icases (take_pay E (pay := pay) (landed_of_le a hs ha)) $$ [Hbig Ha] with ⟨Hbig, Pa⟩
  · iframe
  icases (take_pay E (pay := pay) (landed_of_le b hs hb)) $$ [Hbig Hb] with ⟨Hbig, Pb⟩
  · iframe
  icases (take_pay E (pay := pay) (landed_of_le c hs hc)) $$ [Hbig Hc] with ⟨Hbig, Pc⟩
  · iframe
  iframe HY Pa Pb Pc
  iexists Ld, k₁
  isplitr; · ipureintro; omega
  iframe

end Cell

section Rules

variable [Preorder Lvl] {defs : Defs nD τ sig Val Λ} (𝒱 : Variants)
variable (E : Emb (URounds (GSem nD τ sig) (Fin 6)) (MT nD τ sig Ix Val Name U Lvl))
variable (c : Thread nD τ) (bd : Option 𝒱.V) {Γ : PendingWaitsCtx sig Ix}
variable {α : Type} {Q : α → sProp (MT nD τ sig Ix Val Name U Lvl)}
variable {pay : Fin 6 → sProp (MT nD τ sig Ix Val Name U Lvl)}

set_option synthInstance.maxSize 2048 in
instance barBody_storable [E.LandsIn (upEmb : UEmb _ 𝕄)] [∀ d, Storable (upEmb : UEmb _ 𝕄) (pay d)]
    (g : GSem nD τ sig) : Storable (upEmb : UEmb _ 𝕄) (barBody E g pay) := by
  unfold barBody barRest ph; infer_instance

theorem bar_alloc [Infinite Name] [E.LandsIn (upEmb : UEmb _ 𝕄)] [∀ d, Storable (upEmb : UEmb _ 𝕄) (pay d)]
    {g : GSem nD τ sig} {Es : Set Name} :
    iprop(semVal g 0 ∗ phB E g 0 ∗ phB E g 1) ⊢ iprop(|={Es}=> ∃ κ : Name, barInv E κ g pay) := by
  refine .trans ?_ inv_alloc
  unfold barBody barRest ph
  iintro ⟨Hv, HB⟩
  iexists 0
  iframe Hv
  iexists ∅, 0
  isplitr; · ipureintro; rfl
  isplitl [HB]
  · ileft
    isplitr; · ipureintro; rfl
    iexact HB
  rw [bigSep_empty]; iempintro

theorem bar_land_held {g : GSem nD τ sig} {κ : Name} {d : Fin 6} :
    iprop(barInv E κ g pay ∗ payTok E g d ∗ pay d) ⊢ landingUpdate g (amt d) iprop(emp) :=
  landingUpdate_inv (R := barRest E g pay) (put := iprop(payTok E g d ∗ pay d)) .rfl
    (fun v => by
      unfold barBody
      iintro ⟨Hput, -, Hv, HR⟩
      iexists v + amt d
      iframe Hv
      iapply (barRest_land E)
      iframe)

theorem wp_bar_signal {dst : Thread nD τ} {sem : Sem sig} {d : Fin 6}
    {k : PUnit → Prog (TpuEff nD τ sig Val Λ c.2) α} {κ : Name} (ι : Ix)
    {O₀ : CellTallies nD τ sig Ix} (O : CellTallies nD τ sig Ix)
    (hO : O₀ = O + tallyAt (dst, .reg sem) ι (amt d)) {W : Waits sig Ix} {Es : Set Name}
    (hr : τ.routes c dst = true := by routes) :
    iprop(barInv E κ (dst, .reg sem) pay ∗ owes c O₀ W ∗ payTok E (dst, .reg sem) d ∗ pay d)
      ⊢ iprop((owes c O W -∗ wp frame (wpE' defs 𝒱 c bd Γ) Es (k ⟨⟩) Q)
          -∗ wp frame (wpE' defs 𝒱 c bd Γ) Es (.op (.semSignal dst sem (amt d)) k) Q) := by
  iintro ⟨Hg, HL, Hput⟩ Hk
  iapply (wp_semSignal 𝒱 c bd Es ι O hO hr) $$ HL [Hg Hput]
  · iapply (bar_land_held E)
    iframe
  iexact Hk

-- A wait by the cell's owner: when it fires, open the invariant, lower the counter, step the rest, close.
theorem wp_bar_wait {w : TpuEff nD τ sig Val Λ c.2 PUnit} {sem : Sem sig} {Es : Set Name} {κ : Name} {n : ℕ}
    (hw : ∀ K : PUnit → sProp 𝕄, wpE' defs 𝒱 c bd Γ Es w K = waitSpec c Es (.reg sem) n K) (hE : κ ∈ Es)
    {k : PUnit → Prog (TpuEff nD τ sig Val Λ c.2) α} (ι : Ix) {O : CellTallies nD τ sig Ix} {W : Waits sig Ix}
    {X Y : sProp 𝕄}
    (h : ∀ v, n ≤ v → iprop(barRest E (c, .reg sem) pay v ∗ X) ⊢ iprop(barRest E (c, .reg sem) pay (v - n) ∗ Y)) :
    iprop(barInv E κ (c, .reg sem) pay ∗ cred (tallyAt (c, .reg sem) ι n) ∗ owes c O W ∗ MayWait c (.reg sem) ι O ∗ X)
      ⊢ iprop(((owes c O (insert (SemLoc.reg sem, ι) W) ∗ Y) -∗ wp frame (wpE' defs 𝒱 c bd Γ) Es (k ⟨⟩) Q)
          -∗ wp frame (wpE' defs 𝒱 c bd Γ) Es (.op w k) Q) := by
  iintro ⟨Hg, Hc, HL, Hlev, HX⟩ Hk
  iapply (Idealize.ShloMosaic.wp_wait_token 𝒱 c bd Es hw ι) $$ [Hc HL Hlev]
  · iframe
  imod (inv_acc hE) $$ Hg with ⟨Hb, Hclose⟩
  unfold barBody
  icases Hb with ⟨%v, Hv, Hst⟩
  imodintro
  iapply lowerSpec_intro $$ Hv
  iintro %hle Hv
  icases (h v hle) $$ [Hst HX] with ⟨Hst, HY⟩
  · iframe
  ihave Hc := Hclose $$ [Hv Hst]
  · iexists v - n
    iframe
  imod Hc
  imodintro
  iintro HL
  iapply Hk
  iframe

theorem wp_bar_wait48 {w : TpuEff nD τ sig Val Λ c.2 PUnit} {sem : Sem sig} {Es : Set Name} {κ : Name}
    (hw : ∀ K : PUnit → sProp 𝕄, wpE' defs 𝒱 c bd Γ Es w K = waitSpec c Es (.reg sem) 48 K) (hE : κ ∈ Es)
    {k : PUnit → Prog (TpuEff nD τ sig Val Λ c.2) α} (ι : Ix) {O : CellTallies nD τ sig Ix} {W : Waits sig Ix} :
    iprop(barInv E κ (c, .reg sem) pay ∗ cred (tallyAt (c, .reg sem) ι 48) ∗ owes c O W ∗ MayWait c (.reg sem) ι O
        ∗ phA E (c, .reg sem) 0 ∗ ownTok E (c, .reg sem) 0 ∗ ownTok E (c, .reg sem) 1 ∗ ownTok E (c, .reg sem) 2)
      ⊢ iprop(((owes c O (insert (SemLoc.reg sem, ι) W) ∗ phB E (c, .reg sem) 0 ∗ pay 0 ∗ pay 1 ∗ pay 2)
            -∗ wp frame (wpE' defs 𝒱 c bd Γ) Es (k ⟨⟩) Q)
          -∗ wp frame (wpE' defs 𝒱 c bd Γ) Es (.op w k) Q) :=
  wp_bar_wait 𝒱 E c bd hw hE ι fun _ hl => barRest_wait E hl (ph_wait48 E)

theorem wp_bar_wait3 {w : TpuEff nD τ sig Val Λ c.2 PUnit} {sem : Sem sig} {Es : Set Name} {κ : Name}
    (hw : ∀ K : PUnit → sProp 𝕄, wpE' defs 𝒱 c bd Γ Es w K = waitSpec c Es (.reg sem) 3 K) (hE : κ ∈ Es)
    {k : PUnit → Prog (TpuEff nD τ sig Val Λ c.2) α} (ι : Ix) {O : CellTallies nD τ sig Ix} {W : Waits sig Ix} :
    iprop(barInv E κ (c, .reg sem) pay ∗ cred (tallyAt (c, .reg sem) ι 3) ∗ owes c O W ∗ MayWait c (.reg sem) ι O
        ∗ phB E (c, .reg sem) 0 ∗ phA E (c, .reg sem) 1
        ∗ ownTok E (c, .reg sem) 3 ∗ ownTok E (c, .reg sem) 4 ∗ ownTok E (c, .reg sem) 5)
      ⊢ iprop(((owes c O (insert (SemLoc.reg sem, ι) W) ∗ pay 3 ∗ pay 4 ∗ pay 5)
            -∗ wp frame (wpE' defs 𝒱 c bd Γ) Es (k ⟨⟩) Q)
          -∗ wp frame (wpE' defs 𝒱 c bd Γ) Es (.op w k) Q) :=
  wp_bar_wait 𝒱 E c bd hw hE ι fun _ hl => by
    iintro ⟨HR, HB, HA, H3, H4, H5⟩
    icases (barRest_wait E (a := 3) (b := 4) (c := 5) hl (ph_wait3 E)) $$ [HR HB HA H3 H4 H5] with ⟨HR, -, HP⟩
    · iframe
    iframe

end Rules

end

end Cert.Lib.BarrierCell
-- ==== Proof.HandKernelIdeal.Ghost.lean ====
import proofs.«900721_g7700000000000722_dist_ar_v7x_xyz2x2x4_z_m512_n512_f32_1_alg».proof.Proof.HandKernelIdeal.Sched
import proofs.«900721_g7700000000000722_dist_ar_v7x_xyz2x2x4_z_m512_n512_f32_1_alg».proof.Proof.LibBarrierCell

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Lib.BarrierCell

variable {F : FTy → Type} [FloatOps F]

local notation "𝕄" => MT nD τ sig (Fin 2) (Elt F) ℕ UU ℕ

variable (m : (ℓ : Loc nD τ sig) → Buf (Elt F) ℓ) (ρ : Dev nD → PrngReg)

def rsSlotAny (p : Dev nD) (j : Fin 3) (h : Fin 2) : sProp 𝕄 :=
  iprop(∃ f, ((rsSlot j h).view.loc (p : Thread nD τ)) ↦[(rsSlot j h).view.set]{fullShare} f)
def agSlotAny (p : Dev nD) (s : Fin 15) (h : Fin 2) : sProp 𝕄 :=
  iprop(∃ f, ((agSlot s h).view.loc (p : Thread nD τ)) ↦[(agSlot s h).view.set]{fullShare} f)

def rsSlabAny (p : Dev nD) (j : Fin 3) : sProp 𝕄 := iprop(rsSlotAny p j 0 ∗ rsSlotAny p j 1)
def agSlabAny (p : Dev nD) (s : Fin 15) : sProp 𝕄 := iprop(agSlotAny p s 0 ∗ agSlotAny p s 1)

def barPayZ (c : Dev nD) (d : Fin 3) : sProp 𝕄 :=
  iprop(rsSlabAny (zp c (3 - d.val)) ⟨2 - d.val, by omega⟩ ∗ agSlabAny (zp c (3 - d.val)) ⟨d.val, by omega⟩
    ∗ agSlabAny (zp c (3 - d.val)) ⟨4 + d.val, by omega⟩ ∗ agSlabAny (zp c (3 - d.val)) ⟨8 + d.val, by omega⟩
    ∗ agSlabAny (zp c (3 - d.val)) ⟨12 + d.val, by omega⟩)

def barPayXY (c : Dev nD) (e : Fin 3) : sProp 𝕄 :=
  iprop(agSlabAny (xyp c ((e.val + 1) / 2) ((e.val + 1) % 2)) ⟨4 * (e.val + 1) - 1, by omega⟩
    ∗ agSlabAny (zp (xyp c ((e.val + 1) / 2) ((e.val + 1) % 2)) 3) ⟨4 * (e.val + 1), by omega⟩
    ∗ agSlabAny (zp (xyp c ((e.val + 1) / 2) ((e.val + 1) % 2)) 2) ⟨4 * (e.val + 1) + 1, by omega⟩
    ∗ agSlabAny (zp (xyp c ((e.val + 1) / 2) ((e.val + 1) % 2)) 1) ⟨4 * (e.val + 1) + 2, by omega⟩)

def barPay (c : Dev nD) (d : Fin 6) : sProp 𝕄 :=
  if h : d.val < 3 then barPayZ c ⟨d.val, h⟩ else barPayXY c ⟨d.val - 3, by omega⟩

instance rsSlotAny_storable (p : Dev nD) (j : Fin 3) (h : Fin 2) : BI.Storable (upEmb : UEmb _ 𝕄) (rsSlotAny (F := F) p j h) := by unfold rsSlotAny; infer_instance
instance agSlotAny_storable (p : Dev nD) (s : Fin 15) (h : Fin 2) : BI.Storable (upEmb : UEmb _ 𝕄) (agSlotAny (F := F) p s h) := by unfold agSlotAny; infer_instance
instance rsSlabAny_storable (p : Dev nD) (j : Fin 3) : BI.Storable (upEmb : UEmb _ 𝕄) (rsSlabAny (F := F) p j) := by unfold rsSlabAny; infer_instance
instance agSlabAny_storable (p : Dev nD) (s : Fin 15) : BI.Storable (upEmb : UEmb _ 𝕄) (agSlabAny (F := F) p s) := by unfold agSlabAny; infer_instance
instance barPayZ_storable (c : Dev nD) (d : Fin 3) : BI.Storable (upEmb : UEmb _ 𝕄) (barPayZ (F := F) c d) := by unfold barPayZ; infer_instance
instance barPayXY_storable (c : Dev nD) (e : Fin 3) : BI.Storable (upEmb : UEmb _ 𝕄) (barPayXY (F := F) c e) := by unfold barPayXY; infer_instance
instance barPay_storable (c : Dev nD) (d : Fin 6) : BI.Storable (upEmb : UEmb _ 𝕄) (barPay (F := F) c d) := by
  unfold barPay; split <;> infer_instance

def pay (c : Dev nD) (n : ℕ) : CellTallies nD τ sig (Fin 2) :=
  if n < 3 then tallyAt (barCell (zp c (n + 1))) 0 16
  else if n < 6 then tallyAt (barCell (xyp c ((n - 2) / 2) ((n - 2) % 2))) 1 1
  else if h : n < 12 then tallyAt (rsRecvCell (zp c (1 + (n - 6) % 3)) ⟨(n - 6) % 3, Nat.mod_lt _ (by decide)⟩ ⟨(n - 6) / 3, by omega⟩) 0 Nrs
  else if h : n < 27 then tallyAt (agRecvCell (agT c ⟨n - 12, by omega⟩) ⟨n - 12, by omega⟩ 0) 0 Nag
  else if h : n < 42 then tallyAt (agRecvCell (agT c ⟨n - 27, by omega⟩) ⟨n - 27, by omega⟩ 1) 0 Nag
  else 0

def Orem (c : Dev nD) : ℕ → CellTallies nD τ sig (Fin 2)
  | 0 => 0
  | k + 1 => Orem c k + pay c (41 - k)

theorem Orem_succ (c : Dev nD) (k : ℕ) : Orem c (k + 1) = Orem c k + pay c (41 - k) := rfl

def L (g : GSem nD τ sig) : Finset (Fin 2) := if g.1.2 = .tc then Finset.univ else ∅

def lv (g : GSem nD τ sig) (ι : Fin 2) : ℕ := match g.2 with
  | .reg _ => if ι = 0 then 1 else 2
  | .dma q => (match kindOf q with | .rsRecv _ _ => 3 | .agRecv _ _ => 4 | _ => 0)

def records (K : GSem nD τ sig → ℕ) : sProp 𝕄 :=
  bigSep Finset.univ fun c' : Dev nD => iprop(
    barInv ER (K (barCell c')) (barCell c') (barPay c')
    ∗ (bigSep Finset.univ fun jh : Fin 3 × Fin 2 => iprop(
        cellInv ER (Rd m) (K (rsSendCell c' jh.1 jh.2)) (rsSendCell c' jh.1 jh.2) ∗ reached ER (rsSendCell c' jh.1 jh.2) 0
        ∗ cellInv ER (Rd m) (K (rsRecvCell c' jh.1 jh.2)) (rsRecvCell c' jh.1 jh.2) ∗ reached ER (rsRecvCell c' jh.1 jh.2) 0))
    ∗ (bigSep Finset.univ fun sh : Fin 15 × Fin 2 => iprop(
        cellInv ER (Rd m) (K (agSendCell c' sh.1 sh.2)) (agSendCell c' sh.1 sh.2) ∗ reached ER (agSendCell c' sh.1 sh.2) 0
        ∗ cellInv ER (Rd m) (K (agRecvCell c' sh.1 sh.2)) (agRecvCell c' sh.1 sh.2) ∗ reached ER (agRecvCell c' sh.1 sh.2) 0)))

instance records_persistent (K : GSem nD τ sig → ℕ) : BI.Persistent (records m K) := by unfold records; infer_instance

def positions (c : Dev nD) : sProp 𝕄 :=
  iprop((bigSep Finset.univ fun jh : Fin 3 × Fin 2 => iprop(atPos ER (rsSendCell c jh.1 jh.2) 0 ∅ 0 ∗ atPos ER (rsRecvCell c jh.1 jh.2) 0 ∅ 0))
    ∗ (bigSep Finset.univ fun sh : Fin 15 × Fin 2 => iprop(atPos ER (agSendCell c sh.1 sh.2) 0 ∅ 0 ∗ atPos ER (agRecvCell c sh.1 sh.2) 0 ∅ 0)))

def dmaToks (c : Dev nD) : sProp 𝕄 :=
  iprop((bigSep Finset.univ fun jh : Fin 3 × Fin 2 => iprop(dutyTok ER (rsSendCell c jh.1 jh.2) 0 0
            ∗ dutyTok ER (rsRecvCell (zp c (1 + jh.1.val)) jh.1 jh.2) 0 0))
    ∗ (bigSep Finset.univ fun sh : Fin 15 × Fin 2 => iprop(dutyTok ER (agSendCell c sh.1 sh.2) 0 0
            ∗ dutyTok ER (agRecvCell (agT c sh.1) sh.1 sh.2) 0 0)))

def barToks (c : Dev nD) : sProp 𝕄 :=
  iprop(payTok ER (barCell (zp c 1)) 0 ∗ payTok ER (barCell (zp c 2)) 1 ∗ payTok ER (barCell (zp c 3)) 2
    ∗ payTok ER (barCell (xyp c 0 1)) 3 ∗ payTok ER (barCell (xyp c 1 0)) 4 ∗ payTok ER (barCell (xyp c 1 1)) 5
    ∗ (bigSep Finset.univ fun d : Fin 6 => ownTok ER (barCell c) d)
    ∗ phA ER (barCell c) 0 ∗ phA ER (barCell c) 1)

def ghost (K : GSem nD τ sig → ℕ) (c : Dev nD) : sProp 𝕄 :=
  iprop(records m K ∗ positions c ∗ dmaToks c ∗ barToks c)

def creds (c : Dev nD) : sProp 𝕄 :=
  iprop(cred (tallyAt (barCell c) (0 : Fin 2) 48) ∗ cred (tallyAt (barCell c) (1 : Fin 2) 3)
    ∗ (bigSep Finset.univ fun jh : Fin 3 × Fin 2 => cred (tallyAt (rsRecvCell c jh.1 jh.2) (0 : Fin 2) Nrs))
    ∗ (bigSep Finset.univ fun sh : Fin 15 × Fin 2 => cred (tallyAt (agRecvCell c sh.1 sh.2) (0 : Fin 2) Nag)))

def start (c : Dev nD) : sProp 𝕄 :=
  iprop((∃ K, ghost m K c) ∗ creds c ∗ levAts L lv)

def scratchAny (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def semsZero (c : Dev nD) : sProp 𝕄 :=
  iprop((bigSep Finset.univ fun jh : Fin 3 × Fin 2 => iprop(semVal (rsSendCell c jh.1 jh.2) 0 ∗ semVal (rsRecvCell c jh.1 jh.2) 0))
    ∗ (bigSep Finset.univ fun sh : Fin 15 × Fin 2 => iprop(semVal (agSendCell c sh.1 sh.2) 0 ∗ semVal (agRecvCell c sh.1 sh.2) 0)))

def Φ₀ (c : Dev nD) : sProp 𝕄 := iprop(start m c ∗ scratchAny c)
def Φ₁ (c : Dev nD) : sProp 𝕄 := iprop(scratchAny c ∗ semsZero c)

def dats (_ : Fin 1) (c : Dev nD) : Dat τ (Elt F) (Fin 2) ℕ UU ℕ cfg0 c where
  A w := m ((cfg0.win w).arr.view.loc (c : Thread nD τ))
  after w _ := match w with
    | ⟨0, _⟩ => xblk m c
    | ⟨1, _⟩ => outVal m
  Φ t := match t with
    | ⟨0, _⟩ => Φ₀ m c
    | ⟨_ + 1, _⟩ => Φ₁ c
  q _ := fullShare
  owed t := match t with
    | ⟨0, _⟩ => Orem c 42
    | ⟨_ + 1, _⟩ => 0

end Cert.KernelIdeal.Hand

end
-- ==== Proof.HandKernelIdeal.Tables.lean ====
import proofs.«900721_g7700000000000722_dist_ar_v7x_xyz2x2x4_z_m512_n512_f32_1_alg».proof.Proof.HandKernelIdeal.Sched

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ)

variable (c : Dev nD) (j : Fin 3) (s : Fin 15) (h : Fin 2) (d : Fin 6)

theorem duties_rsSend : (Rd (F := F) m).duties (rsSendCell c j h) 0 = {0} := by
  dsimp only [Rd]; exact if_pos ⟨rfl, rfl, by rw [kindOf_rsSend]; exact nofun⟩
theorem amount_rsSend : (Rd (F := F) m).amount (rsSendCell c j h) 0 d = Nrs := by
  dsimp only [Rd]; rw [kindOf_rsSend]
theorem expect_rsSend : (Rd (F := F) m).expect (rsSendCell c j h) 0 = Nrs := by
  unfold Schedule.expect Schedule.amountOf; rw [duties_rsSend, Finset.sum_singleton, amount_rsSend]
theorem payload_rsSend : (Rd (F := F) m).payload (rsSendCell c j h) 0 d = rsSendPay m c j h := by
  dsimp only [Rd]; rw [kindOf_rsSend]
theorem rest_rsSend :
    bigSep ((Rd (F := F) m).duties (rsSendCell c j h) 0 \ ∅) (fun d => (Rd (F := F) m).payload (rsSendCell c j h) 0 d) = rsSendPay m c j h := by
  rw [Finset.sdiff_empty, duties_rsSend, bigSep_singleton, payload_rsSend]
theorem mem_rsSend : (0 : Fin 6) ∈ (Rd (F := F) m).duties (rsSendCell c j h) 0 := by
  rw [duties_rsSend]; exact Finset.mem_singleton_self _

theorem duties_rsRecv : (Rd (F := F) m).duties (rsRecvCell c j h) 0 = {0} := by
  dsimp only [Rd]; exact if_pos ⟨rfl, rfl, by rw [kindOf_rsRecv]; exact nofun⟩
theorem amount_rsRecv : (Rd (F := F) m).amount (rsRecvCell c j h) 0 d = Nrs := by
  dsimp only [Rd]; rw [kindOf_rsRecv]
theorem expect_rsRecv : (Rd (F := F) m).expect (rsRecvCell c j h) 0 = Nrs := by
  unfold Schedule.expect Schedule.amountOf; rw [duties_rsRecv, Finset.sum_singleton, amount_rsRecv]
theorem payload_rsRecv : (Rd (F := F) m).payload (rsRecvCell c j h) 0 d = rsRecvPay m c j h := by
  dsimp only [Rd]; rw [kindOf_rsRecv]
theorem rest_rsRecv :
    bigSep ((Rd (F := F) m).duties (rsRecvCell c j h) 0 \ ∅) (fun d => (Rd (F := F) m).payload (rsRecvCell c j h) 0 d) = rsRecvPay m c j h := by
  rw [Finset.sdiff_empty, duties_rsRecv, bigSep_singleton, payload_rsRecv]
theorem mem_rsRecv : (0 : Fin 6) ∈ (Rd (F := F) m).duties (rsRecvCell c j h) 0 := by
  rw [duties_rsRecv]; exact Finset.mem_singleton_self _

theorem duties_agSend : (Rd (F := F) m).duties (agSendCell c s h) 0 = {0} := by
  dsimp only [Rd]; exact if_pos ⟨rfl, rfl, by rw [kindOf_agSend]; exact nofun⟩
theorem amount_agSend : (Rd (F := F) m).amount (agSendCell c s h) 0 d = Nag := by
  dsimp only [Rd]; rw [kindOf_agSend]
theorem expect_agSend : (Rd (F := F) m).expect (agSendCell c s h) 0 = Nag := by
  unfold Schedule.expect Schedule.amountOf; rw [duties_agSend, Finset.sum_singleton, amount_agSend]
theorem payload_agSend : (Rd (F := F) m).payload (agSendCell c s h) 0 d = agSendPay m c s h := by
  dsimp only [Rd]; rw [kindOf_agSend]
theorem rest_agSend :
    bigSep ((Rd (F := F) m).duties (agSendCell c s h) 0 \ ∅) (fun d => (Rd (F := F) m).payload (agSendCell c s h) 0 d) = agSendPay m c s h := by
  rw [Finset.sdiff_empty, duties_agSend, bigSep_singleton, payload_agSend]
theorem mem_agSend : (0 : Fin 6) ∈ (Rd (F := F) m).duties (agSendCell c s h) 0 := by
  rw [duties_agSend]; exact Finset.mem_singleton_self _

theorem duties_agRecv : (Rd (F := F) m).duties (agRecvCell c s h) 0 = {0} := by
  dsimp only [Rd]; exact if_pos ⟨rfl, rfl, by rw [kindOf_agRecv]; exact nofun⟩
theorem amount_agRecv : (Rd (F := F) m).amount (agRecvCell c s h) 0 d = Nag := by
  dsimp only [Rd]; rw [kindOf_agRecv]
theorem expect_agRecv : (Rd (F := F) m).expect (agRecvCell c s h) 0 = Nag := by
  unfold Schedule.expect Schedule.amountOf; rw [duties_agRecv, Finset.sum_singleton, amount_agRecv]
theorem payload_agRecv : (Rd (F := F) m).payload (agRecvCell c s h) 0 d = agRecvPay m c s h := by
  dsimp only [Rd]; rw [kindOf_agRecv]
theorem rest_agRecv :
    bigSep ((Rd (F := F) m).duties (agRecvCell c s h) 0 \ ∅) (fun d => (Rd (F := F) m).payload (agRecvCell c s h) 0 d) = agRecvPay m c s h := by
  rw [Finset.sdiff_empty, duties_agRecv, bigSep_singleton, payload_agRecv]
theorem mem_agRecv : (0 : Fin 6) ∈ (Rd (F := F) m).duties (agRecvCell c s h) 0 := by
  rw [duties_agRecv]; exact Finset.mem_singleton_self _

theorem duties_later (g : GSem nD τ sig) : ∀ r, 1 ≤ r → (Rd (F := F) m).duties g r = ∅ := fun r hr => by
  rcases g with ⟨t, sm⟩
  cases sm with
  | dma q => dsimp only [Rd]; exact if_neg fun h => by omega
  | reg s => rfl

instance Rd_payload_storable (g : GSem nD τ sig) (r : ℕ) (d : Fin 6) :
    BI.Storable (upEmb : UEmb _ 𝕄) ((Rd (F := F) m).payload g r d) := by
  rcases g with ⟨t, sm⟩
  cases sm with
  | dma q =>
    dsimp only [Rd]
    unfold rsSendPay rsRecvPay agSendPay agRecvPay
    (repeat' split) <;> infer_instance
  | reg s => dsimp only [Rd]; infer_instance

theorem not_unitless (g : GSem nD τ sig) : ¬ (Rd (F := F) m).unitless g := fun h => h

abbrev osem : Fin 72 → SemLoc sig := fun i => .dma ⟨i.val + 2, by have := i.isLt; show i.val + 2 < 74; omega⟩

theorem ownSemFacts : Pipeline.OwnSemFacts cfg0.spec osem := by decide

abbrev kcell (ck : Dev nD × Fin 72) : GSem nD τ sig := ((ck.1 : Thread nD τ), osem ck.2)

theorem kcell_injective : Function.Injective (kcell : Dev nD × Fin 72 → GSem nD τ sig) := by
  rintro ⟨c, k⟩ ⟨c', k'⟩ h
  have h1 : c = c' := congrArg (fun g : GSem nD τ sig => g.1.1) h
  have h3 : k.val + 2 = k'.val + 2 := congrArg Fin.val (SemLoc.dma.inj (congrArg Prod.snd h))
  rw [h1, Fin.ext (Nat.add_right_cancel h3)]

theorem osem_rsSend : osem ⟨2 * j.val + h.val, by omega⟩ = .dma (rsSendS j h) := by revert j h; decide
theorem osem_rsRecv : osem ⟨6 + 2 * j.val + h.val, by omega⟩ = .dma (rsRecvS j h) := by revert j h; decide
theorem osem_agSend : osem ⟨12 + 2 * s.val + h.val, by omega⟩ = .dma (agSendS s h) := by revert s h; decide
theorem osem_agRecv : osem ⟨42 + 2 * s.val + h.val, by omega⟩ = .dma (agRecvS s h) := by revert s h; decide

end Cert.KernelIdeal.Hand

end
-- ==== Proof.HandKernelIdeal.BodyDefs.lean ====
import proofs.«900721_g7700000000000722_dist_ar_v7x_xyz2x2x4_z_m512_n512_f32_1_alg».proof.Proof.HandKernelIdeal.Ghost
import proofs.«900721_g7700000000000722_dist_ar_v7x_xyz2x2x4_z_m512_n512_f32_1_alg».proof.Proof.HandKernelIdeal.Tables

noncomputable section

namespace Cert.KernelIdeal.Hand

open Cert.KernelIdeal.Gen
open Idealize.ShloMosaic Idealize.ShloMosaic.TcCoe
open Idealize.SL.RA Idealize.SL.BI
open Idealize.SL.BI.BIBase

variable {F : FTy → Type} [FloatOps F]

local notation "𝕄" => MT nD τ sig (Fin 2) (Elt F) ℕ UU ℕ

variable (m : (ℓ : Loc nD τ sig) → Buf (Elt F) ℓ)

abbrev 𝒱₀ : Variants := Variants.none

def t₀ : Fin cfg0.N := ⟨0, by decide⟩
theorem fin_N (t : Fin cfg0.N) : t = t₀ := by revert t; decide

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost m K c ∗ creds c ∗ levAts L lv ∗ scratchAny c)
    ∗ (dats m 0 c).owesAt (0 : Fin 2) t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt (0 : Fin 2) t₀.succ ∗ stg c cc0_stg0_0 (xblk m c) ∗ stg c cc0_stg1_0 (outVal m))

end Cert.KernelIdeal.Hand

end
-- ==== Proof.HandKernelIdeal.Levels.lean ====
import proofs.«900721_g7700000000000722_dist_ar_v7x_xyz2x2x4_z_m512_n512_f32_1_alg».proof.Proof.HandKernelIdeal.Ghost
import Mathlib.Algebra.Order.BigOperators.Group.LocallyFinite

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (m : (ℓ : Loc nD τ sig) → Buf (Elt F) ℓ)

theorem L_of_ne (g : GSem nD τ sig) (h : g.1.2 ≠ .tc) : L g = ∅ := if_neg h
theorem L_tc (c : Dev nD) (sm : SemLoc sig) : L ((c : Thread nD τ), sm) = Finset.univ := if_pos rfl
theorem mem_L {g : GSem nD τ sig} (h : g.1.2 = .tc) (u : Fin 2) : u ∈ L g := by
  unfold L; rw [if_pos h]; exact Finset.mem_univ u

theorem lv_bar0 (c : Dev nD) : lv (barCell c) 0 = 1 := rfl
theorem lv_bar1 (c : Dev nD) : lv (barCell c) 1 = 2 := rfl
theorem lv_rsRecv (c : Dev nD) (j : Fin 3) (h : Fin 2) (u : Fin 2) : lv (rsRecvCell c j h) u = 3 := by
  dsimp only [lv]; rw [kindOf_rsRecv]
theorem lv_agRecv (c : Dev nD) (s : Fin 15) (h : Fin 2) (u : Fin 2) : lv (agRecvCell c s h) u = 4 := by
  dsimp only [lv]; rw [kindOf_agRecv]
theorem lv_stage (t : Thread nD τ) (q : DmaSem sig) (hq : q.val < 2) (u : Fin 2) : lv (t, .dma q) u = 0 := by
  dsimp only [lv]; unfold kindOf
  rw [dif_neg (by omega), dif_neg (by omega), dif_neg (by omega), dif_neg (by omega)]

theorem Orem_pos {c : Dev nD} {k : ℕ} {g : GSem nD τ sig} {u : Fin 2} (h : 0 < Orem c k g u) :
    ∃ n, 42 - k ≤ n ∧ n < 42 ∧ 0 < pay c n g u := by
  induction k with
  | zero => exact absurd h (Nat.lt_irrefl 0)
  | succ k ih =>
    rw [Orem_succ] at h
    rcases Pipeline.add_pos_cases h with h | h
    · obtain ⟨n, h1, h2, h3⟩ := ih h
      exact ⟨n, by omega, h2, h3⟩
    · exact ⟨41 - k, by omega, by omega, h⟩

theorem pay_pos_cases {c : Dev nD} {n : ℕ} {g : GSem nD τ sig} {u : Fin 2} (h : 0 < pay c n g u) :
    g.1.2 = .tc ∧ 1 ≤ lv g u ∧ (3 ≤ n → 2 ≤ lv g u) ∧ (6 ≤ n → 3 ≤ lv g u) ∧ (12 ≤ n → lv g u = 4) := by
  unfold pay at h
  repeat' split at h
  all_goals first
    | exact absurd h (Nat.lt_irrefl 0)
    | obtain ⟨rfl, rfl⟩ := Pipeline.tallyAt_pos h
      refine ⟨rfl, ?_, fun _ => ?_, fun _ => ?_, fun _ => ?_⟩ <;>
        first | omega | (simp only [lv_bar0, lv_bar1, lv_rsRecv, lv_agRecv] <;> decide)

theorem Orem_lv {c : Dev nD} {k : ℕ} {g : GSem nD τ sig} {u : Fin 2} (h : 0 < Orem c k g u) :
    u ∈ L g ∧ 1 ≤ lv g u ∧ (k ≤ 39 → 2 ≤ lv g u) ∧ (k ≤ 36 → 3 ≤ lv g u) ∧ (k ≤ 30 → lv g u = 4) := by
  obtain ⟨n, h1, h2, h3⟩ := Orem_pos h
  obtain ⟨p0, p1, p2, p3, p4⟩ := pay_pos_cases h3
  exact ⟨mem_L p0 u, p1, fun hk => p2 (by omega), fun hk => p3 (by omega), fun hk => p4 (by omega)⟩

-- a wait sits below everything still owed
theorem mayWait_lt (c : Dev nD) (sm : SemLoc sig) (u : Fin 2) {k : ℕ}
    (h : ∀ g i, 0 < Orem c k g i → lv ((c : Thread nD τ), sm) u < lv g i) :
    (levAts L lv : sProp 𝕄) ⊢ MayWait (c : Thread nD τ) sm u (Orem c k) :=
  Pipeline.mayWait_of_levAts (by rw [L_tc]; exact Finset.mem_univ _) fun g i hg => ⟨(Orem_lv hg).1, h g i hg⟩

theorem mayWait_stage (c : Dev nD) (q : DmaSem sig) (hq : q.val < 2) (O : CellTallies nD τ sig (Fin 2))
    (hO : O = Orem c 42 ∨ O = 0) : (levAts L lv : sProp 𝕄) ⊢ MayWait (c : Thread nD τ) (.dma q) 0 O := by
  rcases hO with rfl | rfl
  · exact mayWait_lt c _ 0 fun g i hg => by rw [lv_stage _ q hq]; exact (Orem_lv hg).2.1
  · rw [MayWait_zero]; iintro -; iempintro

theorem mayWait_bar48 (c : Dev nD) : (levAts L lv : sProp 𝕄) ⊢ MayWait (c : Thread nD τ) (.reg barS) 0 (Orem c 39) :=
  mayWait_lt c _ 0 fun g i hg => (Orem_lv hg).2.2.1 (Nat.le_refl _)

theorem mayWait_bar3 (c : Dev nD) : (levAts L lv : sProp 𝕄) ⊢ MayWait (c : Thread nD τ) (.reg barS) 1 (Orem c 30) :=
  mayWait_lt c _ 1 fun g i hg => by
    rw [show lv ((c : Thread nD τ), SemLoc.reg barS) 1 = 2 from rfl, (Orem_lv hg).2.2.2.2 (Nat.le_refl _)]; decide

theorem mayWait_rsRecv (c : Dev nD) (j : Fin 3) (h : Fin 2) (k : ℕ) (hk : k ≤ 30) :
    (levAts L lv : sProp 𝕄) ⊢ MayWait (c : Thread nD τ) (.dma (rsRecvS j h)) 0 (Orem c k) :=
  mayWait_lt c _ 0 fun g i hg => by
    rw [show lv ((c : Thread nD τ), SemLoc.dma (rsRecvS j h)) 0 = 3 from lv_rsRecv c j h 0, (Orem_lv hg).2.2.2.2 hk]; decide

theorem waits (c : Dev nD) : (levAts L lv : sProp 𝕄) ⊢ Pipeline.cellsWaits cfgs (dats m) (0 : Fin 2) 0 c :=
  Pipeline.cellsWaits_intro cfgs (dats m) (0 : Fin 2) 0 c fun w s t =>
    mayWait_stage c _ (by fin_cases w <;> fin_cases s <;> decide) _ (by
      rcases t with ⟨_ | _, ht⟩
      · exact Or.inl rfl
      · exact Or.inr rfl)

def due (c : Dev nD) : CellTallies nD τ sig (Fin 2) :=
  tallyAt (barCell c) 0 48 + (tallyAt (barCell c) 1 3
    + ((∑ jh : Fin 3 × Fin 2, tallyAt (rsRecvCell c jh.1 jh.2) 0 Nrs)
      + ∑ sh : Fin 15 × Fin 2, tallyAt (agRecvCell c sh.1 sh.2) 0 Nag))

def oweZ (d : Dev nD) : CellTallies nD τ sig (Fin 2) := ∑ x : Fin 3, tallyAt (barCell (zp d (x.val + 1))) 0 16
def oweXY (d : Dev nD) : CellTallies nD τ sig (Fin 2) :=
  ∑ x : Fin 3, tallyAt (barCell (xyp d ((x.val + 1) / 2) ((x.val + 1) % 2))) 1 1
def oweRs (d : Dev nD) : CellTallies nD τ sig (Fin 2) :=
  ∑ jh : Fin 3 × Fin 2, tallyAt (rsRecvCell (zp d (1 + jh.1.val)) jh.1 jh.2) 0 Nrs
def oweAg (d : Dev nD) : CellTallies nD τ sig (Fin 2) :=
  ∑ sh : Fin 15 × Fin 2, tallyAt (agRecvCell (agT d sh.1) sh.1 sh.2) 0 Nag

theorem Orem_Ico (d : Dev nD) (k : ℕ) (hk : k ≤ 42) : Orem d k = ∑ n ∈ Finset.Ico (42 - k) 42, pay d n := by
  induction k with
  | zero => rw [Finset.Ico_self, Finset.sum_empty]; rfl
  | succ k ih =>
    have e1 : 42 - (k + 1) = 41 - k := by omega
    have e2 : 41 - k + 1 = 42 - k := by omega
    rw [Orem_succ, ih (by omega), e1, Finset.sum_eq_sum_Ico_succ_bot (show 41 - k < 42 by omega) (pay d), e2, add_comm]

theorem sum_halves {n : ℕ} (f : Fin n → Fin 2 → CellTallies nD τ sig (Fin 2)) :
    (∑ p : Fin n × Fin 2, f p.1 p.2) = (∑ x, f x 0) + ∑ x, f x 1 := by
  rw [Fintype.sum_prod_type, ← Finset.sum_add_distrib]
  exact Finset.sum_congr rfl fun x _ => Fin.sum_univ_two _

theorem Orem_split (d : Dev nD) : Orem d 42 = oweZ d + (oweXY d + (oweRs d + oweAg d)) := by
  rw [Orem_Ico d 42 (Nat.le_refl _), Nat.sub_self, ← Finset.range_eq_Ico,
    show Finset.range 42 = Finset.range (3 + (3 + (3 + (3 + (15 + 15))))) from rfl,
    Finset.sum_range_add, Finset.sum_range_add, Finset.sum_range_add, Finset.sum_range_add, Finset.sum_range_add]
  simp only [Finset.sum_range]
  unfold oweZ oweXY oweRs oweAg
  rw [sum_halves fun j h => tallyAt (rsRecvCell (zp d (1 + j.val)) j h) 0 Nrs,
    sum_halves fun s h => tallyAt (agRecvCell (agT d s) s h) 0 Nag]
  simp only [add_assoc]
  refine congrArg₂ _ ?_ (congrArg₂ _ ?_ (congrArg₂ _ ?_ (congrArg₂ _ ?_ (congrArg₂ _ ?_ ?_))))
  all_goals exact Finset.sum_congr rfl fun x _ => by fin_cases x <;> rfl

theorem zp_bij : ∀ j : Fin 3, Function.Bijective fun d : Dev nD => zp d (1 + j.val) := by decide +kernel
theorem zp_bij' : ∀ x : Fin 3, Function.Bijective fun d : Dev nD => zp d (x.val + 1) := by decide +kernel
theorem xyp_bij : ∀ x : Fin 3, Function.Bijective fun d : Dev nD => xyp d ((x.val + 1) / 2) ((x.val + 1) % 2) := by
  decide +kernel
theorem agT_bij (s : Fin 15) : Function.Bijective fun d : Dev nD => agT d s :=
  Function.bijective_iff_has_inverse.mpr ⟨fun c => agS c s, fun d => agS_agT d s, fun c => agT_agS c s⟩

theorem sum_translate {α : Type} [Fintype α] (e : α → Dev nD → Dev nD) (he : ∀ a, Function.Bijective (e a))
    (f : α → Dev nD → CellTallies nD τ sig (Fin 2)) : (∑ d, ∑ a, f a (e a d)) = ∑ d, ∑ a, f a d := by
  rw [Finset.sum_comm, Finset.sum_comm (f := fun d a => f a d)]
  exact Finset.sum_congr rfl fun a _ => (he a).sum_comp (f a)

theorem sixteens (g : GSem nD τ sig) : (∑ _x : Fin 3, (tallyAt g 0 16 : CellTallies nD τ sig (Fin 2))) = tallyAt g 0 48 := by
  rw [Fin.sum_univ_three, tallyAt_add, tallyAt_add]
theorem ones (g : GSem nD τ sig) : (∑ _x : Fin 3, (tallyAt g 1 1 : CellTallies nD τ sig (Fin 2))) = tallyAt g 1 3 := by
  rw [Fin.sum_univ_three, tallyAt_add, tallyAt_add]

theorem sum_Orem : (∑ d : Dev nD, Orem d 42) = ∑ d : Dev nD, due d := by
  rw [Finset.sum_congr rfl fun d _ => Orem_split d]
  unfold due oweZ oweXY oweRs oweAg
  simp only [Finset.sum_add_distrib]
  rw [sum_translate _ zp_bij' fun _ d => tallyAt (barCell d) 0 16, sum_translate _ xyp_bij fun _ d => tallyAt (barCell d) 1 1,
    sum_translate _ (fun jh => zp_bij jh.1) fun (jh : Fin 3 × Fin 2) d => tallyAt (rsRecvCell d jh.1 jh.2) 0 Nrs,
    sum_translate _ (fun sh => agT_bij sh.1) fun (sh : Fin 15 × Fin 2) d => tallyAt (agRecvCell d sh.1 sh.2) 0 Nag,
    Finset.sum_congr rfl fun d _ => sixteens (barCell d), Finset.sum_congr rfl fun d _ => ones (barCell d)]

theorem due_own (d : Dev nD) (g : GSem nD τ sig) (h : due d g ≠ 0) : g.1 = (d : Thread nD τ) := by
  by_contra hne
  have off (sm : SemLoc sig) (ι : Fin 2) (k : ℕ) : (tallyAt (((d : Thread nD τ), sm) : GSem nD τ sig) ι k : CellTallies nD τ sig (Fin 2)) g = 0 :=
    tallyAt_ne_cell (fun e => hne (congrArg Prod.fst e)) ι k
  refine h ?_
  unfold due
  simp only [Pi.add_apply, Finset.sum_apply, off, Finset.sum_const_zero, add_zero]

theorem cred_due (c : Dev nD) : (cred (due c) : sProp 𝕄) ⊢ creds c := by
  unfold due creds
  refine (cred_add _ _).1.trans (sep_mono_right ?_)
  refine (cred_add _ _).1.trans (sep_mono_right ?_)
  refine (cred_add _ _).1.trans ?_
  rw [Pipeline.cred_finsetSum, Pipeline.cred_finsetSum]

theorem creds_intro (c : Dev nD) : (Pipeline.launchCred (fun c => Orem c 42) c : sProp 𝕄) ⊢ creds c := by
  rw [Pipeline.launchCred_of_sum (fun c => Orem c 42) due sum_Orem due_own c]
  exact cred_due c

end Cert.KernelIdeal.Hand

end
-- ==== Proof.HandKernelIdeal.FinalOut.lean ====
import proofs.«900721_g7700000000000722_dist_ar_v7x_xyz2x2x4_z_m512_n512_f32_1_alg».proof.Proof.HandKernelIdeal.Ghost

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

theorem arrAt_out (c : Dev nD) : (dats m 0 c).arrAt (1 : Fin 2) cfg0.N = (fun i => outVal m i) := by
  have h := (dats m 0 c).arrAt_succ (1 : Fin 2) (⟨0, Nat.zero_lt_one⟩ : Fin cfg0.N)
  rw [if_pos (flush0_1 _)] at h
  exact h.trans (Memref.write_access_unit_zero_univ (Elt F) main_v1 (funext fun _ => Nat.zero_mul _) _ _ _)

end Cert.KernelIdeal.Hand

end
-- ==== Proof.HandKernelIdeal.Launch.lean ====
import proofs.«900721_g7700000000000722_dist_ar_v7x_xyz2x2x4_z_m512_n512_f32_1_alg».proof.Proof.HandKernelIdeal.BodyDefs
import proofs.«900721_g7700000000000722_dist_ar_v7x_xyz2x2x4_z_m512_n512_f32_1_alg».proof.Proof.HandKernelIdeal.Levels
import proofs.«900721_g7700000000000722_dist_ar_v7x_xyz2x2x4_z_m512_n512_f32_1_alg».proof.Proof.HandKernelIdeal.FinalOut

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.BarrierCell

variable {F : FTy → Type} [FloatOps F]

local notation "𝕄" => MT nD τ sig (Fin 2) (Elt F) ℕ UU ℕ

variable (m : (ℓ : Loc nD τ sig) → Buf (Elt F) ℓ)

def cells : Finset (GSem nD τ sig) := Finset.univ.map ⟨kcell, kcell_injective⟩

abbrev TokIx : Type := Fin 72 ⊕ (Fin 4 × Fin 6)

abbrev tokOf (x : Dev nD × TokIx) : GSem nD τ sig × ℕ × Fin 6 := match x.2 with
  | .inl i => (kcell (x.1, i), 0, 0)
  | .inr rd => (barCell x.1, rd.1.val, rd.2)

theorem tokOf_injective : Function.Injective (tokOf : Dev nD × TokIx → GSem nD τ sig × ℕ × Fin 6) := by
  rintro ⟨c, i | ⟨r, d⟩⟩ ⟨c', i' | ⟨r', d'⟩⟩ h
  · obtain ⟨rfl, rfl⟩ := Prod.mk.inj (kcell_injective (congrArg Prod.fst h : kcell (c, i) = kcell (c', i')))
    rfl
  · exact absurd (congrArg (·.1.2) h) (fun h' => by cases h')
  · exact absurd (congrArg (·.1.2) h) (fun h' => by cases h')
  · obtain rfl : c = c' := congrArg (·.1.1.1) h
    obtain rfl : r = r' := Fin.ext (congrArg (·.2.1) h)
    obtain rfl : d = d' := congrArg (·.2.2) h
    rfl

def toks : Finset (GSem nD τ sig × ℕ × Fin 6) := Finset.univ.map ⟨tokOf, tokOf_injective⟩

def u₀ : UU :=
  (initOf (Pipeline.cells cfgs cellOf_inj) (Pipeline.launchToks cfgs cellOf_inj), initOf cells toks)

def G (c : Dev nD) : sProp 𝕄 :=
  iprop((bigSep Finset.univ fun i : Fin 72 => roundState ER (Rd m) (kcell (c, i)) 0)
    ∗ (bigSep Finset.univ fun i : Fin 72 => iprop(atPos ER (kcell (c, i)) 0 ∅ 0 ∗ reached ER (kcell (c, i)) 0))
    ∗ (bigSep Finset.univ fun i : Fin 72 => dutyTok ER (kcell (c, i)) 0 0)
    ∗ (bigSep Finset.univ fun rd : Fin 4 × Fin 6 => dutyTok ER (barCell c) rd.1.val rd.2))

def G' (c : Dev nD) : sProp 𝕄 := iprop(∃ K, ghost m K c)

theorem cells_eq (Φ : GSem nD τ sig → sProp 𝕄) :
    bigSep cells Φ = bigSep Finset.univ fun c : Dev nD => bigSep Finset.univ fun i : Fin 72 => Φ (kcell (c, i)) := by
  unfold cells; rw [bigSep_map, bigSep_univ_prod]; rfl

theorem toks_eq : bigSep toks (fun x => (dutyTok ER x.1 x.2.1 x.2.2 : sProp 𝕄))
    = iprop((bigSep Finset.univ fun c : Dev nD => bigSep Finset.univ fun i : Fin 72 => dutyTok ER (kcell (c, i)) 0 0)
        ∗ (bigSep Finset.univ fun c : Dev nD => bigSep Finset.univ fun rd : Fin 4 × Fin 6 => dutyTok ER (barCell c) rd.1.val rd.2)) := by
  unfold toks; rw [bigSep_map, bigSep_univ_prod, ← bigSep_sep']
  exact bigSep_congr fun c _ => bigSep_univ_sum _

theorem fund : BI.own (ER (initOf cells toks)) ⊢ (|==> bigSep Finset.univ (G m) : sProp 𝕄) := by
  iintro HX
  imod (Rounds.fund ER (Rd m) cells toks) $$ HX with ⟨Hst, Hr, Hat, Htok⟩
  imodintro
  ihave Hst' := (Entails.of_eq (cells_eq _)) $$ Hst
  ihave Hat' := (Entails.of_eq (cells_eq _)) $$ Hat
  ihave Hr' := (Entails.of_eq (cells_eq _)) $$ Hr
  icases (Entails.of_eq toks_eq) $$ Htok with ⟨Ht1, Ht2⟩
  unfold G; simp only [bigSep_sep']
  iframe

abbrev Fam : Type := (Fin 3 × Fin 2) ⊕ (Fin 3 × Fin 2) ⊕ (Fin 15 × Fin 2) ⊕ (Fin 15 × Fin 2)

def famIx : Fam → Fin 72
  | .inl jh => ⟨2 * jh.1.val + jh.2.val, by omega⟩
  | .inr (.inl jh) => ⟨6 + 2 * jh.1.val + jh.2.val, by omega⟩
  | .inr (.inr (.inl sh)) => ⟨12 + 2 * sh.1.val + sh.2.val, by omega⟩
  | .inr (.inr (.inr sh)) => ⟨42 + 2 * sh.1.val + sh.2.val, by omega⟩

def famEquiv : Fam ≃ Fin 72 := Equiv.ofBijective famIx (by decide)

theorem split72 (c : Dev nD) (Φ : GSem nD τ sig → sProp 𝕄) :
    (bigSep Finset.univ fun i : Fin 72 => Φ (kcell (c, i)))
      = iprop((bigSep Finset.univ fun jh : Fin 3 × Fin 2 => iprop(Φ (rsSendCell c jh.1 jh.2) ∗ Φ (rsRecvCell c jh.1 jh.2)))
          ∗ (bigSep Finset.univ fun sh : Fin 15 × Fin 2 => iprop(Φ (agSendCell c sh.1 sh.2) ∗ Φ (agRecvCell c sh.1 sh.2)))) := by
  rw [bigSep_univ_equiv famEquiv (fun i : Fin 72 => Φ (kcell (c, i))), bigSep_univ_sum, bigSep_univ_sum, bigSep_univ_sum,
    bigSep_sep', bigSep_sep']
  simp only [famEquiv, Equiv.ofBijective_apply, famIx, kcell, osem_rsSend, osem_rsRecv, osem_agSend, osem_agRecv]
  exact BI.equiv_iff.mp ⟨BI.sep_assoc', BI.sep_assoc⟩

/-- each `x`'s summands sent round the devices by the permutation `e x` -/
theorem around {β : Type} [Fintype β] (e : β → Dev nD → Dev nD) (he : ∀ x, Function.Bijective (e x)) (Φ : Dev nD → β → sProp 𝕄) :
    (bigSep Finset.univ fun c => bigSep Finset.univ fun x => Φ c x) = bigSep Finset.univ fun c => bigSep Finset.univ fun x => Φ (e x c) x := by
  rw [bigSep_univ_comm Φ, bigSep_univ_comm fun c x => Φ (e x c) x]
  exact bigSep_congr fun x _ => bigSep_univ_equiv (Equiv.ofBijective _ (he x)) fun c => Φ c x

theorem dma_around : (bigSep Finset.univ fun c : Dev nD => bigSep Finset.univ fun i : Fin 72 => (dutyTok ER (kcell (c, i)) 0 0 : sProp 𝕄))
    ⊢ bigSep Finset.univ fun c : Dev nD => dmaToks c := by
  unfold dmaToks
  rw [bigSep_congr (s := Finset.univ) (fun (c : Dev nD) _ => split72 c (fun g => (dutyTok ER g 0 0 : sProp 𝕄)))]
  simp only [bigSep_sep']
  rw [around (fun (jh : Fin 3 × Fin 2) c => zp c (1 + jh.1.val)) (fun jh => zp_bij jh.1) fun c jh => (dutyTok ER (rsRecvCell c jh.1 jh.2) 0 0 : sProp 𝕄),
    around (fun (sh : Fin 15 × Fin 2) c => agT c sh.1) (fun sh => agT_bij sh.1) fun c sh => (dutyTok ER (agRecvCell c sh.1 sh.2) 0 0 : sProp 𝕄)]

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

theorem bar_around : (bigSep Finset.univ fun c : Dev nD => bigSep Finset.univ fun d : Fin 6 => (payTok ER (barCell c) d : sProp 𝕄))
    ⊢ iprop((bigSep Finset.univ fun c : Dev nD => payTok ER (barCell (zp c 1)) 0) ∗ (bigSep Finset.univ fun c : Dev nD => payTok ER (barCell (zp c 2)) 1)
      ∗ (bigSep Finset.univ fun c : Dev nD => payTok ER (barCell (zp c 3)) 2) ∗ (bigSep Finset.univ fun c : Dev nD => payTok ER (barCell (xyp c 0 1)) 3)
      ∗ (bigSep Finset.univ fun c : Dev nD => payTok ER (barCell (xyp c 1 0)) 4) ∗ (bigSep Finset.univ fun c : Dev nD => payTok ER (barCell (xyp c 1 1)) 5)) := by
  rw [around ![fun c => zp c 1, fun c => zp c 2, fun c => zp c 3, fun c => xyp c 0 1, fun c => xyp c 1 0, fun c => xyp c 1 1]
    (by intro d; fin_cases d; exacts [zp_bij' 0, zp_bij' 1, zp_bij' 2, xyp_bij 0, xyp_bij 1, xyp_bij 2])
    fun c d => (payTok ER (barCell c) d : sProp 𝕄)]
  simp only [bigSep_fin6, bigSep_sep']
  exact BI.Entails.refl _

theorem unscopedSems0_eq (c : Dev nD) : (unscopedSems0 c : sProp 𝕄) = semVal (barCell c) 0 := by
  unfold unscopedSems0; rw [bigSep_eq_bigSepL_of_eq [SemLoc.reg barS] (by decide) (by decide)]; rfl

def barMint (c : Dev nD) : sProp 𝕄 :=
  iprop((bigSep Finset.univ fun d : Fin 6 => payTok ER (barCell c) d) ∗ (bigSep Finset.univ fun d : Fin 6 => ownTok ER (barCell c) d)
    ∗ phA ER (barCell c) 0 ∗ phA ER (barCell c) 1)

theorem bar_toks_split (c : Dev nD) :
    (bigSep Finset.univ fun rd : Fin 4 × Fin 6 => (dutyTok ER (barCell c) rd.1.val rd.2 : sProp 𝕄))
      ⊢ iprop(barMint c ∗ phB ER (barCell c) 0 ∗ phB ER (barCell c) 1) := by
  rw [bigSep_univ_prod, bigSep_fin4]
  have e2 (r : ℕ) : (bigSep Finset.univ fun d : Fin 6 => (dutyTok ER (barCell c) r d : sProp 𝕄))
      ⊢ iprop(dutyTok ER (barCell c) r 0 ∗ dutyTok ER (barCell c) r 1) := by
    rw [bigSep_fin6]; iintro ⟨A, B, -⟩; isplitl [A] <;> iassumption
  unfold barMint
  show iprop((bigSep Finset.univ fun d : Fin 6 => (dutyTok ER (barCell c) 0 d : sProp 𝕄)) ∗ (bigSep Finset.univ fun d : Fin 6 => (dutyTok ER (barCell c) 1 d : sProp 𝕄))
      ∗ (bigSep Finset.univ fun d : Fin 6 => (dutyTok ER (barCell c) 2 d : sProp 𝕄)) ∗ (bigSep Finset.univ fun d : Fin 6 => (dutyTok ER (barCell c) 3 d : sProp 𝕄))) ⊢ _
  iintro ⟨H0, H1, H2, H3⟩
  icases (e2 2) $$ H2 with ⟨A0, A1⟩
  icases (e2 3) $$ H3 with ⟨B0, B1⟩
  iframe

/-- a device's state once its invariants are allocated, their names still to be chosen -/
def minted (c : Dev nD) : sProp 𝕄 :=
  iprop((bigSep Finset.univ fun i : Fin 72 => iprop(∃ κ : ℕ, cellInv ER (Rd m) κ (kcell (c, i))))
    ∗ (∃ κ : ℕ, barInv ER κ (barCell c) (barPay (F := F) c))
    ∗ (bigSep Finset.univ fun i : Fin 72 => iprop(atPos ER (kcell (c, i)) 0 ∅ 0 ∗ reached ER (kcell (c, i)) 0))
    ∗ (bigSep Finset.univ fun i : Fin 72 => dutyTok ER (kcell (c, i)) 0 0)
    ∗ barMint c)

theorem core_alloc (c : Dev nD) :
    iprop(Pipeline.ownSems0 (Ix := Fin 2) (Name := ℕ) (U := UU) (Lvl := ℕ) (Val := Elt F) (τ := τ) osem c ∗ unscopedSems0 c ∗ G m c)
      ⊢ |={Set.univ}=> minted m c := by
  unfold G Pipeline.ownSems0 minted
  rw [unscopedSems0_eq]
  iintro ⟨Hos, Hus, Hst, Hat, Htd, Htb⟩
  icases (bar_toks_split (F := F) c) $$ Htb with ⟨Hmint, HB⟩
  imod (show iprop((bigSep Finset.univ fun i : Fin 72 => semVal (kcell (c, i)) 0) ∗ bigSep Finset.univ fun i : Fin 72 => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hos Hst] with Hinv
  · iframe
  imod (bar_alloc ER (pay := barPay (F := F) c) (g := barCell c) (Es := Set.univ)) $$ [Hus HB] with Hbar
  · iframe
  imodintro
  iframe

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem records_intro (K : GSem nD τ sig → ℕ) :
    iprop((bigSep Finset.univ fun c : Dev nD => barInv ER (K (barCell c)) (barCell c) (barPay (F := F) c))
        ∗ (bigSep Finset.univ fun c : Dev nD => bigSep Finset.univ fun i : Fin 72 => cellInv ER (Rd m) (K (kcell (c, i))) (kcell (c, i)))
        ∗ (bigSep Finset.univ fun c : Dev nD => bigSep Finset.univ fun i : Fin 72 => reached ER (kcell (c, i)) 0))
      ⊢ records m K := by
  unfold records
  rw [← bigSep_sep', ← bigSep_sep']
  refine bigSep_mono fun c _ => ?_
  rw [← bigSep_sep', split72 c (fun g => iprop(cellInv ER (Rd m) (K g) g ∗ reached ER g 0))]
  exact BI.sep_mono_r (BI.sep_mono (bigSep_mono fun _ _ => BI.sep_assoc) (bigSep_mono fun _ _ => BI.sep_assoc))

theorem ghost_intro (K : GSem nD τ sig → ℕ) (c : Dev nD) : iprop(records m K ∗ positions c ∗ dmaToks c ∗ barToks c) ⊢ G' m c := by
  unfold G' ghost
  iintro ⟨HR, HL⟩
  iexists K
  iframe

theorem positions_all : (bigSep Finset.univ fun c : Dev nD => bigSep Finset.univ fun i : Fin 72 => (atPos ER (kcell (c, i)) 0 ∅ 0 : sProp 𝕄))
    ⊢ bigSep Finset.univ fun c : Dev nD => positions c :=
  bigSep_mono fun c _ => by unfold positions; rw [split72 c (fun g => (atPos ER g 0 ∅ 0 : sProp 𝕄))]; exact BI.Entails.refl _

theorem barToks_intro :
    (bigSep Finset.univ fun c : Dev nD => (barMint c : sProp 𝕄)) ⊢ bigSep Finset.univ fun c : Dev nD => barToks c := by
  unfold barMint barToks
  simp only [bigSep_sep']
  iintro ⟨Hp, Ho, HA0, HA1⟩
  icases (bar_around (F := F)) $$ Hp with ⟨P0, P1, P2, P3, P4, P5⟩
  iframe

theorem regroup :
    bigSep Finset.univ (minted m) ⊢ bigSep Finset.univ (G' m) := by
  unfold minted
  rw [bigSep_sep', bigSep_sep', bigSep_sep', bigSep_sep',
    ← cells_eq (fun g => iprop(∃ κ : ℕ, cellInv ER (Rd m) κ g)),
    bigSep_congr (s := Finset.univ) (fun (c : Dev nD) _ => bigSep_sep' Finset.univ (fun i : Fin 72 => (atPos ER (kcell (c, i)) 0 ∅ 0 : sProp 𝕄)) (fun i => reached ER (kcell (c, i)) 0)),
    bigSep_sep']
  iintro ⟨HI1, HI2, ⟨Hat, #HR⟩, Htd, Hmint⟩
  icases (BI.bigSep_exists_pi cells (fun (g : GSem nD τ sig) (κ : ℕ) => (cellInv ER (Rd m) κ g : sProp 𝕄))) $$ HI1 with ⟨%K1, #HI1⟩
  icases (BI.bigSep_exists_pi Finset.univ (fun (c : Dev nD) (κ : ℕ) => (barInv ER κ (barCell c) (barPay (F := F) c) : sProp 𝕄))) $$ HI2 with ⟨%K2, #HI2⟩
  obtain ⟨K, hK1, hK2⟩ : ∃ K : GSem nD τ sig → ℕ, (∀ c i, K (kcell (c, i)) = K1 (kcell (c, i))) ∧ ∀ c : Dev nD, K (barCell c) = K2 c :=
    ⟨fun g => match g.2 with | .reg _ => K2 g.1.1 | .dma _ => K1 g, fun _ _ => rfl, fun _ => rfl⟩
  ihave Htd' := (dma_around (F := F)) $$ Htd
  ihave Hbt := (barToks_intro (F := F)) $$ Hmint
  ihave Hat' := (positions_all (F := F)) $$ Hat
  iapply (bigSep_with_persistent (R := records m K) fun c _ => ghost_intro m K c)
  isplitr
  · iapply (records_intro m K)
    isplitl
    · simp only [hK2]; iexact HI2
    isplitl
    · simp only [hK1]
      iapply (Entails.of_eq (cells_eq (fun g => (cellInv ER (Rd m) (K1 g) g : sProp 𝕄))))
      iexact HI1
    iexact HR
  · simp only [bigSep_sep']
    iframe

theorem glob : (bigSep Finset.univ fun c => iprop(Pipeline.ownSems0 (Ix := Fin 2) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun c => Orem c 42) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, Hr⟩
  iframe

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scratchAny semsZero Pipeline.ownSems0
  iintro ⟨Hr, Hz⟩
  isplitr; · iempintro
  isplitl [Hz]
  · iapply (Entails.of_eq (split72 c (fun g => (semVal g 0 : sProp 𝕄))).symm)
    iexact Hz
  iexact Hr

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Fin 2) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev BodySound : Prop := ∀ (K : GSem nD τ sig → ℕ) (c : Dev nD) (Kt : PUnit → sProp 𝕄), iprop(bodyPre m K c ∗ (bodyPost m c -∗ Kt ⟨⟩))
    ⊢ wp frame (wpE (defs₀ (F := F)) 𝒱₀ c.tc none) Set.univ (bodyAt0 (F := F) t₀) Kt

set_option maxRecDepth 4000 in
def bodyPre' (c : Dev nD) : sProp 𝕄 :=
  iprop(Φ₀ m c ∗ (dats m 0 c).owesAt (0 : Fin 2) t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 32000 in
theorem body_obligation (hbody : BodySound m) (c : Dev nD) : BodyObligation (dats (F := F) m 0 c) (defs₀ (F := F)) 𝒱₀ (0 : Fin 2) Set.univ := fun t => by
  rw [fin_N t]
  rw [bigSep_W0, bigSep_W0]
  simp only [owns_whole_eq]
  show bodyPre' m c ⊢ wp frame (wpE (defs₀ (F := F)) 𝒱₀ c.tc none) Set.univ (bodyAt0 (F := F) t₀) (fun _ => bodyPost m c)
  unfold bodyPre' Φ₀ start
  iintro ⟨⟨⟨⟨%K, Hg⟩, Hcr, Hlev⟩, Hscr⟩, Ho, Hx, Hout⟩
  iapply (hbody K c fun _ => bodyPost m c)
  unfold bodyPre
  iframe
  iintro H; iexact H

def finalA (c : Dev nD) (w : Fin cfg0.W) : Buf (Elt F) ((cfg0.win w).arr.view.loc (c : Thread nD τ)) := (dats m 0 c).arrAt w cfg0.N

set_option maxRecDepth 16000 in
theorem run_main (ρ : Dev nD → PrngReg) (hbody : BodySound m) : θ_run defs (onTc (τ := τ) (main (F := F))) ⟨m, fun _ => 0, ρ⟩
    (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) (0 : Fin 2) cellOf_inj (0 : Fin 1)
    winFacts0.to₀ ownSemFacts (Pipeline.PreFacts.none _) EP defs₀ 𝒱₀ m ρ main
    (hmain := fun _ => rfl)
    (hbody := body_obligation m hbody) (hne := fun w => by fin_cases w <;> exact Nat.succ_pos _) (harr := arr_whole0) (hstage := stage_whole0) (hshare := share_eq m)
    (hdistinct := winFacts0.arr_inj)
    (O₀ := fun c => Orem c 42) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_pair _ _) $$ Hu with ⟨HP, HX⟩
      imod (fund m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      iframe)
    (hQ := fun _ h c w => (h c).1 w)

theorem finalA_x (c : Dev nD) : finalA m c (0 : Fin 2) = m ((c : Thread nD τ).loc main_arg0) :=
  (dats (F := F) m 0 c).arrAt_in (0 : Fin 2) rfl _

theorem finalA_out (c : Dev nD) : finalA m c (1 : Fin 2) = (fun i => outVal m i) := arrAt_out m c

theorem run_values (ρ : Dev nD → PrngReg) (hbody : BodySound m) : θ_run defs (onTc (τ := τ) (main (F := F))) ⟨m, fun _ => 0, ρ⟩
    (fun r => ∀ c : Dev nD, r.2.mem (c.tc.loc main_v1) = outVal m
      ∧ r.2.mem (c.tc.loc main_arg0) = m (c.tc.loc main_arg0)) :=
  (θ_run defs _ _).mono (fun _ h c => ⟨(h c (1 : Fin 2)).trans (finalA_out m c), (h c (0 : Fin 2)).trans (finalA_x m c)⟩) (run_main m ρ hbody)

end Cert.KernelIdeal.Hand

end
-- ==== Proof.HandKernelIdeal.Landing.lean ====
import proofs.«900721_g7700000000000722_dist_ar_v7x_xyz2x2x4_z_m512_n512_f32_1_alg».proof.Proof.HandKernelIdeal.Sched
import Idealize.ShloMosaic.Lib.Pipeline.Value

noncomputable section

namespace Cert.KernelIdeal.Hand

open Cert.KernelIdeal.Gen
open Idealize.ShloMosaic Idealize.ShloMosaic.TcCoe
open Idealize.SL.RA Idealize.SL.BI
open Idealize.SL.BI.BIBase

variable {F : FTy → Type} [FloatOps F]

local notation "𝕄" => MT nD τ sig (Fin 2) (Elt F) ℕ UU ℕ

variable (m : (ℓ : Loc nD τ sig) → Buf (Elt F) ℓ)

theorem rsSlot_emb (j : Fin 3) (h : Fin 2) (y : S64x128.Idx) :
    (((rsSlot j h).view.emb y : (cc0_scratch0 : Ref sig .tc).ty.Idx) 0).val = j.val
    ∧ (((rsSlot j h).view.emb y : (cc0_scratch0 : Ref sig .tc).ty.Idx) 1).val = 64 * h.val + (y 0).val
    ∧ (((rsSlot j h).view.emb y : (cc0_scratch0 : Ref sig .tc).ty.Idx) 2).val = (y 1).val := by
  have e : Shape.reshapeEquiv (s := S1x64x128) (s' := S64x128) squeezes_S1x64x128_S64x128.numel_eq y
      = Fin.cons ⟨0, Nat.one_pos⟩ y := Shape.reshapeEquiv_cons_one _ y
  refine ⟨?_, ?_, ?_⟩ <;>
  · show ((Rect.unit (s := S3x128x128) ![j.val, 64 * h.val, 0] S1x64x128.size (rs_inb j h)).emb
        (Shape.reshapeEquiv (s := S1x64x128) (s' := S64x128) squeezes_S1x64x128_S64x128.numel_eq y) _).val = _
    rw [e, Rect.emb_apply]; simp <;> rfl

theorem rsSrc_emb (c : Dev nD) (j : Fin 3) (h : Fin 2) (y : S64x128.Idx) :
    (((rsSrc c j h).view.emb y : (cc0_stg0_0 : Ref sig .tc).ty.Idx) 0).val = 128 * trow c + 64 * h.val + (y 0).val
    ∧ (((rsSrc c j h).view.emb y : (cc0_stg0_0 : Ref sig .tc).ty.Idx) 1).val
        = 128 * ((cz c + (1 + j.val)) % 4) + (y 1).val := by
  have e := k0_off1_eq c h j
  have e0 : k0_off1 c (BitVec.ofNat 32 (64 * h.val)) (BitVec.ofNat 32 (1 + j.val)) 0
      = 128 * (2 * cx c + cy c) + 64 * h.val := by rw [e]; rfl
  have e1 : k0_off1 c (BitVec.ofNat 32 (64 * h.val)) (BitVec.ofNat 32 (1 + j.val)) 1
      = 128 * ((cz c + (1 + j.val)) % 4) := by rw [e]; rfl
  refine ⟨?_, ?_⟩ <;>
  · show ((Rect.unit (s := S512x512) (k0_off1 c (BitVec.ofNat 32 (64 * h.val)) (BitVec.ofNat 32 (1 + j.val)))
        S64x128.size (k0_off1_inb c h j)).emb y _).val = _
    rw [Rect.emb_apply, Rect.off_unit, Rect.stride_unit]; simp only [trow]; omega

theorem eq_at2 {i : S512x512.Idx} {a b : ℕ} (h0 : (i 0).val = a) (h1 : (i 1).val = b) : i = at2 a b := by
  subst h0 h1
  funext k; apply Fin.ext
  match k with
  | ⟨0, _⟩ => exact (Nat.mod_eq_of_lt (i 0).isLt).symm
  | ⟨1, _⟩ => exact (Nat.mod_eq_of_lt (i 1).isLt).symm

theorem zp_back (p : Dev nD) (j : Fin 3) : zp (zp p (1 + j.val)) (3 - j.val) = p := by
  revert p j; decide +kernel

theorem rs_land (p : Dev nD) (j : Fin 3) (h : Fin 2) (fd : Buf (Elt F) ((rsSlot j h).view.loc ((zp p (1 + j.val) : Dev nD) : Thread nD τ))) :
    (((rsSlot j h).view.loc ((zp p (1 + j.val) : Dev nD) : Thread nD τ)) ↦[(rsSlot j h).view.set]{fullShare} ((rsSlot j h).view.write (Elt F) fd ((rsSrc p j h).view.read (Elt F) (xblk m p)) Finset.univ) : sProp 𝕄) ⊢ rsRecvPay m (zp p (1 + j.val)) j h := by
  unfold rsRecvPay
  refine Entails.of_eq (pointsTo_congr fun i hi => ?_)
  obtain ⟨y, rfl⟩ := View.exists_emb_of_mem_set _ hi
  rw [View.write_emb_of_mem _ _ (Finset.mem_univ y), View.read_apply, cast_cast, cast_eq]
  obtain ⟨e0, e1, e2⟩ := rsSlot_emb j h y
  obtain ⟨s0, s1⟩ := rsSrc_emb p j h y
  unfold rsVal
  rw [e0, e1, e2, zp_back]
  congr 1
  refine eq_at2 ?_ ?_
  · rw [s0]; simp only [trow, cx_zp, cy_zp]; omega
  · rw [s1, cz_zp]

theorem rsSlot_set (j : Fin 3) (h : Fin 2) : (rsSlot j h).view.set
    = (Rect.unit (s := S3x128x128) ![j.val, 64 * h.val, 0] S1x64x128.size (rs_inb j h)).set :=
  (View.set_reshape _ _).trans (View.set_slice_whole cc0_scratch0 _)

theorem mem_rsSlot {j : Fin 3} {h : Fin 2} {i : (cc0_scratch0 : Ref sig .tc).ty.Idx} :
    i ∈ (rsSlot j h).view.set
      ↔ (j.val ≤ (i 0).val ∧ (i 0).val < j.val + 1) ∧ 64 * h.val ≤ (i 1).val ∧ (i 1).val < 64 * h.val + 64 := by
  rw [rsSlot_set, Rect.mem_set_unit]
  exact ⟨fun H => ⟨H 0, H 1⟩, fun H a => match a with
    | ⟨0, _⟩ => H.1 | ⟨1, _⟩ => H.2 | ⟨2, _⟩ => ⟨Nat.zero_le _, (i 2).isLt⟩⟩

theorem read_xOwn (c : Dev nD) (h : Fin 2) : xM.view.readAt (Elt F) (Rect.unit (s := S512x512) (k0_off2 c (BitVec.ofNat 32 (64 * h.val))) S64x128.size (k0_off2_inb c h)).toLoadRect (xblk m c) = xOwnVec m c h := by
  funext x
  rw [View.readAt_apply, View.read_apply, cast_eq]
  show xblk m c ((Rect.unit (s := S512x512) (k0_off2 c (BitVec.ofNat 32 (64 * h.val))) S64x128.size (k0_off2_inb c h)).toLoadRect.idx x) = _
  unfold xOwnVec
  congr 1
  have e := k0_off2_eq' c h
  have e0 : k0_off2 c (BitVec.ofNat 32 (64 * h.val)) 0 = 128 * (2 * cx c + cy c) + 64 * h.val := by rw [e]; rfl
  have e1 : k0_off2 c (BitVec.ofNat 32 (64 * h.val)) 1 = 128 * cz c := by rw [e]; rfl
  refine eq_at2 ?_ ?_
  · rw [LoadRect.idx_apply]; show k0_off2 c (BitVec.ofNat 32 (64 * h.val)) 0 + 1 * (x 0).val = _
    simp only [trow]; omega
  · rw [LoadRect.idx_apply]; show k0_off2 c (BitVec.ofNat 32 (64 * h.val)) 1 + 1 * (x 1).val = _
    omega

theorem read_rs (c : Dev nD) (j : Fin 3) (h : Fin 2) (f : (cc0_scratch0 : Ref sig .tc).ty.Contents (Elt F)) (hf : ∀ i ∈ (rsSlot j h).view.set, f i = rsVal m c i) :
    rsM.view.readAt (Elt F) (Rect.unit (s := S3x128x128) ![j.val, 64 * h.val, 0] S1x64x128.size (rs_inb j h)).toLoadRect f = rsVec m c j h := by
  funext x
  rw [View.readAt_apply, View.read_apply, cast_eq]
  show f ((Rect.unit (s := S3x128x128) ![j.val, 64 * h.val, 0] S1x64x128.size (rs_inb j h)).toLoadRect.idx x) = _
  have hm := (Rect.unit (s := S3x128x128) ![j.val, 64 * h.val, 0] S1x64x128.size (rs_inb j h)).toLoadRect.idx_mem x
  rw [hf _ (by rw [rsSlot_set]; exact hm)]
  unfold rsVec
  congr 1
  have l0 : (x 0).val < 1 := (x 0).isLt
  have l1 : (x 1).val < 64 := (x 1).isLt
  funext k; apply Fin.ext
  match k with
  | ⟨0, _⟩ => show j.val + 1 * (x 0).val = j.val; omega
  | ⟨1, _⟩ => show 64 * h.val + 1 * (x 1).val = (64 * h.val + (x 1).val) % 128; omega
  | ⟨2, _⟩ => show 0 + 1 * (x 2).val = (x 2).val; omega

theorem agSlot_emb (s : Fin 15) (h : Fin 2) (y : S64x128.Idx) :
    (((agSlot s h).view.emb y : (cc0_scratch2 : Ref sig .tc).ty.Idx) 0).val = s.val
    ∧ (((agSlot s h).view.emb y : (cc0_scratch2 : Ref sig .tc).ty.Idx) 1).val = 64 * h.val + (y 0).val
    ∧ (((agSlot s h).view.emb y : (cc0_scratch2 : Ref sig .tc).ty.Idx) 2).val = (y 1).val := by
  have e : Shape.reshapeEquiv (s := S1x64x128) (s' := S64x128) squeezes_S1x64x128_S64x128.numel_eq y
      = Fin.cons ⟨0, Nat.one_pos⟩ y := Shape.reshapeEquiv_cons_one _ y
  refine ⟨?_, ?_, ?_⟩ <;>
  · show ((Rect.unit (s := S15x128x128) ![s.val, 64 * h.val, 0] S1x64x128.size (ag_inb s h)).emb
        (Shape.reshapeEquiv (s := S1x64x128) (s' := S64x128) squeezes_S1x64x128_S64x128.numel_eq y) _).val = _
    rw [e, Rect.emb_apply]; simp <;> rfl

theorem redHalf_emb (h : Fin 2) (y : S64x128.Idx) :
    (((redHalf h).view.emb y : (cc0_scratch1 : Ref sig .tc).ty.Idx) 0).val = 64 * h.val + (y 0).val
    ∧ (((redHalf h).view.emb y : (cc0_scratch1 : Ref sig .tc).ty.Idx) 1).val = (y 1).val := by
  refine ⟨?_, ?_⟩ <;>
  · show ((Rect.unit (s := S128x128) ![64 * h.val, 0] S64x128.size (red_inb h)).emb y _).val = _
    rw [Rect.emb_apply]; simp <;> rfl

theorem eq_at2t {i : S128x128.Idx} {a b : ℕ} (h0 : (i 0).val = a) (h1 : (i 1).val = b) : i = at2t a b := by
  subst h0 h1
  funext k; apply Fin.ext
  match k with
  | ⟨0, _⟩ => exact (Nat.mod_eq_of_lt (i 0).isLt).symm
  | ⟨1, _⟩ => exact (Nat.mod_eq_of_lt (i 1).isLt).symm

theorem agSlot_set (s : Fin 15) (h : Fin 2) : (agSlot s h).view.set
    = (Rect.unit (s := S15x128x128) ![s.val, 64 * h.val, 0] S1x64x128.size (ag_inb s h)).set :=
  (View.set_reshape _ _).trans (View.set_slice_whole cc0_scratch2 _)

theorem redHalf_set (h : Fin 2) : (redHalf h).view.set
    = (Rect.unit (s := S128x128) ![64 * h.val, 0] S64x128.size (red_inb h)).set :=
  View.set_slice_whole cc0_scratch1 _

theorem mem_agSlot {s : Fin 15} {h : Fin 2} {i : (cc0_scratch2 : Ref sig .tc).ty.Idx} :
    i ∈ (agSlot s h).view.set
      ↔ (s.val ≤ (i 0).val ∧ (i 0).val < s.val + 1) ∧ 64 * h.val ≤ (i 1).val ∧ (i 1).val < 64 * h.val + 64 := by
  rw [agSlot_set, Rect.mem_set_unit]
  exact ⟨fun H => ⟨H 0, H 1⟩, fun H a => match a with
    | ⟨0, _⟩ => H.1 | ⟨1, _⟩ => H.2 | ⟨2, _⟩ => ⟨Nat.zero_le _, (i 2).isLt⟩⟩

theorem mem_redHalf {h : Fin 2} {i : (cc0_scratch1 : Ref sig .tc).ty.Idx} :
    i ∈ (redHalf h).view.set ↔ 64 * h.val ≤ (i 0).val ∧ (i 0).val < 64 * h.val + 64 := by
  rw [redHalf_set, Rect.mem_set_unit]
  exact ⟨fun H => H 0, fun H a => match a with
    | ⟨0, _⟩ => H | ⟨1, _⟩ => ⟨Nat.zero_le _, (i 1).isLt⟩⟩

theorem ag_land (p : Dev nD) (s : Fin 15) (h : Fin 2) (fd : Buf (Elt F) ((agSlot s h).view.loc ((agT p s : Dev nD) : Thread nD τ))) (fs : Buf (Elt F) ((redHalf h).view.loc (p : Thread nD τ))) (hfs : ∀ i ∈ (redHalf h).view.set, fs i = redVal m p i) :
    (((agSlot s h).view.loc ((agT p s : Dev nD) : Thread nD τ)) ↦[(agSlot s h).view.set]{fullShare} ((agSlot s h).view.write (Elt F) fd ((redHalf h).view.read (Elt F) fs) Finset.univ) : sProp 𝕄) ⊢ agRecvPay m (agT p s) s h := by
  unfold agRecvPay
  refine Entails.of_eq (pointsTo_congr fun i hi => ?_)
  obtain ⟨y, rfl⟩ := View.exists_emb_of_mem_set _ hi
  rw [View.write_emb_of_mem _ _ (Finset.mem_univ y), View.read_apply, cast_cast, cast_eq,
    hfs _ ((redHalf h).view.emb_mem_set y)]
  obtain ⟨e0, e1, e2⟩ := agSlot_emb s h y
  obtain ⟨r0, r1⟩ := redHalf_emb h y
  unfold agVal
  simp only [e0, e1, e2, Fin.eta, agS_agT]
  congr 1
  exact eq_at2t r0 r1

theorem ag_src_pay (c : Dev nD) (s : Fin 15) (h : Fin 2) (fs : Buf (Elt F) ((redHalf h).view.loc (c : Thread nD τ))) (hfs : ∀ i ∈ (redHalf h).view.set, fs i = redVal m c i) :
    (((redHalf h).view.loc (c : Thread nD τ)) ↦[(redHalf h).view.set]{agShare s} fs : sProp 𝕄) ⊢ agSendPay m c s h := by
  unfold agSendPay
  exact Entails.of_eq (pointsTo_congr hfs)

theorem read_ag (c : Dev nD) (s : Fin 15) (h : Fin 2) (f : (cc0_scratch2 : Ref sig .tc).ty.Contents (Elt F)) (hf : ∀ i ∈ (agSlot s h).view.set, f i = agVal m c i) :
    agM.view.readAt (Elt F) (Rect.unit (s := S15x128x128) ![s.val, 64 * h.val, 0] S1x64x128.size (ag_inb s h)).toLoadRect f = (fun i => agVal m c (fun k => match k with | ⟨0,_⟩ => ⟨s.val, s.isLt⟩ | ⟨1,_⟩ => ⟨(64 * h.val + (i 1).val) % 128, Nat.mod_lt _ (by decide)⟩ | ⟨2,_⟩ => ⟨(i 2).val, (i 2).isLt⟩) : Vec F S1x64x128 .f32) := by
  funext x
  rw [View.readAt_apply, View.read_apply, cast_eq]
  show f ((Rect.unit (s := S15x128x128) ![s.val, 64 * h.val, 0] S1x64x128.size (ag_inb s h)).toLoadRect.idx x) = _
  have hm := (Rect.unit (s := S15x128x128) ![s.val, 64 * h.val, 0] S1x64x128.size (ag_inb s h)).toLoadRect.idx_mem x
  rw [hf _ (by rw [agSlot_set]; exact hm)]
  congr 1
  have l0 : (x 0).val < 1 := (x 0).isLt
  have l1 : (x 1).val < 64 := (x 1).isLt
  funext k; apply Fin.ext
  match k with
  | ⟨0, _⟩ => show s.val + 1 * (x 0).val = s.val; omega
  | ⟨1, _⟩ => show 64 * h.val + 1 * (x 1).val = (64 * h.val + (x 1).val) % 128; omega
  | ⟨2, _⟩ => show 0 + 1 * (x 2).val = (x 2).val; omega

theorem rsSlot_pairwise : ∀ t ∈ (Finset.univ : Finset (Fin 3 × Fin 2)), ∀ t' ∈ (Finset.univ : Finset (Fin 3 × Fin 2)), t ≠ t' →
    Disjoint ((rsSlot t.1 t.2).view.set : Finset (cc0_scratch0 : Ref sig .tc).ty.Idx) (rsSlot t'.1 t'.2).view.set := by
  intro t _ t' _ hne
  refine Finset.disjoint_left.mpr fun i hi hi' => hne ?_
  rw [mem_rsSlot] at hi hi'
  exact Prod.ext (Fin.ext (by omega)) (Fin.ext (by omega))

theorem rsSlot_cover : Finset.biUnion (β := (cc0_scratch0 : Ref sig .tc).ty.Idx) (Finset.univ : Finset (Fin 3 × Fin 2))
    (fun t => (rsSlot t.1 t.2).view.set) = Finset.univ := by
  refine Finset.eq_univ_of_forall fun i => ?_
  have l1 : (i 1).val < 128 := (i 1).isLt
  have hi : i ∈ (rsSlot ⟨(i 0).val, (i 0).isLt⟩ ⟨(i 1).val / 64, Nat.div_lt_of_lt_mul l1⟩).view.set :=
    mem_rsSlot.mpr ⟨⟨le_rfl, Nat.lt_succ_self _⟩, Nat.mul_div_le _ 64, by show _ < 64 * ((i 1).val / 64) + 64; omega⟩
  exact Finset.mem_biUnion.mpr ⟨(_, _), Finset.mem_univ _, hi⟩

theorem agSlot_pairwise : ∀ t ∈ (Finset.univ : Finset (Fin 15 × Fin 2)), ∀ t' ∈ (Finset.univ : Finset (Fin 15 × Fin 2)), t ≠ t' →
    Disjoint ((agSlot t.1 t.2).view.set : Finset (cc0_scratch2 : Ref sig .tc).ty.Idx) (agSlot t'.1 t'.2).view.set := by
  intro t _ t' _ hne
  refine Finset.disjoint_left.mpr fun i hi hi' => hne ?_
  rw [mem_agSlot] at hi hi'
  exact Prod.ext (Fin.ext (by omega)) (Fin.ext (by omega))

theorem agSlot_cover : Finset.biUnion (β := (cc0_scratch2 : Ref sig .tc).ty.Idx) (Finset.univ : Finset (Fin 15 × Fin 2))
    (fun t => (agSlot t.1 t.2).view.set) = Finset.univ := by
  refine Finset.eq_univ_of_forall fun i => ?_
  have l1 : (i 1).val < 128 := (i 1).isLt
  have hi : i ∈ (agSlot ⟨(i 0).val, (i 0).isLt⟩ ⟨(i 1).val / 64, Nat.div_lt_of_lt_mul l1⟩).view.set :=
    mem_agSlot.mpr ⟨⟨le_rfl, Nat.lt_succ_self _⟩, Nat.mul_div_le _ 64, by show _ < 64 * ((i 1).val / 64) + 64; omega⟩
  exact Finset.mem_biUnion.mpr ⟨(_, _), Finset.mem_univ _, hi⟩

theorem redHalf_pairwise : ∀ t ∈ (Finset.univ : Finset (Fin 2)), ∀ t' ∈ (Finset.univ : Finset (Fin 2)), t ≠ t' →
    Disjoint ((redHalf t).view.set : Finset (cc0_scratch1 : Ref sig .tc).ty.Idx) (redHalf t').view.set := by
  intro t _ t' _ hne
  refine Finset.disjoint_left.mpr fun i hi hi' => hne ?_
  rw [mem_redHalf] at hi hi'
  exact Fin.ext (by omega)

theorem redHalf_cover : Finset.biUnion (β := (cc0_scratch1 : Ref sig .tc).ty.Idx) (Finset.univ : Finset (Fin 2))
    (fun t => (redHalf t).view.set) = Finset.univ := by
  refine Finset.eq_univ_of_forall fun i => ?_
  have l0 : (i 0).val < 128 := (i 0).isLt
  have hi : i ∈ (redHalf ⟨(i 0).val / 64, Nat.div_lt_of_lt_mul l0⟩).view.set :=
    mem_redHalf.mpr ⟨Nat.mul_div_le _ 64, by show _ < 64 * ((i 0).val / 64) + 64; omega⟩
  exact Finset.mem_biUnion.mpr ⟨_, Finset.mem_univ _, hi⟩

end Cert.KernelIdeal.Hand

end
-- ==== Proof.HandKernelIdeal.BodyMid.lean ====
import proofs.«900721_g7700000000000722_dist_ar_v7x_xyz2x2x4_z_m512_n512_f32_1_alg».proof.Proof.HandKernelIdeal.BodyDefs
import proofs.«900721_g7700000000000722_dist_ar_v7x_xyz2x2x4_z_m512_n512_f32_1_alg».proof.Proof.HandKernelIdeal.Landing

noncomputable section

namespace Cert.KernelIdeal.Hand

open Cert.KernelIdeal.Gen
open Idealize.ShloMosaic Idealize.ShloMosaic.TcCoe
open Idealize.SL.RA Idealize.SL.BI
open Idealize.SL.BI.BIBase
open Idealize.ShloMosaic.Rounds

variable {F : FTy → Type} [FloatOps F]

local notation "𝕄" => MT nD τ sig (Fin 2) (Elt F) ℕ UU ℕ

variable (m : (ℓ : Loc nD τ sig) → Buf (Elt F) ℓ)

def slotOf (r : Fin 30) : Fin 15 := ⟨r.val % 15, Nat.mod_lt _ (by decide)⟩
def halfOf (r : Fin 30) : Fin 2 := ⟨r.val / 15, by omega⟩

def tileOf (p : Dev nD) (h : Fin 2) : Fin 4 × Fin 4 × Fin 2 :=
  (⟨trow p % 4, Nat.mod_lt _ (by decide)⟩, ⟨cz p % 4, Nat.mod_lt _ (by decide)⟩, h)

def tileRect (t : Fin 4 × Fin 4 × Fin 2) : Rect S512x512 :=
  Rect.unit (s := S512x512) ![128 * t.1.val + 64 * t.2.2.val, 128 * t.2.1.val] S64x128.size (by revert t; decide)

def doneTiles (c : Dev nD) (n : ℕ) : Finset (Fin 4 × Fin 4 × Fin 2) :=
  {tileOf c 0, tileOf c 1} ∪ (Finset.univ.filter fun r : Fin 30 => r.val < n).image fun r => tileOf (agS c (slotOf r)) (halfOf r)

def OutDone (D : Finset (Fin 4 × Fin 4 × Fin 2)) (f : (cc0_stg1_0 : Ref sig .tc).ty.Contents (Elt F)) : Prop :=
  ∀ t ∈ D, ∀ i ∈ (tileRect t).set, f i = outVal m i

def xRestSet (c : Dev nD) : Finset S512x512.Idx :=
  Finset.univ \ (Finset.biUnion (β := S512x512.Idx) (Finset.univ : Finset (Fin 3 × Fin 2)) fun jh => (rsSrc c jh.1 jh.2).view.set)
def xRest (c : Dev nD) : sProp 𝕄 := ((c : Thread nD τ).loc cc0_stg0_0) ↦[xRestSet c]{fullShare} xblk m c

def Smid (c : Dev nD) (nW nS : ℕ) : sProp 𝕄 :=
  iprop((∃ W, owes (c : Thread nD τ) 0 W)
    ∗ xRest m c
    ∗ (bigSep Finset.univ fun jh : Fin 3 × Fin 2 => iprop(rsRecvPay m c jh.1 jh.2 ∗ atPos ER (rsRecvCell c jh.1 jh.2) 1 ∅ 0
          ∗ atPos ER (rsSendCell c jh.1 jh.2) 0 ∅ 0 ∗ cred (tallyAt (rsSendCell c jh.1 jh.2) (0 : Fin 2) Nrs)))
    ∗ (bigSep Finset.univ fun sh : Fin 15 × Fin 2 => iprop(atPos ER (agSendCell c sh.1 sh.2) 0 ∅ 0 ∗ cred (tallyAt (agSendCell c sh.1 sh.2) (0 : Fin 2) Nag)))
    ∗ (bigSep (Finset.univ.filter fun r : Fin 30 => nW ≤ r.val) fun r => iprop(atPos ER (agRecvCell c (slotOf r) (halfOf r)) 0 ∅ 0
          ∗ cred (tallyAt (agRecvCell c (slotOf r) (halfOf r)) (0 : Fin 2) Nag)))
    ∗ (bigSep (Finset.univ.filter fun r : Fin 30 => r.val < nW) fun r => iprop(atPos ER (agRecvCell c (slotOf r) (halfOf r)) 1 ∅ 0
          ∗ agRecvPay m c (slotOf r) (halfOf r)))
    ∗ (∃ f, ⌜OutDone m (doneTiles c nS) f⌝ ∗ (((c : Thread nD τ).loc cc0_stg1_0) ↦{fullShare} f)))

end Cert.KernelIdeal.Hand

end
-- ==== Proof.HandKernelIdeal.SendStates.lean ====
import proofs.«900721_g7700000000000722_dist_ar_v7x_xyz2x2x4_z_m512_n512_f32_1_alg».proof.Proof.HandKernelIdeal.BodyMid

noncomputable section

namespace Cert.KernelIdeal.Hand

open Cert.KernelIdeal.Gen
open Idealize.ShloMosaic Idealize.ShloMosaic.TcCoe
open Idealize.SL.BI
open Idealize.SL.BI.BIBase
open Idealize.ShloMosaic.Rounds

variable {F : FTy → Type} [FloatOps F]

local notation "𝕄" => MT nD τ sig (Fin 2) (Elt F) ℕ UU ℕ

variable (m : (ℓ : Loc nD τ sig) → Buf (Elt F) ℓ)

def jOf (n : Fin 6) : Fin 3 := ⟨n.val % 3, Nat.mod_lt _ (by decide)⟩
def hOf (n : Fin 6) : Fin 2 := ⟨n.val / 3, by omega⟩

def SrsSend (c : Dev nD) (k : ℕ) : sProp 𝕄 :=
  iprop((∃ W, owes (c : Thread nD τ) (Orem c (36 - k)) W)
    ∗ (bigSep (Finset.univ.filter fun n : Fin 6 => k ≤ n.val) fun n => iprop(rsSendPay m c (jOf n) (hOf n)
          ∗ rsSlotAny (zp c (1 + (jOf n).val)) (jOf n) (hOf n)
          ∗ dutyTok ER (rsSendCell c (jOf n) (hOf n)) 0 0 ∗ dutyTok ER (rsRecvCell (zp c (1 + (jOf n).val)) (jOf n) (hOf n)) 0 0))
    ∗ (bigSep (Finset.univ.filter fun n : Fin 6 => n.val < k) fun n => cred (tallyAt (rsSendCell c (jOf n) (hOf n)) (0 : Fin 2) Nrs)))

def SagSend (c : Dev nD) (h : Fin 2) (fs : Buf (Elt F) ((redHalf h).view.loc (c : Thread nD τ))) (k : ℕ) : sProp 𝕄 :=
  iprop((∃ W, owes (c : Thread nD τ) (Orem c (30 - 15 * h.val - k)) W)
    ∗ (bigSep (Finset.univ.filter fun s : Fin 15 => k ≤ s.val) fun s => iprop((((redHalf h).view.loc (c : Thread nD τ)) ↦[(redHalf h).view.set]{agShare s} fs)
          ∗ agSlotAny (agT c s) s h
          ∗ dutyTok ER (agSendCell c s h) 0 0 ∗ dutyTok ER (agRecvCell (agT c s) s h) 0 0))
    ∗ (bigSep (Finset.univ.filter fun s : Fin 15 => s.val < k) fun s => cred (tallyAt (agSendCell c s h) (0 : Fin 2) Nag)))

end Cert.KernelIdeal.Hand

end
-- ==== Proof.LibCount.lean ====
import Idealize.ShloMosaic.Lib.Rounds

namespace Cert.Lib.Count

open Idealize.SL Idealize.SL.RA Idealize.SL.BI
open scoped Idealize.SL.BI
open Idealize.SL.BI.BIBase Idealize.SL.BI.Laws

variable {N : ℕ} (n : Fin N)

theorem filter_ge_erase :
    (Finset.univ.filter fun x : Fin N => n.val ≤ x.val).erase n = Finset.univ.filter fun x : Fin N => n.val + 1 ≤ x.val := by
  ext x
  simp only [Finset.mem_erase, Finset.mem_filter, Finset.mem_univ, true_and, ne_eq, Fin.ext_iff]
  omega

theorem filter_lt_succ :
    (Finset.univ.filter fun x : Fin N => x.val < n.val + 1) = insert n (Finset.univ.filter fun x : Fin N => x.val < n.val) := by
  ext x
  simp only [Finset.mem_insert, Finset.mem_filter, Finset.mem_univ, true_and, Fin.ext_iff]
  omega

variable {M : Type} [URA M] (Φ : Fin N → sProp M)

/-- Of the items from `n` on, item `n` stands apart from those after it. -/
theorem pick_ge :
    bigSep (Finset.univ.filter fun x : Fin N => n.val ≤ x.val) Φ ⊢ iprop(Φ n ∗ bigSep (Finset.univ.filter fun x : Fin N => n.val + 1 ≤ x.val) Φ) := by
  rw [← filter_ge_erase]; exact Entails.of_eq (bigSep_erase (by simp))

/-- Item `n` joins the items before it. -/
theorem unpick_lt :
    iprop(Φ n ∗ bigSep (Finset.univ.filter fun x : Fin N => x.val < n.val) Φ) ⊢ bigSep (Finset.univ.filter fun x : Fin N => x.val < n.val + 1) Φ := by
  rw [filter_lt_succ]; exact Entails.of_eq (bigSep_insert (by simp)).symm

variable {I : Type} [DecidableEq I] {s : Finset I} {i : I}

/-- One item of many, the rest dropped. -/
theorem bigSep_take (hi : i ∈ s) (Ψ : I → sProp M) : bigSep s Ψ ⊢ Ψ i :=
  bigSep_elim hi

end Cert.Lib.Count
-- ==== Proof.HandKernelIdeal.Regions.lean ====
import proofs.«900721_g7700000000000722_dist_ar_v7x_xyz2x2x4_z_m512_n512_f32_1_alg».proof.Proof.HandKernelIdeal.BodyMid
import proofs.«900721_g7700000000000722_dist_ar_v7x_xyz2x2x4_z_m512_n512_f32_1_alg».proof.Proof.HandKernelIdeal.Value
import Idealize.ShloMosaic.Lib.Pipeline.Value
import Idealize.ShloMosaic.Lib.Writes
import proofs.«900721_g7700000000000722_dist_ar_v7x_xyz2x2x4_z_m512_n512_f32_1_alg».proof.Proof.LibCount

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Cert.Lib.Count

variable {F : FTy → Type} [FloatOps F]

local notation "𝕄" => MT nD τ sig (Fin 2) (Elt F) ℕ UU ℕ

variable (m : (ℓ : Loc nD τ sig) → Buf (Elt F) ℓ)

theorem rsSrc_set (c : Dev nD) (j : Fin 3) (h : Fin 2) : (rsSrc c j h).view.set
    = (Rect.unit (s := S512x512) (k0_off1 c (BitVec.ofNat 32 (64 * h.val)) (BitVec.ofNat 32 (1 + j.val))) S64x128.size (k0_off1_inb c h j)).set :=
  View.set_slice_whole cc0_stg0_0 _

theorem mem_rsSrc {c : Dev nD} {j : Fin 3} {h : Fin 2} {i : (cc0_stg0_0 : Ref sig .tc).ty.Idx} :
    i ∈ (rsSrc c j h).view.set ↔
      (128 * trow c + 64 * h.val ≤ (i 0).val ∧ (i 0).val < 128 * trow c + 64 * h.val + 64)
      ∧ (128 * ((cz c + (1 + j.val)) % 4) ≤ (i 1).val ∧ (i 1).val < 128 * ((cz c + (1 + j.val)) % 4) + 128) := by
  rw [rsSrc_set, Rect.mem_set_unit, k0_off1_eq c h j, Fin.forall_fin_two]
  exact Iff.rfl

theorem rsSrc_disjoint (c : Dev nD) {j j' : Fin 3} {h h' : Fin 2} (hne : (j, h) ≠ (j', h')) :
    Disjoint (rsSrc c j h).view.set ((rsSrc c j' h').view.set : Finset (cc0_stg0_0 : Ref sig .tc).ty.Idx) := by
  rw [Finset.disjoint_left]
  intro i hi hi'
  rw [mem_rsSrc] at hi hi'
  apply hne
  have l : h.val < 2 := h.isLt
  have l' : h'.val < 2 := h'.isLt
  have lj : j.val < 3 := j.isLt
  have lj' : j'.val < 3 := j'.isLt
  have hj : j = j' := Fin.ext (by omega)
  have hh : h = h' := Fin.ext (by omega)
  rw [hj, hh]

theorem x_split (c : Dev nD) :
    (((c : Thread nD τ).loc cc0_stg0_0) ↦{fullShare} xblk m c : sProp 𝕄)
      ⊣⊢ iprop(xRest m c ∗ bigSep Finset.univ fun jh : Fin 3 × Fin 2 => rsSendPay m c jh.1 jh.2) := by
  have h1 : (((c : Thread nD τ).loc cc0_stg0_0) ↦{fullShare} xblk m c : sProp 𝕄)
      ⊣⊢ iprop((((c : Thread nD τ).loc cc0_stg0_0) ↦[Finset.biUnion (β := S512x512.Idx) (Finset.univ : Finset (Fin 3 × Fin 2)) fun jh => (rsSrc c jh.1 jh.2).view.set]{fullShare} xblk m c)
        ∗ xRest m c) :=
    pointsTo_split_subset (Finset.subset_univ _)
  rw [pointsTo_biUnion _ _ fun t _ t' _ hne => rsSrc_disjoint c hne] at h1
  exact ⟨h1.1.trans sep_comm.1, sep_comm.1.trans h1.2⟩

theorem xOwn_sub (c : Dev nD) (h : Fin 2) :
    xM.view.setOn (Rect.unit (s := S512x512) (k0_off2 c (BitVec.ofNat 32 (64 * h.val))) S64x128.size (k0_off2_inb c h)).toLoadRect.set
      ⊆ xRestSet c := by
  intro i hi
  change i ∈ Finset.map (View.whole cc0_stg0_0).emb _ at hi
  rw [View.emb_whole, Finset.map_refl] at hi
  have h1 := Rect.mem_set_unit.mp hi 1
  rw [k0_off2_eq' c h] at h1
  change 128 * cz c ≤ (i 1).val ∧ (i 1).val < 128 * cz c + 128 at h1
  refine Finset.mem_sdiff.mpr ⟨Finset.mem_univ _, fun hmem => ?_⟩
  obtain ⟨jh, _, hjh⟩ := Finset.mem_biUnion.mp hmem
  rw [mem_rsSrc] at hjh
  have lz : cz c < 4 := cz_lt c
  have lj : jh.1.val < 3 := jh.1.isLt
  omega

section tiles
variable (c : Dev nD) (b : Ref sig .tc) {T : Type} [Fintype T] (K : T → Finset (Idx ((c : Thread nD τ).loc b)))
  (hd : ∀ t ∈ Finset.univ, ∀ t' ∈ Finset.univ, t ≠ t' → Disjoint (K t) (K t')) (hc : Finset.univ.biUnion K = Finset.univ)
include hd hc

-- a buffer held whole is its tiles, when these are pairwise disjoint and cover it
theorem tiles_eq (f : Buf (Elt F) ((c : Thread nD τ).loc b)) :
    (((c : Thread nD τ).loc b) ↦{fullShare} f : sProp 𝕄) = bigSep Finset.univ fun t => (((c : Thread nD τ).loc b) ↦[K t]{fullShare} f) := by
  rw [← pointsTo_biUnion _ _ hd, hc]

theorem split_any : (iprop(∃ f, ((c : Thread nD τ).loc b) ↦{fullShare} f) : sProp 𝕄)
    ⊢ bigSep Finset.univ fun t => iprop(∃ f, ((c : Thread nD τ).loc b) ↦[K t]{fullShare} f) :=
  exists_elim fun f => by
    rw [tiles_eq c b K hd hc f]
    exact bigSep_mono fun t _ => exists_intro (Φ := fun f => (((c : Thread nD τ).loc b) ↦[K t]{fullShare} f : sProp 𝕄)) f

theorem join_any (f : Buf (Elt F) ((c : Thread nD τ).loc b)) :
    (bigSep Finset.univ fun t => (((c : Thread nD τ).loc b) ↦[K t]{fullShare} f) : sProp 𝕄) ⊢ iprop(∃ f, ((c : Thread nD τ).loc b) ↦{fullShare} f) :=
  (Entails.of_eq (tiles_eq c b K hd hc f).symm).trans (exists_intro (Φ := fun f => (((c : Thread nD τ).loc b) ↦{fullShare} f : sProp 𝕄)) f)

end tiles

def redHalfAny (c : Dev nD) (h : Fin 2) : sProp 𝕄 :=
  iprop(∃ f, ((redHalf h).view.loc (c : Thread nD τ)) ↦[(redHalf h).view.set]{fullShare} f)

theorem red_split (c : Dev nD) :
    (iprop(∃ f, ((c : Thread nD τ).loc cc0_scratch1) ↦{fullShare} f) : sProp 𝕄)
      ⊢ iprop(redHalfAny c 0 ∗ redHalfAny c 1) :=
  (split_any c cc0_scratch1 _ redHalf_pairwise redHalf_cover).trans (Entails.of_eq (bigSep_univ_two _))

theorem fin_all {N : ℕ} : (Finset.univ.filter fun n : Fin N => 0 ≤ n.val) = Finset.univ := Finset.filter_true_of_mem fun _ _ => Nat.zero_le _
theorem fin_none {N : ℕ} : (Finset.univ.filter fun n : Fin N => n.val < 0) = ∅ := Finset.filter_false_of_mem fun _ _ => Nat.not_lt_zero _
theorem fin_all' {N : ℕ} : (Finset.univ.filter fun n : Fin N => n.val < N) = Finset.univ := Finset.filter_true_of_mem fun n _ => n.isLt

-- share n is the left half of what n halvings leave; the last share is all that is left
theorem shares_from {ℓ : Loc nD τ sig} (I : Finset (Idx ℓ)) (f : Buf (Elt F) ℓ) :
    ∀ (d n : ℕ), n + d = 14 →
      (ℓ ↦[I]{rightPow n} f : sProp 𝕄) = bigSep (Finset.univ.filter fun s : Fin 15 => n ≤ s.val) fun s => (ℓ ↦[I]{agShare s} f) := by
  intro d
  induction d with
  | zero =>
    intro n hn
    obtain rfl : n = 14 := by omega
    rw [show (Finset.univ.filter fun s : Fin 15 => 14 ≤ s.val) = {14} by decide, bigSep_singleton]
    rfl
  | succ d ih =>
    intro n hn
    have hlt : n < 15 := by omega
    have hsh : (ℓ ↦[I]{rightPow n} f : sProp 𝕄) ⊣⊢ iprop((ℓ ↦[I]{(rightPow n).left} f) ∗ ℓ ↦[I]{(rightPow n).right} f) :=
      pointsTo_share (PosShare.mem_left_op_right (rightPow n))
    rw [bigSep_erase (s := Finset.univ.filter fun s : Fin 15 => n ≤ s.val) (i := ⟨n, hlt⟩)
        (Finset.mem_filter.mpr ⟨Finset.mem_univ _, Nat.le_refl n⟩), filter_ge_erase ⟨n, hlt⟩, ← ih (n + 1) (by omega),
      show agShare ⟨n, hlt⟩ = (rightPow n).left from if_neg (show ¬ n = 14 by omega)]
    exact BI.equiv_iff.mp ⟨hsh.1, hsh.2⟩

theorem red_shares (c : Dev nD) (h : Fin 2) (f : Buf (Elt F) ((redHalf h).view.loc (c : Thread nD τ))) :
    (((redHalf h).view.loc (c : Thread nD τ)) ↦[(redHalf h).view.set]{fullShare} f : sProp 𝕄)
      ⊣⊢ bigSep Finset.univ fun s : Fin 15 => (((redHalf h).view.loc (c : Thread nD τ)) ↦[(redHalf h).view.set]{agShare s} f) := by
  have e := shares_from (F := F) (ℓ := (redHalf h).view.loc (c : Thread nD τ)) (redHalf h).view.set f 14 0 (by omega)
  rw [fin_all] at e
  have e' := BI.equiv_iff.mpr e
  exact ⟨e'.1, e'.2⟩

theorem red_join (c : Dev nD) :
    (bigSep Finset.univ fun sh : Fin 15 × Fin 2 => agSendPay m c sh.1 sh.2 : sProp 𝕄)
      ⊢ (((c : Thread nD τ).loc cc0_scratch1) ↦{fullShare} redVal m c) := by
  rw [tiles_eq c cc0_scratch1 _ redHalf_pairwise redHalf_cover, bigSep_univ_prod, bigSep_univ_comm]
  refine Entails.of_eq (bigSep_congr fun h _ => ?_)
  have hs := red_shares (F := F) c h (redVal m c)
  exact (BI.equiv_iff.mp ⟨hs.1, hs.2⟩).symm

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem rs_split3 (c : Dev nD) :
    (iprop(∃ f, ((c : Thread nD τ).loc cc0_scratch0) ↦{fullShare} f) : sProp 𝕄)
      ⊢ iprop(rsSlabAny c 0 ∗ rsSlabAny c 1 ∗ rsSlabAny c 2) := by
  refine (split_any c cc0_scratch0 _ rsSlot_pairwise rsSlot_cover).trans (Entails.of_eq ?_)
  rw [bigSep_univ_prod, bigSep_fin3]
  simp only [bigSep_univ_two]
  rfl

theorem ag_split15 (c : Dev nD) :
    (iprop(∃ f, ((c : Thread nD τ).loc cc0_scratch2) ↦{fullShare} f) : sProp 𝕄)
      ⊢ iprop(agSlabAny c 0 ∗ agSlabAny c 1 ∗ agSlabAny c 2 ∗ agSlabAny c 3 ∗ agSlabAny c 4 ∗ agSlabAny c 5 ∗ agSlabAny c 6
        ∗ agSlabAny c 7 ∗ agSlabAny c 8 ∗ agSlabAny c 9 ∗ agSlabAny c 10 ∗ agSlabAny c 11 ∗ agSlabAny c 12 ∗ agSlabAny c 13
        ∗ agSlabAny c 14) := by
  refine (split_any c cc0_scratch2 _ agSlot_pairwise agSlot_cover).trans (Entails.of_eq ?_)
  rw [bigSep_univ_prod, bigSep_fin15]
  simp only [bigSep_univ_two]
  rfl

theorem scratch_join (c : Dev nD) :
    iprop((bigSep Finset.univ fun jh : Fin 3 × Fin 2 => rsRecvPay m c jh.1 jh.2)
      ∗ (bigSep Finset.univ fun sh : Fin 15 × Fin 2 => agSendPay m c sh.1 sh.2)
      ∗ (bigSep Finset.univ fun sh : Fin 15 × Fin 2 => agRecvPay m c sh.1 sh.2)) ⊢ (scratchAny c : sProp 𝕄) := by
  unfold scratchAny
  exact BIClass.sep_mono (join_any c cc0_scratch0 _ rsSlot_pairwise rsSlot_cover (rsVal m c))
    (BIClass.sep_mono ((red_join m c).trans (exists_intro (Φ := fun f => (((c : Thread nD τ).loc cc0_scratch1) ↦{fullShare} f : sProp 𝕄)) _))
      (join_any c cc0_scratch2 _ agSlot_pairwise agSlot_cover (agVal m c)))

theorem mem_tileRect {t : Fin 4 × Fin 4 × Fin 2} {i : (cc0_stg1_0 : Ref sig .tc).ty.Idx} :
    i ∈ (tileRect t).set ↔ (128 * t.1.val + 64 * t.2.2.val ≤ (i 0).val ∧ (i 0).val < 128 * t.1.val + 64 * t.2.2.val + 64)
      ∧ (128 * t.2.1.val ≤ (i 1).val ∧ (i 1).val < 128 * t.2.1.val + 128) := by
  unfold tileRect
  rw [Rect.mem_set_unit, Fin.forall_fin_two]
  exact Iff.rfl

theorem at2t_congr {a a' b b' : ℕ} (h0 : a % 128 = a' % 128) (h1 : b % 128 = b' % 128) : at2t a b = at2t a' b' := by
  rw [at2t_mod a b, at2t_mod a' b', h0, h1]

theorem redVal_at_half (c : Dev nD) (h : Fin 2) (y : S64x128.Idx) :
    redVal m c (at2t (64 * h.val + (y 0).val) (y 1).val) = redHalfVal m c h y := by
  have l0 : (y 0).val < 64 := (y 0).isLt
  have l1 : (y 1).val < 128 := (y 1).isLt
  have lh : h.val < 2 := h.isLt
  have eh : (⟨(((at2t (64 * h.val + (y 0).val) (y 1).val) 0).val / 64) % 2, Nat.mod_lt _ (by decide)⟩ : Fin 2) = h := by
    apply Fin.ext
    show ((64 * h.val + (y 0).val) % 128 / 64) % 2 = h.val
    omega
  have ey : at2h ((at2t (64 * h.val + (y 0).val) (y 1).val) 0).val ((at2t (64 * h.val + (y 0).val) (y 1).val) 1).val = y := by
    funext k
    apply Fin.ext
    match k with
    | ⟨0, _⟩ => show (64 * h.val + (y 0).val) % 128 % 64 = (y 0).val; omega
    | ⟨1, _⟩ => show (y 1).val % 128 % 128 = (y 1).val; omega
  unfold redVal
  rw [eh, ey]

theorem OutDone_store (p : Dev nD) (h : Fin 2) (off : Fin 2 → ℕ) (inb : ∀ a, off a + S64x128.size a ≤ S512x512.size a)
    (hoff0 : off 0 = 128 * (2 * cx p + cy p) + 64 * h.val) (hoff1 : off 1 = 128 * cz p)
    (w : S64x128.Idx → Elt F .f32)
    (hw : ∀ y, w y = redVal m p (at2t (64 * h.val + (y 0).val) (y 1).val))
    (D : Finset (Fin 4 × Fin 4 × Fin 2)) (f : (cc0_stg1_0 : Ref sig .tc).ty.Contents (Elt F)) (hD : OutDone m D f) :
    OutDone m (insert (tileOf p h) D)
      ((oM.access (Rect.unit (s := S512x512) off S64x128.size inb)).write (Elt F) f w Finset.univ) := by
  have lx : cx p < 2 := cx_lt p
  have ly : cy p < 2 := cy_lt p
  have lz : cz p < 4 := cz_lt p
  have lh : h.val < 2 := h.isLt
  have hset : (oM.access (Rect.unit (s := S512x512) off S64x128.size inb)).set
      = (Rect.unit (s := S512x512) off S64x128.size inb).set := View.set_slice_whole cc0_stg1_0 _
  intro t ht i hi
  by_cases hm : i ∈ (oM.access (Rect.unit (s := S512x512) off S64x128.size inb)).set
  · obtain ⟨y, rfl⟩ := View.exists_emb_of_mem_set _ hm
    have l0 : (y 0).val < 64 := (y 0).isLt
    have l1 : (y 1).val < 128 := (y 1).isLt
    rw [View.write_emb_of_mem _ _ (Finset.mem_univ y), hw, cast_eq]
    have e0 : (((oM.access (Rect.unit (s := S512x512) off S64x128.size inb)).emb y : (cc0_stg1_0 : Ref sig .tc).ty.Idx) 0).val
        = 128 * (2 * cx p + cy p) + 64 * h.val + (y 0).val := by
      show ((Rect.unit (s := S512x512) off S64x128.size inb).emb y 0).val = _
      rw [Rect.emb_apply, Rect.off_unit, Rect.stride_unit]; omega
    have e1 : (((oM.access (Rect.unit (s := S512x512) off S64x128.size inb)).emb y : (cc0_stg1_0 : Ref sig .tc).ty.Idx) 1).val
        = 128 * cz p + (y 1).val := by
      show ((Rect.unit (s := S512x512) off S64x128.size inb).emb y 1).val = _
      rw [Rect.emb_apply, Rect.off_unit, Rect.stride_unit]; omega
    generalize (oM.access (Rect.unit (s := S512x512) off S64x128.size inb)).emb y = I at e0 e1
    show _ = redVal m (mk ((I 0).val / 256) ((I 0).val / 128) ((I 1).val / 128)) (at2t (I 0).val (I 1).val)
    rw [e0, e1]
    have hp : mk ((128 * (2 * cx p + cy p) + 64 * h.val + (y 0).val) / 256) ((128 * (2 * cx p + cy p) + 64 * h.val + (y 0).val) / 128)
        ((128 * cz p + (y 1).val) / 128) = p := by
      apply ext_coords
      · rw [cx_mk]; omega
      · rw [cy_mk]; omega
      · rw [cz_mk]; omega
    rw [hp]
    congr 1
    exact at2t_congr (by omega) (by omega)
  · rw [View.write_of_not_mem _ _ _ hm]
    rcases Finset.mem_insert.mp ht with rfl | htD
    · exfalso
      apply hm
      rw [hset, Rect.mem_set_unit, Fin.forall_fin_two]
      obtain ⟨⟨a0, a1⟩, b0, b1⟩ := mem_tileRect.mp hi
      simp only [tileOf, trow] at a0 a1 b0 b1
      exact ⟨show off 0 ≤ (i 0).val ∧ (i 0).val < off 0 + 64 by omega, show off 1 ≤ (i 1).val ∧ (i 1).val < off 1 + 128 by omega⟩
    · exact hD t htD i hi

theorem OutDone_store_own (c : Dev nD) (h : Fin 2) (D : Finset (Fin 4 × Fin 4 × Fin 2))
    (f : (cc0_stg1_0 : Ref sig .tc).ty.Contents (Elt F)) (hD : OutDone m D f) :
    OutDone m (insert (tileOf c h) D)
      ((oM.access (Rect.unit (s := S512x512) (k0_off2 c (BitVec.ofNat 32 (64 * h.val))) S64x128.size (k0_off2_inb c h))).write
        (Elt F) f (redHalfVal m c h) Finset.univ) := by
  have e := k0_off2_eq' c h
  exact OutDone_store m c h _ _ (by rw [e]; rfl) (by rw [e]; rfl) _ (fun y => (redVal_at_half m c h y).symm) D f hD

theorem OutDone_store_ag (c : Dev nD) (r : Fin 30) (D : Finset (Fin 4 × Fin 4 × Fin 2))
    (f : (cc0_stg1_0 : Ref sig .tc).ty.Contents (Elt F)) (hD : OutDone m D f) :
    OutDone m (insert (tileOf (agS c (slotOf r)) (halfOf r)) D)
      ((oM.access (Rect.unit (s := S512x512) (k0_off3 c (k0_off3_at r).1 (k0_off3_at r).2.1 (k0_off3_at r).2.2.1 (k0_off3_at r).2.2.2)
          S64x128.size (k0_off3_inb c r))).write
        (Elt F) f (fun i => redVal m (agS c (slotOf r)) (at2t (64 * (halfOf r).val + (i 0).val) (i 1).val)) Finset.univ) := by
  have e := k0_off3_eq_agS c r
  exact OutDone_store m (agS c (slotOf r)) (halfOf r) _ _ (by rw [e]; rfl) (by rw [e]; rfl) _ (fun y => rfl) D f hD

theorem mem_doneTiles_all : ∀ (c : Dev nD) (t : Fin 4 × Fin 4 × Fin 2), t ∈ doneTiles c 30 := by
  decide +kernel

theorem OutDone_all (c : Dev nD) (f : (cc0_stg1_0 : Ref sig .tc).ty.Contents (Elt F)) (h : OutDone m (doneTiles c 30) f) :
    f = outVal m := by
  funext i
  have l0 : (i 0).val < 512 := (i 0).isLt
  have l1 : (i 1).val < 512 := (i 1).isLt
  refine h (⟨(i 0).val / 128, by omega⟩, ⟨(i 1).val / 128, by omega⟩, ⟨(i 0).val % 128 / 64, by omega⟩) (mem_doneTiles_all c _) i ?_
  rw [mem_tileRect]
  refine ⟨⟨?_, ?_⟩, ?_, ?_⟩
  · show 128 * ((i 0).val / 128) + 64 * ((i 0).val % 128 / 64) ≤ (i 0).val; omega
  · show (i 0).val < 128 * ((i 0).val / 128) + 64 * ((i 0).val % 128 / 64) + 64; omega
  · show 128 * ((i 1).val / 128) ≤ (i 1).val; omega
  · show (i 1).val < 128 * ((i 1).val / 128) + 128; omega

theorem OutDone_first_own (c : Dev nD) (g1 : Buf (Elt F) ((c : Thread nD τ).loc cc0_stg1_0)) :
    OutDone m {tileOf c 0} ((Memref.whole cc0_stg1_0 : Memref sig .tc .vmem S512x512 .f32).view.writes (Elt F) g1
      [⟨Rect.unit (s := S512x512) (k0_off2 c 0#32) S64x128.size (k0_off2_inb c 0), redHalfVal m c 0⟩]) := by
  have h := OutDone_store_own m c 0 ∅ g1 fun t ht => absurd ht (Finset.notMem_empty t)
  rw [Finset.insert_empty] at h
  exact h

end Cert.KernelIdeal.Hand

end
-- ==== Proof.HandKernelIdeal.Assemble.lean ====
import proofs.«900721_g7700000000000722_dist_ar_v7x_xyz2x2x4_z_m512_n512_f32_1_alg».proof.Proof.HandKernelIdeal.SendStates
import proofs.«900721_g7700000000000722_dist_ar_v7x_xyz2x2x4_z_m512_n512_f32_1_alg».proof.Proof.HandKernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Cert.Lib.BarrierCell

variable {F : FTy → Type} [FloatOps F]

local notation "𝕄" => MT nD τ sig (Fin 2) (Elt F) ℕ UU ℕ

variable (m : (ℓ : Loc nD τ sig) → Buf (Elt F) ℓ)

omit [FloatOps F] in
theorem z_payload0 (c : Dev nD) :
    (iprop(rsSlabAny c 2 ∗ agSlabAny c 0 ∗ agSlabAny c 4 ∗ agSlabAny c 8 ∗ agSlabAny c 12) : sProp 𝕄) ⊢ barPay (zp c 1) 0 := by
  conv_lhs => rw [← (zp_zp c).1]
  exact .refl

omit [FloatOps F] in
theorem z_payload1 (c : Dev nD) :
    (iprop(rsSlabAny c 1 ∗ agSlabAny c 1 ∗ agSlabAny c 5 ∗ agSlabAny c 9 ∗ agSlabAny c 13) : sProp 𝕄) ⊢ barPay (zp c 2) 1 := by
  conv_lhs => rw [← (zp_zp c).2.1]
  exact .refl

omit [FloatOps F] in
theorem z_payload2 (c : Dev nD) :
    (iprop(rsSlabAny c 0 ∗ agSlabAny c 2 ∗ agSlabAny c 6 ∗ agSlabAny c 10 ∗ agSlabAny c 14) : sProp 𝕄) ⊢ barPay (zp c 3) 2 := by
  conv_lhs => rw [← (zp_zp c).2.2]
  exact .refl

omit [FloatOps F] in
theorem z_open (c : Dev nD) :
    (iprop(barPay c 0 ∗ barPay c 1 ∗ barPay c 2) : sProp 𝕄)
      ⊢ iprop((rsSlabAny (zp c 3) 2 ∗ rsSlabAny (zp c 2) 1 ∗ rsSlabAny (zp c 1) 0)
        ∗ (agSlabAny (zp c 3) 0 ∗ agSlabAny (zp c 2) 1 ∗ agSlabAny (zp c 1) 2)
        ∗ (agSlabAny (zp c 3) 4 ∗ agSlabAny (zp c 2) 5 ∗ agSlabAny (zp c 1) 6)
        ∗ (agSlabAny (zp c 3) 8 ∗ agSlabAny (zp c 2) 9 ∗ agSlabAny (zp c 1) 10)
        ∗ (agSlabAny (zp c 3) 12 ∗ agSlabAny (zp c 2) 13 ∗ agSlabAny (zp c 1) 14)) := by
  show iprop((rsSlabAny (zp c 3) 2 ∗ agSlabAny (zp c 3) 0 ∗ agSlabAny (zp c 3) 4 ∗ agSlabAny (zp c 3) 8 ∗ agSlabAny (zp c 3) 12)
      ∗ (rsSlabAny (zp c 2) 1 ∗ agSlabAny (zp c 2) 1 ∗ agSlabAny (zp c 2) 5 ∗ agSlabAny (zp c 2) 9 ∗ agSlabAny (zp c 2) 13)
      ∗ (rsSlabAny (zp c 1) 0 ∗ agSlabAny (zp c 1) 2 ∗ agSlabAny (zp c 1) 6 ∗ agSlabAny (zp c 1) 10 ∗ agSlabAny (zp c 1) 14)) ⊢ _
  iintro ⟨⟨A1, A2, A3, A4, A5⟩, ⟨B1, B2, B3, B4, B5⟩, ⟨C1, C2, C3, C4, C5⟩⟩
  iframe

omit [FloatOps F] in
theorem xy_payload0 (c : Dev nD) :
    (iprop(agSlabAny c 3 ∗ agSlabAny (zp c 3) 4 ∗ agSlabAny (zp c 2) 5 ∗ agSlabAny (zp c 1) 6) : sProp 𝕄) ⊢ barPay (xyp c 0 1) 3 := by
  conv_lhs => rw [← (xyp_xyp c).1]
  exact .refl

omit [FloatOps F] in
theorem xy_payload1 (c : Dev nD) :
    (iprop(agSlabAny c 7 ∗ agSlabAny (zp c 3) 8 ∗ agSlabAny (zp c 2) 9 ∗ agSlabAny (zp c 1) 10) : sProp 𝕄) ⊢ barPay (xyp c 1 0) 4 := by
  conv_lhs => rw [← (xyp_xyp c).2.1]
  exact .refl

omit [FloatOps F] in
theorem xy_payload2 (c : Dev nD) :
    (iprop(agSlabAny c 11 ∗ agSlabAny (zp c 3) 12 ∗ agSlabAny (zp c 2) 13 ∗ agSlabAny (zp c 1) 14) : sProp 𝕄) ⊢ barPay (xyp c 1 1) 5 := by
  conv_lhs => rw [← (xyp_xyp c).2.2]
  exact .refl

def e6 : Fin 3 × Fin 2 ≃ Fin 6 where
  toFun jh := ⟨3 * jh.2.val + jh.1.val, by omega⟩
  invFun n := (jOf n, hOf n)
  left_inv := by decide
  right_inv := by decide

omit [FloatOps F] in
theorem fin6_prod (Φ : Fin 3 → Fin 2 → sProp 𝕄) :
    (bigSep Finset.univ fun n : Fin 6 => Φ (jOf n) (hOf n)) = bigSep Finset.univ fun jh : Fin 3 × Fin 2 => Φ jh.1 jh.2 :=
  (bigSep_univ_equiv e6.symm fun jh : Fin 3 × Fin 2 => Φ jh.1 jh.2).symm

theorem slots_rs (c : Dev nD) :
    (iprop(rsSlabAny (zp c 3) 2 ∗ rsSlabAny (zp c 2) 1 ∗ rsSlabAny (zp c 1) 0) : sProp 𝕄)
      ⊢ bigSep Finset.univ fun jh : Fin 3 × Fin 2 => rsSlotAny (zp c (1 + jh.1.val)) jh.1 jh.2 := by
  rw [bigSep_univ_prod, bigSep_fin3]
  simp only [bigSep_univ_two]
  unfold rsSlabAny
  show _ ⊢ iprop((rsSlotAny (zp c 1) 0 0 ∗ rsSlotAny (zp c 1) 0 1) ∗ (rsSlotAny (zp c 2) 1 0 ∗ rsSlotAny (zp c 2) 1 1) ∗ (rsSlotAny (zp c 3) 2 0 ∗ rsSlotAny (zp c 3) 2 1))
  iintro ⟨⟨A0, A1⟩, ⟨B0, B1⟩, ⟨C0, C1⟩⟩
  iframe

theorem mk_SrsSend (c : Dev nD) (W : Waits sig (Fin 2)) :
    iprop(owes (c : Thread nD τ) (Orem c 36) W ∗ (((c : Thread nD τ).loc cc0_stg0_0) ↦{fullShare} xblk m c)
        ∗ (rsSlabAny (zp c 3) 2 ∗ rsSlabAny (zp c 2) 1 ∗ rsSlabAny (zp c 1) 0)
        ∗ (bigSep Finset.univ fun jh : Fin 3 × Fin 2 => iprop(dutyTok ER (rsSendCell c jh.1 jh.2) 0 0 ∗ dutyTok ER (rsRecvCell (zp c (1 + jh.1.val)) jh.1 jh.2) 0 0)))
      ⊢ iprop(SrsSend m c 0 ∗ xRest m c) := by
  unfold SrsSend
  rw [fin_all, fin_none, bigSep_empty,
    fin6_prod (fun j h => iprop(rsSendPay m c j h ∗ rsSlotAny (zp c (1 + j.val)) j h
      ∗ dutyTok ER (rsSendCell c j h) 0 0 ∗ dutyTok ER (rsRecvCell (zp c (1 + j.val)) j h) 0 0))]
  simp only [bigSep_sep']
  iintro ⟨HO, Hx, Hsl, HtS, HtR⟩
  icases (x_split m c).1 $$ Hx with ⟨Hrest, Hpay⟩
  ihave Hsl' := (slots_rs (F := F) c) $$ Hsl
  isplitr [Hrest]
  · isplitl [HO]; · iexists W; iexact HO
    isplitr []
    · iframe
    · iempintro
  · iexact Hrest

theorem agT_list : ∀ c : Dev nD,
    agT c 0 = zp c 3 ∧ agT c 1 = zp c 2 ∧ agT c 2 = zp c 1
    ∧ agT c 3 = xyp c 0 1 ∧ agT c 4 = zp (xyp c 0 1) 3 ∧ agT c 5 = zp (xyp c 0 1) 2 ∧ agT c 6 = zp (xyp c 0 1) 1
    ∧ agT c 7 = xyp c 1 0 ∧ agT c 8 = zp (xyp c 1 0) 3 ∧ agT c 9 = zp (xyp c 1 0) 2 ∧ agT c 10 = zp (xyp c 1 0) 1
    ∧ agT c 11 = xyp c 1 1 ∧ agT c 12 = zp (xyp c 1 1) 3 ∧ agT c 13 = zp (xyp c 1 1) 2 ∧ agT c 14 = zp (xyp c 1 1) 1 := by
  decide +kernel

theorem targets (c : Dev nD) :
    (iprop((agSlabAny (zp c 3) 0 ∗ agSlabAny (zp c 2) 1 ∗ agSlabAny (zp c 1) 2) ∗ barPay c 3 ∗ barPay c 4 ∗ barPay c 5) : sProp 𝕄)
      ⊢ bigSep Finset.univ fun sh : Fin 15 × Fin 2 => agSlotAny (agT c sh.1) sh.1 sh.2 := by
  obtain ⟨h0, h1, h2, h3, h4, h5, h6, h7, h8, h9, h10, h11, h12, h13, h14⟩ := agT_list c
  rw [bigSep_univ_prod, bigSep_fin15]
  simp only [bigSep_univ_two]
  rw [h0, h1, h2, h3, h4, h5, h6, h7, h8, h9, h10, h11, h12, h13, h14]
  show iprop((agSlabAny (zp c 3) 0 ∗ agSlabAny (zp c 2) 1 ∗ agSlabAny (zp c 1) 2)
      ∗ (agSlabAny (xyp c 0 1) 3 ∗ agSlabAny (zp (xyp c 0 1) 3) 4 ∗ agSlabAny (zp (xyp c 0 1) 2) 5 ∗ agSlabAny (zp (xyp c 0 1) 1) 6)
      ∗ (agSlabAny (xyp c 1 0) 7 ∗ agSlabAny (zp (xyp c 1 0) 3) 8 ∗ agSlabAny (zp (xyp c 1 0) 2) 9 ∗ agSlabAny (zp (xyp c 1 0) 1) 10)
      ∗ (agSlabAny (xyp c 1 1) 11 ∗ agSlabAny (zp (xyp c 1 1) 3) 12 ∗ agSlabAny (zp (xyp c 1 1) 2) 13 ∗ agSlabAny (zp (xyp c 1 1) 1) 14)) ⊢ _
  unfold agSlabAny
  iintro ⟨⟨⟨A0, A0'⟩, ⟨A1, A1'⟩, ⟨A2, A2'⟩⟩, ⟨⟨B3, B3'⟩, ⟨B4, B4'⟩, ⟨B5, B5'⟩, ⟨B6, B6'⟩⟩, ⟨⟨C7, C7'⟩, ⟨C8, C8'⟩, ⟨C9, C9'⟩, ⟨C10, C10'⟩⟩,
    ⟨⟨D11, D11'⟩, ⟨D12, D12'⟩, ⟨D13, D13'⟩, ⟨D14, D14'⟩⟩⟩
  iframe

omit [FloatOps F] in
theorem halves_eq (Φ : Fin 15 × Fin 2 → sProp 𝕄) :
    (bigSep Finset.univ fun sh : Fin 15 × Fin 2 => Φ sh)
      = iprop((bigSep Finset.univ fun s : Fin 15 => Φ (s, 0)) ∗ (bigSep Finset.univ fun s : Fin 15 => Φ (s, 1))) := by
  rw [bigSep_univ_prod, ← bigSep_sep']
  exact bigSep_congr fun s _ => bigSep_univ_two _

theorem mk_SagSend (c : Dev nD) (h : Fin 2) (fs : Buf (Elt F) ((redHalf h).view.loc (c : Thread nD τ))) (W : Waits sig (Fin 2)) :
    iprop(owes (c : Thread nD τ) (Orem c (30 - 15 * h.val)) W ∗ (((redHalf h).view.loc (c : Thread nD τ)) ↦[(redHalf h).view.set]{fullShare} fs)
        ∗ (bigSep Finset.univ fun s : Fin 15 => agSlotAny (agT c s) s h)
        ∗ (bigSep Finset.univ fun s : Fin 15 => iprop(dutyTok ER (agSendCell c s h) 0 0 ∗ dutyTok ER (agRecvCell (agT c s) s h) 0 0)))
      ⊢ SagSend c h fs 0 := by
  unfold SagSend
  rw [fin_all, fin_none, bigSep_empty]
  simp only [bigSep_sep']
  iintro ⟨HO, Hf, Hsl, HtS, HtR⟩
  ihave Hf' := (red_shares (F := F) c h fs).1 $$ Hf
  isplitl [HO]; · iexists W; iexact HO
  isplitr []
  · iframe
  · iempintro

def e30 : Fin 15 × Fin 2 ≃ Fin 30 where
  toFun sh := ⟨15 * sh.2.val + sh.1.val, by omega⟩
  invFun r := (slotOf r, halfOf r)
  left_inv := by decide
  right_inv := by decide

omit [FloatOps F] in
theorem fin30_prod (Φ : Fin 15 → Fin 2 → sProp 𝕄) :
    (bigSep Finset.univ fun r : Fin 30 => Φ (slotOf r) (halfOf r)) = bigSep Finset.univ fun sh : Fin 15 × Fin 2 => Φ sh.1 sh.2 :=
  (bigSep_univ_equiv e30.symm fun sh : Fin 15 × Fin 2 => Φ sh.1 sh.2).symm

theorem Smid_intro (c : Dev nD) (W : Waits sig (Fin 2)) :
    iprop(owes (c : Thread nD τ) 0 W ∗ xRest m c
      ∗ (bigSep Finset.univ fun jh : Fin 3 × Fin 2 => iprop(rsRecvPay m c jh.1 jh.2 ∗ atPos ER (rsRecvCell c jh.1 jh.2) 1 ∅ 0))
      ∗ (bigSep Finset.univ fun jh : Fin 3 × Fin 2 => atPos ER (rsSendCell c jh.1 jh.2) 0 ∅ 0)
      ∗ (bigSep (Finset.univ.filter fun n : Fin 6 => n.val < 6) fun n => cred (tallyAt (rsSendCell c (jOf n) (hOf n)) (0 : Fin 2) Nrs))
      ∗ (bigSep Finset.univ fun sh : Fin 15 × Fin 2 => iprop(atPos ER (agSendCell c sh.1 sh.2) 0 ∅ 0 ∗ atPos ER (agRecvCell c sh.1 sh.2) 0 ∅ 0))
      ∗ (bigSep (Finset.univ.filter fun s : Fin 15 => s.val < 15) fun s => cred (tallyAt (agSendCell c s 0) (0 : Fin 2) Nag))
      ∗ (bigSep (Finset.univ.filter fun s : Fin 15 => s.val < 15) fun s => cred (tallyAt (agSendCell c s 1) (0 : Fin 2) Nag))
      ∗ (bigSep Finset.univ fun sh : Fin 15 × Fin 2 => cred (tallyAt (agRecvCell c sh.1 sh.2) (0 : Fin 2) Nag))
      ∗ (∃ f, ⌜OutDone m (doneTiles c 0) f⌝ ∗ (((c : Thread nD τ).loc cc0_stg1_0) ↦{fullShare} f)))
      ⊢ Smid m c 0 0 := by
  unfold Smid
  rw [fin_all, fin_none, bigSep_empty, fin_all', fin_all',
    fin6_prod (fun j h => (cred (tallyAt (rsSendCell c j h) (0 : Fin 2) Nrs) : sProp 𝕄)),
    fin30_prod (fun s h => iprop(atPos ER (agRecvCell c s h) 0 ∅ 0 ∗ cred (tallyAt (agRecvCell c s h) (0 : Fin 2) Nag))),
    halves_eq (fun sh => iprop(atPos ER (agSendCell c sh.1 sh.2) 0 ∅ 0 ∗ cred (tallyAt (agSendCell c sh.1 sh.2) (0 : Fin 2) Nag)))]
  simp only [bigSep_sep']
  iintro ⟨HO, Hxr, ⟨Hpay, HatR⟩, HatS, HcS, ⟨HaS, HaR⟩, Hc0, Hc1, HcR, Hout⟩
  icases (Entails.of_eq (halves_eq (fun sh => (atPos ER (agSendCell c sh.1 sh.2) 0 ∅ 0 : sProp 𝕄)))) $$ HaS with ⟨HaS0, HaS1⟩
  isplitl [HO]; · iexists W; iexact HO
  iframe
  iempintro

end Cert.KernelIdeal.Hand

end
-- ==== Proof.HandKernelIdeal.Families.lean ====
import proofs.«900721_g7700000000000722_dist_ar_v7x_xyz2x2x4_z_m512_n512_f32_1_alg».proof.Proof.HandKernelIdeal.BodyDefs
import proofs.«900721_g7700000000000722_dist_ar_v7x_xyz2x2x4_z_m512_n512_f32_1_alg».proof.Proof.HandKernelIdeal.Landing

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ)

theorem redHalf_credit (h : Fin 2) : (redHalf h).view.dmaCredit = Nag := rfl
theorem rsSrc_credit (c : Dev nD) (j : Fin 3) (h : Fin 2) : (rsSrc c j h).view.dmaCredit = Nrs := rfl

section Families
variable (K : GSem nD τ sig → ℕ)

theorem wp_rs_send (c n : Dev nD) (j : Fin 3) (h : Fin 2) (hn : n = zp c (1 + j.val))
    {hsc : (rsSlot j h : Memref sig (Dev.tc n : Thread nD τ).2.kind .vmem S64x128 .f32).view.ref.isScScratch = false}
    {hsrc : (rsSrc c j h).view.WordExact} {hdst : (rsSlot j h : Memref sig .tc .vmem S64x128 .f32).view.WordExact}
    {hsem : DmaTarget.Typed .vmem (.dma (rsRecvS j h)) (.remote (Dev.tc n : Thread nD τ) (rsSlot j h : Memref sig .tc .vmem S64x128 .f32) (.dma (rsSendS j h)) hsc)}
    {α : Type} {Q : α → sProp 𝕄} {k : PUnit → Prog (TpuEff nD τ sig (Elt F) Λ₀ .tc) α}
    (fd : Buf (Elt F) ((rsSlot j h).view.loc ((zp c (1 + j.val) : Dev nD) : Thread nD τ))) (W : Waits sig (Fin 2)) (O : CellTallies nD τ sig (Fin 2)) :
    iprop(cellInv ER (Rd m) (K (rsSendCell c j h)) (rsSendCell c j h) ∗ cellInv ER (Rd m) (K (rsRecvCell (zp c (1 + j.val)) j h)) (rsRecvCell (zp c (1 + j.val)) j h)
        ∗ rsSendPay m c j h ∗ (((rsSlot j h).view.loc ((zp c (1 + j.val) : Dev nD) : Thread nD τ)) ↦[(rsSlot j h).view.set]{fullShare} fd)
        ∗ owes (c : Thread nD τ) (O + tallyAt (rsRecvCell (zp c (1 + j.val)) j h) 0 Nrs) W
        ∗ dutyTok ER (rsSendCell c j h) 0 0 ∗ reached ER (rsSendCell c j h) 0
        ∗ dutyTok ER (rsRecvCell (zp c (1 + j.val)) j h) 0 0 ∗ reached ER (rsRecvCell (zp c (1 + j.val)) j h) 0)
      ⊢ iprop(((cred (tallyAt (rsSendCell c j h) 0 Nrs) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsSrc c j h) (.remote (Dev.tc n : Thread nD τ) (rsSlot j h) (.dma (rsSendS j h)) hsc) (.dma (rsRecvS j h)) hsrc hdst hsem) k) Q) := by
  subst hn
  unfold rsSendPay
  exact Rounds.wp_send_pointsTo 𝒱₀ ER (Rd m) (c : Thread nD τ) none
    (c' := ((zp c (1 + j.val) : Dev nD) : Thread nD τ)) (src := rsSrc c j h) (dst := rsSlot j h)
    (mem_rsSend m c j h) (mem_rsRecv m _ j h) 0 0 Nrs rfl (amount_rsSend m c j h 0) (amount_rsRecv m _ j h 0) O rfl
    (by rw [payload_rsSend]; exact .rfl) (by rw [payload_rsRecv]; exact rs_land m c j h fd)

theorem wp_ag_send (c n : Dev nD) (s : Fin 15) (h : Fin 2) (hn : n = agT c s)
    {hsc : (agSlot s h : Memref sig (Dev.tc n : Thread nD τ).2.kind .vmem S64x128 .f32).view.ref.isScScratch = false}
    {hsrc : (redHalf h : Memref sig .tc .vmem S64x128 .f32).view.WordExact} {hdst : (agSlot s h : Memref sig .tc .vmem S64x128 .f32).view.WordExact}
    {hsem : DmaTarget.Typed .vmem (.dma (agRecvS s h)) (.remote (Dev.tc n : Thread nD τ) (agSlot s h : Memref sig .tc .vmem S64x128 .f32) (.dma (agSendS s h)) hsc)}
    {α : Type} {Q : α → sProp 𝕄} {k : PUnit → Prog (TpuEff nD τ sig (Elt F) Λ₀ .tc) α}
    (fs : Buf (Elt F) ((redHalf h).view.loc (c : Thread nD τ))) (hfs : ∀ i ∈ (redHalf h).view.set, fs i = redVal m c i)
    (fd : Buf (Elt F) ((agSlot s h).view.loc ((agT c s : Dev nD) : Thread nD τ))) (W : Waits sig (Fin 2)) (O : CellTallies nD τ sig (Fin 2)) :
    iprop(cellInv ER (Rd m) (K (agSendCell c s h)) (agSendCell c s h) ∗ cellInv ER (Rd m) (K (agRecvCell (agT c s) s h)) (agRecvCell (agT c s) s h)
        ∗ (((redHalf h).view.loc (c : Thread nD τ)) ↦[(redHalf h).view.set]{agShare s} fs)
        ∗ (((agSlot s h).view.loc ((agT c s : Dev nD) : Thread nD τ)) ↦[(agSlot s h).view.set]{fullShare} fd)
        ∗ owes (c : Thread nD τ) (O + tallyAt (agRecvCell (agT c s) s h) 0 Nag) W
        ∗ dutyTok ER (agSendCell c s h) 0 0 ∗ reached ER (agSendCell c s h) 0
        ∗ dutyTok ER (agRecvCell (agT c s) s h) 0 0 ∗ reached ER (agRecvCell (agT c s) s h) 0)
      ⊢ iprop(((cred (tallyAt (agSendCell c s h) 0 Nag) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (redHalf h) (.remote (Dev.tc n : Thread nD τ) (agSlot s h) (.dma (agSendS s h)) hsc) (.dma (agRecvS s h)) hsrc hdst hsem) k) Q) := by
  subst hn
  exact Rounds.wp_send_pointsTo 𝒱₀ ER (Rd m) (c : Thread nD τ) none
    (c' := ((agT c s : Dev nD) : Thread nD τ)) (src := redHalf h) (dst := agSlot s h)
    (mem_agSend m c s h) (mem_agRecv m _ s h) 0 0 Nag rfl (amount_agSend m c s h 0) (amount_agRecv m _ s h 0) O rfl
    (by rw [payload_agSend]; exact ag_src_pay m c s h fs hfs) (by rw [payload_agRecv]; exact ag_land m c s h fd fs hfs)

/-- A cell whose one round is one transfer's credit: the wait for that credit takes the whole round and hands its owner the round's payload. -/
theorem wp_cell_waitDma2 (c : Dev nD) (sem : DmaSem sig) (N : ℕ) (P : sProp 𝕄)
    (hexp : (Rd m).expect ((c : Thread nD τ), .dma sem) 0 = N)
    (hrest : bigSep ((Rd m).duties ((c : Thread nD τ), .dma sem) 0 \ ∅) (fun d => (Rd m).payload ((c : Thread nD τ), .dma sem) 0 d) = P)
    {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = N)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K ((c : Thread nD τ), .dma sem)) ((c : Thread nD τ), .dma sem) ∗ cred (tallyAt ((c : Thread nD τ), .dma sem) 0 N)
        ∗ owes (c : Thread nD τ) O W ∗ MayWait (c : Thread nD τ) (.dma sem) 0 O ∗ atPos ER ((c : Thread nD τ), .dma sem) 0 ∅ 0)
      ⊢ iprop(((owes (c : Thread nD τ) O (insert (.dma sem, 0) W) ∗ atPos ER ((c : Thread nD τ), .dma sem) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hrest
  iintro H Hk
  iapply (Rounds.wp_wait_rest_token 𝒱₀ ER (Rd m) (c : Thread nD τ) none (κ := K ((c : Thread nD τ), .dma sem))
      (fun Kk => by rw [wpE_waitDma2_eq, hcr]) (Set.mem_univ _) (0 : Fin 2) (R := 0) (m := 0) (T := ∅) (by rw [Nat.zero_add, hexp])) $$ H
  iintro ⟨HO, Hat, -, Hpay⟩
  iapply Hk
  iframe # ∗

theorem wp_rs_recv_waitDma2 (c : Dev nD) (j : Fin 3) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nrs)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (rsRecvCell c j h)) (rsRecvCell c j h) ∗ cred (tallyAt (rsRecvCell c j h) 0 Nrs)
        ∗ owes (c : Thread nD τ) O W ∗ MayWait (c : Thread nD τ) (.dma (rsRecvS j h)) 0 O ∗ atPos ER (rsRecvCell c j h) 0 ∅ 0)
      ⊢ iprop(((owes (c : Thread nD τ) O (insert (.dma (rsRecvS j h), 0) W) ∗ atPos ER (rsRecvCell c j h) 1 ∅ 0 ∗ rsRecvPay m c j h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rsRecvS j h) src dst hsrc hdst) k) Q) :=
  wp_cell_waitDma2 m K c _ Nrs _ (expect_rsRecv m c j h) (rest_rsRecv m c j h) hcr

theorem wp_ag_recv_waitDma2 (c : Dev nD) (s : Fin 15) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (agRecvCell c s h)) (agRecvCell c s h) ∗ cred (tallyAt (agRecvCell c s h) 0 Nag)
        ∗ owes (c : Thread nD τ) O W ∗ MayWait (c : Thread nD τ) (.dma (agRecvS s h)) 0 O ∗ atPos ER (agRecvCell c s h) 0 ∅ 0)
      ⊢ iprop(((owes (c : Thread nD τ) O (insert (.dma (agRecvS s h), 0) W) ∗ atPos ER (agRecvCell c s h) 1 ∅ 0 ∗ agRecvPay m c s h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (agRecvS s h) src dst hsrc hdst) k) Q) :=
  wp_cell_waitDma2 m K c _ Nag _ (expect_agRecv m c s h) (rest_agRecv m c s h) hcr

theorem wp_rs_send_waitDma2 (c : Dev nD) (j : Fin 3) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nrs)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (rsSendCell c j h)) (rsSendCell c j h) ∗ cred (tallyAt (rsSendCell c j h) 0 Nrs)
        ∗ owes (c : Thread nD τ) O W ∗ MayWait (c : Thread nD τ) (.dma (rsSendS j h)) 0 O ∗ atPos ER (rsSendCell c j h) 0 ∅ 0)
      ⊢ iprop(((owes (c : Thread nD τ) O (insert (.dma (rsSendS j h), 0) W) ∗ atPos ER (rsSendCell c j h) 1 ∅ 0 ∗ rsSendPay m c j h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rsSendS j h) src dst hsrc hdst) k) Q) :=
  wp_cell_waitDma2 m K c _ Nrs _ (expect_rsSend m c j h) (rest_rsSend m c j h) hcr

theorem wp_ag_send_waitDma2 (c : Dev nD) (s : Fin 15) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (agSendCell c s h)) (agSendCell c s h) ∗ cred (tallyAt (agSendCell c s h) 0 Nag)
        ∗ owes (c : Thread nD τ) O W ∗ MayWait (c : Thread nD τ) (.dma (agSendS s h)) 0 O ∗ atPos ER (agSendCell c s h) 0 ∅ 0)
      ⊢ iprop(((owes (c : Thread nD τ) O (insert (.dma (agSendS s h), 0) W) ∗ atPos ER (agSendCell c s h) 1 ∅ 0 ∗ agSendPay m c s h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (agSendS s h) src dst hsrc hdst) k) Q) :=
  wp_cell_waitDma2 m K c _ Nag _ (expect_agSend m c s h) (rest_agSend m c s h) hcr

/-- After its one round a cell has no duty left, so its owner closes it with the counter at zero. -/
theorem close_cell (g : GSem nD τ sig) :
    iprop(cellInv ER (Rd m) (K g) g ∗ atPos ER g 1 ∅ 0) ⊢ (|={Set.univ}=> semVal g 0 : sProp 𝕄) :=
  Rounds.cell_close ER (Rd m) (Set.mem_univ (K g)) (not_unitless m _) (R := 1) (duties_later m g)

theorem close_rsSend (c : Dev nD) (j : Fin 3) (h : Fin 2) :
    iprop(cellInv ER (Rd m) (K (rsSendCell c j h)) (rsSendCell c j h) ∗ atPos ER (rsSendCell c j h) 1 ∅ 0)
      ⊢ (|={Set.univ}=> semVal (rsSendCell c j h) 0 : sProp 𝕄) :=
  close_cell m K _

theorem close_rsRecv (c : Dev nD) (j : Fin 3) (h : Fin 2) :
    iprop(cellInv ER (Rd m) (K (rsRecvCell c j h)) (rsRecvCell c j h) ∗ atPos ER (rsRecvCell c j h) 1 ∅ 0)
      ⊢ (|={Set.univ}=> semVal (rsRecvCell c j h) 0 : sProp 𝕄) :=
  close_cell m K _

theorem close_agSend (c : Dev nD) (s : Fin 15) (h : Fin 2) :
    iprop(cellInv ER (Rd m) (K (agSendCell c s h)) (agSendCell c s h) ∗ atPos ER (agSendCell c s h) 1 ∅ 0)
      ⊢ (|={Set.univ}=> semVal (agSendCell c s h) 0 : sProp 𝕄) :=
  close_cell m K _

theorem close_agRecv (c : Dev nD) (s : Fin 15) (h : Fin 2) :
    iprop(cellInv ER (Rd m) (K (agRecvCell c s h)) (agRecvCell c s h) ∗ atPos ER (agRecvCell c s h) 1 ∅ 0)
      ⊢ (|={Set.univ}=> semVal (agRecvCell c s h) 0 : sProp 𝕄) :=
  close_cell m K _

end Families

end Cert.KernelIdeal.Hand

end
-- ==== Proof.HandKernelIdeal.Records.lean ====
import proofs.«900721_g7700000000000722_dist_ar_v7x_xyz2x2x4_z_m512_n512_f32_1_alg».proof.Proof.HandKernelIdeal.Ghost
import proofs.«900721_g7700000000000722_dist_ar_v7x_xyz2x2x4_z_m512_n512_f32_1_alg».proof.Proof.LibCount

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.BarrierCell Cert.Lib.Count

variable {F : FTy → Type} [FloatOps F]

local notation "𝕄" => MT nD τ sig (Fin 2) (Elt F) ℕ UU ℕ

variable (m : (ℓ : Loc nD τ sig) → Buf (Elt F) ℓ) (K : GSem nD τ sig → ℕ)

abbrev recRs (c' : Dev nD) : Fin 3 × Fin 2 → sProp 𝕄 := fun jh => iprop(
  cellInv ER (Rd m) (K (rsSendCell c' jh.1 jh.2)) (rsSendCell c' jh.1 jh.2) ∗ reached ER (rsSendCell c' jh.1 jh.2) 0
  ∗ cellInv ER (Rd m) (K (rsRecvCell c' jh.1 jh.2)) (rsRecvCell c' jh.1 jh.2) ∗ reached ER (rsRecvCell c' jh.1 jh.2) 0)
abbrev recAg (c' : Dev nD) : Fin 15 × Fin 2 → sProp 𝕄 := fun sh => iprop(
  cellInv ER (Rd m) (K (agSendCell c' sh.1 sh.2)) (agSendCell c' sh.1 sh.2) ∗ reached ER (agSendCell c' sh.1 sh.2) 0
  ∗ cellInv ER (Rd m) (K (agRecvCell c' sh.1 sh.2)) (agRecvCell c' sh.1 sh.2) ∗ reached ER (agRecvCell c' sh.1 sh.2) 0)

/-- The records are one summand a device; this is device `c`'s. -/
theorem records_at (c : Dev nD) :
    records m K ⊢ iprop(barInv ER (K (barCell c)) (barCell c) (barPay (F := F) c)
      ∗ (bigSep Finset.univ (recRs m K c)) ∗ (bigSep Finset.univ (recAg m K c))) := by
  unfold records; exact BI.bigSep_elim (Finset.mem_univ c)

theorem records_bar (c : Dev nD) : records m K ⊢ barInv ER (K (barCell c)) (barCell c) (barPay (F := F) c) := by
  iintro H
  ihave H' := (records_at m K c) $$ H
  icases H' with ⟨H1, -⟩
  iexact H1

theorem records_rs (c : Dev nD) (j : Fin 3) (h : Fin 2) :
    records m K ⊢ iprop(cellInv ER (Rd m) (K (rsSendCell c j h)) (rsSendCell c j h) ∗ reached ER (rsSendCell c j h) 0
      ∗ cellInv ER (Rd m) (K (rsRecvCell c j h)) (rsRecvCell c j h) ∗ reached ER (rsRecvCell c j h) 0) := by
  iintro H
  ihave H' := (records_at m K c) $$ H
  icases H' with ⟨-, H2, -⟩
  iapply (bigSep_take (Finset.mem_univ ((j, h) : Fin 3 × Fin 2)) (recRs m K c)) $$ H2

theorem records_ag (c : Dev nD) (s : Fin 15) (h : Fin 2) :
    records m K ⊢ iprop(cellInv ER (Rd m) (K (agSendCell c s h)) (agSendCell c s h) ∗ reached ER (agSendCell c s h) 0
      ∗ cellInv ER (Rd m) (K (agRecvCell c s h)) (agRecvCell c s h) ∗ reached ER (agRecvCell c s h) 0) := by
  iintro H
  ihave H' := (records_at m K c) $$ H
  icases H' with ⟨-, -, H2⟩
  iapply (bigSep_take (Finset.mem_univ ((s, h) : Fin 15 × Fin 2)) (recAg m K c)) $$ H2

end Cert.KernelIdeal.Hand
-- ==== Proof.HandKernelIdeal.Sends.lean ====
import proofs.«900721_g7700000000000722_dist_ar_v7x_xyz2x2x4_z_m512_n512_f32_1_alg».proof.Proof.HandKernelIdeal.SendStates
import proofs.«900721_g7700000000000722_dist_ar_v7x_xyz2x2x4_z_m512_n512_f32_1_alg».proof.Proof.HandKernelIdeal.Families
import proofs.«900721_g7700000000000722_dist_ar_v7x_xyz2x2x4_z_m512_n512_f32_1_alg».proof.Proof.HandKernelIdeal.Levels
import proofs.«900721_g7700000000000722_dist_ar_v7x_xyz2x2x4_z_m512_n512_f32_1_alg».proof.Proof.Gen.KernelIdeal.Skeleton
import proofs.«900721_g7700000000000722_dist_ar_v7x_xyz2x2x4_z_m512_n512_f32_1_alg».proof.Proof.HandKernelIdeal.Records

noncomputable section

namespace Cert.KernelIdeal.Hand

open Cert.KernelIdeal.Gen
open Idealize.ShloMosaic
open Idealize.SL Idealize.SL.BI
open scoped Idealize.SL.BI
open Idealize.SL.BI.BIBase Idealize.SL.BI.Laws Idealize.SL.ProofMode Idealize.SL.Sem
open Idealize.ShloMosaic.Rounds
open Cert.Lib.Count

variable {F : FTy → Type} [FloatOps F]

local notation "𝕄" => MT nD τ sig (Fin 2) (Elt F) ℕ UU ℕ

variable (m : (ℓ : Loc nD τ sig) → Buf (Elt F) ℓ)

abbrev rsB (c : Dev nD) : Fin 6 → sProp 𝕄 := fun n => iprop(rsSendPay m c (jOf n) (hOf n)
  ∗ rsSlotAny (zp c (1 + (jOf n).val)) (jOf n) (hOf n) ∗ dutyTok ER (rsSendCell c (jOf n) (hOf n)) 0 0
  ∗ dutyTok ER (rsRecvCell (zp c (1 + (jOf n).val)) (jOf n) (hOf n)) 0 0)
abbrev rsC (c : Dev nD) : Fin 6 → sProp 𝕄 := fun n => cred (tallyAt (rsSendCell c (jOf n) (hOf n)) (0 : Fin 2) Nrs)

theorem Orem_rs (c : Dev nD) (n : Fin 6) :
    Orem c (36 - n.val) = Orem c (36 - (n.val + 1)) + tallyAt (rsRecvCell (zp c (1 + (jOf n).val)) (jOf n) (hOf n)) 0 Nrs := by
  fin_cases n <;> rfl

theorem Orem_ag (c : Dev nD) (h : Fin 2) (s : Fin 15) :
    Orem c (30 - 15 * h.val - s.val) = Orem c (30 - 15 * h.val - (s.val + 1)) + tallyAt (agRecvCell (agT c s) s h) 0 Nag := by
  fin_cases h <;> fin_cases s <;> rfl

/-- Copy `n` of a stretch of `N`: it leaves the copies to come, and what it leaves behind joins what the copies before it left. -/
theorem stretch_step {N : ℕ} (n : Fin N) {ι : Type} {B C : Fin N → sProp 𝕄} {own own' : ι → sProp 𝕄} {R P X Y : sProp 𝕄} [Persistent R]
    (hloc : ∀ W, iprop(R ∗ B n ∗ own W) ⊢ iprop((C n ∗ own' W -∗ X) -∗ Y))
    (H : iprop(R ∗ ((∃ W, own' W) ∗ bigSep (Finset.univ.filter fun x : Fin N => n.val + 1 ≤ x.val) B
      ∗ bigSep (Finset.univ.filter fun x : Fin N => x.val < n.val + 1) C) ∗ P) ⊢ X) :
    iprop(R ∗ ((∃ W, own W) ∗ bigSep (Finset.univ.filter fun x : Fin N => n.val ≤ x.val) B
      ∗ bigSep (Finset.univ.filter fun x : Fin N => x.val < n.val) C) ∗ P) ⊢ Y := by
  iintro ⟨#HR, ⟨⟨%W, HO⟩, Hb, Hc⟩, HP⟩
  icases (pick_ge n B) $$ Hb with ⟨Hn, Hb⟩
  iapply (hloc W) $$ [Hn HO]
  · iframe HR Hn HO
  iintro ⟨Hcr, HO⟩
  iapply H
  iframe HR HP Hb
  isplitl [HO]; · iexists W; iexact HO
  iapply (unpick_lt n C)
  iframe

section Steps
variable (K : GSem nD τ sig → ℕ) (c : Dev nD)

theorem rs_step (n : Fin 6) {dev : Dev nD} (hdev : dev = zp c (1 + (jOf n).val))
    {hsc : (rsSlot (jOf n) (hOf n) : Memref sig (Dev.tc dev : Thread nD τ).2.kind .vmem S64x128 .f32).view.ref.isScScratch = false}
    {hsrc : (rsSrc c (jOf n) (hOf n)).view.WordExact} {hdst : (rsSlot (jOf n) (hOf n) : Memref sig .tc .vmem S64x128 .f32).view.WordExact}
    {hsem : DmaTarget.Typed .vmem (.dma (rsRecvS (jOf n) (hOf n))) (.remote dev.tc (rsSlot (jOf n) (hOf n) : Memref sig .tc .vmem S64x128 .f32) (.dma (rsSendS (jOf n) (hOf n))) hsc)}
    {α : Type} {Q : α → sProp 𝕄} {k : PUnit → Prog (TpuEff nD τ sig (Elt F) Λ₀ .tc) α} {P : sProp 𝕄}
    (H : iprop(records m K ∗ SrsSend m c (n.val + 1) ∗ P) ⊢ wp frame (wpE defs₀ 𝒱₀ c.tc none) Set.univ (k ⟨⟩) Q) :
    iprop(records m K ∗ SrsSend m c n.val ∗ P)
      ⊢ wp frame (wpE defs₀ 𝒱₀ c.tc none) Set.univ
          (.op (.enqueueDma (rsSrc c (jOf n) (hOf n)) (.remote dev.tc (rsSlot (jOf n) (hOf n)) (.dma (rsSendS (jOf n) (hOf n))) hsc) (.dma (rsRecvS (jOf n) (hOf n))) hsrc hdst hsem) k) Q := by
  unfold SrsSend rsSlotAny at H ⊢
  rw [Orem_rs c n]
  refine stretch_step n (fun W => ?_) H
  iintro ⟨#Hrec, ⟨Hpay, ⟨%fd, Hslot⟩, Ht1, Ht2⟩, HO⟩
  icases (records_rs m K c (jOf n) (hOf n)) $$ Hrec with ⟨#Hi1, #Hr1, -, -⟩
  icases (records_rs m K (zp c (1 + (jOf n).val)) (jOf n) (hOf n)) $$ Hrec with ⟨-, -, #Hi2, #Hr2⟩
  iapply (wp_rs_send m K c dev (jOf n) (hOf n) hdev fd W (Orem c (36 - (n.val + 1))))
  iframe # ∗

theorem ag_step (h : Fin 2) (fs : Buf (Elt F) ((redHalf h).view.loc c.tc))
    (hfs : ∀ i ∈ (redHalf h).view.set, fs i = redVal m c i) {s : Fin 15} {dev : Dev nD} (hdev : dev = agT c s)
    {hsc : (agSlot s h : Memref sig (Dev.tc dev : Thread nD τ).2.kind .vmem S64x128 .f32).view.ref.isScScratch = false}
    {hsrc : (redHalf h : Memref sig .tc .vmem S64x128 .f32).view.WordExact} {hdst : (agSlot s h : Memref sig .tc .vmem S64x128 .f32).view.WordExact}
    {hsem : DmaTarget.Typed .vmem (.dma (agRecvS s h)) (.remote dev.tc (agSlot s h : Memref sig .tc .vmem S64x128 .f32) (.dma (agSendS s h)) hsc)}
    {α : Type} {Q : α → sProp 𝕄} {k : PUnit → Prog (TpuEff nD τ sig (Elt F) Λ₀ .tc) α} {P : sProp 𝕄}
    (H : iprop(records m K ∗ SagSend c h fs (s.val + 1) ∗ P) ⊢ wp frame (wpE defs₀ 𝒱₀ c.tc none) Set.univ (k ⟨⟩) Q) :
    iprop(records m K ∗ SagSend c h fs s.val ∗ P)
      ⊢ wp frame (wpE defs₀ 𝒱₀ c.tc none) Set.univ
          (.op (.enqueueDma (redHalf h) (.remote dev.tc (agSlot s h) (.dma (agSendS s h)) hsc) (.dma (agRecvS s h)) hsrc hdst hsem) k) Q := by
  unfold SagSend agSlotAny at H ⊢
  rw [Orem_ag c h s]
  refine stretch_step s (fun W => ?_) H
  iintro ⟨#Hrec, ⟨Hsrc, ⟨%fd, Hslot⟩, Ht1, Ht2⟩, HO⟩
  icases (records_ag m K c s h) $$ Hrec with ⟨#Hi1, #Hr1, -, -⟩
  icases (records_ag m K (agT c s) s h) $$ Hrec with ⟨-, -, #Hi2, #Hr2⟩
  iapply (wp_ag_send m K c dev s h hdev fs hfs fd W (Orem c (30 - 15 * h.val - (s.val + 1))))
  iframe # ∗

/-- a part ends by handing the state of its stretch on -/
theorem part_ret {α : Type} {R S : sProp 𝕄} {Kt : α → sProp 𝕄} {r : α} {t : Thread nD τ} :
    iprop(R ∗ S ∗ (∀ res, S -∗ Kt res)) ⊢ wp frame (wpE defs₀ 𝒱₀ t none) Set.univ (.ret r) Kt := by
  iintro ⟨-, HS, Hk⟩
  rw [wp_ret]; imodintro
  iapply Hk; iexact HS

theorem part6_spec (v2 v5 v8 v10 : BitVec 32) (Kt : _ → sProp 𝕄) :
  iprop(records m K ∗ SrsSend m c 0 ∗ (∀ res, SrsSend m c 2 -∗ Kt res))
  ⊢ wp frame (wpE defs₀ 𝒱₀ c.tc none) Set.univ
  (k0_part6 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10) Kt := by
  rw [k0_part6_eq_skeleton]
  exact rs_step m K c 0 (dev7_eq c) (rs_step m K c 1 (dev8_eq c) part_ret)

theorem part7_spec (v2 v5 v8 v10 v201 c4_i32_135 : BitVec 32) (v202 : BitVec 1) (Kt : _ → sProp 𝕄) :
  iprop(records m K ∗ SrsSend m c 2 ∗ (∀ res, SrsSend m c 3 -∗ Kt res))
  ⊢ wp frame (wpE defs₀ 𝒱₀ c.tc none) Set.univ
  (k0_part7 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v201 c4_i32_135 v202) Kt := by
  rw [k0_part7_eq_skeleton]
  exact rs_step m K c 2 (dev9_eq c) part_ret

theorem part8_spec (v2 v5 v8 v10 v230 v231 : BitVec 32) (v236 : BitVec 1) (Kt : _ → sProp 𝕄) :
  iprop(records m K ∗ SrsSend m c 3 ∗ (∀ res, SrsSend m c 4 -∗ Kt res))
  ⊢ wp frame (wpE defs₀ 𝒱₀ c.tc none) Set.univ
  (k0_part8 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v230 v231 v236) Kt := by
  rw [k0_part8_eq_skeleton]
  exact rs_step m K c 3 (dev10_eq c) part_ret

theorem part9_spec (v2 v5 v8 v10 v265 : BitVec 32) (Kt : _ → sProp 𝕄) :
  iprop(records m K ∗ SrsSend m c 4 ∗ (∀ res, SrsSend m c 5 -∗ Kt res))
  ⊢ wp frame (wpE defs₀ 𝒱₀ c.tc none) Set.univ
  (k0_part9 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v265) Kt := by
  rw [k0_part9_eq_skeleton]
  exact rs_step m K c 4 (dev11_eq c) part_ret

theorem part13_spec (v2 v5 v378 v389 v393 v394 : BitVec 32) (v395 v396 : BitVec 1) (fs : Buf (Elt F) ((redHalf 0).view.loc c.tc)) (hfs : ∀ i ∈ (redHalf 0).view.set, fs i = redVal m c i) (Kt : _ → sProp 𝕄) :
  iprop(records m K ∗ SagSend c 0 fs 0 ∗ (∀ res, SagSend c 0 fs 1 -∗ Kt res))
  ⊢ wp frame (wpE defs₀ 𝒱₀ c.tc none) Set.univ
  (k0_part13 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v378 v389 v393 v394 v395 v396) Kt := by
  rw [k0_part13_eq_skeleton]
  exact ag_step m K c 0 fs hfs (dev13_eq c) part_ret

theorem part14_spec (v2 v8 v425 v428 v429 c0_i32_314 : BitVec 32) (fs : Buf (Elt F) ((redHalf 0).view.loc c.tc)) (hfs : ∀ i ∈ (redHalf 0).view.set, fs i = redVal m c i) (Kt : _ → sProp 𝕄) :
  iprop(records m K ∗ SagSend c 0 fs 1 ∗ (∀ res, SagSend c 0 fs 2 -∗ Kt res))
  ⊢ wp frame (wpE defs₀ 𝒱₀ c.tc none) Set.univ
  (k0_part14 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v425 v428 v429 c0_i32_314) Kt := by
  rw [k0_part14_eq_skeleton]
  exact ag_step m K c 0 fs hfs (dev14_eq c) part_ret

theorem part15_spec (v5 v8 v462 c2_i32_339 c0_i32_340 : BitVec 32) (fs : Buf (Elt F) ((redHalf 0).view.loc c.tc)) (hfs : ∀ i ∈ (redHalf 0).view.set, fs i = redVal m c i) (Kt : _ → sProp 𝕄) :
  iprop(records m K ∗ SagSend c 0 fs 2 ∗ (∀ res, SagSend c 0 fs 2 -∗ Kt res))
  ⊢ wp frame (wpE defs₀ 𝒱₀ c.tc none) Set.univ
  (k0_part15 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v462 c2_i32_339 c0_i32_340) Kt := by
  rw [k0_part15_eq_skeleton]
  exact part_ret

theorem part16_spec (v2 v5 v8 v483 v495 v496 c0_i32_366 : BitVec 32) (fs : Buf (Elt F) ((redHalf 0).view.loc c.tc)) (hfs : ∀ i ∈ (redHalf 0).view.set, fs i = redVal m c i) (Kt : _ → sProp 𝕄) :
  iprop(records m K ∗ SagSend c 0 fs 2 ∗ (∀ res, SagSend c 0 fs 3 -∗ Kt res))
  ⊢ wp frame (wpE defs₀ 𝒱₀ c.tc none) Set.univ
  (k0_part16 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v483 v495 v496 c0_i32_366) Kt := by
  rw [k0_part16_eq_skeleton]
  exact ag_step m K c 0 fs hfs (dev15_eq c) part_ret

theorem part17_spec (v2 v519 v530 v532 c4_i32_389 : BitVec 32) (fs : Buf (Elt F) ((redHalf 0).view.loc c.tc)) (hfs : ∀ i ∈ (redHalf 0).view.set, fs i = redVal m c i) (Kt : _ → sProp 𝕄) :
  iprop(records m K ∗ SagSend c 0 fs 3 ∗ (∀ res, SagSend c 0 fs 4 -∗ Kt res))
  ⊢ wp frame (wpE defs₀ 𝒱₀ c.tc none) Set.univ
  (k0_part17 xM (Memref.isWhole_whole _) oM (Memref.isWhole_whole _) rsM (Memref.isWhole_whole _) redM (Memref.isWhole_whole _) agM (Memref.isWhole_whole _) cc0_scratch3 cc0_scratch4 cc0_scratch5 cc0_scratch6 c v2 v519 v530 v532 c4_i32_389) Kt := by
  rw [k0_part17_eq_skeleton]
  exact ag_step m K c 0 fs hfs (dev16_eq c) part_ret

theorem part18_spec (v5 v8 v566 : BitVec 32) (fs : Buf (Elt F) ((redHalf 0).view.loc c.tc)) (hfs : ∀ i ∈ (redHalf 0).view.set, fs i = redVal m c i) (Kt : _ → sProp 𝕄) :
  iprop(records m K ∗ SagSend c 0 fs 4 ∗ (∀ res, SagSend c 0 fs 4 -∗ Kt res))
  ⊢ wp frame (wpE defs₀ 𝒱₀ c.tc none) Set.univ
  (k0_part18 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v566) Kt := by
  rw [k0_part18_eq_skeleton]
  exact part_ret

theorem part19_spec (v2 v5 v8 : BitVec 32) (fs : Buf (Elt F) ((redHalf 0).view.loc c.tc)) (hfs : ∀ i ∈ (redHalf 0).view.set, fs i = redVal m c i) (Kt : _ → sProp 𝕄) :
  iprop(records m K ∗ SagSend c 0 fs 4 ∗ (∀ res, SagSend c 0 fs 5 -∗ Kt res))
  ⊢ wp frame (wpE defs₀ 𝒱₀ c.tc none) Set.univ
  (k0_part19 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part19_eq_skeleton]
  exact ag_step m K c 0 fs hfs (dev17_eq c) part_ret

theorem part20_spec (v2 v5 v613 v624 v629 : BitVec 32) (v634 : BitVec 1) (v635 : BitVec 32) (fs : Buf (Elt F) ((redHalf 0).view.loc c.tc)) (hfs : ∀ i ∈ (redHalf 0).view.set, fs i = redVal m c i) (Kt : _ → sProp 𝕄) :
  iprop(records m K ∗ SagSend c 0 fs 5 ∗ (∀ res, SagSend c 0 fs 6 -∗ Kt res))
  ⊢ wp frame (wpE defs₀ 𝒱₀ c.tc none) Set.univ
  (k0_part20 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v613 v624 v629 v634 v635) Kt := by
  rw [k0_part20_eq_skeleton]
  exact ag_step m K c 0 fs hfs (dev18_eq c) part_ret

theorem part21_spec (v2 v8 v660 v663 v664 : BitVec 32) (v665 v666 v667 : BitVec 1) (fs : Buf (Elt F) ((redHalf 0).view.loc c.tc)) (hfs : ∀ i ∈ (redHalf 0).view.set, fs i = redVal m c i) (Kt : _ → sProp 𝕄) :
  iprop(records m K ∗ SagSend c 0 fs 6 ∗ (∀ res, SagSend c 0 fs 7 -∗ Kt res))
  ⊢ wp frame (wpE defs₀ 𝒱₀ c.tc none) Set.univ
  (k0_part21 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v660 v663 v664 v665 v666 v667) Kt := by
  rw [k0_part21_eq_skeleton]
  exact ag_step m K c 0 fs hfs (dev19_eq c) part_ret

theorem part22_spec (v5 v8 v699 v700 c0_i32_515 : BitVec 32) (fs : Buf (Elt F) ((redHalf 0).view.loc c.tc)) (hfs : ∀ i ∈ (redHalf 0).view.set, fs i = redVal m c i) (Kt : _ → sProp 𝕄) :
  iprop(records m K ∗ SagSend c 0 fs 7 ∗ (∀ res, SagSend c 0 fs 7 -∗ Kt res))
  ⊢ wp frame (wpE defs₀ 𝒱₀ c.tc none) Set.univ
  (k0_part22 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v699 v700 c0_i32_515) Kt := by
  rw [k0_part22_eq_skeleton]
  exact part_ret

theorem part23_spec (v2 v5 v8 v730 v734 c1_i32_540 : BitVec 32) (fs : Buf (Elt F) ((redHalf 0).view.loc c.tc)) (hfs : ∀ i ∈ (redHalf 0).view.set, fs i = redVal m c i) (Kt : _ → sProp 𝕄) :
  iprop(records m K ∗ SagSend c 0 fs 7 ∗ (∀ res, SagSend c 0 fs 8 -∗ Kt res))
  ⊢ wp frame (wpE defs₀ 𝒱₀ c.tc none) Set.univ
  (k0_part23 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v730 v734 c1_i32_540) Kt := by
  rw [k0_part23_eq_skeleton]
  exact ag_step m K c 0 fs hfs (dev20_eq c) part_ret

theorem part24_spec (v2 v5 v754 v765 v769 v770 : BitVec 32) (fs : Buf (Elt F) ((redHalf 0).view.loc c.tc)) (hfs : ∀ i ∈ (redHalf 0).view.set, fs i = redVal m c i) (Kt : _ → sProp 𝕄) :
  iprop(records m K ∗ SagSend c 0 fs 8 ∗ (∀ res, SagSend c 0 fs 9 -∗ Kt res))
  ⊢ wp frame (wpE defs₀ 𝒱₀ c.tc none) Set.univ
  (k0_part24 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v754 v765 v769 v770) Kt := by
  rw [k0_part24_eq_skeleton]
  exact ag_step m K c 0 fs hfs (dev21_eq c) part_ret

theorem part25_spec (v8 v801 v802 c2_i32_588 : BitVec 32) (v803 : BitVec 1) (fs : Buf (Elt F) ((redHalf 0).view.loc c.tc)) (hfs : ∀ i ∈ (redHalf 0).view.set, fs i = redVal m c i) (Kt : _ → sProp 𝕄) :
  iprop(records m K ∗ SagSend c 0 fs 9 ∗ (∀ res, SagSend c 0 fs 10 -∗ Kt res))
  ⊢ wp frame (wpE defs₀ 𝒱₀ c.tc none) Set.univ
  (k0_part25 xM (Memref.isWhole_whole _) oM (Memref.isWhole_whole _) rsM (Memref.isWhole_whole _) redM (Memref.isWhole_whole _) agM (Memref.isWhole_whole _) cc0_scratch3 cc0_scratch4 cc0_scratch5 cc0_scratch6 c v8 v801 v802 c2_i32_588 v803) Kt := by
  rw [k0_part25_eq_skeleton]
  exact ag_step m K c 0 fs hfs (dev22_eq c) part_ret

theorem part26_spec (v2 v5 v8 : BitVec 32) (fs : Buf (Elt F) ((redHalf 0).view.loc c.tc)) (hfs : ∀ i ∈ (redHalf 0).view.set, fs i = redVal m c i) (Kt : _ → sProp 𝕄) :
  iprop(records m K ∗ SagSend c 0 fs 10 ∗ (∀ res, SagSend c 0 fs 10 -∗ Kt res))
  ⊢ wp frame (wpE defs₀ 𝒱₀ c.tc none) Set.univ
  (k0_part26 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8) Kt := by
  rw [k0_part26_eq_skeleton]
  exact part_ret

theorem part27_spec (v2 v5 v848 v859 v871 : BitVec 32) (fs : Buf (Elt F) ((redHalf 0).view.loc c.tc)) (hfs : ∀ i ∈ (redHalf 0).view.set, fs i = redVal m c i) (Kt : _ → sProp 𝕄) :
  iprop(records m K ∗ SagSend c 0 fs 10 ∗ (∀ res, SagSend c 0 fs 11 -∗ Kt res))
  ⊢ wp frame (wpE defs₀ 𝒱₀ c.tc none) Set.univ
  (k0_part27 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v848 v859 v871) Kt := by
  rw [k0_part27_eq_skeleton]
  exact ag_step m K c 0 fs hfs (dev23_eq c) part_ret

theorem part28_spec (v2 v8 v895 v906 c4_i32_662 : BitVec 32) (fs : Buf (Elt F) ((redHalf 0).view.loc c.tc)) (hfs : ∀ i ∈ (redHalf 0).view.set, fs i = redVal m c i) (Kt : _ → sProp 𝕄) :
  iprop(records m K ∗ SagSend c 0 fs 11 ∗ (∀ res, SagSend c 0 fs 12 -∗ Kt res))
  ⊢ wp frame (wpE defs₀ 𝒱₀ c.tc none) Set.univ
  (k0_part28 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v895 v906 c4_i32_662) Kt := by
  rw [k0_part28_eq_skeleton]
  exact ag_step m K c 0 fs hfs (dev24_eq c) part_ret

theorem part29_spec (v5 v8 v934 v935 : BitVec 32) (v936 v937 v938 : BitVec 1) (fs : Buf (Elt F) ((redHalf 0).view.loc c.tc)) (hfs : ∀ i ∈ (redHalf 0).view.set, fs i = redVal m c i) (Kt : _ → sProp 𝕄) :
  iprop(records m K ∗ SagSend c 0 fs 12 ∗ (∀ res, SagSend c 0 fs 12 -∗ Kt res))
  ⊢ wp frame (wpE defs₀ 𝒱₀ c.tc none) Set.univ
  (k0_part29 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v934 v935 v936 v937 v938) Kt := by
  rw [k0_part29_eq_skeleton]
  exact part_ret

theorem part30_spec (v2 v5 v8 : BitVec 32) (fs : Buf (Elt F) ((redHalf 0).view.loc c.tc)) (hfs : ∀ i ∈ (redHalf 0).view.set, fs i = redVal m c i) (Kt : _ → sProp 𝕄) :
  iprop(records m K ∗ SagSend c 0 fs 12 ∗ (∀ res, SagSend c 0 fs 13 -∗ Kt res))
  ⊢ wp frame (wpE defs₀ 𝒱₀ c.tc none) Set.univ
  (k0_part30 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part30_eq_skeleton]
  exact ag_step m K c 0 fs hfs (dev25_eq c) part_ret

theorem part31_spec (v2 v5 v989 v1000 v1004 v1005 : BitVec 32) (v1006 v1007 : BitVec 1) (c0_i32_737 : BitVec 32) (fs : Buf (Elt F) ((redHalf 0).view.loc c.tc)) (hfs : ∀ i ∈ (redHalf 0).view.set, fs i = redVal m c i) (Kt : _ → sProp 𝕄) :
  iprop(records m K ∗ SagSend c 0 fs 13 ∗ (∀ res, SagSend c 0 fs 14 -∗ Kt res))
  ⊢ wp frame (wpE defs₀ 𝒱₀ c.tc none) Set.univ
  (k0_part31 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v989 v1000 v1004 v1005 v1006 v1007 c0_i32_737) Kt := by
  rw [k0_part31_eq_skeleton]
  exact ag_step m K c 0 fs hfs (dev26_eq c) part_ret

theorem part32_spec (v8 v1036 v1039 v1040 : BitVec 32) (v1041 : BitVec 1) (fs : Buf (Elt F) ((redHalf 0).view.loc c.tc)) (hfs : ∀ i ∈ (redHalf 0).view.set, fs i = redVal m c i) (Kt : _ → sProp 𝕄) :
  iprop(records m K ∗ SagSend c 0 fs 14 ∗ (∀ res, SagSend c 0 fs 15 -∗ Kt res))
  ⊢ wp frame (wpE defs₀ 𝒱₀ c.tc none) Set.univ
  (k0_part32 xM (Memref.isWhole_whole _) oM (Memref.isWhole_whole _) rsM (Memref.isWhole_whole _) redM (Memref.isWhole_whole _) agM (Memref.isWhole_whole _) cc0_scratch3 cc0_scratch4 cc0_scratch5 cc0_scratch6 c v8 v1036 v1039 v1040 v1041) Kt := by
  rw [k0_part32_eq_skeleton]
  exact ag_step m K c 0 fs hfs (dev27_eq c) part_ret

theorem part35_spec (v5 v8 v1134 v1135 c0_i32_839 : BitVec 32) (fs : Buf (Elt F) ((redHalf 1).view.loc c.tc)) (hfs : ∀ i ∈ (redHalf 1).view.set, fs i = redVal m c i) (Kt : _ → sProp 𝕄) :
  iprop(records m K ∗ SagSend c 1 fs 0 ∗ (∀ res, SagSend c 1 fs 0 -∗ Kt res))
  ⊢ wp frame (wpE defs₀ 𝒱₀ c.tc none) Set.univ
  (k0_part35 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1134 v1135 c0_i32_839) Kt := by
  rw [k0_part35_eq_skeleton]
  exact part_ret

theorem part36_spec (v2 v5 v8 v1165 v1169 c1_i32_865 : BitVec 32) (fs : Buf (Elt F) ((redHalf 1).view.loc c.tc)) (hfs : ∀ i ∈ (redHalf 1).view.set, fs i = redVal m c i) (Kt : _ → sProp 𝕄) :
  iprop(records m K ∗ SagSend c 1 fs 0 ∗ (∀ res, SagSend c 1 fs 1 -∗ Kt res))
  ⊢ wp frame (wpE defs₀ 𝒱₀ c.tc none) Set.univ
  (k0_part36 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v1165 v1169 c1_i32_865) Kt := by
  rw [k0_part36_eq_skeleton]
  exact ag_step m K c 1 fs hfs (dev28_eq c) part_ret

theorem part37_spec (v2 v5 v1189 v1200 v1204 v1205 : BitVec 32) (fs : Buf (Elt F) ((redHalf 1).view.loc c.tc)) (hfs : ∀ i ∈ (redHalf 1).view.set, fs i = redVal m c i) (Kt : _ → sProp 𝕄) :
  iprop(records m K ∗ SagSend c 1 fs 1 ∗ (∀ res, SagSend c 1 fs 2 -∗ Kt res))
  ⊢ wp frame (wpE defs₀ 𝒱₀ c.tc none) Set.univ
  (k0_part37 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1189 v1200 v1204 v1205) Kt := by
  rw [k0_part37_eq_skeleton]
  exact ag_step m K c 1 fs hfs (dev29_eq c) part_ret

theorem part38_spec (v8 v1236 v1237 c2_i32_913 : BitVec 32) (v1238 : BitVec 1) (fs : Buf (Elt F) ((redHalf 1).view.loc c.tc)) (hfs : ∀ i ∈ (redHalf 1).view.set, fs i = redVal m c i) (Kt : _ → sProp 𝕄) :
  iprop(records m K ∗ SagSend c 1 fs 2 ∗ (∀ res, SagSend c 1 fs 3 -∗ Kt res))
  ⊢ wp frame (wpE defs₀ 𝒱₀ c.tc none) Set.univ
  (k0_part38 xM (Memref.isWhole_whole _) oM (Memref.isWhole_whole _) rsM (Memref.isWhole_whole _) redM (Memref.isWhole_whole _) agM (Memref.isWhole_whole _) cc0_scratch3 cc0_scratch4 cc0_scratch5 cc0_scratch6 c v8 v1236 v1237 c2_i32_913 v1238) Kt := by
  rw [k0_part38_eq_skeleton]
  exact ag_step m K c 1 fs hfs (dev30_eq c) part_ret

theorem part39_spec (v2 v5 v8 : BitVec 32) (fs : Buf (Elt F) ((redHalf 1).view.loc c.tc)) (hfs : ∀ i ∈ (redHalf 1).view.set, fs i = redVal m c i) (Kt : _ → sProp 𝕄) :
  iprop(records m K ∗ SagSend c 1 fs 3 ∗ (∀ res, SagSend c 1 fs 3 -∗ Kt res))
  ⊢ wp frame (wpE defs₀ 𝒱₀ c.tc none) Set.univ
  (k0_part39 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8) Kt := by
  rw [k0_part39_eq_skeleton]
  exact part_ret

theorem part40_spec (v2 v5 v1283 v1294 v1306 : BitVec 32) (fs : Buf (Elt F) ((redHalf 1).view.loc c.tc)) (hfs : ∀ i ∈ (redHalf 1).view.set, fs i = redVal m c i) (Kt : _ → sProp 𝕄) :
  iprop(records m K ∗ SagSend c 1 fs 3 ∗ (∀ res, SagSend c 1 fs 4 -∗ Kt res))
  ⊢ wp frame (wpE defs₀ 𝒱₀ c.tc none) Set.univ
  (k0_part40 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1283 v1294 v1306) Kt := by
  rw [k0_part40_eq_skeleton]
  exact ag_step m K c 1 fs hfs (dev31_eq c) part_ret

theorem part41_spec (v2 v8 v1330 v1341 c4_i32_989 : BitVec 32) (fs : Buf (Elt F) ((redHalf 1).view.loc c.tc)) (hfs : ∀ i ∈ (redHalf 1).view.set, fs i = redVal m c i) (Kt : _ → sProp 𝕄) :
  iprop(records m K ∗ SagSend c 1 fs 4 ∗ (∀ res, SagSend c 1 fs 5 -∗ Kt res))
  ⊢ wp frame (wpE defs₀ 𝒱₀ c.tc none) Set.univ
  (k0_part41 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v1330 v1341 c4_i32_989) Kt := by
  rw [k0_part41_eq_skeleton]
  exact ag_step m K c 1 fs hfs (dev32_eq c) part_ret

theorem part42_spec (v5 v8 v1369 v1370 : BitVec 32) (v1371 v1372 v1373 : BitVec 1) (fs : Buf (Elt F) ((redHalf 1).view.loc c.tc)) (hfs : ∀ i ∈ (redHalf 1).view.set, fs i = redVal m c i) (Kt : _ → sProp 𝕄) :
  iprop(records m K ∗ SagSend c 1 fs 5 ∗ (∀ res, SagSend c 1 fs 5 -∗ Kt res))
  ⊢ wp frame (wpE defs₀ 𝒱₀ c.tc none) Set.univ
  (k0_part42 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1369 v1370 v1371 v1372 v1373) Kt := by
  rw [k0_part42_eq_skeleton]
  exact part_ret

theorem part43_spec (v2 v5 v8 : BitVec 32) (fs : Buf (Elt F) ((redHalf 1).view.loc c.tc)) (hfs : ∀ i ∈ (redHalf 1).view.set, fs i = redVal m c i) (Kt : _ → sProp 𝕄) :
  iprop(records m K ∗ SagSend c 1 fs 5 ∗ (∀ res, SagSend c 1 fs 6 -∗ Kt res))
  ⊢ wp frame (wpE defs₀ 𝒱₀ c.tc none) Set.univ
  (k0_part43 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part43_eq_skeleton]
  exact ag_step m K c 1 fs hfs (dev33_eq c) part_ret

theorem part44_spec (v2 v5 v1424 v1435 v1439 v1440 : BitVec 32) (v1441 v1442 : BitVec 1) (c0_i32_1066 : BitVec 32) (fs : Buf (Elt F) ((redHalf 1).view.loc c.tc)) (hfs : ∀ i ∈ (redHalf 1).view.set, fs i = redVal m c i) (Kt : _ → sProp 𝕄) :
  iprop(records m K ∗ SagSend c 1 fs 6 ∗ (∀ res, SagSend c 1 fs 7 -∗ Kt res))
  ⊢ wp frame (wpE defs₀ 𝒱₀ c.tc none) Set.univ
  (k0_part44 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1424 v1435 v1439 v1440 v1441 v1442 c0_i32_1066) Kt := by
  rw [k0_part44_eq_skeleton]
  exact ag_step m K c 1 fs hfs (dev34_eq c) part_ret

theorem part45_spec (v2 v8 v1471 v1474 v1475 : BitVec 32) (v1476 : BitVec 1) (fs : Buf (Elt F) ((redHalf 1).view.loc c.tc)) (hfs : ∀ i ∈ (redHalf 1).view.set, fs i = redVal m c i) (Kt : _ → sProp 𝕄) :
  iprop(records m K ∗ SagSend c 1 fs 7 ∗ (∀ res, SagSend c 1 fs 8 -∗ Kt res))
  ⊢ wp frame (wpE defs₀ 𝒱₀ c.tc none) Set.univ
  (k0_part45 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v1471 v1474 v1475 v1476) Kt := by
  rw [k0_part45_eq_skeleton]
  exact ag_step m K c 1 fs hfs (dev35_eq c) part_ret

theorem part46_spec (v5 v8 v1508 c2_i32_1116 : BitVec 32) (v1509 : BitVec 1) (fs : Buf (Elt F) ((redHalf 1).view.loc c.tc)) (hfs : ∀ i ∈ (redHalf 1).view.set, fs i = redVal m c i) (Kt : _ → sProp 𝕄) :
  iprop(records m K ∗ SagSend c 1 fs 8 ∗ (∀ res, SagSend c 1 fs 8 -∗ Kt res))
  ⊢ wp frame (wpE defs₀ 𝒱₀ c.tc none) Set.univ
  (k0_part46 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1508 c2_i32_1116 v1509) Kt := by
  rw [k0_part46_eq_skeleton]
  exact part_ret

theorem part47_spec (v2 v5 v8 v1529 v1541 v1543 : BitVec 32) (fs : Buf (Elt F) ((redHalf 1).view.loc c.tc)) (hfs : ∀ i ∈ (redHalf 1).view.set, fs i = redVal m c i) (Kt : _ → sProp 𝕄) :
  iprop(records m K ∗ SagSend c 1 fs 8 ∗ (∀ res, SagSend c 1 fs 9 -∗ Kt res))
  ⊢ wp frame (wpE defs₀ 𝒱₀ c.tc none) Set.univ
  (k0_part47 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v1529 v1541 v1543) Kt := by
  rw [k0_part47_eq_skeleton]
  exact ag_step m K c 1 fs hfs (dev36_eq c) part_ret

theorem part48_spec (v2 v1565 v1576 v1578 c4_i32_1166 c0_i32_1167 : BitVec 32) (fs : Buf (Elt F) ((redHalf 1).view.loc c.tc)) (hfs : ∀ i ∈ (redHalf 1).view.set, fs i = redVal m c i) (Kt : _ → sProp 𝕄) :
  iprop(records m K ∗ SagSend c 1 fs 9 ∗ (∀ res, SagSend c 1 fs 10 -∗ Kt res))
  ⊢ wp frame (wpE defs₀ 𝒱₀ c.tc none) Set.univ
  (k0_part48 xM (Memref.isWhole_whole _) oM (Memref.isWhole_whole _) rsM (Memref.isWhole_whole _) redM (Memref.isWhole_whole _) agM (Memref.isWhole_whole _) cc0_scratch3 cc0_scratch4 cc0_scratch5 cc0_scratch6 c v2 v1565 v1576 v1578 c4_i32_1166 c0_i32_1167) Kt := by
  rw [k0_part48_eq_skeleton]
  exact ag_step m K c 1 fs hfs (dev37_eq c) part_ret

theorem part49_spec (v5 v8 v1612 c0_i32_1192 : BitVec 32) (fs : Buf (Elt F) ((redHalf 1).view.loc c.tc)) (hfs : ∀ i ∈ (redHalf 1).view.set, fs i = redVal m c i) (Kt : _ → sProp 𝕄) :
  iprop(records m K ∗ SagSend c 1 fs 10 ∗ (∀ res, SagSend c 1 fs 10 -∗ Kt res))
  ⊢ wp frame (wpE defs₀ 𝒱₀ c.tc none) Set.univ
  (k0_part49 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1612 c0_i32_1192) Kt := by
  rw [k0_part49_eq_skeleton]
  exact part_ret

theorem part50_spec (v2 v5 v8 : BitVec 32) (fs : Buf (Elt F) ((redHalf 1).view.loc c.tc)) (hfs : ∀ i ∈ (redHalf 1).view.set, fs i = redVal m c i) (Kt : _ → sProp 𝕄) :
  iprop(records m K ∗ SagSend c 1 fs 10 ∗ (∀ res, SagSend c 1 fs 11 -∗ Kt res))
  ⊢ wp frame (wpE defs₀ 𝒱₀ c.tc none) Set.univ
  (k0_part50 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part50_eq_skeleton]
  exact ag_step m K c 1 fs hfs (dev38_eq c) part_ret

theorem part51_spec (v2 v5 v1659 v1670 v1682 : BitVec 32) (fs : Buf (Elt F) ((redHalf 1).view.loc c.tc)) (hfs : ∀ i ∈ (redHalf 1).view.set, fs i = redVal m c i) (Kt : _ → sProp 𝕄) :
  iprop(records m K ∗ SagSend c 1 fs 11 ∗ (∀ res, SagSend c 1 fs 12 -∗ Kt res))
  ⊢ wp frame (wpE defs₀ 𝒱₀ c.tc none) Set.univ
  (k0_part51 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1659 v1670 v1682) Kt := by
  rw [k0_part51_eq_skeleton]
  exact ag_step m K c 1 fs hfs (dev39_eq c) part_ret

theorem part52_spec (v2 v8 v1706 v1709 v1710 : BitVec 32) (v1711 v1714 : BitVec 1) (fs : Buf (Elt F) ((redHalf 1).view.loc c.tc)) (hfs : ∀ i ∈ (redHalf 1).view.set, fs i = redVal m c i) (Kt : _ → sProp 𝕄) :
  iprop(records m K ∗ SagSend c 1 fs 12 ∗ (∀ res, SagSend c 1 fs 13 -∗ Kt res))
  ⊢ wp frame (wpE defs₀ 𝒱₀ c.tc none) Set.univ
  (k0_part52 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v1706 v1709 v1710 v1711 v1714) Kt := by
  rw [k0_part52_eq_skeleton]
  exact ag_step m K c 1 fs hfs (dev40_eq c) part_ret

theorem part53_spec (v5 v8 v1745 v1746 : BitVec 32) (v1747 : BitVec 1) (fs : Buf (Elt F) ((redHalf 1).view.loc c.tc)) (hfs : ∀ i ∈ (redHalf 1).view.set, fs i = redVal m c i) (Kt : _ → sProp 𝕄) :
  iprop(records m K ∗ SagSend c 1 fs 13 ∗ (∀ res, SagSend c 1 fs 13 -∗ Kt res))
  ⊢ wp frame (wpE defs₀ 𝒱₀ c.tc none) Set.univ
  (k0_part53 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1745 v1746 v1747) Kt := by
  rw [k0_part53_eq_skeleton]
  exact part_ret

theorem part54_spec (v2 v5 v8 v1780 v1781 : BitVec 32) (fs : Buf (Elt F) ((redHalf 1).view.loc c.tc)) (hfs : ∀ i ∈ (redHalf 1).view.set, fs i = redVal m c i) (Kt : _ → sProp 𝕄) :
  iprop(records m K ∗ SagSend c 1 fs 13 ∗ (∀ res, SagSend c 1 fs 14 -∗ Kt res))
  ⊢ wp frame (wpE defs₀ 𝒱₀ c.tc none) Set.univ
  (k0_part54 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v1780 v1781) Kt := by
  rw [k0_part54_eq_skeleton]
  exact ag_step m K c 1 fs hfs (dev41_eq c) part_ret

theorem part55_spec (v378 v389 v401 v1800 v1811 v1815 v1816 c0_i32_1344 : BitVec 32) (fs : Buf (Elt F) ((redHalf 1).view.loc c.tc)) (hfs : ∀ i ∈ (redHalf 1).view.set, fs i = redVal m c i) (Kt : _ → sProp 𝕄) :
  iprop(records m K ∗ SagSend c 1 fs 14 ∗ (∀ res, SagSend c 1 fs 15 -∗ Kt res))
  ⊢ wp frame (wpE defs₀ 𝒱₀ c.tc none) Set.univ
  (k0_part55 xM (Memref.isWhole_whole _) oM (Memref.isWhole_whole _) rsM (Memref.isWhole_whole _) redM (Memref.isWhole_whole _) agM (Memref.isWhole_whole _) cc0_scratch3 cc0_scratch4 cc0_scratch5 cc0_scratch6 c v378 v389 v401 v1800 v1811 v1815 v1816 c0_i32_1344) Kt := by
  rw [k0_part55_eq_skeleton]
  exact ag_step m K c 1 fs hfs (dev42_eq c) part_ret

abbrev rsRest (k : ℕ) : sProp 𝕄 :=
  iprop((bigSep (Finset.univ.filter fun n : Fin 6 => k ≤ n.val) (rsB m c)) ∗ (bigSep (Finset.univ.filter fun n : Fin 6 => n.val < k) (rsC c)))
theorem SrsSend_open (k : ℕ) : SrsSend m c k ⊢ iprop((∃ W, owes c.tc (Orem c (36 - k)) W) ∗ rsRest m c k) := by
  unfold SrsSend; exact BI.Entails.refl _

theorem part10_spec (v2 v5 v157 v184 v299 v300 : BitVec 32) (Kt : _ → sProp 𝕄) :
  iprop(records m K ∗ levAts L lv ∗ SrsSend m c 5
  ∗ atPos ER (rsRecvCell c 0 0) 0 ∅ 0 ∗ cred (tallyAt (rsRecvCell c 0 0) (0 : Fin 2) Nrs)
  ∗ atPos ER (rsRecvCell c 1 0) 0 ∅ 0 ∗ cred (tallyAt (rsRecvCell c 1 0) (0 : Fin 2) Nrs)
  ∗ (∀ res, (SrsSend m c 6 ∗ rsRecvPay m c 0 0 ∗ atPos ER (rsRecvCell c 0 0) 1 ∅ 0
  ∗ rsRecvPay m c 1 0 ∗ atPos ER (rsRecvCell c 1 0) 1 ∅ 0) -∗ Kt res))
  ⊢ wp frame (wpE defs₀ 𝒱₀ c.tc none) Set.univ
  (k0_part10 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v157 v184 v299 v300) Kt := by
  rw [k0_part10_eq_skeleton]; unfold k0_part10_skel
  simp only [Prog.lift, Prog.bind_op, Prog.bind_ret, Prog.pure_eq_ret]
  refine (sep_mono_right sep_left_comm.1).trans (rs_step m K c 5 (dev12_eq c) ?_)
  change iprop(_ ∗ SrsSend m c 6 ∗ _) ⊢ _
  unfold SrsSend
  iintro ⟨#Hrec, ⟨⟨%W, HO⟩, Hrest⟩, #Hlev, Hat0, Hc0, Hat1, Hc1, Hk⟩
  icases (records_rs m K c 0 0) $$ Hrec with ⟨-, -, #Hi0, -⟩
  icases (records_rs m K c 1 0) $$ Hrec with ⟨-, -, #Hi1, -⟩
  iapply (wp_rs_recv_waitDma2 m K c 0 0 (rsSlot_credit 0 0) (O := Orem c 30) (W := W)) $$ [Hc0 HO Hat0]
  · iframe Hi0 Hc0 HO Hat0
    iapply (mayWait_rsRecv c 0 0 30 (by decide)); iexact Hlev
  iintro ⟨HO, Hat0, Hp0⟩
  iapply (wp_rs_recv_waitDma2 m K c 1 0 (rsSlot_credit 1 0) (O := Orem c 30) (W := insert (SemLoc.dma (rsRecvS 0 0), (0 : Fin 2)) W)) $$ [Hc1 HO Hat1]
  · iframe Hi1 Hc1 HO Hat1
    iapply (mayWait_rsRecv c 1 0 30 (by decide)); iexact Hlev
  iintro ⟨HO, Hat1, Hp1⟩
  rw [wp_ret]; imodintro
  iapply Hk
  iframe Hp0 Hat0 Hp1 Hat1 Hrest
  iexists _; iexact HO

end Steps

end Cert.KernelIdeal.Hand

end
-- ==== Proof.HandKernelIdeal.Reduce.lean ====
import proofs.«900721_g7700000000000722_dist_ar_v7x_xyz2x2x4_z_m512_n512_f32_1_alg».proof.Proof.HandKernelIdeal.BodyDefs
import proofs.«900721_g7700000000000722_dist_ar_v7x_xyz2x2x4_z_m512_n512_f32_1_alg».proof.Proof.HandKernelIdeal.Levels
import proofs.«900721_g7700000000000722_dist_ar_v7x_xyz2x2x4_z_m512_n512_f32_1_alg».proof.Proof.HandKernelIdeal.Regions
import proofs.«900721_g7700000000000722_dist_ar_v7x_xyz2x2x4_z_m512_n512_f32_1_alg».proof.Proof.HandKernelIdeal.Families
import proofs.«900721_g7700000000000722_dist_ar_v7x_xyz2x2x4_z_m512_n512_f32_1_alg».proof.Proof.Gen.KernelIdeal.Skeleton
import proofs.«900721_g7700000000000722_dist_ar_v7x_xyz2x2x4_z_m512_n512_f32_1_alg».proof.Proof.HandKernelIdeal.Records

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.BarrierCell

variable {F : FTy → Type} [FloatOps F]

local notation "𝕄" => MT nD τ sig (Fin 2) (Elt F) ℕ UU ℕ

variable (m : (ℓ : Loc nD τ sig) → Buf (Elt F) ℓ)

theorem rs_load_sub (j : Fin 3) (h : Fin 2) :
    rsM.view.setOn (Rect.unit (s := S3x128x128) ![j.val, 64 * h.val, 0] S1x64x128.size (rs_inb j h)).toLoadRect.set
      ⊆ (rsSlot j h).view.set := by
  rw [rsSlot_set]
  show Finset.map (View.whole cc0_scratch0).emb _ ⊆ _
  rw [View.emb_whole, Finset.map_refl]

theorem red_load_sub (h : Fin 2) :
    redM.view.setOn (Rect.unit (s := S128x128) ![64 * h.val, 0] S64x128.size (red_inb h)).toLoadRect.set
      ⊆ (redHalf h).view.set := by
  rw [redHalf_set]
  show Finset.map (View.whole cc0_scratch1).emb _ ⊆ _
  rw [View.emb_whole, Finset.map_refl]

theorem red_stored' (c : Dev nD) (h : Fin 2) (f : Buf (Elt F) ((redHalf h).view.loc (c : Thread nD τ)))
    (w : FVec F S64x128 .f32) (hw : w = redHalfVal m c h) :
    ∀ i ∈ (redHalf h).view.set, (redHalf h).view.write (Elt F) f w Finset.univ i = redVal m c i := by
  subst hw
  intro i hi
  obtain ⟨y, rfl⟩ := View.exists_emb_of_mem_set _ hi
  rw [View.write_emb_of_mem _ _ (Finset.mem_univ y), cast_eq, ← redVal_at_half m c h y]
  congr 1
  obtain ⟨r0, r1⟩ := redHalf_emb h y
  exact (eq_at2t r0 r1).symm
theorem red_read_back' (c : Dev nD) (h : Fin 2) (f : Buf (Elt F) ((redHalf h).view.loc (c : Thread nD τ)))
    (w : FVec F S64x128 .f32) (hw : w = redHalfVal m c h) :
    redM.view.readAt (Elt F) (Rect.unit (s := S128x128) ![64 * h.val, 0] S64x128.size (red_inb h)).toLoadRect
      ((redHalf h).view.write (Elt F) f w Finset.univ) = redHalfVal m c h := by
  subst hw
  funext x
  exact View.read_write_of_mem (v := (redHalf h).view) f (redHalfVal m c h) (Finset.mem_univ x)

theorem pay_eq (c : Dev nD) (h : Fin 2)
    (p : Vec F S64x128 .f32 → Vec F S1x64x128 .f32 → Vec F S1x64x128 .f32 → Vec F S1x64x128 .f32 → FVec F S64x128 .f32)
    (hp : redHalfVal m c h = p (xOwnVec m c h) (rsVec m c 0 h) (rsVec m c 1 h) (rsVec m c 2 h)) :
    p (xM.view.readAt (Elt F) (Rect.unit (s := S512x512) (k0_off2 c (BitVec.ofNat 32 (64 * h.val))) S64x128.size (k0_off2_inb c h)).toLoadRect (xblk m c))
      (rsM.view.readAt (Elt F) (Rect.unit (s := S3x128x128) ![(0 : Fin 3).val, 64 * h.val, 0] S1x64x128.size (rs_inb 0 h)).toLoadRect (rsVal m c))
      (rsM.view.readAt (Elt F) (Rect.unit (s := S3x128x128) ![(1 : Fin 3).val, 64 * h.val, 0] S1x64x128.size (rs_inb 1 h)).toLoadRect (rsVal m c))
      (rsM.view.readAt (Elt F) (Rect.unit (s := S3x128x128) ![(2 : Fin 3).val, 64 * h.val, 0] S1x64x128.size (rs_inb 2 h)).toLoadRect (rsVal m c))
      = redHalfVal m c h := by
  rw [read_xOwn, read_rs m c 0 h _ (fun _ _ => rfl), read_rs m c 1 h _ (fun _ _ => rfl), read_rs m c 2 h _ (fun _ _ => rfl), hp]

theorem mem_doneTiles_zero (c : Dev nD) {t : Fin 4 × Fin 4 × Fin 2} (ht : t ∈ doneTiles c 0) :
    t ∈ insert (tileOf c 1) ({tileOf c 0} : Finset (Fin 4 × Fin 4 × Fin 2)) := by
  simpa [doneTiles, or_comm] using ht

theorem OutDone_second_own (c : Dev nD) (f : (cc0_stg1_0 : Ref sig .tc).ty.Contents (Elt F)) (hD : OutDone m {tileOf c 0} f)
    (w : FVec F S64x128 .f32) (hw : w = redHalfVal m c 1) :
    OutDone m (doneTiles c 0)
      ((oM.access (Rect.unit (s := S512x512) (k0_off2 c (BitVec.ofNat 32 (64 * (1 : Fin 2).val))) S64x128.size (k0_off2_inb c 1))).write
        (Elt F) f w Finset.univ) := by
  subst hw
  intro t ht
  exact OutDone_store_own m c 1 {tileOf c 0} f hD t (mem_doneTiles_zero c ht)

section Parts
variable (K : GSem nD τ sig → ℕ)

theorem part11_spec (c : Dev nD) (W : Waits sig (Fin 2)) (v2 v5 v8 v10 v211 : BitVec 32)
    (Kt : (Σ' (v361 : Vec F S64x128 .f32) (v362 : BitVec 32), BitVec 32) → sProp 𝕄) :
    iprop(records m K ∗ levAts L lv ∗ owes (c : Thread nD τ) (Orem c 30) W
        ∗ cred (tallyAt (rsRecvCell c 2 0) (0 : Fin 2) Nrs) ∗ atPos ER (rsRecvCell c 2 0) 0 ∅ 0
        ∗ xRest m c ∗ rsRecvPay m c 0 0 ∗ rsRecvPay m c 1 0 ∗ redHalfAny c 0
        ∗ (∀ res, (owes (c : Thread nD τ) (Orem c 30) (insert (.dma (rsRecvS 2 0), 0) W) ∗ atPos ER (rsRecvCell c 2 0) 1 ∅ 0
              ∗ xRest m c ∗ rsRecvPay m c 0 0 ∗ rsRecvPay m c 1 0 ∗ rsRecvPay m c 2 0
              ∗ (∃ fs, ⌜(∀ i ∈ (redHalf 0).view.set, fs i = redVal m c i) ∧ res.1 = redHalfVal m c 0⌝
                  ∗ (((redHalf 0).view.loc (c : Thread nD τ)) ↦[(redHalf 0).view.set]{fullShare} fs))) -∗ Kt res))
      ⊢ wp frame (wpE (defs₀ (F := F)) 𝒱₀ (c : Thread nD τ) none) Set.univ
          (k0_part11 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v211) Kt := by
  rw [k0_part11_eq_skeleton]; unfold k0_part11_skel
  simp only [Prog.lift, Prog.bind_op, Prog.bind_ret, Prog.pure_eq_ret]
  iintro ⟨#Hrec, #Hlev, HO, Hcr, Hat, Hx, H0, H1, Hred, Hk⟩
  ihave #⟨-, -, Hi, -⟩ := (records_rs m K c 2 0) $$ Hrec
  ihave #Hmw := (mayWait_rsRecv (F := F) c 2 0 30 (Nat.le_refl _)) $$ Hlev
  iapply (wp_rs_recv_waitDma2 m K c 2 0 (rsSlot_credit 2 0)) $$ [HO Hcr Hat]
  · iframe Hi Hcr HO Hmw Hat
  iintro ⟨HO, Hat, H2⟩
  unfold xRest
  iapply (wp_load 𝒱₀ (c : Thread nD τ) none Set.univ (m := xM) (xOwn_sub c 0)) $$ Hx
  iintro Hx
  unfold rsRecvPay
  iapply (wp_load 𝒱₀ (c : Thread nD τ) none Set.univ (m := rsM) (rs_load_sub 0 0)) $$ H0
  iintro H0
  iapply (wp_load 𝒱₀ (c : Thread nD τ) none Set.univ (m := rsM) (rs_load_sub 1 0)) $$ H1
  iintro H1
  iapply (wp_load 𝒱₀ (c : Thread nD τ) none Set.univ (m := rsM) (rs_load_sub 2 0)) $$ H2
  iintro H2
  unfold redHalfAny
  icases Hred with ⟨%f, Hred⟩
  iapply (wp_load 𝒱₀ (c : Thread nD τ) none Set.univ (m := redM) (red_load_sub 0)) $$ Hred
  iintro Hred
  iapply (wp_store 𝒱₀ (c : Thread nD τ) none Set.univ (m := redM)
    (r := Rect.unit (s := S128x128) ![64 * (0 : Fin 2).val, 0] S64x128.size (red_inb 0)) (S := (redHalf 0).view.set) (Finset.Subset.refl _)) $$ Hred
  iintro Hred
  iapply (wp_load 𝒱₀ (c : Thread nD τ) none Set.univ (m := redM) (red_load_sub 0)) $$ Hred
  iintro Hred
  iapply (le_wp_ret _ _)
  iapply Hk
  iframe HO Hat Hx H0 H1 H2
  iexists _; iframe Hred
  ipureintro
  have hp := pay_eq m c 0 k0_pay1 (by unfold redHalfVal; rw [if_pos rfl])
  exact ⟨red_stored' m c 0 f _ hp, red_read_back' m c 0 f _ hp⟩

theorem part33_spec (c : Dev nD) (W : Waits sig (Fin 2)) (v2 v5 v238 v265 v292 : BitVec 32) (Kt : PUnit → sProp 𝕄) :
    iprop(records m K ∗ levAts L lv ∗ owes (c : Thread nD τ) (Orem c 15) W
        ∗ cred (tallyAt (rsRecvCell c 0 1) (0 : Fin 2) Nrs) ∗ atPos ER (rsRecvCell c 0 1) 0 ∅ 0
        ∗ cred (tallyAt (rsRecvCell c 1 1) (0 : Fin 2) Nrs) ∗ atPos ER (rsRecvCell c 1 1) 0 ∅ 0
        ∗ (∀ res, (owes (c : Thread nD τ) (Orem c 15) (insert (.dma (rsRecvS 1 1), 0) (insert (.dma (rsRecvS 0 1), 0) W))
              ∗ atPos ER (rsRecvCell c 0 1) 1 ∅ 0 ∗ atPos ER (rsRecvCell c 1 1) 1 ∅ 0
              ∗ rsRecvPay m c 0 1 ∗ rsRecvPay m c 1 1) -∗ Kt res))
      ⊢ wp frame (wpE (defs₀ (F := F)) 𝒱₀ (c : Thread nD τ) none) Set.univ
          (k0_part33 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v238 v265 v292) Kt := by
  rw [k0_part33_eq_skeleton]; unfold k0_part33_skel
  simp only [Prog.lift, Prog.bind_op, Prog.bind_ret, Prog.pure_eq_ret]
  iintro ⟨#Hrec, #Hlev, HO, Hcr0, Hat0, Hcr1, Hat1, Hk⟩
  ihave #⟨-, -, Hi0, -⟩ := (records_rs m K c 0 1) $$ Hrec
  ihave #Hmw0 := (mayWait_rsRecv (F := F) c 0 1 15 (by decide)) $$ Hlev
  iapply (wp_rs_recv_waitDma2 m K c 0 1 (rsSlot_credit 0 1)) $$ [HO Hcr0 Hat0]
  · iframe Hi0 Hcr0 HO Hmw0 Hat0
  iintro ⟨HO, Hat0, H0⟩
  ihave #⟨-, -, Hi1, -⟩ := (records_rs m K c 1 1) $$ Hrec
  ihave #Hmw1 := (mayWait_rsRecv (F := F) c 1 1 15 (by decide)) $$ Hlev
  iapply (wp_rs_recv_waitDma2 m K c 1 1 (rsSlot_credit 1 1)) $$ [HO Hcr1 Hat1]
  · iframe Hi1 Hcr1 HO Hmw1 Hat1
  iintro ⟨HO, Hat1, H1⟩
  iapply (le_wp_ret _ _)
  iapply Hk
  iframe

theorem part34_spec (c : Dev nD) (W : Waits sig (Fin 2)) (v2 v8 v10 : BitVec 32)
    (Kt : (Σ' (v1134 : BitVec 32) (v1135 : BitVec 32), BitVec 32) → sProp 𝕄) :
    iprop(records m K ∗ levAts L lv ∗ owes (c : Thread nD τ) (Orem c 15) W
        ∗ cred (tallyAt (rsRecvCell c 2 1) (0 : Fin 2) Nrs) ∗ atPos ER (rsRecvCell c 2 1) 0 ∅ 0
        ∗ xRest m c ∗ rsRecvPay m c 0 1 ∗ rsRecvPay m c 1 1 ∗ redHalfAny c 1
        ∗ (∃ f, ⌜OutDone m {tileOf c 0} f⌝ ∗ (((c : Thread nD τ).loc cc0_stg1_0) ↦{fullShare} f))
        ∗ (∀ res, (owes (c : Thread nD τ) (Orem c 15) (insert (.dma (rsRecvS 2 1), 0) W) ∗ atPos ER (rsRecvCell c 2 1) 1 ∅ 0
              ∗ xRest m c ∗ rsRecvPay m c 0 1 ∗ rsRecvPay m c 1 1 ∗ rsRecvPay m c 2 1
              ∗ (∃ fs, ⌜∀ i ∈ (redHalf 1).view.set, fs i = redVal m c i⌝
                  ∗ (((redHalf 1).view.loc (c : Thread nD τ)) ↦[(redHalf 1).view.set]{fullShare} fs))
              ∗ (∃ f, ⌜OutDone m (doneTiles c 0) f⌝ ∗ (((c : Thread nD τ).loc cc0_stg1_0) ↦{fullShare} f))) -∗ Kt res))
      ⊢ wp frame (wpE (defs₀ (F := F)) 𝒱₀ (c : Thread nD τ) none) Set.univ
          (k0_part34 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v10) Kt := by
  rw [k0_part34_eq_skeleton]; unfold k0_part34_skel
  simp only [Prog.lift, Prog.bind_op, Prog.bind_ret, Prog.pure_eq_ret]
  iintro ⟨#Hrec, #Hlev, HO, Hcr, Hat, Hx, H0, H1, Hred, ⟨%fo, %hfo, Hout⟩, Hk⟩
  ihave #⟨-, -, Hi, -⟩ := (records_rs m K c 2 1) $$ Hrec
  ihave #Hmw := (mayWait_rsRecv (F := F) c 2 1 15 (by decide)) $$ Hlev
  iapply (wp_rs_recv_waitDma2 m K c 2 1 (rsSlot_credit 2 1)) $$ [HO Hcr Hat]
  · iframe Hi Hcr HO Hmw Hat
  iintro ⟨HO, Hat, H2⟩
  unfold xRest
  iapply (wp_load 𝒱₀ (c : Thread nD τ) none Set.univ (m := xM) (xOwn_sub c 1)) $$ Hx
  iintro Hx
  unfold rsRecvPay
  iapply (wp_load 𝒱₀ (c : Thread nD τ) none Set.univ (m := rsM) (rs_load_sub 0 1)) $$ H0
  iintro H0
  iapply (wp_load 𝒱₀ (c : Thread nD τ) none Set.univ (m := rsM) (rs_load_sub 1 1)) $$ H1
  iintro H1
  iapply (wp_load 𝒱₀ (c : Thread nD τ) none Set.univ (m := rsM) (rs_load_sub 2 1)) $$ H2
  iintro H2
  unfold redHalfAny
  icases Hred with ⟨%f, Hred⟩
  iapply (wp_load 𝒱₀ (c : Thread nD τ) none Set.univ (m := redM) (red_load_sub 1)) $$ Hred
  iintro Hred
  iapply (wp_store 𝒱₀ (c : Thread nD τ) none Set.univ (m := redM)
    (r := Rect.unit (s := S128x128) ![64 * (1 : Fin 2).val, 0] S64x128.size (red_inb 1)) (S := (redHalf 1).view.set) (Finset.Subset.refl _)) $$ Hred
  iintro Hred
  iapply (wp_load 𝒱₀ (c : Thread nD τ) none Set.univ (m := redM) (red_load_sub 1)) $$ Hred
  iintro Hred
  iapply (wp_load 𝒱₀ (c : Thread nD τ) none Set.univ (m := oM) (Finset.subset_univ _)) $$ Hout
  iintro Hout
  iapply (wp_store 𝒱₀ (c : Thread nD τ) none Set.univ (m := oM)
    (r := Rect.unit (s := S512x512) (k0_off2 c (BitVec.ofNat 32 (64 * (1 : Fin 2).val))) S64x128.size (k0_off2_inb c 1)) (S := Finset.univ) (Finset.subset_univ _)) $$ Hout
  iintro Hout
  iapply (le_wp_ret _ _)
  iapply Hk
  have hp := pay_eq m c 1 k0_pay2 (by unfold redHalfVal; rw [if_neg (by decide)])
  iframe HO Hat Hx H0 H1 H2
  isplitl [Hred]
  · iexists _; iframe Hred
    ipureintro
    exact red_stored' m c 1 f _ hp
  iexists _; iframe Hout
  ipureintro
  exact OutDone_second_own m c fo hfo _ (red_read_back' m c 1 f _ hp)

end Parts

end Cert.KernelIdeal.Hand

end
-- ==== Proof.HandKernelIdeal.AgStep.lean ====
import proofs.«900721_g7700000000000722_dist_ar_v7x_xyz2x2x4_z_m512_n512_f32_1_alg».proof.Proof.HandKernelIdeal.Regions
import proofs.«900721_g7700000000000722_dist_ar_v7x_xyz2x2x4_z_m512_n512_f32_1_alg».proof.Proof.HandKernelIdeal.Families
import proofs.«900721_g7700000000000722_dist_ar_v7x_xyz2x2x4_z_m512_n512_f32_1_alg».proof.Proof.HandKernelIdeal.Records

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase Idealize.SL.ProofMode Idealize.SL.Sem
open Idealize.ShloMosaic.Rounds
open Cert.Lib.Count Idealize.ShloMosaic.ValueIdx

variable {F : FTy → Type} [FloatOps F]

local notation "𝕄" => MT nD τ sig (Fin 2) (Elt F) ℕ UU ℕ

variable (m : (ℓ : Loc nD τ sig) → Buf (Elt F) ℓ)

section Steps
variable (K : GSem nD τ sig → ℕ)

theorem tl_insert {I : Type} [DecidableEq I] {s : Finset I} {i : I} (hi : i ∉ s) (Φ : I → sProp 𝕄) :
    bigSep (insert i s) Φ = iprop(Φ i ∗ bigSep s Φ) := bigSep_insert hi

theorem doneTiles_succ (c : Dev nD) (r : Fin 30) :
    doneTiles c (r.val + 1) = insert (tileOf (agS c (slotOf r)) (halfOf r)) (doneTiles c r.val) := by
  unfold doneTiles
  rw [filter_lt_succ r, Finset.image_insert, Finset.union_insert]

def agVec (c : Dev nD) (s : Fin 15) (h : Fin 2) : Vec F S1x64x128 .f32 :=
  fun i => agVal m c (fun k => match k with
    | ⟨0, _⟩ => ⟨s.val, s.isLt⟩
    | ⟨1, _⟩ => ⟨(64 * h.val + (i 1).val) % 128, Nat.mod_lt _ (by decide)⟩
    | ⟨2, _⟩ => ⟨(i 2).val, (i 2).isLt⟩)

theorem pay_agVec (c : Dev nD) (s : Fin 15) (h : Fin 2) :
    shapeCast S64x128 (agVec m c s h) shapeCasts_S1x64x128_S64x128
      = fun i => redVal m (agS c s) (at2t (64 * h.val + (i 0).val) (i 1).val) := by
  funext i
  obtain ⟨p, q, rfl⟩ : ∃ (p : Fin 64) (q : Fin 128), i = ix2 p q := ⟨i 0, i 1, eq_ix2 i⟩
  rw [shapeCast_1ab_ab_apply]
  show redVal m (agS c s) (at2t ((64 * h.val + p.val) % 128) q.val) = redVal m (agS c s) (at2t (64 * h.val + p.val) q.val)
  congr 1
  funext k
  match k with
  | ⟨0, _⟩ => exact Fin.ext (Nat.mod_mod _ _)
  | ⟨1, _⟩ => rfl

theorem ag_wait (c : Dev nD) (r : Fin 30) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {α : Type} {Q : α → sProp 𝕄} {k : PUnit → Prog (TpuEff nD τ sig (Elt F) Λ₀ .tc) α} :
    iprop(records m K ∗ Smid m c r.val r.val
        ∗ (Smid m c (r.val + 1) r.val -∗ wp frame (wpE (defs₀ (F := F)) 𝒱₀ (c : Thread nD τ) none) Set.univ (k ⟨⟩) Q))
      ⊢ wp frame (wpE (defs₀ (F := F)) 𝒱₀ (c : Thread nD τ) none) Set.univ
          (.op (.waitDma2 (agRecvS (slotOf r) (halfOf r)) src dst hsrc hdst) k) Q := by
  unfold Smid
  iintro ⟨#Hrec, ⟨⟨%W, HO⟩, Hx, Hrs, Hags, Hpend, Hdone, Hout⟩, Hk⟩
  ihave ⟨⟨Hat, Hcr⟩, Hpend⟩ := (pick_ge r _) $$ Hpend
  ihave #⟨-, -, HI, -⟩ := (records_ag m K c (slotOf r) (halfOf r)) $$ Hrec
  iapply (wp_ag_recv_waitDma2 m K c (slotOf r) (halfOf r) hcr (O := 0) (W := W)) $$ [HO Hat Hcr]
  · iframe HI Hcr HO Hat; rw [MayWait_zero]; iempintro
  iintro ⟨HO, Hat, Hpay⟩
  iapply Hk
  isplitl [HO]; · iexists _; iexact HO
  iframe Hx Hrs Hags Hpend Hout
  iapply (unpick_lt r _); iframe

abbrev agRect (r : Fin 30) : Rect S15x128x128 :=
  Rect.unit (s := S15x128x128) ![(slotOf r).val, 64 * (halfOf r).val, 0] S1x64x128.size (ag_inb (slotOf r) (halfOf r))
abbrev outRect (c : Dev nD) (r : Fin 30) : Rect S512x512 :=
  Rect.unit (s := S512x512) (k0_off3 c (k0_off3_at r).1 (k0_off3_at r).2.1 (k0_off3_at r).2.2.1 (k0_off3_at r).2.2.2) S64x128.size (k0_off3_inb c r)

theorem agRect_sub (c : Dev nD) (r : Fin 30) :
    agM.view.setOn (agRect r).toLoadRect.set ⊆ (agSlot (slotOf r) (halfOf r)).view.set := by
  rw [agSlot_set]
  show Finset.map (Function.Embedding.refl _) _ ⊆ _
  rw [Finset.map_refl]

theorem ag_ls (c : Dev nD) (r : Fin 30)
    {hl : agM.view.LoadsAt (agRect r).toLoadRect} {hl' : oM.view.LoadsAt (outRect c r).toLoadRect}
    {pay : Vec F S1x64x128 .f32 → FVec F S64x128 .f32} (hpay : ∀ v, pay v = shapeCast S64x128 v shapeCasts_S1x64x128_S64x128)
    {hx : (oM.access (outRect c r)).Stores Finset.univ}
    {hm : (Finset.univ : Finset (outRect c r).shape.Idx) = Finset.univ ∨ ∀ a, (outRect c r).stride a = 1}
    {α : Type} {Q : α → sProp 𝕄} {k : PUnit → Prog (TpuEff nD τ sig (Elt F) Λ₀ .tc) α} :
    Smid m c (r.val + 1) r.val
      ⊢ iprop((Smid m c (r.val + 1) (r.val + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.load agM (agRect r).toLoadRect hl) fun x =>
            .op (.load oM (outRect c r).toLoadRect hl') fun _ =>
              .op (.store oM (outRect c r) (pay x) Finset.univ hx hm) k) Q) := by
  have hr : r ∉ Finset.univ.filter fun x : Fin 30 => x.val < r.val := by simp
  unfold Smid agRecvPay
  rw [filter_lt_succ r, tl_insert hr, doneTiles_succ c r]
  iintro ⟨HO, Hx, Hrs, Hags, Hpend, ⟨⟨Hat, Hpay⟩, Hdone⟩, ⟨%f, %hf, Hout⟩⟩ Hk
  iapply (wp_load 𝒱₀ (c : Thread nD τ) none Set.univ (m := agM) (r := (agRect r).toLoadRect) (agRect_sub c r)) $$ Hpay; iintro Hpay
  rw [show agM.view.readAt (Elt F) (agRect r).toLoadRect (agVal m c) = agVec m c (slotOf r) (halfOf r) from
    read_ag m c (slotOf r) (halfOf r) (agVal m c) (fun _ _ => rfl)]
  iapply (wp_load 𝒱₀ (c : Thread nD τ) none Set.univ (m := oM) (Finset.subset_univ _)) $$ Hout; iintro Hout
  iapply (wp_store 𝒱₀ (c : Thread nD τ) none Set.univ (m := oM) (r := outRect c r) (Mk := Finset.univ) (Finset.subset_univ _)) $$ Hout; iintro Hout
  iapply Hk
  iframe HO Hx Hrs Hags Hpend Hat Hpay Hdone
  iexists _; iframe Hout
  ipureintro
  rw [hpay, pay_agVec]
  exact OutDone_store_ag m c r _ f hf

theorem ag_unit (c : Dev nD) (r : Fin 30) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {hl : agM.view.LoadsAt (agRect r).toLoadRect} {hl' : oM.view.LoadsAt (outRect c r).toLoadRect}
    {pay : Vec F S1x64x128 .f32 → FVec F S64x128 .f32} (hpay : ∀ v, pay v = shapeCast S64x128 v shapeCasts_S1x64x128_S64x128)
    {hx : (oM.access (outRect c r)).Stores Finset.univ}
    {hm : (Finset.univ : Finset (outRect c r).shape.Idx) = Finset.univ ∨ ∀ a, (outRect c r).stride a = 1}
    {α : Type} {Q : α → sProp 𝕄} {k : PUnit → Prog (TpuEff nD τ sig (Elt F) Λ₀ .tc) α} :
    iprop(records m K ∗ Smid m c r.val r.val)
      ⊢ iprop((Smid m c (r.val + 1) (r.val + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (agRecvS (slotOf r) (halfOf r)) src dst hsrc hdst) fun _ =>
            .op (.load agM (agRect r).toLoadRect hl) fun x =>
              .op (.load oM (outRect c r).toLoadRect hl') fun _ =>
                .op (.store oM (outRect c r) (pay x) Finset.univ hx hm) k) Q) := by
  iintro ⟨#Hrec, HS⟩ Hk
  iapply (ag_wait m K c r hcr); iframe Hrec HS
  iintro HS
  iapply (ag_ls m c r hpay) $$ HS Hk

end Steps

end Cert.KernelIdeal.Hand

end
-- ==== Proof.HandKernelIdeal.Drain0.lean ====
import proofs.«900721_g7700000000000722_dist_ar_v7x_xyz2x2x4_z_m512_n512_f32_1_alg».proof.Proof.HandKernelIdeal.AgStep

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase Idealize.SL.ProofMode Idealize.SL.Sem

variable {F : FTy → Type} [FloatOps F]

local notation "𝕄" => MT nD τ sig (Fin 2) (Elt F) ℕ UU ℕ

variable (m : (ℓ : Loc nD τ sig) → Buf (Elt F) ℓ)

abbrev drainStep0 : Fin 30 := ⟨0, by decide⟩
abbrev drainStep1 : Fin 30 := ⟨1, by decide⟩
abbrev drainStep2 : Fin 30 := ⟨2, by decide⟩
abbrev drainStep3 : Fin 30 := ⟨3, by decide⟩

section Parts
variable (K : GSem nD τ sig → ℕ)

theorem part56_spec (c : Dev nD) (v2 v5 v8 : BitVec 32) (Kt : _ → sProp 𝕄) :
    iprop(records m K ∗ levAts L lv ∗ Smid m c 0 0 ∗ (∀ res, Smid m c 1 0 -∗ Kt res))
      ⊢ wp frame (wpE (defs₀ (F := F)) 𝒱₀ (c : Thread nD τ) none) Set.univ
          (k0_part56 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8) Kt := by
  simp only [k0_part56_eq_skeleton, k0_part56_skel, Prog.lift, Prog.bind_op, Prog.bind_ret, Prog.pure_eq_ret]
  rw [show Smid m c 0 0 = Smid m c drainStep0.val drainStep0.val from rfl]
  iintro ⟨#Hrec, -, HS, Hk⟩
  iapply (ag_wait m K c drainStep0 (agSlot_credit ⟨0, by decide⟩ ⟨0, by decide⟩)); iframe Hrec HS
  iintro HS
  rw [wp_ret]; imodintro
  iapply Hk $$ HS

theorem part57_spec (c : Dev nD) (v2 v5 v425 v436 v448 v1880 v1882 : BitVec 32) (Kt : _ → sProp 𝕄) :
    iprop(records m K ∗ levAts L lv ∗ Smid m c 1 0 ∗ (∀ res, Smid m c 2 1 -∗ Kt res))
      ⊢ wp frame (wpE (defs₀ (F := F)) 𝒱₀ (c : Thread nD τ) none) Set.univ
          (k0_part57 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v425 v436 v448 v1880 v1882) Kt := by
  simp only [k0_part57_eq_skeleton, k0_part57_skel, Prog.lift, Prog.bind_op, Prog.bind_ret, Prog.pure_eq_ret]
  rw [show Smid m c 1 0 = Smid m c (drainStep0.val + 1) drainStep0.val from rfl]
  iintro ⟨#Hrec, -, HS, Hk⟩
  iapply (ag_ls m c drainStep0 (pay := k0_pay3) (fun _ => rfl)) $$ HS
  iintro HS
  iapply (ag_wait m K c drainStep1 (agSlot_credit ⟨1, by decide⟩ ⟨0, by decide⟩))
  isplitr; · iexact Hrec
  isplitl [HS]; · iexact HS
  iintro HS
  rw [wp_ret]; imodintro
  iapply Hk $$ HS

theorem part58_spec (c : Dev nD) (v8 v472 v1912 v1913 c2_i32_1422 c0_i32_1423 : BitVec 32) (Kt : _ → sProp 𝕄) :
    iprop(records m K ∗ levAts L lv ∗ Smid m c 2 1 ∗ (∀ res, Smid m c 2 2 -∗ Kt res))
      ⊢ wp frame (wpE (defs₀ (F := F)) 𝒱₀ (c : Thread nD τ) none) Set.univ
          (k0_part58 xM (Memref.isWhole_whole _) oM (Memref.isWhole_whole _) rsM (Memref.isWhole_whole _) redM (Memref.isWhole_whole _) agM (Memref.isWhole_whole _) cc0_scratch3 cc0_scratch4 cc0_scratch5 cc0_scratch6 c v8 v472 v1912 v1913 c2_i32_1422 c0_i32_1423) Kt := by
  simp only [k0_part58_eq_skeleton, k0_part58_skel, Prog.lift, Prog.bind_op, Prog.bind_ret, Prog.pure_eq_ret]
  rw [show Smid m c 2 1 = Smid m c (drainStep1.val + 1) drainStep1.val from rfl]
  iintro ⟨#Hrec, -, HS, Hk⟩
  iapply (ag_ls m c drainStep1 (pay := k0_pay4) (fun _ => rfl)) $$ HS
  iintro HS
  rw [wp_ret]; imodintro
  iapply Hk $$ HS

theorem part59_spec (c : Dev nD) (v2 v5 v8 v483 v495 v1946 c4_i32_1449 : BitVec 32) (Kt : _ → sProp 𝕄) :
    iprop(records m K ∗ levAts L lv ∗ Smid m c 2 2 ∗ (∀ res, Smid m c 3 2 -∗ Kt res))
      ⊢ wp frame (wpE (defs₀ (F := F)) 𝒱₀ (c : Thread nD τ) none) Set.univ
          (k0_part59 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8 v483 v495 v1946 c4_i32_1449) Kt := by
  simp only [k0_part59_eq_skeleton, k0_part59_skel, Prog.lift, Prog.bind_op, Prog.bind_ret, Prog.pure_eq_ret]
  rw [show Smid m c 2 2 = Smid m c drainStep2.val drainStep2.val from rfl]
  iintro ⟨#Hrec, -, HS, Hk⟩
  iapply (ag_wait m K c drainStep2 (agSlot_credit ⟨2, by decide⟩ ⟨0, by decide⟩)); iframe Hrec HS
  iintro HS
  rw [wp_ret]; imodintro
  iapply Hk $$ HS

theorem part60_spec (c : Dev nD) (v2 v519 v530 v542 v1966 v1977 v1980 v1981 c0_i32_1473 : BitVec 32) (Kt : _ → sProp 𝕄) :
    iprop(records m K ∗ levAts L lv ∗ Smid m c 3 2 ∗ (∀ res, Smid m c 4 3 -∗ Kt res))
      ⊢ wp frame (wpE (defs₀ (F := F)) 𝒱₀ (c : Thread nD τ) none) Set.univ
          (k0_part60 xM (Memref.isWhole_whole _) oM (Memref.isWhole_whole _) rsM (Memref.isWhole_whole _) redM (Memref.isWhole_whole _) agM (Memref.isWhole_whole _) cc0_scratch3 cc0_scratch4 cc0_scratch5 cc0_scratch6 c v2 v519 v530 v542 v1966 v1977 v1980 v1981 c0_i32_1473) Kt := by
  simp only [k0_part60_eq_skeleton, k0_part60_skel, Prog.lift, Prog.bind_op, Prog.bind_ret, Prog.pure_eq_ret]
  rw [show Smid m c 3 2 = Smid m c (drainStep2.val + 1) drainStep2.val from rfl]
  iintro ⟨#Hrec, -, HS, Hk⟩
  iapply (ag_ls m c drainStep2 (pay := k0_pay5) (fun _ => rfl)) $$ HS
  iintro HS
  iapply (ag_wait m K c drainStep3 (agSlot_credit ⟨3, by decide⟩ ⟨0, by decide⟩))
  isplitr; · iexact Hrec
  isplitl [HS]; · iexact HS
  iintro HS
  rw [wp_ret]; imodintro
  iapply Hk $$ HS

end Parts

end Cert.KernelIdeal.Hand

end
-- ==== Proof.HandKernelIdeal.Front.lean ====
import proofs.«900721_g7700000000000722_dist_ar_v7x_xyz2x2x4_z_m512_n512_f32_1_alg».proof.Proof.HandKernelIdeal.SendStates
import proofs.«900721_g7700000000000722_dist_ar_v7x_xyz2x2x4_z_m512_n512_f32_1_alg».proof.Proof.HandKernelIdeal.Assemble
import proofs.«900721_g7700000000000722_dist_ar_v7x_xyz2x2x4_z_m512_n512_f32_1_alg».proof.Proof.HandKernelIdeal.Sends
import proofs.«900721_g7700000000000722_dist_ar_v7x_xyz2x2x4_z_m512_n512_f32_1_alg».proof.Proof.HandKernelIdeal.Reduce
import proofs.«900721_g7700000000000722_dist_ar_v7x_xyz2x2x4_z_m512_n512_f32_1_alg».proof.Proof.HandKernelIdeal.Drain0
import proofs.«900721_g7700000000000722_dist_ar_v7x_xyz2x2x4_z_m512_n512_f32_1_alg».proof.Proof.HandKernelIdeal.Records

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.BarrierCell

variable {F : FTy → Type} [FloatOps F]

local notation "𝕄" => MT nD τ sig (Fin 2) (Elt F) ℕ UU ℕ

variable (m : (ℓ : Loc nD τ sig) → Buf (Elt F) ℓ)

abbrev barSems : Sems sig S_ := SemArray.scalar (sig.barrier 0 rfl)

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem part1_spec (K : GSem nD τ sig → ℕ) (c : Dev nD) (W : Waits sig (Fin 2))
    (Kt : (Σ' (d0 : Dev nD) (v2 : BitVec 32) (v5 : BitVec 32) (v8 : BitVec 32) (v10 : BitVec 32) (v11 : Sems sig S_) (v31 : BitVec 32) (v32 : BitVec 32), BitVec 1) → sProp 𝕄) :
    iprop(records m K ∗ owes (c : Thread nD τ) (Orem c 42) W ∗ payTok ER (barCell (zp c 1)) 0 ∗ barPay (F := F) (zp c 1) 0
        ∗ (∀ res, ⌜res.1 = c ∧ res.2.2.2.2.2.1 = barSems⌝ -∗ owes (c : Thread nD τ) (Orem c 41) W -∗ Kt res))
      ⊢ wp frame (wpE (defs₀ (F := F)) 𝒱₀ (c : Thread nD τ) none) Set.univ (k0_part1 xM (Memref.isWhole_whole _) oM (Memref.isWhole_whole _) rsM (Memref.isWhole_whole _) redM (Memref.isWhole_whole _) agM (Memref.isWhole_whole _) cc0_scratch3 cc0_scratch4 cc0_scratch5 cc0_scratch6) Kt := by
  iintro ⟨#Hrec, HO, Htok, Hpay, Hk⟩
  sl_exec
  have e1 : (⟨k0_dev1 (c : Thread nD τ).1, k0_dev1_lt (c : Thread nD τ).1⟩ : Dev nD) = zp c 1 := dev1_eq c
  have e16 : (16#32 : BitVec 32).toNat = amt 0 := rfl
  simp only [e1, e16]
  ihave #HIb := (records_bar m K (zp c 1)) $$ Hrec
  iapply (wp_bar_signal 𝒱₀ ER (c : Thread nD τ) none
      (κ := K (barCell (zp c 1))) (pay := barPay (F := F) (zp c 1)) (0 : Fin 2) (Orem c 41) rfl) $$ [HO Htok Hpay]
  · iframe HIb Htok Hpay; iexact HO
  iintro HO
  sl_exec
  iapply (le_wp_ret _ _)
  iapply Hk
  · ipureintro; exact ⟨rfl, rfl⟩
  iexact HO

theorem part2_spec (K : GSem nD τ sig → ℕ) (c : Dev nD) (W : Waits sig (Fin 2))
    (v2 v5 v8 v31 v32 : BitVec 32) (v33 : BitVec 1)
    (Kt : (Σ' (v63 : BitVec 32), BitVec 32) → sProp 𝕄) :
    iprop(records m K ∗ levAts L lv ∗ owes (c : Thread nD τ) (Orem c 41) W
        ∗ payTok ER (barCell (zp c 2)) 1 ∗ barPay (F := F) (zp c 2) 1
        ∗ payTok ER (barCell (zp c 3)) 2 ∗ barPay (F := F) (zp c 3) 2
        ∗ cred (tallyAt (barCell c) (0 : Fin 2) 48) ∗ phA ER (barCell c) 0
        ∗ ownTok ER (barCell c) 0 ∗ ownTok ER (barCell c) 1 ∗ ownTok ER (barCell c) 2
        ∗ (∀ res, (owes (c : Thread nD τ) (Orem c 39) (insert (SemLoc.reg barS, (0 : Fin 2)) W) ∗ phB ER (barCell c) 0
              ∗ barPay (F := F) c 0 ∗ barPay (F := F) c 1 ∗ barPay (F := F) c 2) -∗ Kt res))
      ⊢ wp frame (wpE (defs₀ (F := F)) 𝒱₀ (c : Thread nD τ) none) Set.univ
          (k0_part2 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems v31 v32 v33) Kt := by
  iintro ⟨#Hrec, #Hlev, HO, Htok1, Hpay1, Htok2, Hpay2, Hcr, HphA, Ho0, Ho1, Ho2, Hk⟩
  sl_exec
  simp only [dev2_eq c, show (16#32 : BitVec 32).toNat = amt 1 from rfl]
  ihave #HIb2 := (records_bar m K (zp c 2)) $$ Hrec
  iapply (wp_bar_signal 𝒱₀ ER (c : Thread nD τ) none
      (κ := K (barCell (zp c 2))) (pay := barPay (F := F) (zp c 2)) (0 : Fin 2) (Orem c 40) rfl) $$ [HO Htok1 Hpay1]
  · iframe HIb2 Htok1 Hpay1; iexact HO
  iintro HO
  sl_exec
  simp only [dev3_eq c, show (16#32 : BitVec 32).toNat = amt 2 from rfl]
  ihave #HIb3 := (records_bar m K (zp c 3)) $$ Hrec
  iapply (wp_bar_signal 𝒱₀ ER (c : Thread nD τ) none
      (κ := K (barCell (zp c 3))) (pay := barPay (F := F) (zp c 3)) (0 : Fin 2) (Orem c 39) rfl) $$ [HO Htok2 Hpay2]
  · iframe HIb3 Htok2 Hpay2; iexact HO
  iintro HO
  sl_exec
  simp only [show (48#32 : BitVec 32).toNat = 48 from rfl]
  ihave #HIb := (records_bar m K c) $$ Hrec
  ihave #Hmw := (mayWait_bar48 (F := F) c) $$ Hlev
  iapply (wp_bar_wait48 𝒱₀ ER (c : Thread nD τ) none (sem := barS) (κ := K (barCell c)) (pay := barPay (F := F) c)
      (wpE_semWait_eq 𝒱₀ (c : Thread nD τ) none Set.univ) (Set.mem_univ _) (0 : Fin 2) (O := Orem c 39) (W := W)) $$ [HO Hcr HphA Ho0 Ho1 Ho2]
  · iframe HIb Hcr HO Hmw HphA Ho0 Ho1 Ho2
  iintro ⟨HO, HphB, P0, P1, P2⟩
  sl_exec
  iapply (le_wp_ret _ _)
  iapply Hk
  iframe

theorem part3_spec (K : GSem nD τ sig → ℕ) (c : Dev nD) (W : Waits sig (Fin 2))
    (v2 v5 v8 v63 v65 : BitVec 32)
    (Kt : (Σ' (v101 : BitVec 32), BitVec 32) → sProp 𝕄) :
    iprop(records m K ∗ owes (c : Thread nD τ) (Orem c 39) W
        ∗ payTok ER (barCell (xyp c 0 1)) 3 ∗ barPay (F := F) (xyp c 0 1) 3
        ∗ (∀ res, owes (c : Thread nD τ) (Orem c 38) W -∗ Kt res))
      ⊢ wp frame (wpE (defs₀ (F := F)) 𝒱₀ (c : Thread nD τ) none) Set.univ
          (k0_part3 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems v63 v65) Kt := by
  iintro ⟨#Hrec, HO, Htok, Hpay, Hk⟩
  sl_exec
  simp only [dev4_eq c, show (1#32 : BitVec 32).toNat = amt 3 from rfl]
  ihave #HIb := (records_bar m K (xyp c 0 1)) $$ Hrec
  iapply (wp_bar_signal 𝒱₀ ER (c : Thread nD τ) none
      (κ := K (barCell (xyp c 0 1))) (pay := barPay (F := F) (xyp c 0 1)) (1 : Fin 2) (Orem c 38) rfl) $$ [HO Htok Hpay]
  · iframe HIb Htok Hpay; iexact HO
  iintro HO
  sl_exec
  iapply (le_wp_ret _ _)
  iapply Hk $$ HO

theorem part4_spec (K : GSem nD τ sig → ℕ) (c : Dev nD) (W : Waits sig (Fin 2))
    (v2 v5 v8 v101 w62 : BitVec 32)
    (Kt : (Σ' (v129 : BitVec 32) (v132 : BitVec 32) (v133 : BitVec 32) (v134 : BitVec 1) (v135 : BitVec 1), BitVec 32) → sProp 𝕄) :
    iprop(records m K ∗ owes (c : Thread nD τ) (Orem c 38) W
        ∗ payTok ER (barCell (xyp c 1 0)) 4 ∗ barPay (F := F) (xyp c 1 0) 4
        ∗ (∀ res, owes (c : Thread nD τ) (Orem c 37) W -∗ Kt res))
      ⊢ wp frame (wpE (defs₀ (F := F)) 𝒱₀ (c : Thread nD τ) none) Set.univ
          (k0_part4 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems v101 w62) Kt := by
  iintro ⟨#Hrec, HO, Htok, Hpay, Hk⟩
  sl_exec
  simp only [dev5_eq c, show (1#32 : BitVec 32).toNat = amt 4 from rfl]
  ihave #HIb := (records_bar m K (xyp c 1 0)) $$ Hrec
  iapply (wp_bar_signal 𝒱₀ ER (c : Thread nD τ) none
      (κ := K (barCell (xyp c 1 0))) (pay := barPay (F := F) (xyp c 1 0)) (1 : Fin 2) (Orem c 37) rfl) $$ [HO Htok Hpay]
  · iframe HIb Htok Hpay; iexact HO
  iintro HO
  sl_exec
  iapply (le_wp_ret _ _)
  iapply Hk $$ HO

theorem part5_spec (K : GSem nD τ sig → ℕ) (c : Dev nD) (W : Waits sig (Fin 2))
    (v2 v5 v8 v10 v129 v132 v133 : BitVec 32) (v134 v135 : BitVec 1) (w87 : BitVec 32)
    (Kt : BitVec 32 → sProp 𝕄) :
    iprop(records m K ∗ owes (c : Thread nD τ) (Orem c 37) W
        ∗ payTok ER (barCell (xyp c 1 1)) 5 ∗ barPay (F := F) (xyp c 1 1) 5
        ∗ (∀ res, owes (c : Thread nD τ) (Orem c 36) W -∗ Kt res))
      ⊢ wp frame (wpE (defs₀ (F := F)) 𝒱₀ (c : Thread nD τ) none) Set.univ
          (k0_part5 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 barSems v129 v132 v133 v134 v135 w87) Kt := by
  iintro ⟨#Hrec, HO, Htok, Hpay, Hk⟩
  sl_exec
  simp only [dev6_eq c, show (1#32 : BitVec 32).toNat = amt 5 from rfl]
  ihave #HIb := (records_bar m K (xyp c 1 1)) $$ Hrec
  iapply (wp_bar_signal 𝒱₀ ER (c : Thread nD τ) none
      (κ := K (barCell (xyp c 1 1))) (pay := barPay (F := F) (xyp c 1 1)) (1 : Fin 2) (Orem c 36) rfl) $$ [HO Htok Hpay]
  · iframe HIb Htok Hpay; iexact HO
  iintro HO
  sl_exec
  iapply (le_wp_ret _ _)
  iapply Hk $$ HO

theorem part12_spec (K : GSem nD τ sig → ℕ) (c : Dev nD) (W : Waits sig (Fin 2))
    (v2 v5 v8 v362 w264 : BitVec 32) (g1 : Buf (Elt F) ((c : Thread nD τ).loc cc0_stg1_0))
    (Kt : (Σ' (v378 : BitVec 32) (v389 : BitVec 32) (v393 : BitVec 32) (v394 : BitVec 32) (v395 : BitVec 1), BitVec 1) → sProp 𝕄) :
    iprop(records m K ∗ levAts L lv ∗ owes (c : Thread nD τ) (Orem c 30) W
        ∗ cred (tallyAt (barCell c) (1 : Fin 2) 3) ∗ phB ER (barCell c) 0 ∗ phA ER (barCell c) 1
        ∗ ownTok ER (barCell c) 3 ∗ ownTok ER (barCell c) 4 ∗ ownTok ER (barCell c) 5
        ∗ (((c : Thread nD τ).loc cc0_stg1_0) ↦{fullShare} g1)
        ∗ (∀ res, (owes (c : Thread nD τ) (Orem c 30) (insert (SemLoc.reg barS, (1 : Fin 2)) W)
              ∗ barPay (F := F) c 3 ∗ barPay (F := F) c 4 ∗ barPay (F := F) c 5
              ∗ (∃ f, ⌜OutDone m {tileOf c 0} f⌝ ∗ (((c : Thread nD τ).loc cc0_stg1_0) ↦{fullShare} f))) -∗ Kt res))
      ⊢ wp frame (wpE (defs₀ (F := F)) 𝒱₀ (c : Thread nD τ) none) Set.univ
          (k0_part12 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems (redHalfVal m c 0) v362 w264) Kt := by
  iintro ⟨#Hrec, #Hlev, HO, Hcr, HphB, HphA, Ho3, Ho4, Ho5, Hout, Hk⟩
  sl_exec
  sl_step
  sl_exec
  simp only [show (3#32 : BitVec 32).toNat = 3 from rfl]
  ihave #HIb := (records_bar m K c) $$ Hrec
  ihave #Hmw := (mayWait_bar3 (F := F) c) $$ Hlev
  iapply (wp_bar_wait3 𝒱₀ ER (c : Thread nD τ) none (sem := barS) (κ := K (barCell c)) (pay := barPay (F := F) c)
      (wpE_semWait_eq 𝒱₀ (c : Thread nD τ) none Set.univ) (Set.mem_univ _) (1 : Fin 2) (O := Orem c 30) (W := W)) $$ [HO Hcr HphB HphA Ho3 Ho4 Ho5]
  · iframe HIb Hcr HO Hmw HphB HphA Ho3 Ho4 Ho5
  iintro ⟨HO, P3, P4, P5⟩
  sl_exec
  iapply (le_wp_ret _ _)
  iapply Hk
  iframe HO P3 P4 P5
  iexists _; iframe Hout
  ipureintro
  exact OutDone_first_own m c g1

theorem bigSep_jh (Φ : Fin 3 → Fin 2 → sProp 𝕄) :
    bigSep Finset.univ (fun jh : Fin 3 × Fin 2 => Φ jh.1 jh.2) = iprop((Φ 0 0 ∗ Φ 0 1) ∗ (Φ 1 0 ∗ Φ 1 1) ∗ (Φ 2 0 ∗ Φ 2 1)) := by
  rw [bigSep_univ_prod, bigSep_fin3]
  simp only [bigSep_univ_two]

private theorem curry3 {P Q R G : sProp 𝕄} (h : iprop(P ∗ Q ∗ R) ⊢ G) : P ⊢ iprop(Q -∗ R -∗ G) := by
  iintro HP HQ HR; iapply h; iframe

private theorem curry4 {P L Q R G : sProp 𝕄} (h : iprop(P ∗ L ∗ Q ∗ R) ⊢ G) : P ⊢ iprop(L -∗ Q -∗ R -∗ G) := by
  iintro HP HL HQ HR; iapply h; iframe

set_option maxHeartbeats 6400000 in
theorem front (K : GSem nD τ sig → ℕ) (c : Dev nD) (Kt : _ → sProp 𝕄) :
    iprop(bodyPre m K c ∗ (∀ res, ⌜res.1 = c⌝ -∗ (records m K ∗ levAts L lv ∗ Smid m c 4 3) -∗ Kt res))
      ⊢ wp frame (wpE (defs₀ (F := F)) 𝒱₀ (c : Thread nD τ) none) Set.univ (k0_part113 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [k0_part113_eq_skeleton]; unfold k0_part113_skel
  simp only [wp_bind]
  unfold bodyPre
  iintro ⟨⟨⟨Hgh, Hcr, #Hlev, Hscr⟩, Ho, ⟨%d0, %g0, %hg0, Hx⟩, ⟨%d1, %g1, %hg1, Hout⟩⟩, Hk⟩
  have hx : g0 = xblk m c := by rw [hg0]; unfold Dat.before; rw [if_pos (fetch0_0 t₀)]; rfl
  subst hx
  unfold scratchAny
  icases Hscr with ⟨Hrs, Hred, Hag⟩
  icases (rs_split3 (F := F) c) $$ Hrs with ⟨R0, R1, R2⟩
  icases (ag_split15 (F := F) c) $$ Hag with ⟨A0, A1, A2, A3, A4, A5, A6, A7, A8, A9, A10, A11, A12, A13, A14⟩
  icases (red_split (F := F) c) $$ Hred with ⟨Hred0, Hred1⟩
  unfold ghost barToks positions dmaToks
  icases Hgh with ⟨#Hrec, ⟨HposRs, HposAg⟩, ⟨HdRs, HdAg⟩, ⟨Hp0, Hp1, Hp2, Hp3, Hp4, Hp5, Hown, HphA0, HphA1⟩⟩
  icases (Entails.of_eq (bigSep_six (F := F) (fun d : Fin 6 => ownTok ER (barCell c) d))) $$ Hown with ⟨Ho0, Ho1, Ho2, Ho3, Ho4, Ho5⟩
  icases (Entails.of_eq (bigSep_jh (F := F) (fun j h => iprop(atPos ER (rsSendCell c j h) 0 ∅ 0 ∗ atPos ER (rsRecvCell c j h) 0 ∅ 0)))) $$ HposRs with ⟨⟨⟨S00, V00⟩, ⟨S01, V01⟩⟩, ⟨⟨S10, V10⟩, ⟨S11, V11⟩⟩, ⟨S20, V20⟩, ⟨S21, V21⟩⟩
  unfold creds
  icases Hcr with ⟨Hc48, Hc3, HcRs, HcAg⟩
  icases (Entails.of_eq (bigSep_jh (F := F) (fun j h => cred (tallyAt (rsRecvCell c j h) (0 : Fin 2) Nrs)))) $$ HcRs with ⟨⟨C00, C01⟩, ⟨C10, C11⟩, C20, C21⟩
  unfold Dat.owesAt Pipeline.owesWithin
  icases Ho with ⟨%W, %hW, HO⟩
  rw [show (dats m 0 c).owed t₀.castSucc = Orem c 42 from rfl]
  iapply (part1_spec m K c W)
  isplitr; · iexact Hrec
  iframe HO Hp0
  isplitl [R2 A0 A4 A8 A12]
  · iapply (z_payload0 (F := F) c); iframe
  iintro %r1 %hr1 HO
  obtain ⟨hd0, hv11⟩ := hr1
  rw [hd0, hv11]
  iapply (part2_spec m K c W)
  isplitr; · iexact Hrec
  isplitr; · iexact Hlev
  iframe HO Hp1
  isplitl [R1 A1 A5 A9 A13]
  · iapply (z_payload1 (F := F) c); iframe
  iframe Hp2
  isplitl [R0 A2 A6 A10 A14]
  · iapply (z_payload2 (F := F) c); iframe
  iframe Hc48 HphA0 Ho0 Ho1 Ho2
  iintro %r2 ⟨HO, HphB0, P0, P1, P2⟩
  ihave HZ := (z_open (F := F) c) $$ [P0 P1 P2]
  · iframe
  icases HZ with ⟨⟨Zr2, Zr1, Zr0⟩, ⟨Za0, Za1, Za2⟩, ⟨Za4, Za5, Za6⟩, ⟨Za8, Za9, Za10⟩, ⟨Za12, Za13, Za14⟩⟩
  iapply (part3_spec m K c _)
  isplitr; · iexact Hrec
  iframe HO Hp3
  isplitl [A3 Za4 Za5 Za6]
  · iapply (xy_payload0 (F := F) c); iframe
  iintro %r3 HO
  iapply (part4_spec m K c _)
  isplitr; · iexact Hrec
  iframe HO Hp4
  isplitl [A7 Za8 Za9 Za10]
  · iapply (xy_payload1 (F := F) c); iframe
  iintro %r4 HO
  iapply (part5_spec m K c _)
  isplitr; · iexact Hrec
  iframe HO Hp5
  isplitl [A11 Za12 Za13 Za14]
  · iapply (xy_payload2 (F := F) c); iframe
  iintro %r5 HO
  ihave HS := (mk_SrsSend m c _) $$ [HO Hx Zr2 Zr1 Zr0 HdRs]
  · iframe
  icases HS with ⟨HS, HxR⟩
  iapply (curry3 (part6_spec m K c _ _ _ _ _)) $$ Hrec HS
  iintro %r6 HS
  iapply (curry3 (part7_spec m K c _ _ _ _ _ _ _ _)) $$ Hrec HS
  iintro %r7 HS
  iapply (curry3 (part8_spec m K c _ _ _ _ _ _ _ _)) $$ Hrec HS
  iintro %r8 HS
  iapply (curry3 (part9_spec m K c _ _ _ _ _ _)) $$ Hrec HS
  iintro %r9 HS
  iapply (part10_spec m K c _ _ _ _ _ _ _)
  isplitr; · iexact Hrec
  isplitr; · iexact Hlev
  iframe HS V00 C00 V10 C10
  iintro %r10 ⟨HS, Y00, V00, Y10, V10⟩
  icases (SrsSend_open m c 6) $$ HS with ⟨⟨%W6, HO⟩, -, HcrS⟩
  iapply (part11_spec m K c W6)
  isplitr; · iexact Hrec
  isplitr; · iexact Hlev
  iframe HO C20 V20 HxR Y00 Y10 Hred0
  iintro %r11 ⟨HO, V20, HxR, Y00, Y10, Y20, %fs0, %hfs0', Hr0⟩
  obtain ⟨hfs0, hv361⟩ := hfs0'
  rw [hv361]
  iapply (part12_spec m K c _ _ _ _ _ _ g1)
  isplitr; · iexact Hrec
  isplitr; · iexact Hlev
  iframe HO Hc3 HphB0 HphA1 Ho3 Ho4 Ho5 Hout
  iintro %r12 ⟨HO, P3, P4, P5, Hout⟩
  ihave HT := (targets (F := F) c) $$ [Za0 Za1 Za2 P3 P4 P5]
  · iframe
  icases (Entails.of_eq (halves_eq (F := F) (fun sh : Fin 15 × Fin 2 => agSlotAny (agT c sh.1) sh.1 sh.2))) $$ HT with ⟨HT0, HT1⟩
  icases (Entails.of_eq (halves_eq (F := F) (fun sh : Fin 15 × Fin 2 => iprop(dutyTok ER (agSendCell c sh.1 sh.2) 0 0
      ∗ dutyTok ER (agRecvCell (agT c sh.1) sh.1 sh.2) 0 0)))) $$ HdAg with ⟨HdAg0, HdAg1⟩
  ihave HS := (mk_SagSend (F := F) c 0 fs0 _) $$ [HO Hr0 HT0 HdAg0]
  · iframe
  iapply (curry3 (part13_spec m K c _ _ _ _ _ _ _ _ fs0 hfs0 _)) $$ Hrec HS
  iintro %r13 HS
  iapply (curry3 (part14_spec m K c _ _ _ _ _ _ fs0 hfs0 _)) $$ Hrec HS
  iintro %r14 HS
  iapply (curry3 (part15_spec m K c _ _ _ _ _ fs0 hfs0 _)) $$ Hrec HS
  iintro %r15 HS
  iapply (curry3 (part16_spec m K c _ _ _ _ _ _ _ fs0 hfs0 _)) $$ Hrec HS
  iintro %r16 HS
  iapply (curry3 (part17_spec m K c _ _ _ _ _ fs0 hfs0 _)) $$ Hrec HS
  iintro %r17 HS
  iapply (curry3 (part18_spec m K c _ _ _ fs0 hfs0 _)) $$ Hrec HS
  iintro %r18 HS
  iapply (curry3 (part19_spec m K c _ _ _ fs0 hfs0 _)) $$ Hrec HS
  iintro %r19 HS
  iapply (curry3 (part20_spec m K c _ _ _ _ _ _ _ fs0 hfs0 _)) $$ Hrec HS
  iintro %r20 HS
  iapply (curry3 (part21_spec m K c _ _ _ _ _ _ _ _ fs0 hfs0 _)) $$ Hrec HS
  iintro %r21 HS
  iapply (curry3 (part22_spec m K c _ _ _ _ _ fs0 hfs0 _)) $$ Hrec HS
  iintro %r22 HS
  iapply (curry3 (part23_spec m K c _ _ _ _ _ _ fs0 hfs0 _)) $$ Hrec HS
  iintro %r23 HS
  iapply (curry3 (part24_spec m K c _ _ _ _ _ _ fs0 hfs0 _)) $$ Hrec HS
  iintro %r24 HS
  iapply (curry3 (part25_spec m K c _ _ _ _ _ fs0 hfs0 _)) $$ Hrec HS
  iintro %r25 HS
  iapply (curry3 (part26_spec m K c _ _ _ fs0 hfs0 _)) $$ Hrec HS
  iintro %r26 HS
  iapply (curry3 (part27_spec m K c _ _ _ _ _ fs0 hfs0 _)) $$ Hrec HS
  iintro %r27 HS
  iapply (curry3 (part28_spec m K c _ _ _ _ _ fs0 hfs0 _)) $$ Hrec HS
  iintro %r28 HS
  iapply (curry3 (part29_spec m K c _ _ _ _ _ _ _ fs0 hfs0 _)) $$ Hrec HS
  iintro %r29 HS
  iapply (curry3 (part30_spec m K c _ _ _ fs0 hfs0 _)) $$ Hrec HS
  iintro %r30 HS
  iapply (curry3 (part31_spec m K c _ _ _ _ _ _ _ _ _ fs0 hfs0 _)) $$ Hrec HS
  iintro %r31 HS
  iapply (curry3 (part32_spec m K c _ _ _ _ _ fs0 hfs0 _)) $$ Hrec HS
  iintro %r32 HS
  unfold SagSend
  icases HS with ⟨⟨%W15, HO⟩, -, HcrA0⟩
  iapply (part33_spec m K c W15)
  isplitr; · iexact Hrec
  isplitr; · iexact Hlev
  iframe HO C01 V01 C11 V11
  iintro %r33 ⟨HO, V01, V11, Y01, Y11⟩
  iapply (part34_spec m K c _)
  isplitr; · iexact Hrec
  isplitr; · iexact Hlev
  iframe HO C21 V21 HxR Y01 Y11 Hred1 Hout
  iintro %r34 ⟨HO, V21, HxR, Y01, Y11, Y21, ⟨%fs1, %hfs1, Hr1⟩, Hout⟩
  ihave HS := (mk_SagSend (F := F) c 1 fs1 _) $$ [HO Hr1 HT1 HdAg1]
  · iframe
  iapply (curry3 (part35_spec m K c _ _ _ _ _ fs1 hfs1 _)) $$ Hrec HS
  iintro %r35 HS
  iapply (curry3 (part36_spec m K c _ _ _ _ _ _ fs1 hfs1 _)) $$ Hrec HS
  iintro %r36 HS
  iapply (curry3 (part37_spec m K c _ _ _ _ _ _ fs1 hfs1 _)) $$ Hrec HS
  iintro %r37 HS
  iapply (curry3 (part38_spec m K c _ _ _ _ _ fs1 hfs1 _)) $$ Hrec HS
  iintro %r38 HS
  iapply (curry3 (part39_spec m K c _ _ _ fs1 hfs1 _)) $$ Hrec HS
  iintro %r39 HS
  iapply (curry3 (part40_spec m K c _ _ _ _ _ fs1 hfs1 _)) $$ Hrec HS
  iintro %r40 HS
  iapply (curry3 (part41_spec m K c _ _ _ _ _ fs1 hfs1 _)) $$ Hrec HS
  iintro %r41 HS
  iapply (curry3 (part42_spec m K c _ _ _ _ _ _ _ fs1 hfs1 _)) $$ Hrec HS
  iintro %r42 HS
  iapply (curry3 (part43_spec m K c _ _ _ fs1 hfs1 _)) $$ Hrec HS
  iintro %r43 HS
  iapply (curry3 (part44_spec m K c _ _ _ _ _ _ _ _ _ fs1 hfs1 _)) $$ Hrec HS
  iintro %r44 HS
  iapply (curry3 (part45_spec m K c _ _ _ _ _ _ fs1 hfs1 _)) $$ Hrec HS
  iintro %r45 HS
  iapply (curry3 (part46_spec m K c _ _ _ _ _ fs1 hfs1 _)) $$ Hrec HS
  iintro %r46 HS
  iapply (curry3 (part47_spec m K c _ _ _ _ _ _ fs1 hfs1 _)) $$ Hrec HS
  iintro %r47 HS
  iapply (curry3 (part48_spec m K c _ _ _ _ _ _ fs1 hfs1 _)) $$ Hrec HS
  iintro %r48 HS
  iapply (curry3 (part49_spec m K c _ _ _ _ fs1 hfs1 _)) $$ Hrec HS
  iintro %r49 HS
  iapply (curry3 (part50_spec m K c _ _ _ fs1 hfs1 _)) $$ Hrec HS
  iintro %r50 HS
  iapply (curry3 (part51_spec m K c _ _ _ _ _ fs1 hfs1 _)) $$ Hrec HS
  iintro %r51 HS
  iapply (curry3 (part52_spec m K c _ _ _ _ _ _ _ fs1 hfs1 _)) $$ Hrec HS
  iintro %r52 HS
  iapply (curry3 (part53_spec m K c _ _ _ _ _ fs1 hfs1 _)) $$ Hrec HS
  iintro %r53 HS
  iapply (curry3 (part54_spec m K c _ _ _ _ _ fs1 hfs1 _)) $$ Hrec HS
  iintro %r54 HS
  iapply (curry3 (part55_spec m K c _ _ _ _ _ _ _ _ fs1 hfs1 _)) $$ Hrec HS
  iintro %r55 HS
  unfold SagSend
  icases HS with ⟨⟨%W0, HO⟩, -, HcrA1⟩
  ihave HS := (Smid_intro m c W0) $$ [HO HxR Y00 V00 Y01 V01 Y10 V10 Y11 V11 Y20 V20 Y21 V21 S00 S01 S10 S11 S20 S21 HcrS HposAg HcrA0 HcrA1 HcAg Hout]
  · isplitl [HO]; · iexact HO
    iframe HxR
    isplitl [Y00 V00 Y01 V01 Y10 V10 Y11 V11 Y20 V20 Y21 V21]
    · iapply (Entails.of_eq (bigSep_jh (F := F) (fun j h => iprop(rsRecvPay m c j h ∗ atPos ER (rsRecvCell c j h) 1 ∅ 0))).symm)
      iframe
    isplitl [S00 S01 S10 S11 S20 S21]
    · iapply (Entails.of_eq (bigSep_jh (F := F) (fun j h => atPos ER (rsSendCell c j h) 0 ∅ 0)).symm)
      iframe
    iframe HcrS HposAg HcrA0 HcrA1 HcAg
    iexact Hout
  iapply (curry4 (part56_spec m K c _ _ _ _)) $$ Hrec Hlev HS
  iintro %r56 HS
  iapply (curry4 (part57_spec m K c _ _ _ _ _ _ _ _)) $$ Hrec Hlev HS
  iintro %r57 HS
  iapply (curry4 (part58_spec m K c _ _ _ _ _ _ _)) $$ Hrec Hlev HS
  iintro %r58 HS
  iapply (curry4 (part59_spec m K c _ _ _ _ _ _ _ _)) $$ Hrec Hlev HS
  iintro %r59 HS
  iapply (curry4 (part60_spec m K c _ _ _ _ _ _ _ _ _ _)) $$ Hrec Hlev HS
  iintro %r60 HS
  simp only [Prog.pure_eq_ret]
  iapply (le_wp_ret _ _)
  iapply Hk
  · ipureintro; rfl
  isplitr; · iexact Hrec
  isplitr; · iexact Hlev
  iexact HS

end Cert.KernelIdeal.Hand

end
-- ==== Proof.HandKernelIdeal.SendWaits.lean ====
import proofs.«900721_g7700000000000722_dist_ar_v7x_xyz2x2x4_z_m512_n512_f32_1_alg».proof.Proof.HandKernelIdeal.BodyMid
import proofs.«900721_g7700000000000722_dist_ar_v7x_xyz2x2x4_z_m512_n512_f32_1_alg».proof.Proof.HandKernelIdeal.Families
import proofs.«900721_g7700000000000722_dist_ar_v7x_xyz2x2x4_z_m512_n512_f32_1_alg».proof.Proof.HandKernelIdeal.Regions
import proofs.«900721_g7700000000000722_dist_ar_v7x_xyz2x2x4_z_m512_n512_f32_1_alg».proof.Proof.HandKernelIdeal.Records

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Lib.Count

variable {F : FTy → Type} [FloatOps F]

local notation "𝕄" => MT nD τ sig (Fin 2) (Elt F) ℕ UU ℕ

variable (m : (ℓ : Loc nD τ sig) → Buf (Elt F) ℓ)

abbrev SwI := (Fin 3 × Fin 2) ⊕ (Fin 15 × Fin 2)

def swHalf (w : Fin 36) : Fin 2 := ⟨w.val / 18, by have := w.isLt; omega⟩

-- the device's own copies in the order it waits for them: half by half, the three reduce-scatter copies, then the fifteen all-gather copies
def swIdx : SwI ≃ Fin 36 where
  toFun x := match x with
    | .inl (j, h) => ⟨18 * h.val + j.val, by have := j.isLt; have := h.isLt; omega⟩
    | .inr (s, h) => ⟨18 * h.val + 3 + s.val, by have := s.isLt; have := h.isLt; omega⟩
  invFun w := if h : w.val % 18 < 3 then .inl (⟨w.val % 18, h⟩, swHalf w) else .inr (⟨w.val % 18 - 3, by omega⟩, swHalf w)
  left_inv := by decide
  right_inv := by decide

def sendSem : SwI → DmaSem sig := Sum.elim (fun jh => rsSendS jh.1 jh.2) fun sh => agSendS sh.1 sh.2
abbrev sendCell (c : Dev nD) (x : SwI) : GSem nD τ sig := ((c : Thread nD τ), .dma (sendSem x))
def sendAmt : SwI → ℕ := Sum.elim (fun _ => Nrs) fun _ => Nag
def sendPay (c : Dev nD) : SwI → sProp 𝕄 := Sum.elim (fun jh => rsSendPay m c jh.1 jh.2) fun sh => agSendPay m c sh.1 sh.2

abbrev swTodo (c : Dev nD) : Fin 36 → sProp 𝕄 := fun w =>
  iprop(atPos ER (sendCell c (swIdx.symm w)) 0 ∅ 0 ∗ cred (tallyAt (sendCell c (swIdx.symm w)) (0 : Fin 2) (sendAmt (swIdx.symm w))))
abbrev swDone (c : Dev nD) : Fin 36 → sProp 𝕄 := fun w =>
  iprop(atPos ER (sendCell c (swIdx.symm w)) 1 ∅ 0 ∗ sendPay m c (swIdx.symm w))

theorem swTodo_at (c : Dev nD) (x : SwI) : swTodo (F := F) c (swIdx x)
    = iprop(atPos ER (sendCell c x) 0 ∅ 0 ∗ cred (tallyAt (sendCell c x) (0 : Fin 2) (sendAmt x))) := by
  simp only [swTodo, Equiv.symm_apply_apply]
theorem swDone_at (c : Dev nD) (x : SwI) : swDone m c (swIdx x) = iprop(atPos ER (sendCell c x) 1 ∅ 0 ∗ sendPay m c x) := by
  simp only [swDone, Equiv.symm_apply_apply]

def Ssw (c : Dev nD) (k : ℕ) : sProp 𝕄 :=
  iprop((∃ W, owes (c : Thread nD τ) 0 W) ∗ xRest m c
    ∗ (bigSep Finset.univ fun jh : Fin 3 × Fin 2 => iprop(rsRecvPay m c jh.1 jh.2 ∗ atPos ER (rsRecvCell c jh.1 jh.2) 1 ∅ 0))
    ∗ (bigSep Finset.univ fun r : Fin 30 => iprop(atPos ER (agRecvCell c (slotOf r) (halfOf r)) 1 ∅ 0 ∗ agRecvPay m c (slotOf r) (halfOf r)))
    ∗ (∃ f, ⌜OutDone m (doneTiles c 30) f⌝ ∗ (((c : Thread nD τ).loc cc0_stg1_0) ↦{fullShare} f))
    ∗ (bigSep (Finset.univ.filter fun w : Fin 36 => k ≤ w.val) (swTodo c))
    ∗ (bigSep (Finset.univ.filter fun w : Fin 36 => w.val < k) (swDone m c)))

theorem swTodo_split (c : Dev nD) : bigSep Finset.univ (swTodo (F := F) c)
    = iprop((bigSep Finset.univ fun jh : Fin 3 × Fin 2 => iprop(atPos ER (rsSendCell c jh.1 jh.2) 0 ∅ 0 ∗ cred (tallyAt (rsSendCell c jh.1 jh.2) (0 : Fin 2) Nrs)))
      ∗ (bigSep Finset.univ fun sh : Fin 15 × Fin 2 => iprop(atPos ER (agSendCell c sh.1 sh.2) 0 ∅ 0 ∗ cred (tallyAt (agSendCell c sh.1 sh.2) (0 : Fin 2) Nag)))) := by
  rw [bigSep_univ_equiv swIdx, bigSep_univ_sum]; simp only [swTodo_at]; rfl

theorem swDone_split (c : Dev nD) : bigSep Finset.univ (swDone m c)
    = iprop((bigSep Finset.univ fun jh : Fin 3 × Fin 2 => iprop(atPos ER (rsSendCell c jh.1 jh.2) 1 ∅ 0 ∗ rsSendPay m c jh.1 jh.2))
      ∗ (bigSep Finset.univ fun sh : Fin 15 × Fin 2 => iprop(atPos ER (agSendCell c sh.1 sh.2) 1 ∅ 0 ∗ agSendPay m c sh.1 sh.2))) := by
  rw [bigSep_univ_equiv swIdx, bigSep_univ_sum]; simp only [swDone_at]; rfl

theorem Smid_to_Ssw (c : Dev nD) : Smid m c 30 30 ⊢ Ssw m c 0 := by
  have f1 : (Finset.univ.filter fun r : Fin 30 => 30 ≤ r.val) = ∅ :=
    Finset.filter_false_of_mem fun r _ => by have := r.isLt; omega
  have f2 : (Finset.univ.filter fun r : Fin 30 => r.val < 30) = Finset.univ :=
    Finset.filter_true_of_mem fun r _ => r.isLt
  have f3 : (Finset.univ.filter fun w : Fin 36 => 0 ≤ w.val) = Finset.univ :=
    Finset.filter_true_of_mem fun w _ => Nat.zero_le _
  have f4 : (Finset.univ.filter fun w : Fin 36 => w.val < 0) = ∅ :=
    Finset.filter_false_of_mem fun w _ => Nat.not_lt_zero _
  unfold Smid Ssw
  rw [f1, f2, f3, f4, bigSep_empty, bigSep_empty, swTodo_split]
  simp only [bigSep_sep']
  iintro ⟨HO, Hx, ⟨Ha, Hb, Hc, Hd⟩, ⟨He, Hf⟩, -, ⟨Hg, Hh⟩, Hout⟩
  iframe; iempintro

section Waits
variable (K : GSem nD τ sig → ℕ)

theorem records_send (c : Dev nD) (x : SwI) : records m K ⊢ cellInv ER (Rd m) (K (sendCell c x)) (sendCell c x) := by
  rcases x with ⟨j, h⟩ | ⟨s, h⟩
  · exact (records_rs m K c j h).trans sep_elim_left
  · exact (records_ag m K c s h).trans sep_elim_left

-- the two families' wait rules as one rule over both
theorem wp_send_wait (c : Dev nD) (x : SwI) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = sendAmt x)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (sendCell c x)) (sendCell c x) ∗ cred (tallyAt (sendCell c x) 0 (sendAmt x))
        ∗ owes (c : Thread nD τ) O W ∗ MayWait (c : Thread nD τ) (.dma (sendSem x)) 0 O ∗ atPos ER (sendCell c x) 0 ∅ 0)
      ⊢ iprop(((owes (c : Thread nD τ) O (insert (.dma (sendSem x), 0) W) ∗ atPos ER (sendCell c x) 1 ∅ 0 ∗ sendPay m c x)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem x) src dst hsrc hdst) k) Q) := by
  rcases x with ⟨j, h⟩ | ⟨s, h⟩
  · exact wp_rs_send_waitDma2 m K c j h hcr
  · exact wp_ag_send_waitDma2 m K c s h hcr

-- the wait for copy `x`: its cell's one round leaves the waits to come, the copy's source joins the waits done
theorem sw_step (c : Dev nD) (x : SwI) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = sendAmt x)
    {α : Type} {Q : α → sProp 𝕄} {k : PUnit → Prog (TpuEff nD τ sig (Elt F) Λ₀ .tc) α} {R : sProp 𝕄}
    (hk : iprop(records m K ∗ Ssw m c ((swIdx x).val + 1) ∗ R) ⊢ wp frame (wpE (defs₀ (F := F)) 𝒱₀ (c : Thread nD τ) none) Set.univ (k ⟨⟩) Q) :
    iprop(records m K ∗ Ssw m c (swIdx x).val ∗ R)
      ⊢ wp frame (wpE (defs₀ (F := F)) 𝒱₀ (c : Thread nD τ) none) Set.univ (.op (.waitDma2 (sendSem x) src dst hsrc hdst) k) Q := by
  have hp := pick_ge (swIdx x) (swTodo (F := F) c)
  have hu := unpick_lt (swIdx x) (swDone m c)
  rw [swTodo_at] at hp
  rw [swDone_at] at hu
  unfold Ssw at hk ⊢
  iintro ⟨#Hrec, ⟨⟨%W, HO⟩, Hx, Hrs, Hag, Hout, HT, HD⟩, HR⟩
  icases hp $$ HT with ⟨⟨Hat, Hcr⟩, HT⟩
  ihave Hi := (records_send m K c x) $$ Hrec
  iapply (wp_send_wait m K c x hcr (O := 0) (W := W)) $$ [Hcr HO Hat]
  · rw [MayWait_zero]; iframe # ∗; iempintro
  iintro ⟨HO, Hat, Hpay⟩
  iapply hk
  iframe Hrec HR Hx Hrs Hag Hout HT
  isplitl [HO]; · iexists _; iexact HO
  iapply hu; iframe

def agIdx : Fin 30 ≃ Fin 15 × Fin 2 where
  toFun r := (slotOf r, halfOf r)
  invFun sh := ⟨15 * sh.2.val + sh.1.val, by have := sh.1.isLt; have := sh.2.isLt; omega⟩
  left_inv := by decide
  right_inv := by decide

-- cells that stand after their one round with nothing taken all close, their counters at zero
theorem close_all {I : Type} [Fintype I] [DecidableEq I] {g : I → GSem nD τ sig}
    (hI : ∀ i, records m K ⊢ cellInv ER (Rd m) (K (g i)) (g i))
    (hc : ∀ i, iprop(cellInv ER (Rd m) (K (g i)) (g i) ∗ atPos ER (g i) 1 ∅ 0) ⊢ (|={Set.univ}=> semVal (g i) 0 : sProp 𝕄)) :
    iprop(records m K ∗ bigSep Finset.univ fun i => atPos ER (g i) 1 ∅ 0)
      ⊢ (|={Set.univ}=> bigSep Finset.univ fun i => semVal (g i) 0 : sProp 𝕄) := by
  refine (bigSep_with_persistent (Ψ := fun i => iprop(|={Set.univ}=> semVal (g i) 0)) fun i _ => ?_).trans (bigSep_fupd _ _)
  iintro ⟨#Hrec, Hp⟩
  ihave Hi := (hI i) $$ Hrec
  iapply (hc i); iframe # ∗

theorem finish (c : Dev nD) : iprop(records m K ∗ Ssw m c 36) ⊢ (|={Set.univ}=> bodyPost m c : sProp 𝕄) := by
  have f1 : (Finset.univ.filter fun w : Fin 36 => 36 ≤ w.val) = ∅ :=
    Finset.filter_false_of_mem fun w _ => by have := w.isLt; omega
  have f2 : (Finset.univ.filter fun w : Fin 36 => w.val < 36) = Finset.univ :=
    Finset.filter_true_of_mem fun w _ => w.isLt
  have eAg := bigSep_univ_equiv agIdx fun sh : Fin 15 × Fin 2 => (iprop(atPos ER (agRecvCell c sh.1 sh.2) 1 ∅ 0 ∗ agRecvPay m c sh.1 sh.2) : sProp 𝕄)
  unfold Ssw
  rw [f1, f2, bigSep_empty, swDone_split]
  erw [← eAg]
  simp only [bigSep_sep']
  iintro ⟨#Hrec, ⟨%W, HO⟩, Hx, ⟨HrsPay, HrsPos⟩, ⟨HagPos, HagPay⟩, ⟨%f, %hf, Hout⟩, -, ⟨HrsSPos, HrsSPay⟩, HagSPos, HagSPay⟩
  imod (close_all m K (fun jh : Fin 3 × Fin 2 => (records_rs m K c jh.1 jh.2).trans sep_elim_left) fun jh => close_rsSend m K c jh.1 jh.2) $$ [HrsSPos] with Hz1
  · iframe # ∗
  imod (close_all m K (fun jh : Fin 3 × Fin 2 => (records_rs m K c jh.1 jh.2).trans (sep_elim_right.trans (sep_elim_right.trans sep_elim_left))) fun jh => close_rsRecv m K c jh.1 jh.2) $$ [HrsPos] with Hz2
  · iframe # ∗
  imod (close_all m K (fun sh : Fin 15 × Fin 2 => (records_ag m K c sh.1 sh.2).trans sep_elim_left) fun sh => close_agSend m K c sh.1 sh.2) $$ [HagSPos] with Hz3
  · iframe # ∗
  imod (close_all m K (fun sh : Fin 15 × Fin 2 => (records_ag m K c sh.1 sh.2).trans (sep_elim_right.trans (sep_elim_right.trans sep_elim_left))) fun sh => close_agRecv m K c sh.1 sh.2) $$ [HagPos] with Hz4
  · iframe # ∗
  imodintro
  unfold bodyPost Φ₁ Dat.owesAt Pipeline.owesWithin semsZero
  rw [show (dats m 0 c).owed t₀.succ = 0 from rfl]
  simp only [bigSep_sep']
  isplitl [HrsPay HagSPay HagPay Hz1 Hz2 Hz3 Hz4]
  · iframe Hz1 Hz2 Hz3 Hz4
    iapply (scratch_join m c); iframe
  isplitl [HO]
  · iexists W
    isplitr; · ipureintro; exact fun _ _ => Or.inl trivial
    iexact HO
  isplitl [Hx HrsSPay]
  · iexists _
    isplitr; · (ipureintro; rfl)
    iapply (x_split m c).2; iframe
  iexists f
  isplitr; · (ipureintro; exact OutDone_all m c f hf)
  iexact Hout

end Waits

end Cert.KernelIdeal.Hand

end
-- ==== Proof.HandKernelIdeal.Tail.lean ====
import proofs.«900721_g7700000000000722_dist_ar_v7x_xyz2x2x4_z_m512_n512_f32_1_alg».proof.Proof.HandKernelIdeal.AgStep
import proofs.«900721_g7700000000000722_dist_ar_v7x_xyz2x2x4_z_m512_n512_f32_1_alg».proof.Proof.HandKernelIdeal.SendWaits

noncomputable section

namespace Cert.KernelIdeal.Hand

open Cert.KernelIdeal Cert.KernelIdeal.Gen
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ)

def tailProg (c : Dev nD) (v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013 : BitVec 32) :
    Prog (TpuEff nD τ sig (Elt F) Λ₀ .tc) PUnit := do
  k0_part114 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013
  let v3629 : Memref sig .tc .vmem S64x128 .f32 := redM.slice (Rect.unit (s := S128x128) ![64, 0] S64x128.size inb_S128x128_S64x128_64_0) (fun _ => rfl)
  let v3630 : Memref sig .tc .vmem S1x64x128 .f32 := agM.slice (Rect.unit (s := S15x128x128) ![13, 64, 0] S1x64x128.size inb_S15x128x128_S1x64x128_13_64_0) (fun _ => rfl)
  let v3631 : Memref sig .tc .vmem S64x128 .f32 := v3630.squeeze S64x128 squeezes_S1x64x128_S64x128
  let v3627 : DmaSems sig S1x1 := cc0_scratch5.slice (Rect.unit (s := S15x2) ![13, 1] S1x1.size inb_S15x2_S1x1_13_1)
  let v3628 : DmaSems sig S_ := v3627.squeeze S_ squeezes_S1x1_S_
  Prog.lift (.waitDma2 v3628.sem v3631 v3629 ((View.wordExact_bits rfl).reshape _ _) (View.wordExact_bits rfl))
  let v3632 : DmaSems sig S1x1 := cc0_scratch5.slice (Rect.unit (s := S15x2) ![14, 1] S1x1.size inb_S15x2_S1x1_14_1)
  let v3633 : DmaSems sig S_ := v3632.squeeze S_ squeezes_S1x1_S_
  let v3634 : Memref sig .tc .vmem S64x128 .f32 := redM.slice (Rect.unit (s := S128x128) ![64, 0] S64x128.size inb_S128x128_S64x128_64_0) (fun _ => rfl)
  let v3635 : Memref sig .tc .vmem S1x64x128 .f32 := agM.slice (Rect.unit (s := S15x128x128) ![14, 64, 0] S1x64x128.size inb_S15x128x128_S1x64x128_14_64_0) (fun _ => rfl)
  let v3636 : Memref sig .tc .vmem S64x128 .f32 := v3635.squeeze S64x128 squeezes_S1x64x128_S64x128
  Prog.lift (.waitDma2 v3633.sem v3636 v3634 ((View.wordExact_bits rfl).reshape _ _) (View.wordExact_bits rfl))
  pure ⟨⟩

theorem cc0_body_skel_eq_front_tail :
    cc0_body_skel (F := F) xM (Memref.isWhole_whole _) oM (Memref.isWhole_whole _) rsM (Memref.isWhole_whole _) redM (Memref.isWhole_whole _) agM (Memref.isWhole_whole _) cc0_scratch3 cc0_scratch4 cc0_scratch5 cc0_scratch6
      = (do
          let ⟨d0, v2, v5, v8, v566, v577, v589, v613, v624, v636, v660, v671, v683, v707, v718, v730, v754, v765, v777, v801, v812, v824, v848, v859, v871, v895, v906, v918, v942, v953, v965, v989, v1000, v1012, v1036, v1047, v1059, v1142, v1153, v1165, v1189, v1200, v1212, v1236, v1247, v1259, v1283, v1294, v1306, v1330, v1341, v1353, v1377, v1388, v1400, v1424, v1435, v1447, v1471, v1482, v1494, v1518, v1529, v1541, v1565, v1576, v1588, v1612, v1623, v1635, v1659, v1670, v1682, v1706, v1717, v1729, v1753, v1764, v1776, v1800, v1811, v1823, v2012, v2013⟩ : Σ' (d0 : Dev nD) (v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 : BitVec 32), BitVec 32 ← k0_part113 xM (Memref.isWhole_whole _) oM (Memref.isWhole_whole _) rsM (Memref.isWhole_whole _) redM (Memref.isWhole_whole _) agM (Memref.isWhole_whole _) cc0_scratch3 cc0_scratch4 cc0_scratch5 cc0_scratch6
          tailProg (F := F) d0 v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013) := rfl

-- a step stated as "this state, then the rest" read as a rule: the records stay and a frame rides along
theorem step_rule (K : GSem nD τ sig → ℕ) {c : Dev nD} {S S' R : sProp 𝕄} {α : Type} {Q : α → sProp 𝕄}
    {p p' : Prog (TpuEff nD τ sig (Elt F) Λ₀ .tc) α}
    (h : iprop(records m K ∗ S) ⊢ iprop((S' -∗ wp frame (wpE (defs₀ (F := F)) 𝒱₀ (c : Thread nD τ) none) Set.univ p' Q) -∗ wp frame (wpE (defs₀ (F := F)) 𝒱₀ (c : Thread nD τ) none) Set.univ p Q))
    (hk : iprop(records m K ∗ S' ∗ R) ⊢ wp frame (wpE (defs₀ (F := F)) 𝒱₀ (c : Thread nD τ) none) Set.univ p' Q) :
    iprop(records m K ∗ S ∗ R) ⊢ wp frame (wpE (defs₀ (F := F)) 𝒱₀ (c : Thread nD τ) none) Set.univ p Q := by
  iintro ⟨#Hrec, HS, HR⟩
  iapply h $$ [HS]
  · iframe # ∗
  iintro HS
  iapply hk; iframe # ∗

theorem sound_tail (K : GSem nD τ sig → ℕ) (c : Dev nD) (Kt : PUnit → sProp 𝕄) (v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013 : BitVec 32) :
    iprop(records m K ∗ levAts L lv ∗ Smid m c 4 3 ∗ (bodyPost m c -∗ Kt ⟨⟩))
      ⊢ wp frame (wpE (defs₀ (F := F)) 𝒱₀ (c : Thread nD τ) none) Set.univ (tailProg (F := F) c v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013) Kt := by
  unfold tailProg
  simp only [k0_part114_eq_skeleton]; unfold k0_part114_skel
  simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton]
  unfold k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel k0_part107_skel k0_part108_skel k0_part109_skel k0_part110_skel k0_part111_skel k0_part112_skel
  simp only [Prog.lift, Prog.bind_op, Prog.bind_ret, Prog.pure_eq_ret]
  refine (sep_mono_right sep_left_comm.1).trans ?_
  refine step_rule m K (sep_elim_right.trans (ag_ls m c 3 (pay := k0_pay6) fun _ => rfl)) ?_
  refine step_rule m K (ag_unit m K c 4 (agSlot_credit 4 0) (pay := k0_pay7) fun _ => rfl) ?_
  refine step_rule m K (ag_unit m K c 5 (agSlot_credit 5 0) (pay := k0_pay8) fun _ => rfl) ?_
  refine step_rule m K (ag_unit m K c 6 (agSlot_credit 6 0) (pay := k0_pay9) fun _ => rfl) ?_
  refine step_rule m K (ag_unit m K c 7 (agSlot_credit 7 0) (pay := k0_pay10) fun _ => rfl) ?_
  refine step_rule m K (ag_unit m K c 8 (agSlot_credit 8 0) (pay := k0_pay11) fun _ => rfl) ?_
  refine step_rule m K (ag_unit m K c 9 (agSlot_credit 9 0) (pay := k0_pay12) fun _ => rfl) ?_
  refine step_rule m K (ag_unit m K c 10 (agSlot_credit 10 0) (pay := k0_pay13) fun _ => rfl) ?_
  refine step_rule m K (ag_unit m K c 11 (agSlot_credit 11 0) (pay := k0_pay14) fun _ => rfl) ?_
  refine step_rule m K (ag_unit m K c 12 (agSlot_credit 12 0) (pay := k0_pay15) fun _ => rfl) ?_
  refine step_rule m K (ag_unit m K c 13 (agSlot_credit 13 0) (pay := k0_pay16) fun _ => rfl) ?_
  refine step_rule m K (ag_unit m K c 14 (agSlot_credit 14 0) (pay := k0_pay17) fun _ => rfl) ?_
  refine step_rule m K (ag_unit m K c 15 (agSlot_credit 0 1) (pay := k0_pay18) fun _ => rfl) ?_
  refine step_rule m K (ag_unit m K c 16 (agSlot_credit 1 1) (pay := k0_pay19) fun _ => rfl) ?_
  refine step_rule m K (ag_unit m K c 17 (agSlot_credit 2 1) (pay := k0_pay20) fun _ => rfl) ?_
  refine step_rule m K (ag_unit m K c 18 (agSlot_credit 3 1) (pay := k0_pay21) fun _ => rfl) ?_
  refine step_rule m K (ag_unit m K c 19 (agSlot_credit 4 1) (pay := k0_pay22) fun _ => rfl) ?_
  refine step_rule m K (ag_unit m K c 20 (agSlot_credit 5 1) (pay := k0_pay23) fun _ => rfl) ?_
  refine step_rule m K (ag_unit m K c 21 (agSlot_credit 6 1) (pay := k0_pay24) fun _ => rfl) ?_
  refine step_rule m K (ag_unit m K c 22 (agSlot_credit 7 1) (pay := k0_pay25) fun _ => rfl) ?_
  refine step_rule m K (ag_unit m K c 23 (agSlot_credit 8 1) (pay := k0_pay26) fun _ => rfl) ?_
  refine step_rule m K (ag_unit m K c 24 (agSlot_credit 9 1) (pay := k0_pay27) fun _ => rfl) ?_
  refine step_rule m K (ag_unit m K c 25 (agSlot_credit 10 1) (pay := k0_pay28) fun _ => rfl) ?_
  refine step_rule m K (ag_unit m K c 26 (agSlot_credit 11 1) (pay := k0_pay29) fun _ => rfl) ?_
  refine step_rule m K (ag_unit m K c 27 (agSlot_credit 12 1) (pay := k0_pay30) fun _ => rfl) ?_
  refine step_rule m K (ag_unit m K c 28 (agSlot_credit 13 1) (pay := k0_pay31) fun _ => rfl) ?_
  refine step_rule m K (ag_unit m K c 29 (agSlot_credit 14 1) (pay := k0_pay32) fun _ => rfl) ?_
  refine (sep_mono_right (sep_mono_left (Smid_to_Ssw m c))).trans ?_
  refine sw_step m K c (.inl (0, 0)) (rsSrc_credit c 0 0) ?_
  refine sw_step m K c (.inl (1, 0)) (rsSrc_credit c 1 0) ?_
  refine sw_step m K c (.inl (2, 0)) (rsSrc_credit c 2 0) ?_
  refine sw_step m K c (.inr (0, 0)) (redHalf_credit 0) ?_
  refine sw_step m K c (.inr (1, 0)) (redHalf_credit 0) ?_
  refine sw_step m K c (.inr (2, 0)) (redHalf_credit 0) ?_
  refine sw_step m K c (.inr (3, 0)) (redHalf_credit 0) ?_
  refine sw_step m K c (.inr (4, 0)) (redHalf_credit 0) ?_
  refine sw_step m K c (.inr (5, 0)) (redHalf_credit 0) ?_
  refine sw_step m K c (.inr (6, 0)) (redHalf_credit 0) ?_
  refine sw_step m K c (.inr (7, 0)) (redHalf_credit 0) ?_
  refine sw_step m K c (.inr (8, 0)) (redHalf_credit 0) ?_
  refine sw_step m K c (.inr (9, 0)) (redHalf_credit 0) ?_
  refine sw_step m K c (.inr (10, 0)) (redHalf_credit 0) ?_
  refine sw_step m K c (.inr (11, 0)) (redHalf_credit 0) ?_
  refine sw_step m K c (.inr (12, 0)) (redHalf_credit 0) ?_
  refine sw_step m K c (.inr (13, 0)) (redHalf_credit 0) ?_
  refine sw_step m K c (.inr (14, 0)) (redHalf_credit 0) ?_
  refine sw_step m K c (.inl (0, 1)) (rsSrc_credit c 0 1) ?_
  refine sw_step m K c (.inl (1, 1)) (rsSrc_credit c 1 1) ?_
  refine sw_step m K c (.inl (2, 1)) (rsSrc_credit c 2 1) ?_
  refine sw_step m K c (.inr (0, 1)) (redHalf_credit 1) ?_
  refine sw_step m K c (.inr (1, 1)) (redHalf_credit 1) ?_
  refine sw_step m K c (.inr (2, 1)) (redHalf_credit 1) ?_
  refine sw_step m K c (.inr (3, 1)) (redHalf_credit 1) ?_
  refine sw_step m K c (.inr (4, 1)) (redHalf_credit 1) ?_
  refine sw_step m K c (.inr (5, 1)) (redHalf_credit 1) ?_
  refine sw_step m K c (.inr (6, 1)) (redHalf_credit 1) ?_
  refine sw_step m K c (.inr (7, 1)) (redHalf_credit 1) ?_
  refine sw_step m K c (.inr (8, 1)) (redHalf_credit 1) ?_
  refine sw_step m K c (.inr (9, 1)) (redHalf_credit 1) ?_
  refine sw_step m K c (.inr (10, 1)) (redHalf_credit 1) ?_
  refine sw_step m K c (.inr (11, 1)) (redHalf_credit 1) ?_
  refine sw_step m K c (.inr (12, 1)) (redHalf_credit 1) ?_
  refine sw_step m K c (.inr (13, 1)) (redHalf_credit 1) ?_
  refine sw_step m K c (.inr (14, 1)) (redHalf_credit 1) ?_
  rw [wp_ret]
  iintro ⟨#Hrec, HS, -, Hk⟩
  imod (finish m K c) $$ [HS] with HP
  · iframe Hrec; iexact HS
  imodintro
  iapply Hk; iexact HP

end Cert.KernelIdeal.Hand

end
-- ==== Proof.HandKernelIdeal.Body.lean ====
import proofs.«900721_g7700000000000722_dist_ar_v7x_xyz2x2x4_z_m512_n512_f32_1_alg».proof.Proof.HandKernelIdeal.Front
import proofs.«900721_g7700000000000722_dist_ar_v7x_xyz2x2x4_z_m512_n512_f32_1_alg».proof.Proof.HandKernelIdeal.Tail

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem
open Idealize.ShloMosaic.Rounds
open Idealize.SL.BI.Laws

variable {F : FTy → Type} [FloatOps F]

local notation "𝕄" => MT nD τ sig (Fin 2) (Elt F) ℕ UU ℕ

variable (m : (ℓ : Loc nD τ sig) → Buf (Elt F) ℓ)

theorem sound_body (K : GSem nD τ sig → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [cc0_body_eq_skeleton, cc0_body_skel_eq_front_tail, wp_bind]
  refine (sep_mono_right ?_).trans (front m K c _)
  refine forall_intro fun res => ?_
  obtain ⟨d0, v2, v5, v8, v566, v577, v589, v613, v624, v636, v660, v671, v683, v707, v718, v730, v754, v765, v777, v801, v812, v824, v848, v859, v871, v895, v906, v918, v942, v953, v965, v989, v1000, v1012, v1036, v1047, v1059, v1142, v1153, v1165, v1189, v1200, v1212, v1236, v1247, v1259, v1283, v1294, v1306, v1330, v1341, v1353, v1377, v1388, v1400, v1424, v1435, v1447, v1471, v1482, v1494, v1518, v1529, v1541, v1565, v1576, v1588, v1612, v1623, v1635, v1659, v1670, v1682, v1706, v1717, v1729, v1753, v1764, v1776, v1800, v1811, v1823, v2012, v2013⟩ := res
  iintro HP %h ⟨Hr, Hl, HS⟩
  subst h
  iapply (sound_tail m K _ Kt)
  iframe # ∗

end Cert.KernelIdeal.Hand

end
-- ==== Proof.RefValue.lean ====
import proofs.«900721_g7700000000000722_dist_ar_v7x_xyz2x2x4_z_m512_n512_f32_1_alg».proof.Defs
import proofs.«900721_g7700000000000722_dist_ar_v7x_xyz2x2x4_z_m512_n512_f32_1_alg».proof.Proof.Gen.ReferenceIdeal.Run
import proofs.«900721_g7700000000000722_dist_ar_v7x_xyz2x2x4_z_m512_n512_f32_1_alg».proof.Proof.Gen.ReferenceIdeal.Read
import Idealize.ShloMosaic.Lib.ValueIdx
import Idealize.ShloMosaic.Lib.Layout
import Idealize.ShloMosaic.PureOps.Ideal.Laws

noncomputable section

namespace Cert.ReferenceIdeal.RefValue

open Idealize.ShloMosaic Idealize.SL.Sem

def rowAt (k : Fin 4) (i : (⟨2, ![512, 512]⟩ : Shape).Idx) : (⟨2, ![2048, 512]⟩ : Shape).Idx :=
  ValueIdx.ix2 (n0 := 2048) (n1 := 512)
    ⟨512 * k.val + (i 0).val, by have := k.isLt; have := ValueIdx.idx2_lt0 i; omega⟩
    ⟨(i 1).val, ValueIdx.idx2_lt1 i⟩

def G (X : (⟨⟨2, ![2048, 512]⟩, .f32⟩ : BufTy).Contents (Elt Ideal)) :
    (⟨⟨2, ![512, 512]⟩, .f32⟩ : BufTy).Contents (Elt Ideal) :=
  fun i => ∑ k : Fin 4, X (rowAt k i)

-- the reshape puts row 512 k + r of the argument at row r of block k, and the sum starts from the zero word
theorem ref_eq_G (X : (⟨⟨2, ![2048, 512]⟩, .f32⟩ : BufTy).Contents (Elt Ideal)) :
    Read.val_main_v1 (F := Ideal) X = G X := by
  funext i
  rw [Read.val_main_v1_apply, Read.val_main_cst_apply]
  show Ideal.ofBits .f32 0x00000000#32 + _ = _
  rw [Ideal.ofBits_zero_f32, zero_add]
  refine Finset.sum_congr rfl fun k _ => ?_
  rw [Read.val_main_v0_apply]
  refine congrArg X (funext fun a => Fin.ext ?_)
  have hk := k.isLt
  have h0 := ValueIdx.idx2_lt0 i
  have h1 := ValueIdx.idx2_lt1 i
  match a with
  | ⟨0, _⟩ =>
    show ((k.val * 512 + (i 0).val) * 512 + (i 1).val) / 512 = 512 * k.val + (i 0).val
    omega
  | ⟨1, _⟩ =>
    show ((k.val * 512 + (i 0).val) * 512 + (i 1).val) % 512 = (i 1).val
    omega

-- the array is cut along its rows by the mesh's last axis: device c holds the block c % 4 names
theorem block_read (c : Fin 16) (X : (⟨⟨2, ![2048, 512]⟩, .f32⟩ : BufTy).Contents (Elt Ideal))
    (i : (⟨2, ![512, 512]⟩ : Shape).Idx) :
    (Layout.blockN ⟨2, ![512, 512]⟩ ⟨2, ![2048, 512]⟩ (Layout.meshBlock [2, 2, 4] ![[2], []] c) X) i
      = X (rowAt ⟨c.val % 4, Nat.mod_lt _ (by decide)⟩ i) := by
  rw [Layout.blockN_apply]
  refine congrArg X (funext fun a => Fin.ext ?_)
  rw [Layout.TilesN.idx_val]
  match a with
  | ⟨0, _⟩ =>
    show Layout.meshLin [2, 2, 4] c.val [2] * 512 + (i 0).val = 512 * (c.val % 4) + (i 0).val
    have h : Layout.meshLin [2, 2, 4] c.val [2] = c.val % 4 := by
      simp [Layout.meshLin, Layout.meshCoord, Layout.cutSize]
    rw [h]; omega
  | ⟨1, _⟩ =>
    show Layout.meshLin [2, 2, 4] c.val [] * 512 + (i 1).val = (i 1).val
    have h : Layout.meshLin [2, 2, 4] c.val [] = 0 := rfl
    rw [h]; omega

theorem frame_ri [hPre : Pre_finite_inputs_ReferenceIdeal.Facts] : frame_ReferenceIdeal :=
  fun m ρ _ => (θ_run defs _ _).mono (fun _ h c => (h c).2) (Value.run (F := Ideal) m ρ)

theorem ref_run_G (m' : (ℓ : Loc nD τ sig) → Buf (Elt Ideal) ℓ) (ρ' : Dev nD → PrngReg) :
    θ_run (defs (F := Ideal)) (onTc (τ := τ) (main (F := Ideal))) ⟨m', fun _ => 0, ρ'⟩
      (fun r => ∀ c : Dev nD,
        r.2.mem ((c.tc : Thread nD τ).loc main_v1) = G (m' ((c.tc : Thread nD τ).loc main_arg0))
        ∧ r.2.mem ((c.tc : Thread nD τ).loc main_arg0) = m' ((c.tc : Thread nD τ).loc main_arg0)) :=
  (θ_run defs _ _).mono
    (fun _ h c => ⟨(h c).1.trans ((Read.val_main_v1_eq _).trans (ref_eq_G _)), (h c).2⟩)
    (Value.run (F := Ideal) m' ρ')

end Cert.ReferenceIdeal.RefValue

end
-- ==== Proof.Claims.lean ====
import proofs.«900721_g7700000000000722_dist_ar_v7x_xyz2x2x4_z_m512_n512_f32_1_alg».proof.Proof.HandKernelIdeal.Value
import proofs.«900721_g7700000000000722_dist_ar_v7x_xyz2x2x4_z_m512_n512_f32_1_alg».proof.Proof.HandKernelIdeal.Launch
import proofs.«900721_g7700000000000722_dist_ar_v7x_xyz2x2x4_z_m512_n512_f32_1_alg».proof.Proof.HandKernelIdeal.Body
import proofs.«900721_g7700000000000722_dist_ar_v7x_xyz2x2x4_z_m512_n512_f32_1_alg».proof.Proof.RefValue
import proofs.«900721_g7700000000000722_dist_ar_v7x_xyz2x2x4_z_m512_n512_f32_1_alg».proof.Proof.Gen.Pre_finite_inputs_Kernel

noncomputable section

namespace Cert.Proof.Claims

open Idealize.ShloMosaic Idealize.SL.Sem Cert.KernelIdeal Cert.KernelIdeal.Hand
open Cert.ReferenceIdeal.RefValue (G block_read ref_run_G)

def atW (a b : ℕ) : (⟨2, ![2048, 512]⟩ : Shape).Idx :=
  ValueIdx.ix2 (n0 := 2048) (n1 := 512) ⟨a % 2048, Nat.mod_lt _ (by decide)⟩ ⟨b % 512, Nat.mod_lt _ (by decide)⟩

variable (m : (ℓ : Loc nD τ sig) → Buf (Elt Ideal) ℓ)

theorem xblk_whole (c : Dev nD) : xblk (F := Ideal) m c = m ((c.tc : Thread nD τ).loc main_arg0) := by
  unfold xblk
  exact Memref.read_access_unit_zero (Elt Ideal) main_arg0 (funext fun _ => Nat.zero_mul _) _ _

-- device c's entry (a, b) is A (512 (c % 4) + a, b), and a line along the last axis holds the four blocks once each
theorem outVal_eq_G (A : (⟨⟨2, ![2048, 512]⟩, .f32⟩ : BufTy).Contents (Elt Ideal))
    (hagree : ∀ c : Dev nD, m ((c.tc : Thread nD τ).loc main_arg0)
        = Layout.blockN ⟨2, ![512, 512]⟩ ⟨2, ![2048, 512]⟩ (Layout.meshBlock [2, 2, 4] ![[2], []] c) A) :
    outVal (F := Ideal) m = G A := by
  funext i
  show @Eq EReal _ _
  have hx : ∀ (c : Dev nD) (a b : ℕ), a < 512 → b < 512 →
      (xblk m c (at2 a b) : EReal) = (fun a b => A (atW a b)) (512 * cz c + a) b := by
    intro c a b ha hb
    rw [xblk_whole, hagree c, block_read]
    refine congrArg A (funext fun d => Fin.ext ?_)
    have hc : c.val < 16 := c.isLt
    match d with
    | ⟨0, _⟩ =>
      show 512 * (c.val % 4) + a % 512 = (512 * (c.val % 4) + a) % 2048
      omega
    | ⟨1, _⟩ => rfl
  rw [outVal_apply m (fun a b => A (atW a b)) hx i]
  refine Finset.sum_congr rfl fun k _ => congrArg A (funext fun d => Fin.ext ?_)
  have hk : k.val < 4 := k.isLt
  have h0 : (i 0).val < 512 := (i 0).isLt
  have h1 : (i 1).val < 512 := (i 1).isLt
  match d with
  | ⟨0, _⟩ =>
    show (512 * k.val + (i 0).val) % 2048 = 512 * k.val + (i 0).val
    omega
  | ⟨1, _⟩ =>
    show (i 1).val % 512 = (i 1).val
    omega

theorem frame_KI : frame_KernelIdeal :=
  fun m ρ _ => (θ_run defs _ _).mono (fun _ h c => (h c).2) (run_values m ρ (sound_body m))

-- both sides end at the sum of the four row blocks of the reference's array
theorem algebraic : algebraic_KernelIdeal_ReferenceIdeal := fun m g m' g' _ hagree =>
  ⟨_, (θ_run defs _ _).mono (fun _ h c => ⟨(h c).1.trans (outVal_eq_G m _ hagree), (h c).2⟩) (run_values m g (sound_body m)),
    (θ_run ReferenceIdeal.defs _ _).mono (fun _ h => h 0) (ref_run_G m' g')⟩

end Cert.Proof.Claims

end
-- ==== Proof.HandKernel.Mesh.lean ====
import proofs.«900721_g7700000000000722_dist_ar_v7x_xyz2x2x4_z_m512_n512_f32_1_alg».proof.Proof.Gen.Kernel
set_option Elab.async false
namespace Cert.Kernel.Hand
open Idealize.ShloMosaic Idealize.SL.Sem Cert.Kernel Cert.Kernel.Gen
def mk (x y z : ℕ) : Dev nD := ⟨8 * (x % 2) + 4 * (y % 2) + z % 4, by show _ < 16; omega⟩
def cx (c : Dev nD) : ℕ := c.val / 8
def cy (c : Dev nD) : ℕ := (c.val / 4) % 2
def cz (c : Dev nD) : ℕ := c.val % 4
def zp (c : Dev nD) (d : ℕ) : Dev nD := mk (cx c) (cy c) (cz c + d)
def xyp (c : Dev nD) (dx dy : ℕ) : Dev nD := mk (cx c + dx) (cy c + dy) (cz c)
def odx (s : Fin 15) : ℕ := (s.val + 1) / 8
def ody (s : Fin 15) : ℕ := ((s.val + 1) / 4) % 2
def odz (s : Fin 15) : ℕ := (s.val + 1) % 4
def agT (c : Dev nD) (s : Fin 15) : Dev nD := mk (cx c + odx s) (cy c + ody s) (cz c + 4 - odz s)
def agS (c : Dev nD) (s : Fin 15) : Dev nD := mk (cx c + odx s) (cy c + ody s) (cz c + odz s)
variable (c : Dev nD)

theorem dev1_eq : (⟨k0_dev1 c, k0_dev1_lt c⟩ : Dev nD) = zp c 1 := by revert c; decide +kernel
theorem dev2_eq : (⟨k0_dev2 c, k0_dev2_lt c⟩ : Dev nD) = zp c 2 := by revert c; decide +kernel
theorem dev3_eq : (⟨k0_dev3 c, k0_dev3_lt c⟩ : Dev nD) = zp c 3 := by revert c; decide +kernel
theorem dev4_eq : (⟨k0_dev4 c, k0_dev4_lt c⟩ : Dev nD) = xyp c 0 1 := by revert c; decide +kernel
theorem dev5_eq : (⟨k0_dev5 c, k0_dev5_lt c⟩ : Dev nD) = xyp c 1 0 := by revert c; decide +kernel
theorem dev6_eq : (⟨k0_dev6 c, k0_dev6_lt c⟩ : Dev nD) = xyp c 1 1 := by revert c; decide +kernel
theorem dev7_eq : (⟨k0_dev7 c, k0_dev7_lt c⟩ : Dev nD) = zp c 1 := by revert c; decide +kernel
theorem dev8_eq : (⟨k0_dev8 c, k0_dev8_lt c⟩ : Dev nD) = zp c 2 := by revert c; decide +kernel
theorem dev9_eq : (⟨k0_dev9 c, k0_dev9_lt c⟩ : Dev nD) = zp c 3 := by revert c; decide +kernel
theorem dev10_eq : (⟨k0_dev10 c, k0_dev10_lt c⟩ : Dev nD) = zp c 1 := by revert c; decide +kernel
theorem dev11_eq : (⟨k0_dev11 c, k0_dev11_lt c⟩ : Dev nD) = zp c 2 := by revert c; decide +kernel
theorem dev12_eq : (⟨k0_dev12 c, k0_dev12_lt c⟩ : Dev nD) = zp c 3 := by revert c; decide +kernel
theorem dev13_eq : (⟨k0_dev13 c, k0_dev13_lt c⟩ : Dev nD) = agT c ⟨0, by decide⟩ := by revert c; decide +kernel
theorem dev14_eq : (⟨k0_dev14 c, k0_dev14_lt c⟩ : Dev nD) = agT c ⟨1, by decide⟩ := by revert c; decide +kernel
theorem dev15_eq : (⟨k0_dev15 c, k0_dev15_lt c⟩ : Dev nD) = agT c ⟨2, by decide⟩ := by revert c; decide +kernel
theorem dev16_eq : (⟨k0_dev16 c, k0_dev16_lt c⟩ : Dev nD) = agT c ⟨3, by decide⟩ := by revert c; decide +kernel
theorem dev17_eq : (⟨k0_dev17 c, k0_dev17_lt c⟩ : Dev nD) = agT c ⟨4, by decide⟩ := by revert c; decide +kernel
theorem dev18_eq : (⟨k0_dev18 c, k0_dev18_lt c⟩ : Dev nD) = agT c ⟨5, by decide⟩ := by revert c; decide +kernel
theorem dev19_eq : (⟨k0_dev19 c, k0_dev19_lt c⟩ : Dev nD) = agT c ⟨6, by decide⟩ := by revert c; decide +kernel
theorem dev20_eq : (⟨k0_dev20 c, k0_dev20_lt c⟩ : Dev nD) = agT c ⟨7, by decide⟩ := by revert c; decide +kernel
theorem dev21_eq : (⟨k0_dev21 c, k0_dev21_lt c⟩ : Dev nD) = agT c ⟨8, by decide⟩ := by revert c; decide +kernel
theorem dev22_eq : (⟨k0_dev22 c, k0_dev22_lt c⟩ : Dev nD) = agT c ⟨9, by decide⟩ := by revert c; decide +kernel
theorem dev23_eq : (⟨k0_dev23 c, k0_dev23_lt c⟩ : Dev nD) = agT c ⟨10, by decide⟩ := by revert c; decide +kernel
theorem dev24_eq : (⟨k0_dev24 c, k0_dev24_lt c⟩ : Dev nD) = agT c ⟨11, by decide⟩ := by revert c; decide +kernel
theorem dev25_eq : (⟨k0_dev25 c, k0_dev25_lt c⟩ : Dev nD) = agT c ⟨12, by decide⟩ := by revert c; decide +kernel
theorem dev26_eq : (⟨k0_dev26 c, k0_dev26_lt c⟩ : Dev nD) = agT c ⟨13, by decide⟩ := by revert c; decide +kernel
theorem dev27_eq : (⟨k0_dev27 c, k0_dev27_lt c⟩ : Dev nD) = agT c ⟨14, by decide⟩ := by revert c; decide +kernel
theorem dev28_eq : (⟨k0_dev28 c, k0_dev28_lt c⟩ : Dev nD) = agT c ⟨0, by decide⟩ := by revert c; decide +kernel
theorem dev29_eq : (⟨k0_dev29 c, k0_dev29_lt c⟩ : Dev nD) = agT c ⟨1, by decide⟩ := by revert c; decide +kernel
theorem dev30_eq : (⟨k0_dev30 c, k0_dev30_lt c⟩ : Dev nD) = agT c ⟨2, by decide⟩ := by revert c; decide +kernel
theorem dev31_eq : (⟨k0_dev31 c, k0_dev31_lt c⟩ : Dev nD) = agT c ⟨3, by decide⟩ := by revert c; decide +kernel
theorem dev32_eq : (⟨k0_dev32 c, k0_dev32_lt c⟩ : Dev nD) = agT c ⟨4, by decide⟩ := by revert c; decide +kernel
theorem dev33_eq : (⟨k0_dev33 c, k0_dev33_lt c⟩ : Dev nD) = agT c ⟨5, by decide⟩ := by revert c; decide +kernel
theorem dev34_eq : (⟨k0_dev34 c, k0_dev34_lt c⟩ : Dev nD) = agT c ⟨6, by decide⟩ := by revert c; decide +kernel
theorem dev35_eq : (⟨k0_dev35 c, k0_dev35_lt c⟩ : Dev nD) = agT c ⟨7, by decide⟩ := by revert c; decide +kernel
theorem dev36_eq : (⟨k0_dev36 c, k0_dev36_lt c⟩ : Dev nD) = agT c ⟨8, by decide⟩ := by revert c; decide +kernel
theorem dev37_eq : (⟨k0_dev37 c, k0_dev37_lt c⟩ : Dev nD) = agT c ⟨9, by decide⟩ := by revert c; decide +kernel
theorem dev38_eq : (⟨k0_dev38 c, k0_dev38_lt c⟩ : Dev nD) = agT c ⟨10, by decide⟩ := by revert c; decide +kernel
theorem dev39_eq : (⟨k0_dev39 c, k0_dev39_lt c⟩ : Dev nD) = agT c ⟨11, by decide⟩ := by revert c; decide +kernel
theorem dev40_eq : (⟨k0_dev40 c, k0_dev40_lt c⟩ : Dev nD) = agT c ⟨12, by decide⟩ := by revert c; decide +kernel
theorem dev41_eq : (⟨k0_dev41 c, k0_dev41_lt c⟩ : Dev nD) = agT c ⟨13, by decide⟩ := by revert c; decide +kernel
theorem dev42_eq : (⟨k0_dev42 c, k0_dev42_lt c⟩ : Dev nD) = agT c ⟨14, by decide⟩ := by revert c; decide +kernel
theorem zp_zp : zp (zp c 1) 3 = c ∧ zp (zp c 2) 2 = c ∧ zp (zp c 3) 1 = c := by
  revert c; decide +kernel
theorem xyp_xyp : xyp (xyp c 0 1) 0 1 = c ∧ xyp (xyp c 1 0) 1 0 = c ∧ xyp (xyp c 1 1) 1 1 = c := by
  revert c; decide +kernel
theorem agS_agT (s : Fin 15) : agS (agT c s) s = c := by
  revert c s; decide +kernel
theorem agT_agS (s : Fin 15) : agT (agS c s) s = c := by
  revert c s; decide +kernel
theorem cx_mk (x y z : ℕ) : cx (mk x y z) = x % 2 := by simp only [cx, mk]; omega
theorem cy_mk (x y z : ℕ) : cy (mk x y z) = y % 2 := by simp only [cy, mk]; omega
theorem cz_mk (x y z : ℕ) : cz (mk x y z) = z % 4 := by simp only [cz, mk]; omega
theorem cx_lt : cx c < 2 := by have : c.val < 16 := c.isLt; simp only [cx]; omega
theorem cy_lt : cy c < 2 := by simp only [cy]; omega
theorem cz_lt : cz c < 4 := by simp only [cz]; omega
theorem mk_coords : mk (cx c) (cy c) (cz c) = c := by
  apply Fin.ext; have : c.val < 16 := c.isLt; simp only [mk, cx, cy, cz]; omega
theorem ext_coords {c d : Dev nD} (hx : cx c = cx d) (hy : cy c = cy d) (hz : cz c = cz d) : c = d := by
  rw [← mk_coords c, ← mk_coords d, hx, hy, hz]
theorem cx_zp (d : ℕ) : cx (zp c d) = cx c := by
  rw [zp, cx_mk]; exact Nat.mod_eq_of_lt (cx_lt c)
theorem cy_zp (d : ℕ) : cy (zp c d) = cy c := by
  rw [zp, cy_mk]; exact Nat.mod_eq_of_lt (cy_lt c)
theorem cz_zp (d : ℕ) : cz (zp c d) = (cz c + d) % 4 := by rw [zp, cz_mk]
theorem k0_off1_eq : ∀ d0 : Dev nD, ∀ (r₁ : Fin 2) (r₂ : Fin 3),
    k0_off1 d0 (BitVec.ofNat 32 (64 * r₁.val)) (BitVec.ofNat 32 (1 + r₂.val))
      = ![128 * (2 * cx d0 + cy d0) + 64 * r₁.val, 128 * ((cz d0 + (1 + r₂.val)) % 4)] := by
  decide +kernel
theorem k0_off2_eq' : ∀ d0 : Dev nD, ∀ (r : Fin 2),
    k0_off2 d0 (BitVec.ofNat 32 (64 * r.val)) = ![128 * (2 * cx d0 + cy d0) + 64 * r.val, 128 * cz d0] := by
  decide +kernel
def slot (r : Fin 30) : Fin 15 := ⟨r.val % 15, Nat.mod_lt _ (by decide)⟩
def half (r : Fin 30) : ℕ := r.val / 15
def row (h : Fin 2) (s : Fin 15) : Fin 30 := ⟨15 * h.val + s.val, by omega⟩
theorem k0_off3_eq_agS : ∀ d0 : Dev nD, ∀ r : Fin 30,
    k0_off3 d0 (k0_off3_at r).1 (k0_off3_at r).2.1 (k0_off3_at r).2.2.1 (k0_off3_at r).2.2.2
      = ![128 * (2 * cx (agS d0 (slot r)) + cy (agS d0 (slot r))) + 64 * half r,
          128 * cz (agS d0 (slot r))] := by
  decide +kernel

end Cert.Kernel.Hand
-- ==== Proof.HandKernel.Sched.lean ====
import proofs.«900721_g7700000000000722_dist_ar_v7x_xyz2x2x4_z_m512_n512_f32_1_alg».proof.Proof.HandKernel.Mesh
import proofs.«900721_g7700000000000722_dist_ar_v7x_xyz2x2x4_z_m512_n512_f32_1_alg».proof.Proof.Gen.Kernel.Skeleton
import proofs.«900721_g7700000000000722_dist_ar_v7x_xyz2x2x4_z_m512_n512_f32_1_alg».proof.Proof.Gen.Kernel.Launch
import proofs.«900721_g7700000000000722_dist_ar_v7x_xyz2x2x4_z_m512_n512_f32_1_alg».proof.Proof.Gen.Kernel.Points
import proofs.«900721_g7700000000000722_dist_ar_v7x_xyz2x2x4_z_m512_n512_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.Sem
open Idealize.ShloMosaic.Rounds

variable {F : FTy → Type} [FloatOps F]

abbrev UB : Type := URounds (GSem nD τ sig) (Fin 6)
abbrev UU : Type := UR sig nD τ × UB

local notation "𝕄" => MT nD τ sig (Fin 2) (Elt F) ℕ UU ℕ

abbrev EP : Emb (UR sig nD τ) (MT nD τ sig (Fin 2) (Elt F) ℕ UU ℕ) := embL
abbrev ER : Emb UB (MT nD τ sig (Fin 2) (Elt F) ℕ UU ℕ) := embR

abbrev xM : Memref sig .tc .vmem S512x512 .f32 := Memref.whole cc0_stg0_0
abbrev oM : Memref sig .tc .vmem S512x512 .f32 := Memref.whole cc0_stg1_0
abbrev rsM : Memref sig .tc .vmem S3x128x128 .f32 := Memref.whole cc0_scratch0
abbrev redM : Memref sig .tc .vmem S128x128 .f32 := Memref.whole cc0_scratch1
abbrev agM : Memref sig .tc .vmem S15x128x128 .f32 := Memref.whole cc0_scratch2

theorem rs_inb (j : Fin 3) (h : Fin 2) : ∀ a, (![j.val, 64 * h.val, 0] : Fin 3 → Nat) a + S1x64x128.size a ≤ S3x128x128.size a := by
  revert j h; decide
theorem ag_inb (s : Fin 15) (h : Fin 2) : ∀ a, (![s.val, 64 * h.val, 0] : Fin 3 → Nat) a + S1x64x128.size a ≤ S15x128x128.size a := by
  revert s h; decide
theorem red_inb (h : Fin 2) : ∀ a, (![64 * h.val, 0] : Fin 2 → Nat) a + S64x128.size a ≤ S128x128.size a := by
  revert h; decide

abbrev rsSlot (j : Fin 3) (h : Fin 2) : Memref sig .tc .vmem S64x128 .f32 :=
  (rsM.slice (Rect.unit (s := S3x128x128) ![j.val, 64 * h.val, 0] S1x64x128.size (rs_inb j h)) (fun _ => rfl)).squeeze S64x128 squeezes_S1x64x128_S64x128

abbrev agSlot (s : Fin 15) (h : Fin 2) : Memref sig .tc .vmem S64x128 .f32 :=
  (agM.slice (Rect.unit (s := S15x128x128) ![s.val, 64 * h.val, 0] S1x64x128.size (ag_inb s h)) (fun _ => rfl)).squeeze S64x128 squeezes_S1x64x128_S64x128

abbrev redHalf (h : Fin 2) : Memref sig .tc .vmem S64x128 .f32 :=
  redM.slice (Rect.unit (s := S128x128) ![64 * h.val, 0] S64x128.size (red_inb h)) (fun _ => rfl)

abbrev barS : Sem sig := (SemArray.scalar (sig.barrier 0 rfl) : Sems sig S_).sem

theorem sem_inb3 (j : Fin 3) (h : Fin 2) : ∀ a, (![j.val, h.val] : Fin 2 → Nat) a + S1x1.size a ≤ S3x2.size a := by
  revert j h; decide
theorem sem_inb15 (s : Fin 15) (h : Fin 2) : ∀ a, (![s.val, h.val] : Fin 2 → Nat) a + S1x1.size a ≤ S15x2.size a := by
  revert s h; decide

abbrev rsSendS (j : Fin 3) (h : Fin 2) : DmaSem sig := ((cc0_scratch3.slice (Rect.unit (s := S3x2) ![j.val, h.val] S1x1.size (sem_inb3 j h))).squeeze S_ squeezes_S1x1_S_).sem
abbrev rsRecvS (j : Fin 3) (h : Fin 2) : DmaSem sig := ((cc0_scratch4.slice (Rect.unit (s := S3x2) ![j.val, h.val] S1x1.size (sem_inb3 j h))).squeeze S_ squeezes_S1x1_S_).sem
abbrev agSendS (s : Fin 15) (h : Fin 2) : DmaSem sig := ((cc0_scratch5.slice (Rect.unit (s := S15x2) ![s.val, h.val] S1x1.size (sem_inb15 s h))).squeeze S_ squeezes_S1x1_S_).sem
abbrev agRecvS (s : Fin 15) (h : Fin 2) : DmaSem sig := ((cc0_scratch6.slice (Rect.unit (s := S15x2) ![s.val, h.val] S1x1.size (sem_inb15 s h))).squeeze S_ squeezes_S1x1_S_).sem

abbrev barCell (c : Dev nD) : GSem nD τ sig := ((c : Thread nD τ), .reg barS)
abbrev rsSendCell (c : Dev nD) (j : Fin 3) (h : Fin 2) : GSem nD τ sig := ((c : Thread nD τ), .dma (rsSendS j h))
abbrev rsRecvCell (c : Dev nD) (j : Fin 3) (h : Fin 2) : GSem nD τ sig := ((c : Thread nD τ), .dma (rsRecvS j h))
abbrev agSendCell (c : Dev nD) (s : Fin 15) (h : Fin 2) : GSem nD τ sig := ((c : Thread nD τ), .dma (agSendS s h))
abbrev agRecvCell (c : Dev nD) (s : Fin 15) (h : Fin 2) : GSem nD τ sig := ((c : Thread nD τ), .dma (agRecvS s h))

inductive CellKind where
  | rsSend (j : Fin 3) (h : Fin 2)
  | rsRecv (j : Fin 3) (h : Fin 2)
  | agSend (s : Fin 15) (h : Fin 2)
  | agRecv (s : Fin 15) (h : Fin 2)
  | other
  deriving DecidableEq

def kindOf (q : DmaSem sig) : CellKind :=
  if h1 : 2 ≤ q.val ∧ q.val < 8 then .rsSend ⟨(q.val - 2) / 2, by omega⟩ ⟨(q.val - 2) % 2, by omega⟩
  else if h2 : 8 ≤ q.val ∧ q.val < 14 then .rsRecv ⟨(q.val - 8) / 2, by omega⟩ ⟨(q.val - 8) % 2, by omega⟩
  else if h3 : 14 ≤ q.val ∧ q.val < 44 then .agSend ⟨(q.val - 14) / 2, by omega⟩ ⟨(q.val - 14) % 2, by omega⟩
  else if h4 : 44 ≤ q.val ∧ q.val < 74 then .agRecv ⟨(q.val - 44) / 2, by omega⟩ ⟨(q.val - 44) % 2, by omega⟩
  else .other

theorem kindOf_rsSend (j : Fin 3) (h : Fin 2) : kindOf (rsSendS j h) = .rsSend j h := by revert j h; decide
theorem kindOf_rsRecv (j : Fin 3) (h : Fin 2) : kindOf (rsRecvS j h) = .rsRecv j h := by revert j h; decide
theorem kindOf_agSend (s : Fin 15) (h : Fin 2) : kindOf (agSendS s h) = .agSend s h := by revert s h; decide
theorem kindOf_agRecv (s : Fin 15) (h : Fin 2) : kindOf (agRecvS s h) = .agRecv s h := by revert s h; decide

abbrev Nrs : ℕ := (rsSlot 0 0).view.dmaCredit
abbrev Nag : ℕ := (agSlot 0 0).view.dmaCredit
theorem Nrs_pos : 0 < Nrs := View.dmaCredit_pos _ (by decide)
theorem Nag_pos : 0 < Nag := View.dmaCredit_pos _ (by decide)
theorem rsSlot_credit (j : Fin 3) (h : Fin 2) : (rsSlot j h).view.dmaCredit = Nrs := rfl
theorem agSlot_credit (s : Fin 15) (h : Fin 2) : (agSlot s h).view.dmaCredit = Nag := rfl

variable (m : (ℓ : Loc nD τ sig) → Buf (Elt F) ℓ)

def at2 (a b : ℕ) : S512x512.Idx := fun k => match k with
  | ⟨0, _⟩ => ⟨a % 512, Nat.mod_lt _ (by decide)⟩
  | ⟨1, _⟩ => ⟨b % 512, Nat.mod_lt _ (by decide)⟩

def at2t (a b : ℕ) : S128x128.Idx := fun k => match k with
  | ⟨0, _⟩ => ⟨a % 128, Nat.mod_lt _ (by decide)⟩
  | ⟨1, _⟩ => ⟨b % 128, Nat.mod_lt _ (by decide)⟩

def at2h (a b : ℕ) : S64x128.Idx := fun k => match k with
  | ⟨0, _⟩ => ⟨a % 64, Nat.mod_lt _ (by decide)⟩
  | ⟨1, _⟩ => ⟨b % 128, Nat.mod_lt _ (by decide)⟩

def xblk (c : Dev nD) : (cc0_stg0_0 : Ref sig .tc).ty.Contents (Elt F) :=
  (win0_0.blk (0 : Fin 1)).view.read (Elt F) (m ((c : Thread nD τ).loc main_arg0))

def trow (c : Dev nD) : ℕ := 2 * cx c + cy c

def rsVal (c : Dev nD) : (cc0_scratch0 : Ref sig .tc).ty.Contents (Elt F) := fun i =>
  xblk m (zp c (3 - (i 0).val)) (at2 (128 * trow c + (i 1).val) (128 * cz c + (i 2).val))

def xOwnVec (c : Dev nD) (h : Fin 2) : Vec F S64x128 .f32 := fun i =>
  xblk m c (at2 (128 * trow c + 64 * h.val + (i 0).val) (128 * cz c + (i 1).val))
def rsVec (c : Dev nD) (j : Fin 3) (h : Fin 2) : Vec F S1x64x128 .f32 := fun i =>
  rsVal m c (fun k => match k with
    | ⟨0, _⟩ => ⟨j.val, j.isLt⟩
    | ⟨1, _⟩ => ⟨(64 * h.val + (i 1).val) % 128, Nat.mod_lt _ (by decide)⟩
    | ⟨2, _⟩ => ⟨(i 2).val, (i 2).isLt⟩)

def redHalfVal (c : Dev nD) (h : Fin 2) : FVec F S64x128 .f32 :=
  if h = 0 then k0_pay1 (xOwnVec m c 0) (rsVec m c 0 0) (rsVec m c 1 0) (rsVec m c 2 0)
  else k0_pay2 (xOwnVec m c 1) (rsVec m c 0 1) (rsVec m c 1 1) (rsVec m c 2 1)

def redVal (c : Dev nD) : (cc0_scratch1 : Ref sig .tc).ty.Contents (Elt F) := fun i =>
  redHalfVal m c ⟨((i 0).val / 64) % 2, Nat.mod_lt _ (by decide)⟩ (at2h (i 0).val (i 1).val)

def agVal (c : Dev nD) : (cc0_scratch2 : Ref sig .tc).ty.Contents (Elt F) := fun i =>
  redVal m (agS c ⟨(i 0).val, (i 0).isLt⟩) (at2t (i 1).val (i 2).val)

def outVal : (cc0_stg1_0 : Ref sig .tc).ty.Contents (Elt F) := fun i =>
  redVal m (mk ((i 0).val / 256) ((i 0).val / 128) ((i 1).val / 128)) (at2t (i 0).val (i 1).val)

abbrev rsSrc (c : Dev nD) (j : Fin 3) (h : Fin 2) : Memref sig .tc .vmem S64x128 .f32 :=
  xM.slice (Rect.unit (s := S512x512) (k0_off1 c (BitVec.ofNat 32 (64 * h.val)) (BitVec.ofNat 32 (1 + j.val))) S64x128.size (k0_off1_inb c h j)) (fun _ => rfl)

def rightPow : ℕ → PosShare TreeShare
  | 0 => fullShare
  | n + 1 => (rightPow n).right
def agShare (s : Fin 15) : PosShare TreeShare := if s.val = 14 then rightPow 14 else (rightPow s.val).left

def rsSendPay (c : Dev nD) (j : Fin 3) (h : Fin 2) : sProp 𝕄 :=
  (rsSrc c j h).view.loc (c : Thread nD τ) ↦[(rsSrc c j h).view.set]{fullShare} xblk m c
def rsRecvPay (c : Dev nD) (j : Fin 3) (h : Fin 2) : sProp 𝕄 :=
  (rsSlot j h).view.loc (c : Thread nD τ) ↦[(rsSlot j h).view.set]{fullShare} rsVal m c
def agSendPay (c : Dev nD) (s : Fin 15) (h : Fin 2) : sProp 𝕄 :=
  (redHalf h).view.loc (c : Thread nD τ) ↦[(redHalf h).view.set]{agShare s} redVal m c
def agRecvPay (c : Dev nD) (s : Fin 15) (h : Fin 2) : sProp 𝕄 :=
  (agSlot s h).view.loc (c : Thread nD τ) ↦[(agSlot s h).view.set]{fullShare} agVal m c

def Rd : Rounds.Schedule (GSem nD τ sig) (Fin 6) 𝕄 where
  duties g r := match g.2 with
    | .dma q => if r = 0 ∧ g.1.2 = .tc ∧ kindOf q ≠ .other then {0} else ∅
    | .reg _ => ∅
  amount g _ _ := match g.2 with
    | .dma q => (match kindOf q with | .rsSend _ _ => Nrs | .rsRecv _ _ => Nrs | _ => Nag)
    | .reg _ => 1
  payload g _ _ := match g.2 with
    | .dma q => (match kindOf q with
        | .rsSend j h => rsSendPay m g.1.1 j h
        | .rsRecv j h => rsRecvPay m g.1.1 j h
        | .agSend s h => agSendPay m g.1.1 s h
        | .agRecv s h => agRecvPay m g.1.1 s h
        | .other => iprop(emp))
    | .reg _ => iprop(emp)
  amount_pos g _ _ _ := by
    rcases g with ⟨t, sm⟩
    cases sm with
    | dma q => dsimp only; split <;> first | exact Nrs_pos | exact Nag_pos
    | reg _ => exact Nat.one_pos

end Cert.Kernel.Hand

end
-- ==== Proof.HandKernel.Ghost.lean ====
import proofs.«900721_g7700000000000722_dist_ar_v7x_xyz2x2x4_z_m512_n512_f32_1_alg».proof.Proof.HandKernel.Sched
import proofs.«900721_g7700000000000722_dist_ar_v7x_xyz2x2x4_z_m512_n512_f32_1_alg».proof.Proof.LibBarrierCell

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Lib.BarrierCell

variable {F : FTy → Type} [FloatOps F]

local notation "𝕄" => MT nD τ sig (Fin 2) (Elt F) ℕ UU ℕ

variable (m : (ℓ : Loc nD τ sig) → Buf (Elt F) ℓ) (ρ : Dev nD → PrngReg)

def rsSlotAny (p : Dev nD) (j : Fin 3) (h : Fin 2) : sProp 𝕄 :=
  iprop(∃ f, ((rsSlot j h).view.loc (p : Thread nD τ)) ↦[(rsSlot j h).view.set]{fullShare} f)
def agSlotAny (p : Dev nD) (s : Fin 15) (h : Fin 2) : sProp 𝕄 :=
  iprop(∃ f, ((agSlot s h).view.loc (p : Thread nD τ)) ↦[(agSlot s h).view.set]{fullShare} f)

def rsSlabAny (p : Dev nD) (j : Fin 3) : sProp 𝕄 := iprop(rsSlotAny p j 0 ∗ rsSlotAny p j 1)
def agSlabAny (p : Dev nD) (s : Fin 15) : sProp 𝕄 := iprop(agSlotAny p s 0 ∗ agSlotAny p s 1)

def barPayZ (c : Dev nD) (d : Fin 3) : sProp 𝕄 :=
  iprop(rsSlabAny (zp c (3 - d.val)) ⟨2 - d.val, by omega⟩ ∗ agSlabAny (zp c (3 - d.val)) ⟨d.val, by omega⟩
    ∗ agSlabAny (zp c (3 - d.val)) ⟨4 + d.val, by omega⟩ ∗ agSlabAny (zp c (3 - d.val)) ⟨8 + d.val, by omega⟩
    ∗ agSlabAny (zp c (3 - d.val)) ⟨12 + d.val, by omega⟩)

def barPayXY (c : Dev nD) (e : Fin 3) : sProp 𝕄 :=
  iprop(agSlabAny (xyp c ((e.val + 1) / 2) ((e.val + 1) % 2)) ⟨4 * (e.val + 1) - 1, by omega⟩
    ∗ agSlabAny (zp (xyp c ((e.val + 1) / 2) ((e.val + 1) % 2)) 3) ⟨4 * (e.val + 1), by omega⟩
    ∗ agSlabAny (zp (xyp c ((e.val + 1) / 2) ((e.val + 1) % 2)) 2) ⟨4 * (e.val + 1) + 1, by omega⟩
    ∗ agSlabAny (zp (xyp c ((e.val + 1) / 2) ((e.val + 1) % 2)) 1) ⟨4 * (e.val + 1) + 2, by omega⟩)

def barPay (c : Dev nD) (d : Fin 6) : sProp 𝕄 :=
  if h : d.val < 3 then barPayZ c ⟨d.val, h⟩ else barPayXY c ⟨d.val - 3, by omega⟩

instance rsSlotAny_storable (p : Dev nD) (j : Fin 3) (h : Fin 2) : BI.Storable (upEmb : UEmb _ 𝕄) (rsSlotAny (F := F) p j h) := by unfold rsSlotAny; infer_instance
instance agSlotAny_storable (p : Dev nD) (s : Fin 15) (h : Fin 2) : BI.Storable (upEmb : UEmb _ 𝕄) (agSlotAny (F := F) p s h) := by unfold agSlotAny; infer_instance
instance rsSlabAny_storable (p : Dev nD) (j : Fin 3) : BI.Storable (upEmb : UEmb _ 𝕄) (rsSlabAny (F := F) p j) := by unfold rsSlabAny; infer_instance
instance agSlabAny_storable (p : Dev nD) (s : Fin 15) : BI.Storable (upEmb : UEmb _ 𝕄) (agSlabAny (F := F) p s) := by unfold agSlabAny; infer_instance
instance barPayZ_storable (c : Dev nD) (d : Fin 3) : BI.Storable (upEmb : UEmb _ 𝕄) (barPayZ (F := F) c d) := by unfold barPayZ; infer_instance
instance barPayXY_storable (c : Dev nD) (e : Fin 3) : BI.Storable (upEmb : UEmb _ 𝕄) (barPayXY (F := F) c e) := by unfold barPayXY; infer_instance
instance barPay_storable (c : Dev nD) (d : Fin 6) : BI.Storable (upEmb : UEmb _ 𝕄) (barPay (F := F) c d) := by
  unfold barPay; split <;> infer_instance

def pay (c : Dev nD) (n : ℕ) : CellTallies nD τ sig (Fin 2) :=
  if n < 3 then tallyAt (barCell (zp c (n + 1))) 0 16
  else if n < 6 then tallyAt (barCell (xyp c ((n - 2) / 2) ((n - 2) % 2))) 1 1
  else if h : n < 12 then tallyAt (rsRecvCell (zp c (1 + (n - 6) % 3)) ⟨(n - 6) % 3, Nat.mod_lt _ (by decide)⟩ ⟨(n - 6) / 3, by omega⟩) 0 Nrs
  else if h : n < 27 then tallyAt (agRecvCell (agT c ⟨n - 12, by omega⟩) ⟨n - 12, by omega⟩ 0) 0 Nag
  else if h : n < 42 then tallyAt (agRecvCell (agT c ⟨n - 27, by omega⟩) ⟨n - 27, by omega⟩ 1) 0 Nag
  else 0

def Orem (c : Dev nD) : ℕ → CellTallies nD τ sig (Fin 2)
  | 0 => 0
  | k + 1 => Orem c k + pay c (41 - k)

theorem Orem_succ (c : Dev nD) (k : ℕ) : Orem c (k + 1) = Orem c k + pay c (41 - k) := rfl

def L (g : GSem nD τ sig) : Finset (Fin 2) := if g.1.2 = .tc then Finset.univ else ∅

def lv (g : GSem nD τ sig) (ι : Fin 2) : ℕ := match g.2 with
  | .reg _ => if ι = 0 then 1 else 2
  | .dma q => (match kindOf q with | .rsRecv _ _ => 3 | .agRecv _ _ => 4 | _ => 0)

def records (K : GSem nD τ sig → ℕ) : sProp 𝕄 :=
  bigSep Finset.univ fun c' : Dev nD => iprop(
    barInv ER (K (barCell c')) (barCell c') (barPay c')
    ∗ (bigSep Finset.univ fun jh : Fin 3 × Fin 2 => iprop(
        cellInv ER (Rd m) (K (rsSendCell c' jh.1 jh.2)) (rsSendCell c' jh.1 jh.2) ∗ reached ER (rsSendCell c' jh.1 jh.2) 0
        ∗ cellInv ER (Rd m) (K (rsRecvCell c' jh.1 jh.2)) (rsRecvCell c' jh.1 jh.2) ∗ reached ER (rsRecvCell c' jh.1 jh.2) 0))
    ∗ (bigSep Finset.univ fun sh : Fin 15 × Fin 2 => iprop(
        cellInv ER (Rd m) (K (agSendCell c' sh.1 sh.2)) (agSendCell c' sh.1 sh.2) ∗ reached ER (agSendCell c' sh.1 sh.2) 0
        ∗ cellInv ER (Rd m) (K (agRecvCell c' sh.1 sh.2)) (agRecvCell c' sh.1 sh.2) ∗ reached ER (agRecvCell c' sh.1 sh.2) 0)))

instance records_persistent (K : GSem nD τ sig → ℕ) : BI.Persistent (records m K) := by unfold records; infer_instance

def positions (c : Dev nD) : sProp 𝕄 :=
  iprop((bigSep Finset.univ fun jh : Fin 3 × Fin 2 => iprop(atPos ER (rsSendCell c jh.1 jh.2) 0 ∅ 0 ∗ atPos ER (rsRecvCell c jh.1 jh.2) 0 ∅ 0))
    ∗ (bigSep Finset.univ fun sh : Fin 15 × Fin 2 => iprop(atPos ER (agSendCell c sh.1 sh.2) 0 ∅ 0 ∗ atPos ER (agRecvCell c sh.1 sh.2) 0 ∅ 0)))

def dmaToks (c : Dev nD) : sProp 𝕄 :=
  iprop((bigSep Finset.univ fun jh : Fin 3 × Fin 2 => iprop(dutyTok ER (rsSendCell c jh.1 jh.2) 0 0
            ∗ dutyTok ER (rsRecvCell (zp c (1 + jh.1.val)) jh.1 jh.2) 0 0))
    ∗ (bigSep Finset.univ fun sh : Fin 15 × Fin 2 => iprop(dutyTok ER (agSendCell c sh.1 sh.2) 0 0
            ∗ dutyTok ER (agRecvCell (agT c sh.1) sh.1 sh.2) 0 0)))

def barToks (c : Dev nD) : sProp 𝕄 :=
  iprop(payTok ER (barCell (zp c 1)) 0 ∗ payTok ER (barCell (zp c 2)) 1 ∗ payTok ER (barCell (zp c 3)) 2
    ∗ payTok ER (barCell (xyp c 0 1)) 3 ∗ payTok ER (barCell (xyp c 1 0)) 4 ∗ payTok ER (barCell (xyp c 1 1)) 5
    ∗ (bigSep Finset.univ fun d : Fin 6 => ownTok ER (barCell c) d)
    ∗ phA ER (barCell c) 0 ∗ phA ER (barCell c) 1)

def ghost (K : GSem nD τ sig → ℕ) (c : Dev nD) : sProp 𝕄 :=
  iprop(records m K ∗ positions c ∗ dmaToks c ∗ barToks c)

def creds (c : Dev nD) : sProp 𝕄 :=
  iprop(cred (tallyAt (barCell c) (0 : Fin 2) 48) ∗ cred (tallyAt (barCell c) (1 : Fin 2) 3)
    ∗ (bigSep Finset.univ fun jh : Fin 3 × Fin 2 => cred (tallyAt (rsRecvCell c jh.1 jh.2) (0 : Fin 2) Nrs))
    ∗ (bigSep Finset.univ fun sh : Fin 15 × Fin 2 => cred (tallyAt (agRecvCell c sh.1 sh.2) (0 : Fin 2) Nag)))

def start (c : Dev nD) : sProp 𝕄 :=
  iprop((∃ K, ghost m K c) ∗ creds c ∗ levAts L lv)

def scratchAny (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def semsZero (c : Dev nD) : sProp 𝕄 :=
  iprop((bigSep Finset.univ fun jh : Fin 3 × Fin 2 => iprop(semVal (rsSendCell c jh.1 jh.2) 0 ∗ semVal (rsRecvCell c jh.1 jh.2) 0))
    ∗ (bigSep Finset.univ fun sh : Fin 15 × Fin 2 => iprop(semVal (agSendCell c sh.1 sh.2) 0 ∗ semVal (agRecvCell c sh.1 sh.2) 0)))

def Φ₀ (c : Dev nD) : sProp 𝕄 := iprop(start m c ∗ scratchAny c)
def Φ₁ (c : Dev nD) : sProp 𝕄 := iprop(scratchAny c ∗ semsZero c)

def dats (_ : Fin 1) (c : Dev nD) : Dat τ (Elt F) (Fin 2) ℕ UU ℕ cfg0 c where
  A w := m ((cfg0.win w).arr.view.loc (c : Thread nD τ))
  after w _ := match w with
    | ⟨0, _⟩ => xblk m c
    | ⟨1, _⟩ => outVal m
  Φ t := match t with
    | ⟨0, _⟩ => Φ₀ m c
    | ⟨_ + 1, _⟩ => Φ₁ c
  q _ := fullShare
  owed t := match t with
    | ⟨0, _⟩ => Orem c 42
    | ⟨_ + 1, _⟩ => 0

end Cert.Kernel.Hand

end
-- ==== Proof.HandKernel.Tables.lean ====
import proofs.«900721_g7700000000000722_dist_ar_v7x_xyz2x2x4_z_m512_n512_f32_1_alg».proof.Proof.HandKernel.Sched

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ)

variable (c : Dev nD) (j : Fin 3) (s : Fin 15) (h : Fin 2) (d : Fin 6)

theorem duties_rsSend : (Rd (F := F) m).duties (rsSendCell c j h) 0 = {0} := by
  dsimp only [Rd]; exact if_pos ⟨rfl, rfl, by rw [kindOf_rsSend]; exact nofun⟩
theorem amount_rsSend : (Rd (F := F) m).amount (rsSendCell c j h) 0 d = Nrs := by
  dsimp only [Rd]; rw [kindOf_rsSend]
theorem expect_rsSend : (Rd (F := F) m).expect (rsSendCell c j h) 0 = Nrs := by
  unfold Schedule.expect Schedule.amountOf; rw [duties_rsSend, Finset.sum_singleton, amount_rsSend]
theorem payload_rsSend : (Rd (F := F) m).payload (rsSendCell c j h) 0 d = rsSendPay m c j h := by
  dsimp only [Rd]; rw [kindOf_rsSend]
theorem rest_rsSend :
    bigSep ((Rd (F := F) m).duties (rsSendCell c j h) 0 \ ∅) (fun d => (Rd (F := F) m).payload (rsSendCell c j h) 0 d) = rsSendPay m c j h := by
  rw [Finset.sdiff_empty, duties_rsSend, bigSep_singleton, payload_rsSend]
theorem mem_rsSend : (0 : Fin 6) ∈ (Rd (F := F) m).duties (rsSendCell c j h) 0 := by
  rw [duties_rsSend]; exact Finset.mem_singleton_self _

theorem duties_rsRecv : (Rd (F := F) m).duties (rsRecvCell c j h) 0 = {0} := by
  dsimp only [Rd]; exact if_pos ⟨rfl, rfl, by rw [kindOf_rsRecv]; exact nofun⟩
theorem amount_rsRecv : (Rd (F := F) m).amount (rsRecvCell c j h) 0 d = Nrs := by
  dsimp only [Rd]; rw [kindOf_rsRecv]
theorem expect_rsRecv : (Rd (F := F) m).expect (rsRecvCell c j h) 0 = Nrs := by
  unfold Schedule.expect Schedule.amountOf; rw [duties_rsRecv, Finset.sum_singleton, amount_rsRecv]
theorem payload_rsRecv : (Rd (F := F) m).payload (rsRecvCell c j h) 0 d = rsRecvPay m c j h := by
  dsimp only [Rd]; rw [kindOf_rsRecv]
theorem rest_rsRecv :
    bigSep ((Rd (F := F) m).duties (rsRecvCell c j h) 0 \ ∅) (fun d => (Rd (F := F) m).payload (rsRecvCell c j h) 0 d) = rsRecvPay m c j h := by
  rw [Finset.sdiff_empty, duties_rsRecv, bigSep_singleton, payload_rsRecv]
theorem mem_rsRecv : (0 : Fin 6) ∈ (Rd (F := F) m).duties (rsRecvCell c j h) 0 := by
  rw [duties_rsRecv]; exact Finset.mem_singleton_self _

theorem duties_agSend : (Rd (F := F) m).duties (agSendCell c s h) 0 = {0} := by
  dsimp only [Rd]; exact if_pos ⟨rfl, rfl, by rw [kindOf_agSend]; exact nofun⟩
theorem amount_agSend : (Rd (F := F) m).amount (agSendCell c s h) 0 d = Nag := by
  dsimp only [Rd]; rw [kindOf_agSend]
theorem expect_agSend : (Rd (F := F) m).expect (agSendCell c s h) 0 = Nag := by
  unfold Schedule.expect Schedule.amountOf; rw [duties_agSend, Finset.sum_singleton, amount_agSend]
theorem payload_agSend : (Rd (F := F) m).payload (agSendCell c s h) 0 d = agSendPay m c s h := by
  dsimp only [Rd]; rw [kindOf_agSend]
theorem rest_agSend :
    bigSep ((Rd (F := F) m).duties (agSendCell c s h) 0 \ ∅) (fun d => (Rd (F := F) m).payload (agSendCell c s h) 0 d) = agSendPay m c s h := by
  rw [Finset.sdiff_empty, duties_agSend, bigSep_singleton, payload_agSend]
theorem mem_agSend : (0 : Fin 6) ∈ (Rd (F := F) m).duties (agSendCell c s h) 0 := by
  rw [duties_agSend]; exact Finset.mem_singleton_self _

theorem duties_agRecv : (Rd (F := F) m).duties (agRecvCell c s h) 0 = {0} := by
  dsimp only [Rd]; exact if_pos ⟨rfl, rfl, by rw [kindOf_agRecv]; exact nofun⟩
theorem amount_agRecv : (Rd (F := F) m).amount (agRecvCell c s h) 0 d = Nag := by
  dsimp only [Rd]; rw [kindOf_agRecv]
theorem expect_agRecv : (Rd (F := F) m).expect (agRecvCell c s h) 0 = Nag := by
  unfold Schedule.expect Schedule.amountOf; rw [duties_agRecv, Finset.sum_singleton, amount_agRecv]
theorem payload_agRecv : (Rd (F := F) m).payload (agRecvCell c s h) 0 d = agRecvPay m c s h := by
  dsimp only [Rd]; rw [kindOf_agRecv]
theorem rest_agRecv :
    bigSep ((Rd (F := F) m).duties (agRecvCell c s h) 0 \ ∅) (fun d => (Rd (F := F) m).payload (agRecvCell c s h) 0 d) = agRecvPay m c s h := by
  rw [Finset.sdiff_empty, duties_agRecv, bigSep_singleton, payload_agRecv]
theorem mem_agRecv : (0 : Fin 6) ∈ (Rd (F := F) m).duties (agRecvCell c s h) 0 := by
  rw [duties_agRecv]; exact Finset.mem_singleton_self _

theorem duties_later (g : GSem nD τ sig) : ∀ r, 1 ≤ r → (Rd (F := F) m).duties g r = ∅ := fun r hr => by
  rcases g with ⟨t, sm⟩
  cases sm with
  | dma q => dsimp only [Rd]; exact if_neg fun h => by omega
  | reg s => rfl

instance Rd_payload_storable (g : GSem nD τ sig) (r : ℕ) (d : Fin 6) :
    BI.Storable (upEmb : UEmb _ 𝕄) ((Rd (F := F) m).payload g r d) := by
  rcases g with ⟨t, sm⟩
  cases sm with
  | dma q =>
    dsimp only [Rd]
    unfold rsSendPay rsRecvPay agSendPay agRecvPay
    (repeat' split) <;> infer_instance
  | reg s => dsimp only [Rd]; infer_instance

theorem not_unitless (g : GSem nD τ sig) : ¬ (Rd (F := F) m).unitless g := fun h => h

abbrev osem : Fin 72 → SemLoc sig := fun i => .dma ⟨i.val + 2, by have := i.isLt; show i.val + 2 < 74; omega⟩

theorem ownSemFacts : Pipeline.OwnSemFacts cfg0.spec osem := by decide

abbrev kcell (ck : Dev nD × Fin 72) : GSem nD τ sig := ((ck.1 : Thread nD τ), osem ck.2)

theorem kcell_injective : Function.Injective (kcell : Dev nD × Fin 72 → GSem nD τ sig) := by
  rintro ⟨c, k⟩ ⟨c', k'⟩ h
  have h1 : c = c' := congrArg (fun g : GSem nD τ sig => g.1.1) h
  have h3 : k.val + 2 = k'.val + 2 := congrArg Fin.val (SemLoc.dma.inj (congrArg Prod.snd h))
  rw [h1, Fin.ext (Nat.add_right_cancel h3)]

theorem osem_rsSend : osem ⟨2 * j.val + h.val, by omega⟩ = .dma (rsSendS j h) := by revert j h; decide
theorem osem_rsRecv : osem ⟨6 + 2 * j.val + h.val, by omega⟩ = .dma (rsRecvS j h) := by revert j h; decide
theorem osem_agSend : osem ⟨12 + 2 * s.val + h.val, by omega⟩ = .dma (agSendS s h) := by revert s h; decide
theorem osem_agRecv : osem ⟨42 + 2 * s.val + h.val, by omega⟩ = .dma (agRecvS s h) := by revert s h; decide

end Cert.Kernel.Hand

end
-- ==== Proof.HandKernel.BodyDefs.lean ====
import proofs.«900721_g7700000000000722_dist_ar_v7x_xyz2x2x4_z_m512_n512_f32_1_alg».proof.Proof.HandKernel.Ghost
import proofs.«900721_g7700000000000722_dist_ar_v7x_xyz2x2x4_z_m512_n512_f32_1_alg».proof.Proof.HandKernel.Tables

noncomputable section

namespace Cert.Kernel.Hand

open Cert.Kernel.Gen
open Idealize.ShloMosaic Idealize.ShloMosaic.TcCoe
open Idealize.SL.RA Idealize.SL.BI
open Idealize.SL.BI.BIBase

variable {F : FTy → Type} [FloatOps F]

local notation "𝕄" => MT nD τ sig (Fin 2) (Elt F) ℕ UU ℕ

variable (m : (ℓ : Loc nD τ sig) → Buf (Elt F) ℓ)

abbrev 𝒱₀ : Variants := Variants.none

def t₀ : Fin cfg0.N := ⟨0, by decide⟩
theorem fin_N (t : Fin cfg0.N) : t = t₀ := by revert t; decide

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : GSem nD τ sig → ℕ) (c : Dev nD) : sProp 𝕄 :=
  iprop((ghost m K c ∗ creds c ∗ levAts L lv ∗ scratchAny c)
    ∗ (dats m 0 c).owesAt (0 : Fin 2) t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt (0 : Fin 2) t₀.succ ∗ stg c cc0_stg0_0 (xblk m c) ∗ stg c cc0_stg1_0 (outVal m))

end Cert.Kernel.Hand

end
-- ==== Proof.HandKernel.Levels.lean ====
import proofs.«900721_g7700000000000722_dist_ar_v7x_xyz2x2x4_z_m512_n512_f32_1_alg».proof.Proof.HandKernel.Ghost
import Mathlib.Algebra.Order.BigOperators.Group.LocallyFinite

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (m : (ℓ : Loc nD τ sig) → Buf (Elt F) ℓ)

theorem L_of_ne (g : GSem nD τ sig) (h : g.1.2 ≠ .tc) : L g = ∅ := if_neg h
theorem L_tc (c : Dev nD) (sm : SemLoc sig) : L ((c : Thread nD τ), sm) = Finset.univ := if_pos rfl
theorem mem_L {g : GSem nD τ sig} (h : g.1.2 = .tc) (u : Fin 2) : u ∈ L g := by
  unfold L; rw [if_pos h]; exact Finset.mem_univ u

theorem lv_bar0 (c : Dev nD) : lv (barCell c) 0 = 1 := rfl
theorem lv_bar1 (c : Dev nD) : lv (barCell c) 1 = 2 := rfl
theorem lv_rsRecv (c : Dev nD) (j : Fin 3) (h : Fin 2) (u : Fin 2) : lv (rsRecvCell c j h) u = 3 := by
  dsimp only [lv]; rw [kindOf_rsRecv]
theorem lv_agRecv (c : Dev nD) (s : Fin 15) (h : Fin 2) (u : Fin 2) : lv (agRecvCell c s h) u = 4 := by
  dsimp only [lv]; rw [kindOf_agRecv]
theorem lv_stage (t : Thread nD τ) (q : DmaSem sig) (hq : q.val < 2) (u : Fin 2) : lv (t, .dma q) u = 0 := by
  dsimp only [lv]; unfold kindOf
  rw [dif_neg (by omega), dif_neg (by omega), dif_neg (by omega), dif_neg (by omega)]

theorem Orem_pos {c : Dev nD} {k : ℕ} {g : GSem nD τ sig} {u : Fin 2} (h : 0 < Orem c k g u) :
    ∃ n, 42 - k ≤ n ∧ n < 42 ∧ 0 < pay c n g u := by
  induction k with
  | zero => exact absurd h (Nat.lt_irrefl 0)
  | succ k ih =>
    rw [Orem_succ] at h
    rcases Pipeline.add_pos_cases h with h | h
    · obtain ⟨n, h1, h2, h3⟩ := ih h
      exact ⟨n, by omega, h2, h3⟩
    · exact ⟨41 - k, by omega, by omega, h⟩

theorem pay_pos_cases {c : Dev nD} {n : ℕ} {g : GSem nD τ sig} {u : Fin 2} (h : 0 < pay c n g u) :
    g.1.2 = .tc ∧ 1 ≤ lv g u ∧ (3 ≤ n → 2 ≤ lv g u) ∧ (6 ≤ n → 3 ≤ lv g u) ∧ (12 ≤ n → lv g u = 4) := by
  unfold pay at h
  repeat' split at h
  all_goals first
    | exact absurd h (Nat.lt_irrefl 0)
    | obtain ⟨rfl, rfl⟩ := Pipeline.tallyAt_pos h
      refine ⟨rfl, ?_, fun _ => ?_, fun _ => ?_, fun _ => ?_⟩ <;>
        first | omega | (simp only [lv_bar0, lv_bar1, lv_rsRecv, lv_agRecv] <;> decide)

theorem Orem_lv {c : Dev nD} {k : ℕ} {g : GSem nD τ sig} {u : Fin 2} (h : 0 < Orem c k g u) :
    u ∈ L g ∧ 1 ≤ lv g u ∧ (k ≤ 39 → 2 ≤ lv g u) ∧ (k ≤ 36 → 3 ≤ lv g u) ∧ (k ≤ 30 → lv g u = 4) := by
  obtain ⟨n, h1, h2, h3⟩ := Orem_pos h
  obtain ⟨p0, p1, p2, p3, p4⟩ := pay_pos_cases h3
  exact ⟨mem_L p0 u, p1, fun hk => p2 (by omega), fun hk => p3 (by omega), fun hk => p4 (by omega)⟩

-- a wait sits below everything still owed
theorem mayWait_lt (c : Dev nD) (sm : SemLoc sig) (u : Fin 2) {k : ℕ}
    (h : ∀ g i, 0 < Orem c k g i → lv ((c : Thread nD τ), sm) u < lv g i) :
    (levAts L lv : sProp 𝕄) ⊢ MayWait (c : Thread nD τ) sm u (Orem c k) :=
  Pipeline.mayWait_of_levAts (by rw [L_tc]; exact Finset.mem_univ _) fun g i hg => ⟨(Orem_lv hg).1, h g i hg⟩

theorem mayWait_stage (c : Dev nD) (q : DmaSem sig) (hq : q.val < 2) (O : CellTallies nD τ sig (Fin 2))
    (hO : O = Orem c 42 ∨ O = 0) : (levAts L lv : sProp 𝕄) ⊢ MayWait (c : Thread nD τ) (.dma q) 0 O := by
  rcases hO with rfl | rfl
  · exact mayWait_lt c _ 0 fun g i hg => by rw [lv_stage _ q hq]; exact (Orem_lv hg).2.1
  · rw [MayWait_zero]; iintro -; iempintro

theorem mayWait_bar48 (c : Dev nD) : (levAts L lv : sProp 𝕄) ⊢ MayWait (c : Thread nD τ) (.reg barS) 0 (Orem c 39) :=
  mayWait_lt c _ 0 fun g i hg => (Orem_lv hg).2.2.1 (Nat.le_refl _)

theorem mayWait_bar3 (c : Dev nD) : (levAts L lv : sProp 𝕄) ⊢ MayWait (c : Thread nD τ) (.reg barS) 1 (Orem c 30) :=
  mayWait_lt c _ 1 fun g i hg => by
    rw [show lv ((c : Thread nD τ), SemLoc.reg barS) 1 = 2 from rfl, (Orem_lv hg).2.2.2.2 (Nat.le_refl _)]; decide

theorem mayWait_rsRecv (c : Dev nD) (j : Fin 3) (h : Fin 2) (k : ℕ) (hk : k ≤ 30) :
    (levAts L lv : sProp 𝕄) ⊢ MayWait (c : Thread nD τ) (.dma (rsRecvS j h)) 0 (Orem c k) :=
  mayWait_lt c _ 0 fun g i hg => by
    rw [show lv ((c : Thread nD τ), SemLoc.dma (rsRecvS j h)) 0 = 3 from lv_rsRecv c j h 0, (Orem_lv hg).2.2.2.2 hk]; decide

theorem waits (c : Dev nD) : (levAts L lv : sProp 𝕄) ⊢ Pipeline.cellsWaits cfgs (dats m) (0 : Fin 2) 0 c :=
  Pipeline.cellsWaits_intro cfgs (dats m) (0 : Fin 2) 0 c fun w s t =>
    mayWait_stage c _ (by fin_cases w <;> fin_cases s <;> decide) _ (by
      rcases t with ⟨_ | _, ht⟩
      · exact Or.inl rfl
      · exact Or.inr rfl)

def due (c : Dev nD) : CellTallies nD τ sig (Fin 2) :=
  tallyAt (barCell c) 0 48 + (tallyAt (barCell c) 1 3
    + ((∑ jh : Fin 3 × Fin 2, tallyAt (rsRecvCell c jh.1 jh.2) 0 Nrs)
      + ∑ sh : Fin 15 × Fin 2, tallyAt (agRecvCell c sh.1 sh.2) 0 Nag))

def oweZ (d : Dev nD) : CellTallies nD τ sig (Fin 2) := ∑ x : Fin 3, tallyAt (barCell (zp d (x.val + 1))) 0 16
def oweXY (d : Dev nD) : CellTallies nD τ sig (Fin 2) :=
  ∑ x : Fin 3, tallyAt (barCell (xyp d ((x.val + 1) / 2) ((x.val + 1) % 2))) 1 1
def oweRs (d : Dev nD) : CellTallies nD τ sig (Fin 2) :=
  ∑ jh : Fin 3 × Fin 2, tallyAt (rsRecvCell (zp d (1 + jh.1.val)) jh.1 jh.2) 0 Nrs
def oweAg (d : Dev nD) : CellTallies nD τ sig (Fin 2) :=
  ∑ sh : Fin 15 × Fin 2, tallyAt (agRecvCell (agT d sh.1) sh.1 sh.2) 0 Nag

theorem Orem_Ico (d : Dev nD) (k : ℕ) (hk : k ≤ 42) : Orem d k = ∑ n ∈ Finset.Ico (42 - k) 42, pay d n := by
  induction k with
  | zero => rw [Finset.Ico_self, Finset.sum_empty]; rfl
  | succ k ih =>
    have e1 : 42 - (k + 1) = 41 - k := by omega
    have e2 : 41 - k + 1 = 42 - k := by omega
    rw [Orem_succ, ih (by omega), e1, Finset.sum_eq_sum_Ico_succ_bot (show 41 - k < 42 by omega) (pay d), e2, add_comm]

theorem sum_halves {n : ℕ} (f : Fin n → Fin 2 → CellTallies nD τ sig (Fin 2)) :
    (∑ p : Fin n × Fin 2, f p.1 p.2) = (∑ x, f x 0) + ∑ x, f x 1 := by
  rw [Fintype.sum_prod_type, ← Finset.sum_add_distrib]
  exact Finset.sum_congr rfl fun x _ => Fin.sum_univ_two _

theorem Orem_split (d : Dev nD) : Orem d 42 = oweZ d + (oweXY d + (oweRs d + oweAg d)) := by
  rw [Orem_Ico d 42 (Nat.le_refl _), Nat.sub_self, ← Finset.range_eq_Ico,
    show Finset.range 42 = Finset.range (3 + (3 + (3 + (3 + (15 + 15))))) from rfl,
    Finset.sum_range_add, Finset.sum_range_add, Finset.sum_range_add, Finset.sum_range_add, Finset.sum_range_add]
  simp only [Finset.sum_range]
  unfold oweZ oweXY oweRs oweAg
  rw [sum_halves fun j h => tallyAt (rsRecvCell (zp d (1 + j.val)) j h) 0 Nrs,
    sum_halves fun s h => tallyAt (agRecvCell (agT d s) s h) 0 Nag]
  simp only [add_assoc]
  refine congrArg₂ _ ?_ (congrArg₂ _ ?_ (congrArg₂ _ ?_ (congrArg₂ _ ?_ (congrArg₂ _ ?_ ?_))))
  all_goals exact Finset.sum_congr rfl fun x _ => by fin_cases x <;> rfl

theorem zp_bij : ∀ j : Fin 3, Function.Bijective fun d : Dev nD => zp d (1 + j.val) := by decide +kernel
theorem zp_bij' : ∀ x : Fin 3, Function.Bijective fun d : Dev nD => zp d (x.val + 1) := by decide +kernel
theorem xyp_bij : ∀ x : Fin 3, Function.Bijective fun d : Dev nD => xyp d ((x.val + 1) / 2) ((x.val + 1) % 2) := by
  decide +kernel
theorem agT_bij (s : Fin 15) : Function.Bijective fun d : Dev nD => agT d s :=
  Function.bijective_iff_has_inverse.mpr ⟨fun c => agS c s, fun d => agS_agT d s, fun c => agT_agS c s⟩

theorem sum_translate {α : Type} [Fintype α] (e : α → Dev nD → Dev nD) (he : ∀ a, Function.Bijective (e a))
    (f : α → Dev nD → CellTallies nD τ sig (Fin 2)) : (∑ d, ∑ a, f a (e a d)) = ∑ d, ∑ a, f a d := by
  rw [Finset.sum_comm, Finset.sum_comm (f := fun d a => f a d)]
  exact Finset.sum_congr rfl fun a _ => (he a).sum_comp (f a)

theorem sixteens (g : GSem nD τ sig) : (∑ _x : Fin 3, (tallyAt g 0 16 : CellTallies nD τ sig (Fin 2))) = tallyAt g 0 48 := by
  rw [Fin.sum_univ_three, tallyAt_add, tallyAt_add]
theorem ones (g : GSem nD τ sig) : (∑ _x : Fin 3, (tallyAt g 1 1 : CellTallies nD τ sig (Fin 2))) = tallyAt g 1 3 := by
  rw [Fin.sum_univ_three, tallyAt_add, tallyAt_add]

theorem sum_Orem : (∑ d : Dev nD, Orem d 42) = ∑ d : Dev nD, due d := by
  rw [Finset.sum_congr rfl fun d _ => Orem_split d]
  unfold due oweZ oweXY oweRs oweAg
  simp only [Finset.sum_add_distrib]
  rw [sum_translate _ zp_bij' fun _ d => tallyAt (barCell d) 0 16, sum_translate _ xyp_bij fun _ d => tallyAt (barCell d) 1 1,
    sum_translate _ (fun jh => zp_bij jh.1) fun (jh : Fin 3 × Fin 2) d => tallyAt (rsRecvCell d jh.1 jh.2) 0 Nrs,
    sum_translate _ (fun sh => agT_bij sh.1) fun (sh : Fin 15 × Fin 2) d => tallyAt (agRecvCell d sh.1 sh.2) 0 Nag,
    Finset.sum_congr rfl fun d _ => sixteens (barCell d), Finset.sum_congr rfl fun d _ => ones (barCell d)]

theorem due_own (d : Dev nD) (g : GSem nD τ sig) (h : due d g ≠ 0) : g.1 = (d : Thread nD τ) := by
  by_contra hne
  have off (sm : SemLoc sig) (ι : Fin 2) (k : ℕ) : (tallyAt (((d : Thread nD τ), sm) : GSem nD τ sig) ι k : CellTallies nD τ sig (Fin 2)) g = 0 :=
    tallyAt_ne_cell (fun e => hne (congrArg Prod.fst e)) ι k
  refine h ?_
  unfold due
  simp only [Pi.add_apply, Finset.sum_apply, off, Finset.sum_const_zero, add_zero]

theorem cred_due (c : Dev nD) : (cred (due c) : sProp 𝕄) ⊢ creds c := by
  unfold due creds
  refine (cred_add _ _).1.trans (sep_mono_right ?_)
  refine (cred_add _ _).1.trans (sep_mono_right ?_)
  refine (cred_add _ _).1.trans ?_
  rw [Pipeline.cred_finsetSum, Pipeline.cred_finsetSum]

theorem creds_intro (c : Dev nD) : (Pipeline.launchCred (fun c => Orem c 42) c : sProp 𝕄) ⊢ creds c := by
  rw [Pipeline.launchCred_of_sum (fun c => Orem c 42) due sum_Orem due_own c]
  exact cred_due c

end Cert.Kernel.Hand

end
-- ==== Proof.HandKernel.FinalOut.lean ====
import proofs.«900721_g7700000000000722_dist_ar_v7x_xyz2x2x4_z_m512_n512_f32_1_alg».proof.Proof.HandKernel.Ghost

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

theorem arrAt_out (c : Dev nD) : (dats m 0 c).arrAt (1 : Fin 2) cfg0.N = (fun i => outVal m i) := by
  have h := (dats m 0 c).arrAt_succ (1 : Fin 2) (⟨0, Nat.zero_lt_one⟩ : Fin cfg0.N)
  rw [if_pos (flush0_1 _)] at h
  exact h.trans (Memref.write_access_unit_zero_univ (Elt F) main_v1 (funext fun _ => Nat.zero_mul _) _ _ _)

end Cert.Kernel.Hand

end
-- ==== Proof.HandKernel.Launch.lean ====
import proofs.«900721_g7700000000000722_dist_ar_v7x_xyz2x2x4_z_m512_n512_f32_1_alg».proof.Proof.HandKernel.BodyDefs
import proofs.«900721_g7700000000000722_dist_ar_v7x_xyz2x2x4_z_m512_n512_f32_1_alg».proof.Proof.HandKernel.Levels
import proofs.«900721_g7700000000000722_dist_ar_v7x_xyz2x2x4_z_m512_n512_f32_1_alg».proof.Proof.HandKernel.FinalOut

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.BarrierCell

variable {F : FTy → Type} [FloatOps F]

local notation "𝕄" => MT nD τ sig (Fin 2) (Elt F) ℕ UU ℕ

variable (m : (ℓ : Loc nD τ sig) → Buf (Elt F) ℓ)

def cells : Finset (GSem nD τ sig) := Finset.univ.map ⟨kcell, kcell_injective⟩

abbrev TokIx : Type := Fin 72 ⊕ (Fin 4 × Fin 6)

abbrev tokOf (x : Dev nD × TokIx) : GSem nD τ sig × ℕ × Fin 6 := match x.2 with
  | .inl i => (kcell (x.1, i), 0, 0)
  | .inr rd => (barCell x.1, rd.1.val, rd.2)

theorem tokOf_injective : Function.Injective (tokOf : Dev nD × TokIx → GSem nD τ sig × ℕ × Fin 6) := by
  rintro ⟨c, i | ⟨r, d⟩⟩ ⟨c', i' | ⟨r', d'⟩⟩ h
  · obtain ⟨rfl, rfl⟩ := Prod.mk.inj (kcell_injective (congrArg Prod.fst h : kcell (c, i) = kcell (c', i')))
    rfl
  · exact absurd (congrArg (·.1.2) h) (fun h' => by cases h')
  · exact absurd (congrArg (·.1.2) h) (fun h' => by cases h')
  · obtain rfl : c = c' := congrArg (·.1.1.1) h
    obtain rfl : r = r' := Fin.ext (congrArg (·.2.1) h)
    obtain rfl : d = d' := congrArg (·.2.2) h
    rfl

def toks : Finset (GSem nD τ sig × ℕ × Fin 6) := Finset.univ.map ⟨tokOf, tokOf_injective⟩

def u₀ : UU :=
  (initOf (Pipeline.cells cfgs cellOf_inj) (Pipeline.launchToks cfgs cellOf_inj), initOf cells toks)

def G (c : Dev nD) : sProp 𝕄 :=
  iprop((bigSep Finset.univ fun i : Fin 72 => roundState ER (Rd m) (kcell (c, i)) 0)
    ∗ (bigSep Finset.univ fun i : Fin 72 => iprop(atPos ER (kcell (c, i)) 0 ∅ 0 ∗ reached ER (kcell (c, i)) 0))
    ∗ (bigSep Finset.univ fun i : Fin 72 => dutyTok ER (kcell (c, i)) 0 0)
    ∗ (bigSep Finset.univ fun rd : Fin 4 × Fin 6 => dutyTok ER (barCell c) rd.1.val rd.2))

def G' (c : Dev nD) : sProp 𝕄 := iprop(∃ K, ghost m K c)

theorem cells_eq (Φ : GSem nD τ sig → sProp 𝕄) :
    bigSep cells Φ = bigSep Finset.univ fun c : Dev nD => bigSep Finset.univ fun i : Fin 72 => Φ (kcell (c, i)) := by
  unfold cells; rw [bigSep_map, bigSep_univ_prod]; rfl

theorem toks_eq : bigSep toks (fun x => (dutyTok ER x.1 x.2.1 x.2.2 : sProp 𝕄))
    = iprop((bigSep Finset.univ fun c : Dev nD => bigSep Finset.univ fun i : Fin 72 => dutyTok ER (kcell (c, i)) 0 0)
        ∗ (bigSep Finset.univ fun c : Dev nD => bigSep Finset.univ fun rd : Fin 4 × Fin 6 => dutyTok ER (barCell c) rd.1.val rd.2)) := by
  unfold toks; rw [bigSep_map, bigSep_univ_prod, ← bigSep_sep']
  exact bigSep_congr fun c _ => bigSep_univ_sum _

theorem fund : BI.own (ER (initOf cells toks)) ⊢ (|==> bigSep Finset.univ (G m) : sProp 𝕄) := by
  iintro HX
  imod (Rounds.fund ER (Rd m) cells toks) $$ HX with ⟨Hst, Hr, Hat, Htok⟩
  imodintro
  ihave Hst' := (Entails.of_eq (cells_eq _)) $$ Hst
  ihave Hat' := (Entails.of_eq (cells_eq _)) $$ Hat
  ihave Hr' := (Entails.of_eq (cells_eq _)) $$ Hr
  icases (Entails.of_eq toks_eq) $$ Htok with ⟨Ht1, Ht2⟩
  unfold G; simp only [bigSep_sep']
  iframe

abbrev Fam : Type := (Fin 3 × Fin 2) ⊕ (Fin 3 × Fin 2) ⊕ (Fin 15 × Fin 2) ⊕ (Fin 15 × Fin 2)

def famIx : Fam → Fin 72
  | .inl jh => ⟨2 * jh.1.val + jh.2.val, by omega⟩
  | .inr (.inl jh) => ⟨6 + 2 * jh.1.val + jh.2.val, by omega⟩
  | .inr (.inr (.inl sh)) => ⟨12 + 2 * sh.1.val + sh.2.val, by omega⟩
  | .inr (.inr (.inr sh)) => ⟨42 + 2 * sh.1.val + sh.2.val, by omega⟩

def famEquiv : Fam ≃ Fin 72 := Equiv.ofBijective famIx (by decide)

theorem split72 (c : Dev nD) (Φ : GSem nD τ sig → sProp 𝕄) :
    (bigSep Finset.univ fun i : Fin 72 => Φ (kcell (c, i)))
      = iprop((bigSep Finset.univ fun jh : Fin 3 × Fin 2 => iprop(Φ (rsSendCell c jh.1 jh.2) ∗ Φ (rsRecvCell c jh.1 jh.2)))
          ∗ (bigSep Finset.univ fun sh : Fin 15 × Fin 2 => iprop(Φ (agSendCell c sh.1 sh.2) ∗ Φ (agRecvCell c sh.1 sh.2)))) := by
  rw [bigSep_univ_equiv famEquiv (fun i : Fin 72 => Φ (kcell (c, i))), bigSep_univ_sum, bigSep_univ_sum, bigSep_univ_sum,
    bigSep_sep', bigSep_sep']
  simp only [famEquiv, Equiv.ofBijective_apply, famIx, kcell, osem_rsSend, osem_rsRecv, osem_agSend, osem_agRecv]
  exact BI.equiv_iff.mp ⟨BI.sep_assoc', BI.sep_assoc⟩

/-- each `x`'s summands sent round the devices by the permutation `e x` -/
theorem around {β : Type} [Fintype β] (e : β → Dev nD → Dev nD) (he : ∀ x, Function.Bijective (e x)) (Φ : Dev nD → β → sProp 𝕄) :
    (bigSep Finset.univ fun c => bigSep Finset.univ fun x => Φ c x) = bigSep Finset.univ fun c => bigSep Finset.univ fun x => Φ (e x c) x := by
  rw [bigSep_univ_comm Φ, bigSep_univ_comm fun c x => Φ (e x c) x]
  exact bigSep_congr fun x _ => bigSep_univ_equiv (Equiv.ofBijective _ (he x)) fun c => Φ c x

theorem dma_around : (bigSep Finset.univ fun c : Dev nD => bigSep Finset.univ fun i : Fin 72 => (dutyTok ER (kcell (c, i)) 0 0 : sProp 𝕄))
    ⊢ bigSep Finset.univ fun c : Dev nD => dmaToks c := by
  unfold dmaToks
  rw [bigSep_congr (s := Finset.univ) (fun (c : Dev nD) _ => split72 c (fun g => (dutyTok ER g 0 0 : sProp 𝕄)))]
  simp only [bigSep_sep']
  rw [around (fun (jh : Fin 3 × Fin 2) c => zp c (1 + jh.1.val)) (fun jh => zp_bij jh.1) fun c jh => (dutyTok ER (rsRecvCell c jh.1 jh.2) 0 0 : sProp 𝕄),
    around (fun (sh : Fin 15 × Fin 2) c => agT c sh.1) (fun sh => agT_bij sh.1) fun c sh => (dutyTok ER (agRecvCell c sh.1 sh.2) 0 0 : sProp 𝕄)]

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

theorem bar_around : (bigSep Finset.univ fun c : Dev nD => bigSep Finset.univ fun d : Fin 6 => (payTok ER (barCell c) d : sProp 𝕄))
    ⊢ iprop((bigSep Finset.univ fun c : Dev nD => payTok ER (barCell (zp c 1)) 0) ∗ (bigSep Finset.univ fun c : Dev nD => payTok ER (barCell (zp c 2)) 1)
      ∗ (bigSep Finset.univ fun c : Dev nD => payTok ER (barCell (zp c 3)) 2) ∗ (bigSep Finset.univ fun c : Dev nD => payTok ER (barCell (xyp c 0 1)) 3)
      ∗ (bigSep Finset.univ fun c : Dev nD => payTok ER (barCell (xyp c 1 0)) 4) ∗ (bigSep Finset.univ fun c : Dev nD => payTok ER (barCell (xyp c 1 1)) 5)) := by
  rw [around ![fun c => zp c 1, fun c => zp c 2, fun c => zp c 3, fun c => xyp c 0 1, fun c => xyp c 1 0, fun c => xyp c 1 1]
    (by intro d; fin_cases d; exacts [zp_bij' 0, zp_bij' 1, zp_bij' 2, xyp_bij 0, xyp_bij 1, xyp_bij 2])
    fun c d => (payTok ER (barCell c) d : sProp 𝕄)]
  simp only [bigSep_fin6, bigSep_sep']
  exact BI.Entails.refl _

theorem unscopedSems0_eq (c : Dev nD) : (unscopedSems0 c : sProp 𝕄) = semVal (barCell c) 0 := by
  unfold unscopedSems0; rw [bigSep_eq_bigSepL_of_eq [SemLoc.reg barS] (by decide) (by decide)]; rfl

def barMint (c : Dev nD) : sProp 𝕄 :=
  iprop((bigSep Finset.univ fun d : Fin 6 => payTok ER (barCell c) d) ∗ (bigSep Finset.univ fun d : Fin 6 => ownTok ER (barCell c) d)
    ∗ phA ER (barCell c) 0 ∗ phA ER (barCell c) 1)

theorem bar_toks_split (c : Dev nD) :
    (bigSep Finset.univ fun rd : Fin 4 × Fin 6 => (dutyTok ER (barCell c) rd.1.val rd.2 : sProp 𝕄))
      ⊢ iprop(barMint c ∗ phB ER (barCell c) 0 ∗ phB ER (barCell c) 1) := by
  rw [bigSep_univ_prod, bigSep_fin4]
  have e2 (r : ℕ) : (bigSep Finset.univ fun d : Fin 6 => (dutyTok ER (barCell c) r d : sProp 𝕄))
      ⊢ iprop(dutyTok ER (barCell c) r 0 ∗ dutyTok ER (barCell c) r 1) := by
    rw [bigSep_fin6]; iintro ⟨A, B, -⟩; isplitl [A] <;> iassumption
  unfold barMint
  show iprop((bigSep Finset.univ fun d : Fin 6 => (dutyTok ER (barCell c) 0 d : sProp 𝕄)) ∗ (bigSep Finset.univ fun d : Fin 6 => (dutyTok ER (barCell c) 1 d : sProp 𝕄))
      ∗ (bigSep Finset.univ fun d : Fin 6 => (dutyTok ER (barCell c) 2 d : sProp 𝕄)) ∗ (bigSep Finset.univ fun d : Fin 6 => (dutyTok ER (barCell c) 3 d : sProp 𝕄))) ⊢ _
  iintro ⟨H0, H1, H2, H3⟩
  icases (e2 2) $$ H2 with ⟨A0, A1⟩
  icases (e2 3) $$ H3 with ⟨B0, B1⟩
  iframe

/-- a device's state once its invariants are allocated, their names still to be chosen -/
def minted (c : Dev nD) : sProp 𝕄 :=
  iprop((bigSep Finset.univ fun i : Fin 72 => iprop(∃ κ : ℕ, cellInv ER (Rd m) κ (kcell (c, i))))
    ∗ (∃ κ : ℕ, barInv ER κ (barCell c) (barPay (F := F) c))
    ∗ (bigSep Finset.univ fun i : Fin 72 => iprop(atPos ER (kcell (c, i)) 0 ∅ 0 ∗ reached ER (kcell (c, i)) 0))
    ∗ (bigSep Finset.univ fun i : Fin 72 => dutyTok ER (kcell (c, i)) 0 0)
    ∗ barMint c)

theorem core_alloc (c : Dev nD) :
    iprop(Pipeline.ownSems0 (Ix := Fin 2) (Name := ℕ) (U := UU) (Lvl := ℕ) (Val := Elt F) (τ := τ) osem c ∗ unscopedSems0 c ∗ G m c)
      ⊢ |={Set.univ}=> minted m c := by
  unfold G Pipeline.ownSems0 minted
  rw [unscopedSems0_eq]
  iintro ⟨Hos, Hus, Hst, Hat, Htd, Htb⟩
  icases (bar_toks_split (F := F) c) $$ Htb with ⟨Hmint, HB⟩
  imod (show iprop((bigSep Finset.univ fun i : Fin 72 => semVal (kcell (c, i)) 0) ∗ bigSep Finset.univ fun i : Fin 72 => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hos Hst] with Hinv
  · iframe
  imod (bar_alloc ER (pay := barPay (F := F) c) (g := barCell c) (Es := Set.univ)) $$ [Hus HB] with Hbar
  · iframe
  imodintro
  iframe

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem records_intro (K : GSem nD τ sig → ℕ) :
    iprop((bigSep Finset.univ fun c : Dev nD => barInv ER (K (barCell c)) (barCell c) (barPay (F := F) c))
        ∗ (bigSep Finset.univ fun c : Dev nD => bigSep Finset.univ fun i : Fin 72 => cellInv ER (Rd m) (K (kcell (c, i))) (kcell (c, i)))
        ∗ (bigSep Finset.univ fun c : Dev nD => bigSep Finset.univ fun i : Fin 72 => reached ER (kcell (c, i)) 0))
      ⊢ records m K := by
  unfold records
  rw [← bigSep_sep', ← bigSep_sep']
  refine bigSep_mono fun c _ => ?_
  rw [← bigSep_sep', split72 c (fun g => iprop(cellInv ER (Rd m) (K g) g ∗ reached ER g 0))]
  exact BI.sep_mono_r (BI.sep_mono (bigSep_mono fun _ _ => BI.sep_assoc) (bigSep_mono fun _ _ => BI.sep_assoc))

theorem ghost_intro (K : GSem nD τ sig → ℕ) (c : Dev nD) : iprop(records m K ∗ positions c ∗ dmaToks c ∗ barToks c) ⊢ G' m c := by
  unfold G' ghost
  iintro ⟨HR, HL⟩
  iexists K
  iframe

theorem positions_all : (bigSep Finset.univ fun c : Dev nD => bigSep Finset.univ fun i : Fin 72 => (atPos ER (kcell (c, i)) 0 ∅ 0 : sProp 𝕄))
    ⊢ bigSep Finset.univ fun c : Dev nD => positions c :=
  bigSep_mono fun c _ => by unfold positions; rw [split72 c (fun g => (atPos ER g 0 ∅ 0 : sProp 𝕄))]; exact BI.Entails.refl _

theorem barToks_intro :
    (bigSep Finset.univ fun c : Dev nD => (barMint c : sProp 𝕄)) ⊢ bigSep Finset.univ fun c : Dev nD => barToks c := by
  unfold barMint barToks
  simp only [bigSep_sep']
  iintro ⟨Hp, Ho, HA0, HA1⟩
  icases (bar_around (F := F)) $$ Hp with ⟨P0, P1, P2, P3, P4, P5⟩
  iframe

theorem regroup :
    bigSep Finset.univ (minted m) ⊢ bigSep Finset.univ (G' m) := by
  unfold minted
  rw [bigSep_sep', bigSep_sep', bigSep_sep', bigSep_sep',
    ← cells_eq (fun g => iprop(∃ κ : ℕ, cellInv ER (Rd m) κ g)),
    bigSep_congr (s := Finset.univ) (fun (c : Dev nD) _ => bigSep_sep' Finset.univ (fun i : Fin 72 => (atPos ER (kcell (c, i)) 0 ∅ 0 : sProp 𝕄)) (fun i => reached ER (kcell (c, i)) 0)),
    bigSep_sep']
  iintro ⟨HI1, HI2, ⟨Hat, #HR⟩, Htd, Hmint⟩
  icases (BI.bigSep_exists_pi cells (fun (g : GSem nD τ sig) (κ : ℕ) => (cellInv ER (Rd m) κ g : sProp 𝕄))) $$ HI1 with ⟨%K1, #HI1⟩
  icases (BI.bigSep_exists_pi Finset.univ (fun (c : Dev nD) (κ : ℕ) => (barInv ER κ (barCell c) (barPay (F := F) c) : sProp 𝕄))) $$ HI2 with ⟨%K2, #HI2⟩
  obtain ⟨K, hK1, hK2⟩ : ∃ K : GSem nD τ sig → ℕ, (∀ c i, K (kcell (c, i)) = K1 (kcell (c, i))) ∧ ∀ c : Dev nD, K (barCell c) = K2 c :=
    ⟨fun g => match g.2 with | .reg _ => K2 g.1.1 | .dma _ => K1 g, fun _ _ => rfl, fun _ => rfl⟩
  ihave Htd' := (dma_around (F := F)) $$ Htd
  ihave Hbt := (barToks_intro (F := F)) $$ Hmint
  ihave Hat' := (positions_all (F := F)) $$ Hat
  iapply (bigSep_with_persistent (R := records m K) fun c _ => ghost_intro m K c)
  isplitr
  · iapply (records_intro m K)
    isplitl
    · simp only [hK2]; iexact HI2
    isplitl
    · simp only [hK1]
      iapply (Entails.of_eq (cells_eq (fun g => (cellInv ER (Rd m) (K1 g) g : sProp 𝕄))))
      iexact HI1
    iexact HR
  · simp only [bigSep_sep']
    iframe

theorem glob : (bigSep Finset.univ fun c => iprop(Pipeline.ownSems0 (Ix := Fin 2) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun c => Orem c 42) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, Hr⟩
  iframe

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scratchAny semsZero Pipeline.ownSems0
  iintro ⟨Hr, Hz⟩
  isplitr; · iempintro
  isplitl [Hz]
  · iapply (Entails.of_eq (split72 c (fun g => (semVal g 0 : sProp 𝕄))).symm)
    iexact Hz
  iexact Hr

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Fin 2) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev BodySound : Prop := ∀ (K : GSem nD τ sig → ℕ) (c : Dev nD) (Kt : PUnit → sProp 𝕄), iprop(bodyPre m K c ∗ (bodyPost m c -∗ Kt ⟨⟩))
    ⊢ wp frame (wpE (defs₀ (F := F)) 𝒱₀ c.tc none) Set.univ (bodyAt0 (F := F) t₀) Kt

set_option maxRecDepth 4000 in
def bodyPre' (c : Dev nD) : sProp 𝕄 :=
  iprop(Φ₀ m c ∗ (dats m 0 c).owesAt (0 : Fin 2) t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 32000 in
theorem body_obligation (hbody : BodySound m) (c : Dev nD) : BodyObligation (dats (F := F) m 0 c) (defs₀ (F := F)) 𝒱₀ (0 : Fin 2) Set.univ := fun t => by
  rw [fin_N t]
  rw [bigSep_W0, bigSep_W0]
  simp only [owns_whole_eq]
  show bodyPre' m c ⊢ wp frame (wpE (defs₀ (F := F)) 𝒱₀ c.tc none) Set.univ (bodyAt0 (F := F) t₀) (fun _ => bodyPost m c)
  unfold bodyPre' Φ₀ start
  iintro ⟨⟨⟨⟨%K, Hg⟩, Hcr, Hlev⟩, Hscr⟩, Ho, Hx, Hout⟩
  iapply (hbody K c fun _ => bodyPost m c)
  unfold bodyPre
  iframe
  iintro H; iexact H

def finalA (c : Dev nD) (w : Fin cfg0.W) : Buf (Elt F) ((cfg0.win w).arr.view.loc (c : Thread nD τ)) := (dats m 0 c).arrAt w cfg0.N

set_option maxRecDepth 16000 in
theorem run_main (ρ : Dev nD → PrngReg) (hbody : BodySound m) : θ_run defs (onTc (τ := τ) (main (F := F))) ⟨m, fun _ => 0, ρ⟩
    (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) (0 : Fin 2) cellOf_inj (0 : Fin 1)
    winFacts0.to₀ ownSemFacts (Pipeline.PreFacts.none _) EP defs₀ 𝒱₀ m ρ main
    (hmain := fun _ => rfl)
    (hbody := body_obligation m hbody) (hne := fun w => by fin_cases w <;> exact Nat.succ_pos _) (harr := arr_whole0) (hstage := stage_whole0) (hshare := share_eq m)
    (hdistinct := winFacts0.arr_inj)
    (O₀ := fun c => Orem c 42) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_pair _ _) $$ Hu with ⟨HP, HX⟩
      imod (fund m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      iframe)
    (hQ := fun _ h c w => (h c).1 w)

theorem finalA_x (c : Dev nD) : finalA m c (0 : Fin 2) = m ((c : Thread nD τ).loc main_arg0) :=
  (dats (F := F) m 0 c).arrAt_in (0 : Fin 2) rfl _

theorem finalA_out (c : Dev nD) : finalA m c (1 : Fin 2) = (fun i => outVal m i) := arrAt_out m c

theorem run_values (ρ : Dev nD → PrngReg) (hbody : BodySound m) : θ_run defs (onTc (τ := τ) (main (F := F))) ⟨m, fun _ => 0, ρ⟩
    (fun r => ∀ c : Dev nD, r.2.mem (c.tc.loc main_v1) = outVal m
      ∧ r.2.mem (c.tc.loc main_arg0) = m (c.tc.loc main_arg0)) :=
  (θ_run defs _ _).mono (fun _ h c => ⟨(h c (1 : Fin 2)).trans (finalA_out m c), (h c (0 : Fin 2)).trans (finalA_x m c)⟩) (run_main m ρ hbody)

end Cert.Kernel.Hand

end
-- ==== Proof.HandKernel.Landing.lean ====
import proofs.«900721_g7700000000000722_dist_ar_v7x_xyz2x2x4_z_m512_n512_f32_1_alg».proof.Proof.HandKernel.Sched
import Idealize.ShloMosaic.Lib.Pipeline.Value

noncomputable section

namespace Cert.Kernel.Hand

open Cert.Kernel.Gen
open Idealize.ShloMosaic Idealize.ShloMosaic.TcCoe
open Idealize.SL.RA Idealize.SL.BI
open Idealize.SL.BI.BIBase

variable {F : FTy → Type} [FloatOps F]

local notation "𝕄" => MT nD τ sig (Fin 2) (Elt F) ℕ UU ℕ

variable (m : (ℓ : Loc nD τ sig) → Buf (Elt F) ℓ)

theorem rsSlot_emb (j : Fin 3) (h : Fin 2) (y : S64x128.Idx) :
    (((rsSlot j h).view.emb y : (cc0_scratch0 : Ref sig .tc).ty.Idx) 0).val = j.val
    ∧ (((rsSlot j h).view.emb y : (cc0_scratch0 : Ref sig .tc).ty.Idx) 1).val = 64 * h.val + (y 0).val
    ∧ (((rsSlot j h).view.emb y : (cc0_scratch0 : Ref sig .tc).ty.Idx) 2).val = (y 1).val := by
  have e : Shape.reshapeEquiv (s := S1x64x128) (s' := S64x128) squeezes_S1x64x128_S64x128.numel_eq y
      = Fin.cons ⟨0, Nat.one_pos⟩ y := Shape.reshapeEquiv_cons_one _ y
  refine ⟨?_, ?_, ?_⟩ <;>
  · show ((Rect.unit (s := S3x128x128) ![j.val, 64 * h.val, 0] S1x64x128.size (rs_inb j h)).emb
        (Shape.reshapeEquiv (s := S1x64x128) (s' := S64x128) squeezes_S1x64x128_S64x128.numel_eq y) _).val = _
    rw [e, Rect.emb_apply]; simp <;> rfl

theorem rsSrc_emb (c : Dev nD) (j : Fin 3) (h : Fin 2) (y : S64x128.Idx) :
    (((rsSrc c j h).view.emb y : (cc0_stg0_0 : Ref sig .tc).ty.Idx) 0).val = 128 * trow c + 64 * h.val + (y 0).val
    ∧ (((rsSrc c j h).view.emb y : (cc0_stg0_0 : Ref sig .tc).ty.Idx) 1).val
        = 128 * ((cz c + (1 + j.val)) % 4) + (y 1).val := by
  have e := k0_off1_eq c h j
  have e0 : k0_off1 c (BitVec.ofNat 32 (64 * h.val)) (BitVec.ofNat 32 (1 + j.val)) 0
      = 128 * (2 * cx c + cy c) + 64 * h.val := by rw [e]; rfl
  have e1 : k0_off1 c (BitVec.ofNat 32 (64 * h.val)) (BitVec.ofNat 32 (1 + j.val)) 1
      = 128 * ((cz c + (1 + j.val)) % 4) := by rw [e]; rfl
  refine ⟨?_, ?_⟩ <;>
  · show ((Rect.unit (s := S512x512) (k0_off1 c (BitVec.ofNat 32 (64 * h.val)) (BitVec.ofNat 32 (1 + j.val)))
        S64x128.size (k0_off1_inb c h j)).emb y _).val = _
    rw [Rect.emb_apply, Rect.off_unit, Rect.stride_unit]; simp only [trow]; omega

theorem eq_at2 {i : S512x512.Idx} {a b : ℕ} (h0 : (i 0).val = a) (h1 : (i 1).val = b) : i = at2 a b := by
  subst h0 h1
  funext k; apply Fin.ext
  match k with
  | ⟨0, _⟩ => exact (Nat.mod_eq_of_lt (i 0).isLt).symm
  | ⟨1, _⟩ => exact (Nat.mod_eq_of_lt (i 1).isLt).symm

theorem zp_back (p : Dev nD) (j : Fin 3) : zp (zp p (1 + j.val)) (3 - j.val) = p := by
  revert p j; decide +kernel

theorem rs_land (p : Dev nD) (j : Fin 3) (h : Fin 2) (fd : Buf (Elt F) ((rsSlot j h).view.loc ((zp p (1 + j.val) : Dev nD) : Thread nD τ))) :
    (((rsSlot j h).view.loc ((zp p (1 + j.val) : Dev nD) : Thread nD τ)) ↦[(rsSlot j h).view.set]{fullShare} ((rsSlot j h).view.write (Elt F) fd ((rsSrc p j h).view.read (Elt F) (xblk m p)) Finset.univ) : sProp 𝕄) ⊢ rsRecvPay m (zp p (1 + j.val)) j h := by
  unfold rsRecvPay
  refine Entails.of_eq (pointsTo_congr fun i hi => ?_)
  obtain ⟨y, rfl⟩ := View.exists_emb_of_mem_set _ hi
  rw [View.write_emb_of_mem _ _ (Finset.mem_univ y), View.read_apply, cast_cast, cast_eq]
  obtain ⟨e0, e1, e2⟩ := rsSlot_emb j h y
  obtain ⟨s0, s1⟩ := rsSrc_emb p j h y
  unfold rsVal
  rw [e0, e1, e2, zp_back]
  congr 1
  refine eq_at2 ?_ ?_
  · rw [s0]; simp only [trow, cx_zp, cy_zp]; omega
  · rw [s1, cz_zp]

theorem rsSlot_set (j : Fin 3) (h : Fin 2) : (rsSlot j h).view.set
    = (Rect.unit (s := S3x128x128) ![j.val, 64 * h.val, 0] S1x64x128.size (rs_inb j h)).set :=
  (View.set_reshape _ _).trans (View.set_slice_whole cc0_scratch0 _)

theorem mem_rsSlot {j : Fin 3} {h : Fin 2} {i : (cc0_scratch0 : Ref sig .tc).ty.Idx} :
    i ∈ (rsSlot j h).view.set
      ↔ (j.val ≤ (i 0).val ∧ (i 0).val < j.val + 1) ∧ 64 * h.val ≤ (i 1).val ∧ (i 1).val < 64 * h.val + 64 := by
  rw [rsSlot_set, Rect.mem_set_unit]
  exact ⟨fun H => ⟨H 0, H 1⟩, fun H a => match a with
    | ⟨0, _⟩ => H.1 | ⟨1, _⟩ => H.2 | ⟨2, _⟩ => ⟨Nat.zero_le _, (i 2).isLt⟩⟩

theorem read_xOwn (c : Dev nD) (h : Fin 2) : xM.view.readAt (Elt F) (Rect.unit (s := S512x512) (k0_off2 c (BitVec.ofNat 32 (64 * h.val))) S64x128.size (k0_off2_inb c h)).toLoadRect (xblk m c) = xOwnVec m c h := by
  funext x
  rw [View.readAt_apply, View.read_apply, cast_eq]
  show xblk m c ((Rect.unit (s := S512x512) (k0_off2 c (BitVec.ofNat 32 (64 * h.val))) S64x128.size (k0_off2_inb c h)).toLoadRect.idx x) = _
  unfold xOwnVec
  congr 1
  have e := k0_off2_eq' c h
  have e0 : k0_off2 c (BitVec.ofNat 32 (64 * h.val)) 0 = 128 * (2 * cx c + cy c) + 64 * h.val := by rw [e]; rfl
  have e1 : k0_off2 c (BitVec.ofNat 32 (64 * h.val)) 1 = 128 * cz c := by rw [e]; rfl
  refine eq_at2 ?_ ?_
  · rw [LoadRect.idx_apply]; show k0_off2 c (BitVec.ofNat 32 (64 * h.val)) 0 + 1 * (x 0).val = _
    simp only [trow]; omega
  · rw [LoadRect.idx_apply]; show k0_off2 c (BitVec.ofNat 32 (64 * h.val)) 1 + 1 * (x 1).val = _
    omega

theorem read_rs (c : Dev nD) (j : Fin 3) (h : Fin 2) (f : (cc0_scratch0 : Ref sig .tc).ty.Contents (Elt F)) (hf : ∀ i ∈ (rsSlot j h).view.set, f i = rsVal m c i) :
    rsM.view.readAt (Elt F) (Rect.unit (s := S3x128x128) ![j.val, 64 * h.val, 0] S1x64x128.size (rs_inb j h)).toLoadRect f = rsVec m c j h := by
  funext x
  rw [View.readAt_apply, View.read_apply, cast_eq]
  show f ((Rect.unit (s := S3x128x128) ![j.val, 64 * h.val, 0] S1x64x128.size (rs_inb j h)).toLoadRect.idx x) = _
  have hm := (Rect.unit (s := S3x128x128) ![j.val, 64 * h.val, 0] S1x64x128.size (rs_inb j h)).toLoadRect.idx_mem x
  rw [hf _ (by rw [rsSlot_set]; exact hm)]
  unfold rsVec
  congr 1
  have l0 : (x 0).val < 1 := (x 0).isLt
  have l1 : (x 1).val < 64 := (x 1).isLt
  funext k; apply Fin.ext
  match k with
  | ⟨0, _⟩ => show j.val + 1 * (x 0).val = j.val; omega
  | ⟨1, _⟩ => show 64 * h.val + 1 * (x 1).val = (64 * h.val + (x 1).val) % 128; omega
  | ⟨2, _⟩ => show 0 + 1 * (x 2).val = (x 2).val; omega

theorem agSlot_emb (s : Fin 15) (h : Fin 2) (y : S64x128.Idx) :
    (((agSlot s h).view.emb y : (cc0_scratch2 : Ref sig .tc).ty.Idx) 0).val = s.val
    ∧ (((agSlot s h).view.emb y : (cc0_scratch2 : Ref sig .tc).ty.Idx) 1).val = 64 * h.val + (y 0).val
    ∧ (((agSlot s h).view.emb y : (cc0_scratch2 : Ref sig .tc).ty.Idx) 2).val = (y 1).val := by
  have e : Shape.reshapeEquiv (s := S1x64x128) (s' := S64x128) squeezes_S1x64x128_S64x128.numel_eq y
      = Fin.cons ⟨0, Nat.one_pos⟩ y := Shape.reshapeEquiv_cons_one _ y
  refine ⟨?_, ?_, ?_⟩ <;>
  · show ((Rect.unit (s := S15x128x128) ![s.val, 64 * h.val, 0] S1x64x128.size (ag_inb s h)).emb
        (Shape.reshapeEquiv (s := S1x64x128) (s' := S64x128) squeezes_S1x64x128_S64x128.numel_eq y) _).val = _
    rw [e, Rect.emb_apply]; simp <;> rfl

theorem redHalf_emb (h : Fin 2) (y : S64x128.Idx) :
    (((redHalf h).view.emb y : (cc0_scratch1 : Ref sig .tc).ty.Idx) 0).val = 64 * h.val + (y 0).val
    ∧ (((redHalf h).view.emb y : (cc0_scratch1 : Ref sig .tc).ty.Idx) 1).val = (y 1).val := by
  refine ⟨?_, ?_⟩ <;>
  · show ((Rect.unit (s := S128x128) ![64 * h.val, 0] S64x128.size (red_inb h)).emb y _).val = _
    rw [Rect.emb_apply]; simp <;> rfl

theorem eq_at2t {i : S128x128.Idx} {a b : ℕ} (h0 : (i 0).val = a) (h1 : (i 1).val = b) : i = at2t a b := by
  subst h0 h1
  funext k; apply Fin.ext
  match k with
  | ⟨0, _⟩ => exact (Nat.mod_eq_of_lt (i 0).isLt).symm
  | ⟨1, _⟩ => exact (Nat.mod_eq_of_lt (i 1).isLt).symm

theorem agSlot_set (s : Fin 15) (h : Fin 2) : (agSlot s h).view.set
    = (Rect.unit (s := S15x128x128) ![s.val, 64 * h.val, 0] S1x64x128.size (ag_inb s h)).set :=
  (View.set_reshape _ _).trans (View.set_slice_whole cc0_scratch2 _)

theorem redHalf_set (h : Fin 2) : (redHalf h).view.set
    = (Rect.unit (s := S128x128) ![64 * h.val, 0] S64x128.size (red_inb h)).set :=
  View.set_slice_whole cc0_scratch1 _

theorem mem_agSlot {s : Fin 15} {h : Fin 2} {i : (cc0_scratch2 : Ref sig .tc).ty.Idx} :
    i ∈ (agSlot s h).view.set
      ↔ (s.val ≤ (i 0).val ∧ (i 0).val < s.val + 1) ∧ 64 * h.val ≤ (i 1).val ∧ (i 1).val < 64 * h.val + 64 := by
  rw [agSlot_set, Rect.mem_set_unit]
  exact ⟨fun H => ⟨H 0, H 1⟩, fun H a => match a with
    | ⟨0, _⟩ => H.1 | ⟨1, _⟩ => H.2 | ⟨2, _⟩ => ⟨Nat.zero_le _, (i 2).isLt⟩⟩

theorem mem_redHalf {h : Fin 2} {i : (cc0_scratch1 : Ref sig .tc).ty.Idx} :
    i ∈ (redHalf h).view.set ↔ 64 * h.val ≤ (i 0).val ∧ (i 0).val < 64 * h.val + 64 := by
  rw [redHalf_set, Rect.mem_set_unit]
  exact ⟨fun H => H 0, fun H a => match a with
    | ⟨0, _⟩ => H | ⟨1, _⟩ => ⟨Nat.zero_le _, (i 1).isLt⟩⟩

theorem ag_land (p : Dev nD) (s : Fin 15) (h : Fin 2) (fd : Buf (Elt F) ((agSlot s h).view.loc ((agT p s : Dev nD) : Thread nD τ))) (fs : Buf (Elt F) ((redHalf h).view.loc (p : Thread nD τ))) (hfs : ∀ i ∈ (redHalf h).view.set, fs i = redVal m p i) :
    (((agSlot s h).view.loc ((agT p s : Dev nD) : Thread nD τ)) ↦[(agSlot s h).view.set]{fullShare} ((agSlot s h).view.write (Elt F) fd ((redHalf h).view.read (Elt F) fs) Finset.univ) : sProp 𝕄) ⊢ agRecvPay m (agT p s) s h := by
  unfold agRecvPay
  refine Entails.of_eq (pointsTo_congr fun i hi => ?_)
  obtain ⟨y, rfl⟩ := View.exists_emb_of_mem_set _ hi
  rw [View.write_emb_of_mem _ _ (Finset.mem_univ y), View.read_apply, cast_cast, cast_eq,
    hfs _ ((redHalf h).view.emb_mem_set y)]
  obtain ⟨e0, e1, e2⟩ := agSlot_emb s h y
  obtain ⟨r0, r1⟩ := redHalf_emb h y
  unfold agVal
  simp only [e0, e1, e2, Fin.eta, agS_agT]
  congr 1
  exact eq_at2t r0 r1

theorem ag_src_pay (c : Dev nD) (s : Fin 15) (h : Fin 2) (fs : Buf (Elt F) ((redHalf h).view.loc (c : Thread nD τ))) (hfs : ∀ i ∈ (redHalf h).view.set, fs i = redVal m c i) :
    (((redHalf h).view.loc (c : Thread nD τ)) ↦[(redHalf h).view.set]{agShare s} fs : sProp 𝕄) ⊢ agSendPay m c s h := by
  unfold agSendPay
  exact Entails.of_eq (pointsTo_congr hfs)

theorem read_ag (c : Dev nD) (s : Fin 15) (h : Fin 2) (f : (cc0_scratch2 : Ref sig .tc).ty.Contents (Elt F)) (hf : ∀ i ∈ (agSlot s h).view.set, f i = agVal m c i) :
    agM.view.readAt (Elt F) (Rect.unit (s := S15x128x128) ![s.val, 64 * h.val, 0] S1x64x128.size (ag_inb s h)).toLoadRect f = (fun i => agVal m c (fun k => match k with | ⟨0,_⟩ => ⟨s.val, s.isLt⟩ | ⟨1,_⟩ => ⟨(64 * h.val + (i 1).val) % 128, Nat.mod_lt _ (by decide)⟩ | ⟨2,_⟩ => ⟨(i 2).val, (i 2).isLt⟩) : Vec F S1x64x128 .f32) := by
  funext x
  rw [View.readAt_apply, View.read_apply, cast_eq]
  show f ((Rect.unit (s := S15x128x128) ![s.val, 64 * h.val, 0] S1x64x128.size (ag_inb s h)).toLoadRect.idx x) = _
  have hm := (Rect.unit (s := S15x128x128) ![s.val, 64 * h.val, 0] S1x64x128.size (ag_inb s h)).toLoadRect.idx_mem x
  rw [hf _ (by rw [agSlot_set]; exact hm)]
  congr 1
  have l0 : (x 0).val < 1 := (x 0).isLt
  have l1 : (x 1).val < 64 := (x 1).isLt
  funext k; apply Fin.ext
  match k with
  | ⟨0, _⟩ => show s.val + 1 * (x 0).val = s.val; omega
  | ⟨1, _⟩ => show 64 * h.val + 1 * (x 1).val = (64 * h.val + (x 1).val) % 128; omega
  | ⟨2, _⟩ => show 0 + 1 * (x 2).val = (x 2).val; omega

theorem rsSlot_pairwise : ∀ t ∈ (Finset.univ : Finset (Fin 3 × Fin 2)), ∀ t' ∈ (Finset.univ : Finset (Fin 3 × Fin 2)), t ≠ t' →
    Disjoint ((rsSlot t.1 t.2).view.set : Finset (cc0_scratch0 : Ref sig .tc).ty.Idx) (rsSlot t'.1 t'.2).view.set := by
  intro t _ t' _ hne
  refine Finset.disjoint_left.mpr fun i hi hi' => hne ?_
  rw [mem_rsSlot] at hi hi'
  exact Prod.ext (Fin.ext (by omega)) (Fin.ext (by omega))

theorem rsSlot_cover : Finset.biUnion (β := (cc0_scratch0 : Ref sig .tc).ty.Idx) (Finset.univ : Finset (Fin 3 × Fin 2))
    (fun t => (rsSlot t.1 t.2).view.set) = Finset.univ := by
  refine Finset.eq_univ_of_forall fun i => ?_
  have l1 : (i 1).val < 128 := (i 1).isLt
  have hi : i ∈ (rsSlot ⟨(i 0).val, (i 0).isLt⟩ ⟨(i 1).val / 64, Nat.div_lt_of_lt_mul l1⟩).view.set :=
    mem_rsSlot.mpr ⟨⟨le_rfl, Nat.lt_succ_self _⟩, Nat.mul_div_le _ 64, by show _ < 64 * ((i 1).val / 64) + 64; omega⟩
  exact Finset.mem_biUnion.mpr ⟨(_, _), Finset.mem_univ _, hi⟩

theorem agSlot_pairwise : ∀ t ∈ (Finset.univ : Finset (Fin 15 × Fin 2)), ∀ t' ∈ (Finset.univ : Finset (Fin 15 × Fin 2)), t ≠ t' →
    Disjoint ((agSlot t.1 t.2).view.set : Finset (cc0_scratch2 : Ref sig .tc).ty.Idx) (agSlot t'.1 t'.2).view.set := by
  intro t _ t' _ hne
  refine Finset.disjoint_left.mpr fun i hi hi' => hne ?_
  rw [mem_agSlot] at hi hi'
  exact Prod.ext (Fin.ext (by omega)) (Fin.ext (by omega))

theorem agSlot_cover : Finset.biUnion (β := (cc0_scratch2 : Ref sig .tc).ty.Idx) (Finset.univ : Finset (Fin 15 × Fin 2))
    (fun t => (agSlot t.1 t.2).view.set) = Finset.univ := by
  refine Finset.eq_univ_of_forall fun i => ?_
  have l1 : (i 1).val < 128 := (i 1).isLt
  have hi : i ∈ (agSlot ⟨(i 0).val, (i 0).isLt⟩ ⟨(i 1).val / 64, Nat.div_lt_of_lt_mul l1⟩).view.set :=
    mem_agSlot.mpr ⟨⟨le_rfl, Nat.lt_succ_self _⟩, Nat.mul_div_le _ 64, by show _ < 64 * ((i 1).val / 64) + 64; omega⟩
  exact Finset.mem_biUnion.mpr ⟨(_, _), Finset.mem_univ _, hi⟩

theorem redHalf_pairwise : ∀ t ∈ (Finset.univ : Finset (Fin 2)), ∀ t' ∈ (Finset.univ : Finset (Fin 2)), t ≠ t' →
    Disjoint ((redHalf t).view.set : Finset (cc0_scratch1 : Ref sig .tc).ty.Idx) (redHalf t').view.set := by
  intro t _ t' _ hne
  refine Finset.disjoint_left.mpr fun i hi hi' => hne ?_
  rw [mem_redHalf] at hi hi'
  exact Fin.ext (by omega)

theorem redHalf_cover : Finset.biUnion (β := (cc0_scratch1 : Ref sig .tc).ty.Idx) (Finset.univ : Finset (Fin 2))
    (fun t => (redHalf t).view.set) = Finset.univ := by
  refine Finset.eq_univ_of_forall fun i => ?_
  have l0 : (i 0).val < 128 := (i 0).isLt
  have hi : i ∈ (redHalf ⟨(i 0).val / 64, Nat.div_lt_of_lt_mul l0⟩).view.set :=
    mem_redHalf.mpr ⟨Nat.mul_div_le _ 64, by show _ < 64 * ((i 0).val / 64) + 64; omega⟩
  exact Finset.mem_biUnion.mpr ⟨_, Finset.mem_univ _, hi⟩

end Cert.Kernel.Hand

end
-- ==== Proof.HandKernel.BodyMid.lean ====
import proofs.«900721_g7700000000000722_dist_ar_v7x_xyz2x2x4_z_m512_n512_f32_1_alg».proof.Proof.HandKernel.BodyDefs
import proofs.«900721_g7700000000000722_dist_ar_v7x_xyz2x2x4_z_m512_n512_f32_1_alg».proof.Proof.HandKernel.Landing

noncomputable section

namespace Cert.Kernel.Hand

open Cert.Kernel.Gen
open Idealize.ShloMosaic Idealize.ShloMosaic.TcCoe
open Idealize.SL.RA Idealize.SL.BI
open Idealize.SL.BI.BIBase
open Idealize.ShloMosaic.Rounds

variable {F : FTy → Type} [FloatOps F]

local notation "𝕄" => MT nD τ sig (Fin 2) (Elt F) ℕ UU ℕ

variable (m : (ℓ : Loc nD τ sig) → Buf (Elt F) ℓ)

def slotOf (r : Fin 30) : Fin 15 := ⟨r.val % 15, Nat.mod_lt _ (by decide)⟩
def halfOf (r : Fin 30) : Fin 2 := ⟨r.val / 15, by omega⟩

def tileOf (p : Dev nD) (h : Fin 2) : Fin 4 × Fin 4 × Fin 2 :=
  (⟨trow p % 4, Nat.mod_lt _ (by decide)⟩, ⟨cz p % 4, Nat.mod_lt _ (by decide)⟩, h)

def tileRect (t : Fin 4 × Fin 4 × Fin 2) : Rect S512x512 :=
  Rect.unit (s := S512x512) ![128 * t.1.val + 64 * t.2.2.val, 128 * t.2.1.val] S64x128.size (by revert t; decide)

def doneTiles (c : Dev nD) (n : ℕ) : Finset (Fin 4 × Fin 4 × Fin 2) :=
  {tileOf c 0, tileOf c 1} ∪ (Finset.univ.filter fun r : Fin 30 => r.val < n).image fun r => tileOf (agS c (slotOf r)) (halfOf r)

def OutDone (D : Finset (Fin 4 × Fin 4 × Fin 2)) (f : (cc0_stg1_0 : Ref sig .tc).ty.Contents (Elt F)) : Prop :=
  ∀ t ∈ D, ∀ i ∈ (tileRect t).set, f i = outVal m i

def xRestSet (c : Dev nD) : Finset S512x512.Idx :=
  Finset.univ \ (Finset.biUnion (β := S512x512.Idx) (Finset.univ : Finset (Fin 3 × Fin 2)) fun jh => (rsSrc c jh.1 jh.2).view.set)
def xRest (c : Dev nD) : sProp 𝕄 := ((c : Thread nD τ).loc cc0_stg0_0) ↦[xRestSet c]{fullShare} xblk m c

def Smid (c : Dev nD) (nW nS : ℕ) : sProp 𝕄 :=
  iprop((∃ W, owes (c : Thread nD τ) 0 W)
    ∗ xRest m c
    ∗ (bigSep Finset.univ fun jh : Fin 3 × Fin 2 => iprop(rsRecvPay m c jh.1 jh.2 ∗ atPos ER (rsRecvCell c jh.1 jh.2) 1 ∅ 0
          ∗ atPos ER (rsSendCell c jh.1 jh.2) 0 ∅ 0 ∗ cred (tallyAt (rsSendCell c jh.1 jh.2) (0 : Fin 2) Nrs)))
    ∗ (bigSep Finset.univ fun sh : Fin 15 × Fin 2 => iprop(atPos ER (agSendCell c sh.1 sh.2) 0 ∅ 0 ∗ cred (tallyAt (agSendCell c sh.1 sh.2) (0 : Fin 2) Nag)))
    ∗ (bigSep (Finset.univ.filter fun r : Fin 30 => nW ≤ r.val) fun r => iprop(atPos ER (agRecvCell c (slotOf r) (halfOf r)) 0 ∅ 0
          ∗ cred (tallyAt (agRecvCell c (slotOf r) (halfOf r)) (0 : Fin 2) Nag)))
    ∗ (bigSep (Finset.univ.filter fun r : Fin 30 => r.val < nW) fun r => iprop(atPos ER (agRecvCell c (slotOf r) (halfOf r)) 1 ∅ 0
          ∗ agRecvPay m c (slotOf r) (halfOf r)))
    ∗ (∃ f, ⌜OutDone m (doneTiles c nS) f⌝ ∗ (((c : Thread nD τ).loc cc0_stg1_0) ↦{fullShare} f)))

end Cert.Kernel.Hand

end
-- ==== Proof.HandKernel.SendStates.lean ====
import proofs.«900721_g7700000000000722_dist_ar_v7x_xyz2x2x4_z_m512_n512_f32_1_alg».proof.Proof.HandKernel.BodyMid

noncomputable section

namespace Cert.Kernel.Hand

open Cert.Kernel.Gen
open Idealize.ShloMosaic Idealize.ShloMosaic.TcCoe
open Idealize.SL.BI
open Idealize.SL.BI.BIBase
open Idealize.ShloMosaic.Rounds

variable {F : FTy → Type} [FloatOps F]

local notation "𝕄" => MT nD τ sig (Fin 2) (Elt F) ℕ UU ℕ

variable (m : (ℓ : Loc nD τ sig) → Buf (Elt F) ℓ)

def jOf (n : Fin 6) : Fin 3 := ⟨n.val % 3, Nat.mod_lt _ (by decide)⟩
def hOf (n : Fin 6) : Fin 2 := ⟨n.val / 3, by omega⟩

def SrsSend (c : Dev nD) (k : ℕ) : sProp 𝕄 :=
  iprop((∃ W, owes (c : Thread nD τ) (Orem c (36 - k)) W)
    ∗ (bigSep (Finset.univ.filter fun n : Fin 6 => k ≤ n.val) fun n => iprop(rsSendPay m c (jOf n) (hOf n)
          ∗ rsSlotAny (zp c (1 + (jOf n).val)) (jOf n) (hOf n)
          ∗ dutyTok ER (rsSendCell c (jOf n) (hOf n)) 0 0 ∗ dutyTok ER (rsRecvCell (zp c (1 + (jOf n).val)) (jOf n) (hOf n)) 0 0))
    ∗ (bigSep (Finset.univ.filter fun n : Fin 6 => n.val < k) fun n => cred (tallyAt (rsSendCell c (jOf n) (hOf n)) (0 : Fin 2) Nrs)))

def SagSend (c : Dev nD) (h : Fin 2) (fs : Buf (Elt F) ((redHalf h).view.loc (c : Thread nD τ))) (k : ℕ) : sProp 𝕄 :=
  iprop((∃ W, owes (c : Thread nD τ) (Orem c (30 - 15 * h.val - k)) W)
    ∗ (bigSep (Finset.univ.filter fun s : Fin 15 => k ≤ s.val) fun s => iprop((((redHalf h).view.loc (c : Thread nD τ)) ↦[(redHalf h).view.set]{agShare s} fs)
          ∗ agSlotAny (agT c s) s h
          ∗ dutyTok ER (agSendCell c s h) 0 0 ∗ dutyTok ER (agRecvCell (agT c s) s h) 0 0))
    ∗ (bigSep (Finset.univ.filter fun s : Fin 15 => s.val < k) fun s => cred (tallyAt (agSendCell c s h) (0 : Fin 2) Nag)))

end Cert.Kernel.Hand

end
-- ==== Proof.HandKernel.Value.lean ====
import proofs.«900721_g7700000000000722_dist_ar_v7x_xyz2x2x4_z_m512_n512_f32_1_alg».proof.Proof.HandKernel.Sched
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.Kernel.Hand

open Cert.Kernel Cert.Kernel.Gen
open Idealize.ShloMosaic
open Idealize.ShloMosaic.ValueIdx

variable (m : (ℓ : Loc nD τ sig) → Buf (Elt Ideal) ℓ)

def lift3 (i : S64x128.Idx) : S1x64x128.Idx := ix3 (0 : Fin 1) (i 0 : Fin 64) (i 1 : Fin 128)

theorem pay1_apply (v : Vec Ideal S64x128 .f32) (w0 w1 w2 : Vec Ideal S1x64x128 .f32) (i : S64x128.Idx) :
    k0_pay1 v w0 w1 w2 i = (v i + w0 (lift3 i) + w1 (lift3 i) + w2 (lift3 i) : EReal) := by
  obtain ⟨p, q, rfl⟩ : ∃ (p : Fin 64) (q : Fin 128), i = ix2 p q := ⟨i 0, i 1, eq_ix2 i⟩
  unfold k0_pay1
  rw [shapeCast_self, shapeCast_self, addf_apply, addf_apply, addf_apply,
    shapeCast_1ab_ab_apply, shapeCast_1ab_ab_apply, shapeCast_1ab_ab_apply]
  rfl

-- the two halves run one and the same payload
theorem redHalfVal_apply (c : Dev nD) (h : Fin 2) (i : S64x128.Idx) :
    redHalfVal (F := Ideal) m c h i
      = (xOwnVec m c h i + rsVec m c 0 h (lift3 i) + rsVec m c 1 h (lift3 i) + rsVec m c 2 h (lift3 i) : EReal) := by
  obtain rfl | rfl : h = 0 ∨ h = 1 := by omega
  all_goals exact pay1_apply _ _ _ _ i

theorem xOwnVec_eq (c : Dev nD) (h : Fin 2) (i : S64x128.Idx) (r s : ℕ)
    (hr : 64 * h.val + (i 0).val = r) (hs : (i 1).val = s) :
    xOwnVec m c h i = xblk m c (at2 (128 * trow c + r) (128 * cz c + s)) := by
  subst hr hs
  unfold xOwnVec
  rw [Nat.add_assoc]

theorem rsVec_eq (c : Dev nD) (j : Fin 3) (h : Fin 2) (i : S64x128.Idx) (r s : ℕ)
    (hr : 64 * h.val + (i 0).val = r) (hr' : r < 128) (hs : (i 1).val = s) :
    rsVec m c j h (lift3 i) = xblk m (zp c (3 - j.val)) (at2 (128 * trow c + r) (128 * cz c + s)) := by
  show xblk m (zp c (3 - j.val)) (at2 (128 * trow c + (64 * h.val + (i 0).val) % 128) (128 * cz c + (i 1).val)) = _
  rw [hr, Nat.mod_eq_of_lt hr', hs]

theorem zp_zero (c : Dev nD) : zp c 0 = c := mk_coords c

theorem four_sum (g : ℕ → EReal) : g 0 + g 3 + g 2 + g 1 = ∑ k : Fin 4, g k.val := by
  rw [Fin.sum_univ_four]
  show _ = g 0 + g 1 + g 2 + g 3
  ac_rfl

theorem redVal_apply (c : Dev nD) (a b : ℕ) (ha : a < 128) (hb : b < 128) :
    redVal (F := Ideal) m c (at2t a b)
      = (∑ k : Fin 4, xblk m (zp c k.val) (at2 (128 * trow c + a) (128 * cz c + b)) : EReal) := by
  have hr : 64 * (a % 128 / 64 % 2) + a % 128 % 64 = a := by omega
  have hs : b % 128 % 128 = b := by omega
  have key := four_sum fun k => xblk m (zp c k) (at2 (128 * trow c + a) (128 * cz c + b))
  rw [zp_zero] at key
  unfold redVal
  rw [redHalfVal_apply, xOwnVec_eq m c _ _ a b hr hs, rsVec_eq m c 0 _ _ a b hr ha hs, rsVec_eq m c 1 _ _ a b hr ha hs,
    rsVec_eq m c 2 _ _ a b hr ha hs]
  exact key

theorem at2t_mod (a b : ℕ) : at2t a b = at2t (a % 128) (b % 128) := by
  funext k
  match k with
  | ⟨0, _⟩ | ⟨1, _⟩ => exact Fin.ext (Nat.mod_mod _ _).symm

-- going round the ring from z is adding z in Fin 4, a bijection
theorem sum_ring (f : ℕ → EReal) (z : ℕ) (hz : z < 4) :
    ∑ k : Fin 4, f ((z + k.val) % 4) = ∑ k : Fin 4, f k.val :=
  Equiv.sum_comp (Equiv.addLeft (⟨z, hz⟩ : Fin 4)) fun k => f k.val

theorem outVal_apply (X : ℕ → ℕ → EReal)
    (hx : ∀ (c : Dev nD) (a b : ℕ), a < 512 → b < 512 → (xblk m c (at2 a b) : EReal) = X (512 * cz c + a) b)
    (i : S512x512.Idx) :
    outVal (F := Ideal) m i = ∑ k : Fin 4, X (512 * k.val + (i 0).val) (i 1).val := by
  have hi0 : (i 0).val < 512 := (i 0).isLt
  have hi1 : (i 1).val < 512 := (i 1).isLt
  unfold outVal
  show @Eq EReal _ _
  rw [at2t_mod, redVal_apply m _ _ _ (Nat.mod_lt _ (by decide)) (Nat.mod_lt _ (by decide))]
  have er : 128 * trow (mk ((i 0).val / 256) ((i 0).val / 128) ((i 1).val / 128)) + (i 0).val % 128 = (i 0).val := by
    unfold trow; rw [cx_mk, cy_mk]; omega
  have ec : 128 * cz (mk ((i 0).val / 256) ((i 0).val / 128) ((i 1).val / 128)) + (i 1).val % 128 = (i 1).val := by
    rw [cz_mk]; omega
  rw [er, ec, ← sum_ring (fun k => X (512 * k + (i 0).val) (i 1).val) _ (cz_lt _)]
  refine Finset.sum_congr rfl fun k _ => ?_
  rw [hx _ _ _ hi0 hi1, cz_zp]

end Cert.Kernel.Hand

end
-- ==== Proof.HandKernel.Regions.lean ====
import proofs.«900721_g7700000000000722_dist_ar_v7x_xyz2x2x4_z_m512_n512_f32_1_alg».proof.Proof.HandKernel.BodyMid
import proofs.«900721_g7700000000000722_dist_ar_v7x_xyz2x2x4_z_m512_n512_f32_1_alg».proof.Proof.HandKernel.Value
import Idealize.ShloMosaic.Lib.Pipeline.Value
import Idealize.ShloMosaic.Lib.Writes
import proofs.«900721_g7700000000000722_dist_ar_v7x_xyz2x2x4_z_m512_n512_f32_1_alg».proof.Proof.LibCount

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Cert.Lib.Count

variable {F : FTy → Type} [FloatOps F]

local notation "𝕄" => MT nD τ sig (Fin 2) (Elt F) ℕ UU ℕ

variable (m : (ℓ : Loc nD τ sig) → Buf (Elt F) ℓ)

theorem rsSrc_set (c : Dev nD) (j : Fin 3) (h : Fin 2) : (rsSrc c j h).view.set
    = (Rect.unit (s := S512x512) (k0_off1 c (BitVec.ofNat 32 (64 * h.val)) (BitVec.ofNat 32 (1 + j.val))) S64x128.size (k0_off1_inb c h j)).set :=
  View.set_slice_whole cc0_stg0_0 _

theorem mem_rsSrc {c : Dev nD} {j : Fin 3} {h : Fin 2} {i : (cc0_stg0_0 : Ref sig .tc).ty.Idx} :
    i ∈ (rsSrc c j h).view.set ↔
      (128 * trow c + 64 * h.val ≤ (i 0).val ∧ (i 0).val < 128 * trow c + 64 * h.val + 64)
      ∧ (128 * ((cz c + (1 + j.val)) % 4) ≤ (i 1).val ∧ (i 1).val < 128 * ((cz c + (1 + j.val)) % 4) + 128) := by
  rw [rsSrc_set, Rect.mem_set_unit, k0_off1_eq c h j, Fin.forall_fin_two]
  exact Iff.rfl

theorem rsSrc_disjoint (c : Dev nD) {j j' : Fin 3} {h h' : Fin 2} (hne : (j, h) ≠ (j', h')) :
    Disjoint (rsSrc c j h).view.set ((rsSrc c j' h').view.set : Finset (cc0_stg0_0 : Ref sig .tc).ty.Idx) := by
  rw [Finset.disjoint_left]
  intro i hi hi'
  rw [mem_rsSrc] at hi hi'
  apply hne
  have l : h.val < 2 := h.isLt
  have l' : h'.val < 2 := h'.isLt
  have lj : j.val < 3 := j.isLt
  have lj' : j'.val < 3 := j'.isLt
  have hj : j = j' := Fin.ext (by omega)
  have hh : h = h' := Fin.ext (by omega)
  rw [hj, hh]

theorem x_split (c : Dev nD) :
    (((c : Thread nD τ).loc cc0_stg0_0) ↦{fullShare} xblk m c : sProp 𝕄)
      ⊣⊢ iprop(xRest m c ∗ bigSep Finset.univ fun jh : Fin 3 × Fin 2 => rsSendPay m c jh.1 jh.2) := by
  have h1 : (((c : Thread nD τ).loc cc0_stg0_0) ↦{fullShare} xblk m c : sProp 𝕄)
      ⊣⊢ iprop((((c : Thread nD τ).loc cc0_stg0_0) ↦[Finset.biUnion (β := S512x512.Idx) (Finset.univ : Finset (Fin 3 × Fin 2)) fun jh => (rsSrc c jh.1 jh.2).view.set]{fullShare} xblk m c)
        ∗ xRest m c) :=
    pointsTo_split_subset (Finset.subset_univ _)
  rw [pointsTo_biUnion _ _ fun t _ t' _ hne => rsSrc_disjoint c hne] at h1
  exact ⟨h1.1.trans sep_comm.1, sep_comm.1.trans h1.2⟩

theorem xOwn_sub (c : Dev nD) (h : Fin 2) :
    xM.view.setOn (Rect.unit (s := S512x512) (k0_off2 c (BitVec.ofNat 32 (64 * h.val))) S64x128.size (k0_off2_inb c h)).toLoadRect.set
      ⊆ xRestSet c := by
  intro i hi
  change i ∈ Finset.map (View.whole cc0_stg0_0).emb _ at hi
  rw [View.emb_whole, Finset.map_refl] at hi
  have h1 := Rect.mem_set_unit.mp hi 1
  rw [k0_off2_eq' c h] at h1
  change 128 * cz c ≤ (i 1).val ∧ (i 1).val < 128 * cz c + 128 at h1
  refine Finset.mem_sdiff.mpr ⟨Finset.mem_univ _, fun hmem => ?_⟩
  obtain ⟨jh, _, hjh⟩ := Finset.mem_biUnion.mp hmem
  rw [mem_rsSrc] at hjh
  have lz : cz c < 4 := cz_lt c
  have lj : jh.1.val < 3 := jh.1.isLt
  omega

section tiles
variable (c : Dev nD) (b : Ref sig .tc) {T : Type} [Fintype T] (K : T → Finset (Idx ((c : Thread nD τ).loc b)))
  (hd : ∀ t ∈ Finset.univ, ∀ t' ∈ Finset.univ, t ≠ t' → Disjoint (K t) (K t')) (hc : Finset.univ.biUnion K = Finset.univ)
include hd hc

-- a buffer held whole is its tiles, when these are pairwise disjoint and cover it
theorem tiles_eq (f : Buf (Elt F) ((c : Thread nD τ).loc b)) :
    (((c : Thread nD τ).loc b) ↦{fullShare} f : sProp 𝕄) = bigSep Finset.univ fun t => (((c : Thread nD τ).loc b) ↦[K t]{fullShare} f) := by
  rw [← pointsTo_biUnion _ _ hd, hc]

theorem split_any : (iprop(∃ f, ((c : Thread nD τ).loc b) ↦{fullShare} f) : sProp 𝕄)
    ⊢ bigSep Finset.univ fun t => iprop(∃ f, ((c : Thread nD τ).loc b) ↦[K t]{fullShare} f) :=
  exists_elim fun f => by
    rw [tiles_eq c b K hd hc f]
    exact bigSep_mono fun t _ => exists_intro (Φ := fun f => (((c : Thread nD τ).loc b) ↦[K t]{fullShare} f : sProp 𝕄)) f

theorem join_any (f : Buf (Elt F) ((c : Thread nD τ).loc b)) :
    (bigSep Finset.univ fun t => (((c : Thread nD τ).loc b) ↦[K t]{fullShare} f) : sProp 𝕄) ⊢ iprop(∃ f, ((c : Thread nD τ).loc b) ↦{fullShare} f) :=
  (Entails.of_eq (tiles_eq c b K hd hc f).symm).trans (exists_intro (Φ := fun f => (((c : Thread nD τ).loc b) ↦{fullShare} f : sProp 𝕄)) f)

end tiles

def redHalfAny (c : Dev nD) (h : Fin 2) : sProp 𝕄 :=
  iprop(∃ f, ((redHalf h).view.loc (c : Thread nD τ)) ↦[(redHalf h).view.set]{fullShare} f)

theorem red_split (c : Dev nD) :
    (iprop(∃ f, ((c : Thread nD τ).loc cc0_scratch1) ↦{fullShare} f) : sProp 𝕄)
      ⊢ iprop(redHalfAny c 0 ∗ redHalfAny c 1) :=
  (split_any c cc0_scratch1 _ redHalf_pairwise redHalf_cover).trans (Entails.of_eq (bigSep_univ_two _))

theorem fin_all {N : ℕ} : (Finset.univ.filter fun n : Fin N => 0 ≤ n.val) = Finset.univ := Finset.filter_true_of_mem fun _ _ => Nat.zero_le _
theorem fin_none {N : ℕ} : (Finset.univ.filter fun n : Fin N => n.val < 0) = ∅ := Finset.filter_false_of_mem fun _ _ => Nat.not_lt_zero _
theorem fin_all' {N : ℕ} : (Finset.univ.filter fun n : Fin N => n.val < N) = Finset.univ := Finset.filter_true_of_mem fun n _ => n.isLt

-- share n is the left half of what n halvings leave; the last share is all that is left
theorem shares_from {ℓ : Loc nD τ sig} (I : Finset (Idx ℓ)) (f : Buf (Elt F) ℓ) :
    ∀ (d n : ℕ), n + d = 14 →
      (ℓ ↦[I]{rightPow n} f : sProp 𝕄) = bigSep (Finset.univ.filter fun s : Fin 15 => n ≤ s.val) fun s => (ℓ ↦[I]{agShare s} f) := by
  intro d
  induction d with
  | zero =>
    intro n hn
    obtain rfl : n = 14 := by omega
    rw [show (Finset.univ.filter fun s : Fin 15 => 14 ≤ s.val) = {14} by decide, bigSep_singleton]
    rfl
  | succ d ih =>
    intro n hn
    have hlt : n < 15 := by omega
    have hsh : (ℓ ↦[I]{rightPow n} f : sProp 𝕄) ⊣⊢ iprop((ℓ ↦[I]{(rightPow n).left} f) ∗ ℓ ↦[I]{(rightPow n).right} f) :=
      pointsTo_share (PosShare.mem_left_op_right (rightPow n))
    rw [bigSep_erase (s := Finset.univ.filter fun s : Fin 15 => n ≤ s.val) (i := ⟨n, hlt⟩)
        (Finset.mem_filter.mpr ⟨Finset.mem_univ _, Nat.le_refl n⟩), filter_ge_erase ⟨n, hlt⟩, ← ih (n + 1) (by omega),
      show agShare ⟨n, hlt⟩ = (rightPow n).left from if_neg (show ¬ n = 14 by omega)]
    exact BI.equiv_iff.mp ⟨hsh.1, hsh.2⟩

theorem red_shares (c : Dev nD) (h : Fin 2) (f : Buf (Elt F) ((redHalf h).view.loc (c : Thread nD τ))) :
    (((redHalf h).view.loc (c : Thread nD τ)) ↦[(redHalf h).view.set]{fullShare} f : sProp 𝕄)
      ⊣⊢ bigSep Finset.univ fun s : Fin 15 => (((redHalf h).view.loc (c : Thread nD τ)) ↦[(redHalf h).view.set]{agShare s} f) := by
  have e := shares_from (F := F) (ℓ := (redHalf h).view.loc (c : Thread nD τ)) (redHalf h).view.set f 14 0 (by omega)
  rw [fin_all] at e
  have e' := BI.equiv_iff.mpr e
  exact ⟨e'.1, e'.2⟩

theorem red_join (c : Dev nD) :
    (bigSep Finset.univ fun sh : Fin 15 × Fin 2 => agSendPay m c sh.1 sh.2 : sProp 𝕄)
      ⊢ (((c : Thread nD τ).loc cc0_scratch1) ↦{fullShare} redVal m c) := by
  rw [tiles_eq c cc0_scratch1 _ redHalf_pairwise redHalf_cover, bigSep_univ_prod, bigSep_univ_comm]
  refine Entails.of_eq (bigSep_congr fun h _ => ?_)
  have hs := red_shares (F := F) c h (redVal m c)
  exact (BI.equiv_iff.mp ⟨hs.1, hs.2⟩).symm

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem rs_split3 (c : Dev nD) :
    (iprop(∃ f, ((c : Thread nD τ).loc cc0_scratch0) ↦{fullShare} f) : sProp 𝕄)
      ⊢ iprop(rsSlabAny c 0 ∗ rsSlabAny c 1 ∗ rsSlabAny c 2) := by
  refine (split_any c cc0_scratch0 _ rsSlot_pairwise rsSlot_cover).trans (Entails.of_eq ?_)
  rw [bigSep_univ_prod, bigSep_fin3]
  simp only [bigSep_univ_two]
  rfl

theorem ag_split15 (c : Dev nD) :
    (iprop(∃ f, ((c : Thread nD τ).loc cc0_scratch2) ↦{fullShare} f) : sProp 𝕄)
      ⊢ iprop(agSlabAny c 0 ∗ agSlabAny c 1 ∗ agSlabAny c 2 ∗ agSlabAny c 3 ∗ agSlabAny c 4 ∗ agSlabAny c 5 ∗ agSlabAny c 6
        ∗ agSlabAny c 7 ∗ agSlabAny c 8 ∗ agSlabAny c 9 ∗ agSlabAny c 10 ∗ agSlabAny c 11 ∗ agSlabAny c 12 ∗ agSlabAny c 13
        ∗ agSlabAny c 14) := by
  refine (split_any c cc0_scratch2 _ agSlot_pairwise agSlot_cover).trans (Entails.of_eq ?_)
  rw [bigSep_univ_prod, bigSep_fin15]
  simp only [bigSep_univ_two]
  rfl

theorem scratch_join (c : Dev nD) :
    iprop((bigSep Finset.univ fun jh : Fin 3 × Fin 2 => rsRecvPay m c jh.1 jh.2)
      ∗ (bigSep Finset.univ fun sh : Fin 15 × Fin 2 => agSendPay m c sh.1 sh.2)
      ∗ (bigSep Finset.univ fun sh : Fin 15 × Fin 2 => agRecvPay m c sh.1 sh.2)) ⊢ (scratchAny c : sProp 𝕄) := by
  unfold scratchAny
  exact BIClass.sep_mono (join_any c cc0_scratch0 _ rsSlot_pairwise rsSlot_cover (rsVal m c))
    (BIClass.sep_mono ((red_join m c).trans (exists_intro (Φ := fun f => (((c : Thread nD τ).loc cc0_scratch1) ↦{fullShare} f : sProp 𝕄)) _))
      (join_any c cc0_scratch2 _ agSlot_pairwise agSlot_cover (agVal m c)))

theorem mem_tileRect {t : Fin 4 × Fin 4 × Fin 2} {i : (cc0_stg1_0 : Ref sig .tc).ty.Idx} :
    i ∈ (tileRect t).set ↔ (128 * t.1.val + 64 * t.2.2.val ≤ (i 0).val ∧ (i 0).val < 128 * t.1.val + 64 * t.2.2.val + 64)
      ∧ (128 * t.2.1.val ≤ (i 1).val ∧ (i 1).val < 128 * t.2.1.val + 128) := by
  unfold tileRect
  rw [Rect.mem_set_unit, Fin.forall_fin_two]
  exact Iff.rfl

theorem at2t_congr {a a' b b' : ℕ} (h0 : a % 128 = a' % 128) (h1 : b % 128 = b' % 128) : at2t a b = at2t a' b' := by
  rw [at2t_mod a b, at2t_mod a' b', h0, h1]

theorem redVal_at_half (c : Dev nD) (h : Fin 2) (y : S64x128.Idx) :
    redVal m c (at2t (64 * h.val + (y 0).val) (y 1).val) = redHalfVal m c h y := by
  have l0 : (y 0).val < 64 := (y 0).isLt
  have l1 : (y 1).val < 128 := (y 1).isLt
  have lh : h.val < 2 := h.isLt
  have eh : (⟨(((at2t (64 * h.val + (y 0).val) (y 1).val) 0).val / 64) % 2, Nat.mod_lt _ (by decide)⟩ : Fin 2) = h := by
    apply Fin.ext
    show ((64 * h.val + (y 0).val) % 128 / 64) % 2 = h.val
    omega
  have ey : at2h ((at2t (64 * h.val + (y 0).val) (y 1).val) 0).val ((at2t (64 * h.val + (y 0).val) (y 1).val) 1).val = y := by
    funext k
    apply Fin.ext
    match k with
    | ⟨0, _⟩ => show (64 * h.val + (y 0).val) % 128 % 64 = (y 0).val; omega
    | ⟨1, _⟩ => show (y 1).val % 128 % 128 = (y 1).val; omega
  unfold redVal
  rw [eh, ey]

theorem OutDone_store (p : Dev nD) (h : Fin 2) (off : Fin 2 → ℕ) (inb : ∀ a, off a + S64x128.size a ≤ S512x512.size a)
    (hoff0 : off 0 = 128 * (2 * cx p + cy p) + 64 * h.val) (hoff1 : off 1 = 128 * cz p)
    (w : S64x128.Idx → Elt F .f32)
    (hw : ∀ y, w y = redVal m p (at2t (64 * h.val + (y 0).val) (y 1).val))
    (D : Finset (Fin 4 × Fin 4 × Fin 2)) (f : (cc0_stg1_0 : Ref sig .tc).ty.Contents (Elt F)) (hD : OutDone m D f) :
    OutDone m (insert (tileOf p h) D)
      ((oM.access (Rect.unit (s := S512x512) off S64x128.size inb)).write (Elt F) f w Finset.univ) := by
  have lx : cx p < 2 := cx_lt p
  have ly : cy p < 2 := cy_lt p
  have lz : cz p < 4 := cz_lt p
  have lh : h.val < 2 := h.isLt
  have hset : (oM.access (Rect.unit (s := S512x512) off S64x128.size inb)).set
      = (Rect.unit (s := S512x512) off S64x128.size inb).set := View.set_slice_whole cc0_stg1_0 _
  intro t ht i hi
  by_cases hm : i ∈ (oM.access (Rect.unit (s := S512x512) off S64x128.size inb)).set
  · obtain ⟨y, rfl⟩ := View.exists_emb_of_mem_set _ hm
    have l0 : (y 0).val < 64 := (y 0).isLt
    have l1 : (y 1).val < 128 := (y 1).isLt
    rw [View.write_emb_of_mem _ _ (Finset.mem_univ y), hw, cast_eq]
    have e0 : (((oM.access (Rect.unit (s := S512x512) off S64x128.size inb)).emb y : (cc0_stg1_0 : Ref sig .tc).ty.Idx) 0).val
        = 128 * (2 * cx p + cy p) + 64 * h.val + (y 0).val := by
      show ((Rect.unit (s := S512x512) off S64x128.size inb).emb y 0).val = _
      rw [Rect.emb_apply, Rect.off_unit, Rect.stride_unit]; omega
    have e1 : (((oM.access (Rect.unit (s := S512x512) off S64x128.size inb)).emb y : (cc0_stg1_0 : Ref sig .tc).ty.Idx) 1).val
        = 128 * cz p + (y 1).val := by
      show ((Rect.unit (s := S512x512) off S64x128.size inb).emb y 1).val = _
      rw [Rect.emb_apply, Rect.off_unit, Rect.stride_unit]; omega
    generalize (oM.access (Rect.unit (s := S512x512) off S64x128.size inb)).emb y = I at e0 e1
    show _ = redVal m (mk ((I 0).val / 256) ((I 0).val / 128) ((I 1).val / 128)) (at2t (I 0).val (I 1).val)
    rw [e0, e1]
    have hp : mk ((128 * (2 * cx p + cy p) + 64 * h.val + (y 0).val) / 256) ((128 * (2 * cx p + cy p) + 64 * h.val + (y 0).val) / 128)
        ((128 * cz p + (y 1).val) / 128) = p := by
      apply ext_coords
      · rw [cx_mk]; omega
      · rw [cy_mk]; omega
      · rw [cz_mk]; omega
    rw [hp]
    congr 1
    exact at2t_congr (by omega) (by omega)
  · rw [View.write_of_not_mem _ _ _ hm]
    rcases Finset.mem_insert.mp ht with rfl | htD
    · exfalso
      apply hm
      rw [hset, Rect.mem_set_unit, Fin.forall_fin_two]
      obtain ⟨⟨a0, a1⟩, b0, b1⟩ := mem_tileRect.mp hi
      simp only [tileOf, trow] at a0 a1 b0 b1
      exact ⟨show off 0 ≤ (i 0).val ∧ (i 0).val < off 0 + 64 by omega, show off 1 ≤ (i 1).val ∧ (i 1).val < off 1 + 128 by omega⟩
    · exact hD t htD i hi

theorem OutDone_store_own (c : Dev nD) (h : Fin 2) (D : Finset (Fin 4 × Fin 4 × Fin 2))
    (f : (cc0_stg1_0 : Ref sig .tc).ty.Contents (Elt F)) (hD : OutDone m D f) :
    OutDone m (insert (tileOf c h) D)
      ((oM.access (Rect.unit (s := S512x512) (k0_off2 c (BitVec.ofNat 32 (64 * h.val))) S64x128.size (k0_off2_inb c h))).write
        (Elt F) f (redHalfVal m c h) Finset.univ) := by
  have e := k0_off2_eq' c h
  exact OutDone_store m c h _ _ (by rw [e]; rfl) (by rw [e]; rfl) _ (fun y => (redVal_at_half m c h y).symm) D f hD

theorem OutDone_store_ag (c : Dev nD) (r : Fin 30) (D : Finset (Fin 4 × Fin 4 × Fin 2))
    (f : (cc0_stg1_0 : Ref sig .tc).ty.Contents (Elt F)) (hD : OutDone m D f) :
    OutDone m (insert (tileOf (agS c (slotOf r)) (halfOf r)) D)
      ((oM.access (Rect.unit (s := S512x512) (k0_off3 c (k0_off3_at r).1 (k0_off3_at r).2.1 (k0_off3_at r).2.2.1 (k0_off3_at r).2.2.2)
          S64x128.size (k0_off3_inb c r))).write
        (Elt F) f (fun i => redVal m (agS c (slotOf r)) (at2t (64 * (halfOf r).val + (i 0).val) (i 1).val)) Finset.univ) := by
  have e := k0_off3_eq_agS c r
  exact OutDone_store m (agS c (slotOf r)) (halfOf r) _ _ (by rw [e]; rfl) (by rw [e]; rfl) _ (fun y => rfl) D f hD

theorem mem_doneTiles_all : ∀ (c : Dev nD) (t : Fin 4 × Fin 4 × Fin 2), t ∈ doneTiles c 30 := by
  decide +kernel

theorem OutDone_all (c : Dev nD) (f : (cc0_stg1_0 : Ref sig .tc).ty.Contents (Elt F)) (h : OutDone m (doneTiles c 30) f) :
    f = outVal m := by
  funext i
  have l0 : (i 0).val < 512 := (i 0).isLt
  have l1 : (i 1).val < 512 := (i 1).isLt
  refine h (⟨(i 0).val / 128, by omega⟩, ⟨(i 1).val / 128, by omega⟩, ⟨(i 0).val % 128 / 64, by omega⟩) (mem_doneTiles_all c _) i ?_
  rw [mem_tileRect]
  refine ⟨⟨?_, ?_⟩, ?_, ?_⟩
  · show 128 * ((i 0).val / 128) + 64 * ((i 0).val % 128 / 64) ≤ (i 0).val; omega
  · show (i 0).val < 128 * ((i 0).val / 128) + 64 * ((i 0).val % 128 / 64) + 64; omega
  · show 128 * ((i 1).val / 128) ≤ (i 1).val; omega
  · show (i 1).val < 128 * ((i 1).val / 128) + 128; omega

theorem OutDone_first_own (c : Dev nD) (g1 : Buf (Elt F) ((c : Thread nD τ).loc cc0_stg1_0)) :
    OutDone m {tileOf c 0} ((Memref.whole cc0_stg1_0 : Memref sig .tc .vmem S512x512 .f32).view.writes (Elt F) g1
      [⟨Rect.unit (s := S512x512) (k0_off2 c 0#32) S64x128.size (k0_off2_inb c 0), redHalfVal m c 0⟩]) := by
  have h := OutDone_store_own m c 0 ∅ g1 fun t ht => absurd ht (Finset.notMem_empty t)
  rw [Finset.insert_empty] at h
  exact h

end Cert.Kernel.Hand

end
-- ==== Proof.HandKernel.Assemble.lean ====
import proofs.«900721_g7700000000000722_dist_ar_v7x_xyz2x2x4_z_m512_n512_f32_1_alg».proof.Proof.HandKernel.SendStates
import proofs.«900721_g7700000000000722_dist_ar_v7x_xyz2x2x4_z_m512_n512_f32_1_alg».proof.Proof.HandKernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Cert.Lib.BarrierCell

variable {F : FTy → Type} [FloatOps F]

local notation "𝕄" => MT nD τ sig (Fin 2) (Elt F) ℕ UU ℕ

variable (m : (ℓ : Loc nD τ sig) → Buf (Elt F) ℓ)

omit [FloatOps F] in
theorem z_payload0 (c : Dev nD) :
    (iprop(rsSlabAny c 2 ∗ agSlabAny c 0 ∗ agSlabAny c 4 ∗ agSlabAny c 8 ∗ agSlabAny c 12) : sProp 𝕄) ⊢ barPay (zp c 1) 0 := by
  conv_lhs => rw [← (zp_zp c).1]
  exact .refl

omit [FloatOps F] in
theorem z_payload1 (c : Dev nD) :
    (iprop(rsSlabAny c 1 ∗ agSlabAny c 1 ∗ agSlabAny c 5 ∗ agSlabAny c 9 ∗ agSlabAny c 13) : sProp 𝕄) ⊢ barPay (zp c 2) 1 := by
  conv_lhs => rw [← (zp_zp c).2.1]
  exact .refl

omit [FloatOps F] in
theorem z_payload2 (c : Dev nD) :
    (iprop(rsSlabAny c 0 ∗ agSlabAny c 2 ∗ agSlabAny c 6 ∗ agSlabAny c 10 ∗ agSlabAny c 14) : sProp 𝕄) ⊢ barPay (zp c 3) 2 := by
  conv_lhs => rw [← (zp_zp c).2.2]
  exact .refl

omit [FloatOps F] in
theorem z_open (c : Dev nD) :
    (iprop(barPay c 0 ∗ barPay c 1 ∗ barPay c 2) : sProp 𝕄)
      ⊢ iprop((rsSlabAny (zp c 3) 2 ∗ rsSlabAny (zp c 2) 1 ∗ rsSlabAny (zp c 1) 0)
        ∗ (agSlabAny (zp c 3) 0 ∗ agSlabAny (zp c 2) 1 ∗ agSlabAny (zp c 1) 2)
        ∗ (agSlabAny (zp c 3) 4 ∗ agSlabAny (zp c 2) 5 ∗ agSlabAny (zp c 1) 6)
        ∗ (agSlabAny (zp c 3) 8 ∗ agSlabAny (zp c 2) 9 ∗ agSlabAny (zp c 1) 10)
        ∗ (agSlabAny (zp c 3) 12 ∗ agSlabAny (zp c 2) 13 ∗ agSlabAny (zp c 1) 14)) := by
  show iprop((rsSlabAny (zp c 3) 2 ∗ agSlabAny (zp c 3) 0 ∗ agSlabAny (zp c 3) 4 ∗ agSlabAny (zp c 3) 8 ∗ agSlabAny (zp c 3) 12)
      ∗ (rsSlabAny (zp c 2) 1 ∗ agSlabAny (zp c 2) 1 ∗ agSlabAny (zp c 2) 5 ∗ agSlabAny (zp c 2) 9 ∗ agSlabAny (zp c 2) 13)
      ∗ (rsSlabAny (zp c 1) 0 ∗ agSlabAny (zp c 1) 2 ∗ agSlabAny (zp c 1) 6 ∗ agSlabAny (zp c 1) 10 ∗ agSlabAny (zp c 1) 14)) ⊢ _
  iintro ⟨⟨A1, A2, A3, A4, A5⟩, ⟨B1, B2, B3, B4, B5⟩, ⟨C1, C2, C3, C4, C5⟩⟩
  iframe

omit [FloatOps F] in
theorem xy_payload0 (c : Dev nD) :
    (iprop(agSlabAny c 3 ∗ agSlabAny (zp c 3) 4 ∗ agSlabAny (zp c 2) 5 ∗ agSlabAny (zp c 1) 6) : sProp 𝕄) ⊢ barPay (xyp c 0 1) 3 := by
  conv_lhs => rw [← (xyp_xyp c).1]
  exact .refl

omit [FloatOps F] in
theorem xy_payload1 (c : Dev nD) :
    (iprop(agSlabAny c 7 ∗ agSlabAny (zp c 3) 8 ∗ agSlabAny (zp c 2) 9 ∗ agSlabAny (zp c 1) 10) : sProp 𝕄) ⊢ barPay (xyp c 1 0) 4 := by
  conv_lhs => rw [← (xyp_xyp c).2.1]
  exact .refl

omit [FloatOps F] in
theorem xy_payload2 (c : Dev nD) :
    (iprop(agSlabAny c 11 ∗ agSlabAny (zp c 3) 12 ∗ agSlabAny (zp c 2) 13 ∗ agSlabAny (zp c 1) 14) : sProp 𝕄) ⊢ barPay (xyp c 1 1) 5 := by
  conv_lhs => rw [← (xyp_xyp c).2.2]
  exact .refl

def e6 : Fin 3 × Fin 2 ≃ Fin 6 where
  toFun jh := ⟨3 * jh.2.val + jh.1.val, by omega⟩
  invFun n := (jOf n, hOf n)
  left_inv := by decide
  right_inv := by decide

omit [FloatOps F] in
theorem fin6_prod (Φ : Fin 3 → Fin 2 → sProp 𝕄) :
    (bigSep Finset.univ fun n : Fin 6 => Φ (jOf n) (hOf n)) = bigSep Finset.univ fun jh : Fin 3 × Fin 2 => Φ jh.1 jh.2 :=
  (bigSep_univ_equiv e6.symm fun jh : Fin 3 × Fin 2 => Φ jh.1 jh.2).symm

theorem slots_rs (c : Dev nD) :
    (iprop(rsSlabAny (zp c 3) 2 ∗ rsSlabAny (zp c 2) 1 ∗ rsSlabAny (zp c 1) 0) : sProp 𝕄)
      ⊢ bigSep Finset.univ fun jh : Fin 3 × Fin 2 => rsSlotAny (zp c (1 + jh.1.val)) jh.1 jh.2 := by
  rw [bigSep_univ_prod, bigSep_fin3]
  simp only [bigSep_univ_two]
  unfold rsSlabAny
  show _ ⊢ iprop((rsSlotAny (zp c 1) 0 0 ∗ rsSlotAny (zp c 1) 0 1) ∗ (rsSlotAny (zp c 2) 1 0 ∗ rsSlotAny (zp c 2) 1 1) ∗ (rsSlotAny (zp c 3) 2 0 ∗ rsSlotAny (zp c 3) 2 1))
  iintro ⟨⟨A0, A1⟩, ⟨B0, B1⟩, ⟨C0, C1⟩⟩
  iframe

theorem mk_SrsSend (c : Dev nD) (W : Waits sig (Fin 2)) :
    iprop(owes (c : Thread nD τ) (Orem c 36) W ∗ (((c : Thread nD τ).loc cc0_stg0_0) ↦{fullShare} xblk m c)
        ∗ (rsSlabAny (zp c 3) 2 ∗ rsSlabAny (zp c 2) 1 ∗ rsSlabAny (zp c 1) 0)
        ∗ (bigSep Finset.univ fun jh : Fin 3 × Fin 2 => iprop(dutyTok ER (rsSendCell c jh.1 jh.2) 0 0 ∗ dutyTok ER (rsRecvCell (zp c (1 + jh.1.val)) jh.1 jh.2) 0 0)))
      ⊢ iprop(SrsSend m c 0 ∗ xRest m c) := by
  unfold SrsSend
  rw [fin_all, fin_none, bigSep_empty,
    fin6_prod (fun j h => iprop(rsSendPay m c j h ∗ rsSlotAny (zp c (1 + j.val)) j h
      ∗ dutyTok ER (rsSendCell c j h) 0 0 ∗ dutyTok ER (rsRecvCell (zp c (1 + j.val)) j h) 0 0))]
  simp only [bigSep_sep']
  iintro ⟨HO, Hx, Hsl, HtS, HtR⟩
  icases (x_split m c).1 $$ Hx with ⟨Hrest, Hpay⟩
  ihave Hsl' := (slots_rs (F := F) c) $$ Hsl
  isplitr [Hrest]
  · isplitl [HO]; · iexists W; iexact HO
    isplitr []
    · iframe
    · iempintro
  · iexact Hrest

theorem agT_list : ∀ c : Dev nD,
    agT c 0 = zp c 3 ∧ agT c 1 = zp c 2 ∧ agT c 2 = zp c 1
    ∧ agT c 3 = xyp c 0 1 ∧ agT c 4 = zp (xyp c 0 1) 3 ∧ agT c 5 = zp (xyp c 0 1) 2 ∧ agT c 6 = zp (xyp c 0 1) 1
    ∧ agT c 7 = xyp c 1 0 ∧ agT c 8 = zp (xyp c 1 0) 3 ∧ agT c 9 = zp (xyp c 1 0) 2 ∧ agT c 10 = zp (xyp c 1 0) 1
    ∧ agT c 11 = xyp c 1 1 ∧ agT c 12 = zp (xyp c 1 1) 3 ∧ agT c 13 = zp (xyp c 1 1) 2 ∧ agT c 14 = zp (xyp c 1 1) 1 := by
  decide +kernel

theorem targets (c : Dev nD) :
    (iprop((agSlabAny (zp c 3) 0 ∗ agSlabAny (zp c 2) 1 ∗ agSlabAny (zp c 1) 2) ∗ barPay c 3 ∗ barPay c 4 ∗ barPay c 5) : sProp 𝕄)
      ⊢ bigSep Finset.univ fun sh : Fin 15 × Fin 2 => agSlotAny (agT c sh.1) sh.1 sh.2 := by
  obtain ⟨h0, h1, h2, h3, h4, h5, h6, h7, h8, h9, h10, h11, h12, h13, h14⟩ := agT_list c
  rw [bigSep_univ_prod, bigSep_fin15]
  simp only [bigSep_univ_two]
  rw [h0, h1, h2, h3, h4, h5, h6, h7, h8, h9, h10, h11, h12, h13, h14]
  show iprop((agSlabAny (zp c 3) 0 ∗ agSlabAny (zp c 2) 1 ∗ agSlabAny (zp c 1) 2)
      ∗ (agSlabAny (xyp c 0 1) 3 ∗ agSlabAny (zp (xyp c 0 1) 3) 4 ∗ agSlabAny (zp (xyp c 0 1) 2) 5 ∗ agSlabAny (zp (xyp c 0 1) 1) 6)
      ∗ (agSlabAny (xyp c 1 0) 7 ∗ agSlabAny (zp (xyp c 1 0) 3) 8 ∗ agSlabAny (zp (xyp c 1 0) 2) 9 ∗ agSlabAny (zp (xyp c 1 0) 1) 10)
      ∗ (agSlabAny (xyp c 1 1) 11 ∗ agSlabAny (zp (xyp c 1 1) 3) 12 ∗ agSlabAny (zp (xyp c 1 1) 2) 13 ∗ agSlabAny (zp (xyp c 1 1) 1) 14)) ⊢ _
  unfold agSlabAny
  iintro ⟨⟨⟨A0, A0'⟩, ⟨A1, A1'⟩, ⟨A2, A2'⟩⟩, ⟨⟨B3, B3'⟩, ⟨B4, B4'⟩, ⟨B5, B5'⟩, ⟨B6, B6'⟩⟩, ⟨⟨C7, C7'⟩, ⟨C8, C8'⟩, ⟨C9, C9'⟩, ⟨C10, C10'⟩⟩,
    ⟨⟨D11, D11'⟩, ⟨D12, D12'⟩, ⟨D13, D13'⟩, ⟨D14, D14'⟩⟩⟩
  iframe

omit [FloatOps F] in
theorem halves_eq (Φ : Fin 15 × Fin 2 → sProp 𝕄) :
    (bigSep Finset.univ fun sh : Fin 15 × Fin 2 => Φ sh)
      = iprop((bigSep Finset.univ fun s : Fin 15 => Φ (s, 0)) ∗ (bigSep Finset.univ fun s : Fin 15 => Φ (s, 1))) := by
  rw [bigSep_univ_prod, ← bigSep_sep']
  exact bigSep_congr fun s _ => bigSep_univ_two _

theorem mk_SagSend (c : Dev nD) (h : Fin 2) (fs : Buf (Elt F) ((redHalf h).view.loc (c : Thread nD τ))) (W : Waits sig (Fin 2)) :
    iprop(owes (c : Thread nD τ) (Orem c (30 - 15 * h.val)) W ∗ (((redHalf h).view.loc (c : Thread nD τ)) ↦[(redHalf h).view.set]{fullShare} fs)
        ∗ (bigSep Finset.univ fun s : Fin 15 => agSlotAny (agT c s) s h)
        ∗ (bigSep Finset.univ fun s : Fin 15 => iprop(dutyTok ER (agSendCell c s h) 0 0 ∗ dutyTok ER (agRecvCell (agT c s) s h) 0 0)))
      ⊢ SagSend c h fs 0 := by
  unfold SagSend
  rw [fin_all, fin_none, bigSep_empty]
  simp only [bigSep_sep']
  iintro ⟨HO, Hf, Hsl, HtS, HtR⟩
  ihave Hf' := (red_shares (F := F) c h fs).1 $$ Hf
  isplitl [HO]; · iexists W; iexact HO
  isplitr []
  · iframe
  · iempintro

def e30 : Fin 15 × Fin 2 ≃ Fin 30 where
  toFun sh := ⟨15 * sh.2.val + sh.1.val, by omega⟩
  invFun r := (slotOf r, halfOf r)
  left_inv := by decide
  right_inv := by decide

omit [FloatOps F] in
theorem fin30_prod (Φ : Fin 15 → Fin 2 → sProp 𝕄) :
    (bigSep Finset.univ fun r : Fin 30 => Φ (slotOf r) (halfOf r)) = bigSep Finset.univ fun sh : Fin 15 × Fin 2 => Φ sh.1 sh.2 :=
  (bigSep_univ_equiv e30.symm fun sh : Fin 15 × Fin 2 => Φ sh.1 sh.2).symm

theorem Smid_intro (c : Dev nD) (W : Waits sig (Fin 2)) :
    iprop(owes (c : Thread nD τ) 0 W ∗ xRest m c
      ∗ (bigSep Finset.univ fun jh : Fin 3 × Fin 2 => iprop(rsRecvPay m c jh.1 jh.2 ∗ atPos ER (rsRecvCell c jh.1 jh.2) 1 ∅ 0))
      ∗ (bigSep Finset.univ fun jh : Fin 3 × Fin 2 => atPos ER (rsSendCell c jh.1 jh.2) 0 ∅ 0)
      ∗ (bigSep (Finset.univ.filter fun n : Fin 6 => n.val < 6) fun n => cred (tallyAt (rsSendCell c (jOf n) (hOf n)) (0 : Fin 2) Nrs))
      ∗ (bigSep Finset.univ fun sh : Fin 15 × Fin 2 => iprop(atPos ER (agSendCell c sh.1 sh.2) 0 ∅ 0 ∗ atPos ER (agRecvCell c sh.1 sh.2) 0 ∅ 0))
      ∗ (bigSep (Finset.univ.filter fun s : Fin 15 => s.val < 15) fun s => cred (tallyAt (agSendCell c s 0) (0 : Fin 2) Nag))
      ∗ (bigSep (Finset.univ.filter fun s : Fin 15 => s.val < 15) fun s => cred (tallyAt (agSendCell c s 1) (0 : Fin 2) Nag))
      ∗ (bigSep Finset.univ fun sh : Fin 15 × Fin 2 => cred (tallyAt (agRecvCell c sh.1 sh.2) (0 : Fin 2) Nag))
      ∗ (∃ f, ⌜OutDone m (doneTiles c 0) f⌝ ∗ (((c : Thread nD τ).loc cc0_stg1_0) ↦{fullShare} f)))
      ⊢ Smid m c 0 0 := by
  unfold Smid
  rw [fin_all, fin_none, bigSep_empty, fin_all', fin_all',
    fin6_prod (fun j h => (cred (tallyAt (rsSendCell c j h) (0 : Fin 2) Nrs) : sProp 𝕄)),
    fin30_prod (fun s h => iprop(atPos ER (agRecvCell c s h) 0 ∅ 0 ∗ cred (tallyAt (agRecvCell c s h) (0 : Fin 2) Nag))),
    halves_eq (fun sh => iprop(atPos ER (agSendCell c sh.1 sh.2) 0 ∅ 0 ∗ cred (tallyAt (agSendCell c sh.1 sh.2) (0 : Fin 2) Nag)))]
  simp only [bigSep_sep']
  iintro ⟨HO, Hxr, ⟨Hpay, HatR⟩, HatS, HcS, ⟨HaS, HaR⟩, Hc0, Hc1, HcR, Hout⟩
  icases (Entails.of_eq (halves_eq (fun sh => (atPos ER (agSendCell c sh.1 sh.2) 0 ∅ 0 : sProp 𝕄)))) $$ HaS with ⟨HaS0, HaS1⟩
  isplitl [HO]; · iexists W; iexact HO
  iframe
  iempintro

end Cert.Kernel.Hand

end
-- ==== Proof.HandKernel.Families.lean ====
import proofs.«900721_g7700000000000722_dist_ar_v7x_xyz2x2x4_z_m512_n512_f32_1_alg».proof.Proof.HandKernel.BodyDefs
import proofs.«900721_g7700000000000722_dist_ar_v7x_xyz2x2x4_z_m512_n512_f32_1_alg».proof.Proof.HandKernel.Landing

noncomputable section

namespace Cert.Kernel.Hand

open Cert.Kernel.Gen
open Idealize.ShloMosaic Idealize.ShloMosaic.TcCoe
open Idealize.SL.RA Idealize.SL.BI
open Idealize.SL.BI.BIBase Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ)

theorem redHalf_credit (h : Fin 2) : (redHalf h).view.dmaCredit = Nag := rfl
theorem rsSrc_credit (c : Dev nD) (j : Fin 3) (h : Fin 2) : (rsSrc c j h).view.dmaCredit = Nrs := rfl

section Families
variable (K : GSem nD τ sig → ℕ)

theorem wp_rs_send (c n : Dev nD) (j : Fin 3) (h : Fin 2) (hn : n = zp c (1 + j.val))
    {hsc : (rsSlot j h : Memref sig (Dev.tc n : Thread nD τ).2.kind .vmem S64x128 .f32).view.ref.isScScratch = false}
    {hsrc : (rsSrc c j h).view.WordExact} {hdst : (rsSlot j h : Memref sig .tc .vmem S64x128 .f32).view.WordExact}
    {hsem : DmaTarget.Typed .vmem (.dma (rsRecvS j h)) (.remote (Dev.tc n : Thread nD τ) (rsSlot j h : Memref sig .tc .vmem S64x128 .f32) (.dma (rsSendS j h)) hsc)}
    {α : Type} {Q : α → sProp 𝕄} {k : PUnit → Prog (TpuEff nD τ sig (Elt F) Λ₀ .tc) α}
    (fd : Buf (Elt F) ((rsSlot j h).view.loc ((zp c (1 + j.val) : Dev nD) : Thread nD τ))) (W : Waits sig (Fin 2)) (O : CellTallies nD τ sig (Fin 2)) :
    iprop(cellInv ER (Rd m) (K (rsSendCell c j h)) (rsSendCell c j h) ∗ cellInv ER (Rd m) (K (rsRecvCell (zp c (1 + j.val)) j h)) (rsRecvCell (zp c (1 + j.val)) j h)
        ∗ rsSendPay m c j h ∗ (((rsSlot j h).view.loc ((zp c (1 + j.val) : Dev nD) : Thread nD τ)) ↦[(rsSlot j h).view.set]{fullShare} fd)
        ∗ owes (c : Thread nD τ) (O + tallyAt (rsRecvCell (zp c (1 + j.val)) j h) 0 Nrs) W
        ∗ dutyTok ER (rsSendCell c j h) 0 0 ∗ reached ER (rsSendCell c j h) 0
        ∗ dutyTok ER (rsRecvCell (zp c (1 + j.val)) j h) 0 0 ∗ reached ER (rsRecvCell (zp c (1 + j.val)) j h) 0)
      ⊢ iprop(((cred (tallyAt (rsSendCell c j h) 0 Nrs) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rsSrc c j h) (.remote (Dev.tc n : Thread nD τ) (rsSlot j h) (.dma (rsSendS j h)) hsc) (.dma (rsRecvS j h)) hsrc hdst hsem) k) Q) := by
  subst hn
  unfold rsSendPay
  exact Rounds.wp_send_pointsTo 𝒱₀ ER (Rd m) (c : Thread nD τ) none
    (c' := ((zp c (1 + j.val) : Dev nD) : Thread nD τ)) (src := rsSrc c j h) (dst := rsSlot j h)
    (mem_rsSend m c j h) (mem_rsRecv m _ j h) 0 0 Nrs rfl (amount_rsSend m c j h 0) (amount_rsRecv m _ j h 0) O rfl
    (by rw [payload_rsSend]; exact .rfl) (by rw [payload_rsRecv]; exact rs_land m c j h fd)

theorem wp_ag_send (c n : Dev nD) (s : Fin 15) (h : Fin 2) (hn : n = agT c s)
    {hsc : (agSlot s h : Memref sig (Dev.tc n : Thread nD τ).2.kind .vmem S64x128 .f32).view.ref.isScScratch = false}
    {hsrc : (redHalf h : Memref sig .tc .vmem S64x128 .f32).view.WordExact} {hdst : (agSlot s h : Memref sig .tc .vmem S64x128 .f32).view.WordExact}
    {hsem : DmaTarget.Typed .vmem (.dma (agRecvS s h)) (.remote (Dev.tc n : Thread nD τ) (agSlot s h : Memref sig .tc .vmem S64x128 .f32) (.dma (agSendS s h)) hsc)}
    {α : Type} {Q : α → sProp 𝕄} {k : PUnit → Prog (TpuEff nD τ sig (Elt F) Λ₀ .tc) α}
    (fs : Buf (Elt F) ((redHalf h).view.loc (c : Thread nD τ))) (hfs : ∀ i ∈ (redHalf h).view.set, fs i = redVal m c i)
    (fd : Buf (Elt F) ((agSlot s h).view.loc ((agT c s : Dev nD) : Thread nD τ))) (W : Waits sig (Fin 2)) (O : CellTallies nD τ sig (Fin 2)) :
    iprop(cellInv ER (Rd m) (K (agSendCell c s h)) (agSendCell c s h) ∗ cellInv ER (Rd m) (K (agRecvCell (agT c s) s h)) (agRecvCell (agT c s) s h)
        ∗ (((redHalf h).view.loc (c : Thread nD τ)) ↦[(redHalf h).view.set]{agShare s} fs)
        ∗ (((agSlot s h).view.loc ((agT c s : Dev nD) : Thread nD τ)) ↦[(agSlot s h).view.set]{fullShare} fd)
        ∗ owes (c : Thread nD τ) (O + tallyAt (agRecvCell (agT c s) s h) 0 Nag) W
        ∗ dutyTok ER (agSendCell c s h) 0 0 ∗ reached ER (agSendCell c s h) 0
        ∗ dutyTok ER (agRecvCell (agT c s) s h) 0 0 ∗ reached ER (agRecvCell (agT c s) s h) 0)
      ⊢ iprop(((cred (tallyAt (agSendCell c s h) 0 Nag) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (redHalf h) (.remote (Dev.tc n : Thread nD τ) (agSlot s h) (.dma (agSendS s h)) hsc) (.dma (agRecvS s h)) hsrc hdst hsem) k) Q) := by
  subst hn
  exact Rounds.wp_send_pointsTo 𝒱₀ ER (Rd m) (c : Thread nD τ) none
    (c' := ((agT c s : Dev nD) : Thread nD τ)) (src := redHalf h) (dst := agSlot s h)
    (mem_agSend m c s h) (mem_agRecv m _ s h) 0 0 Nag rfl (amount_agSend m c s h 0) (amount_agRecv m _ s h 0) O rfl
    (by rw [payload_agSend]; exact ag_src_pay m c s h fs hfs) (by rw [payload_agRecv]; exact ag_land m c s h fd fs hfs)

/-- A cell whose one round is one transfer's credit: the wait for that credit takes the whole round and hands its owner the round's payload. -/
theorem wp_cell_waitDma2 (c : Dev nD) (sem : DmaSem sig) (N : ℕ) (P : sProp 𝕄)
    (hexp : (Rd m).expect ((c : Thread nD τ), .dma sem) 0 = N)
    (hrest : bigSep ((Rd m).duties ((c : Thread nD τ), .dma sem) 0 \ ∅) (fun d => (Rd m).payload ((c : Thread nD τ), .dma sem) 0 d) = P)
    {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = N)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K ((c : Thread nD τ), .dma sem)) ((c : Thread nD τ), .dma sem) ∗ cred (tallyAt ((c : Thread nD τ), .dma sem) 0 N)
        ∗ owes (c : Thread nD τ) O W ∗ MayWait (c : Thread nD τ) (.dma sem) 0 O ∗ atPos ER ((c : Thread nD τ), .dma sem) 0 ∅ 0)
      ⊢ iprop(((owes (c : Thread nD τ) O (insert (.dma sem, 0) W) ∗ atPos ER ((c : Thread nD τ), .dma sem) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hrest
  iintro H Hk
  iapply (Rounds.wp_wait_rest_token 𝒱₀ ER (Rd m) (c : Thread nD τ) none (κ := K ((c : Thread nD τ), .dma sem))
      (fun Kk => by rw [wpE_waitDma2_eq, hcr]) (Set.mem_univ _) (0 : Fin 2) (R := 0) (m := 0) (T := ∅) (by rw [Nat.zero_add, hexp])) $$ H
  iintro ⟨HO, Hat, -, Hpay⟩
  iapply Hk
  iframe # ∗

theorem wp_rs_recv_waitDma2 (c : Dev nD) (j : Fin 3) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nrs)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (rsRecvCell c j h)) (rsRecvCell c j h) ∗ cred (tallyAt (rsRecvCell c j h) 0 Nrs)
        ∗ owes (c : Thread nD τ) O W ∗ MayWait (c : Thread nD τ) (.dma (rsRecvS j h)) 0 O ∗ atPos ER (rsRecvCell c j h) 0 ∅ 0)
      ⊢ iprop(((owes (c : Thread nD τ) O (insert (.dma (rsRecvS j h), 0) W) ∗ atPos ER (rsRecvCell c j h) 1 ∅ 0 ∗ rsRecvPay m c j h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rsRecvS j h) src dst hsrc hdst) k) Q) :=
  wp_cell_waitDma2 m K c _ Nrs _ (expect_rsRecv m c j h) (rest_rsRecv m c j h) hcr

theorem wp_ag_recv_waitDma2 (c : Dev nD) (s : Fin 15) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (agRecvCell c s h)) (agRecvCell c s h) ∗ cred (tallyAt (agRecvCell c s h) 0 Nag)
        ∗ owes (c : Thread nD τ) O W ∗ MayWait (c : Thread nD τ) (.dma (agRecvS s h)) 0 O ∗ atPos ER (agRecvCell c s h) 0 ∅ 0)
      ⊢ iprop(((owes (c : Thread nD τ) O (insert (.dma (agRecvS s h), 0) W) ∗ atPos ER (agRecvCell c s h) 1 ∅ 0 ∗ agRecvPay m c s h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (agRecvS s h) src dst hsrc hdst) k) Q) :=
  wp_cell_waitDma2 m K c _ Nag _ (expect_agRecv m c s h) (rest_agRecv m c s h) hcr

theorem wp_rs_send_waitDma2 (c : Dev nD) (j : Fin 3) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nrs)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (rsSendCell c j h)) (rsSendCell c j h) ∗ cred (tallyAt (rsSendCell c j h) 0 Nrs)
        ∗ owes (c : Thread nD τ) O W ∗ MayWait (c : Thread nD τ) (.dma (rsSendS j h)) 0 O ∗ atPos ER (rsSendCell c j h) 0 ∅ 0)
      ⊢ iprop(((owes (c : Thread nD τ) O (insert (.dma (rsSendS j h), 0) W) ∗ atPos ER (rsSendCell c j h) 1 ∅ 0 ∗ rsSendPay m c j h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rsSendS j h) src dst hsrc hdst) k) Q) :=
  wp_cell_waitDma2 m K c _ Nrs _ (expect_rsSend m c j h) (rest_rsSend m c j h) hcr

theorem wp_ag_send_waitDma2 (c : Dev nD) (s : Fin 15) (h : Fin 2) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (agSendCell c s h)) (agSendCell c s h) ∗ cred (tallyAt (agSendCell c s h) 0 Nag)
        ∗ owes (c : Thread nD τ) O W ∗ MayWait (c : Thread nD τ) (.dma (agSendS s h)) 0 O ∗ atPos ER (agSendCell c s h) 0 ∅ 0)
      ⊢ iprop(((owes (c : Thread nD τ) O (insert (.dma (agSendS s h), 0) W) ∗ atPos ER (agSendCell c s h) 1 ∅ 0 ∗ agSendPay m c s h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (agSendS s h) src dst hsrc hdst) k) Q) :=
  wp_cell_waitDma2 m K c _ Nag _ (expect_agSend m c s h) (rest_agSend m c s h) hcr

/-- After its one round a cell has no duty left, so its owner closes it with the counter at zero. -/
theorem close_cell (g : GSem nD τ sig) :
    iprop(cellInv ER (Rd m) (K g) g ∗ atPos ER g 1 ∅ 0) ⊢ (|={Set.univ}=> semVal g 0 : sProp 𝕄) :=
  Rounds.cell_close ER (Rd m) (Set.mem_univ (K g)) (not_unitless m _) (R := 1) (duties_later m g)

theorem close_rsSend (c : Dev nD) (j : Fin 3) (h : Fin 2) :
    iprop(cellInv ER (Rd m) (K (rsSendCell c j h)) (rsSendCell c j h) ∗ atPos ER (rsSendCell c j h) 1 ∅ 0)
      ⊢ (|={Set.univ}=> semVal (rsSendCell c j h) 0 : sProp 𝕄) :=
  close_cell m K _

theorem close_rsRecv (c : Dev nD) (j : Fin 3) (h : Fin 2) :
    iprop(cellInv ER (Rd m) (K (rsRecvCell c j h)) (rsRecvCell c j h) ∗ atPos ER (rsRecvCell c j h) 1 ∅ 0)
      ⊢ (|={Set.univ}=> semVal (rsRecvCell c j h) 0 : sProp 𝕄) :=
  close_cell m K _

theorem close_agSend (c : Dev nD) (s : Fin 15) (h : Fin 2) :
    iprop(cellInv ER (Rd m) (K (agSendCell c s h)) (agSendCell c s h) ∗ atPos ER (agSendCell c s h) 1 ∅ 0)
      ⊢ (|={Set.univ}=> semVal (agSendCell c s h) 0 : sProp 𝕄) :=
  close_cell m K _

theorem close_agRecv (c : Dev nD) (s : Fin 15) (h : Fin 2) :
    iprop(cellInv ER (Rd m) (K (agRecvCell c s h)) (agRecvCell c s h) ∗ atPos ER (agRecvCell c s h) 1 ∅ 0)
      ⊢ (|={Set.univ}=> semVal (agRecvCell c s h) 0 : sProp 𝕄) :=
  close_cell m K _

end Families

end Cert.Kernel.Hand

end
-- ==== Proof.HandKernel.Records.lean ====
import proofs.«900721_g7700000000000722_dist_ar_v7x_xyz2x2x4_z_m512_n512_f32_1_alg».proof.Proof.HandKernel.Ghost
import proofs.«900721_g7700000000000722_dist_ar_v7x_xyz2x2x4_z_m512_n512_f32_1_alg».proof.Proof.LibCount

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.BarrierCell Cert.Lib.Count

variable {F : FTy → Type} [FloatOps F]

local notation "𝕄" => MT nD τ sig (Fin 2) (Elt F) ℕ UU ℕ

variable (m : (ℓ : Loc nD τ sig) → Buf (Elt F) ℓ) (K : GSem nD τ sig → ℕ)

abbrev recRs (c' : Dev nD) : Fin 3 × Fin 2 → sProp 𝕄 := fun jh => iprop(
  cellInv ER (Rd m) (K (rsSendCell c' jh.1 jh.2)) (rsSendCell c' jh.1 jh.2) ∗ reached ER (rsSendCell c' jh.1 jh.2) 0
  ∗ cellInv ER (Rd m) (K (rsRecvCell c' jh.1 jh.2)) (rsRecvCell c' jh.1 jh.2) ∗ reached ER (rsRecvCell c' jh.1 jh.2) 0)
abbrev recAg (c' : Dev nD) : Fin 15 × Fin 2 → sProp 𝕄 := fun sh => iprop(
  cellInv ER (Rd m) (K (agSendCell c' sh.1 sh.2)) (agSendCell c' sh.1 sh.2) ∗ reached ER (agSendCell c' sh.1 sh.2) 0
  ∗ cellInv ER (Rd m) (K (agRecvCell c' sh.1 sh.2)) (agRecvCell c' sh.1 sh.2) ∗ reached ER (agRecvCell c' sh.1 sh.2) 0)

/-- The records are one summand a device; this is device `c`'s. -/
theorem records_at (c : Dev nD) :
    records m K ⊢ iprop(barInv ER (K (barCell c)) (barCell c) (barPay (F := F) c)
      ∗ (bigSep Finset.univ (recRs m K c)) ∗ (bigSep Finset.univ (recAg m K c))) := by
  unfold records; exact BI.bigSep_elim (Finset.mem_univ c)

theorem records_bar (c : Dev nD) : records m K ⊢ barInv ER (K (barCell c)) (barCell c) (barPay (F := F) c) := by
  iintro H
  ihave H' := (records_at m K c) $$ H
  icases H' with ⟨H1, -⟩
  iexact H1

theorem records_rs (c : Dev nD) (j : Fin 3) (h : Fin 2) :
    records m K ⊢ iprop(cellInv ER (Rd m) (K (rsSendCell c j h)) (rsSendCell c j h) ∗ reached ER (rsSendCell c j h) 0
      ∗ cellInv ER (Rd m) (K (rsRecvCell c j h)) (rsRecvCell c j h) ∗ reached ER (rsRecvCell c j h) 0) := by
  iintro H
  ihave H' := (records_at m K c) $$ H
  icases H' with ⟨-, H2, -⟩
  iapply (bigSep_take (Finset.mem_univ ((j, h) : Fin 3 × Fin 2)) (recRs m K c)) $$ H2

theorem records_ag (c : Dev nD) (s : Fin 15) (h : Fin 2) :
    records m K ⊢ iprop(cellInv ER (Rd m) (K (agSendCell c s h)) (agSendCell c s h) ∗ reached ER (agSendCell c s h) 0
      ∗ cellInv ER (Rd m) (K (agRecvCell c s h)) (agRecvCell c s h) ∗ reached ER (agRecvCell c s h) 0) := by
  iintro H
  ihave H' := (records_at m K c) $$ H
  icases H' with ⟨-, -, H2⟩
  iapply (bigSep_take (Finset.mem_univ ((s, h) : Fin 15 × Fin 2)) (recAg m K c)) $$ H2

end Cert.Kernel.Hand
-- ==== Proof.HandKernel.Sends.lean ====
import proofs.«900721_g7700000000000722_dist_ar_v7x_xyz2x2x4_z_m512_n512_f32_1_alg».proof.Proof.HandKernel.SendStates
import proofs.«900721_g7700000000000722_dist_ar_v7x_xyz2x2x4_z_m512_n512_f32_1_alg».proof.Proof.HandKernel.Families
import proofs.«900721_g7700000000000722_dist_ar_v7x_xyz2x2x4_z_m512_n512_f32_1_alg».proof.Proof.HandKernel.Levels
import proofs.«900721_g7700000000000722_dist_ar_v7x_xyz2x2x4_z_m512_n512_f32_1_alg».proof.Proof.Gen.Kernel.Skeleton
import proofs.«900721_g7700000000000722_dist_ar_v7x_xyz2x2x4_z_m512_n512_f32_1_alg».proof.Proof.HandKernel.Records

noncomputable section

namespace Cert.Kernel.Hand

open Cert.Kernel.Gen
open Idealize.ShloMosaic
open Idealize.SL Idealize.SL.BI
open scoped Idealize.SL.BI
open Idealize.SL.BI.BIBase Idealize.SL.BI.Laws Idealize.SL.ProofMode Idealize.SL.Sem
open Idealize.ShloMosaic.Rounds
open Cert.Lib.Count

variable {F : FTy → Type} [FloatOps F]

local notation "𝕄" => MT nD τ sig (Fin 2) (Elt F) ℕ UU ℕ

variable (m : (ℓ : Loc nD τ sig) → Buf (Elt F) ℓ)

abbrev rsB (c : Dev nD) : Fin 6 → sProp 𝕄 := fun n => iprop(rsSendPay m c (jOf n) (hOf n)
  ∗ rsSlotAny (zp c (1 + (jOf n).val)) (jOf n) (hOf n) ∗ dutyTok ER (rsSendCell c (jOf n) (hOf n)) 0 0
  ∗ dutyTok ER (rsRecvCell (zp c (1 + (jOf n).val)) (jOf n) (hOf n)) 0 0)
abbrev rsC (c : Dev nD) : Fin 6 → sProp 𝕄 := fun n => cred (tallyAt (rsSendCell c (jOf n) (hOf n)) (0 : Fin 2) Nrs)

theorem Orem_rs (c : Dev nD) (n : Fin 6) :
    Orem c (36 - n.val) = Orem c (36 - (n.val + 1)) + tallyAt (rsRecvCell (zp c (1 + (jOf n).val)) (jOf n) (hOf n)) 0 Nrs := by
  fin_cases n <;> rfl

theorem Orem_ag (c : Dev nD) (h : Fin 2) (s : Fin 15) :
    Orem c (30 - 15 * h.val - s.val) = Orem c (30 - 15 * h.val - (s.val + 1)) + tallyAt (agRecvCell (agT c s) s h) 0 Nag := by
  fin_cases h <;> fin_cases s <;> rfl

/-- Copy `n` of a stretch of `N`: it leaves the copies to come, and what it leaves behind joins what the copies before it left. -/
theorem stretch_step {N : ℕ} (n : Fin N) {ι : Type} {B C : Fin N → sProp 𝕄} {own own' : ι → sProp 𝕄} {R P X Y : sProp 𝕄} [Persistent R]
    (hloc : ∀ W, iprop(R ∗ B n ∗ own W) ⊢ iprop((C n ∗ own' W -∗ X) -∗ Y))
    (H : iprop(R ∗ ((∃ W, own' W) ∗ bigSep (Finset.univ.filter fun x : Fin N => n.val + 1 ≤ x.val) B
      ∗ bigSep (Finset.univ.filter fun x : Fin N => x.val < n.val + 1) C) ∗ P) ⊢ X) :
    iprop(R ∗ ((∃ W, own W) ∗ bigSep (Finset.univ.filter fun x : Fin N => n.val ≤ x.val) B
      ∗ bigSep (Finset.univ.filter fun x : Fin N => x.val < n.val) C) ∗ P) ⊢ Y := by
  iintro ⟨#HR, ⟨⟨%W, HO⟩, Hb, Hc⟩, HP⟩
  icases (pick_ge n B) $$ Hb with ⟨Hn, Hb⟩
  iapply (hloc W) $$ [Hn HO]
  · iframe HR Hn HO
  iintro ⟨Hcr, HO⟩
  iapply H
  iframe HR HP Hb
  isplitl [HO]; · iexists W; iexact HO
  iapply (unpick_lt n C)
  iframe

section Steps
variable (K : GSem nD τ sig → ℕ) (c : Dev nD)

theorem rs_step (n : Fin 6) {dev : Dev nD} (hdev : dev = zp c (1 + (jOf n).val))
    {hsc : (rsSlot (jOf n) (hOf n) : Memref sig (Dev.tc dev : Thread nD τ).2.kind .vmem S64x128 .f32).view.ref.isScScratch = false}
    {hsrc : (rsSrc c (jOf n) (hOf n)).view.WordExact} {hdst : (rsSlot (jOf n) (hOf n) : Memref sig .tc .vmem S64x128 .f32).view.WordExact}
    {hsem : DmaTarget.Typed .vmem (.dma (rsRecvS (jOf n) (hOf n))) (.remote dev.tc (rsSlot (jOf n) (hOf n) : Memref sig .tc .vmem S64x128 .f32) (.dma (rsSendS (jOf n) (hOf n))) hsc)}
    {α : Type} {Q : α → sProp 𝕄} {k : PUnit → Prog (TpuEff nD τ sig (Elt F) Λ₀ .tc) α} {P : sProp 𝕄}
    (H : iprop(records m K ∗ SrsSend m c (n.val + 1) ∗ P) ⊢ wp frame (wpE defs₀ 𝒱₀ c.tc none) Set.univ (k ⟨⟩) Q) :
    iprop(records m K ∗ SrsSend m c n.val ∗ P)
      ⊢ wp frame (wpE defs₀ 𝒱₀ c.tc none) Set.univ
          (.op (.enqueueDma (rsSrc c (jOf n) (hOf n)) (.remote dev.tc (rsSlot (jOf n) (hOf n)) (.dma (rsSendS (jOf n) (hOf n))) hsc) (.dma (rsRecvS (jOf n) (hOf n))) hsrc hdst hsem) k) Q := by
  unfold SrsSend rsSlotAny at H ⊢
  rw [Orem_rs c n]
  refine stretch_step n (fun W => ?_) H
  iintro ⟨#Hrec, ⟨Hpay, ⟨%fd, Hslot⟩, Ht1, Ht2⟩, HO⟩
  icases (records_rs m K c (jOf n) (hOf n)) $$ Hrec with ⟨#Hi1, #Hr1, -, -⟩
  icases (records_rs m K (zp c (1 + (jOf n).val)) (jOf n) (hOf n)) $$ Hrec with ⟨-, -, #Hi2, #Hr2⟩
  iapply (wp_rs_send m K c dev (jOf n) (hOf n) hdev fd W (Orem c (36 - (n.val + 1))))
  iframe # ∗

theorem ag_step (h : Fin 2) (fs : Buf (Elt F) ((redHalf h).view.loc c.tc))
    (hfs : ∀ i ∈ (redHalf h).view.set, fs i = redVal m c i) {s : Fin 15} {dev : Dev nD} (hdev : dev = agT c s)
    {hsc : (agSlot s h : Memref sig (Dev.tc dev : Thread nD τ).2.kind .vmem S64x128 .f32).view.ref.isScScratch = false}
    {hsrc : (redHalf h : Memref sig .tc .vmem S64x128 .f32).view.WordExact} {hdst : (agSlot s h : Memref sig .tc .vmem S64x128 .f32).view.WordExact}
    {hsem : DmaTarget.Typed .vmem (.dma (agRecvS s h)) (.remote dev.tc (agSlot s h : Memref sig .tc .vmem S64x128 .f32) (.dma (agSendS s h)) hsc)}
    {α : Type} {Q : α → sProp 𝕄} {k : PUnit → Prog (TpuEff nD τ sig (Elt F) Λ₀ .tc) α} {P : sProp 𝕄}
    (H : iprop(records m K ∗ SagSend c h fs (s.val + 1) ∗ P) ⊢ wp frame (wpE defs₀ 𝒱₀ c.tc none) Set.univ (k ⟨⟩) Q) :
    iprop(records m K ∗ SagSend c h fs s.val ∗ P)
      ⊢ wp frame (wpE defs₀ 𝒱₀ c.tc none) Set.univ
          (.op (.enqueueDma (redHalf h) (.remote dev.tc (agSlot s h) (.dma (agSendS s h)) hsc) (.dma (agRecvS s h)) hsrc hdst hsem) k) Q := by
  unfold SagSend agSlotAny at H ⊢
  rw [Orem_ag c h s]
  refine stretch_step s (fun W => ?_) H
  iintro ⟨#Hrec, ⟨Hsrc, ⟨%fd, Hslot⟩, Ht1, Ht2⟩, HO⟩
  icases (records_ag m K c s h) $$ Hrec with ⟨#Hi1, #Hr1, -, -⟩
  icases (records_ag m K (agT c s) s h) $$ Hrec with ⟨-, -, #Hi2, #Hr2⟩
  iapply (wp_ag_send m K c dev s h hdev fs hfs fd W (Orem c (30 - 15 * h.val - (s.val + 1))))
  iframe # ∗

/-- a part ends by handing the state of its stretch on -/
theorem part_ret {α : Type} {R S : sProp 𝕄} {Kt : α → sProp 𝕄} {r : α} {t : Thread nD τ} :
    iprop(R ∗ S ∗ (∀ res, S -∗ Kt res)) ⊢ wp frame (wpE defs₀ 𝒱₀ t none) Set.univ (.ret r) Kt := by
  iintro ⟨-, HS, Hk⟩
  rw [wp_ret]; imodintro
  iapply Hk; iexact HS

theorem part6_spec (v2 v5 v8 v10 : BitVec 32) (Kt : _ → sProp 𝕄) :
  iprop(records m K ∗ SrsSend m c 0 ∗ (∀ res, SrsSend m c 2 -∗ Kt res))
  ⊢ wp frame (wpE defs₀ 𝒱₀ c.tc none) Set.univ
  (k0_part6 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10) Kt := by
  rw [k0_part6_eq_skeleton]
  exact rs_step m K c 0 (dev7_eq c) (rs_step m K c 1 (dev8_eq c) part_ret)

theorem part7_spec (v2 v5 v8 v10 v201 c4_i32_135 : BitVec 32) (v202 : BitVec 1) (Kt : _ → sProp 𝕄) :
  iprop(records m K ∗ SrsSend m c 2 ∗ (∀ res, SrsSend m c 3 -∗ Kt res))
  ⊢ wp frame (wpE defs₀ 𝒱₀ c.tc none) Set.univ
  (k0_part7 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v201 c4_i32_135 v202) Kt := by
  rw [k0_part7_eq_skeleton]
  exact rs_step m K c 2 (dev9_eq c) part_ret

theorem part8_spec (v2 v5 v8 v10 v230 v231 : BitVec 32) (v236 : BitVec 1) (Kt : _ → sProp 𝕄) :
  iprop(records m K ∗ SrsSend m c 3 ∗ (∀ res, SrsSend m c 4 -∗ Kt res))
  ⊢ wp frame (wpE defs₀ 𝒱₀ c.tc none) Set.univ
  (k0_part8 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v230 v231 v236) Kt := by
  rw [k0_part8_eq_skeleton]
  exact rs_step m K c 3 (dev10_eq c) part_ret

theorem part9_spec (v2 v5 v8 v10 v265 : BitVec 32) (Kt : _ → sProp 𝕄) :
  iprop(records m K ∗ SrsSend m c 4 ∗ (∀ res, SrsSend m c 5 -∗ Kt res))
  ⊢ wp frame (wpE defs₀ 𝒱₀ c.tc none) Set.univ
  (k0_part9 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v265) Kt := by
  rw [k0_part9_eq_skeleton]
  exact rs_step m K c 4 (dev11_eq c) part_ret

theorem part13_spec (v2 v5 v378 v389 v393 v394 : BitVec 32) (v395 v396 : BitVec 1) (fs : Buf (Elt F) ((redHalf 0).view.loc c.tc)) (hfs : ∀ i ∈ (redHalf 0).view.set, fs i = redVal m c i) (Kt : _ → sProp 𝕄) :
  iprop(records m K ∗ SagSend c 0 fs 0 ∗ (∀ res, SagSend c 0 fs 1 -∗ Kt res))
  ⊢ wp frame (wpE defs₀ 𝒱₀ c.tc none) Set.univ
  (k0_part13 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v378 v389 v393 v394 v395 v396) Kt := by
  rw [k0_part13_eq_skeleton]
  exact ag_step m K c 0 fs hfs (dev13_eq c) part_ret

theorem part14_spec (v2 v8 v425 v428 v429 c0_i32_314 : BitVec 32) (fs : Buf (Elt F) ((redHalf 0).view.loc c.tc)) (hfs : ∀ i ∈ (redHalf 0).view.set, fs i = redVal m c i) (Kt : _ → sProp 𝕄) :
  iprop(records m K ∗ SagSend c 0 fs 1 ∗ (∀ res, SagSend c 0 fs 2 -∗ Kt res))
  ⊢ wp frame (wpE defs₀ 𝒱₀ c.tc none) Set.univ
  (k0_part14 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v425 v428 v429 c0_i32_314) Kt := by
  rw [k0_part14_eq_skeleton]
  exact ag_step m K c 0 fs hfs (dev14_eq c) part_ret

theorem part15_spec (v5 v8 v462 c2_i32_339 c0_i32_340 : BitVec 32) (fs : Buf (Elt F) ((redHalf 0).view.loc c.tc)) (hfs : ∀ i ∈ (redHalf 0).view.set, fs i = redVal m c i) (Kt : _ → sProp 𝕄) :
  iprop(records m K ∗ SagSend c 0 fs 2 ∗ (∀ res, SagSend c 0 fs 2 -∗ Kt res))
  ⊢ wp frame (wpE defs₀ 𝒱₀ c.tc none) Set.univ
  (k0_part15 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v462 c2_i32_339 c0_i32_340) Kt := by
  rw [k0_part15_eq_skeleton]
  exact part_ret

theorem part16_spec (v2 v5 v8 v483 v495 v496 c0_i32_366 : BitVec 32) (fs : Buf (Elt F) ((redHalf 0).view.loc c.tc)) (hfs : ∀ i ∈ (redHalf 0).view.set, fs i = redVal m c i) (Kt : _ → sProp 𝕄) :
  iprop(records m K ∗ SagSend c 0 fs 2 ∗ (∀ res, SagSend c 0 fs 3 -∗ Kt res))
  ⊢ wp frame (wpE defs₀ 𝒱₀ c.tc none) Set.univ
  (k0_part16 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v483 v495 v496 c0_i32_366) Kt := by
  rw [k0_part16_eq_skeleton]
  exact ag_step m K c 0 fs hfs (dev15_eq c) part_ret

theorem part17_spec (v2 v519 v530 v532 c4_i32_389 : BitVec 32) (fs : Buf (Elt F) ((redHalf 0).view.loc c.tc)) (hfs : ∀ i ∈ (redHalf 0).view.set, fs i = redVal m c i) (Kt : _ → sProp 𝕄) :
  iprop(records m K ∗ SagSend c 0 fs 3 ∗ (∀ res, SagSend c 0 fs 4 -∗ Kt res))
  ⊢ wp frame (wpE defs₀ 𝒱₀ c.tc none) Set.univ
  (k0_part17 xM (Memref.isWhole_whole _) oM (Memref.isWhole_whole _) rsM (Memref.isWhole_whole _) redM (Memref.isWhole_whole _) agM (Memref.isWhole_whole _) cc0_scratch3 cc0_scratch4 cc0_scratch5 cc0_scratch6 c v2 v519 v530 v532 c4_i32_389) Kt := by
  rw [k0_part17_eq_skeleton]
  exact ag_step m K c 0 fs hfs (dev16_eq c) part_ret

theorem part18_spec (v5 v8 v566 : BitVec 32) (fs : Buf (Elt F) ((redHalf 0).view.loc c.tc)) (hfs : ∀ i ∈ (redHalf 0).view.set, fs i = redVal m c i) (Kt : _ → sProp 𝕄) :
  iprop(records m K ∗ SagSend c 0 fs 4 ∗ (∀ res, SagSend c 0 fs 4 -∗ Kt res))
  ⊢ wp frame (wpE defs₀ 𝒱₀ c.tc none) Set.univ
  (k0_part18 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v566) Kt := by
  rw [k0_part18_eq_skeleton]
  exact part_ret

theorem part19_spec (v2 v5 v8 : BitVec 32) (fs : Buf (Elt F) ((redHalf 0).view.loc c.tc)) (hfs : ∀ i ∈ (redHalf 0).view.set, fs i = redVal m c i) (Kt : _ → sProp 𝕄) :
  iprop(records m K ∗ SagSend c 0 fs 4 ∗ (∀ res, SagSend c 0 fs 5 -∗ Kt res))
  ⊢ wp frame (wpE defs₀ 𝒱₀ c.tc none) Set.univ
  (k0_part19 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part19_eq_skeleton]
  exact ag_step m K c 0 fs hfs (dev17_eq c) part_ret

theorem part20_spec (v2 v5 v613 v624 v629 : BitVec 32) (v634 : BitVec 1) (v635 : BitVec 32) (fs : Buf (Elt F) ((redHalf 0).view.loc c.tc)) (hfs : ∀ i ∈ (redHalf 0).view.set, fs i = redVal m c i) (Kt : _ → sProp 𝕄) :
  iprop(records m K ∗ SagSend c 0 fs 5 ∗ (∀ res, SagSend c 0 fs 6 -∗ Kt res))
  ⊢ wp frame (wpE defs₀ 𝒱₀ c.tc none) Set.univ
  (k0_part20 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v613 v624 v629 v634 v635) Kt := by
  rw [k0_part20_eq_skeleton]
  exact ag_step m K c 0 fs hfs (dev18_eq c) part_ret

theorem part21_spec (v2 v8 v660 v663 v664 : BitVec 32) (v665 v666 v667 : BitVec 1) (fs : Buf (Elt F) ((redHalf 0).view.loc c.tc)) (hfs : ∀ i ∈ (redHalf 0).view.set, fs i = redVal m c i) (Kt : _ → sProp 𝕄) :
  iprop(records m K ∗ SagSend c 0 fs 6 ∗ (∀ res, SagSend c 0 fs 7 -∗ Kt res))
  ⊢ wp frame (wpE defs₀ 𝒱₀ c.tc none) Set.univ
  (k0_part21 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v660 v663 v664 v665 v666 v667) Kt := by
  rw [k0_part21_eq_skeleton]
  exact ag_step m K c 0 fs hfs (dev19_eq c) part_ret

theorem part22_spec (v5 v8 v699 v700 c0_i32_515 : BitVec 32) (fs : Buf (Elt F) ((redHalf 0).view.loc c.tc)) (hfs : ∀ i ∈ (redHalf 0).view.set, fs i = redVal m c i) (Kt : _ → sProp 𝕄) :
  iprop(records m K ∗ SagSend c 0 fs 7 ∗ (∀ res, SagSend c 0 fs 7 -∗ Kt res))
  ⊢ wp frame (wpE defs₀ 𝒱₀ c.tc none) Set.univ
  (k0_part22 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v699 v700 c0_i32_515) Kt := by
  rw [k0_part22_eq_skeleton]
  exact part_ret

theorem part23_spec (v2 v5 v8 v730 v734 c1_i32_540 : BitVec 32) (fs : Buf (Elt F) ((redHalf 0).view.loc c.tc)) (hfs : ∀ i ∈ (redHalf 0).view.set, fs i = redVal m c i) (Kt : _ → sProp 𝕄) :
  iprop(records m K ∗ SagSend c 0 fs 7 ∗ (∀ res, SagSend c 0 fs 8 -∗ Kt res))
  ⊢ wp frame (wpE defs₀ 𝒱₀ c.tc none) Set.univ
  (k0_part23 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v730 v734 c1_i32_540) Kt := by
  rw [k0_part23_eq_skeleton]
  exact ag_step m K c 0 fs hfs (dev20_eq c) part_ret

theorem part24_spec (v2 v5 v754 v765 v769 v770 : BitVec 32) (fs : Buf (Elt F) ((redHalf 0).view.loc c.tc)) (hfs : ∀ i ∈ (redHalf 0).view.set, fs i = redVal m c i) (Kt : _ → sProp 𝕄) :
  iprop(records m K ∗ SagSend c 0 fs 8 ∗ (∀ res, SagSend c 0 fs 9 -∗ Kt res))
  ⊢ wp frame (wpE defs₀ 𝒱₀ c.tc none) Set.univ
  (k0_part24 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v754 v765 v769 v770) Kt := by
  rw [k0_part24_eq_skeleton]
  exact ag_step m K c 0 fs hfs (dev21_eq c) part_ret

theorem part25_spec (v8 v801 v802 c2_i32_588 : BitVec 32) (v803 : BitVec 1) (fs : Buf (Elt F) ((redHalf 0).view.loc c.tc)) (hfs : ∀ i ∈ (redHalf 0).view.set, fs i = redVal m c i) (Kt : _ → sProp 𝕄) :
  iprop(records m K ∗ SagSend c 0 fs 9 ∗ (∀ res, SagSend c 0 fs 10 -∗ Kt res))
  ⊢ wp frame (wpE defs₀ 𝒱₀ c.tc none) Set.univ
  (k0_part25 xM (Memref.isWhole_whole _) oM (Memref.isWhole_whole _) rsM (Memref.isWhole_whole _) redM (Memref.isWhole_whole _) agM (Memref.isWhole_whole _) cc0_scratch3 cc0_scratch4 cc0_scratch5 cc0_scratch6 c v8 v801 v802 c2_i32_588 v803) Kt := by
  rw [k0_part25_eq_skeleton]
  exact ag_step m K c 0 fs hfs (dev22_eq c) part_ret

theorem part26_spec (v2 v5 v8 : BitVec 32) (fs : Buf (Elt F) ((redHalf 0).view.loc c.tc)) (hfs : ∀ i ∈ (redHalf 0).view.set, fs i = redVal m c i) (Kt : _ → sProp 𝕄) :
  iprop(records m K ∗ SagSend c 0 fs 10 ∗ (∀ res, SagSend c 0 fs 10 -∗ Kt res))
  ⊢ wp frame (wpE defs₀ 𝒱₀ c.tc none) Set.univ
  (k0_part26 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8) Kt := by
  rw [k0_part26_eq_skeleton]
  exact part_ret

theorem part27_spec (v2 v5 v848 v859 v871 : BitVec 32) (fs : Buf (Elt F) ((redHalf 0).view.loc c.tc)) (hfs : ∀ i ∈ (redHalf 0).view.set, fs i = redVal m c i) (Kt : _ → sProp 𝕄) :
  iprop(records m K ∗ SagSend c 0 fs 10 ∗ (∀ res, SagSend c 0 fs 11 -∗ Kt res))
  ⊢ wp frame (wpE defs₀ 𝒱₀ c.tc none) Set.univ
  (k0_part27 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v848 v859 v871) Kt := by
  rw [k0_part27_eq_skeleton]
  exact ag_step m K c 0 fs hfs (dev23_eq c) part_ret

theorem part28_spec (v2 v8 v895 v906 c4_i32_662 : BitVec 32) (fs : Buf (Elt F) ((redHalf 0).view.loc c.tc)) (hfs : ∀ i ∈ (redHalf 0).view.set, fs i = redVal m c i) (Kt : _ → sProp 𝕄) :
  iprop(records m K ∗ SagSend c 0 fs 11 ∗ (∀ res, SagSend c 0 fs 12 -∗ Kt res))
  ⊢ wp frame (wpE defs₀ 𝒱₀ c.tc none) Set.univ
  (k0_part28 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v895 v906 c4_i32_662) Kt := by
  rw [k0_part28_eq_skeleton]
  exact ag_step m K c 0 fs hfs (dev24_eq c) part_ret

theorem part29_spec (v5 v8 v934 v935 : BitVec 32) (v936 v937 v938 : BitVec 1) (fs : Buf (Elt F) ((redHalf 0).view.loc c.tc)) (hfs : ∀ i ∈ (redHalf 0).view.set, fs i = redVal m c i) (Kt : _ → sProp 𝕄) :
  iprop(records m K ∗ SagSend c 0 fs 12 ∗ (∀ res, SagSend c 0 fs 12 -∗ Kt res))
  ⊢ wp frame (wpE defs₀ 𝒱₀ c.tc none) Set.univ
  (k0_part29 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v934 v935 v936 v937 v938) Kt := by
  rw [k0_part29_eq_skeleton]
  exact part_ret

theorem part30_spec (v2 v5 v8 : BitVec 32) (fs : Buf (Elt F) ((redHalf 0).view.loc c.tc)) (hfs : ∀ i ∈ (redHalf 0).view.set, fs i = redVal m c i) (Kt : _ → sProp 𝕄) :
  iprop(records m K ∗ SagSend c 0 fs 12 ∗ (∀ res, SagSend c 0 fs 13 -∗ Kt res))
  ⊢ wp frame (wpE defs₀ 𝒱₀ c.tc none) Set.univ
  (k0_part30 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part30_eq_skeleton]
  exact ag_step m K c 0 fs hfs (dev25_eq c) part_ret

theorem part31_spec (v2 v5 v989 v1000 v1004 v1005 : BitVec 32) (v1006 v1007 : BitVec 1) (c0_i32_737 : BitVec 32) (fs : Buf (Elt F) ((redHalf 0).view.loc c.tc)) (hfs : ∀ i ∈ (redHalf 0).view.set, fs i = redVal m c i) (Kt : _ → sProp 𝕄) :
  iprop(records m K ∗ SagSend c 0 fs 13 ∗ (∀ res, SagSend c 0 fs 14 -∗ Kt res))
  ⊢ wp frame (wpE defs₀ 𝒱₀ c.tc none) Set.univ
  (k0_part31 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v989 v1000 v1004 v1005 v1006 v1007 c0_i32_737) Kt := by
  rw [k0_part31_eq_skeleton]
  exact ag_step m K c 0 fs hfs (dev26_eq c) part_ret

theorem part32_spec (v8 v1036 v1039 v1040 : BitVec 32) (v1041 : BitVec 1) (fs : Buf (Elt F) ((redHalf 0).view.loc c.tc)) (hfs : ∀ i ∈ (redHalf 0).view.set, fs i = redVal m c i) (Kt : _ → sProp 𝕄) :
  iprop(records m K ∗ SagSend c 0 fs 14 ∗ (∀ res, SagSend c 0 fs 15 -∗ Kt res))
  ⊢ wp frame (wpE defs₀ 𝒱₀ c.tc none) Set.univ
  (k0_part32 xM (Memref.isWhole_whole _) oM (Memref.isWhole_whole _) rsM (Memref.isWhole_whole _) redM (Memref.isWhole_whole _) agM (Memref.isWhole_whole _) cc0_scratch3 cc0_scratch4 cc0_scratch5 cc0_scratch6 c v8 v1036 v1039 v1040 v1041) Kt := by
  rw [k0_part32_eq_skeleton]
  exact ag_step m K c 0 fs hfs (dev27_eq c) part_ret

theorem part35_spec (v5 v8 v1134 v1135 c0_i32_839 : BitVec 32) (fs : Buf (Elt F) ((redHalf 1).view.loc c.tc)) (hfs : ∀ i ∈ (redHalf 1).view.set, fs i = redVal m c i) (Kt : _ → sProp 𝕄) :
  iprop(records m K ∗ SagSend c 1 fs 0 ∗ (∀ res, SagSend c 1 fs 0 -∗ Kt res))
  ⊢ wp frame (wpE defs₀ 𝒱₀ c.tc none) Set.univ
  (k0_part35 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1134 v1135 c0_i32_839) Kt := by
  rw [k0_part35_eq_skeleton]
  exact part_ret

theorem part36_spec (v2 v5 v8 v1165 v1169 c1_i32_865 : BitVec 32) (fs : Buf (Elt F) ((redHalf 1).view.loc c.tc)) (hfs : ∀ i ∈ (redHalf 1).view.set, fs i = redVal m c i) (Kt : _ → sProp 𝕄) :
  iprop(records m K ∗ SagSend c 1 fs 0 ∗ (∀ res, SagSend c 1 fs 1 -∗ Kt res))
  ⊢ wp frame (wpE defs₀ 𝒱₀ c.tc none) Set.univ
  (k0_part36 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v1165 v1169 c1_i32_865) Kt := by
  rw [k0_part36_eq_skeleton]
  exact ag_step m K c 1 fs hfs (dev28_eq c) part_ret

theorem part37_spec (v2 v5 v1189 v1200 v1204 v1205 : BitVec 32) (fs : Buf (Elt F) ((redHalf 1).view.loc c.tc)) (hfs : ∀ i ∈ (redHalf 1).view.set, fs i = redVal m c i) (Kt : _ → sProp 𝕄) :
  iprop(records m K ∗ SagSend c 1 fs 1 ∗ (∀ res, SagSend c 1 fs 2 -∗ Kt res))
  ⊢ wp frame (wpE defs₀ 𝒱₀ c.tc none) Set.univ
  (k0_part37 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1189 v1200 v1204 v1205) Kt := by
  rw [k0_part37_eq_skeleton]
  exact ag_step m K c 1 fs hfs (dev29_eq c) part_ret

theorem part38_spec (v8 v1236 v1237 c2_i32_913 : BitVec 32) (v1238 : BitVec 1) (fs : Buf (Elt F) ((redHalf 1).view.loc c.tc)) (hfs : ∀ i ∈ (redHalf 1).view.set, fs i = redVal m c i) (Kt : _ → sProp 𝕄) :
  iprop(records m K ∗ SagSend c 1 fs 2 ∗ (∀ res, SagSend c 1 fs 3 -∗ Kt res))
  ⊢ wp frame (wpE defs₀ 𝒱₀ c.tc none) Set.univ
  (k0_part38 xM (Memref.isWhole_whole _) oM (Memref.isWhole_whole _) rsM (Memref.isWhole_whole _) redM (Memref.isWhole_whole _) agM (Memref.isWhole_whole _) cc0_scratch3 cc0_scratch4 cc0_scratch5 cc0_scratch6 c v8 v1236 v1237 c2_i32_913 v1238) Kt := by
  rw [k0_part38_eq_skeleton]
  exact ag_step m K c 1 fs hfs (dev30_eq c) part_ret

theorem part39_spec (v2 v5 v8 : BitVec 32) (fs : Buf (Elt F) ((redHalf 1).view.loc c.tc)) (hfs : ∀ i ∈ (redHalf 1).view.set, fs i = redVal m c i) (Kt : _ → sProp 𝕄) :
  iprop(records m K ∗ SagSend c 1 fs 3 ∗ (∀ res, SagSend c 1 fs 3 -∗ Kt res))
  ⊢ wp frame (wpE defs₀ 𝒱₀ c.tc none) Set.univ
  (k0_part39 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8) Kt := by
  rw [k0_part39_eq_skeleton]
  exact part_ret

theorem part40_spec (v2 v5 v1283 v1294 v1306 : BitVec 32) (fs : Buf (Elt F) ((redHalf 1).view.loc c.tc)) (hfs : ∀ i ∈ (redHalf 1).view.set, fs i = redVal m c i) (Kt : _ → sProp 𝕄) :
  iprop(records m K ∗ SagSend c 1 fs 3 ∗ (∀ res, SagSend c 1 fs 4 -∗ Kt res))
  ⊢ wp frame (wpE defs₀ 𝒱₀ c.tc none) Set.univ
  (k0_part40 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1283 v1294 v1306) Kt := by
  rw [k0_part40_eq_skeleton]
  exact ag_step m K c 1 fs hfs (dev31_eq c) part_ret

theorem part41_spec (v2 v8 v1330 v1341 c4_i32_989 : BitVec 32) (fs : Buf (Elt F) ((redHalf 1).view.loc c.tc)) (hfs : ∀ i ∈ (redHalf 1).view.set, fs i = redVal m c i) (Kt : _ → sProp 𝕄) :
  iprop(records m K ∗ SagSend c 1 fs 4 ∗ (∀ res, SagSend c 1 fs 5 -∗ Kt res))
  ⊢ wp frame (wpE defs₀ 𝒱₀ c.tc none) Set.univ
  (k0_part41 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v1330 v1341 c4_i32_989) Kt := by
  rw [k0_part41_eq_skeleton]
  exact ag_step m K c 1 fs hfs (dev32_eq c) part_ret

theorem part42_spec (v5 v8 v1369 v1370 : BitVec 32) (v1371 v1372 v1373 : BitVec 1) (fs : Buf (Elt F) ((redHalf 1).view.loc c.tc)) (hfs : ∀ i ∈ (redHalf 1).view.set, fs i = redVal m c i) (Kt : _ → sProp 𝕄) :
  iprop(records m K ∗ SagSend c 1 fs 5 ∗ (∀ res, SagSend c 1 fs 5 -∗ Kt res))
  ⊢ wp frame (wpE defs₀ 𝒱₀ c.tc none) Set.univ
  (k0_part42 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1369 v1370 v1371 v1372 v1373) Kt := by
  rw [k0_part42_eq_skeleton]
  exact part_ret

theorem part43_spec (v2 v5 v8 : BitVec 32) (fs : Buf (Elt F) ((redHalf 1).view.loc c.tc)) (hfs : ∀ i ∈ (redHalf 1).view.set, fs i = redVal m c i) (Kt : _ → sProp 𝕄) :
  iprop(records m K ∗ SagSend c 1 fs 5 ∗ (∀ res, SagSend c 1 fs 6 -∗ Kt res))
  ⊢ wp frame (wpE defs₀ 𝒱₀ c.tc none) Set.univ
  (k0_part43 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part43_eq_skeleton]
  exact ag_step m K c 1 fs hfs (dev33_eq c) part_ret

theorem part44_spec (v2 v5 v1424 v1435 v1439 v1440 : BitVec 32) (v1441 v1442 : BitVec 1) (c0_i32_1066 : BitVec 32) (fs : Buf (Elt F) ((redHalf 1).view.loc c.tc)) (hfs : ∀ i ∈ (redHalf 1).view.set, fs i = redVal m c i) (Kt : _ → sProp 𝕄) :
  iprop(records m K ∗ SagSend c 1 fs 6 ∗ (∀ res, SagSend c 1 fs 7 -∗ Kt res))
  ⊢ wp frame (wpE defs₀ 𝒱₀ c.tc none) Set.univ
  (k0_part44 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1424 v1435 v1439 v1440 v1441 v1442 c0_i32_1066) Kt := by
  rw [k0_part44_eq_skeleton]
  exact ag_step m K c 1 fs hfs (dev34_eq c) part_ret

theorem part45_spec (v2 v8 v1471 v1474 v1475 : BitVec 32) (v1476 : BitVec 1) (fs : Buf (Elt F) ((redHalf 1).view.loc c.tc)) (hfs : ∀ i ∈ (redHalf 1).view.set, fs i = redVal m c i) (Kt : _ → sProp 𝕄) :
  iprop(records m K ∗ SagSend c 1 fs 7 ∗ (∀ res, SagSend c 1 fs 8 -∗ Kt res))
  ⊢ wp frame (wpE defs₀ 𝒱₀ c.tc none) Set.univ
  (k0_part45 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v1471 v1474 v1475 v1476) Kt := by
  rw [k0_part45_eq_skeleton]
  exact ag_step m K c 1 fs hfs (dev35_eq c) part_ret

theorem part46_spec (v5 v8 v1508 c2_i32_1116 : BitVec 32) (v1509 : BitVec 1) (fs : Buf (Elt F) ((redHalf 1).view.loc c.tc)) (hfs : ∀ i ∈ (redHalf 1).view.set, fs i = redVal m c i) (Kt : _ → sProp 𝕄) :
  iprop(records m K ∗ SagSend c 1 fs 8 ∗ (∀ res, SagSend c 1 fs 8 -∗ Kt res))
  ⊢ wp frame (wpE defs₀ 𝒱₀ c.tc none) Set.univ
  (k0_part46 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1508 c2_i32_1116 v1509) Kt := by
  rw [k0_part46_eq_skeleton]
  exact part_ret

theorem part47_spec (v2 v5 v8 v1529 v1541 v1543 : BitVec 32) (fs : Buf (Elt F) ((redHalf 1).view.loc c.tc)) (hfs : ∀ i ∈ (redHalf 1).view.set, fs i = redVal m c i) (Kt : _ → sProp 𝕄) :
  iprop(records m K ∗ SagSend c 1 fs 8 ∗ (∀ res, SagSend c 1 fs 9 -∗ Kt res))
  ⊢ wp frame (wpE defs₀ 𝒱₀ c.tc none) Set.univ
  (k0_part47 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v1529 v1541 v1543) Kt := by
  rw [k0_part47_eq_skeleton]
  exact ag_step m K c 1 fs hfs (dev36_eq c) part_ret

theorem part48_spec (v2 v1565 v1576 v1578 c4_i32_1166 c0_i32_1167 : BitVec 32) (fs : Buf (Elt F) ((redHalf 1).view.loc c.tc)) (hfs : ∀ i ∈ (redHalf 1).view.set, fs i = redVal m c i) (Kt : _ → sProp 𝕄) :
  iprop(records m K ∗ SagSend c 1 fs 9 ∗ (∀ res, SagSend c 1 fs 10 -∗ Kt res))
  ⊢ wp frame (wpE defs₀ 𝒱₀ c.tc none) Set.univ
  (k0_part48 xM (Memref.isWhole_whole _) oM (Memref.isWhole_whole _) rsM (Memref.isWhole_whole _) redM (Memref.isWhole_whole _) agM (Memref.isWhole_whole _) cc0_scratch3 cc0_scratch4 cc0_scratch5 cc0_scratch6 c v2 v1565 v1576 v1578 c4_i32_1166 c0_i32_1167) Kt := by
  rw [k0_part48_eq_skeleton]
  exact ag_step m K c 1 fs hfs (dev37_eq c) part_ret

theorem part49_spec (v5 v8 v1612 c0_i32_1192 : BitVec 32) (fs : Buf (Elt F) ((redHalf 1).view.loc c.tc)) (hfs : ∀ i ∈ (redHalf 1).view.set, fs i = redVal m c i) (Kt : _ → sProp 𝕄) :
  iprop(records m K ∗ SagSend c 1 fs 10 ∗ (∀ res, SagSend c 1 fs 10 -∗ Kt res))
  ⊢ wp frame (wpE defs₀ 𝒱₀ c.tc none) Set.univ
  (k0_part49 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1612 c0_i32_1192) Kt := by
  rw [k0_part49_eq_skeleton]
  exact part_ret

theorem part50_spec (v2 v5 v8 : BitVec 32) (fs : Buf (Elt F) ((redHalf 1).view.loc c.tc)) (hfs : ∀ i ∈ (redHalf 1).view.set, fs i = redVal m c i) (Kt : _ → sProp 𝕄) :
  iprop(records m K ∗ SagSend c 1 fs 10 ∗ (∀ res, SagSend c 1 fs 11 -∗ Kt res))
  ⊢ wp frame (wpE defs₀ 𝒱₀ c.tc none) Set.univ
  (k0_part50 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8) Kt := by
  rw [k0_part50_eq_skeleton]
  exact ag_step m K c 1 fs hfs (dev38_eq c) part_ret

theorem part51_spec (v2 v5 v1659 v1670 v1682 : BitVec 32) (fs : Buf (Elt F) ((redHalf 1).view.loc c.tc)) (hfs : ∀ i ∈ (redHalf 1).view.set, fs i = redVal m c i) (Kt : _ → sProp 𝕄) :
  iprop(records m K ∗ SagSend c 1 fs 11 ∗ (∀ res, SagSend c 1 fs 12 -∗ Kt res))
  ⊢ wp frame (wpE defs₀ 𝒱₀ c.tc none) Set.univ
  (k0_part51 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v1659 v1670 v1682) Kt := by
  rw [k0_part51_eq_skeleton]
  exact ag_step m K c 1 fs hfs (dev39_eq c) part_ret

theorem part52_spec (v2 v8 v1706 v1709 v1710 : BitVec 32) (v1711 v1714 : BitVec 1) (fs : Buf (Elt F) ((redHalf 1).view.loc c.tc)) (hfs : ∀ i ∈ (redHalf 1).view.set, fs i = redVal m c i) (Kt : _ → sProp 𝕄) :
  iprop(records m K ∗ SagSend c 1 fs 12 ∗ (∀ res, SagSend c 1 fs 13 -∗ Kt res))
  ⊢ wp frame (wpE defs₀ 𝒱₀ c.tc none) Set.univ
  (k0_part52 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v1706 v1709 v1710 v1711 v1714) Kt := by
  rw [k0_part52_eq_skeleton]
  exact ag_step m K c 1 fs hfs (dev40_eq c) part_ret

theorem part53_spec (v5 v8 v1745 v1746 : BitVec 32) (v1747 : BitVec 1) (fs : Buf (Elt F) ((redHalf 1).view.loc c.tc)) (hfs : ∀ i ∈ (redHalf 1).view.set, fs i = redVal m c i) (Kt : _ → sProp 𝕄) :
  iprop(records m K ∗ SagSend c 1 fs 13 ∗ (∀ res, SagSend c 1 fs 13 -∗ Kt res))
  ⊢ wp frame (wpE defs₀ 𝒱₀ c.tc none) Set.univ
  (k0_part53 xM (Memref.isWhole_whole _) oM (Memref.isWhole_whole _) rsM (Memref.isWhole_whole _) redM (Memref.isWhole_whole _) agM (Memref.isWhole_whole _) cc0_scratch3 cc0_scratch4 cc0_scratch5 cc0_scratch6 v5 v8 v1745 v1746 v1747) Kt := by
  rw [k0_part53_eq_skeleton]
  exact part_ret

theorem part54_spec (v2 v5 v8 v1780 v1781 : BitVec 32) (fs : Buf (Elt F) ((redHalf 1).view.loc c.tc)) (hfs : ∀ i ∈ (redHalf 1).view.set, fs i = redVal m c i) (Kt : _ → sProp 𝕄) :
  iprop(records m K ∗ SagSend c 1 fs 13 ∗ (∀ res, SagSend c 1 fs 14 -∗ Kt res))
  ⊢ wp frame (wpE defs₀ 𝒱₀ c.tc none) Set.univ
  (k0_part54 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v1780 v1781) Kt := by
  rw [k0_part54_eq_skeleton]
  exact ag_step m K c 1 fs hfs (dev41_eq c) part_ret

theorem part55_spec (v378 v389 v401 v1800 v1811 v1815 v1816 c0_i32_1344 : BitVec 32) (fs : Buf (Elt F) ((redHalf 1).view.loc c.tc)) (hfs : ∀ i ∈ (redHalf 1).view.set, fs i = redVal m c i) (Kt : _ → sProp 𝕄) :
  iprop(records m K ∗ SagSend c 1 fs 14 ∗ (∀ res, SagSend c 1 fs 15 -∗ Kt res))
  ⊢ wp frame (wpE defs₀ 𝒱₀ c.tc none) Set.univ
  (k0_part55 xM (Memref.isWhole_whole _) oM (Memref.isWhole_whole _) rsM (Memref.isWhole_whole _) redM (Memref.isWhole_whole _) agM (Memref.isWhole_whole _) cc0_scratch3 cc0_scratch4 cc0_scratch5 cc0_scratch6 c v378 v389 v401 v1800 v1811 v1815 v1816 c0_i32_1344) Kt := by
  rw [k0_part55_eq_skeleton]
  exact ag_step m K c 1 fs hfs (dev42_eq c) part_ret

abbrev rsRest (k : ℕ) : sProp 𝕄 :=
  iprop((bigSep (Finset.univ.filter fun n : Fin 6 => k ≤ n.val) (rsB m c)) ∗ (bigSep (Finset.univ.filter fun n : Fin 6 => n.val < k) (rsC c)))
theorem SrsSend_open (k : ℕ) : SrsSend m c k ⊢ iprop((∃ W, owes c.tc (Orem c (36 - k)) W) ∗ rsRest m c k) := by
  unfold SrsSend; exact BI.Entails.refl _

theorem part10_spec (v2 v5 v157 v184 v299 v300 : BitVec 32) (Kt : _ → sProp 𝕄) :
  iprop(records m K ∗ levAts L lv ∗ SrsSend m c 5
  ∗ atPos ER (rsRecvCell c 0 0) 0 ∅ 0 ∗ cred (tallyAt (rsRecvCell c 0 0) (0 : Fin 2) Nrs)
  ∗ atPos ER (rsRecvCell c 1 0) 0 ∅ 0 ∗ cred (tallyAt (rsRecvCell c 1 0) (0 : Fin 2) Nrs)
  ∗ (∀ res, (SrsSend m c 6 ∗ rsRecvPay m c 0 0 ∗ atPos ER (rsRecvCell c 0 0) 1 ∅ 0
  ∗ rsRecvPay m c 1 0 ∗ atPos ER (rsRecvCell c 1 0) 1 ∅ 0) -∗ Kt res))
  ⊢ wp frame (wpE defs₀ 𝒱₀ c.tc none) Set.univ
  (k0_part10 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v157 v184 v299 v300) Kt := by
  rw [k0_part10_eq_skeleton]; unfold k0_part10_skel
  simp only [Prog.lift, Prog.bind_op, Prog.bind_ret, Prog.pure_eq_ret]
  refine (sep_mono_right sep_left_comm.1).trans (rs_step m K c 5 (dev12_eq c) ?_)
  change iprop(_ ∗ SrsSend m c 6 ∗ _) ⊢ _
  unfold SrsSend
  iintro ⟨#Hrec, ⟨⟨%W, HO⟩, Hrest⟩, #Hlev, Hat0, Hc0, Hat1, Hc1, Hk⟩
  icases (records_rs m K c 0 0) $$ Hrec with ⟨-, -, #Hi0, -⟩
  icases (records_rs m K c 1 0) $$ Hrec with ⟨-, -, #Hi1, -⟩
  iapply (wp_rs_recv_waitDma2 m K c 0 0 (rsSlot_credit 0 0) (O := Orem c 30) (W := W)) $$ [Hc0 HO Hat0]
  · iframe Hi0 Hc0 HO Hat0
    iapply (mayWait_rsRecv c 0 0 30 (by decide)); iexact Hlev
  iintro ⟨HO, Hat0, Hp0⟩
  iapply (wp_rs_recv_waitDma2 m K c 1 0 (rsSlot_credit 1 0) (O := Orem c 30) (W := insert (SemLoc.dma (rsRecvS 0 0), (0 : Fin 2)) W)) $$ [Hc1 HO Hat1]
  · iframe Hi1 Hc1 HO Hat1
    iapply (mayWait_rsRecv c 1 0 30 (by decide)); iexact Hlev
  iintro ⟨HO, Hat1, Hp1⟩
  rw [wp_ret]; imodintro
  iapply Hk
  iframe Hp0 Hat0 Hp1 Hat1 Hrest
  iexists _; iexact HO

end Steps

end Cert.Kernel.Hand

end
-- ==== Proof.HandKernel.Reduce.lean ====
import proofs.«900721_g7700000000000722_dist_ar_v7x_xyz2x2x4_z_m512_n512_f32_1_alg».proof.Proof.HandKernel.BodyDefs
import proofs.«900721_g7700000000000722_dist_ar_v7x_xyz2x2x4_z_m512_n512_f32_1_alg».proof.Proof.HandKernel.Levels
import proofs.«900721_g7700000000000722_dist_ar_v7x_xyz2x2x4_z_m512_n512_f32_1_alg».proof.Proof.HandKernel.Regions
import proofs.«900721_g7700000000000722_dist_ar_v7x_xyz2x2x4_z_m512_n512_f32_1_alg».proof.Proof.HandKernel.Families
import proofs.«900721_g7700000000000722_dist_ar_v7x_xyz2x2x4_z_m512_n512_f32_1_alg».proof.Proof.Gen.Kernel.Skeleton
import proofs.«900721_g7700000000000722_dist_ar_v7x_xyz2x2x4_z_m512_n512_f32_1_alg».proof.Proof.HandKernel.Records

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Lib.BarrierCell

variable {F : FTy → Type} [FloatOps F]

local notation "𝕄" => MT nD τ sig (Fin 2) (Elt F) ℕ UU ℕ

variable (m : (ℓ : Loc nD τ sig) → Buf (Elt F) ℓ)

theorem rs_load_sub (j : Fin 3) (h : Fin 2) :
    rsM.view.setOn (Rect.unit (s := S3x128x128) ![j.val, 64 * h.val, 0] S1x64x128.size (rs_inb j h)).toLoadRect.set
      ⊆ (rsSlot j h).view.set := by
  rw [rsSlot_set]
  show Finset.map (View.whole cc0_scratch0).emb _ ⊆ _
  rw [View.emb_whole, Finset.map_refl]

theorem red_load_sub (h : Fin 2) :
    redM.view.setOn (Rect.unit (s := S128x128) ![64 * h.val, 0] S64x128.size (red_inb h)).toLoadRect.set
      ⊆ (redHalf h).view.set := by
  rw [redHalf_set]
  show Finset.map (View.whole cc0_scratch1).emb _ ⊆ _
  rw [View.emb_whole, Finset.map_refl]

theorem red_stored' (c : Dev nD) (h : Fin 2) (f : Buf (Elt F) ((redHalf h).view.loc (c : Thread nD τ)))
    (w : FVec F S64x128 .f32) (hw : w = redHalfVal m c h) :
    ∀ i ∈ (redHalf h).view.set, (redHalf h).view.write (Elt F) f w Finset.univ i = redVal m c i := by
  subst hw
  intro i hi
  obtain ⟨y, rfl⟩ := View.exists_emb_of_mem_set _ hi
  rw [View.write_emb_of_mem _ _ (Finset.mem_univ y), cast_eq, ← redVal_at_half m c h y]
  congr 1
  obtain ⟨r0, r1⟩ := redHalf_emb h y
  exact (eq_at2t r0 r1).symm
theorem red_read_back' (c : Dev nD) (h : Fin 2) (f : Buf (Elt F) ((redHalf h).view.loc (c : Thread nD τ)))
    (w : FVec F S64x128 .f32) (hw : w = redHalfVal m c h) :
    redM.view.readAt (Elt F) (Rect.unit (s := S128x128) ![64 * h.val, 0] S64x128.size (red_inb h)).toLoadRect
      ((redHalf h).view.write (Elt F) f w Finset.univ) = redHalfVal m c h := by
  subst hw
  funext x
  exact View.read_write_of_mem (v := (redHalf h).view) f (redHalfVal m c h) (Finset.mem_univ x)

theorem pay_eq (c : Dev nD) (h : Fin 2)
    (p : Vec F S64x128 .f32 → Vec F S1x64x128 .f32 → Vec F S1x64x128 .f32 → Vec F S1x64x128 .f32 → FVec F S64x128 .f32)
    (hp : redHalfVal m c h = p (xOwnVec m c h) (rsVec m c 0 h) (rsVec m c 1 h) (rsVec m c 2 h)) :
    p (xM.view.readAt (Elt F) (Rect.unit (s := S512x512) (k0_off2 c (BitVec.ofNat 32 (64 * h.val))) S64x128.size (k0_off2_inb c h)).toLoadRect (xblk m c))
      (rsM.view.readAt (Elt F) (Rect.unit (s := S3x128x128) ![(0 : Fin 3).val, 64 * h.val, 0] S1x64x128.size (rs_inb 0 h)).toLoadRect (rsVal m c))
      (rsM.view.readAt (Elt F) (Rect.unit (s := S3x128x128) ![(1 : Fin 3).val, 64 * h.val, 0] S1x64x128.size (rs_inb 1 h)).toLoadRect (rsVal m c))
      (rsM.view.readAt (Elt F) (Rect.unit (s := S3x128x128) ![(2 : Fin 3).val, 64 * h.val, 0] S1x64x128.size (rs_inb 2 h)).toLoadRect (rsVal m c))
      = redHalfVal m c h := by
  rw [read_xOwn, read_rs m c 0 h _ (fun _ _ => rfl), read_rs m c 1 h _ (fun _ _ => rfl), read_rs m c 2 h _ (fun _ _ => rfl), hp]

theorem mem_doneTiles_zero (c : Dev nD) {t : Fin 4 × Fin 4 × Fin 2} (ht : t ∈ doneTiles c 0) :
    t ∈ insert (tileOf c 1) ({tileOf c 0} : Finset (Fin 4 × Fin 4 × Fin 2)) := by
  simpa [doneTiles, or_comm] using ht

theorem OutDone_second_own (c : Dev nD) (f : (cc0_stg1_0 : Ref sig .tc).ty.Contents (Elt F)) (hD : OutDone m {tileOf c 0} f)
    (w : FVec F S64x128 .f32) (hw : w = redHalfVal m c 1) :
    OutDone m (doneTiles c 0)
      ((oM.access (Rect.unit (s := S512x512) (k0_off2 c (BitVec.ofNat 32 (64 * (1 : Fin 2).val))) S64x128.size (k0_off2_inb c 1))).write
        (Elt F) f w Finset.univ) := by
  subst hw
  intro t ht
  exact OutDone_store_own m c 1 {tileOf c 0} f hD t (mem_doneTiles_zero c ht)

section Parts
variable (K : GSem nD τ sig → ℕ)

theorem part11_spec (c : Dev nD) (W : Waits sig (Fin 2)) (v2 v5 v8 v10 v211 : BitVec 32)
    (Kt : (Σ' (v361 : Vec F S64x128 .f32) (v362 : BitVec 32), BitVec 32) → sProp 𝕄) :
    iprop(records m K ∗ levAts L lv ∗ owes (c : Thread nD τ) (Orem c 30) W
        ∗ cred (tallyAt (rsRecvCell c 2 0) (0 : Fin 2) Nrs) ∗ atPos ER (rsRecvCell c 2 0) 0 ∅ 0
        ∗ xRest m c ∗ rsRecvPay m c 0 0 ∗ rsRecvPay m c 1 0 ∗ redHalfAny c 0
        ∗ (∀ res, (owes (c : Thread nD τ) (Orem c 30) (insert (.dma (rsRecvS 2 0), 0) W) ∗ atPos ER (rsRecvCell c 2 0) 1 ∅ 0
              ∗ xRest m c ∗ rsRecvPay m c 0 0 ∗ rsRecvPay m c 1 0 ∗ rsRecvPay m c 2 0
              ∗ (∃ fs, ⌜(∀ i ∈ (redHalf 0).view.set, fs i = redVal m c i) ∧ res.1 = redHalfVal m c 0⌝
                  ∗ (((redHalf 0).view.loc (c : Thread nD τ)) ↦[(redHalf 0).view.set]{fullShare} fs))) -∗ Kt res))
      ⊢ wp frame (wpE (defs₀ (F := F)) 𝒱₀ (c : Thread nD τ) none) Set.univ
          (k0_part11 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 v211) Kt := by
  rw [k0_part11_eq_skeleton]; unfold k0_part11_skel
  simp only [Prog.lift, Prog.bind_op, Prog.bind_ret, Prog.pure_eq_ret]
  iintro ⟨#Hrec, #Hlev, HO, Hcr, Hat, Hx, H0, H1, Hred, Hk⟩
  ihave #⟨-, -, Hi, -⟩ := (records_rs m K c 2 0) $$ Hrec
  ihave #Hmw := (mayWait_rsRecv (F := F) c 2 0 30 (Nat.le_refl _)) $$ Hlev
  iapply (wp_rs_recv_waitDma2 m K c 2 0 (rsSlot_credit 2 0)) $$ [HO Hcr Hat]
  · iframe Hi Hcr HO Hmw Hat
  iintro ⟨HO, Hat, H2⟩
  unfold xRest
  iapply (wp_load 𝒱₀ (c : Thread nD τ) none Set.univ (m := xM) (xOwn_sub c 0)) $$ Hx
  iintro Hx
  unfold rsRecvPay
  iapply (wp_load 𝒱₀ (c : Thread nD τ) none Set.univ (m := rsM) (rs_load_sub 0 0)) $$ H0
  iintro H0
  iapply (wp_load 𝒱₀ (c : Thread nD τ) none Set.univ (m := rsM) (rs_load_sub 1 0)) $$ H1
  iintro H1
  iapply (wp_load 𝒱₀ (c : Thread nD τ) none Set.univ (m := rsM) (rs_load_sub 2 0)) $$ H2
  iintro H2
  unfold redHalfAny
  icases Hred with ⟨%f, Hred⟩
  iapply (wp_load 𝒱₀ (c : Thread nD τ) none Set.univ (m := redM) (red_load_sub 0)) $$ Hred
  iintro Hred
  iapply (wp_store 𝒱₀ (c : Thread nD τ) none Set.univ (m := redM)
    (r := Rect.unit (s := S128x128) ![64 * (0 : Fin 2).val, 0] S64x128.size (red_inb 0)) (S := (redHalf 0).view.set) (Finset.Subset.refl _)) $$ Hred
  iintro Hred
  iapply (wp_load 𝒱₀ (c : Thread nD τ) none Set.univ (m := redM) (red_load_sub 0)) $$ Hred
  iintro Hred
  iapply (le_wp_ret _ _)
  iapply Hk
  iframe HO Hat Hx H0 H1 H2
  iexists _; iframe Hred
  ipureintro
  have hp := pay_eq m c 0 k0_pay1 (by unfold redHalfVal; rw [if_pos rfl])
  exact ⟨red_stored' m c 0 f _ hp, red_read_back' m c 0 f _ hp⟩

theorem part33_spec (c : Dev nD) (W : Waits sig (Fin 2)) (v2 v5 v238 v265 v292 : BitVec 32) (Kt : PUnit → sProp 𝕄) :
    iprop(records m K ∗ levAts L lv ∗ owes (c : Thread nD τ) (Orem c 15) W
        ∗ cred (tallyAt (rsRecvCell c 0 1) (0 : Fin 2) Nrs) ∗ atPos ER (rsRecvCell c 0 1) 0 ∅ 0
        ∗ cred (tallyAt (rsRecvCell c 1 1) (0 : Fin 2) Nrs) ∗ atPos ER (rsRecvCell c 1 1) 0 ∅ 0
        ∗ (∀ res, (owes (c : Thread nD τ) (Orem c 15) (insert (.dma (rsRecvS 1 1), 0) (insert (.dma (rsRecvS 0 1), 0) W))
              ∗ atPos ER (rsRecvCell c 0 1) 1 ∅ 0 ∗ atPos ER (rsRecvCell c 1 1) 1 ∅ 0
              ∗ rsRecvPay m c 0 1 ∗ rsRecvPay m c 1 1) -∗ Kt res))
      ⊢ wp frame (wpE (defs₀ (F := F)) 𝒱₀ (c : Thread nD τ) none) Set.univ
          (k0_part33 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v238 v265 v292) Kt := by
  rw [k0_part33_eq_skeleton]; unfold k0_part33_skel
  simp only [Prog.lift, Prog.bind_op, Prog.bind_ret, Prog.pure_eq_ret]
  iintro ⟨#Hrec, #Hlev, HO, Hcr0, Hat0, Hcr1, Hat1, Hk⟩
  ihave #⟨-, -, Hi0, -⟩ := (records_rs m K c 0 1) $$ Hrec
  ihave #Hmw0 := (mayWait_rsRecv (F := F) c 0 1 15 (by decide)) $$ Hlev
  iapply (wp_rs_recv_waitDma2 m K c 0 1 (rsSlot_credit 0 1)) $$ [HO Hcr0 Hat0]
  · iframe Hi0 Hcr0 HO Hmw0 Hat0
  iintro ⟨HO, Hat0, H0⟩
  ihave #⟨-, -, Hi1, -⟩ := (records_rs m K c 1 1) $$ Hrec
  ihave #Hmw1 := (mayWait_rsRecv (F := F) c 1 1 15 (by decide)) $$ Hlev
  iapply (wp_rs_recv_waitDma2 m K c 1 1 (rsSlot_credit 1 1)) $$ [HO Hcr1 Hat1]
  · iframe Hi1 Hcr1 HO Hmw1 Hat1
  iintro ⟨HO, Hat1, H1⟩
  iapply (le_wp_ret _ _)
  iapply Hk
  iframe

theorem part34_spec (c : Dev nD) (W : Waits sig (Fin 2)) (v2 v8 v10 : BitVec 32)
    (Kt : (Σ' (v1134 : BitVec 32) (v1135 : BitVec 32), BitVec 32) → sProp 𝕄) :
    iprop(records m K ∗ levAts L lv ∗ owes (c : Thread nD τ) (Orem c 15) W
        ∗ cred (tallyAt (rsRecvCell c 2 1) (0 : Fin 2) Nrs) ∗ atPos ER (rsRecvCell c 2 1) 0 ∅ 0
        ∗ xRest m c ∗ rsRecvPay m c 0 1 ∗ rsRecvPay m c 1 1 ∗ redHalfAny c 1
        ∗ (∃ f, ⌜OutDone m {tileOf c 0} f⌝ ∗ (((c : Thread nD τ).loc cc0_stg1_0) ↦{fullShare} f))
        ∗ (∀ res, (owes (c : Thread nD τ) (Orem c 15) (insert (.dma (rsRecvS 2 1), 0) W) ∗ atPos ER (rsRecvCell c 2 1) 1 ∅ 0
              ∗ xRest m c ∗ rsRecvPay m c 0 1 ∗ rsRecvPay m c 1 1 ∗ rsRecvPay m c 2 1
              ∗ (∃ fs, ⌜∀ i ∈ (redHalf 1).view.set, fs i = redVal m c i⌝
                  ∗ (((redHalf 1).view.loc (c : Thread nD τ)) ↦[(redHalf 1).view.set]{fullShare} fs))
              ∗ (∃ f, ⌜OutDone m (doneTiles c 0) f⌝ ∗ (((c : Thread nD τ).loc cc0_stg1_0) ↦{fullShare} f))) -∗ Kt res))
      ⊢ wp frame (wpE (defs₀ (F := F)) 𝒱₀ (c : Thread nD τ) none) Set.univ
          (k0_part34 xM (Memref.isWhole_whole _) oM (Memref.isWhole_whole _) rsM (Memref.isWhole_whole _) redM (Memref.isWhole_whole _) agM (Memref.isWhole_whole _) cc0_scratch3 cc0_scratch4 cc0_scratch5 cc0_scratch6 c v2 v8 v10) Kt := by
  rw [k0_part34_eq_skeleton]; unfold k0_part34_skel
  simp only [Prog.lift, Prog.bind_op, Prog.bind_ret, Prog.pure_eq_ret]
  iintro ⟨#Hrec, #Hlev, HO, Hcr, Hat, Hx, H0, H1, Hred, ⟨%fo, %hfo, Hout⟩, Hk⟩
  ihave #⟨-, -, Hi, -⟩ := (records_rs m K c 2 1) $$ Hrec
  ihave #Hmw := (mayWait_rsRecv (F := F) c 2 1 15 (by decide)) $$ Hlev
  iapply (wp_rs_recv_waitDma2 m K c 2 1 (rsSlot_credit 2 1)) $$ [HO Hcr Hat]
  · iframe Hi Hcr HO Hmw Hat
  iintro ⟨HO, Hat, H2⟩
  unfold xRest
  iapply (wp_load 𝒱₀ (c : Thread nD τ) none Set.univ (m := xM) (xOwn_sub c 1)) $$ Hx
  iintro Hx
  unfold rsRecvPay
  iapply (wp_load 𝒱₀ (c : Thread nD τ) none Set.univ (m := rsM) (rs_load_sub 0 1)) $$ H0
  iintro H0
  iapply (wp_load 𝒱₀ (c : Thread nD τ) none Set.univ (m := rsM) (rs_load_sub 1 1)) $$ H1
  iintro H1
  iapply (wp_load 𝒱₀ (c : Thread nD τ) none Set.univ (m := rsM) (rs_load_sub 2 1)) $$ H2
  iintro H2
  unfold redHalfAny
  icases Hred with ⟨%f, Hred⟩
  iapply (wp_load 𝒱₀ (c : Thread nD τ) none Set.univ (m := redM) (red_load_sub 1)) $$ Hred
  iintro Hred
  iapply (wp_store 𝒱₀ (c : Thread nD τ) none Set.univ (m := redM)
    (r := Rect.unit (s := S128x128) ![64 * (1 : Fin 2).val, 0] S64x128.size (red_inb 1)) (S := (redHalf 1).view.set) (Finset.Subset.refl _)) $$ Hred
  iintro Hred
  iapply (wp_load 𝒱₀ (c : Thread nD τ) none Set.univ (m := redM) (red_load_sub 1)) $$ Hred
  iintro Hred
  iapply (wp_load 𝒱₀ (c : Thread nD τ) none Set.univ (m := oM) (Finset.subset_univ _)) $$ Hout
  iintro Hout
  iapply (wp_store 𝒱₀ (c : Thread nD τ) none Set.univ (m := oM)
    (r := Rect.unit (s := S512x512) (k0_off2 c (BitVec.ofNat 32 (64 * (1 : Fin 2).val))) S64x128.size (k0_off2_inb c 1)) (S := Finset.univ) (Finset.subset_univ _)) $$ Hout
  iintro Hout
  iapply (le_wp_ret _ _)
  iapply Hk
  have hp := pay_eq m c 1 k0_pay2 (by unfold redHalfVal; rw [if_neg (by decide)])
  iframe HO Hat Hx H0 H1 H2
  isplitl [Hred]
  · iexists _; iframe Hred
    ipureintro
    exact red_stored' m c 1 f _ hp
  iexists _; iframe Hout
  ipureintro
  exact OutDone_second_own m c fo hfo _ (red_read_back' m c 1 f _ hp)

end Parts

end Cert.Kernel.Hand

end
-- ==== Proof.HandKernel.AgStep.lean ====
import proofs.«900721_g7700000000000722_dist_ar_v7x_xyz2x2x4_z_m512_n512_f32_1_alg».proof.Proof.HandKernel.Regions
import proofs.«900721_g7700000000000722_dist_ar_v7x_xyz2x2x4_z_m512_n512_f32_1_alg».proof.Proof.HandKernel.Families
import proofs.«900721_g7700000000000722_dist_ar_v7x_xyz2x2x4_z_m512_n512_f32_1_alg».proof.Proof.HandKernel.Records

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase Idealize.SL.ProofMode Idealize.SL.Sem
open Idealize.ShloMosaic.Rounds
open Cert.Lib.Count Idealize.ShloMosaic.ValueIdx

variable {F : FTy → Type} [FloatOps F]

local notation "𝕄" => MT nD τ sig (Fin 2) (Elt F) ℕ UU ℕ

variable (m : (ℓ : Loc nD τ sig) → Buf (Elt F) ℓ)

section Steps
variable (K : GSem nD τ sig → ℕ)

theorem tl_insert {I : Type} [DecidableEq I] {s : Finset I} {i : I} (hi : i ∉ s) (Φ : I → sProp 𝕄) :
    bigSep (insert i s) Φ = iprop(Φ i ∗ bigSep s Φ) := bigSep_insert hi

theorem doneTiles_succ (c : Dev nD) (r : Fin 30) :
    doneTiles c (r.val + 1) = insert (tileOf (agS c (slotOf r)) (halfOf r)) (doneTiles c r.val) := by
  unfold doneTiles
  rw [filter_lt_succ r, Finset.image_insert, Finset.union_insert]

def agVec (c : Dev nD) (s : Fin 15) (h : Fin 2) : Vec F S1x64x128 .f32 :=
  fun i => agVal m c (fun k => match k with
    | ⟨0, _⟩ => ⟨s.val, s.isLt⟩
    | ⟨1, _⟩ => ⟨(64 * h.val + (i 1).val) % 128, Nat.mod_lt _ (by decide)⟩
    | ⟨2, _⟩ => ⟨(i 2).val, (i 2).isLt⟩)

theorem pay_agVec (c : Dev nD) (s : Fin 15) (h : Fin 2) :
    shapeCast S64x128 (agVec m c s h) shapeCasts_S1x64x128_S64x128
      = fun i => redVal m (agS c s) (at2t (64 * h.val + (i 0).val) (i 1).val) := by
  funext i
  obtain ⟨p, q, rfl⟩ : ∃ (p : Fin 64) (q : Fin 128), i = ix2 p q := ⟨i 0, i 1, eq_ix2 i⟩
  rw [shapeCast_1ab_ab_apply]
  show redVal m (agS c s) (at2t ((64 * h.val + p.val) % 128) q.val) = redVal m (agS c s) (at2t (64 * h.val + p.val) q.val)
  congr 1
  funext k
  match k with
  | ⟨0, _⟩ => exact Fin.ext (Nat.mod_mod _ _)
  | ⟨1, _⟩ => rfl

theorem ag_wait (c : Dev nD) (r : Fin 30) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {α : Type} {Q : α → sProp 𝕄} {k : PUnit → Prog (TpuEff nD τ sig (Elt F) Λ₀ .tc) α} :
    iprop(records m K ∗ Smid m c r.val r.val
        ∗ (Smid m c (r.val + 1) r.val -∗ wp frame (wpE (defs₀ (F := F)) 𝒱₀ (c : Thread nD τ) none) Set.univ (k ⟨⟩) Q))
      ⊢ wp frame (wpE (defs₀ (F := F)) 𝒱₀ (c : Thread nD τ) none) Set.univ
          (.op (.waitDma2 (agRecvS (slotOf r) (halfOf r)) src dst hsrc hdst) k) Q := by
  unfold Smid
  iintro ⟨#Hrec, ⟨⟨%W, HO⟩, Hx, Hrs, Hags, Hpend, Hdone, Hout⟩, Hk⟩
  ihave ⟨⟨Hat, Hcr⟩, Hpend⟩ := (pick_ge r _) $$ Hpend
  ihave #⟨-, -, HI, -⟩ := (records_ag m K c (slotOf r) (halfOf r)) $$ Hrec
  iapply (wp_ag_recv_waitDma2 m K c (slotOf r) (halfOf r) hcr (O := 0) (W := W)) $$ [HO Hat Hcr]
  · iframe HI Hcr HO Hat; rw [MayWait_zero]; iempintro
  iintro ⟨HO, Hat, Hpay⟩
  iapply Hk
  isplitl [HO]; · iexists _; iexact HO
  iframe Hx Hrs Hags Hpend Hout
  iapply (unpick_lt r _); iframe

abbrev agRect (r : Fin 30) : Rect S15x128x128 :=
  Rect.unit (s := S15x128x128) ![(slotOf r).val, 64 * (halfOf r).val, 0] S1x64x128.size (ag_inb (slotOf r) (halfOf r))
abbrev outRect (c : Dev nD) (r : Fin 30) : Rect S512x512 :=
  Rect.unit (s := S512x512) (k0_off3 c (k0_off3_at r).1 (k0_off3_at r).2.1 (k0_off3_at r).2.2.1 (k0_off3_at r).2.2.2) S64x128.size (k0_off3_inb c r)

theorem agRect_sub (c : Dev nD) (r : Fin 30) :
    agM.view.setOn (agRect r).toLoadRect.set ⊆ (agSlot (slotOf r) (halfOf r)).view.set := by
  rw [agSlot_set]
  show Finset.map (Function.Embedding.refl _) _ ⊆ _
  rw [Finset.map_refl]

theorem ag_ls (c : Dev nD) (r : Fin 30)
    {hl : agM.view.LoadsAt (agRect r).toLoadRect} {hl' : oM.view.LoadsAt (outRect c r).toLoadRect}
    {pay : Vec F S1x64x128 .f32 → FVec F S64x128 .f32} (hpay : ∀ v, pay v = shapeCast S64x128 v shapeCasts_S1x64x128_S64x128)
    {hx : (oM.access (outRect c r)).Stores Finset.univ}
    {hm : (Finset.univ : Finset (outRect c r).shape.Idx) = Finset.univ ∨ ∀ a, (outRect c r).stride a = 1}
    {α : Type} {Q : α → sProp 𝕄} {k : PUnit → Prog (TpuEff nD τ sig (Elt F) Λ₀ .tc) α} :
    Smid m c (r.val + 1) r.val
      ⊢ iprop((Smid m c (r.val + 1) (r.val + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.load agM (agRect r).toLoadRect hl) fun x =>
            .op (.load oM (outRect c r).toLoadRect hl') fun _ =>
              .op (.store oM (outRect c r) (pay x) Finset.univ hx hm) k) Q) := by
  have hr : r ∉ Finset.univ.filter fun x : Fin 30 => x.val < r.val := by simp
  unfold Smid agRecvPay
  rw [filter_lt_succ r, tl_insert hr, doneTiles_succ c r]
  iintro ⟨HO, Hx, Hrs, Hags, Hpend, ⟨⟨Hat, Hpay⟩, Hdone⟩, ⟨%f, %hf, Hout⟩⟩ Hk
  iapply (wp_load 𝒱₀ (c : Thread nD τ) none Set.univ (m := agM) (r := (agRect r).toLoadRect) (agRect_sub c r)) $$ Hpay; iintro Hpay
  rw [show agM.view.readAt (Elt F) (agRect r).toLoadRect (agVal m c) = agVec m c (slotOf r) (halfOf r) from
    read_ag m c (slotOf r) (halfOf r) (agVal m c) (fun _ _ => rfl)]
  iapply (wp_load 𝒱₀ (c : Thread nD τ) none Set.univ (m := oM) (Finset.subset_univ _)) $$ Hout; iintro Hout
  iapply (wp_store 𝒱₀ (c : Thread nD τ) none Set.univ (m := oM) (r := outRect c r) (Mk := Finset.univ) (Finset.subset_univ _)) $$ Hout; iintro Hout
  iapply Hk
  iframe HO Hx Hrs Hags Hpend Hat Hpay Hdone
  iexists _; iframe Hout
  ipureintro
  rw [hpay, pay_agVec]
  exact OutDone_store_ag m c r _ f hf

theorem ag_unit (c : Dev nD) (r : Fin 30) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = Nag)
    {hl : agM.view.LoadsAt (agRect r).toLoadRect} {hl' : oM.view.LoadsAt (outRect c r).toLoadRect}
    {pay : Vec F S1x64x128 .f32 → FVec F S64x128 .f32} (hpay : ∀ v, pay v = shapeCast S64x128 v shapeCasts_S1x64x128_S64x128)
    {hx : (oM.access (outRect c r)).Stores Finset.univ}
    {hm : (Finset.univ : Finset (outRect c r).shape.Idx) = Finset.univ ∨ ∀ a, (outRect c r).stride a = 1}
    {α : Type} {Q : α → sProp 𝕄} {k : PUnit → Prog (TpuEff nD τ sig (Elt F) Λ₀ .tc) α} :
    iprop(records m K ∗ Smid m c r.val r.val)
      ⊢ iprop((Smid m c (r.val + 1) (r.val + 1) -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (agRecvS (slotOf r) (halfOf r)) src dst hsrc hdst) fun _ =>
            .op (.load agM (agRect r).toLoadRect hl) fun x =>
              .op (.load oM (outRect c r).toLoadRect hl') fun _ =>
                .op (.store oM (outRect c r) (pay x) Finset.univ hx hm) k) Q) := by
  iintro ⟨#Hrec, HS⟩ Hk
  iapply (ag_wait m K c r hcr); iframe Hrec HS
  iintro HS
  iapply (ag_ls m c r hpay) $$ HS Hk

end Steps

end Cert.Kernel.Hand

end
-- ==== Proof.HandKernel.Drain0.lean ====
import proofs.«900721_g7700000000000722_dist_ar_v7x_xyz2x2x4_z_m512_n512_f32_1_alg».proof.Proof.HandKernel.AgStep

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase Idealize.SL.ProofMode Idealize.SL.Sem

variable {F : FTy → Type} [FloatOps F]

local notation "𝕄" => MT nD τ sig (Fin 2) (Elt F) ℕ UU ℕ

variable (m : (ℓ : Loc nD τ sig) → Buf (Elt F) ℓ)

abbrev drainStep0 : Fin 30 := ⟨0, by decide⟩
abbrev drainStep1 : Fin 30 := ⟨1, by decide⟩
abbrev drainStep2 : Fin 30 := ⟨2, by decide⟩
abbrev drainStep3 : Fin 30 := ⟨3, by decide⟩

section Parts
variable (K : GSem nD τ sig → ℕ)

theorem part56_spec (c : Dev nD) (v2 v5 v8 : BitVec 32) (Kt : _ → sProp 𝕄) :
    iprop(records m K ∗ levAts L lv ∗ Smid m c 0 0 ∗ (∀ res, Smid m c 1 0 -∗ Kt res))
      ⊢ wp frame (wpE (defs₀ (F := F)) 𝒱₀ (c : Thread nD τ) none) Set.univ
          (k0_part56 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8) Kt := by
  simp only [k0_part56_eq_skeleton, k0_part56_skel, Prog.lift, Prog.bind_op, Prog.bind_ret, Prog.pure_eq_ret]
  rw [show Smid m c 0 0 = Smid m c drainStep0.val drainStep0.val from rfl]
  iintro ⟨#Hrec, -, HS, Hk⟩
  iapply (ag_wait m K c drainStep0 (agSlot_credit ⟨0, by decide⟩ ⟨0, by decide⟩)); iframe Hrec HS
  iintro HS
  rw [wp_ret]; imodintro
  iapply Hk $$ HS

theorem part57_spec (c : Dev nD) (v2 v5 v425 v436 v448 v1880 v1882 : BitVec 32) (Kt : _ → sProp 𝕄) :
    iprop(records m K ∗ levAts L lv ∗ Smid m c 1 0 ∗ (∀ res, Smid m c 2 1 -∗ Kt res))
      ⊢ wp frame (wpE (defs₀ (F := F)) 𝒱₀ (c : Thread nD τ) none) Set.univ
          (k0_part57 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v425 v436 v448 v1880 v1882) Kt := by
  simp only [k0_part57_eq_skeleton, k0_part57_skel, Prog.lift, Prog.bind_op, Prog.bind_ret, Prog.pure_eq_ret]
  rw [show Smid m c 1 0 = Smid m c (drainStep0.val + 1) drainStep0.val from rfl]
  iintro ⟨#Hrec, -, HS, Hk⟩
  iapply (ag_ls m c drainStep0 (pay := k0_pay3) (fun _ => rfl)) $$ HS
  iintro HS
  iapply (ag_wait m K c drainStep1 (agSlot_credit ⟨1, by decide⟩ ⟨0, by decide⟩))
  isplitr; · iexact Hrec
  isplitl [HS]; · iexact HS
  iintro HS
  rw [wp_ret]; imodintro
  iapply Hk $$ HS

theorem part58_spec (c : Dev nD) (v8 v472 v1912 v1913 c2_i32_1422 c0_i32_1423 : BitVec 32) (Kt : _ → sProp 𝕄) :
    iprop(records m K ∗ levAts L lv ∗ Smid m c 2 1 ∗ (∀ res, Smid m c 2 2 -∗ Kt res))
      ⊢ wp frame (wpE (defs₀ (F := F)) 𝒱₀ (c : Thread nD τ) none) Set.univ
          (k0_part58 xM (Memref.isWhole_whole _) oM (Memref.isWhole_whole _) rsM (Memref.isWhole_whole _) redM (Memref.isWhole_whole _) agM (Memref.isWhole_whole _) cc0_scratch3 cc0_scratch4 cc0_scratch5 cc0_scratch6 c v8 v472 v1912 v1913 c2_i32_1422 c0_i32_1423) Kt := by
  simp only [k0_part58_eq_skeleton, k0_part58_skel, Prog.lift, Prog.bind_op, Prog.bind_ret, Prog.pure_eq_ret]
  rw [show Smid m c 2 1 = Smid m c (drainStep1.val + 1) drainStep1.val from rfl]
  iintro ⟨#Hrec, -, HS, Hk⟩
  iapply (ag_ls m c drainStep1 (pay := k0_pay4) (fun _ => rfl)) $$ HS
  iintro HS
  rw [wp_ret]; imodintro
  iapply Hk $$ HS

theorem part59_spec (c : Dev nD) (v2 v5 v8 v483 v495 v1946 c4_i32_1449 : BitVec 32) (Kt : _ → sProp 𝕄) :
    iprop(records m K ∗ levAts L lv ∗ Smid m c 2 2 ∗ (∀ res, Smid m c 3 2 -∗ Kt res))
      ⊢ wp frame (wpE (defs₀ (F := F)) 𝒱₀ (c : Thread nD τ) none) Set.univ
          (k0_part59 xM (Memref.isWhole_whole _) oM (Memref.isWhole_whole _) rsM (Memref.isWhole_whole _) redM (Memref.isWhole_whole _) agM (Memref.isWhole_whole _) cc0_scratch3 cc0_scratch4 cc0_scratch5 cc0_scratch6 v2 v5 v8 v483 v495 v1946 c4_i32_1449) Kt := by
  simp only [k0_part59_eq_skeleton, k0_part59_skel, Prog.lift, Prog.bind_op, Prog.bind_ret, Prog.pure_eq_ret]
  rw [show Smid m c 2 2 = Smid m c drainStep2.val drainStep2.val from rfl]
  iintro ⟨#Hrec, -, HS, Hk⟩
  iapply (ag_wait m K c drainStep2 (agSlot_credit ⟨2, by decide⟩ ⟨0, by decide⟩)); iframe Hrec HS
  iintro HS
  rw [wp_ret]; imodintro
  iapply Hk $$ HS

theorem part60_spec (c : Dev nD) (v2 v519 v530 v542 v1966 v1977 v1980 v1981 c0_i32_1473 : BitVec 32) (Kt : _ → sProp 𝕄) :
    iprop(records m K ∗ levAts L lv ∗ Smid m c 3 2 ∗ (∀ res, Smid m c 4 3 -∗ Kt res))
      ⊢ wp frame (wpE (defs₀ (F := F)) 𝒱₀ (c : Thread nD τ) none) Set.univ
          (k0_part60 xM (Memref.isWhole_whole _) oM (Memref.isWhole_whole _) rsM (Memref.isWhole_whole _) redM (Memref.isWhole_whole _) agM (Memref.isWhole_whole _) cc0_scratch3 cc0_scratch4 cc0_scratch5 cc0_scratch6 c v2 v519 v530 v542 v1966 v1977 v1980 v1981 c0_i32_1473) Kt := by
  simp only [k0_part60_eq_skeleton, k0_part60_skel, Prog.lift, Prog.bind_op, Prog.bind_ret, Prog.pure_eq_ret]
  rw [show Smid m c 3 2 = Smid m c (drainStep2.val + 1) drainStep2.val from rfl]
  iintro ⟨#Hrec, -, HS, Hk⟩
  iapply (ag_ls m c drainStep2 (pay := k0_pay5) (fun _ => rfl)) $$ HS
  iintro HS
  iapply (ag_wait m K c drainStep3 (agSlot_credit ⟨3, by decide⟩ ⟨0, by decide⟩))
  isplitr; · iexact Hrec
  isplitl [HS]; · iexact HS
  iintro HS
  rw [wp_ret]; imodintro
  iapply Hk $$ HS

end Parts

end Cert.Kernel.Hand

end
-- ==== Proof.HandKernel.Front.lean ====
import proofs.«900721_g7700000000000722_dist_ar_v7x_xyz2x2x4_z_m512_n512_f32_1_alg».proof.Proof.HandKernel.SendStates
import proofs.«900721_g7700000000000722_dist_ar_v7x_xyz2x2x4_z_m512_n512_f32_1_alg».proof.Proof.HandKernel.Assemble
import proofs.«900721_g7700000000000722_dist_ar_v7x_xyz2x2x4_z_m512_n512_f32_1_alg».proof.Proof.HandKernel.Sends
import proofs.«900721_g7700000000000722_dist_ar_v7x_xyz2x2x4_z_m512_n512_f32_1_alg».proof.Proof.HandKernel.Reduce
import proofs.«900721_g7700000000000722_dist_ar_v7x_xyz2x2x4_z_m512_n512_f32_1_alg».proof.Proof.HandKernel.Drain0
import proofs.«900721_g7700000000000722_dist_ar_v7x_xyz2x2x4_z_m512_n512_f32_1_alg».proof.Proof.HandKernel.Records

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.BarrierCell

variable {F : FTy → Type} [FloatOps F]

local notation "𝕄" => MT nD τ sig (Fin 2) (Elt F) ℕ UU ℕ

variable (m : (ℓ : Loc nD τ sig) → Buf (Elt F) ℓ)

abbrev barSems : Sems sig S_ := SemArray.scalar (sig.barrier 0 rfl)

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem part1_spec (K : GSem nD τ sig → ℕ) (c : Dev nD) (W : Waits sig (Fin 2))
    (Kt : (Σ' (d0 : Dev nD) (v2 : BitVec 32) (v5 : BitVec 32) (v8 : BitVec 32) (v10 : BitVec 32) (v11 : Sems sig S_) (v31 : BitVec 32) (v32 : BitVec 32), BitVec 1) → sProp 𝕄) :
    iprop(records m K ∗ owes (c : Thread nD τ) (Orem c 42) W ∗ payTok ER (barCell (zp c 1)) 0 ∗ barPay (F := F) (zp c 1) 0
        ∗ (∀ res, ⌜res.1 = c ∧ res.2.2.2.2.2.1 = barSems⌝ -∗ owes (c : Thread nD τ) (Orem c 41) W -∗ Kt res))
      ⊢ wp frame (wpE (defs₀ (F := F)) 𝒱₀ (c : Thread nD τ) none) Set.univ (k0_part1 xM (Memref.isWhole_whole _) oM (Memref.isWhole_whole _) rsM (Memref.isWhole_whole _) redM (Memref.isWhole_whole _) agM (Memref.isWhole_whole _) cc0_scratch3 cc0_scratch4 cc0_scratch5 cc0_scratch6) Kt := by
  iintro ⟨#Hrec, HO, Htok, Hpay, Hk⟩
  sl_exec
  have e1 : (⟨k0_dev1 (c : Thread nD τ).1, k0_dev1_lt (c : Thread nD τ).1⟩ : Dev nD) = zp c 1 := dev1_eq c
  have e16 : (16#32 : BitVec 32).toNat = amt 0 := rfl
  simp only [e1, e16]
  ihave #HIb := (records_bar m K (zp c 1)) $$ Hrec
  iapply (wp_bar_signal 𝒱₀ ER (c : Thread nD τ) none
      (κ := K (barCell (zp c 1))) (pay := barPay (F := F) (zp c 1)) (0 : Fin 2) (Orem c 41) rfl) $$ [HO Htok Hpay]
  · iframe HIb Htok Hpay; iexact HO
  iintro HO
  sl_exec
  iapply (le_wp_ret _ _)
  iapply Hk
  · ipureintro; exact ⟨rfl, rfl⟩
  iexact HO

theorem part2_spec (K : GSem nD τ sig → ℕ) (c : Dev nD) (W : Waits sig (Fin 2))
    (v2 v5 v8 v31 v32 : BitVec 32) (v33 : BitVec 1)
    (Kt : (Σ' (v63 : BitVec 32), BitVec 32) → sProp 𝕄) :
    iprop(records m K ∗ levAts L lv ∗ owes (c : Thread nD τ) (Orem c 41) W
        ∗ payTok ER (barCell (zp c 2)) 1 ∗ barPay (F := F) (zp c 2) 1
        ∗ payTok ER (barCell (zp c 3)) 2 ∗ barPay (F := F) (zp c 3) 2
        ∗ cred (tallyAt (barCell c) (0 : Fin 2) 48) ∗ phA ER (barCell c) 0
        ∗ ownTok ER (barCell c) 0 ∗ ownTok ER (barCell c) 1 ∗ ownTok ER (barCell c) 2
        ∗ (∀ res, (owes (c : Thread nD τ) (Orem c 39) (insert (SemLoc.reg barS, (0 : Fin 2)) W) ∗ phB ER (barCell c) 0
              ∗ barPay (F := F) c 0 ∗ barPay (F := F) c 1 ∗ barPay (F := F) c 2) -∗ Kt res))
      ⊢ wp frame (wpE (defs₀ (F := F)) 𝒱₀ (c : Thread nD τ) none) Set.univ
          (k0_part2 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems v31 v32 v33) Kt := by
  iintro ⟨#Hrec, #Hlev, HO, Htok1, Hpay1, Htok2, Hpay2, Hcr, HphA, Ho0, Ho1, Ho2, Hk⟩
  sl_exec
  simp only [dev2_eq c, show (16#32 : BitVec 32).toNat = amt 1 from rfl]
  ihave #HIb2 := (records_bar m K (zp c 2)) $$ Hrec
  iapply (wp_bar_signal 𝒱₀ ER (c : Thread nD τ) none
      (κ := K (barCell (zp c 2))) (pay := barPay (F := F) (zp c 2)) (0 : Fin 2) (Orem c 40) rfl) $$ [HO Htok1 Hpay1]
  · iframe HIb2 Htok1 Hpay1; iexact HO
  iintro HO
  sl_exec
  simp only [dev3_eq c, show (16#32 : BitVec 32).toNat = amt 2 from rfl]
  ihave #HIb3 := (records_bar m K (zp c 3)) $$ Hrec
  iapply (wp_bar_signal 𝒱₀ ER (c : Thread nD τ) none
      (κ := K (barCell (zp c 3))) (pay := barPay (F := F) (zp c 3)) (0 : Fin 2) (Orem c 39) rfl) $$ [HO Htok2 Hpay2]
  · iframe HIb3 Htok2 Hpay2; iexact HO
  iintro HO
  sl_exec
  simp only [show (48#32 : BitVec 32).toNat = 48 from rfl]
  ihave #HIb := (records_bar m K c) $$ Hrec
  ihave #Hmw := (mayWait_bar48 (F := F) c) $$ Hlev
  iapply (wp_bar_wait48 𝒱₀ ER (c : Thread nD τ) none (sem := barS) (κ := K (barCell c)) (pay := barPay (F := F) c)
      (wpE_semWait_eq 𝒱₀ (c : Thread nD τ) none Set.univ) (Set.mem_univ _) (0 : Fin 2) (O := Orem c 39) (W := W)) $$ [HO Hcr HphA Ho0 Ho1 Ho2]
  · iframe HIb Hcr HO Hmw HphA Ho0 Ho1 Ho2
  iintro ⟨HO, HphB, P0, P1, P2⟩
  sl_exec
  iapply (le_wp_ret _ _)
  iapply Hk
  iframe

theorem part3_spec (K : GSem nD τ sig → ℕ) (c : Dev nD) (W : Waits sig (Fin 2))
    (v2 v5 v8 v63 v65 : BitVec 32)
    (Kt : (Σ' (v101 : BitVec 32), BitVec 32) → sProp 𝕄) :
    iprop(records m K ∗ owes (c : Thread nD τ) (Orem c 39) W
        ∗ payTok ER (barCell (xyp c 0 1)) 3 ∗ barPay (F := F) (xyp c 0 1) 3
        ∗ (∀ res, owes (c : Thread nD τ) (Orem c 38) W -∗ Kt res))
      ⊢ wp frame (wpE (defs₀ (F := F)) 𝒱₀ (c : Thread nD τ) none) Set.univ
          (k0_part3 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems v63 v65) Kt := by
  iintro ⟨#Hrec, HO, Htok, Hpay, Hk⟩
  sl_exec
  simp only [dev4_eq c, show (1#32 : BitVec 32).toNat = amt 3 from rfl]
  ihave #HIb := (records_bar m K (xyp c 0 1)) $$ Hrec
  iapply (wp_bar_signal 𝒱₀ ER (c : Thread nD τ) none
      (κ := K (barCell (xyp c 0 1))) (pay := barPay (F := F) (xyp c 0 1)) (1 : Fin 2) (Orem c 38) rfl) $$ [HO Htok Hpay]
  · iframe HIb Htok Hpay; iexact HO
  iintro HO
  sl_exec
  iapply (le_wp_ret _ _)
  iapply Hk $$ HO

theorem part4_spec (K : GSem nD τ sig → ℕ) (c : Dev nD) (W : Waits sig (Fin 2))
    (v2 v5 v8 v101 w62 : BitVec 32)
    (Kt : (Σ' (v129 : BitVec 32) (v132 : BitVec 32) (v133 : BitVec 32) (v134 : BitVec 1) (v135 : BitVec 1), BitVec 32) → sProp 𝕄) :
    iprop(records m K ∗ owes (c : Thread nD τ) (Orem c 38) W
        ∗ payTok ER (barCell (xyp c 1 0)) 4 ∗ barPay (F := F) (xyp c 1 0) 4
        ∗ (∀ res, owes (c : Thread nD τ) (Orem c 37) W -∗ Kt res))
      ⊢ wp frame (wpE (defs₀ (F := F)) 𝒱₀ (c : Thread nD τ) none) Set.univ
          (k0_part4 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems v101 w62) Kt := by
  iintro ⟨#Hrec, HO, Htok, Hpay, Hk⟩
  sl_exec
  simp only [dev5_eq c, show (1#32 : BitVec 32).toNat = amt 4 from rfl]
  ihave #HIb := (records_bar m K (xyp c 1 0)) $$ Hrec
  iapply (wp_bar_signal 𝒱₀ ER (c : Thread nD τ) none
      (κ := K (barCell (xyp c 1 0))) (pay := barPay (F := F) (xyp c 1 0)) (1 : Fin 2) (Orem c 37) rfl) $$ [HO Htok Hpay]
  · iframe HIb Htok Hpay; iexact HO
  iintro HO
  sl_exec
  iapply (le_wp_ret _ _)
  iapply Hk $$ HO

theorem part5_spec (K : GSem nD τ sig → ℕ) (c : Dev nD) (W : Waits sig (Fin 2))
    (v2 v5 v8 v10 v129 v132 v133 : BitVec 32) (v134 v135 : BitVec 1) (w87 : BitVec 32)
    (Kt : BitVec 32 → sProp 𝕄) :
    iprop(records m K ∗ owes (c : Thread nD τ) (Orem c 37) W
        ∗ payTok ER (barCell (xyp c 1 1)) 5 ∗ barPay (F := F) (xyp c 1 1) 5
        ∗ (∀ res, owes (c : Thread nD τ) (Orem c 36) W -∗ Kt res))
      ⊢ wp frame (wpE (defs₀ (F := F)) 𝒱₀ (c : Thread nD τ) none) Set.univ
          (k0_part5 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v10 barSems v129 v132 v133 v134 v135 w87) Kt := by
  iintro ⟨#Hrec, HO, Htok, Hpay, Hk⟩
  sl_exec
  simp only [dev6_eq c, show (1#32 : BitVec 32).toNat = amt 5 from rfl]
  ihave #HIb := (records_bar m K (xyp c 1 1)) $$ Hrec
  iapply (wp_bar_signal 𝒱₀ ER (c : Thread nD τ) none
      (κ := K (barCell (xyp c 1 1))) (pay := barPay (F := F) (xyp c 1 1)) (1 : Fin 2) (Orem c 36) rfl) $$ [HO Htok Hpay]
  · iframe HIb Htok Hpay; iexact HO
  iintro HO
  sl_exec
  iapply (le_wp_ret _ _)
  iapply Hk $$ HO

theorem part12_spec (K : GSem nD τ sig → ℕ) (c : Dev nD) (W : Waits sig (Fin 2))
    (v2 v5 v8 v362 w264 : BitVec 32) (g1 : Buf (Elt F) ((c : Thread nD τ).loc cc0_stg1_0))
    (Kt : (Σ' (v378 : BitVec 32) (v389 : BitVec 32) (v393 : BitVec 32) (v394 : BitVec 32) (v395 : BitVec 1), BitVec 1) → sProp 𝕄) :
    iprop(records m K ∗ levAts L lv ∗ owes (c : Thread nD τ) (Orem c 30) W
        ∗ cred (tallyAt (barCell c) (1 : Fin 2) 3) ∗ phB ER (barCell c) 0 ∗ phA ER (barCell c) 1
        ∗ ownTok ER (barCell c) 3 ∗ ownTok ER (barCell c) 4 ∗ ownTok ER (barCell c) 5
        ∗ (((c : Thread nD τ).loc cc0_stg1_0) ↦{fullShare} g1)
        ∗ (∀ res, (owes (c : Thread nD τ) (Orem c 30) (insert (SemLoc.reg barS, (1 : Fin 2)) W)
              ∗ barPay (F := F) c 3 ∗ barPay (F := F) c 4 ∗ barPay (F := F) c 5
              ∗ (∃ f, ⌜OutDone m {tileOf c 0} f⌝ ∗ (((c : Thread nD τ).loc cc0_stg1_0) ↦{fullShare} f))) -∗ Kt res))
      ⊢ wp frame (wpE (defs₀ (F := F)) 𝒱₀ (c : Thread nD τ) none) Set.univ
          (k0_part12 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 barSems (redHalfVal m c 0) v362 w264) Kt := by
  iintro ⟨#Hrec, #Hlev, HO, Hcr, HphB, HphA, Ho3, Ho4, Ho5, Hout, Hk⟩
  sl_exec
  sl_step
  sl_exec
  simp only [show (3#32 : BitVec 32).toNat = 3 from rfl]
  ihave #HIb := (records_bar m K c) $$ Hrec
  ihave #Hmw := (mayWait_bar3 (F := F) c) $$ Hlev
  iapply (wp_bar_wait3 𝒱₀ ER (c : Thread nD τ) none (sem := barS) (κ := K (barCell c)) (pay := barPay (F := F) c)
      (wpE_semWait_eq 𝒱₀ (c : Thread nD τ) none Set.univ) (Set.mem_univ _) (1 : Fin 2) (O := Orem c 30) (W := W)) $$ [HO Hcr HphB HphA Ho3 Ho4 Ho5]
  · iframe HIb Hcr HO Hmw HphB HphA Ho3 Ho4 Ho5
  iintro ⟨HO, P3, P4, P5⟩
  sl_exec
  iapply (le_wp_ret _ _)
  iapply Hk
  iframe HO P3 P4 P5
  iexists _; iframe Hout
  ipureintro
  exact OutDone_first_own m c g1

theorem bigSep_jh (Φ : Fin 3 → Fin 2 → sProp 𝕄) :
    bigSep Finset.univ (fun jh : Fin 3 × Fin 2 => Φ jh.1 jh.2) = iprop((Φ 0 0 ∗ Φ 0 1) ∗ (Φ 1 0 ∗ Φ 1 1) ∗ (Φ 2 0 ∗ Φ 2 1)) := by
  rw [bigSep_univ_prod, bigSep_fin3]
  simp only [bigSep_univ_two]

private theorem curry3 {P Q R G : sProp 𝕄} (h : iprop(P ∗ Q ∗ R) ⊢ G) : P ⊢ iprop(Q -∗ R -∗ G) := by
  iintro HP HQ HR; iapply h; iframe

private theorem curry4 {P L Q R G : sProp 𝕄} (h : iprop(P ∗ L ∗ Q ∗ R) ⊢ G) : P ⊢ iprop(L -∗ Q -∗ R -∗ G) := by
  iintro HP HL HQ HR; iapply h; iframe

set_option maxHeartbeats 6400000 in
theorem front (K : GSem nD τ sig → ℕ) (c : Dev nD) (Kt : _ → sProp 𝕄) :
    iprop(bodyPre m K c ∗ (∀ res, ⌜res.1 = c⌝ -∗ (records m K ∗ levAts L lv ∗ Smid m c 4 3) -∗ Kt res))
      ⊢ wp frame (wpE (defs₀ (F := F)) 𝒱₀ (c : Thread nD τ) none) Set.univ (k0_part113 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [k0_part113_eq_skeleton]; unfold k0_part113_skel
  simp only [wp_bind]
  unfold bodyPre
  iintro ⟨⟨⟨Hgh, Hcr, #Hlev, Hscr⟩, Ho, ⟨%d0, %g0, %hg0, Hx⟩, ⟨%d1, %g1, %hg1, Hout⟩⟩, Hk⟩
  have hx : g0 = xblk m c := by rw [hg0]; unfold Dat.before; rw [if_pos (fetch0_0 t₀)]; rfl
  subst hx
  unfold scratchAny
  icases Hscr with ⟨Hrs, Hred, Hag⟩
  icases (rs_split3 (F := F) c) $$ Hrs with ⟨R0, R1, R2⟩
  icases (ag_split15 (F := F) c) $$ Hag with ⟨A0, A1, A2, A3, A4, A5, A6, A7, A8, A9, A10, A11, A12, A13, A14⟩
  icases (red_split (F := F) c) $$ Hred with ⟨Hred0, Hred1⟩
  unfold ghost barToks positions dmaToks
  icases Hgh with ⟨#Hrec, ⟨HposRs, HposAg⟩, ⟨HdRs, HdAg⟩, ⟨Hp0, Hp1, Hp2, Hp3, Hp4, Hp5, Hown, HphA0, HphA1⟩⟩
  icases (Entails.of_eq (bigSep_six (F := F) (fun d : Fin 6 => ownTok ER (barCell c) d))) $$ Hown with ⟨Ho0, Ho1, Ho2, Ho3, Ho4, Ho5⟩
  icases (Entails.of_eq (bigSep_jh (F := F) (fun j h => iprop(atPos ER (rsSendCell c j h) 0 ∅ 0 ∗ atPos ER (rsRecvCell c j h) 0 ∅ 0)))) $$ HposRs with ⟨⟨⟨S00, V00⟩, ⟨S01, V01⟩⟩, ⟨⟨S10, V10⟩, ⟨S11, V11⟩⟩, ⟨S20, V20⟩, ⟨S21, V21⟩⟩
  unfold creds
  icases Hcr with ⟨Hc48, Hc3, HcRs, HcAg⟩
  icases (Entails.of_eq (bigSep_jh (F := F) (fun j h => cred (tallyAt (rsRecvCell c j h) (0 : Fin 2) Nrs)))) $$ HcRs with ⟨⟨C00, C01⟩, ⟨C10, C11⟩, C20, C21⟩
  unfold Dat.owesAt Pipeline.owesWithin
  icases Ho with ⟨%W, %hW, HO⟩
  rw [show (dats m 0 c).owed t₀.castSucc = Orem c 42 from rfl]
  iapply (part1_spec m K c W)
  isplitr; · iexact Hrec
  iframe HO Hp0
  isplitl [R2 A0 A4 A8 A12]
  · iapply (z_payload0 (F := F) c); iframe
  iintro %r1 %hr1 HO
  obtain ⟨hd0, hv11⟩ := hr1
  rw [hd0, hv11]
  iapply (part2_spec m K c W)
  isplitr; · iexact Hrec
  isplitr; · iexact Hlev
  iframe HO Hp1
  isplitl [R1 A1 A5 A9 A13]
  · iapply (z_payload1 (F := F) c); iframe
  iframe Hp2
  isplitl [R0 A2 A6 A10 A14]
  · iapply (z_payload2 (F := F) c); iframe
  iframe Hc48 HphA0 Ho0 Ho1 Ho2
  iintro %r2 ⟨HO, HphB0, P0, P1, P2⟩
  ihave HZ := (z_open (F := F) c) $$ [P0 P1 P2]
  · iframe
  icases HZ with ⟨⟨Zr2, Zr1, Zr0⟩, ⟨Za0, Za1, Za2⟩, ⟨Za4, Za5, Za6⟩, ⟨Za8, Za9, Za10⟩, ⟨Za12, Za13, Za14⟩⟩
  iapply (part3_spec m K c _)
  isplitr; · iexact Hrec
  iframe HO Hp3
  isplitl [A3 Za4 Za5 Za6]
  · iapply (xy_payload0 (F := F) c); iframe
  iintro %r3 HO
  iapply (part4_spec m K c _)
  isplitr; · iexact Hrec
  iframe HO Hp4
  isplitl [A7 Za8 Za9 Za10]
  · iapply (xy_payload1 (F := F) c); iframe
  iintro %r4 HO
  iapply (part5_spec m K c _)
  isplitr; · iexact Hrec
  iframe HO Hp5
  isplitl [A11 Za12 Za13 Za14]
  · iapply (xy_payload2 (F := F) c); iframe
  iintro %r5 HO
  ihave HS := (mk_SrsSend m c _) $$ [HO Hx Zr2 Zr1 Zr0 HdRs]
  · iframe
  icases HS with ⟨HS, HxR⟩
  iapply (curry3 (part6_spec m K c _ _ _ _ _)) $$ Hrec HS
  iintro %r6 HS
  iapply (curry3 (part7_spec m K c _ _ _ _ _ _ _ _)) $$ Hrec HS
  iintro %r7 HS
  iapply (curry3 (part8_spec m K c _ _ _ _ _ _ _ _)) $$ Hrec HS
  iintro %r8 HS
  iapply (curry3 (part9_spec m K c _ _ _ _ _ _)) $$ Hrec HS
  iintro %r9 HS
  iapply (part10_spec m K c _ _ _ _ _ _ _)
  isplitr; · iexact Hrec
  isplitr; · iexact Hlev
  iframe HS V00 C00 V10 C10
  iintro %r10 ⟨HS, Y00, V00, Y10, V10⟩
  icases (SrsSend_open m c 6) $$ HS with ⟨⟨%W6, HO⟩, -, HcrS⟩
  iapply (part11_spec m K c W6)
  isplitr; · iexact Hrec
  isplitr; · iexact Hlev
  iframe HO C20 V20 HxR Y00 Y10 Hred0
  iintro %r11 ⟨HO, V20, HxR, Y00, Y10, Y20, %fs0, %hfs0', Hr0⟩
  obtain ⟨hfs0, hv361⟩ := hfs0'
  rw [hv361]
  iapply (part12_spec m K c _ _ _ _ _ _ g1)
  isplitr; · iexact Hrec
  isplitr; · iexact Hlev
  iframe HO Hc3 HphB0 HphA1 Ho3 Ho4 Ho5 Hout
  iintro %r12 ⟨HO, P3, P4, P5, Hout⟩
  ihave HT := (targets (F := F) c) $$ [Za0 Za1 Za2 P3 P4 P5]
  · iframe
  icases (Entails.of_eq (halves_eq (F := F) (fun sh : Fin 15 × Fin 2 => agSlotAny (agT c sh.1) sh.1 sh.2))) $$ HT with ⟨HT0, HT1⟩
  icases (Entails.of_eq (halves_eq (F := F) (fun sh : Fin 15 × Fin 2 => iprop(dutyTok ER (agSendCell c sh.1 sh.2) 0 0
      ∗ dutyTok ER (agRecvCell (agT c sh.1) sh.1 sh.2) 0 0)))) $$ HdAg with ⟨HdAg0, HdAg1⟩
  ihave HS := (mk_SagSend (F := F) c 0 fs0 _) $$ [HO Hr0 HT0 HdAg0]
  · iframe
  iapply (curry3 (part13_spec m K c _ _ _ _ _ _ _ _ fs0 hfs0 _)) $$ Hrec HS
  iintro %r13 HS
  iapply (curry3 (part14_spec m K c _ _ _ _ _ _ fs0 hfs0 _)) $$ Hrec HS
  iintro %r14 HS
  iapply (curry3 (part15_spec m K c _ _ _ _ _ fs0 hfs0 _)) $$ Hrec HS
  iintro %r15 HS
  iapply (curry3 (part16_spec m K c _ _ _ _ _ _ _ fs0 hfs0 _)) $$ Hrec HS
  iintro %r16 HS
  iapply (curry3 (part17_spec m K c _ _ _ _ _ fs0 hfs0 _)) $$ Hrec HS
  iintro %r17 HS
  iapply (curry3 (part18_spec m K c _ _ _ fs0 hfs0 _)) $$ Hrec HS
  iintro %r18 HS
  iapply (curry3 (part19_spec m K c _ _ _ fs0 hfs0 _)) $$ Hrec HS
  iintro %r19 HS
  iapply (curry3 (part20_spec m K c _ _ _ _ _ _ _ fs0 hfs0 _)) $$ Hrec HS
  iintro %r20 HS
  iapply (curry3 (part21_spec m K c _ _ _ _ _ _ _ _ fs0 hfs0 _)) $$ Hrec HS
  iintro %r21 HS
  iapply (curry3 (part22_spec m K c _ _ _ _ _ fs0 hfs0 _)) $$ Hrec HS
  iintro %r22 HS
  iapply (curry3 (part23_spec m K c _ _ _ _ _ _ fs0 hfs0 _)) $$ Hrec HS
  iintro %r23 HS
  iapply (curry3 (part24_spec m K c _ _ _ _ _ _ fs0 hfs0 _)) $$ Hrec HS
  iintro %r24 HS
  iapply (curry3 (part25_spec m K c _ _ _ _ _ fs0 hfs0 _)) $$ Hrec HS
  iintro %r25 HS
  iapply (curry3 (part26_spec m K c _ _ _ fs0 hfs0 _)) $$ Hrec HS
  iintro %r26 HS
  iapply (curry3 (part27_spec m K c _ _ _ _ _ fs0 hfs0 _)) $$ Hrec HS
  iintro %r27 HS
  iapply (curry3 (part28_spec m K c _ _ _ _ _ fs0 hfs0 _)) $$ Hrec HS
  iintro %r28 HS
  iapply (curry3 (part29_spec m K c _ _ _ _ _ _ _ fs0 hfs0 _)) $$ Hrec HS
  iintro %r29 HS
  iapply (curry3 (part30_spec m K c _ _ _ fs0 hfs0 _)) $$ Hrec HS
  iintro %r30 HS
  iapply (curry3 (part31_spec m K c _ _ _ _ _ _ _ _ _ fs0 hfs0 _)) $$ Hrec HS
  iintro %r31 HS
  iapply (curry3 (part32_spec m K c _ _ _ _ _ fs0 hfs0 _)) $$ Hrec HS
  iintro %r32 HS
  unfold SagSend
  icases HS with ⟨⟨%W15, HO⟩, -, HcrA0⟩
  iapply (part33_spec m K c W15)
  isplitr; · iexact Hrec
  isplitr; · iexact Hlev
  iframe HO C01 V01 C11 V11
  iintro %r33 ⟨HO, V01, V11, Y01, Y11⟩
  iapply (part34_spec m K c _)
  isplitr; · iexact Hrec
  isplitr; · iexact Hlev
  iframe HO C21 V21 HxR Y01 Y11 Hred1 Hout
  iintro %r34 ⟨HO, V21, HxR, Y01, Y11, Y21, ⟨%fs1, %hfs1, Hr1⟩, Hout⟩
  ihave HS := (mk_SagSend (F := F) c 1 fs1 _) $$ [HO Hr1 HT1 HdAg1]
  · iframe
  iapply (curry3 (part35_spec m K c _ _ _ _ _ fs1 hfs1 _)) $$ Hrec HS
  iintro %r35 HS
  iapply (curry3 (part36_spec m K c _ _ _ _ _ _ fs1 hfs1 _)) $$ Hrec HS
  iintro %r36 HS
  iapply (curry3 (part37_spec m K c _ _ _ _ _ _ fs1 hfs1 _)) $$ Hrec HS
  iintro %r37 HS
  iapply (curry3 (part38_spec m K c _ _ _ _ _ fs1 hfs1 _)) $$ Hrec HS
  iintro %r38 HS
  iapply (curry3 (part39_spec m K c _ _ _ fs1 hfs1 _)) $$ Hrec HS
  iintro %r39 HS
  iapply (curry3 (part40_spec m K c _ _ _ _ _ fs1 hfs1 _)) $$ Hrec HS
  iintro %r40 HS
  iapply (curry3 (part41_spec m K c _ _ _ _ _ fs1 hfs1 _)) $$ Hrec HS
  iintro %r41 HS
  iapply (curry3 (part42_spec m K c _ _ _ _ _ _ _ fs1 hfs1 _)) $$ Hrec HS
  iintro %r42 HS
  iapply (curry3 (part43_spec m K c _ _ _ fs1 hfs1 _)) $$ Hrec HS
  iintro %r43 HS
  iapply (curry3 (part44_spec m K c _ _ _ _ _ _ _ _ _ fs1 hfs1 _)) $$ Hrec HS
  iintro %r44 HS
  iapply (curry3 (part45_spec m K c _ _ _ _ _ _ fs1 hfs1 _)) $$ Hrec HS
  iintro %r45 HS
  iapply (curry3 (part46_spec m K c _ _ _ _ _ fs1 hfs1 _)) $$ Hrec HS
  iintro %r46 HS
  iapply (curry3 (part47_spec m K c _ _ _ _ _ _ fs1 hfs1 _)) $$ Hrec HS
  iintro %r47 HS
  iapply (curry3 (part48_spec m K c _ _ _ _ _ _ fs1 hfs1 _)) $$ Hrec HS
  iintro %r48 HS
  iapply (curry3 (part49_spec m K c _ _ _ _ fs1 hfs1 _)) $$ Hrec HS
  iintro %r49 HS
  iapply (curry3 (part50_spec m K c _ _ _ fs1 hfs1 _)) $$ Hrec HS
  iintro %r50 HS
  iapply (curry3 (part51_spec m K c _ _ _ _ _ fs1 hfs1 _)) $$ Hrec HS
  iintro %r51 HS
  iapply (curry3 (part52_spec m K c _ _ _ _ _ _ _ fs1 hfs1 _)) $$ Hrec HS
  iintro %r52 HS
  iapply (curry3 (part53_spec m K c _ _ _ _ _ fs1 hfs1 _)) $$ Hrec HS
  iintro %r53 HS
  iapply (curry3 (part54_spec m K c _ _ _ _ _ fs1 hfs1 _)) $$ Hrec HS
  iintro %r54 HS
  iapply (curry3 (part55_spec m K c _ _ _ _ _ _ _ _ fs1 hfs1 _)) $$ Hrec HS
  iintro %r55 HS
  unfold SagSend
  icases HS with ⟨⟨%W0, HO⟩, -, HcrA1⟩
  ihave HS := (Smid_intro m c W0) $$ [HO HxR Y00 V00 Y01 V01 Y10 V10 Y11 V11 Y20 V20 Y21 V21 S00 S01 S10 S11 S20 S21 HcrS HposAg HcrA0 HcrA1 HcAg Hout]
  · isplitl [HO]; · iexact HO
    iframe HxR
    isplitl [Y00 V00 Y01 V01 Y10 V10 Y11 V11 Y20 V20 Y21 V21]
    · iapply (Entails.of_eq (bigSep_jh (F := F) (fun j h => iprop(rsRecvPay m c j h ∗ atPos ER (rsRecvCell c j h) 1 ∅ 0))).symm)
      iframe
    isplitl [S00 S01 S10 S11 S20 S21]
    · iapply (Entails.of_eq (bigSep_jh (F := F) (fun j h => atPos ER (rsSendCell c j h) 0 ∅ 0)).symm)
      iframe
    iframe HcrS HposAg HcrA0 HcrA1 HcAg
    iexact Hout
  iapply (curry4 (part56_spec m K c _ _ _ _)) $$ Hrec Hlev HS
  iintro %r56 HS
  iapply (curry4 (part57_spec m K c _ _ _ _ _ _ _ _)) $$ Hrec Hlev HS
  iintro %r57 HS
  iapply (curry4 (part58_spec m K c _ _ _ _ _ _ _)) $$ Hrec Hlev HS
  iintro %r58 HS
  iapply (curry4 (part59_spec m K c _ _ _ _ _ _ _ _)) $$ Hrec Hlev HS
  iintro %r59 HS
  iapply (curry4 (part60_spec m K c _ _ _ _ _ _ _ _ _ _)) $$ Hrec Hlev HS
  iintro %r60 HS
  simp only [Prog.pure_eq_ret]
  iapply (le_wp_ret _ _)
  iapply Hk
  · ipureintro; rfl
  isplitr; · iexact Hrec
  isplitr; · iexact Hlev
  iexact HS

end Cert.Kernel.Hand

end
-- ==== Proof.HandKernel.SendWaits.lean ====
import proofs.«900721_g7700000000000722_dist_ar_v7x_xyz2x2x4_z_m512_n512_f32_1_alg».proof.Proof.HandKernel.BodyMid
import proofs.«900721_g7700000000000722_dist_ar_v7x_xyz2x2x4_z_m512_n512_f32_1_alg».proof.Proof.HandKernel.Families
import proofs.«900721_g7700000000000722_dist_ar_v7x_xyz2x2x4_z_m512_n512_f32_1_alg».proof.Proof.HandKernel.Regions
import proofs.«900721_g7700000000000722_dist_ar_v7x_xyz2x2x4_z_m512_n512_f32_1_alg».proof.Proof.HandKernel.Records

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Lib.Count

variable {F : FTy → Type} [FloatOps F]

local notation "𝕄" => MT nD τ sig (Fin 2) (Elt F) ℕ UU ℕ

variable (m : (ℓ : Loc nD τ sig) → Buf (Elt F) ℓ)

abbrev SwI := (Fin 3 × Fin 2) ⊕ (Fin 15 × Fin 2)

def swHalf (w : Fin 36) : Fin 2 := ⟨w.val / 18, by have := w.isLt; omega⟩

-- the device's own copies in the order it waits for them: half by half, the three reduce-scatter copies, then the fifteen all-gather copies
def swIdx : SwI ≃ Fin 36 where
  toFun x := match x with
    | .inl (j, h) => ⟨18 * h.val + j.val, by have := j.isLt; have := h.isLt; omega⟩
    | .inr (s, h) => ⟨18 * h.val + 3 + s.val, by have := s.isLt; have := h.isLt; omega⟩
  invFun w := if h : w.val % 18 < 3 then .inl (⟨w.val % 18, h⟩, swHalf w) else .inr (⟨w.val % 18 - 3, by omega⟩, swHalf w)
  left_inv := by decide
  right_inv := by decide

def sendSem : SwI → DmaSem sig := Sum.elim (fun jh => rsSendS jh.1 jh.2) fun sh => agSendS sh.1 sh.2
abbrev sendCell (c : Dev nD) (x : SwI) : GSem nD τ sig := ((c : Thread nD τ), .dma (sendSem x))
def sendAmt : SwI → ℕ := Sum.elim (fun _ => Nrs) fun _ => Nag
def sendPay (c : Dev nD) : SwI → sProp 𝕄 := Sum.elim (fun jh => rsSendPay m c jh.1 jh.2) fun sh => agSendPay m c sh.1 sh.2

abbrev swTodo (c : Dev nD) : Fin 36 → sProp 𝕄 := fun w =>
  iprop(atPos ER (sendCell c (swIdx.symm w)) 0 ∅ 0 ∗ cred (tallyAt (sendCell c (swIdx.symm w)) (0 : Fin 2) (sendAmt (swIdx.symm w))))
abbrev swDone (c : Dev nD) : Fin 36 → sProp 𝕄 := fun w =>
  iprop(atPos ER (sendCell c (swIdx.symm w)) 1 ∅ 0 ∗ sendPay m c (swIdx.symm w))

theorem swTodo_at (c : Dev nD) (x : SwI) : swTodo (F := F) c (swIdx x)
    = iprop(atPos ER (sendCell c x) 0 ∅ 0 ∗ cred (tallyAt (sendCell c x) (0 : Fin 2) (sendAmt x))) := by
  simp only [swTodo, Equiv.symm_apply_apply]
theorem swDone_at (c : Dev nD) (x : SwI) : swDone m c (swIdx x) = iprop(atPos ER (sendCell c x) 1 ∅ 0 ∗ sendPay m c x) := by
  simp only [swDone, Equiv.symm_apply_apply]

def Ssw (c : Dev nD) (k : ℕ) : sProp 𝕄 :=
  iprop((∃ W, owes (c : Thread nD τ) 0 W) ∗ xRest m c
    ∗ (bigSep Finset.univ fun jh : Fin 3 × Fin 2 => iprop(rsRecvPay m c jh.1 jh.2 ∗ atPos ER (rsRecvCell c jh.1 jh.2) 1 ∅ 0))
    ∗ (bigSep Finset.univ fun r : Fin 30 => iprop(atPos ER (agRecvCell c (slotOf r) (halfOf r)) 1 ∅ 0 ∗ agRecvPay m c (slotOf r) (halfOf r)))
    ∗ (∃ f, ⌜OutDone m (doneTiles c 30) f⌝ ∗ (((c : Thread nD τ).loc cc0_stg1_0) ↦{fullShare} f))
    ∗ (bigSep (Finset.univ.filter fun w : Fin 36 => k ≤ w.val) (swTodo c))
    ∗ (bigSep (Finset.univ.filter fun w : Fin 36 => w.val < k) (swDone m c)))

theorem swTodo_split (c : Dev nD) : bigSep Finset.univ (swTodo (F := F) c)
    = iprop((bigSep Finset.univ fun jh : Fin 3 × Fin 2 => iprop(atPos ER (rsSendCell c jh.1 jh.2) 0 ∅ 0 ∗ cred (tallyAt (rsSendCell c jh.1 jh.2) (0 : Fin 2) Nrs)))
      ∗ (bigSep Finset.univ fun sh : Fin 15 × Fin 2 => iprop(atPos ER (agSendCell c sh.1 sh.2) 0 ∅ 0 ∗ cred (tallyAt (agSendCell c sh.1 sh.2) (0 : Fin 2) Nag)))) := by
  rw [bigSep_univ_equiv swIdx, bigSep_univ_sum]; simp only [swTodo_at]; rfl

theorem swDone_split (c : Dev nD) : bigSep Finset.univ (swDone m c)
    = iprop((bigSep Finset.univ fun jh : Fin 3 × Fin 2 => iprop(atPos ER (rsSendCell c jh.1 jh.2) 1 ∅ 0 ∗ rsSendPay m c jh.1 jh.2))
      ∗ (bigSep Finset.univ fun sh : Fin 15 × Fin 2 => iprop(atPos ER (agSendCell c sh.1 sh.2) 1 ∅ 0 ∗ agSendPay m c sh.1 sh.2))) := by
  rw [bigSep_univ_equiv swIdx, bigSep_univ_sum]; simp only [swDone_at]; rfl

theorem Smid_to_Ssw (c : Dev nD) : Smid m c 30 30 ⊢ Ssw m c 0 := by
  have f1 : (Finset.univ.filter fun r : Fin 30 => 30 ≤ r.val) = ∅ :=
    Finset.filter_false_of_mem fun r _ => by have := r.isLt; omega
  have f2 : (Finset.univ.filter fun r : Fin 30 => r.val < 30) = Finset.univ :=
    Finset.filter_true_of_mem fun r _ => r.isLt
  have f3 : (Finset.univ.filter fun w : Fin 36 => 0 ≤ w.val) = Finset.univ :=
    Finset.filter_true_of_mem fun w _ => Nat.zero_le _
  have f4 : (Finset.univ.filter fun w : Fin 36 => w.val < 0) = ∅ :=
    Finset.filter_false_of_mem fun w _ => Nat.not_lt_zero _
  unfold Smid Ssw
  rw [f1, f2, f3, f4, bigSep_empty, bigSep_empty, swTodo_split]
  simp only [bigSep_sep']
  iintro ⟨HO, Hx, ⟨Ha, Hb, Hc, Hd⟩, ⟨He, Hf⟩, -, ⟨Hg, Hh⟩, Hout⟩
  iframe; iempintro

section Waits
variable (K : GSem nD τ sig → ℕ)

theorem records_send (c : Dev nD) (x : SwI) : records m K ⊢ cellInv ER (Rd m) (K (sendCell c x)) (sendCell c x) := by
  rcases x with ⟨j, h⟩ | ⟨s, h⟩
  · exact (records_rs m K c j h).trans sep_elim_left
  · exact (records_ag m K c s h).trans sep_elim_left

-- the two families' wait rules as one rule over both
theorem wp_send_wait (c : Dev nD) (x : SwI) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = sendAmt x)
    {α : Type} {Q : α → sProp 𝕄} {k : PUnit → Prog (TpuEff nD τ sig (Elt F) Λ₀ .tc) α}
    {O : CellTallies nD τ sig (Fin 2)} {W : Waits sig (Fin 2)} :
    iprop(cellInv ER (Rd m) (K (sendCell c x)) (sendCell c x) ∗ cred (tallyAt (sendCell c x) 0 (sendAmt x))
        ∗ owes (c : Thread nD τ) O W ∗ MayWait (c : Thread nD τ) (.dma (sendSem x)) 0 O ∗ atPos ER (sendCell c x) 0 ∅ 0)
      ⊢ iprop(((owes (c : Thread nD τ) O (insert (.dma (sendSem x), 0) W) ∗ atPos ER (sendCell c x) 1 ∅ 0 ∗ sendPay m c x)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem x) src dst hsrc hdst) k) Q) := by
  rcases x with ⟨j, h⟩ | ⟨s, h⟩
  · exact wp_rs_send_waitDma2 m K c j h hcr
  · exact wp_ag_send_waitDma2 m K c s h hcr

-- the wait for copy `x`: its cell's one round leaves the waits to come, the copy's source joins the waits done
theorem sw_step (c : Dev nD) (x : SwI) {sp sp' : Space} {s' s'' : Shape} {e e' : EltTy}
    {src : Memref sig .tc sp' s'' e'} {κ' : Kind} {dst : Memref sig κ' sp s' e} {hsrc : src.view.WordExact} {hdst : dst.view.WordExact}
    (hcr : dst.view.dmaCredit = sendAmt x)
    {α : Type} {Q : α → sProp 𝕄} {k : PUnit → Prog (TpuEff nD τ sig (Elt F) Λ₀ .tc) α} {R : sProp 𝕄}
    (hk : iprop(records m K ∗ Ssw m c ((swIdx x).val + 1) ∗ R) ⊢ wp frame (wpE (defs₀ (F := F)) 𝒱₀ (c : Thread nD τ) none) Set.univ (k ⟨⟩) Q) :
    iprop(records m K ∗ Ssw m c (swIdx x).val ∗ R)
      ⊢ wp frame (wpE (defs₀ (F := F)) 𝒱₀ (c : Thread nD τ) none) Set.univ (.op (.waitDma2 (sendSem x) src dst hsrc hdst) k) Q := by
  have hp := pick_ge (swIdx x) (swTodo (F := F) c)
  have hu := unpick_lt (swIdx x) (swDone m c)
  rw [swTodo_at] at hp
  rw [swDone_at] at hu
  unfold Ssw at hk ⊢
  iintro ⟨#Hrec, ⟨⟨%W, HO⟩, Hx, Hrs, Hag, Hout, HT, HD⟩, HR⟩
  icases hp $$ HT with ⟨⟨Hat, Hcr⟩, HT⟩
  ihave Hi := (records_send m K c x) $$ Hrec
  iapply (wp_send_wait m K c x hcr (O := 0) (W := W)) $$ [Hcr HO Hat]
  · rw [MayWait_zero]; iframe # ∗; iempintro
  iintro ⟨HO, Hat, Hpay⟩
  iapply hk
  iframe Hrec HR Hx Hrs Hag Hout HT
  isplitl [HO]; · iexists _; iexact HO
  iapply hu; iframe

def agIdx : Fin 30 ≃ Fin 15 × Fin 2 where
  toFun r := (slotOf r, halfOf r)
  invFun sh := ⟨15 * sh.2.val + sh.1.val, by have := sh.1.isLt; have := sh.2.isLt; omega⟩
  left_inv := by decide
  right_inv := by decide

-- cells that stand after their one round with nothing taken all close, their counters at zero
theorem close_all {I : Type} [Fintype I] [DecidableEq I] {g : I → GSem nD τ sig}
    (hI : ∀ i, records m K ⊢ cellInv ER (Rd m) (K (g i)) (g i))
    (hc : ∀ i, iprop(cellInv ER (Rd m) (K (g i)) (g i) ∗ atPos ER (g i) 1 ∅ 0) ⊢ (|={Set.univ}=> semVal (g i) 0 : sProp 𝕄)) :
    iprop(records m K ∗ bigSep Finset.univ fun i => atPos ER (g i) 1 ∅ 0)
      ⊢ (|={Set.univ}=> bigSep Finset.univ fun i => semVal (g i) 0 : sProp 𝕄) := by
  refine (bigSep_with_persistent (Ψ := fun i => iprop(|={Set.univ}=> semVal (g i) 0)) fun i _ => ?_).trans (bigSep_fupd _ _)
  iintro ⟨#Hrec, Hp⟩
  ihave Hi := (hI i) $$ Hrec
  iapply (hc i); iframe # ∗

theorem finish (c : Dev nD) : iprop(records m K ∗ Ssw m c 36) ⊢ (|={Set.univ}=> bodyPost m c : sProp 𝕄) := by
  have f1 : (Finset.univ.filter fun w : Fin 36 => 36 ≤ w.val) = ∅ :=
    Finset.filter_false_of_mem fun w _ => by have := w.isLt; omega
  have f2 : (Finset.univ.filter fun w : Fin 36 => w.val < 36) = Finset.univ :=
    Finset.filter_true_of_mem fun w _ => w.isLt
  have eAg := bigSep_univ_equiv agIdx fun sh : Fin 15 × Fin 2 => (iprop(atPos ER (agRecvCell c sh.1 sh.2) 1 ∅ 0 ∗ agRecvPay m c sh.1 sh.2) : sProp 𝕄)
  unfold Ssw
  rw [f1, f2, bigSep_empty, swDone_split]
  erw [← eAg]
  simp only [bigSep_sep']
  iintro ⟨#Hrec, ⟨%W, HO⟩, Hx, ⟨HrsPay, HrsPos⟩, ⟨HagPos, HagPay⟩, ⟨%f, %hf, Hout⟩, -, ⟨HrsSPos, HrsSPay⟩, HagSPos, HagSPay⟩
  imod (close_all m K (fun jh : Fin 3 × Fin 2 => (records_rs m K c jh.1 jh.2).trans sep_elim_left) fun jh => close_rsSend m K c jh.1 jh.2) $$ [HrsSPos] with Hz1
  · iframe # ∗
  imod (close_all m K (fun jh : Fin 3 × Fin 2 => (records_rs m K c jh.1 jh.2).trans (sep_elim_right.trans (sep_elim_right.trans sep_elim_left))) fun jh => close_rsRecv m K c jh.1 jh.2) $$ [HrsPos] with Hz2
  · iframe # ∗
  imod (close_all m K (fun sh : Fin 15 × Fin 2 => (records_ag m K c sh.1 sh.2).trans sep_elim_left) fun sh => close_agSend m K c sh.1 sh.2) $$ [HagSPos] with Hz3
  · iframe # ∗
  imod (close_all m K (fun sh : Fin 15 × Fin 2 => (records_ag m K c sh.1 sh.2).trans (sep_elim_right.trans (sep_elim_right.trans sep_elim_left))) fun sh => close_agRecv m K c sh.1 sh.2) $$ [HagPos] with Hz4
  · iframe # ∗
  imodintro
  unfold bodyPost Φ₁ Dat.owesAt Pipeline.owesWithin semsZero
  rw [show (dats m 0 c).owed t₀.succ = 0 from rfl]
  simp only [bigSep_sep']
  isplitl [HrsPay HagSPay HagPay Hz1 Hz2 Hz3 Hz4]
  · iframe Hz1 Hz2 Hz3 Hz4
    iapply (scratch_join m c); iframe
  isplitl [HO]
  · iexists W
    isplitr; · ipureintro; exact fun _ _ => Or.inl trivial
    iexact HO
  isplitl [Hx HrsSPay]
  · iexists _
    isplitr; · (ipureintro; rfl)
    iapply (x_split m c).2; iframe
  iexists f
  isplitr; · (ipureintro; exact OutDone_all m c f hf)
  iexact Hout

end Waits

end Cert.Kernel.Hand

end
-- ==== Proof.HandKernel.Tail.lean ====
import proofs.«900721_g7700000000000722_dist_ar_v7x_xyz2x2x4_z_m512_n512_f32_1_alg».proof.Proof.HandKernel.AgStep
import proofs.«900721_g7700000000000722_dist_ar_v7x_xyz2x2x4_z_m512_n512_f32_1_alg».proof.Proof.HandKernel.SendWaits

noncomputable section

namespace Cert.Kernel.Hand

open Cert.Kernel Cert.Kernel.Gen
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ)

def tailProg (c : Dev nD) (v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013 : BitVec 32) :
    Prog (TpuEff nD τ sig (Elt F) Λ₀ .tc) PUnit := do
  k0_part114 xM (Memref.isWhole_whole _) oM (Memref.isWhole_whole _) rsM (Memref.isWhole_whole _) redM (Memref.isWhole_whole _) agM (Memref.isWhole_whole _) cc0_scratch3 cc0_scratch4 cc0_scratch5 cc0_scratch6 c v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013
  let v3629 : Memref sig .tc .vmem S64x128 .f32 := redM.slice (Rect.unit (s := S128x128) ![64, 0] S64x128.size inb_S128x128_S64x128_64_0) (fun _ => rfl)
  let v3630 : Memref sig .tc .vmem S1x64x128 .f32 := agM.slice (Rect.unit (s := S15x128x128) ![13, 64, 0] S1x64x128.size inb_S15x128x128_S1x64x128_13_64_0) (fun _ => rfl)
  let v3631 : Memref sig .tc .vmem S64x128 .f32 := v3630.squeeze S64x128 squeezes_S1x64x128_S64x128
  let v3627 : DmaSems sig S1x1 := cc0_scratch5.slice (Rect.unit (s := S15x2) ![13, 1] S1x1.size inb_S15x2_S1x1_13_1)
  let v3628 : DmaSems sig S_ := v3627.squeeze S_ squeezes_S1x1_S_
  Prog.lift (.waitDma2 v3628.sem v3631 v3629 ((View.wordExact_bits rfl).reshape _ _) (View.wordExact_bits rfl))
  let v3632 : DmaSems sig S1x1 := cc0_scratch5.slice (Rect.unit (s := S15x2) ![14, 1] S1x1.size inb_S15x2_S1x1_14_1)
  let v3633 : DmaSems sig S_ := v3632.squeeze S_ squeezes_S1x1_S_
  let v3634 : Memref sig .tc .vmem S64x128 .f32 := redM.slice (Rect.unit (s := S128x128) ![64, 0] S64x128.size inb_S128x128_S64x128_64_0) (fun _ => rfl)
  let v3635 : Memref sig .tc .vmem S1x64x128 .f32 := agM.slice (Rect.unit (s := S15x128x128) ![14, 64, 0] S1x64x128.size inb_S15x128x128_S1x64x128_14_64_0) (fun _ => rfl)
  let v3636 : Memref sig .tc .vmem S64x128 .f32 := v3635.squeeze S64x128 squeezes_S1x64x128_S64x128
  Prog.lift (.waitDma2 v3633.sem v3636 v3634 ((View.wordExact_bits rfl).reshape _ _) (View.wordExact_bits rfl))
  pure ⟨⟩

theorem cc0_body_skel_eq_front_tail :
    cc0_body_skel (F := F) xM (Memref.isWhole_whole _) oM (Memref.isWhole_whole _) rsM (Memref.isWhole_whole _) redM (Memref.isWhole_whole _) agM (Memref.isWhole_whole _) cc0_scratch3 cc0_scratch4 cc0_scratch5 cc0_scratch6
      = (do
          let ⟨d0, v2, v5, v8, v566, v577, v589, v613, v624, v636, v660, v671, v683, v707, v718, v730, v754, v765, v777, v801, v812, v824, v848, v859, v871, v895, v906, v918, v942, v953, v965, v989, v1000, v1012, v1036, v1047, v1059, v1142, v1153, v1165, v1189, v1200, v1212, v1236, v1247, v1259, v1283, v1294, v1306, v1330, v1341, v1353, v1377, v1388, v1400, v1424, v1435, v1447, v1471, v1482, v1494, v1518, v1529, v1541, v1565, v1576, v1588, v1612, v1623, v1635, v1659, v1670, v1682, v1706, v1717, v1729, v1753, v1764, v1776, v1800, v1811, v1823, v2012, v2013⟩ : Σ' (d0 : Dev nD) (v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 : BitVec 32), BitVec 32 ← k0_part113 xM (Memref.isWhole_whole _) oM (Memref.isWhole_whole _) rsM (Memref.isWhole_whole _) redM (Memref.isWhole_whole _) agM (Memref.isWhole_whole _) cc0_scratch3 cc0_scratch4 cc0_scratch5 cc0_scratch6
          tailProg (F := F) d0 v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013) := rfl

-- a step stated as "this state, then the rest" read as a rule: the records stay and a frame rides along
theorem step_rule (K : GSem nD τ sig → ℕ) {c : Dev nD} {S S' R : sProp 𝕄} {α : Type} {Q : α → sProp 𝕄}
    {p p' : Prog (TpuEff nD τ sig (Elt F) Λ₀ .tc) α}
    (h : iprop(records m K ∗ S) ⊢ iprop((S' -∗ wp frame (wpE (defs₀ (F := F)) 𝒱₀ (c : Thread nD τ) none) Set.univ p' Q) -∗ wp frame (wpE (defs₀ (F := F)) 𝒱₀ (c : Thread nD τ) none) Set.univ p Q))
    (hk : iprop(records m K ∗ S' ∗ R) ⊢ wp frame (wpE (defs₀ (F := F)) 𝒱₀ (c : Thread nD τ) none) Set.univ p' Q) :
    iprop(records m K ∗ S ∗ R) ⊢ wp frame (wpE (defs₀ (F := F)) 𝒱₀ (c : Thread nD τ) none) Set.univ p Q := by
  iintro ⟨#Hrec, HS, HR⟩
  iapply h $$ [HS]
  · iframe # ∗
  iintro HS
  iapply hk; iframe # ∗

theorem sound_tail (K : GSem nD τ sig → ℕ) (c : Dev nD) (Kt : PUnit → sProp 𝕄) (v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013 : BitVec 32) :
    iprop(records m K ∗ levAts L lv ∗ Smid m c 4 3 ∗ (bodyPost m c -∗ Kt ⟨⟩))
      ⊢ wp frame (wpE (defs₀ (F := F)) 𝒱₀ (c : Thread nD τ) none) Set.univ (tailProg (F := F) c v2 v5 v8 v566 v577 v589 v613 v624 v636 v660 v671 v683 v707 v718 v730 v754 v765 v777 v801 v812 v824 v848 v859 v871 v895 v906 v918 v942 v953 v965 v989 v1000 v1012 v1036 v1047 v1059 v1142 v1153 v1165 v1189 v1200 v1212 v1236 v1247 v1259 v1283 v1294 v1306 v1330 v1341 v1353 v1377 v1388 v1400 v1424 v1435 v1447 v1471 v1482 v1494 v1518 v1529 v1541 v1565 v1576 v1588 v1612 v1623 v1635 v1659 v1670 v1682 v1706 v1717 v1729 v1753 v1764 v1776 v1800 v1811 v1823 v2012 v2013) Kt := by
  unfold tailProg
  simp only [k0_part114_eq_skeleton]; unfold k0_part114_skel
  simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton]
  unfold k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel k0_part105_skel k0_part106_skel k0_part107_skel k0_part108_skel k0_part109_skel k0_part110_skel k0_part111_skel k0_part112_skel
  simp only [Prog.lift, Prog.bind_op, Prog.bind_ret, Prog.pure_eq_ret]
  refine (sep_mono_right sep_left_comm.1).trans ?_
  refine step_rule m K (sep_elim_right.trans (ag_ls m c 3 (pay := k0_pay6) fun _ => rfl)) ?_
  refine step_rule m K (ag_unit m K c 4 (agSlot_credit 4 0) (pay := k0_pay7) fun _ => rfl) ?_
  refine step_rule m K (ag_unit m K c 5 (agSlot_credit 5 0) (pay := k0_pay8) fun _ => rfl) ?_
  refine step_rule m K (ag_unit m K c 6 (agSlot_credit 6 0) (pay := k0_pay9) fun _ => rfl) ?_
  refine step_rule m K (ag_unit m K c 7 (agSlot_credit 7 0) (pay := k0_pay10) fun _ => rfl) ?_
  refine step_rule m K (ag_unit m K c 8 (agSlot_credit 8 0) (pay := k0_pay11) fun _ => rfl) ?_
  refine step_rule m K (ag_unit m K c 9 (agSlot_credit 9 0) (pay := k0_pay12) fun _ => rfl) ?_
  refine step_rule m K (ag_unit m K c 10 (agSlot_credit 10 0) (pay := k0_pay13) fun _ => rfl) ?_
  refine step_rule m K (ag_unit m K c 11 (agSlot_credit 11 0) (pay := k0_pay14) fun _ => rfl) ?_
  refine step_rule m K (ag_unit m K c 12 (agSlot_credit 12 0) (pay := k0_pay15) fun _ => rfl) ?_
  refine step_rule m K (ag_unit m K c 13 (agSlot_credit 13 0) (pay := k0_pay16) fun _ => rfl) ?_
  refine step_rule m K (ag_unit m K c 14 (agSlot_credit 14 0) (pay := k0_pay17) fun _ => rfl) ?_
  refine step_rule m K (ag_unit m K c 15 (agSlot_credit 0 1) (pay := k0_pay18) fun _ => rfl) ?_
  refine step_rule m K (ag_unit m K c 16 (agSlot_credit 1 1) (pay := k0_pay19) fun _ => rfl) ?_
  refine step_rule m K (ag_unit m K c 17 (agSlot_credit 2 1) (pay := k0_pay20) fun _ => rfl) ?_
  refine step_rule m K (ag_unit m K c 18 (agSlot_credit 3 1) (pay := k0_pay21) fun _ => rfl) ?_
  refine step_rule m K (ag_unit m K c 19 (agSlot_credit 4 1) (pay := k0_pay22) fun _ => rfl) ?_
  refine step_rule m K (ag_unit m K c 20 (agSlot_credit 5 1) (pay := k0_pay23) fun _ => rfl) ?_
  refine step_rule m K (ag_unit m K c 21 (agSlot_credit 6 1) (pay := k0_pay24) fun _ => rfl) ?_
  refine step_rule m K (ag_unit m K c 22 (agSlot_credit 7 1) (pay := k0_pay25) fun _ => rfl) ?_
  refine step_rule m K (ag_unit m K c 23 (agSlot_credit 8 1) (pay := k0_pay26) fun _ => rfl) ?_
  refine step_rule m K (ag_unit m K c 24 (agSlot_credit 9 1) (pay := k0_pay27) fun _ => rfl) ?_
  refine step_rule m K (ag_unit m K c 25 (agSlot_credit 10 1) (pay := k0_pay28) fun _ => rfl) ?_
  refine step_rule m K (ag_unit m K c 26 (agSlot_credit 11 1) (pay := k0_pay29) fun _ => rfl) ?_
  refine step_rule m K (ag_unit m K c 27 (agSlot_credit 12 1) (pay := k0_pay30) fun _ => rfl) ?_
  refine step_rule m K (ag_unit m K c 28 (agSlot_credit 13 1) (pay := k0_pay31) fun _ => rfl) ?_
  refine step_rule m K (ag_unit m K c 29 (agSlot_credit 14 1) (pay := k0_pay32) fun _ => rfl) ?_
  refine (sep_mono_right (sep_mono_left (Smid_to_Ssw m c))).trans ?_
  refine sw_step m K c (.inl (0, 0)) (rsSrc_credit c 0 0) ?_
  refine sw_step m K c (.inl (1, 0)) (rsSrc_credit c 1 0) ?_
  refine sw_step m K c (.inl (2, 0)) (rsSrc_credit c 2 0) ?_
  refine sw_step m K c (.inr (0, 0)) (redHalf_credit 0) ?_
  refine sw_step m K c (.inr (1, 0)) (redHalf_credit 0) ?_
  refine sw_step m K c (.inr (2, 0)) (redHalf_credit 0) ?_
  refine sw_step m K c (.inr (3, 0)) (redHalf_credit 0) ?_
  refine sw_step m K c (.inr (4, 0)) (redHalf_credit 0) ?_
  refine sw_step m K c (.inr (5, 0)) (redHalf_credit 0) ?_
  refine sw_step m K c (.inr (6, 0)) (redHalf_credit 0) ?_
  refine sw_step m K c (.inr (7, 0)) (redHalf_credit 0) ?_
  refine sw_step m K c (.inr (8, 0)) (redHalf_credit 0) ?_
  refine sw_step m K c (.inr (9, 0)) (redHalf_credit 0) ?_
  refine sw_step m K c (.inr (10, 0)) (redHalf_credit 0) ?_
  refine sw_step m K c (.inr (11, 0)) (redHalf_credit 0) ?_
  refine sw_step m K c (.inr (12, 0)) (redHalf_credit 0) ?_
  refine sw_step m K c (.inr (13, 0)) (redHalf_credit 0) ?_
  refine sw_step m K c (.inr (14, 0)) (redHalf_credit 0) ?_
  refine sw_step m K c (.inl (0, 1)) (rsSrc_credit c 0 1) ?_
  refine sw_step m K c (.inl (1, 1)) (rsSrc_credit c 1 1) ?_
  refine sw_step m K c (.inl (2, 1)) (rsSrc_credit c 2 1) ?_
  refine sw_step m K c (.inr (0, 1)) (redHalf_credit 1) ?_
  refine sw_step m K c (.inr (1, 1)) (redHalf_credit 1) ?_
  refine sw_step m K c (.inr (2, 1)) (redHalf_credit 1) ?_
  refine sw_step m K c (.inr (3, 1)) (redHalf_credit 1) ?_
  refine sw_step m K c (.inr (4, 1)) (redHalf_credit 1) ?_
  refine sw_step m K c (.inr (5, 1)) (redHalf_credit 1) ?_
  refine sw_step m K c (.inr (6, 1)) (redHalf_credit 1) ?_
  refine sw_step m K c (.inr (7, 1)) (redHalf_credit 1) ?_
  refine sw_step m K c (.inr (8, 1)) (redHalf_credit 1) ?_
  refine sw_step m K c (.inr (9, 1)) (redHalf_credit 1) ?_
  refine sw_step m K c (.inr (10, 1)) (redHalf_credit 1) ?_
  refine sw_step m K c (.inr (11, 1)) (redHalf_credit 1) ?_
  refine sw_step m K c (.inr (12, 1)) (redHalf_credit 1) ?_
  refine sw_step m K c (.inr (13, 1)) (redHalf_credit 1) ?_
  refine sw_step m K c (.inr (14, 1)) (redHalf_credit 1) ?_
  rw [wp_ret]
  iintro ⟨#Hrec, HS, -, Hk⟩
  imod (finish m K c) $$ [HS] with HP
  · iframe Hrec; iexact HS
  imodintro
  iapply Hk; iexact HP

end Cert.Kernel.Hand

end
-- ==== Proof.HandKernel.Body.lean ====
import proofs.«900721_g7700000000000722_dist_ar_v7x_xyz2x2x4_z_m512_n512_f32_1_alg».proof.Proof.HandKernel.Front
import proofs.«900721_g7700000000000722_dist_ar_v7x_xyz2x2x4_z_m512_n512_f32_1_alg».proof.Proof.HandKernel.Tail

noncomputable section

namespace Cert.Kernel.Hand

open Cert.Kernel.Gen
open Idealize.ShloMosaic Idealize.ShloMosaic.TcCoe
open Idealize.SL.RA Idealize.SL.BI
open Idealize.SL.BI.BIBase Idealize.SL.Sem
open Idealize.ShloMosaic.Rounds
open Idealize.SL.BI.Laws

variable {F : FTy → Type} [FloatOps F]

local notation "𝕄" => MT nD τ sig (Fin 2) (Elt F) ℕ UU ℕ

variable (m : (ℓ : Loc nD τ sig) → Buf (Elt F) ℓ)

theorem sound_body (K : GSem nD τ sig → ℕ) (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [cc0_body_eq_skeleton, cc0_body_skel_eq_front_tail, wp_bind]
  refine (sep_mono_right ?_).trans (front m K c _)
  refine forall_intro fun res => ?_
  obtain ⟨d0, v2, v5, v8, v566, v577, v589, v613, v624, v636, v660, v671, v683, v707, v718, v730, v754, v765, v777, v801, v812, v824, v848, v859, v871, v895, v906, v918, v942, v953, v965, v989, v1000, v1012, v1036, v1047, v1059, v1142, v1153, v1165, v1189, v1200, v1212, v1236, v1247, v1259, v1283, v1294, v1306, v1330, v1341, v1353, v1377, v1388, v1400, v1424, v1435, v1447, v1471, v1482, v1494, v1518, v1529, v1541, v1565, v1576, v1588, v1612, v1623, v1635, v1659, v1670, v1682, v1706, v1717, v1729, v1753, v1764, v1776, v1800, v1811, v1823, v2012, v2013⟩ := res
  iintro HP %h ⟨Hr, Hl, HS⟩
  subst h
  iapply (sound_tail m K _ Kt)
  iframe # ∗

end Cert.Kernel.Hand

end
-- ==== Proof.lean ====
import proofs.«900721_g7700000000000722_dist_ar_v7x_xyz2x2x4_z_m512_n512_f32_1_alg».proof.Defs
import proofs.«900721_g7700000000000722_dist_ar_v7x_xyz2x2x4_z_m512_n512_f32_1_alg».proof.Proof.Gen.Kernel
import proofs.«900721_g7700000000000722_dist_ar_v7x_xyz2x2x4_z_m512_n512_f32_1_alg».proof.Proof.Gen.KernelIdeal
import proofs.«900721_g7700000000000722_dist_ar_v7x_xyz2x2x4_z_m512_n512_f32_1_alg».proof.Proof.Gen.ReferenceIdeal
import proofs.«900721_g7700000000000722_dist_ar_v7x_xyz2x2x4_z_m512_n512_f32_1_alg».proof.Proof.Gen.Pre_finite_inputs_Kernel
import proofs.«900721_g7700000000000722_dist_ar_v7x_xyz2x2x4_z_m512_n512_f32_1_alg».proof.Proof.Gen.Pre_finite_inputs_ReferenceIdeal
import proofs.«900721_g7700000000000722_dist_ar_v7x_xyz2x2x4_z_m512_n512_f32_1_alg».proof.Proof.Claims
import proofs.«900721_g7700000000000722_dist_ar_v7x_xyz2x2x4_z_m512_n512_f32_1_alg».proof.Proof.HandKernelIdeal.Launch
import proofs.«900721_g7700000000000722_dist_ar_v7x_xyz2x2x4_z_m512_n512_f32_1_alg».proof.Proof.HandKernel.Launch
import proofs.«900721_g7700000000000722_dist_ar_v7x_xyz2x2x4_z_m512_n512_f32_1_alg».proof.Proof.HandKernelIdeal.Body
import proofs.«900721_g7700000000000722_dist_ar_v7x_xyz2x2x4_z_m512_n512_f32_1_alg».proof.Proof.HandKernel.Body

noncomputable section

namespace Cert.Proof

open Idealize.ShloMosaic Idealize.SL.Sem

-- each claim is a run (the kernel's, at the word-level or the ideal instance, or the reference's) with its postcondition weakened
theorem claim : Cert.Claim :=
  ⟨Kernel.Gen.facts, KernelIdeal.Gen.facts, ReferenceIdeal.Gen.facts, Pre_finite_inputs_Kernel.Gen.facts, Pre_finite_inputs_ReferenceIdeal.Gen.facts,
    fun m ρ _ => (θ_run Kernel.defs _ _).mono (fun _ h c => (h c).2) (Kernel.Hand.run_values m ρ (Kernel.Hand.sound_body m)),
    Claims.frame_KI, ReferenceIdeal.RefValue.frame_ri, trivial, Claims.algebraic⟩

end Cert.Proof

end
